-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part3 {F : FTy → Type} [FloatOps F] (main_arg2 : IVec S10000 32) (main_v50 : IVec S_ 1) : IVec S_ 1 :=
  let main_c_19 : IVec S_ 32 := constantI S_ 32 0#32
  let main_v51 : IVec S10000 32 := broadcastInDim S10000 ![] bcast_S_S10000 main_c_19
  let main_v52 : IVec S10000 1 := cmpi .sge main_arg2 main_v51
  let main_c_20 : IVec S_ 32 := constantI S_ 32 63#32
  let main_v53 : IVec S10000 32 := broadcastInDim S10000 ![] bcast_S_S10000 main_c_20
  let main_v54 : IVec S10000 1 := cmpi .sle main_arg2 main_v53
  let main_v55 : IVec S10000 1 := andi main_v52 main_v54
  let main_c_21 : IVec S_ 1 := constantI S_ 1 1#1
  let main_v56 : IVec S_ 1 := (fun x v => Host.reduce IntOp.andi x v reducesTo_S10000_S_d0 h_S_) main_v55 main_c_21
  let main_v57 : IVec S_ 1 := andi main_v50 main_v56
  main_v57

def fn_part2 {F : FTy → Type} [FloatOps F] (main_arg1 : IVec S2x320000 32) (main_arg2 : IVec S10000 32) (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 9999#32
  let main_v46 : IVec S2x320000 32 := broadcastInDim S2x320000 ![] bcast_S_S2x320000 main_c_17
  let main_v47 : IVec S2x320000 1 := cmpi .sle main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  fn_part3 (F := F) main_arg2 main_v50

def fn_part1 {F : FTy → Type} [FloatOps F] (main_arg1 : IVec S2x320000 32) (main_arg2 : IVec S10000 32) (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S10000x1 : Shape := ⟨2, ![10000, 1]⟩
abbrev S128x1 : Shape := ⟨2, ![128, 1]⟩
abbrev S1x16 : Shape := ⟨2, ![1, 16]⟩
abbrev S32x10000 : Shape := ⟨2, ![32, 10000]⟩
abbrev S2000 : Shape := ⟨1, ![2000]⟩
abbrev S_ : Shape := ⟨0, ![]⟩
abbrev S1x10000 : Shape := ⟨2, ![1, 10000]⟩
abbrev S128x10000 : Shape := ⟨2, ![128, 10000]⟩
abbrev S1x32 : Shape := ⟨2, ![1, 32]⟩
abbrev S1280000 : Shape := ⟨1, ![1280000]⟩
abbrev S1600 : Shape := ⟨1, ![1600]⟩
abbrev S64x16 : Shape := ⟨2, ![64, 16]⟩
abbrev S10000x64 : Shape := ⟨2, ![10000, 64]⟩
abbrev S128x64 : Shape := ⟨2, ![128, 64]⟩
abbrev S1x64 : Shape := ⟨2, ![1, 64]⟩

abbrev nBuf : Table → Nat
  | .hbm => 35
  | .local .tc .vmem => 25
  | .local .scVector .vmem => 51
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S10000x1, .i32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S1x16, .f32⟩
  | .hbm, ⟨20, _⟩ => ⟨S32x10000, .f32⟩
  | .hbm, ⟨21, _⟩ => ⟨S128x10000, .f32⟩
  | .hbm, ⟨22, _⟩ => ⟨S1x10000, .f32⟩
  | .hbm, ⟨23, _⟩ => ⟨S1280000, .f32⟩
  | .hbm, ⟨24, _⟩ => ⟨S1280000, .f32⟩
  | .hbm, ⟨25, _⟩ => ⟨S128x10000, .f32⟩
  | .hbm, ⟨26, _⟩ => ⟨S128x10000, .f32⟩
  | .hbm, ⟨27, _⟩ => ⟨S1280000, .f32⟩
  | .hbm, ⟨28, _⟩ => ⟨S1280000, .f32⟩
  | .hbm, ⟨29, _⟩ => ⟨S128x10000, .f32⟩
  | .hbm, ⟨30, _⟩ => ⟨S128x10000, .f32⟩
  | .hbm, ⟨31, _⟩ => ⟨S1280000, .f32⟩
  | .hbm, ⟨32, _⟩ => ⟨S1280000, .f32⟩
  | .hbm, ⟨33, _⟩ => ⟨S128x10000, .f32⟩
  | .hbm, ⟨34, _⟩ => ⟨S64x16, .f32⟩
  | .local .tc .vmem, ⟨0, _⟩ => ⟨S10000x128, .f32⟩
  | .local .tc .vmem, ⟨1, _⟩ => ⟨S128x128, .f32⟩
  | .local .tc .vmem, ⟨2, _⟩ => ⟨S32x10000, .f32⟩
  | .local .tc .vmem, ⟨3, _⟩ => ⟨S128x10000, .f32⟩
  | .local .tc .vmem, ⟨4, _⟩ => ⟨S1x10000, .f32⟩
  | .local .tc .vmem, ⟨5, _⟩ => ⟨S128x10000, .f32⟩
  | .local .tc .vmem, ⟨6, _⟩ => ⟨S128x10000, .f32⟩
  | .local .tc .vmem, ⟨7, _⟩ => ⟨S1x10000, .f32⟩
  | .local .tc .vmem, ⟨8, _⟩ => ⟨S128x1, .f32⟩
  | .local .tc .vmem, ⟨9, _⟩ => ⟨S128x128, .f32⟩
  | .local .tc .vmem, ⟨10, _⟩ => ⟨S128x10000, .f32⟩
  | .local .tc .vmem, ⟨11, _⟩ => ⟨S128x10000, .f32⟩
  | .local .tc .vmem, ⟨12, _⟩ => ⟨S128x10000, .f32⟩
  | .local .tc .vmem, ⟨13, _⟩ => ⟨S1x10000, .f32⟩
  | .local .tc .vmem, ⟨14, _⟩ => ⟨S128x1, .f32⟩
  | .local .tc .vmem, ⟨15, _⟩ => ⟨S128x128, .f32⟩
  | .local .tc .vmem, ⟨16, _⟩ => ⟨S128x10000, .f32⟩
  | .local .tc .vmem, ⟨17, _⟩ => ⟨S128x10000, .f32⟩
  | .local .tc .vmem, ⟨18, _⟩ => ⟨S128x10000, .f32⟩
  | .local .tc .vmem, ⟨19, _⟩ => ⟨S1x10000, .f32⟩
  | .local .tc .vmem, ⟨20, _⟩ => ⟨S128x1, .f32⟩
  | .local .tc .vmem, ⟨21, _⟩ => ⟨S10000x1, .i32⟩
  | .local .tc .vmem, ⟨22, _⟩ => ⟨S128x16, .f32⟩
  | .local .tc .vmem, ⟨23, _⟩ => ⟨S1x16, .f32⟩
  | .local .tc .vmem, ⟨24, _⟩ => ⟨S64x16, .f32⟩
  | .local .scVector .vmem, ⟨0, _⟩ => ⟨S10000, .f32⟩
  | .local .scVector .vmem, ⟨1, _⟩ => ⟨S10000, .f32⟩
  | .local .scVector .vmem, ⟨2, _⟩ => ⟨S2000, .i32⟩
  | .local .scVector .vmem, ⟨3, _⟩ => ⟨S10000, .f32⟩
  | .local .scVector .vmem, ⟨4, _⟩ => ⟨S10000, .f32⟩
  | .local .scVector .vmem, ⟨5, _⟩ => ⟨S10000, .f32⟩
  | .local .scVector .vmem, ⟨6, _⟩ => ⟨S10000, .f32⟩
  | .local .scVector .vmem, ⟨7, _⟩ => ⟨S10000, .f32⟩
  | .local .scVector .vmem, ⟨8, _⟩ => ⟨S10000, .f32⟩
  | .local .scVector .vmem, ⟨9, _⟩ => ⟨S10000, .f32⟩
  | .local .scVector .vmem, ⟨10, _⟩ => ⟨S10000, .f32⟩
  | .local .scVector .vmem, ⟨11, _⟩ => ⟨S10000, .f32⟩
  | .local .scVector .vmem, ⟨12, _⟩ => ⟨S10000, .f32⟩
  | .local .scVector .vmem, ⟨13, _⟩ => ⟨S10000, .f32⟩
  | .local .scVector .vmem, ⟨14, _⟩ => ⟨S10000, .f32⟩
  | .local .scVector .vmem, ⟨15, _⟩ => ⟨S1600, .i32⟩
  | .local .scVector .vmem, ⟨16, _⟩ => ⟨S1600, .i32⟩
  | .local .scVector .vmem, ⟨17, _⟩ => ⟨S1600, .i32⟩
  | .local .scVector .vmem, ⟨18, _⟩ => ⟨S1600, .i32⟩
  | .local .scVector .vmem, ⟨19, _⟩ => ⟨S10000, .f32⟩
  | .local .scVector .vmem, ⟨20, _⟩ => ⟨S10000, .f32⟩
  | .local .scVector .vmem, ⟨21, _⟩ => ⟨S10000, .f32⟩
  | .local .scVector .vmem, ⟨22, _⟩ => ⟨S10000, .f32⟩
  | .local .scVector .vmem, ⟨23, _⟩ => ⟨S10000, .f32⟩
  | .local .scVector .vmem, ⟨24, _⟩ => ⟨S10000, .f32⟩
  | .local .scVector .vmem, ⟨25, _⟩ => ⟨S10000, .f32⟩
  | .local .scVector .vmem, ⟨26, _⟩ => ⟨S10000, .f32⟩
  | .local .scVector .vmem, ⟨27, _⟩ => ⟨S10000, .f32⟩
  | .local .scVector .vmem, ⟨28, _⟩ => ⟨S10000, .f32⟩
  | .local .scVector .vmem, ⟨29, _⟩ => ⟨S10000, .f32⟩
  | .local .scVector .vmem, ⟨30, _⟩ => ⟨S10000, .f32⟩
  | .local .scVector .vmem, ⟨31, _⟩ => ⟨S1600, .i32⟩
  | .local .scVector .vmem, ⟨32, _⟩ => ⟨S1600, .i32⟩
  | .local .scVector .vmem, ⟨33, _⟩ => ⟨S1600, .i32⟩
  | .local .scVector .vmem, ⟨34, _⟩ => ⟨S1600, .i32⟩
  | .local .scVector .vmem, ⟨35, _⟩ => ⟨S10000, .f32⟩
  | .local .scVector .vmem, ⟨36, _⟩ => ⟨S10000, .f32⟩
  | .local .scVector .vmem, ⟨37, _⟩ => ⟨S10000, .f32⟩
  | .local .scVector .vmem, ⟨38, _⟩ => ⟨S10000, .f32⟩
  | .local .scVector .vmem, ⟨39, _⟩ => ⟨S10000, .f32⟩
  | .local .scVector .vmem, ⟨40, _⟩ => ⟨S10000, .f32⟩
  | .local .scVector .vmem, ⟨41, _⟩ => ⟨S10000, .f32⟩
  | .local .scVector .vmem, ⟨42, _⟩ => ⟨S10000, .f32⟩
  | .local .scVector .vmem, ⟨43, _⟩ => ⟨S10000, .f32⟩
  | .local .scVector .vmem, ⟨44, _⟩ => ⟨S10000, .f32⟩
  | .local .scVector .vmem, ⟨45, _⟩ => ⟨S10000, .f32⟩
  | .local .scVector .vmem, ⟨46, _⟩ => ⟨S10000, .f32⟩
  | .local .scVector .vmem, ⟨47, _⟩ => ⟨S1600, .i32⟩
  | .local .scVector .vmem, ⟨48, _⟩ => ⟨S1600, .i32⟩
  | .local .scVector .vmem, ⟨49, _⟩ => ⟨S1600, .i32⟩
  | .local .scVector .vmem, ⟨50, _⟩ => ⟨S1600, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v3_scv : Ref sig .scVector := ⟨.hbm, 14, rfl⟩
abbrev main_v9_scv : Ref sig .scVector := ⟨.hbm, 20, rfl⟩
abbrev main_v11_scv : Ref sig .scVector := ⟨.hbm, 23, rfl⟩
abbrev main_v1_scv : Ref sig .scVector := ⟨.hbm, 12, rfl⟩
abbrev main_v12_scv : Ref sig .scVector := ⟨.hbm, 24, rfl⟩
abbrev main_v15_scv : Ref sig .scVector := ⟨.hbm, 27, rfl⟩
abbrev main_v16_scv : Ref sig .scVector := ⟨.hbm, 28, rfl⟩
abbrev main_v19_scv : Ref sig .scVector := ⟨.hbm, 31, rfl⟩
abbrev main_v20_scv : Ref sig .scVector := ⟨.hbm, 32, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc3_stg0_0 : Ref sig .tc := ⟨.vmem, 5, rfl⟩
abbrev cc3_stg1_0 : Ref sig .tc := ⟨.vmem, 6, rfl⟩
abbrev cc3_stg2_0 : Ref sig .tc := ⟨.vmem, 7, rfl⟩
abbrev cc3_stg3_0 : Ref sig .tc := ⟨.vmem, 8, rfl⟩
abbrev cc3_stg4_0 : Ref sig .tc := ⟨.vmem, 9, rfl⟩
abbrev cc3_stg5_0 : Ref sig .tc := ⟨.vmem, 10, rfl⟩
abbrev cc5_stg0_0 : Ref sig .tc := ⟨.vmem, 11, rfl⟩
abbrev cc5_stg1_0 : Ref sig .tc := ⟨.vmem, 12, rfl⟩
abbrev cc5_stg2_0 : Ref sig .tc := ⟨.vmem, 13, rfl⟩
abbrev cc5_stg3_0 : Ref sig .tc := ⟨.vmem, 14, rfl⟩
abbrev cc5_stg4_0 : Ref sig .tc := ⟨.vmem, 15, rfl⟩
abbrev cc5_stg5_0 : Ref sig .tc := ⟨.vmem, 16, rfl⟩
abbrev cc7_stg0_0 : Ref sig .tc := ⟨.vmem, 17, rfl⟩
abbrev cc7_stg1_0 : Ref sig .tc := ⟨.vmem, 18, rfl⟩
abbrev cc7_stg2_0 : Ref sig .tc := ⟨.vmem, 19, rfl⟩
abbrev cc7_stg3_0 : Ref sig .tc := ⟨.vmem, 20, rfl⟩
abbrev cc7_stg4_0 : Ref sig .tc := ⟨.vmem, 21, rfl⟩
abbrev cc7_stg5_0 : Ref sig .tc := ⟨.vmem, 22, rfl⟩
abbrev cc7_stg6_0 : Ref sig .tc := ⟨.vmem, 23, rfl⟩
abbrev cc7_stg7_0 : Ref sig .tc := ⟨.vmem, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc2_scratch4 : Ref sig .scVector := ⟨.vmem, 7, rfl⟩
abbrev cc2_scratch5 : Ref sig .scVector := ⟨.vmem, 8, rfl⟩
abbrev cc2_scratch6 : Ref sig .scVector := ⟨.vmem, 9, rfl⟩
abbrev cc2_scratch7 : Ref sig .scVector := ⟨.vmem, 10, rfl⟩
abbrev cc2_scratch8 : Ref sig .scVector := ⟨.vmem, 11, rfl⟩
abbrev cc2_scratch9 : Ref sig .scVector := ⟨.vmem, 12, rfl⟩
abbrev cc2_scratch10 : Ref sig .scVector := ⟨.vmem, 13, rfl⟩
abbrev cc2_scratch11 : Ref sig .scVector := ⟨.vmem, 14, rfl⟩
abbrev cc2_scratch12 : Ref sig .scVector := ⟨.vmem, 15, rfl⟩
abbrev cc2_scratch13 : Ref sig .scVector := ⟨.vmem, 16, rfl⟩
abbrev cc2_scratch14 : Ref sig .scVector := ⟨.vmem, 17, rfl⟩
abbrev cc2_scratch15 : Ref sig .scVector := ⟨.vmem, 18, rfl⟩
abbrev cc4_scratch0 : Ref sig .scVector := ⟨.vmem, 19, rfl⟩
abbrev cc4_scratch1 : Ref sig .scVector := ⟨.vmem, 20, rfl⟩
abbrev cc4_scratch2 : Ref sig .scVector := ⟨.vmem, 21, rfl⟩
abbrev cc4_scratch3 : Ref sig .scVector := ⟨.vmem, 22, rfl⟩
abbrev cc4_scratch4 : Ref sig .scVector := ⟨.vmem, 23, rfl⟩
abbrev cc4_scratch5 : Ref sig .scVector := ⟨.vmem, 24, rfl⟩
abbrev cc4_scratch6 : Ref sig .scVector := ⟨.vmem, 25, rfl⟩
abbrev cc4_scratch7 : Ref sig .scVector := ⟨.vmem, 26, rfl⟩
abbrev cc4_scratch8 : Ref sig .scVector := ⟨.vmem, 27, rfl⟩
abbrev cc4_scratch9 : Ref sig .scVector := ⟨.vmem, 28, rfl⟩
abbrev cc4_scratch10 : Ref sig .scVector := ⟨.vmem, 29, rfl⟩
abbrev cc4_scratch11 : Ref sig .scVector := ⟨.vmem, 30, rfl⟩
abbrev cc4_scratch12 : Ref sig .scVector := ⟨.vmem, 31, rfl⟩
abbrev cc4_scratch13 : Ref sig .scVector := ⟨.vmem, 32, rfl⟩
abbrev cc4_scratch14 : Ref sig .scVector := ⟨.vmem, 33, rfl⟩
abbrev cc4_scratch15 : Ref sig .scVector := ⟨.vmem, 34, rfl⟩
abbrev cc6_scratch0 : Ref sig .scVector := ⟨.vmem, 35, rfl⟩
abbrev cc6_scratch1 : Ref sig .scVector := ⟨.vmem, 36, rfl⟩
abbrev cc6_scratch2 : Ref sig .scVector := ⟨.vmem, 37, rfl⟩
abbrev cc6_scratch3 : Ref sig .scVector := ⟨.vmem, 38, rfl⟩
abbrev cc6_scratch4 : Ref sig .scVector := ⟨.vmem, 39, rfl⟩
abbrev cc6_scratch5 : Ref sig .scVector := ⟨.vmem, 40, rfl⟩
abbrev cc6_scratch6 : Ref sig .scVector := ⟨.vmem, 41, rfl⟩
abbrev cc6_scratch7 : Ref sig .scVector := ⟨.vmem, 42, rfl⟩
abbrev cc6_scratch8 : Ref sig .scVector := ⟨.vmem, 43, rfl⟩
abbrev cc6_scratch9 : Ref sig .scVector := ⟨.vmem, 44, rfl⟩
abbrev cc6_scratch10 : Ref sig .scVector := ⟨.vmem, 45, rfl⟩
abbrev cc6_scratch11 : Ref sig .scVector := ⟨.vmem, 46, rfl⟩
abbrev cc6_scratch12 : Ref sig .scVector := ⟨.vmem, 47, rfl⟩
abbrev cc6_scratch13 : Ref sig .scVector := ⟨.vmem, 48, rfl⟩
abbrev cc6_scratch14 : Ref sig .scVector := ⟨.vmem, 49, rfl⟩
abbrev cc6_scratch15 : Ref sig .scVector := ⟨.vmem, 50, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem5_0 : DmaSem sig := 19
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc7_sem0_0 : DmaSem sig := 40
abbrev cc7_sem1_0 : DmaSem sig := 41
abbrev cc7_sem2_0 : DmaSem sig := 42
abbrev cc7_sem3_0 : DmaSem sig := 43
abbrev cc7_sem4_0 : DmaSem sig := 44
abbrev cc7_sem5_0 : DmaSem sig := 45
abbrev cc7_sem6_0 : DmaSem sig := 46
abbrev cc7_sem7_0 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c625_i32 : BitVec 32 := 625#32
  let v4 : BitVec 32 := Scalar.addi c0_i32_1 c625_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let c16_i32 : BitVec 32 := 16#32
  let v7 : BitVec 32 := Scalar.muli arg7 c16_i32
  let v8 : Index := Scalar.indexCast v7
  ![v8.toNat]
@[reducible] def k0_t2_loop : Scf.Loop 32 :=
  let c0_i32_4 : BitVec 32 := 0#32
  let c5_i32 : BitVec 32 := 5#32
  let v5 : BitVec 32 := Scalar.addi c0_i32_4 c5_i32
  let c1_i32_5 : BitVec 32 := 1#32
  ⟨c0_i32_4, v5, c1_i32_5⟩
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v7 : BitVec 32 := Scalar.muli v1 c10000_i32
  let c0_i32_4 : BitVec 32 := 0#32
  let c1_i32_5 : BitVec 32 := 1#32
  let arg7 : BitVec 32 := Scf.iv c0_i32_4 c1_i32_5 k0_t2
  let c2000_i32 : BitVec 32 := 2000#32
  let v8 : BitVec 32 := Scalar.muli arg7 c2000_i32
  let v9 : BitVec 32 := Scalar.addi v7 v8
  ![v9.toNat]
@[reducible] def k0_t3_loop : Scf.Loop 32 :=
  let c0_i32_13 : BitVec 32 := 0#32
  let c62_i32 : BitVec 32 := 62#32
  let v10 : BitVec 32 := Scalar.addi c0_i32_13 c62_i32
  let c1_i32_14 : BitVec 32 := 1#32
  ⟨c0_i32_13, v10, c1_i32_14⟩
def k0_off3 (k0_t3 : Fin k0_t3_loop.trips) : Fin 1 → Nat :=
  let c0_i32_13 : BitVec 32 := 0#32
  let c1_i32_14 : BitVec 32 := 1#32
  let arg8 : BitVec 32 := Scf.iv c0_i32_13 c1_i32_14 k0_t3
  let c2_i32_16 : BitVec 32 := 2#32
  let v12 : BitVec 32 := Scalar.muli arg8 c2_i32_16
  let c16_i32 : BitVec 32 := 16#32
  let v13 : BitVec 32 := Scalar.muli v12 c16_i32
  let v14 : Index := Scalar.indexCast v13
  ![v14.toNat]

def k0_chk1 (v15 : IVec S16 32) : Prop :=
  (∀ a x, ((![v15] : Fin 1 → IVec S16 32) a x).toNat < S10000.size a)
instance k0_chk1.dec : ∀ (v15 : IVec S16 32), Decidable (k0_chk1 v15) := fun v15 => decidable_of_iff' _ (Iff.of_eq (k0_chk1.eq_1 v15))
theorem k0_idx1_inb : ∀ (v15 : IVec S16 32) (k0_hw1 : k0_chk1 v15), ∀ a x, ((![v15] : Fin 1 → IVec S16 32) a x).toNat < S10000.size a := fun v15 k0_hw1 => k0_hw1
def k0_off4 (k0_t3 : Fin k0_t3_loop.trips) : Fin 1 → Nat :=
  let c0_i32_13 : BitVec 32 := 0#32
  let c1_i32_14 : BitVec 32 := 1#32
  let arg8 : BitVec 32 := Scf.iv c0_i32_13 c1_i32_14 k0_t3
  let c2_i32_17 : BitVec 32 := 2#32
  let v16 : BitVec 32 := Scalar.muli arg8 c2_i32_17
  let c1_i32_18 : BitVec 32 := 1#32
  let v17 : BitVec 32 := Scalar.addi v16 c1_i32_18
  let c16_i32_19 : BitVec 32 := 16#32
  let v18 : BitVec 32 := Scalar.muli v17 c16_i32_19
  let v19 : Index := Scalar.indexCast v18
  ![v19.toNat]

def k0_chk2 (v20 : IVec S16 32) : Prop :=
  (∀ a x, ((![v20] : Fin 1 → IVec S16 32) a x).toNat < S10000.size a)
instance k0_chk2.dec : ∀ (v20 : IVec S16 32), Decidable (k0_chk2 v20) := fun v20 => decidable_of_iff' _ (Iff.of_eq (k0_chk2.eq_1 v20))
theorem k0_idx2_inb : ∀ (v20 : IVec S16 32) (k0_hw2 : k0_chk2 v20), ∀ a x, ((![v20] : Fin 1 → IVec S16 32) a x).toNat < S10000.size a := fun v20 k0_hw2 => k0_hw2

def k0_chk3 (v11 : IVec S16 32) : Prop :=
  (∀ a x, ((![v11] : Fin 1 → IVec S16 32) a x).toNat < S10000.size a)
instance k0_chk3.dec : ∀ (v11 : IVec S16 32), Decidable (k0_chk3 v11) := fun v11 => decidable_of_iff' _ (Iff.of_eq (k0_chk3.eq_1 v11))
theorem k0_idx3_inb : ∀ (v11 : IVec S16 32) (k0_hw3 : k0_chk3 v11), ∀ a x, ((![v11] : Fin 1 → IVec S16 32) a x).toNat < S10000.size a := fun v11 k0_hw3 => k0_hw3
@[reducible] def k0_t4_loop : Scf.Loop 32 :=
  let c0_i32_8 : BitVec 32 := 0#32
  let c625_i32_9 : BitVec 32 := 625#32
  let v6 : BitVec 32 := Scalar.addi c0_i32_8 c625_i32_9
  let c1_i32_10 : BitVec 32 := 1#32
  ⟨c0_i32_8, v6, c1_i32_10⟩
def k0_off5 (k0_t4 : Fin k0_t4_loop.trips) : Fin 1 → Nat :=
  let c0_i32_8 : BitVec 32 := 0#32
  let c1_i32_10 : BitVec 32 := 1#32
  let arg7 : BitVec 32 := Scf.iv c0_i32_8 c1_i32_10 k0_t4
  let c16_i32 : BitVec 32 := 16#32
  let v7 : BitVec 32 := Scalar.muli arg7 c16_i32
  let v8 : Index := Scalar.indexCast v7
  ![v8.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r1 : BitVec 32 := 0#32
  ![v1.toNat, 0]
abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x10000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x10000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c10000_i32 : BitVec 32 := 10000#32
  let v4 : BitVec 32 := Scalar.muli v3 c10000_i32
  ![v4.toNat]
@[reducible] def k2_t1_loop : Scf.Loop 32 :=
  let c0_i32_12 : BitVec 32 := 0#32
  let c625_i32 : BitVec 32 := 625#32
  let v27 : BitVec 32 := Scalar.addi c0_i32_12 c625_i32
  let c1_i32_13 : BitVec 32 := 1#32
  ⟨c0_i32_12, v27, c1_i32_13⟩
def k2_off2 (k2_t1 : Fin k2_t1_loop.trips) : Fin 1 → Nat :=
  let c0_i32_12 : BitVec 32 := 0#32
  let c1_i32_13 : BitVec 32 := 1#32
  let arg25 : BitVec 32 := Scf.iv c0_i32_12 c1_i32_13 k2_t1
  let c16_i32 : BitVec 32 := 16#32
  let v62 : BitVec 32 := Scalar.muli arg25 c16_i32
  let v63 : Index := Scalar.indexCast v62
  ![v63.toNat]
@[reducible] def k2_t2_loop : Scf.Loop 32 :=
  let c0_i32_28 : BitVec 32 := 0#32
  let c100_i32 : BitVec 32 := 100#32
  let v48 : BitVec 32 := Scalar.addi c0_i32_28 c100_i32
  let c1_i32_29 : BitVec 32 := 1#32
  ⟨c0_i32_28, v48, c1_i32_29⟩
def k2_off3 (k2_t2 : Fin k2_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k2_t2
  let v62 : BitVec 32 := Scalar.muli c2_i32_48 arg25
  let c1600_i32 : BitVec 32 := 1600#32
  let v63 : BitVec 32 := Scalar.muli v62 c1600_i32
  ![v63.toNat]
def k2_off4 (k2_t2 : Fin k2_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k2_t2
  let v62 : BitVec 32 := Scalar.muli c2_i32_48 arg25
  let c1_i32_50 : BitVec 32 := 1#32
  let v69 : BitVec 32 := Scalar.addi v62 c1_i32_50
  let c1600_i32_51 : BitVec 32 := 1600#32
  let v70 : BitVec 32 := Scalar.muli v69 c1600_i32_51
  ![v70.toNat]
@[reducible] def k2_t3_loop : Scf.Loop 32 :=
  let c0_i32_54 : BitVec 32 := 0#32
  let c50_i32 : BitVec 32 := 50#32
  let v76 : BitVec 32 := Scalar.addi c0_i32_54 c50_i32
  let c1_i32_55 : BitVec 32 := 1#32
  ⟨c0_i32_54, v76, c1_i32_55⟩
def k2_off5 (k2_t3 : Fin k2_t3_loop.trips) : Fin 1 → Nat :=
  let c0_i32_54 : BitVec 32 := 0#32
  let c1_i32_55 : BitVec 32 := 1#32
  let arg26 : BitVec 32 := Scf.iv c0_i32_54 c1_i32_55 k2_t3
  let c2_i32_67 : BitVec 32 := 2#32
  let v89 : BitVec 32 := Scalar.muli arg26 c2_i32_67
  let c16_i32 : BitVec 32 := 16#32
  let v90 : BitVec 32 := Scalar.muli v89 c16_i32
  let v91 : Index := Scalar.indexCast v90
  ![v91.toNat]

def k2_chk1 (v92 : IVec S16 32) : Prop :=
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a)
instance k2_chk1.dec : ∀ (v92 : IVec S16 32), Decidable (k2_chk1 v92) := fun v92 => decidable_of_iff' _ (Iff.of_eq (k2_chk1.eq_1 v92))
theorem k2_idx1_inb : ∀ (v92 : IVec S16 32) (k2_hw1 : k2_chk1 v92), ∀ a x, ((![v92] : Fin 1 → IVec S16 32) a x).toNat < S10000.size a := fun v92 k2_hw1 => k2_hw1.1
theorem k2_idx3_inb : ∀ (v92 : IVec S16 32) (k2_hw1 : k2_chk1 v92), ∀ a x, ((![v92] : Fin 1 → IVec S16 32) a x).toNat < S10000.size a := fun v92 k2_hw1 => k2_hw1.2.1
theorem k2_idx5_inb : ∀ (v92 : IVec S16 32) (k2_hw1 : k2_chk1 v92), ∀ a x, ((![v92] : Fin 1 → IVec S16 32) a x).toNat < S10000.size a := fun v92 k2_hw1 => k2_hw1.2.2.1
theorem k2_idx7_inb : ∀ (v92 : IVec S16 32) (k2_hw1 : k2_chk1 v92), ∀ a x, ((![v92] : Fin 1 → IVec S16 32) a x).toNat < S10000.size a := fun v92 k2_hw1 => k2_hw1.2.2.2

def k2_chk2 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
instance k2_chk2.dec : ∀ (v95 : IVec S16 32), Decidable (k2_chk2 v95) := fun v95 => decidable_of_iff' _ (Iff.of_eq (k2_chk2.eq_1 v95))
theorem k2_idx2_inb : ∀ (v95 : IVec S16 32) (k2_hw2 : k2_chk2 v95), ∀ a x, ((![v95] : Fin 1 → IVec S16 32) a x).toNat < S10000.size a := fun v95 k2_hw2 => k2_hw2.1
theorem k2_idx4_inb : ∀ (v95 : IVec S16 32) (k2_hw2 : k2_chk2 v95), ∀ a x, ((![v95] : Fin 1 → IVec S16 32) a x).toNat < S10000.size a := fun v95 k2_hw2 => k2_hw2.2.1
theorem k2_idx6_inb : ∀ (v95 : IVec S16 32) (k2_hw2 : k2_chk2 v95), ∀ a x, ((![v95] : Fin 1 → IVec S16 32) a x).toNat < S10000.size a := fun v95 k2_hw2 => k2_hw2.2.2.1
theorem k2_idx8_inb : ∀ (v95 : IVec S16 32) (k2_hw2 : k2_chk2 v95), ∀ a x, ((![v95] : Fin 1 → IVec S16 32) a x).toNat < S10000.size a := fun v95 k2_hw2 => k2_hw2.2.2.2
def k2_off6 (k2_t3 : Fin k2_t3_loop.trips) : Fin 1 → Nat :=
  let c0_i32_54 : BitVec 32 := 0#32
  let c1_i32_55 : BitVec 32 := 1#32
  let arg26 : BitVec 32 := Scf.iv c0_i32_54 c1_i32_55 k2_t3
  let c2_i32_69 : BitVec 32 := 2#32
  let v100 : BitVec 32 := Scalar.muli arg26 c2_i32_69
  let c1_i32_70 : BitVec 32 := 1#32
  let v101 : BitVec 32 := Scalar.addi v100 c1_i32_70
  let c16_i32_71 : BitVec 32 := 16#32
  let v102 : BitVec 32 := Scalar.muli v101 c16_i32_71
  let v103 : Index := Scalar.indexCast v102
  ![v103.toNat]

def k2_chk3 (v104 : IVec S16 32) : Prop :=
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a)
instance k2_chk3.dec : ∀ (v104 : IVec S16 32), Decidable (k2_chk3 v104) := fun v104 => decidable_of_iff' _ (Iff.of_eq (k2_chk3.eq_1 v104))
theorem k2_idx9_inb : ∀ (v104 : IVec S16 32) (k2_hw3 : k2_chk3 v104), ∀ a x, ((![v104] : Fin 1 → IVec S16 32) a x).toNat < S10000.size a := fun v104 k2_hw3 => k2_hw3.1
theorem k2_idx11_inb : ∀ (v104 : IVec S16 32) (k2_hw3 : k2_chk3 v104), ∀ a x, ((![v104] : Fin 1 → IVec S16 32) a x).toNat < S10000.size a := fun v104 k2_hw3 => k2_hw3.2.1
theorem k2_idx13_inb : ∀ (v104 : IVec S16 32) (k2_hw3 : k2_chk3 v104), ∀ a x, ((![v104] : Fin 1 → IVec S16 32) a x).toNat < S10000.size a := fun v104 k2_hw3 => k2_hw3.2.2.1
theorem k2_idx15_inb : ∀ (v104 : IVec S16 32) (k2_hw3 : k2_chk3 v104), ∀ a x, ((![v104] : Fin 1 → IVec S16 32) a x).toNat < S10000.size a := fun v104 k2_hw3 => k2_hw3.2.2.2

def k2_chk4 (v107 : IVec S16 32) : Prop :=
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a)
instance k2_chk4.dec : ∀ (v107 : IVec S16 32), Decidable (k2_chk4 v107) := fun v107 => decidable_of_iff' _ (Iff.of_eq (k2_chk4.eq_1 v107))
theorem k2_idx10_inb : ∀ (v107 : IVec S16 32) (k2_hw4 : k2_chk4 v107), ∀ a x, ((![v107] : Fin 1 → IVec S16 32) a x).toNat < S10000.size a := fun v107 k2_hw4 => k2_hw4.1
theorem k2_idx12_inb : ∀ (v107 : IVec S16 32) (k2_hw4 : k2_chk4 v107), ∀ a x, ((![v107] : Fin 1 → IVec S16 32) a x).toNat < S10000.size a := fun v107 k2_hw4 => k2_hw4.2.1
theorem k2_idx14_inb : ∀ (v107 : IVec S16 32) (k2_hw4 : k2_chk4 v107), ∀ a x, ((![v107] : Fin 1 → IVec S16 32) a x).toNat < S10000.size a := fun v107 k2_hw4 => k2_hw4.2.2.1
theorem k2_idx16_inb : ∀ (v107 : IVec S16 32) (k2_hw4 : k2_chk4 v107), ∀ a x, ((![v107] : Fin 1 → IVec S16 32) a x).toNat < S10000.size a := fun v107 k2_hw4 => k2_hw4.2.2.2
def k2_cond1 (k2_t2 : Fin k2_t2_loop.trips) : BitVec 1 :=
  let c2_i32_48 : BitVec 32 := 2#32
  let c0_i32_28 : BitVec 32 := 0#32
  let c1_i32_29 : BitVec 32 := 1#32
  let arg25 : BitVec 32 := Scf.iv c0_i32_28 c1_i32_29 k2_t2
  let v62 : BitVec 32 := Scalar.muli c2_i32_48 arg25
  let c2_i32_60 : BitVec 32 := 2#32
  let v84 : BitVec 32 := Scalar.addi v62 c2_i32_60
  let c200_i32 : BitVec 32 := 200#32
  let v85 : BitVec 1 := Scalar.cmpi .slt v84 c200_i32
  let v86 : BitVec 32 := Scalar.extui v85
  let c0_i32_61 : BitVec 32 := 0#32
  let v87 : BitVec 1 := Scalar.cmpi .ne v86 c0_i32_61
  v87

def k2_off7 (k2_t2 : Fin k2_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k2_t2
  let v62 : BitVec 32 := Scalar.muli c2_i32_48 arg25
  let c2_i32_67 : BitVec 32 := 2#32
  let v89 : BitVec 32 := Scalar.addi v62 c2_i32_67
  let c1600_i32_68 : BitVec 32 := 1600#32
  let v90 : BitVec 32 := Scalar.muli v89 c1600_i32_68
  ![v90.toNat]
@[reducible] def k2_t4_loop : Scf.Loop 32 :=
  let c0_i32_63 : BitVec 32 := 0#32
  let c50_i32_64 : BitVec 32 := 50#32
  let v88 : BitVec 32 := Scalar.addi c0_i32_63 c50_i32_64
  let c1_i32_65 : BitVec 32 := 1#32
  ⟨c0_i32_63, v88, c1_i32_65⟩
def k2_off8 (k2_t4 : Fin k2_t4_loop.trips) : Fin 1 → Nat :=
  let c0_i32_63 : BitVec 32 := 0#32
  let c1_i32_65 : BitVec 32 := 1#32
  let arg26 : BitVec 32 := Scf.iv c0_i32_63 c1_i32_65 k2_t4
  let c2_i32_67 : BitVec 32 := 2#32
  let v89 : BitVec 32 := Scalar.muli arg26 c2_i32_67
  let c16_i32 : BitVec 32 := 16#32
  let v90 : BitVec 32 := Scalar.muli v89 c16_i32
  let v91 : Index := Scalar.indexCast v90
  ![v91.toNat]

def k2_chk5 (v92 : IVec S16 32) : Prop :=
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a)
instance k2_chk5.dec : ∀ (v92 : IVec S16 32), Decidable (k2_chk5 v92) := fun v92 => decidable_of_iff' _ (Iff.of_eq (k2_chk5.eq_1 v92))
theorem k2_idx17_inb : ∀ (v92 : IVec S16 32) (k2_hw5 : k2_chk5 v92), ∀ a x, ((![v92] : Fin 1 → IVec S16 32) a x).toNat < S10000.size a := fun v92 k2_hw5 => k2_hw5.1
theorem k2_idx19_inb : ∀ (v92 : IVec S16 32) (k2_hw5 : k2_chk5 v92), ∀ a x, ((![v92] : Fin 1 → IVec S16 32) a x).toNat < S10000.size a := fun v92 k2_hw5 => k2_hw5.2.1
theorem k2_idx21_inb : ∀ (v92 : IVec S16 32) (k2_hw5 : k2_chk5 v92), ∀ a x, ((![v92] : Fin 1 → IVec S16 32) a x).toNat < S10000.size a := fun v92 k2_hw5 => k2_hw5.2.2.1
theorem k2_idx23_inb : ∀ (v92 : IVec S16 32) (k2_hw5 : k2_chk5 v92), ∀ a x, ((![v92] : Fin 1 → IVec S16 32) a x).toNat < S10000.size a := fun v92 k2_hw5 => k2_hw5.2.2.2

def k2_chk6 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
instance k2_chk6.dec : ∀ (v95 : IVec S16 32), Decidable (k2_chk6 v95) := fun v95 => decidable_of_iff' _ (Iff.of_eq (k2_chk6.eq_1 v95))
theorem k2_idx18_inb : ∀ (v95 : IVec S16 32) (k2_hw6 : k2_chk6 v95), ∀ a x, ((![v95] : Fin 1 → IVec S16 32) a x).toNat < S10000.size a := fun v95 k2_hw6 => k2_hw6.1
theorem k2_idx20_inb : ∀ (v95 : IVec S16 32) (k2_hw6 : k2_chk6 v95), ∀ a x, ((![v95] : Fin 1 → IVec S16 32) a x).toNat < S10000.size a := fun v95 k2_hw6 => k2_hw6.2.1
theorem k2_idx22_inb : ∀ (v95 : IVec S16 32) (k2_hw6 : k2_chk6 v95), ∀ a x, ((![v95] : Fin 1 → IVec S16 32) a x).toNat < S10000.size a := fun v95 k2_hw6 => k2_hw6.2.2.1
theorem k2_idx24_inb : ∀ (v95 : IVec S16 32) (k2_hw6 : k2_chk6 v95), ∀ a x, ((![v95] : Fin 1 → IVec S16 32) a x).toNat < S10000.size a := fun v95 k2_hw6 => k2_hw6.2.2.2
def k2_off9 (k2_t4 : Fin k2_t4_loop.trips) : Fin 1 → Nat :=
  let c0_i32_63 : BitVec 32 := 0#32
  let c1_i32_65 : BitVec 32 := 1#32
  let arg26 : BitVec 32 := Scf.iv c0_i32_63 c1_i32_65 k2_t4
  let c2_i32_69 : BitVec 32 := 2#32
  let v100 : BitVec 32 := Scalar.muli arg26 c2_i32_69
  let c1_i32_70 : BitVec 32 := 1#32
  let v101 : BitVec 32 := Scalar.addi v100 c1_i32_70
  let c16_i32_71 : BitVec 32 := 16#32
  let v102 : BitVec 32 := Scalar.muli v101 c16_i32_71
  let v103 : Index := Scalar.indexCast v102
  ![v103.toNat]

def k2_chk7 (v104 : IVec S16 32) : Prop :=
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a)
instance k2_chk7.dec : ∀ (v104 : IVec S16 32), Decidable (k2_chk7 v104) := fun v104 => decidable_of_iff' _ (Iff.of_eq (k2_chk7.eq_1 v104))
theorem k2_idx25_inb : ∀ (v104 : IVec S16 32) (k2_hw7 : k2_chk7 v104), ∀ a x, ((![v104] : Fin 1 → IVec S16 32) a x).toNat < S10000.size a := fun v104 k2_hw7 => k2_hw7.1
theorem k2_idx27_inb : ∀ (v104 : IVec S16 32) (k2_hw7 : k2_chk7 v104), ∀ a x, ((![v104] : Fin 1 → IVec S16 32) a x).toNat < S10000.size a := fun v104 k2_hw7 => k2_hw7.2.1
theorem k2_idx29_inb : ∀ (v104 : IVec S16 32) (k2_hw7 : k2_chk7 v104), ∀ a x, ((![v104] : Fin 1 → IVec S16 32) a x).toNat < S10000.size a := fun v104 k2_hw7 => k2_hw7.2.2.1
theorem k2_idx31_inb : ∀ (v104 : IVec S16 32) (k2_hw7 : k2_chk7 v104), ∀ a x, ((![v104] : Fin 1 → IVec S16 32) a x).toNat < S10000.size a := fun v104 k2_hw7 => k2_hw7.2.2.2

def k2_chk8 (v107 : IVec S16 32) : Prop :=
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a)
instance k2_chk8.dec : ∀ (v107 : IVec S16 32), Decidable (k2_chk8 v107) := fun v107 => decidable_of_iff' _ (Iff.of_eq (k2_chk8.eq_1 v107))
theorem k2_idx26_inb : ∀ (v107 : IVec S16 32) (k2_hw8 : k2_chk8 v107), ∀ a x, ((![v107] : Fin 1 → IVec S16 32) a x).toNat < S10000.size a := fun v107 k2_hw8 => k2_hw8.1
theorem k2_idx28_inb : ∀ (v107 : IVec S16 32) (k2_hw8 : k2_chk8 v107), ∀ a x, ((![v107] : Fin 1 → IVec S16 32) a x).toNat < S10000.size a := fun v107 k2_hw8 => k2_hw8.2.1
theorem k2_idx30_inb : ∀ (v107 : IVec S16 32) (k2_hw8 : k2_chk8 v107), ∀ a x, ((![v107] : Fin 1 → IVec S16 32) a x).toNat < S10000.size a := fun v107 k2_hw8 => k2_hw8.2.2.1
theorem k2_idx32_inb : ∀ (v107 : IVec S16 32) (k2_hw8 : k2_chk8 v107), ∀ a x, ((![v107] : Fin 1 → IVec S16 32) a x).toNat < S10000.size a := fun v107 k2_hw8 => k2_hw8.2.2.2
@[reducible] def k2_t5_loop : Scf.Loop 32 :=
  let c0_i32_32 : BitVec 32 := 0#32
  let c625_i32_33 : BitVec 32 := 625#32
  let v49 : BitVec 32 := Scalar.addi c0_i32_32 c625_i32_33
  let c1_i32_34 : BitVec 32 := 1#32
  ⟨c0_i32_32, v49, c1_i32_34⟩
def k2_off10 (k2_t5 : Fin k2_t5_loop.trips) : Fin 1 → Nat :=
  let c0_i32_32 : BitVec 32 := 0#32
  let c1_i32_34 : BitVec 32 := 1#32
  let arg25 : BitVec 32 := Scf.iv c0_i32_32 c1_i32_34 k2_t5
  let c16_i32 : BitVec 32 := 16#32
  let v62 : BitVec 32 := Scalar.muli arg25 c16_i32
  let v63 : Index := Scalar.indexCast v62
  ![v63.toNat]
abbrev grid3 : Pipeline.Grid := .none

abbrev stage3_0 : Fin 1 → Memref sig .tc .vmem S128x10000 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x10000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x10000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S128x10000 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := ⟨2, ![2, 16], ![false, false]⟩

def k4_off1 (i : grid4.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c10000_i32 : BitVec 32 := 10000#32
  let v4 : BitVec 32 := Scalar.muli v3 c10000_i32
  ![v4.toNat]
@[reducible] def k4_t1_loop : Scf.Loop 32 :=
  let c0_i32_12 : BitVec 32 := 0#32
  let c625_i32 : BitVec 32 := 625#32
  let v27 : BitVec 32 := Scalar.addi c0_i32_12 c625_i32
  let c1_i32_13 : BitVec 32 := 1#32
  ⟨c0_i32_12, v27, c1_i32_13⟩
def k4_off2 (k4_t1 : Fin k4_t1_loop.trips) : Fin 1 → Nat :=
  let c0_i32_12 : BitVec 32 := 0#32
  let c1_i32_13 : BitVec 32 := 1#32
  let arg25 : BitVec 32 := Scf.iv c0_i32_12 c1_i32_13 k4_t1
  let c16_i32 : BitVec 32 := 16#32
  let v62 : BitVec 32 := Scalar.muli arg25 c16_i32
  let v63 : Index := Scalar.indexCast v62
  ![v63.toNat]
@[reducible] def k4_t2_loop : Scf.Loop 32 :=
  let c0_i32_28 : BitVec 32 := 0#32
  let c100_i32 : BitVec 32 := 100#32
  let v48 : BitVec 32 := Scalar.addi c0_i32_28 c100_i32
  let c1_i32_29 : BitVec 32 := 1#32
  ⟨c0_i32_28, v48, c1_i32_29⟩
def k4_off3 (k4_t2 : Fin k4_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k4_t2
  let v62 : BitVec 32 := Scalar.muli c2_i32_48 arg25
  let c1600_i32 : BitVec 32 := 1600#32
  let v63 : BitVec 32 := Scalar.muli v62 c1600_i32
  ![v63.toNat]
def k4_off4 (k4_t2 : Fin k4_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k4_t2
  let v62 : BitVec 32 := Scalar.muli c2_i32_48 arg25
  let c1_i32_50 : BitVec 32 := 1#32
  let v69 : BitVec 32 := Scalar.addi v62 c1_i32_50
  let c1600_i32_51 : BitVec 32 := 1600#32
  let v70 : BitVec 32 := Scalar.muli v69 c1600_i32_51
  ![v70.toNat]
@[reducible] def k4_t3_loop : Scf.Loop 32 :=
  let c0_i32_54 : BitVec 32 := 0#32
  let c50_i32 : BitVec 32 := 50#32
  let v76 : BitVec 32 := Scalar.addi c0_i32_54 c50_i32
  let c1_i32_55 : BitVec 32 := 1#32
  ⟨c0_i32_54, v76, c1_i32_55⟩
def k4_off5 (k4_t3 : Fin k4_t3_loop.trips) : Fin 1 → Nat :=
  let c0_i32_54 : BitVec 32 := 0#32
  let c1_i32_55 : BitVec 32 := 1#32
  let arg26 : BitVec 32 := Scf.iv c0_i32_54 c1_i32_55 k4_t3
  let c2_i32_67 : BitVec 32 := 2#32
  let v89 : BitVec 32 := Scalar.muli arg26 c2_i32_67
  let c16_i32 : BitVec 32 := 16#32
  let v90 : BitVec 32 := Scalar.muli v89 c16_i32
  let v91 : Index := Scalar.indexCast v90
  ![v91.toNat]

def k4_chk1 (v92 : IVec S16 32) : Prop :=
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a)
instance k4_chk1.dec : ∀ (v92 : IVec S16 32), Decidable (k4_chk1 v92) := fun v92 => decidable_of_iff' _ (Iff.of_eq (k4_chk1.eq_1 v92))
theorem k4_idx1_inb : ∀ (v92 : IVec S16 32) (k4_hw1 : k4_chk1 v92), ∀ a x, ((![v92] : Fin 1 → IVec S16 32) a x).toNat < S10000.size a := fun v92 k4_hw1 => k4_hw1.1
theorem k4_idx3_inb : ∀ (v92 : IVec S16 32) (k4_hw1 : k4_chk1 v92), ∀ a x, ((![v92] : Fin 1 → IVec S16 32) a x).toNat < S10000.size a := fun v92 k4_hw1 => k4_hw1.2.1
theorem k4_idx5_inb : ∀ (v92 : IVec S16 32) (k4_hw1 : k4_chk1 v92), ∀ a x, ((![v92] : Fin 1 → IVec S16 32) a x).toNat < S10000.size a := fun v92 k4_hw1 => k4_hw1.2.2.1
theorem k4_idx7_inb : ∀ (v92 : IVec S16 32) (k4_hw1 : k4_chk1 v92), ∀ a x, ((![v92] : Fin 1 → IVec S16 32) a x).toNat < S10000.size a := fun v92 k4_hw1 => k4_hw1.2.2.2

def k4_chk2 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
instance k4_chk2.dec : ∀ (v95 : IVec S16 32), Decidable (k4_chk2 v95) := fun v95 => decidable_of_iff' _ (Iff.of_eq (k4_chk2.eq_1 v95))
theorem k4_idx2_inb : ∀ (v95 : IVec S16 32) (k4_hw2 : k4_chk2 v95), ∀ a x, ((![v95] : Fin 1 → IVec S16 32) a x).toNat < S10000.size a := fun v95 k4_hw2 => k4_hw2.1
theorem k4_idx4_inb : ∀ (v95 : IVec S16 32) (k4_hw2 : k4_chk2 v95), ∀ a x, ((![v95] : Fin 1 → IVec S16 32) a x).toNat < S10000.size a := fun v95 k4_hw2 => k4_hw2.2.1
theorem k4_idx6_inb : ∀ (v95 : IVec S16 32) (k4_hw2 : k4_chk2 v95), ∀ a x, ((![v95] : Fin 1 → IVec S16 32) a x).toNat < S10000.size a := fun v95 k4_hw2 => k4_hw2.2.2.1
theorem k4_idx8_inb : ∀ (v95 : IVec S16 32) (k4_hw2 : k4_chk2 v95), ∀ a x, ((![v95] : Fin 1 → IVec S16 32) a x).toNat < S10000.size a := fun v95 k4_hw2 => k4_hw2.2.2.2
def k4_off6 (k4_t3 : Fin k4_t3_loop.trips) : Fin 1 → Nat :=
  let c0_i32_54 : BitVec 32 := 0#32
  let c1_i32_55 : BitVec 32 := 1#32
  let arg26 : BitVec 32 := Scf.iv c0_i32_54 c1_i32_55 k4_t3
  let c2_i32_69 : BitVec 32 := 2#32
  let v100 : BitVec 32 := Scalar.muli arg26 c2_i32_69
  let c1_i32_70 : BitVec 32 := 1#32
  let v101 : BitVec 32 := Scalar.addi v100 c1_i32_70
  let c16_i32_71 : BitVec 32 := 16#32
  let v102 : BitVec 32 := Scalar.muli v101 c16_i32_71
  let v103 : Index := Scalar.indexCast v102
  ![v103.toNat]

def k4_chk3 (v104 : IVec S16 32) : Prop :=
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a)
instance k4_chk3.dec : ∀ (v104 : IVec S16 32), Decidable (k4_chk3 v104) := fun v104 => decidable_of_iff' _ (Iff.of_eq (k4_chk3.eq_1 v104))
theorem k4_idx9_inb : ∀ (v104 : IVec S16 32) (k4_hw3 : k4_chk3 v104), ∀ a x, ((![v104] : Fin 1 → IVec S16 32) a x).toNat < S10000.size a := fun v104 k4_hw3 => k4_hw3.1
theorem k4_idx11_inb : ∀ (v104 : IVec S16 32) (k4_hw3 : k4_chk3 v104), ∀ a x, ((![v104] : Fin 1 → IVec S16 32) a x).toNat < S10000.size a := fun v104 k4_hw3 => k4_hw3.2.1
theorem k4_idx13_inb : ∀ (v104 : IVec S16 32) (k4_hw3 : k4_chk3 v104), ∀ a x, ((![v104] : Fin 1 → IVec S16 32) a x).toNat < S10000.size a := fun v104 k4_hw3 => k4_hw3.2.2.1
theorem k4_idx15_inb : ∀ (v104 : IVec S16 32) (k4_hw3 : k4_chk3 v104), ∀ a x, ((![v104] : Fin 1 → IVec S16 32) a x).toNat < S10000.size a := fun v104 k4_hw3 => k4_hw3.2.2.2

def k4_chk4 (v107 : IVec S16 32) : Prop :=
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a)
instance k4_chk4.dec : ∀ (v107 : IVec S16 32), Decidable (k4_chk4 v107) := fun v107 => decidable_of_iff' _ (Iff.of_eq (k4_chk4.eq_1 v107))
theorem k4_idx10_inb : ∀ (v107 : IVec S16 32) (k4_hw4 : k4_chk4 v107), ∀ a x, ((![v107] : Fin 1 → IVec S16 32) a x).toNat < S10000.size a := fun v107 k4_hw4 => k4_hw4.1
theorem k4_idx12_inb : ∀ (v107 : IVec S16 32) (k4_hw4 : k4_chk4 v107), ∀ a x, ((![v107] : Fin 1 → IVec S16 32) a x).toNat < S10000.size a := fun v107 k4_hw4 => k4_hw4.2.1
theorem k4_idx14_inb : ∀ (v107 : IVec S16 32) (k4_hw4 : k4_chk4 v107), ∀ a x, ((![v107] : Fin 1 → IVec S16 32) a x).toNat < S10000.size a := fun v107 k4_hw4 => k4_hw4.2.2.1
theorem k4_idx16_inb : ∀ (v107 : IVec S16 32) (k4_hw4 : k4_chk4 v107), ∀ a x, ((![v107] : Fin 1 → IVec S16 32) a x).toNat < S10000.size a := fun v107 k4_hw4 => k4_hw4.2.2.2
def k4_cond1 (k4_t2 : Fin k4_t2_loop.trips) : BitVec 1 :=
  let c2_i32_48 : BitVec 32 := 2#32
  let c0_i32_28 : BitVec 32 := 0#32
  let c1_i32_29 : BitVec 32 := 1#32
  let arg25 : BitVec 32 := Scf.iv c0_i32_28 c1_i32_29 k4_t2
  let v62 : BitVec 32 := Scalar.muli c2_i32_48 arg25
  let c2_i32_60 : BitVec 32 := 2#32
  let v84 : BitVec 32 := Scalar.addi v62 c2_i32_60
  let c200_i32 : BitVec 32 := 200#32
  let v85 : BitVec 1 := Scalar.cmpi .slt v84 c200_i32
  let v86 : BitVec 32 := Scalar.extui v85
  let c0_i32_61 : BitVec 32 := 0#32
  let v87 : BitVec 1 := Scalar.cmpi .ne v86 c0_i32_61
  v87

def k4_off7 (k4_t2 : Fin k4_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k4_t2
  let v62 : BitVec 32 := Scalar.muli c2_i32_48 arg25
  let c2_i32_67 : BitVec 32 := 2#32
  let v89 : BitVec 32 := Scalar.addi v62 c2_i32_67
  let c1600_i32_68 : BitVec 32 := 1600#32
  let v90 : BitVec 32 := Scalar.muli v89 c1600_i32_68
  ![v90.toNat]
@[reducible] def k4_t4_loop : Scf.Loop 32 :=
  let c0_i32_63 : BitVec 32 := 0#32
  let c50_i32_64 : BitVec 32 := 50#32
  let v88 : BitVec 32 := Scalar.addi c0_i32_63 c50_i32_64
  let c1_i32_65 : BitVec 32 := 1#32
  ⟨c0_i32_63, v88, c1_i32_65⟩
def k4_off8 (k4_t4 : Fin k4_t4_loop.trips) : Fin 1 → Nat :=
  let c0_i32_63 : BitVec 32 := 0#32
  let c1_i32_65 : BitVec 32 := 1#32
  let arg26 : BitVec 32 := Scf.iv c0_i32_63 c1_i32_65 k4_t4
  let c2_i32_67 : BitVec 32 := 2#32
  let v89 : BitVec 32 := Scalar.muli arg26 c2_i32_67
  let c16_i32 : BitVec 32 := 16#32
  let v90 : BitVec 32 := Scalar.muli v89 c16_i32
  let v91 : Index := Scalar.indexCast v90
  ![v91.toNat]

def k4_chk5 (v92 : IVec S16 32) : Prop :=
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a)
instance k4_chk5.dec : ∀ (v92 : IVec S16 32), Decidable (k4_chk5 v92) := fun v92 => decidable_of_iff' _ (Iff.of_eq (k4_chk5.eq_1 v92))
theorem k4_idx17_inb : ∀ (v92 : IVec S16 32) (k4_hw5 : k4_chk5 v92), ∀ a x, ((![v92] : Fin 1 → IVec S16 32) a x).toNat < S10000.size a := fun v92 k4_hw5 => k4_hw5.1
theorem k4_idx19_inb : ∀ (v92 : IVec S16 32) (k4_hw5 : k4_chk5 v92), ∀ a x, ((![v92] : Fin 1 → IVec S16 32) a x).toNat < S10000.size a := fun v92 k4_hw5 => k4_hw5.2.1
theorem k4_idx21_inb : ∀ (v92 : IVec S16 32) (k4_hw5 : k4_chk5 v92), ∀ a x, ((![v92] : Fin 1 → IVec S16 32) a x).toNat < S10000.size a := fun v92 k4_hw5 => k4_hw5.2.2.1
theorem k4_idx23_inb : ∀ (v92 : IVec S16 32) (k4_hw5 : k4_chk5 v92), ∀ a x, ((![v92] : Fin 1 → IVec S16 32) a x).toNat < S10000.size a := fun v92 k4_hw5 => k4_hw5.2.2.2

def k4_chk6 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
instance k4_chk6.dec : ∀ (v95 : IVec S16 32), Decidable (k4_chk6 v95) := fun v95 => decidable_of_iff' _ (Iff.of_eq (k4_chk6.eq_1 v95))
theorem k4_idx18_inb : ∀ (v95 : IVec S16 32) (k4_hw6 : k4_chk6 v95), ∀ a x, ((![v95] : Fin 1 → IVec S16 32) a x).toNat < S10000.size a := fun v95 k4_hw6 => k4_hw6.1
theorem k4_idx20_inb : ∀ (v95 : IVec S16 32) (k4_hw6 : k4_chk6 v95), ∀ a x, ((![v95] : Fin 1 → IVec S16 32) a x).toNat < S10000.size a := fun v95 k4_hw6 => k4_hw6.2.1
theorem k4_idx22_inb : ∀ (v95 : IVec S16 32) (k4_hw6 : k4_chk6 v95), ∀ a x, ((![v95] : Fin 1 → IVec S16 32) a x).toNat < S10000.size a := fun v95 k4_hw6 => k4_hw6.2.2.1
theorem k4_idx24_inb : ∀ (v95 : IVec S16 32) (k4_hw6 : k4_chk6 v95), ∀ a x, ((![v95] : Fin 1 → IVec S16 32) a x).toNat < S10000.size a := fun v95 k4_hw6 => k4_hw6.2.2.2
def k4_off9 (k4_t4 : Fin k4_t4_loop.trips) : Fin 1 → Nat :=
  let c0_i32_63 : BitVec 32 := 0#32
  let c1_i32_65 : BitVec 32 := 1#32
  let arg26 : BitVec 32 := Scf.iv c0_i32_63 c1_i32_65 k4_t4
  let c2_i32_69 : BitVec 32 := 2#32
  let v100 : BitVec 32 := Scalar.muli arg26 c2_i32_69
  let c1_i32_70 : BitVec 32 := 1#32
  let v101 : BitVec 32 := Scalar.addi v100 c1_i32_70
  let c16_i32_71 : BitVec 32 := 16#32
  let v102 : BitVec 32 := Scalar.muli v101 c16_i32_71
  let v103 : Index := Scalar.indexCast v102
  ![v103.toNat]

def k4_chk7 (v104 : IVec S16 32) : Prop :=
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a)
instance k4_chk7.dec : ∀ (v104 : IVec S16 32), Decidable (k4_chk7 v104) := fun v104 => decidable_of_iff' _ (Iff.of_eq (k4_chk7.eq_1 v104))
theorem k4_idx25_inb : ∀ (v104 : IVec S16 32) (k4_hw7 : k4_chk7 v104), ∀ a x, ((![v104] : Fin 1 → IVec S16 32) a x).toNat < S10000.size a := fun v104 k4_hw7 => k4_hw7.1
theorem k4_idx27_inb : ∀ (v104 : IVec S16 32) (k4_hw7 : k4_chk7 v104), ∀ a x, ((![v104] : Fin 1 → IVec S16 32) a x).toNat < S10000.size a := fun v104 k4_hw7 => k4_hw7.2.1
theorem k4_idx29_inb : ∀ (v104 : IVec S16 32) (k4_hw7 : k4_chk7 v104), ∀ a x, ((![v104] : Fin 1 → IVec S16 32) a x).toNat < S10000.size a := fun v104 k4_hw7 => k4_hw7.2.2.1
theorem k4_idx31_inb : ∀ (v104 : IVec S16 32) (k4_hw7 : k4_chk7 v104), ∀ a x, ((![v104] : Fin 1 → IVec S16 32) a x).toNat < S10000.size a := fun v104 k4_hw7 => k4_hw7.2.2.2

def k4_chk8 (v107 : IVec S16 32) : Prop :=
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a)
instance k4_chk8.dec : ∀ (v107 : IVec S16 32), Decidable (k4_chk8 v107) := fun v107 => decidable_of_iff' _ (Iff.of_eq (k4_chk8.eq_1 v107))
theorem k4_idx26_inb : ∀ (v107 : IVec S16 32) (k4_hw8 : k4_chk8 v107), ∀ a x, ((![v107] : Fin 1 → IVec S16 32) a x).toNat < S10000.size a := fun v107 k4_hw8 => k4_hw8.1
theorem k4_idx28_inb : ∀ (v107 : IVec S16 32) (k4_hw8 : k4_chk8 v107), ∀ a x, ((![v107] : Fin 1 → IVec S16 32) a x).toNat < S10000.size a := fun v107 k4_hw8 => k4_hw8.2.1
theorem k4_idx30_inb : ∀ (v107 : IVec S16 32) (k4_hw8 : k4_chk8 v107), ∀ a x, ((![v107] : Fin 1 → IVec S16 32) a x).toNat < S10000.size a := fun v107 k4_hw8 => k4_hw8.2.2.1
theorem k4_idx32_inb : ∀ (v107 : IVec S16 32) (k4_hw8 : k4_chk8 v107), ∀ a x, ((![v107] : Fin 1 → IVec S16 32) a x).toNat < S10000.size a := fun v107 k4_hw8 => k4_hw8.2.2.2
@[reducible] def k4_t5_loop : Scf.Loop 32 :=
  let c0_i32_32 : BitVec 32 := 0#32
  let c625_i32_33 : BitVec 32 := 625#32
  let v49 : BitVec 32 := Scalar.addi c0_i32_32 c625_i32_33
  let c1_i32_34 : BitVec 32 := 1#32
  ⟨c0_i32_32, v49, c1_i32_34⟩
def k4_off10 (k4_t5 : Fin k4_t5_loop.trips) : Fin 1 → Nat :=
  let c0_i32_32 : BitVec 32 := 0#32
  let c1_i32_34 : BitVec 32 := 1#32
  let arg25 : BitVec 32 := Scf.iv c0_i32_32 c1_i32_34 k4_t5
  let c16_i32 : BitVec 32 := 16#32
  let v62 : BitVec 32 := Scalar.muli arg25 c16_i32
  let v63 : Index := Scalar.indexCast v62
  ![v63.toNat]
abbrev grid5 : Pipeline.Grid := .none

abbrev stage5_0 : Fin 1 → Memref sig .tc .vmem S128x10000 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S128x10000 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x10000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S128x10000 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := ⟨2, ![2, 16], ![false, false]⟩

def k6_off1 (i : grid6.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c10000_i32 : BitVec 32 := 10000#32
  let v4 : BitVec 32 := Scalar.muli v3 c10000_i32
  ![v4.toNat]
@[reducible] def k6_t1_loop : Scf.Loop 32 :=
  let c0_i32_12 : BitVec 32 := 0#32
  let c625_i32 : BitVec 32 := 625#32
  let v27 : BitVec 32 := Scalar.addi c0_i32_12 c625_i32
  let c1_i32_13 : BitVec 32 := 1#32
  ⟨c0_i32_12, v27, c1_i32_13⟩
def k6_off2 (k6_t1 : Fin k6_t1_loop.trips) : Fin 1 → Nat :=
  let c0_i32_12 : BitVec 32 := 0#32
  let c1_i32_13 : BitVec 32 := 1#32
  let arg25 : BitVec 32 := Scf.iv c0_i32_12 c1_i32_13 k6_t1
  let c16_i32 : BitVec 32 := 16#32
  let v62 : BitVec 32 := Scalar.muli arg25 c16_i32
  let v63 : Index := Scalar.indexCast v62
  ![v63.toNat]
@[reducible] def k6_t2_loop : Scf.Loop 32 :=
  let c0_i32_28 : BitVec 32 := 0#32
  let c100_i32 : BitVec 32 := 100#32
  let v48 : BitVec 32 := Scalar.addi c0_i32_28 c100_i32
  let c1_i32_29 : BitVec 32 := 1#32
  ⟨c0_i32_28, v48, c1_i32_29⟩
def k6_off3 (k6_t2 : Fin k6_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k6_t2
  let v62 : BitVec 32 := Scalar.muli c2_i32_48 arg25
  let c1600_i32 : BitVec 32 := 1600#32
  let v63 : BitVec 32 := Scalar.muli v62 c1600_i32
  ![v63.toNat]
def k6_off4 (k6_t2 : Fin k6_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k6_t2
  let v62 : BitVec 32 := Scalar.muli c2_i32_48 arg25
  let c1_i32_50 : BitVec 32 := 1#32
  let v69 : BitVec 32 := Scalar.addi v62 c1_i32_50
  let c1600_i32_51 : BitVec 32 := 1600#32
  let v70 : BitVec 32 := Scalar.muli v69 c1600_i32_51
  ![v70.toNat]
@[reducible] def k6_t3_loop : Scf.Loop 32 :=
  let c0_i32_54 : BitVec 32 := 0#32
  let c50_i32 : BitVec 32 := 50#32
  let v76 : BitVec 32 := Scalar.addi c0_i32_54 c50_i32
  let c1_i32_55 : BitVec 32 := 1#32
  ⟨c0_i32_54, v76, c1_i32_55⟩
def k6_off5 (k6_t3 : Fin k6_t3_loop.trips) : Fin 1 → Nat :=
  let c0_i32_54 : BitVec 32 := 0#32
  let c1_i32_55 : BitVec 32 := 1#32
  let arg26 : BitVec 32 := Scf.iv c0_i32_54 c1_i32_55 k6_t3
  let c2_i32_67 : BitVec 32 := 2#32
  let v89 : BitVec 32 := Scalar.muli arg26 c2_i32_67
  let c16_i32 : BitVec 32 := 16#32
  let v90 : BitVec 32 := Scalar.muli v89 c16_i32
  let v91 : Index := Scalar.indexCast v90
  ![v91.toNat]

def k6_chk1 (v92 : IVec S16 32) : Prop :=
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a)
instance k6_chk1.dec : ∀ (v92 : IVec S16 32), Decidable (k6_chk1 v92) := fun v92 => decidable_of_iff' _ (Iff.of_eq (k6_chk1.eq_1 v92))
theorem k6_idx1_inb : ∀ (v92 : IVec S16 32) (k6_hw1 : k6_chk1 v92), ∀ a x, ((![v92] : Fin 1 → IVec S16 32) a x).toNat < S10000.size a := fun v92 k6_hw1 => k6_hw1.1
theorem k6_idx3_inb : ∀ (v92 : IVec S16 32) (k6_hw1 : k6_chk1 v92), ∀ a x, ((![v92] : Fin 1 → IVec S16 32) a x).toNat < S10000.size a := fun v92 k6_hw1 => k6_hw1.2.1
theorem k6_idx5_inb : ∀ (v92 : IVec S16 32) (k6_hw1 : k6_chk1 v92), ∀ a x, ((![v92] : Fin 1 → IVec S16 32) a x).toNat < S10000.size a := fun v92 k6_hw1 => k6_hw1.2.2.1
theorem k6_idx7_inb : ∀ (v92 : IVec S16 32) (k6_hw1 : k6_chk1 v92), ∀ a x, ((![v92] : Fin 1 → IVec S16 32) a x).toNat < S10000.size a := fun v92 k6_hw1 => k6_hw1.2.2.2

def k6_chk2 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
instance k6_chk2.dec : ∀ (v95 : IVec S16 32), Decidable (k6_chk2 v95) := fun v95 => decidable_of_iff' _ (Iff.of_eq (k6_chk2.eq_1 v95))
theorem k6_idx2_inb : ∀ (v95 : IVec S16 32) (k6_hw2 : k6_chk2 v95), ∀ a x, ((![v95] : Fin 1 → IVec S16 32) a x).toNat < S10000.size a := fun v95 k6_hw2 => k6_hw2.1
theorem k6_idx4_inb : ∀ (v95 : IVec S16 32) (k6_hw2 : k6_chk2 v95), ∀ a x, ((![v95] : Fin 1 → IVec S16 32) a x).toNat < S10000.size a := fun v95 k6_hw2 => k6_hw2.2.1
theorem k6_idx6_inb : ∀ (v95 : IVec S16 32) (k6_hw2 : k6_chk2 v95), ∀ a x, ((![v95] : Fin 1 → IVec S16 32) a x).toNat < S10000.size a := fun v95 k6_hw2 => k6_hw2.2.2.1
theorem k6_idx8_inb : ∀ (v95 : IVec S16 32) (k6_hw2 : k6_chk2 v95), ∀ a x, ((![v95] : Fin 1 → IVec S16 32) a x).toNat < S10000.size a := fun v95 k6_hw2 => k6_hw2.2.2.2
def k6_off6 (k6_t3 : Fin k6_t3_loop.trips) : Fin 1 → Nat :=
  let c0_i32_54 : BitVec 32 := 0#32
  let c1_i32_55 : BitVec 32 := 1#32
  let arg26 : BitVec 32 := Scf.iv c0_i32_54 c1_i32_55 k6_t3
  let c2_i32_69 : BitVec 32 := 2#32
  let v100 : BitVec 32 := Scalar.muli arg26 c2_i32_69
  let c1_i32_70 : BitVec 32 := 1#32
  let v101 : BitVec 32 := Scalar.addi v100 c1_i32_70
  let c16_i32_71 : BitVec 32 := 16#32
  let v102 : BitVec 32 := Scalar.muli v101 c16_i32_71
  let v103 : Index := Scalar.indexCast v102
  ![v103.toNat]

def k6_chk3 (v104 : IVec S16 32) : Prop :=
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a)
instance k6_chk3.dec : ∀ (v104 : IVec S16 32), Decidable (k6_chk3 v104) := fun v104 => decidable_of_iff' _ (Iff.of_eq (k6_chk3.eq_1 v104))
theorem k6_idx9_inb : ∀ (v104 : IVec S16 32) (k6_hw3 : k6_chk3 v104), ∀ a x, ((![v104] : Fin 1 → IVec S16 32) a x).toNat < S10000.size a := fun v104 k6_hw3 => k6_hw3.1
theorem k6_idx11_inb : ∀ (v104 : IVec S16 32) (k6_hw3 : k6_chk3 v104), ∀ a x, ((![v104] : Fin 1 → IVec S16 32) a x).toNat < S10000.size a := fun v104 k6_hw3 => k6_hw3.2.1
theorem k6_idx13_inb : ∀ (v104 : IVec S16 32) (k6_hw3 : k6_chk3 v104), ∀ a x, ((![v104] : Fin 1 → IVec S16 32) a x).toNat < S10000.size a := fun v104 k6_hw3 => k6_hw3.2.2.1
theorem k6_idx15_inb : ∀ (v104 : IVec S16 32) (k6_hw3 : k6_chk3 v104), ∀ a x, ((![v104] : Fin 1 → IVec S16 32) a x).toNat < S10000.size a := fun v104 k6_hw3 => k6_hw3.2.2.2

def k6_chk4 (v107 : IVec S16 32) : Prop :=
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a)
instance k6_chk4.dec : ∀ (v107 : IVec S16 32), Decidable (k6_chk4 v107) := fun v107 => decidable_of_iff' _ (Iff.of_eq (k6_chk4.eq_1 v107))
theorem k6_idx10_inb : ∀ (v107 : IVec S16 32) (k6_hw4 : k6_chk4 v107), ∀ a x, ((![v107] : Fin 1 → IVec S16 32) a x).toNat < S10000.size a := fun v107 k6_hw4 => k6_hw4.1
theorem k6_idx12_inb : ∀ (v107 : IVec S16 32) (k6_hw4 : k6_chk4 v107), ∀ a x, ((![v107] : Fin 1 → IVec S16 32) a x).toNat < S10000.size a := fun v107 k6_hw4 => k6_hw4.2.1
theorem k6_idx14_inb : ∀ (v107 : IVec S16 32) (k6_hw4 : k6_chk4 v107), ∀ a x, ((![v107] : Fin 1 → IVec S16 32) a x).toNat < S10000.size a := fun v107 k6_hw4 => k6_hw4.2.2.1
theorem k6_idx16_inb : ∀ (v107 : IVec S16 32) (k6_hw4 : k6_chk4 v107), ∀ a x, ((![v107] : Fin 1 → IVec S16 32) a x).toNat < S10000.size a := fun v107 k6_hw4 => k6_hw4.2.2.2
def k6_cond1 (k6_t2 : Fin k6_t2_loop.trips) : BitVec 1 :=
  let c2_i32_48 : BitVec 32 := 2#32
  let c0_i32_28 : BitVec 32 := 0#32
  let c1_i32_29 : BitVec 32 := 1#32
  let arg25 : BitVec 32 := Scf.iv c0_i32_28 c1_i32_29 k6_t2
  let v62 : BitVec 32 := Scalar.muli c2_i32_48 arg25
  let c2_i32_60 : BitVec 32 := 2#32
  let v84 : BitVec 32 := Scalar.addi v62 c2_i32_60
  let c200_i32 : BitVec 32 := 200#32
  let v85 : BitVec 1 := Scalar.cmpi .slt v84 c200_i32
  let v86 : BitVec 32 := Scalar.extui v85
  let c0_i32_61 : BitVec 32 := 0#32
  let v87 : BitVec 1 := Scalar.cmpi .ne v86 c0_i32_61
  v87

def k6_off7 (k6_t2 : Fin k6_t2_loop.trips) : Fin 1 → Nat :=
  let c2_i32_48 : BitVec 32 := 2#32
  let c0_i32_28 : BitVec 32 := 0#32
  let c1_i32_29 : BitVec 32 := 1#32
  let arg25 : BitVec 32 := Scf.iv c0_i32_28 c1_i32_29 k6_t2
  let v62 : BitVec 32 := Scalar.muli c2_i32_48 arg25
  let c2_i32_67 : BitVec 32 := 2#32
  let v89 : BitVec 32 := Scalar.addi v62 c2_i32_67
  let c1600_i32_68 : BitVec 32 := 1600#32
  let v90 : BitVec 32 := Scalar.muli v89 c1600_i32_68
  ![v90.toNat]
@[reducible] def k6_t4_loop : Scf.Loop 32 :=
  let c0_i32_63 : BitVec 32 := 0#32
  let c50_i32_64 : BitVec 32 := 50#32
  let v88 : BitVec 32 := Scalar.addi c0_i32_63 c50_i32_64
  let c1_i32_65 : BitVec 32 := 1#32
  ⟨c0_i32_63, v88, c1_i32_65⟩
def k6_off8 (k6_t4 : Fin k6_t4_loop.trips) : Fin 1 → Nat :=
  let c0_i32_63 : BitVec 32 := 0#32
  let c1_i32_65 : BitVec 32 := 1#32
  let arg26 : BitVec 32 := Scf.iv c0_i32_63 c1_i32_65 k6_t4
  let c2_i32_67 : BitVec 32 := 2#32
  let v89 : BitVec 32 := Scalar.muli arg26 c2_i32_67
  let c16_i32 : BitVec 32 := 16#32
  let v90 : BitVec 32 := Scalar.muli v89 c16_i32
  let v91 : Index := Scalar.indexCast v90
  ![v91.toNat]

def k6_chk5 (v92 : IVec S16 32) : Prop :=
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a) ∧
  (∀ a x, ((![v92] : Fin 1 → IVec S16 32) a x).toNat < S10000.size a)
instance k6_chk5.dec : ∀ (v92 : IVec S16 32), Decidable (k6_chk5 v92) := fun v92 => decidable_of_iff' _ (Iff.of_eq (k6_chk5.eq_1 v92))
theorem k6_idx17_inb : ∀ (v92 : IVec S16 32) (k6_hw5 : k6_chk5 v92), ∀ a x, ((![v92] : Fin 1 → IVec S16 32) a x).toNat < S10000.size a := fun v92 k6_hw5 => k6_hw5.1
theorem k6_idx19_inb : ∀ (v92 : IVec S16 32) (k6_hw5 : k6_chk5 v92), ∀ a x, ((![v92] : Fin 1 → IVec S16 32) a x).toNat < S10000.size a := fun v92 k6_hw5 => k6_hw5.2.1
theorem k6_idx21_inb : ∀ (v92 : IVec S16 32) (k6_hw5 : k6_chk5 v92), ∀ a x, ((![v92] : Fin 1 → IVec S16 32) a x).toNat < S10000.size a := fun v92 k6_hw5 => k6_hw5.2.2.1
theorem k6_idx23_inb : ∀ (v92 : IVec S16 32) (k6_hw5 : k6_chk5 v92), ∀ a x, ((![v92] : Fin 1 → IVec S16 32) a x).toNat < S10000.size a := fun v92 k6_hw5 => k6_hw5.2.2.2

def k6_chk6 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
instance k6_chk6.dec : ∀ (v95 : IVec S16 32), Decidable (k6_chk6 v95) := fun v95 => decidable_of_iff' _ (Iff.of_eq (k6_chk6.eq_1 v95))
theorem k6_idx18_inb : ∀ (v95 : IVec S16 32) (k6_hw6 : k6_chk6 v95), ∀ a x, ((![v95] : Fin 1 → IVec S16 32) a x).toNat < S10000.size a := fun v95 k6_hw6 => k6_hw6.1
theorem k6_idx20_inb : ∀ (v95 : IVec S16 32) (k6_hw6 : k6_chk6 v95), ∀ a x, ((![v95] : Fin 1 → IVec S16 32) a x).toNat < S10000.size a := fun v95 k6_hw6 => k6_hw6.2.1
theorem k6_idx22_inb : ∀ (v95 : IVec S16 32) (k6_hw6 : k6_chk6 v95), ∀ a x, ((![v95] : Fin 1 → IVec S16 32) a x).toNat < S10000.size a := fun v95 k6_hw6 => k6_hw6.2.2.1
theorem k6_idx24_inb : ∀ (v95 : IVec S16 32) (k6_hw6 : k6_chk6 v95), ∀ a x, ((![v95] : Fin 1 → IVec S16 32) a x).toNat < S10000.size a := fun v95 k6_hw6 => k6_hw6.2.2.2
def k6_off9 (k6_t4 : Fin k6_t4_loop.trips) : Fin 1 → Nat :=
  let c0_i32_63 : BitVec 32 := 0#32
  let c1_i32_65 : BitVec 32 := 1#32
  let arg26 : BitVec 32 := Scf.iv c0_i32_63 c1_i32_65 k6_t4
  let c2_i32_69 : BitVec 32 := 2#32
  let v100 : BitVec 32 := Scalar.muli arg26 c2_i32_69
  let c1_i32_70 : BitVec 32 := 1#32
  let v101 : BitVec 32 := Scalar.addi v100 c1_i32_70
  let c16_i32_71 : BitVec 32 := 16#32
  let v102 : BitVec 32 := Scalar.muli v101 c16_i32_71
  let v103 : Index := Scalar.indexCast v102
  ![v103.toNat]

def k6_chk7 (v104 : IVec S16 32) : Prop :=
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a) ∧
  (∀ a x, ((![v104] : Fin 1 → IVec S16 32) a x).toNat < S10000.size a)
instance k6_chk7.dec : ∀ (v104 : IVec S16 32), Decidable (k6_chk7 v104) := fun v104 => decidable_of_iff' _ (Iff.of_eq (k6_chk7.eq_1 v104))
theorem k6_idx25_inb : ∀ (v104 : IVec S16 32) (k6_hw7 : k6_chk7 v104), ∀ a x, ((![v104] : Fin 1 → IVec S16 32) a x).toNat < S10000.size a := fun v104 k6_hw7 => k6_hw7.1
theorem k6_idx27_inb : ∀ (v104 : IVec S16 32) (k6_hw7 : k6_chk7 v104), ∀ a x, ((![v104] : Fin 1 → IVec S16 32) a x).toNat < S10000.size a := fun v104 k6_hw7 => k6_hw7.2.1
theorem k6_idx29_inb : ∀ (v104 : IVec S16 32) (k6_hw7 : k6_chk7 v104), ∀ a x, ((![v104] : Fin 1 → IVec S16 32) a x).toNat < S10000.size a := fun v104 k6_hw7 => k6_hw7.2.2.1
theorem k6_idx31_inb : ∀ (v104 : IVec S16 32) (k6_hw7 : k6_chk7 v104), ∀ a x, ((![v104] : Fin 1 → IVec S16 32) a x).toNat < S10000.size a := fun v104 k6_hw7 => k6_hw7.2.2.2

def k6_chk8 (v107 : IVec S16 32) : Prop :=
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a) ∧
  (∀ a x, ((![v107] : Fin 1 → IVec S16 32) a x).toNat < S10000.size a)
instance k6_chk8.dec : ∀ (v107 : IVec S16 32), Decidable (k6_chk8 v107) := fun v107 => decidable_of_iff' _ (Iff.of_eq (k6_chk8.eq_1 v107))
theorem k6_idx26_inb : ∀ (v107 : IVec S16 32) (k6_hw8 : k6_chk8 v107), ∀ a x, ((![v107] : Fin 1 → IVec S16 32) a x).toNat < S10000.size a := fun v107 k6_hw8 => k6_hw8.1
theorem k6_idx28_inb : ∀ (v107 : IVec S16 32) (k6_hw8 : k6_chk8 v107), ∀ a x, ((![v107] : Fin 1 → IVec S16 32) a x).toNat < S10000.size a := fun v107 k6_hw8 => k6_hw8.2.1
theorem k6_idx30_inb : ∀ (v107 : IVec S16 32) (k6_hw8 : k6_chk8 v107), ∀ a x, ((![v107] : Fin 1 → IVec S16 32) a x).toNat < S10000.size a := fun v107 k6_hw8 => k6_hw8.2.2.1
theorem k6_idx32_inb : ∀ (v107 : IVec S16 32) (k6_hw8 : k6_chk8 v107), ∀ a x, ((![v107] : Fin 1 → IVec S16 32) a x).toNat < S10000.size a := fun v107 k6_hw8 => k6_hw8.2.2.2
@[reducible] def k6_t5_loop : Scf.Loop 32 :=
  let c0_i32_32 : BitVec 32 := 0#32
  let c625_i32_33 : BitVec 32 := 625#32
  let v49 : BitVec 32 := Scalar.addi c0_i32_32 c625_i32_33
  let c1_i32_34 : BitVec 32 := 1#32
  ⟨c0_i32_32, v49, c1_i32_34⟩
def k6_off10 (k6_t5 : Fin k6_t5_loop.trips) : Fin 1 → Nat :=
  let c0_i32_32 : BitVec 32 := 0#32
  let c1_i32_34 : BitVec 32 := 1#32
  let arg25 : BitVec 32 := Scf.iv c0_i32_32 c1_i32_34 k6_t5
  let c16_i32 : BitVec 32 := 16#32
  let v62 : BitVec 32 := Scalar.muli arg25 c16_i32
  let v63 : Index := Scalar.indexCast v62
  ![v63.toNat]
abbrev grid7 : Pipeline.Grid := .none

abbrev stage7_0 : Fin 1 → Memref sig .tc .vmem S128x10000 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S128x10000 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S1x10000 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S10000x1 .i32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S128x16 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S1x16 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S64x16 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S10000_S10000x1 : S10000.ShapeCasts S10000x1
  shapeCasts_S128_S128x1 : S128.ShapeCasts S128x1
  shapeCasts_S16_S1x16 : S16.ShapeCasts S1x16
  h_S16 : 0 < S16.numel
  h_S10000 : 0 < S10000.numel
  inb_S2000_S16_1984 : ∀ a, (![1984] : Fin 1 → Nat) a + S16.size a ≤ S2000.size a
  squeezes_S1x10000_S10000 : S1x10000.Squeezes S10000
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  broadcasts_S1x10000_S128x10000 : S1x10000.Broadcasts S128x10000
  inb_S128x10000_S128x10000_0_0 : ∀ a, (![0, 0] : Fin 2 → Nat) a + S128x10000.size a ≤ S128x10000.size a
  h_S128x10000 : 0 < S128x10000.numel
  inb_S1x10000_S1x10000_0_0 : ∀ a, (![0, 0] : Fin 2 → Nat) a + S1x10000.size a ≤ S1x10000.size a
  h_S1x10000 : 0 < S1x10000.numel
  shapeCasts_S128x10000_S1280000 : S128x10000.ShapeCasts S1280000
  inb_S320000_S1600_0 : ∀ a, (![0] : Fin 1 → Nat) a + S1600.size a ≤ S320000.size a
  shapeCasts_S1280000_S128x10000 : S1280000.ShapeCasts S128x10000
  shapeCasts_S1x10000_S1x10000 : S1x10000.ShapeCasts S1x10000
  shapeCasts_S128x10000_S128x10000 : S128x10000.ShapeCasts S128x10000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x10000 : S128x1.Broadcasts S128x10000
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  broadcasts_S1x64_S128x64 : S1x64.Broadcasts S128x64
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  dot_S1x32_S32x10000_S1x10000_1_0_0_1_n_n_wf : DotDims.WF S1x32 S32x10000 S1x10000 [1] [0] [0] [1] [] []
  dot_S128x128_S10000x128_S128x10000_0_1_1_0_n_n_wf : DotDims.WF S128x128 S10000x128 S128x10000 [0] [1] [1] [0] [] []
  dot_S128x128_S128x10000_S128x10000_0_0_1_1_n_n_wf : DotDims.WF S128x128 S128x10000 S128x10000 [0] [0] [1] [1] [] []
  dot_S128x10000_S10000x64_S128x64_1_0_0_1_n_n_wf : DotDims.WF S128x10000 S10000x64 S128x64 [1] [0] [0] [1] [] []
  dot_S1x10000_S10000x64_S1x64_1_0_0_1_n_n_wf : DotDims.WF S1x10000 S10000x64 S1x64 [1] [0] [0] [1] [] []
  dot_S128x64_S128x16_S64x16_0_0_1_1_n_n_wf : DotDims.WF S128x64 S128x16 S64x16 [0] [0] [1] [1] [] []
  hcc0_scoped0 : 0 + S_.numel ≤ 48
  hcc0_scoped1 : 1 + S_.numel ≤ 48
  hcc2_scratch16 : 7 + S_.numel ≤ 48
  hcc2_scratch17 : 8 + S_.numel ≤ 48
  hcc2_scratch18 : 9 + S_.numel ≤ 48
  hcc2_scoped0 : 10 + S_.numel ≤ 48
  hcc2_scoped1 : 11 + S_.numel ≤ 48
  hcc2_scoped2 : 12 + S_.numel ≤ 48
  hcc2_scoped3 : 13 + S_.numel ≤ 48
  hcc4_scratch16 : 20 + S_.numel ≤ 48
  hcc4_scratch17 : 21 + S_.numel ≤ 48
  hcc4_scratch18 : 22 + S_.numel ≤ 48
  hcc4_scoped0 : 23 + S_.numel ≤ 48
  hcc4_scoped1 : 24 + S_.numel ≤ 48
  hcc4_scoped2 : 25 + S_.numel ≤ 48
  hcc4_scoped3 : 26 + S_.numel ≤ 48
  hcc6_scratch16 : 33 + S_.numel ≤ 48
  hcc6_scratch17 : 34 + S_.numel ≤ 48
  hcc6_scratch18 : 35 + S_.numel ≤ 48
  hcc6_scoped0 : 36 + S_.numel ≤ 48
  hcc6_scoped1 : 37 + S_.numel ≤ 48
  hcc6_scoped2 : 38 + S_.numel ≤ 48
  hcc6_scoped3 : 39 + S_.numel ≤ 48
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S10000.size a
  k0_t2_ok : k0_t2_loop.OK
  k0_off2_inb : ∀ (i : grid0.Coords) (k0_t2 : Fin k0_t2_loop.trips), ∀ a, (k0_off2 i k0_t2) a + S2000.size a ≤ S320000.size a
  k0_t3_ok : k0_t3_loop.OK
  k0_off3_inb : ∀ k0_t3 : Fin k0_t3_loop.trips, ∀ a, (k0_off3 k0_t3) a + S16.size a ≤ S2000.size a
  k0_off4_inb : ∀ k0_t3 : Fin k0_t3_loop.trips, ∀ a, (k0_off4 k0_t3) a + S16.size a ≤ S2000.size a
  k0_t4_ok : k0_t4_loop.OK
  k0_off5_inb : ∀ k0_t4 : Fin k0_t4_loop.trips, ∀ a, (k0_off5 k0_t4) a + S16.size a ≤ S10000.size a
  k0_off6_inb : ∀ i : grid0.Coords, ∀ a, (k0_off6 i) a + S1x10000.size a ≤ S32x10000.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hcore2 : grid2.bound 0 ≤ τ.nSC
  hsub2 : grid2.bound 1 ≤ τ.nSub
  k2_off1_inb : ∀ i : grid2.Coords, ∀ (r : Fin 4), ∀ a, (k2_off1 i (BitVec.ofNat 32 r.val)) a + S10000.size a ≤ S1280000.size a
  k2_t1_ok : k2_t1_loop.OK
  k2_off2_inb : ∀ k2_t1 : Fin k2_t1_loop.trips, ∀ a, (k2_off2 k2_t1) a + S16.size a ≤ S10000.size a
  k2_t2_ok : k2_t2_loop.OK
  k2_off3_inb : ∀ k2_t2 : Fin k2_t2_loop.trips, ∀ a, (k2_off3 k2_t2) a + S1600.size a ≤ S320000.size a
  k2_off4_inb : ∀ k2_t2 : Fin k2_t2_loop.trips, ∀ a, (k2_off4 k2_t2) a + S1600.size a ≤ S320000.size a
  k2_t3_ok : k2_t3_loop.OK
  k2_off5_inb : ∀ k2_t3 : Fin k2_t3_loop.trips, ∀ a, (k2_off5 k2_t3) a + S16.size a ≤ S1600.size a
  k2_off6_inb : ∀ k2_t3 : Fin k2_t3_loop.trips, ∀ a, (k2_off6 k2_t3) a + S16.size a ≤ S1600.size a
  k2_off7_inb : ∀ k2_t2 : Fin k2_t2_loop.trips, ∀ (k2_h1 : k2_cond1 k2_t2 = 1#1), ∀ a, (k2_off7 k2_t2) a + S1600.size a ≤ S320000.size a
  k2_t4_ok : k2_t4_loop.OK
  k2_off8_inb : ∀ k2_t4 : Fin k2_t4_loop.trips, ∀ a, (k2_off8 k2_t4) a + S16.size a ≤ S1600.size a
  k2_off9_inb : ∀ k2_t4 : Fin k2_t4_loop.trips, ∀ a, (k2_off9 k2_t4) a + S16.size a ≤ S1600.size a
  k2_t5_ok : k2_t5_loop.OK
  k2_off10_inb : ∀ k2_t5 : Fin k2_t5_loop.trips, ∀ a, (k2_off10 k2_t5) a + S16.size a ≤ S10000.size a
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hcore4 : grid4.bound 0 ≤ τ.nSC
  hsub4 : grid4.bound 1 ≤ τ.nSub
  k4_off1_inb : ∀ i : grid4.Coords, ∀ (r : Fin 4), ∀ a, (k4_off1 i (BitVec.ofNat 32 r.val)) a + S10000.size a ≤ S1280000.size a
  k4_t1_ok : k4_t1_loop.OK
  k4_off2_inb : ∀ k4_t1 : Fin k4_t1_loop.trips, ∀ a, (k4_off2 k4_t1) a + S16.size a ≤ S10000.size a
  k4_t2_ok : k4_t2_loop.OK
  k4_off3_inb : ∀ k4_t2 : Fin k4_t2_loop.trips, ∀ a, (k4_off3 k4_t2) a + S1600.size a ≤ S320000.size a
  k4_off4_inb : ∀ k4_t2 : Fin k4_t2_loop.trips, ∀ a, (k4_off4 k4_t2) a + S1600.size a ≤ S320000.size a
  k4_t3_ok : k4_t3_loop.OK
  k4_off5_inb : ∀ k4_t3 : Fin k4_t3_loop.trips, ∀ a, (k4_off5 k4_t3) a + S16.size a ≤ S1600.size a
  k4_off6_inb : ∀ k4_t3 : Fin k4_t3_loop.trips, ∀ a, (k4_off6 k4_t3) a + S16.size a ≤ S1600.size a
  k4_off7_inb : ∀ k4_t2 : Fin k4_t2_loop.trips, ∀ (k4_h1 : k4_cond1 k4_t2 = 1#1), ∀ a, (k4_off7 k4_t2) a + S1600.size a ≤ S320000.size a
  k4_t4_ok : k4_t4_loop.OK
  k4_off8_inb : ∀ k4_t4 : Fin k4_t4_loop.trips, ∀ a, (k4_off8 k4_t4) a + S16.size a ≤ S1600.size a
  k4_off9_inb : ∀ k4_t4 : Fin k4_t4_loop.trips, ∀ a, (k4_off9 k4_t4) a + S16.size a ≤ S1600.size a
  k4_t5_ok : k4_t5_loop.OK
  k4_off10_inb : ∀ k4_t5 : Fin k4_t5_loop.trips, ∀ a, (k4_off10 k4_t5) a + S16.size a ≤ S10000.size a
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hcore6 : grid6.bound 0 ≤ τ.nSC
  hsub6 : grid6.bound 1 ≤ τ.nSub
  k6_off1_inb : ∀ i : grid6.Coords, ∀ (r : Fin 4), ∀ a, (k6_off1 i (BitVec.ofNat 32 r.val)) a + S10000.size a ≤ S1280000.size a
  k6_t1_ok : k6_t1_loop.OK
  k6_off2_inb : ∀ k6_t1 : Fin k6_t1_loop.trips, ∀ a, (k6_off2 k6_t1) a + S16.size a ≤ S10000.size a
  k6_t2_ok : k6_t2_loop.OK
  k6_off3_inb : ∀ k6_t2 : Fin k6_t2_loop.trips, ∀ a, (k6_off3 k6_t2) a + S1600.size a ≤ S320000.size a
  k6_off4_inb : ∀ k6_t2 : Fin k6_t2_loop.trips, ∀ a, (k6_off4 k6_t2) a + S1600.size a ≤ S320000.size a
  k6_t3_ok : k6_t3_loop.OK
  k6_off5_inb : ∀ k6_t3 : Fin k6_t3_loop.trips, ∀ a, (k6_off5 k6_t3) a + S16.size a ≤ S1600.size a
  k6_off6_inb : ∀ k6_t3 : Fin k6_t3_loop.trips, ∀ a, (k6_off6 k6_t3) a + S16.size a ≤ S1600.size a
  k6_off7_inb : ∀ k6_t2 : Fin k6_t2_loop.trips, ∀ (k6_h1 : k6_cond1 k6_t2 = 1#1), ∀ a, (k6_off7 k6_t2) a + S1600.size a ≤ S320000.size a
  k6_t4_ok : k6_t4_loop.OK
  k6_off8_inb : ∀ k6_t4 : Fin k6_t4_loop.trips, ∀ a, (k6_off8 k6_t4) a + S16.size a ≤ S1600.size a
  k6_off9_inb : ∀ k6_t4 : Fin k6_t4_loop.trips, ∀ a, (k6_off9 k6_t4) a + S16.size a ≤ S1600.size a
  k6_t5_ok : k6_t5_loop.OK
  k6_off10_inb : ∀ k6_t5 : Fin k6_t5_loop.trips, ∀ a, (k6_off10 k6_t5) a + S16.size a ≤ S10000.size a
  hstage7_0 : ∀ j, (stage7_0 j).IsWhole
  hstage7_1 : ∀ j, (stage7_1 j).IsWhole
  hstage7_2 : ∀ j, (stage7_2 j).IsWhole
  hstage7_3 : ∀ j, (stage7_3 j).IsWhole
  hstage7_4 : ∀ j, (stage7_4 j).IsWhole
  hstage7_5 : ∀ j, (stage7_5 j).IsWhole
  hstage7_6 : ∀ j, (stage7_6 j).IsWhole
  hstage7_7 : ∀ j, (stage7_7 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc2_scratch16 : DmaSems sig S_ := SemArray.consecutive 7 S_ hcc2_scratch16
abbrev cc2_scratch17 : DmaSems sig S_ := SemArray.consecutive 8 S_ hcc2_scratch17
abbrev cc2_scratch18 : DmaSems sig S_ := SemArray.consecutive 9 S_ hcc2_scratch18
abbrev cc2_scoped0 : DmaSems sig S_ := SemArray.consecutive 10 S_ hcc2_scoped0
abbrev cc2_scoped1 : DmaSems sig S_ := SemArray.consecutive 11 S_ hcc2_scoped1
abbrev cc2_scoped2 : DmaSems sig S_ := SemArray.consecutive 12 S_ hcc2_scoped2
abbrev cc2_scoped3 : DmaSems sig S_ := SemArray.consecutive 13 S_ hcc2_scoped3
abbrev cc4_scratch16 : DmaSems sig S_ := SemArray.consecutive 20 S_ hcc4_scratch16
abbrev cc4_scratch17 : DmaSems sig S_ := SemArray.consecutive 21 S_ hcc4_scratch17
abbrev cc4_scratch18 : DmaSems sig S_ := SemArray.consecutive 22 S_ hcc4_scratch18
abbrev cc4_scoped0 : DmaSems sig S_ := SemArray.consecutive 23 S_ hcc4_scoped0
abbrev cc4_scoped1 : DmaSems sig S_ := SemArray.consecutive 24 S_ hcc4_scoped1
abbrev cc4_scoped2 : DmaSems sig S_ := SemArray.consecutive 25 S_ hcc4_scoped2
abbrev cc4_scoped3 : DmaSems sig S_ := SemArray.consecutive 26 S_ hcc4_scoped3
abbrev cc6_scratch16 : DmaSems sig S_ := SemArray.consecutive 33 S_ hcc6_scratch16
abbrev cc6_scratch17 : DmaSems sig S_ := SemArray.consecutive 34 S_ hcc6_scratch17
abbrev cc6_scratch18 : DmaSems sig S_ := SemArray.consecutive 35 S_ hcc6_scratch18
abbrev cc6_scoped0 : DmaSems sig S_ := SemArray.consecutive 36 S_ hcc6_scoped0
abbrev cc6_scoped1 : DmaSems sig S_ := SemArray.consecutive 37 S_ hcc6_scoped1
abbrev cc6_scoped2 : DmaSems sig S_ := SemArray.consecutive 38 S_ hcc6_scoped2
abbrev cc6_scoped3 : DmaSems sig S_ := SemArray.consecutive 39 S_ hcc6_scoped3
def dot_S1x32_S32x10000_S1x10000_1_0_0_1_n_n : DotDims S1x32 S32x10000 S1x10000 where
  lhsContracting := [1]
  rhsContracting := [0]
  lhsNonContracting := [0]
  rhsNonContracting := [1]
  lhsBatch := []
  rhsBatch := []
  wf := dot_S1x32_S32x10000_S1x10000_1_0_0_1_n_n_wf
def dot_S128x128_S10000x128_S128x10000_0_1_1_0_n_n : DotDims S128x128 S10000x128 S128x10000 where
  lhsContracting := [0]
  rhsContracting := [1]
  lhsNonContracting := [1]
  rhsNonContracting := [0]
  lhsBatch := []
  rhsBatch := []
  wf := dot_S128x128_S10000x128_S128x10000_0_1_1_0_n_n_wf
def dot_S128x128_S128x10000_S128x10000_0_0_1_1_n_n : DotDims S128x128 S128x10000 S128x10000 where
  lhsContracting := [0]
  rhsContracting := [0]
  lhsNonContracting := [1]
  rhsNonContracting := [1]
  lhsBatch := []
  rhsBatch := []
  wf := dot_S128x128_S128x10000_S128x10000_0_0_1_1_n_n_wf
def dot_S128x10000_S10000x64_S128x64_1_0_0_1_n_n : DotDims S128x10000 S10000x64 S128x64 where
  lhsContracting := [1]
  rhsContracting := [0]
  lhsNonContracting := [0]
  rhsNonContracting := [1]
  lhsBatch := []
  rhsBatch := []
  wf := dot_S128x10000_S10000x64_S128x64_1_0_0_1_n_n_wf
def dot_S1x10000_S10000x64_S1x64_1_0_0_1_n_n : DotDims S1x10000 S10000x64 S1x64 where
  lhsContracting := [1]
  rhsContracting := [0]
  lhsNonContracting := [0]
  rhsNonContracting := [1]
  lhsBatch := []
  rhsBatch := []
  wf := dot_S1x10000_S10000x64_S1x64_1_0_0_1_n_n_wf
def dot_S128x64_S128x16_S64x16_0_0_1_1_n_n : DotDims S128x64 S128x16 S64x16 where
  lhsContracting := [0]
  rhsContracting := [0]
  lhsNonContracting := [1]
  rhsNonContracting := [1]
  lhsBatch := []
  rhsBatch := []
  wf := dot_S128x64_S128x16_S64x16_0_0_1_1_n_n_wf

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_arg3) false false (stage1_1 0) (sem1_1 0) (Memref.isWhole_whole _) (hstage1_1 0)

abbrev win1_2 : Pipeline.Window sig grid1 :=
  Pipeline.Window.whole (Memref.whole main_v9) false false (stage1_2 0) (sem1_2 0) (Memref.isWhole_whole _) (hstage1_2 0)

abbrev win1_3 : Pipeline.Window sig grid1 :=
  Pipeline.Window.whole (Memref.whole main_v10_0) true false (stage1_3 0) (sem1_3 0) (Memref.isWhole_whole _) (hstage1_3 0)

abbrev win1_4 : Pipeline.Window sig grid1 :=
  Pipeline.Window.whole (Memref.whole main_v10_1) true false (stage1_4 0) (sem1_4 0) (Memref.isWhole_whole _) (hstage1_4 0)

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win3_0 : Pipeline.Window sig grid3 :=
  Pipeline.Window.whole (Memref.whole main_v13) false false (stage3_0 0) (sem3_0 0) (Memref.isWhole_whole _) (hstage3_0 0)

abbrev win3_1 : Pipeline.Window sig grid3 :=
  Pipeline.Window.whole (Memref.whole main_v10_0) false false (stage3_1 0) (sem3_1 0) (Memref.isWhole_whole _) (hstage3_1 0)

abbrev win3_2 : Pipeline.Window sig grid3 :=
  Pipeline.Window.whole (Memref.whole main_v10_1) false false (stage3_2 0) (sem3_2 0) (Memref.isWhole_whole _) (hstage3_2 0)

abbrev win3_3 : Pipeline.Window sig grid3 :=
  Pipeline.Window.whole (Memref.whole main_v5) false false (stage3_3 0) (sem3_3 0) (Memref.isWhole_whole _) (hstage3_3 0)

abbrev win3_4 : Pipeline.Window sig grid3 :=
  Pipeline.Window.whole (Memref.whole main_arg5) false false (stage3_4 0) (sem3_4 0) (Memref.isWhole_whole _) (hstage3_4 0)

abbrev win3_5 : Pipeline.Window sig grid3 :=
  Pipeline.Window.whole (Memref.whole main_v14) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win5_0 : Pipeline.Window sig grid5 :=
  Pipeline.Window.whole (Memref.whole main_v17) false false (stage5_0 0) (sem5_0 0) (Memref.isWhole_whole _) (hstage5_0 0)

abbrev win5_1 : Pipeline.Window sig grid5 :=
  Pipeline.Window.whole (Memref.whole main_v14) false false (stage5_1 0) (sem5_1 0) (Memref.isWhole_whole _) (hstage5_1 0)

abbrev win5_2 : Pipeline.Window sig grid5 :=
  Pipeline.Window.whole (Memref.whole main_v10_1) false false (stage5_2 0) (sem5_2 0) (Memref.isWhole_whole _) (hstage5_2 0)

abbrev win5_3 : Pipeline.Window sig grid5 :=
  Pipeline.Window.whole (Memref.whole main_v6) false false (stage5_3 0) (sem5_3 0) (Memref.isWhole_whole _) (hstage5_3 0)

abbrev win5_4 : Pipeline.Window sig grid5 :=
  Pipeline.Window.whole (Memref.whole main_arg7) false false (stage5_4 0) (sem5_4 0) (Memref.isWhole_whole _) (hstage5_4 0)

abbrev win5_5 : Pipeline.Window sig grid5 :=
  Pipeline.Window.whole (Memref.whole main_v18) true false (stage5_5 0) (sem5_5 0) (Memref.isWhole_whole _) (hstage5_5 0)

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win7_0 : Pipeline.Window sig grid7 :=
  Pipeline.Window.whole (Memref.whole main_v21) false false (stage7_0 0) (sem7_0 0) (Memref.isWhole_whole _) (hstage7_0 0)

abbrev win7_1 : Pipeline.Window sig grid7 :=
  Pipeline.Window.whole (Memref.whole main_v18) false false (stage7_1 0) (sem7_1 0) (Memref.isWhole_whole _) (hstage7_1 0)

abbrev win7_2 : Pipeline.Window sig grid7 :=
  Pipeline.Window.whole (Memref.whole main_v10_1) false false (stage7_2 0) (sem7_2 0) (Memref.isWhole_whole _) (hstage7_2 0)

abbrev win7_3 : Pipeline.Window sig grid7 :=
  Pipeline.Window.whole (Memref.whole main_v7) false false (stage7_3 0) (sem7_3 0) (Memref.isWhole_whole _) (hstage7_3 0)

abbrev win7_4 : Pipeline.Window sig grid7 :=
  Pipeline.Window.whole (Memref.whole main_v4) false false (stage7_4 0) (sem7_4 0) (Memref.isWhole_whole _) (hstage7_4 0)

abbrev win7_5 : Pipeline.Window sig grid7 :=
  Pipeline.Window.whole (Memref.whole main_arg9) false false (stage7_5 0) (sem7_5 0) (Memref.isWhole_whole _) (hstage7_5 0)

abbrev win7_6 : Pipeline.Window sig grid7 :=
  Pipeline.Window.whole (Memref.whole main_v8) false false (stage7_6 0) (sem7_6 0) (Memref.isWhole_whole _) (hstage7_6 0)

abbrev win7_7 : Pipeline.Window sig grid7 :=
  Pipeline.Window.whole (Memref.whole main_v22) true false (stage7_7 0) (sem7_7 0) (Memref.isWhole_whole _) (hstage7_7 0)

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S64x128 : Shape := ⟨2, ![64, 128]⟩
abbrev S10000x1 : Shape := ⟨2, ![10000, 1]⟩
abbrev S64x1 : Shape := ⟨2, ![64, 1]⟩
abbrev S64x16 : Shape := ⟨2, ![64, 16]⟩
abbrev S1x16 : Shape := ⟨2, ![1, 16]⟩

abbrev nBuf : Space → Nat
  | .hbm => 270
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S10000, .i32⟩
  | 12 => ⟨S1x320000, .i32⟩
  | 13 => ⟨S320000, .i32⟩
  | 14 => ⟨S330000, .i32⟩
  | 15 => ⟨S1x320000, .i32⟩
  | 16 => ⟨S320000, .i32⟩
  | 17 => ⟨S330000, .i32⟩
  | 18 => ⟨S_, .f32⟩
  | 19 => ⟨S10000, .f32⟩
  | 20 => ⟨S_, .i32⟩
  | 21 => ⟨S330000, .i32⟩
  | 22 => ⟨S330000, .i1⟩
  | 23 => ⟨S_, .i32⟩
  | 24 => ⟨S330000, .i32⟩
  | 25 => ⟨S330000, .i32⟩
  | 26 => ⟨S330000, .i32⟩
  | 27 => ⟨S330000x1, .i32⟩
  | 28 => ⟨S_, .f32⟩
  | 29 => ⟨S330000, .f32⟩
  | 30 => ⟨S10000, .f32⟩
  | 31 => ⟨S_, .f32⟩
  | 32 => ⟨S10000, .f32⟩
  | 33 => ⟨S10000, .i1⟩
  | 34 => ⟨S10000, .f32⟩
  | 35 => ⟨S_, .f32⟩
  | 36 => ⟨S10000, .f32⟩
  | 37 => ⟨S10000, .f32⟩
  | 38 => ⟨S_, .f32⟩
  | 39 => ⟨S_, .f32⟩
  | 40 => ⟨S10000, .f32⟩
  | 41 => ⟨S10000, .f32⟩
  | 42 => ⟨S_, .i32⟩
  | 43 => ⟨S330000, .i32⟩
  | 44 => ⟨S330000, .i1⟩
  | 45 => ⟨S_, .i32⟩
  | 46 => ⟨S330000, .i32⟩
  | 47 => ⟨S330000, .i32⟩
  | 48 => ⟨S330000, .i32⟩
  | 49 => ⟨S330000x1, .i32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000, .f32⟩
  | 60 => ⟨S330000, .f32⟩
  | 61 => ⟨S10000x128, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x128, .f32⟩
  | 71 => ⟨S330000x1, .f32⟩
  | 72 => ⟨S330000x128, .f32⟩
  | 73 => ⟨S330000x128, .f32⟩
  | 74 => ⟨S_, .f32⟩
  | 75 => ⟨S10000x128, .f32⟩
  | 76 => ⟨S_, .i32⟩
  | 77 => ⟨S330000, .i32⟩
  | 78 => ⟨S330000, .i1⟩
  | 79 => ⟨S_, .i32⟩
  | 80 => ⟨S330000, .i32⟩
  | 81 => ⟨S330000, .i32⟩
  | 82 => ⟨S330000, .i32⟩
  | 83 => ⟨S330000x1, .i32⟩
  | 84 => ⟨S10000x128, .f32⟩
  | 85 => ⟨S1x128, .f32⟩
  | 86 => ⟨S10000x128, .f32⟩
  | 87 => ⟨S10000x128, .f32⟩
  | 88 => ⟨S_, .f32⟩
  | 89 => ⟨S10000x128, .f32⟩
  | 90 => ⟨S10000x128, .f32⟩
  | 91 => ⟨S10000, .i32⟩
  | 92 => ⟨S1x320000, .i32⟩
  | 93 => ⟨S320000, .i32⟩
  | 94 => ⟨S330000, .i32⟩
  | 95 => ⟨S1x320000, .i32⟩
  | 96 => ⟨S320000, .i32⟩
  | 97 => ⟨S330000, .i32⟩
  | 98 => ⟨S_, .f32⟩
  | 99 => ⟨S10000, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S_, .f32⟩
  | 109 => ⟨S330000, .f32⟩
  | 110 => ⟨S10000, .f32⟩
  | 111 => ⟨S_, .f32⟩
  | 112 => ⟨S10000, .f32⟩
  | 113 => ⟨S10000, .i1⟩
  | 114 => ⟨S10000, .f32⟩
  | 115 => ⟨S_, .f32⟩
  | 116 => ⟨S10000, .f32⟩
  | 117 => ⟨S10000, .f32⟩
  | 118 => ⟨S_, .f32⟩
  | 119 => ⟨S_, .f32⟩
  | 120 => ⟨S10000, .f32⟩
  | 121 => ⟨S10000, .f32⟩
  | 122 => ⟨S_, .i32⟩
  | 123 => ⟨S330000, .i32⟩
  | 124 => ⟨S330000, .i1⟩
  | 125 => ⟨S_, .i32⟩
  | 126 => ⟨S330000, .i32⟩
  | 127 => ⟨S330000, .i32⟩
  | _ => ⟨S10000x128, .f32⟩

abbrev hbmTy0_1 (i : Nat) : BufTy := match i % 128 with
  | 0 => ⟨S330000, .i32⟩
  | 1 => ⟨S330000x1, .i32⟩
  | 2 => ⟨S330000, .f32⟩
  | 3 => ⟨S_, .i32⟩
  | 4 => ⟨S330000, .i32⟩
  | 5 => ⟨S330000, .i1⟩
  | 6 => ⟨S_, .i32⟩
  | 7 => ⟨S330000, .i32⟩
  | 8 => ⟨S330000, .i32⟩
  | 9 => ⟨S330000, .i32⟩
  | 10 => ⟨S330000x1, .i32⟩
  | 11 => ⟨S330000, .f32⟩
  | 12 => ⟨S330000, .f32⟩
  | 13 => ⟨S10000x128, .f32⟩
  | 14 => ⟨S_, .i32⟩
  | 15 => ⟨S330000, .i32⟩
  | 16 => ⟨S330000, .i1⟩
  | 17 => ⟨S_, .i32⟩
  | 18 => ⟨S330000, .i32⟩
  | 19 => ⟨S330000, .i32⟩
  | 20 => ⟨S330000, .i32⟩
  | 21 => ⟨S330000x1, .i32⟩
  | 22 => ⟨S330000x128, .f32⟩
  | 23 => ⟨S330000x1, .f32⟩
  | 24 => ⟨S330000x128, .f32⟩
  | 25 => ⟨S330000x128, .f32⟩
  | 26 => ⟨S_, .f32⟩
  | 27 => ⟨S10000x128, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S10000x128, .f32⟩
  | 37 => ⟨S1x128, .f32⟩
  | 38 => ⟨S10000x128, .f32⟩
  | 39 => ⟨S10000x128, .f32⟩
  | 40 => ⟨S_, .f32⟩
  | 41 => ⟨S10000x128, .f32⟩
  | 42 => ⟨S10000x128, .f32⟩
  | 43 => ⟨S10000, .i32⟩
  | 44 => ⟨S1x320000, .i32⟩
  | 45 => ⟨S320000, .i32⟩
  | 46 => ⟨S330000, .i32⟩
  | 47 => ⟨S1x320000, .i32⟩
  | 48 => ⟨S320000, .i32⟩
  | 49 => ⟨S330000, .i32⟩
  | 50 => ⟨S_, .f32⟩
  | 51 => ⟨S10000, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S_, .f32⟩
  | 61 => ⟨S330000, .f32⟩
  | 62 => ⟨S10000, .f32⟩
  | 63 => ⟨S_, .f32⟩
  | 64 => ⟨S10000, .f32⟩
  | 65 => ⟨S10000, .i1⟩
  | 66 => ⟨S10000, .f32⟩
  | 67 => ⟨S_, .f32⟩
  | 68 => ⟨S10000, .f32⟩
  | 69 => ⟨S10000, .f32⟩
  | 70 => ⟨S_, .f32⟩
  | 71 => ⟨S_, .f32⟩
  | 72 => ⟨S10000, .f32⟩
  | 73 => ⟨S10000, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S330000, .f32⟩
  | 83 => ⟨S_, .i32⟩
  | 84 => ⟨S330000, .i32⟩
  | 85 => ⟨S330000, .i1⟩
  | 86 => ⟨S_, .i32⟩
  | 87 => ⟨S330000, .i32⟩
  | 88 => ⟨S330000, .i32⟩
  | 89 => ⟨S330000, .i32⟩
  | 90 => ⟨S330000x1, .i32⟩
  | 91 => ⟨S330000, .f32⟩
  | 92 => ⟨S330000, .f32⟩
  | 93 => ⟨S10000x128, .f32⟩
  | 94 => ⟨S_, .i32⟩
  | 95 => ⟨S330000, .i32⟩
  | 96 => ⟨S330000, .i1⟩
  | 97 => ⟨S_, .i32⟩
  | 98 => ⟨S330000, .i32⟩
  | 99 => ⟨S330000, .i32⟩
  | 100 => ⟨S330000, .i32⟩
  | 101 => ⟨S330000x1, .i32⟩
  | 102 => ⟨S330000x128, .f32⟩
  | 103 => ⟨S330000x1, .f32⟩
  | 104 => ⟨S330000x128, .f32⟩
  | 105 => ⟨S330000x128, .f32⟩
  | 106 => ⟨S_, .f32⟩
  | 107 => ⟨S10000x128, .f32⟩
  | 108 => ⟨S_, .i32⟩
  | 109 => ⟨S330000, .i32⟩
  | 110 => ⟨S330000, .i1⟩
  | 111 => ⟨S_, .i32⟩
  | 112 => ⟨S330000, .i32⟩
  | 113 => ⟨S330000, .i32⟩
  | 114 => ⟨S330000, .i32⟩
  | 115 => ⟨S330000x1, .i32⟩
  | 116 => ⟨S10000x128, .f32⟩
  | 117 => ⟨S1x128, .f32⟩
  | 118 => ⟨S10000x128, .f32⟩
  | 119 => ⟨S10000x128, .f32⟩
  | 120 => ⟨S_, .f32⟩
  | 121 => ⟨S10000x128, .f32⟩
  | 122 => ⟨S10000x128, .f32⟩
  | 123 => ⟨S_, .f32⟩
  | 124 => ⟨S64x128, .f32⟩
  | 125 => ⟨S10000x1, .i32⟩
  | 126 => ⟨S64x128, .f32⟩
  | 127 => ⟨S_, .f32⟩
  | _ => ⟨S10000x128, .f32⟩

abbrev hbmTy0_2 (i : Nat) : BufTy := match i % 128 with
  | 0 => ⟨S10000x1, .f32⟩
  | 1 => ⟨S_, .f32⟩
  | 2 => ⟨S64x1, .f32⟩
  | 3 => ⟨S10000x1, .i32⟩
  | 4 => ⟨S64x1, .f32⟩
  | 5 => ⟨S_, .f32⟩
  | 6 => ⟨S64x1, .f32⟩
  | 7 => ⟨S64x1, .f32⟩
  | 8 => ⟨S64x128, .f32⟩
  | 9 => ⟨S64x128, .f32⟩
  | 10 => ⟨S64x16, .f32⟩
  | 11 => ⟨S1x16, .f32⟩
  | 12 => ⟨S64x16, .f32⟩
  | 13 => ⟨S64x16, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_cst : Ref sig .tc := ⟨.hbm, 88, rfl⟩
abbrev main_call1_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_17 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_v80 : Ref sig .tc := ⟨.hbm, 117, rfl⟩
abbrev main_cst_20 : Ref sig .tc := ⟨.hbm, 118, rfl⟩
abbrev main_call2_v0 : Ref sig .tc := ⟨.hbm, 119, rfl⟩
abbrev main_call2_v1 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_c_22 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_23 : Ref sig .tc := ⟨.hbm, 131, rfl⟩
abbrev main_v89 : Ref sig .tc := ⟨.hbm, 132, rfl⟩
abbrev main_v90 : Ref sig .tc := ⟨.hbm, 133, rfl⟩
abbrev main_c_24 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_25 : Ref sig .tc := ⟨.hbm, 142, rfl⟩
abbrev main_v98 : Ref sig .tc := ⟨.hbm, 143, rfl⟩
abbrev main_v99 : Ref sig .tc := ⟨.hbm, 144, rfl⟩
abbrev main_c_26 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_27 : Ref sig .tc := ⟨.hbm, 154, rfl⟩
abbrev main_v108 : Ref sig .tc := ⟨.hbm, 155, rfl⟩
abbrev main_c_28 : Ref sig .tc := ⟨.hbm, 156, rfl⟩
abbrev main_v109 : Ref sig .tc := ⟨.hbm, 157, rfl⟩
abbrev main_v110 : Ref sig .tc := ⟨.hbm, 158, rfl⟩
abbrev main_c_29 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_call3_cst : Ref sig .tc := ⟨.hbm, 168, rfl⟩
abbrev main_call3_v0 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_30 : Ref sig .tc := ⟨.hbm, 178, rfl⟩
abbrev main_v127 : Ref sig .tc := ⟨.hbm, 179, rfl⟩
abbrev main_c_31 : Ref sig .tc := ⟨.hbm, 180, rfl⟩
abbrev main_v128 : Ref sig .tc := ⟨.hbm, 181, rfl⟩
abbrev main_v129 : Ref sig .tc := ⟨.hbm, 182, rfl⟩
abbrev main_c_32 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_33 : Ref sig .tc := ⟨.hbm, 188, rfl⟩
abbrev main_v134 : Ref sig .tc := ⟨.hbm, 189, rfl⟩
abbrev main_v135 : Ref sig .tc := ⟨.hbm, 190, rfl⟩
abbrev main_cst_34 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_35 : Ref sig .tc := ⟨.hbm, 195, rfl⟩
abbrev main_v139 : Ref sig .tc := ⟨.hbm, 196, rfl⟩
abbrev main_v140 : Ref sig .tc := ⟨.hbm, 197, rfl⟩
abbrev main_cst_36 : Ref sig .tc := ⟨.hbm, 198, rfl⟩
abbrev main_call4_v0 : Ref sig .tc := ⟨.hbm, 199, rfl⟩
abbrev main_call4_v1 : Ref sig .tc := ⟨.hbm, 200, rfl⟩
abbrev main_v141 : Ref sig .tc := ⟨.hbm, 201, rfl⟩
abbrev main_c_37 : Ref sig .tc := ⟨.hbm, 202, rfl⟩
abbrev main_v142 : Ref sig .tc := ⟨.hbm, 203, rfl⟩
abbrev main_v143 : Ref sig .tc := ⟨.hbm, 204, rfl⟩
abbrev main_c_38 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_c_39 : Ref sig .tc := ⟨.hbm, 211, rfl⟩
abbrev main_v149 : Ref sig .tc := ⟨.hbm, 212, rfl⟩
abbrev main_v150 : Ref sig .tc := ⟨.hbm, 213, rfl⟩
abbrev main_c_40 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_c_41 : Ref sig .tc := ⟨.hbm, 222, rfl⟩
abbrev main_v158 : Ref sig .tc := ⟨.hbm, 223, rfl⟩
abbrev main_v159 : Ref sig .tc := ⟨.hbm, 224, rfl⟩
abbrev main_c_42 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_cst_43 : Ref sig .tc := ⟨.hbm, 234, rfl⟩
abbrev main_v168 : Ref sig .tc := ⟨.hbm, 235, rfl⟩
abbrev main_c_44 : Ref sig .tc := ⟨.hbm, 236, rfl⟩
abbrev main_v169 : Ref sig .tc := ⟨.hbm, 237, rfl⟩
abbrev main_v170 : Ref sig .tc := ⟨.hbm, 238, rfl⟩
abbrev main_c_45 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_call5_cst : Ref sig .tc := ⟨.hbm, 248, rfl⟩
abbrev main_call5_v0 : Ref sig .tc := ⟨.hbm, 249, rfl⟩
abbrev main_v179 : Ref sig .tc := ⟨.hbm, 250, rfl⟩
abbrev main_cst_46 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_cst_47 : Ref sig .tc := ⟨.hbm, 255, rfl⟩
abbrev main_v183 : Ref sig .tc := ⟨.hbm, 256, rfl⟩
abbrev main_cst_48 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_cst_49 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x128_S10000x128_1_0_0_1_n_n_wf : DotDims.WF S10000x128 S128x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  scatter_S64x128_S10000x1_S10000x128_1_0_0_1_wf : ScatterDims.WF S64x128 S10000x1 S10000x128 [1] [0] [0] 1
  scatter_S64x1_S10000x1_S10000x1_1_0_0_1_wf : ScatterDims.WF S64x1 S10000x1 S10000x1 [1] [0] [0] 1
  dot_S64x128_S128x16_S64x16_1_0_0_1_n_n_wf : DotDims.WF S64x128 S128x16 S64x16 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64x1_S10000x1_S10000x1_1_0_0_1 : ScatterDims S64x1 S10000x1 S10000x1 where
  updateWindowDims := [1]
  insertedWindowDims := [0]
  scatterDimsToOperandDims := [0]
  indexVectorDim := 1
  wf := scatter_S64x1_S10000x1_S10000x1_1_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Setup.lean ====
import proofs.«213134_g57071525429591_cont_9to1_m_136_24_alg».proof.Defs
import proofs.«213134_g57071525429591_cont_9to1_m_136_24_alg».proof.Proof.Gen.KernelIdeal
import proofs.«213134_g57071525429591_cont_9to1_m_136_24_alg».proof.Proof.Gen.KernelIdeal.Skeleton
import proofs.«213134_g57071525429591_cont_9to1_m_136_24_alg».proof.Proof.Gen.KernelIdeal.Launch
import proofs.«213134_g57071525429591_cont_9to1_m_136_24_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 4) : (K (F := F)).nCore q = 2 := by fin_cases q <;> rfl
theorem nSub_eq (q : Fin 4) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev EH : Emb UH (MT nD τ sig (HIx 4) (Elt F) ℕ UU ℕ) := embL

abbrev EP : Emb UP (MT nD τ sig (HIx 4) (Elt F) ℕ UU ℕ) := (Emb.inl : Emb UP (UP × Counters)).trans embR
instance EP_landsIn : (EP : Emb UP (MT nD τ sig (HIx 4) (Elt F) ℕ UU ℕ)).LandsIn (upEmb : UEmb _ (MT nD τ sig (HIx 4) (Elt F) ℕ UU ℕ)) := by unfold EP embR; infer_instance

def tileNo (c : Fin 2) (i : Fin 16) : Fin 32 := ⟨2 * i.val + c.val, by have := c.isLt; have := i.isLt; omega⟩

theorem tileNo_injective : Function.Injective (fun p : Fin 2 × Fin 16 => tileNo p.1 p.2) := by
  rintro ⟨c, i⟩ ⟨c', i'⟩ h
  have h' : 2 * i.val + c.val = 2 * i'.val + c'.val := congrArg Fin.val h
  have hc := c.isLt; have hc' := c'.isLt
  have hi : i.val = i'.val := by omega
  have hcc : c.val = c'.val := by omega
  exact Prod.ext (Fin.ext hcc) (Fin.ext hi)

theorem tileNo_surjective (w : Fin 32) : ∃ c i, tileNo c i = w :=
  ⟨⟨w.val % 2, Nat.mod_lt _ (by decide)⟩, ⟨w.val / 2, by have := w.isLt; omega⟩, Fin.ext (by show 2 * (w.val / 2) + w.val % 2 = w.val; omega)⟩

variable (m : (ℓ : Loc nD τ sig) → Buf (Elt F) ℓ) (ρ : Dev nD → PrngReg)

abbrev tcLoc (d : Dev nD) (b : Ref sig .tc) : Loc nD τ sig := (SparseCore.T d).loc b

end Cert.KernelIdeal.Setup

end
-- ==== Proof.Pay.lean ====
import proofs.«213134_g57071525429591_cont_9to1_m_136_24_alg».proof.Proof.Setup

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 4) (Elt F) ℕ UU ℕ

structure StageVals (F : FTy → Type) where
  src : Vec F S320000 .i32
  dst : Vec F S320000 .i32
  degp : Vec F S32x10000 .f32
  u : Fin 3 → Vec F S1280000 .f32
  s : Fin 3 → Vec F S1280000 .f32

theorem hdivRows : 32 ∣ S32x10000.size 0 := ⟨1, rfl⟩
theorem hdivFlat : 32 ∣ S1280000.size 0 := ⟨40000, rfl⟩

abbrev degpRow (w : Fin 32) : Finset S32x10000.Idx := (Rect.part (s := S32x10000) (a₀ := 0) hdivRows w).set

abbrev flatPart (w : Fin 32) : Finset S1280000.Idx := (Rect.part (s := S1280000) (a₀ := 0) hdivFlat w).set

abbrev rdShare (w : Fin 32) : PosShare TreeShare := shareTok fullShare 32 w

variable (sv : Dev nD → StageVals F)

def goDeg (d : Dev nD) (w : Fin 32) : sProp 𝕄 :=
  iprop((tcLoc d main_v3 ↦{rdShare w} (sv d).dst) ∗ ∃ f, tcLoc d main_v9 ↦[degpRow w]{fullShare} f)

def tdDeg (d : Dev nD) (w : Fin 32) : sProp 𝕄 :=
  iprop((tcLoc d main_v3 ↦{rdShare w} (sv d).dst) ∗ tcLoc d main_v9 ↦[degpRow w]{fullShare} (sv d).degp)

def goSpmm1 (d : Dev nD) (w : Fin 32) : sProp 𝕄 :=
  iprop((tcLoc d main_v11 ↦{rdShare w} (sv d).u 0) ∗ (tcLoc d main_v1 ↦{rdShare w} (sv d).src) ∗ (tcLoc d main_v3 ↦{rdShare w} (sv d).dst)
    ∗ ∃ f, tcLoc d main_v12 ↦[flatPart w]{fullShare} f)
def tdSpmm1 (d : Dev nD) (w : Fin 32) : sProp 𝕄 :=
  iprop((tcLoc d main_v11 ↦{rdShare w} (sv d).u 0) ∗ (tcLoc d main_v1 ↦{rdShare w} (sv d).src) ∗ (tcLoc d main_v3 ↦{rdShare w} (sv d).dst)
    ∗ tcLoc d main_v12 ↦[flatPart w]{fullShare} (sv d).s 0)

def goSpmm2 (d : Dev nD) (w : Fin 32) : sProp 𝕄 :=
  iprop((tcLoc d main_v15 ↦{rdShare w} (sv d).u 1) ∗ (tcLoc d main_v1 ↦{rdShare w} (sv d).src) ∗ (tcLoc d main_v3 ↦{rdShare w} (sv d).dst)
    ∗ ∃ f, tcLoc d main_v16 ↦[flatPart w]{fullShare} f)
def tdSpmm2 (d : Dev nD) (w : Fin 32) : sProp 𝕄 :=
  iprop((tcLoc d main_v15 ↦{rdShare w} (sv d).u 1) ∗ (tcLoc d main_v1 ↦{rdShare w} (sv d).src) ∗ (tcLoc d main_v3 ↦{rdShare w} (sv d).dst)
    ∗ tcLoc d main_v16 ↦[flatPart w]{fullShare} (sv d).s 1)

def goSpmm3 (d : Dev nD) (w : Fin 32) : sProp 𝕄 :=
  iprop((tcLoc d main_v19 ↦{rdShare w} (sv d).u 2) ∗ (tcLoc d main_v1 ↦{rdShare w} (sv d).src) ∗ (tcLoc d main_v3 ↦{rdShare w} (sv d).dst)
    ∗ ∃ f, tcLoc d main_v20 ↦[flatPart w]{fullShare} f)
def tdSpmm3 (d : Dev nD) (w : Fin 32) : sProp 𝕄 :=
  iprop((tcLoc d main_v19 ↦{rdShare w} (sv d).u 2) ∗ (tcLoc d main_v1 ↦{rdShare w} (sv d).src) ∗ (tcLoc d main_v3 ↦{rdShare w} (sv d).dst)
    ∗ tcLoc d main_v20 ↦[flatPart w]{fullShare} (sv d).s 2)

abbrev subIx (q : Fin 4) (i : Fin ((K (F := F)).nSub q)) : Fin 16 := Fin.cast (nSub_eq q) i
abbrev coreIx (q : Fin 4) (c : Fin ((K (F := F)).nCore q)) : Fin 2 := Fin.cast (nCore_eq q) c

def goAt (q : Fin 4) (d : Dev nD) (w : Fin 32) : sProp 𝕄 :=
  match q with
  | 0 => goDeg sv d w
  | 1 => goSpmm1 sv d w
  | 2 => goSpmm2 sv d w
  | 3 => goSpmm3 sv d w
def tdAt (q : Fin 4) (d : Dev nD) (w : Fin 32) : sProp 𝕄 :=
  match q with
  | 0 => tdDeg sv d w
  | 1 => tdSpmm1 sv d w
  | 2 => tdSpmm2 sv d w
  | 3 => tdSpmm3 sv d w

def P : (K (F := F)).Pay (nD := nD) (Val := Elt F) (Name := ℕ) (U := UU) where
  st := fun q d c => bigSep Finset.univ fun i : Fin ((K (F := F)).nSub q) => goAt sv q d (tileNo (coreIx q c) (subIx q i))
  dn := fun q d c => bigSep Finset.univ fun i : Fin ((K (F := F)).nSub q) => tdAt sv q d (tileNo (coreIx q c) (subIx q i))
  go := fun q d c i => goAt sv q d (tileNo (coreIx q c) (subIx q i))
  td := fun q d c i => tdAt sv q d (tileNo (coreIx q c) (subIx q i))
  x := fun _ _ => iprop(emp)

instance goAt_storable (q : Fin 4) (d : Dev nD) (w : Fin 32) : BI.Storable (upEmb : UEmb _ 𝕄) (goAt sv q d w) := by
  unfold goAt goDeg goSpmm1 goSpmm2 goSpmm3; fin_cases q <;> dsimp only <;> infer_instance
instance tdAt_storable (q : Fin 4) (d : Dev nD) (w : Fin 32) : BI.Storable (upEmb : UEmb _ 𝕄) (tdAt sv q d w) := by
  unfold tdAt tdDeg tdSpmm1 tdSpmm2 tdSpmm3; fin_cases q <;> dsimp only <;> infer_instance

instance P_storable : (P (F := F) sv).IsStorable where
  st q d c := by unfold P; infer_instance
  dn q d c := by unfold P; infer_instance
  go q d c i := by unfold P; infer_instance
  td q d c i := by unfold P; infer_instance

theorem vecSplit (q : Fin 4) : (K (F := F)).VecSplit' (P sv) q := by
  intro d c
  show (bigSep Finset.univ fun i : Fin ((K (F := F)).nSub q) => goAt sv q d (tileNo (coreIx q c) (subIx q i)))
    ⊢ |={Set.univ}=> iprop((bigSep Finset.univ fun i : Fin ((K (F := F)).nSub q) => goAt sv q d (tileNo (coreIx q c) (subIx q i)))
      ∗ ((bigSep Finset.univ fun i : Fin ((K (F := F)).nSub q) => tdAt sv q d (tileNo (coreIx q c) (subIx q i)))
        -∗ bigSep Finset.univ fun i : Fin ((K (F := F)).nSub q) => tdAt sv q d (tileNo (coreIx q c) (subIx q i))))
  iintro Hst
  imodintro
  isplitl [Hst]
  · iexact Hst
  · iintro Htd; iexact Htd

end Cert.KernelIdeal.Setup

end
-- ==== Proof.DegVal.lean ====
import Idealize.ShloMosaic.PureOps

noncomputable section

namespace Cert.DegVal

open Idealize.ShloMosaic

variable {F : FTy → Type} [FloatOps F]

abbrev ShN : Shape := ⟨1, ![10000]⟩
abbrev ShL : Shape := ⟨1, ![16]⟩

abbrev Acc (F : FTy → Type) : Type := Vec F ShN .f32 × Vec F ShN .f32

def zeroRow : Vec F ShN .f32 := fun _ => Scalar.ofBits .f32 0x00000000#32

def ones : FVec F ShL .f32 := broadcast ShL (Scalar.ofBits .f32 0x3F800000#32)

def wordAt (part : IVec ShN 32) (k : Nat) : BitVec 32 :=
  if h : k < 10000 then part (Shape.ofLane (d := ![10000]) ⟨k, h⟩) else 0

def vec16 (part : IVec ShN 32) (base : Nat) : IVec ShL 32 := fun x => wordAt part (base + (x 0).val)

def InRange (iv : IVec ShL 32) : Prop := ∀ a x, ((![iv] : Fin 1 → IVec ShL 32) a x).toNat < ShN.size a

open Classical in

def scat (g : Vec F ShN .f32) (iv : IVec ShL 32) : Vec F ShN .f32 :=
  if h : InRange iv then storeIdx g ![iv] ones (fun _ => 1#1) true h else g

theorem scat_eq (g : Vec F ShN .f32) (iv : IVec ShL 32)
    (h : ∀ a x, ((![iv] : Fin 1 → IVec ShL 32) a x).toNat < ShN.size a) :
    scat g iv = storeIdx g ![iv] ones (fun _ => 1#1) true h := dif_pos h

def pairStep (part : IVec ShN 32) (jc : Nat) (st : Acc F) (p : Nat) : Acc F :=
  (scat st.1 (vec16 part (2000 * jc + 32 * p)), scat st.2 (vec16 part (2000 * jc + 32 * p + 16)))

def pairsN (part : IVec ShN 32) (jc : Nat) (st : Acc F) : Nat → Acc F
  | 0 => st
  | n + 1 => pairStep part jc (pairsN part jc st n) n

def chunkStep (part : IVec ShN 32) (st : Acc F) (jc : Nat) : Acc F :=
  (scat (pairsN part jc st 62).1 (vec16 part (2000 * jc + 1984)), (pairsN part jc st 62).2)

def chunksN (part : IVec ShN 32) : Nat → Acc F
  | 0 => (zeroRow, zeroRow)
  | n + 1 => chunkStep part (chunksN part n) n

def degRow (part : IVec ShN 32) : Vec F ShN .f32 :=
  fun j => FloatOps.addf ((chunksN (F := F) part 5).1 j) ((chunksN (F := F) part 5).2 j)

@[simp] theorem pairsN_zero (part : IVec ShN 32) (jc : Nat) (st : Acc F) : pairsN part jc st 0 = st := rfl
@[simp] theorem pairsN_succ (part : IVec ShN 32) (jc : Nat) (st : Acc F) (n : Nat) :
    pairsN part jc st (n + 1) = pairStep part jc (pairsN part jc st n) n := rfl
@[simp] theorem chunksN_zero (part : IVec ShN 32) : chunksN (F := F) part 0 = (zeroRow, zeroRow) := rfl
@[simp] theorem chunksN_succ (part : IVec ShN 32) (n : Nat) :
    chunksN (F := F) part (n + 1) = chunkStep part (chunksN part n) n := rfl

abbrev ShD : Shape := ⟨1, ![320000]⟩
abbrev ShR : Shape := ⟨2, ![32, 10000]⟩

def dstPart (dst : IVec ShD 32) (w : Fin 32) : IVec ShN 32 :=
  fun j => dst (Shape.ofLane (d := ![320000]) ⟨w.val * 10000 + (j 0).val, by
    have h0 := w.isLt
    have h1 : (j 0).val < 10000 := (j 0).isLt
    show _ < 320000
    omega⟩)

def degpOf (dst : IVec ShD 32) : Vec F ShR .f32 :=
  fun ix => degRow (F := F) (dstPart dst ⟨(ix 0).val, (ix 0).isLt⟩) (Shape.ofLane (d := ![10000]) ⟨(ix 1).val, (ix 1).isLt⟩)

end Cert.DegVal

end
-- ==== Proof.SpmmVal.lean ====
import Idealize.ShloMosaic.PureOps

noncomputable section

namespace Cert.SpmmVal

open Idealize.ShloMosaic

variable {F : FTy → Type} [FloatOps F]

abbrev ShN : Shape := ⟨1, ![10000]⟩
abbrev ShE : Shape := ⟨1, ![320000]⟩
abbrev ShL : Shape := ⟨1, ![16]⟩

abbrev Acc (F : FTy → Type) : Type := Vec F ShN .f32 × Vec F ShN .f32

def zeroRow : Vec F ShN .f32 := fun _ => Scalar.ofBits .f32 0x00000000#32

def wordAt (t : IVec ShE 32) (k : Nat) : BitVec 32 :=
  if h : k < 320000 then t (Shape.ofLane (d := ![320000]) ⟨k, h⟩) else 0

def vec16 (t : IVec ShE 32) (base : Nat) : IVec ShL 32 := fun x => wordAt t (base + (x 0).val)

def InRange (iv : IVec ShL 32) : Prop := ∀ a x, ((![iv] : Fin 1 → IVec ShL 32) a x).toNat < ShN.size a

open Classical in

def step (u g : Vec F ShN .f32) (sv dv : IVec ShL 32) : Vec F ShN .f32 :=
  if h : InRange sv ∧ InRange dv then storeIdx g ![dv] (loadIdx u ![sv] h.1) (fun _ => 1#1) true h.2 else g

theorem step_eq (u g : Vec F ShN .f32) (sv dv : IVec ShL 32)
    (hs : ∀ a x, ((![sv] : Fin 1 → IVec ShL 32) a x).toNat < ShN.size a)
    (hd : ∀ a x, ((![dv] : Fin 1 → IVec ShL 32) a x).toNat < ShN.size a) :
    step u g sv dv = storeIdx g ![dv] (loadIdx u ![sv] hs) (fun _ => 1#1) true hd := dif_pos ⟨hs, hd⟩

def pairStep (u : Vec F ShN .f32) (src dst : IVec ShE 32) (jc : Nat) (st : Acc F) (p : Nat) : Acc F :=
  (step u st.1 (vec16 src (1600 * jc + 32 * p)) (vec16 dst (1600 * jc + 32 * p)),
   step u st.2 (vec16 src (1600 * jc + 32 * p + 16)) (vec16 dst (1600 * jc + 32 * p + 16)))

def pairsN (u : Vec F ShN .f32) (src dst : IVec ShE 32) (jc : Nat) (st : Acc F) : Nat → Acc F
  | 0 => st
  | n + 1 => pairStep u src dst jc (pairsN u src dst jc st n) n

def chunkStep (u : Vec F ShN .f32) (src dst : IVec ShE 32) (st : Acc F) (jc : Nat) : Acc F :=
  pairsN u src dst jc st 50

def chunksN (u : Vec F ShN .f32) (src dst : IVec ShE 32) : Nat → Acc F
  | 0 => (zeroRow, zeroRow)
  | n + 1 => chunkStep u src dst (chunksN u src dst n) n

def spmmRow (u : Vec F ShN .f32) (src dst : IVec ShE 32) : Vec F ShN .f32 :=
  fun j => FloatOps.addf ((chunksN u src dst 200).1 j) ((chunksN u src dst 200).2 j)

@[simp] theorem pairsN_zero (u : Vec F ShN .f32) (src dst : IVec ShE 32) (jc : Nat) (st : Acc F) :
    pairsN u src dst jc st 0 = st := rfl
@[simp] theorem pairsN_succ (u : Vec F ShN .f32) (src dst : IVec ShE 32) (jc : Nat) (st : Acc F) (n : Nat) :
    pairsN u src dst jc st (n + 1) = pairStep u src dst jc (pairsN u src dst jc st n) n := rfl
@[simp] theorem chunksN_zero (u : Vec F ShN .f32) (src dst : IVec ShE 32) :
    chunksN u src dst 0 = (zeroRow, zeroRow) := rfl
@[simp] theorem chunksN_succ (u : Vec F ShN .f32) (src dst : IVec ShE 32) (n : Nat) :
    chunksN u src dst (n + 1) = chunkStep u src dst (chunksN u src dst n) n := rfl

end Cert.SpmmVal

end
-- ==== Proof.TcVal.lean ====
import proofs.«213134_g57071525429591_cont_9to1_m_136_24_alg».proof.Proof.Gen.KernelIdeal.Skeleton

noncomputable section

namespace Cert.KernelIdeal.TcVal

open Cert.KernelIdeal
open Idealize.ShloMosaic

variable {F : FTy → Type} [FloatOps F]

def firstDis (x : Vec F S10000x128 .f32) (w : Vec F S128x128 .f32) (degp : Vec F S32x10000 .f32) : Vec F S1x10000 .f32 :=
  Gen.k1_pay1 degp

def firstU (x : Vec F S10000x128 .f32) (w : Vec F S128x128 .f32) (degp : Vec F S32x10000 .f32) : Vec F S128x10000 .f32 :=
  Gen.k1_pay2 degp w x

def midU (s u : Vec F S128x10000 .f32) (dis : Vec F S1x10000 .f32) (b : Vec F S128x1 .f32) (w : Vec F S128x128 .f32) : Vec F S128x10000 .f32 :=
  Gen.k3_pay1 dis s u b w

def finalOut (s u : Vec F S128x10000 .f32) (dis : Vec F S1x10000 .f32) (b : Vec F S128x1 .f32) (batch2 : Vec F S10000x1 .i32)
    (wl : Vec F S128x16 .f32) (bl : Vec F S1x16 .f32) : Vec F S64x16 .f32 :=
  Gen.k7_pay1 dis s u b batch2 wl bl

theorem firstDis_eq (x : Vec F S10000x128 .f32) (w : Vec F S128x128 .f32) (degp : Vec F S32x10000 .f32) :
    firstDis x w degp = Gen.k1_pay1 degp := rfl

theorem firstU_eq (x : Vec F S10000x128 .f32) (w : Vec F S128x128 .f32) (degp : Vec F S32x10000 .f32) :
    firstU x w degp = Gen.k1_pay2 degp w x := rfl

theorem midU_eq (s u : Vec F S128x10000 .f32) (dis : Vec F S1x10000 .f32) (b : Vec F S128x1 .f32) (w : Vec F S128x128 .f32) :
    midU s u dis b w = Gen.k3_pay1 dis s u b w := rfl

theorem midU_eq' (s u : Vec F S128x10000 .f32) (dis : Vec F S1x10000 .f32) (b : Vec F S128x1 .f32) (w : Vec F S128x128 .f32) :
    midU s u dis b w = Gen.k5_pay1 dis s u b w := rfl

theorem finalOut_eq (s u : Vec F S128x10000 .f32) (dis : Vec F S1x10000 .f32) (b : Vec F S128x1 .f32) (batch2 : Vec F S10000x1 .i32)
    (wl : Vec F S128x16 .f32) (bl : Vec F S1x16 .f32) :
    finalOut s u dis b batch2 wl bl = Gen.k7_pay1 dis s u b batch2 wl bl := rfl

end Cert.KernelIdeal.TcVal

end
-- ==== Proof.Stages.lean ====
import proofs.«213134_g57071525429591_cont_9to1_m_136_24_alg».proof.Proof.Pay
import proofs.«213134_g57071525429591_cont_9to1_m_136_24_alg».proof.Proof.DegVal
import proofs.«213134_g57071525429591_cont_9to1_m_136_24_alg».proof.Proof.SpmmVal
import proofs.«213134_g57071525429591_cont_9to1_m_136_24_alg».proof.Proof.TcVal

noncomputable section

namespace Cert.KernelIdeal.Setup

open Cert.KernelIdeal Cert.KernelIdeal.Gen

open Idealize.ShloMosaic Idealize.ShloMosaic.StableHlo
open Idealize.ShloMosaic.SparseCore (S V T)
open Idealize.SL.Sem

variable {F : FTy → Type} [FloatOps F]
variable (m : (ℓ : Loc nD τ sig) → Buf (Elt F) ℓ)

abbrev op0 : HloOp τ sig (Elt F) := StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 rfl shapeCasts_S1x320000_S320000
abbrev op2 : HloOp τ sig (Elt F) := StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 rfl shapeCasts_S1x320000_S320000
abbrev op4 : HloOp τ sig (Elt F) := StableHlo.reshape main_arg2 main_v4 rfl shapeCasts_S10000_S10000x1
abbrev op5 : HloOp τ sig (Elt F) := StableHlo.reshape main_arg4 main_v5 rfl shapeCasts_S128_S128x1
abbrev op6 : HloOp τ sig (Elt F) := StableHlo.reshape main_arg6 main_v6 rfl shapeCasts_S128_S128x1
abbrev op7 : HloOp τ sig (Elt F) := StableHlo.reshape main_arg8 main_v7 rfl shapeCasts_S128_S128x1
abbrev op8 : HloOp τ sig (Elt F) := StableHlo.reshape main_arg10 main_v8 rfl shapeCasts_S16_S1x16
abbrev op11 : HloOp τ sig (Elt F) := StableHlo.reshape main_v10_0 main_v11 rfl shapeCasts_S128x10000_S1280000
abbrev op13 : HloOp τ sig (Elt F) := StableHlo.reshape main_v12 main_v13 rfl shapeCasts_S1280000_S128x10000
abbrev op15 : HloOp τ sig (Elt F) := StableHlo.reshape main_v14 main_v15 rfl shapeCasts_S128x10000_S1280000
abbrev op17 : HloOp τ sig (Elt F) := StableHlo.reshape main_v16 main_v17 rfl shapeCasts_S1280000_S128x10000
abbrev op19 : HloOp τ sig (Elt F) := StableHlo.reshape main_v18 main_v19 rfl shapeCasts_S128x10000_S1280000
abbrev op21 : HloOp τ sig (Elt F) := StableHlo.reshape main_v20 main_v21 rfl shapeCasts_S1280000_S128x10000

abbrev ops0 : List (HloOp τ sig (Elt F)) := [op0, op1, op2, op3, op4, op5, op6, op7, op8]

abbrev rf (b : Ref sig .tc) : DevRef τ sig := Proc.devRef .tc b

def flatRow (u : Vec F S1280000 .f32) (r : Nat) : Vec F Cert.SpmmVal.ShN .f32 :=
  fun j => if h : r * 10000 + (j 0).val < 1280000 then u (Shape.ofLane (d := ![1280000]) ⟨r * 10000 + (j 0).val, h⟩) else Scalar.ofBits .f32 0x00000000#32

def spmmFlat (u : Vec F S1280000 .f32) (src dst : Vec F S320000 .i32) : Vec F S1280000 .f32 :=
  fun p => Cert.SpmmVal.spmmRow (flatRow u ((p 0).val / 10000)) src dst (Shape.ofLane (d := ![10000]) ⟨(p 0).val % 10000, Nat.mod_lt _ (by decide : 0 < 10000)⟩)

def V0 (d : Dev nD) : Valuation τ sig (Elt F) := fun b => m (d, b)

def W1 (d : Dev nD) : Valuation τ sig (Elt F) := StableHlo.after (ops0 (F := F)) (V0 m d)

def srcA (d : Dev nD) : Vec F S320000 .i32 := W1 m d (rf main_v1)
def dstA (d : Dev nD) : Vec F S320000 .i32 := W1 m d (rf main_v3)

def degpA (d : Dev nD) : Vec F S32x10000 .f32 := Cert.DegVal.degpOf (dstA m d)
def W2 (d : Dev nD) : Valuation τ sig (Elt F) := Function.update (W1 m d) (rf main_v9) (degpA m d)

def u0A (d : Dev nD) : Vec F S128x10000 .f32 := TcVal.firstU (W2 m d (rf main_arg0)) (W2 m d (rf main_arg3)) (degpA m d)
def disA (d : Dev nD) : Vec F S1x10000 .f32 := TcVal.firstDis (W2 m d (rf main_arg0)) (W2 m d (rf main_arg3)) (degpA m d)
def W3 (d : Dev nD) : Valuation τ sig (Elt F) := Function.update (Function.update (W2 m d) (rf main_v10_0) (u0A m d)) (rf main_v10_1) (disA m d)
def W4 (d : Dev nD) : Valuation τ sig (Elt F) := (op11 (F := F)).result (W3 m d)
def u0f (d : Dev nD) : Vec F S1280000 .f32 := W4 m d (rf main_v11)
def s0f (d : Dev nD) : Vec F S1280000 .f32 := spmmFlat (u0f m d) (srcA m d) (dstA m d)
def W5 (d : Dev nD) : Valuation τ sig (Elt F) := Function.update (W4 m d) (rf main_v12) (s0f m d)
def W6 (d : Dev nD) : Valuation τ sig (Elt F) := (op13 (F := F)).result (W5 m d)
def u1A (d : Dev nD) : Vec F S128x10000 .f32 := TcVal.midU (W6 m d (rf main_v13)) (u0A m d) (disA m d) (W6 m d (rf main_v5)) (W6 m d (rf main_arg5))
def W7 (d : Dev nD) : Valuation τ sig (Elt F) := Function.update (W6 m d) (rf main_v14) (u1A m d)
def W8 (d : Dev nD) : Valuation τ sig (Elt F) := (op15 (F := F)).result (W7 m d)
def u1f (d : Dev nD) : Vec F S1280000 .f32 := W8 m d (rf main_v15)
def s1f (d : Dev nD) : Vec F S1280000 .f32 := spmmFlat (u1f m d) (srcA m d) (dstA m d)
def W9 (d : Dev nD) : Valuation τ sig (Elt F) := Function.update (W8 m d) (rf main_v16) (s1f m d)
def W10 (d : Dev nD) : Valuation τ sig (Elt F) := (op17 (F := F)).result (W9 m d)
def u2A (d : Dev nD) : Vec F S128x10000 .f32 := TcVal.midU (W10 m d (rf main_v17)) (u1A m d) (disA m d) (W10 m d (rf main_v6)) (W10 m d (rf main_arg7))
def W11 (d : Dev nD) : Valuation τ sig (Elt F) := Function.update (W10 m d) (rf main_v18) (u2A m d)
def W12 (d : Dev nD) : Valuation τ sig (Elt F) := (op19 (F := F)).result (W11 m d)
def u2f (d : Dev nD) : Vec F S1280000 .f32 := W12 m d (rf main_v19)
def s2f (d : Dev nD) : Vec F S1280000 .f32 := spmmFlat (u2f m d) (srcA m d) (dstA m d)
def W13 (d : Dev nD) : Valuation τ sig (Elt F) := Function.update (W12 m d) (rf main_v20) (s2f m d)
def W14 (d : Dev nD) : Valuation τ sig (Elt F) := (op21 (F := F)).result (W13 m d)

def outA (d : Dev nD) : Vec F S64x16 .f32 :=
  TcVal.finalOut (W14 m d (rf main_v21)) (u2A m d) (disA m d) (W14 m d (rf main_v7)) (W14 m d (rf main_v4)) (W14 m d (rf main_arg9)) (W14 m d (rf main_v8))
def W15 (d : Dev nD) : Valuation τ sig (Elt F) := Function.update (W14 m d) (rf main_v22) (outA m d)

def svOf (d : Dev nD) : StageVals F where
  src := srcA m d
  dst := dstA m d
  degp := degpA m d
  u := fun | 0 => u0f m d | 1 => u1f m d | 2 => u2f m d | ⟨_ + 3, h⟩ => absurd h (Nat.not_lt.2 (Nat.le_add_left _ _))
  s := fun | 0 => s0f m d | 1 => s1f m d | 2 => s2f m d | ⟨_ + 3, h⟩ => absurd h (Nat.not_lt.2 (Nat.le_add_left _ _))

end Cert.KernelIdeal.Setup

end
-- ==== Proof.LaunchElem.lean ====
import proofs.«213134_g57071525429591_cont_9to1_m_136_24_alg».proof.Proof.Pay
import Idealize.ShloMosaic.Lib.Pipeline.Sound
import Idealize.ShloMosaic.Lib.Pipeline.Regions

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

def u₀ : UU := (initOf (K (F := F)).hsCells (K (F := F)).hsToks, (initOf (Pipeline.cells cfgs cellOf_inj) (Pipeline.launchToks cfgs cellOf_inj), 1))

def G (d : Dev nD) : sProp 𝕄 :=
  bigSep Finset.univ fun p : Fin 4 => iprop(Pipeline.cellsGhost cfgs (EP (F := F)) p d ∗ Pipeline.toksInit cfgs (EP (F := F)) p d)

variable (sv : Dev nD → StageVals F)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P sv).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost cfgs (EP (F := F)) cellOf_inj) $$ HP with ⟨Hg, Ht⟩
  imodintro
  isplitl [HH]; · iexact HH
  isplitl [Hg Ht]
  · unfold G
    simp only [bigSep_sep']
    isplitl [Hg]
    · iexact Hg
    · iexact Ht
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

end Cert.KernelIdeal.Setup

end
-- ==== Proof.Split.lean ====
import proofs.«213134_g57071525429591_cont_9to1_m_136_24_alg».proof.Proof.Pay

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 4) (Elt F) ℕ UU ℕ

theorem bigSep_tiles (q : Fin 4) (X : Fin 32 → sProp 𝕄) :
    (bigSep Finset.univ fun c : Fin ((K (F := F)).nCore q) => bigSep Finset.univ fun i : Fin ((K (F := F)).nSub q) => X (tileNo (coreIx q c) (subIx q i)))
      = bigSep Finset.univ X := by
  have key : (bigSep Finset.univ fun c : Fin 2 => bigSep Finset.univ fun i : Fin 16 => X (tileNo c i)) = bigSep Finset.univ X := by
    rw [← SparseCore.bigSep_product (M := 𝕄) Finset.univ Finset.univ (fun p : Fin 2 × Fin 16 => X (tileNo p.1 p.2)), Finset.univ_product_univ,
      ← BI.bigSep_image_of_injOn (f := fun p : Fin 2 × Fin 16 => tileNo p.1 p.2) (tileNo_injective.injOn) X]
    congr 1
    ext w
    simp only [Finset.mem_image, Finset.mem_univ, true_and, iff_true]
    obtain ⟨c, i, h⟩ := tileNo_surjective w
    exact ⟨(c, i), h⟩
  fin_cases q <;> exact key

theorem shares_split (ℓ : Loc nD τ sig) (f : Buf (Elt F) ℓ) :
    (ℓ ↦{fullShare} f : sProp 𝕄) ⊣⊢ iprop((ℓ ↦{shareDrop fullShare 32} f) ∗ bigSep Finset.univ fun w : Fin 32 => ℓ ↦{rdShare w} f) :=
  Transfers.pointsTo_toks fullShare 32

theorem rows_disjoint : ∀ i ∈ (Finset.univ : Finset (Fin 32)), ∀ j ∈ (Finset.univ : Finset (Fin 32)), i ≠ j → Disjoint (degpRow i) (degpRow j) :=
  fun i _ j _ h => Rect.part_disjoint hdivRows h
theorem rows_cover : (Finset.univ : Finset (Fin 32)).biUnion degpRow = Finset.univ := Rect.biUnion_part hdivRows
theorem flat_disjoint : ∀ i ∈ (Finset.univ : Finset (Fin 32)), ∀ j ∈ (Finset.univ : Finset (Fin 32)), i ≠ j → Disjoint (flatPart i) (flatPart j) :=
  fun i _ j _ h => Rect.part_disjoint hdivFlat h
theorem flat_cover : (Finset.univ : Finset (Fin 32)).biUnion flatPart = Finset.univ := Rect.biUnion_part hdivFlat

theorem degp_rows (d : Dev nD) (f : Buf (Elt F) (tcLoc d main_v9)) :
    (tcLoc d main_v9 ↦{fullShare} f : sProp 𝕄) = bigSep Finset.univ fun w : Fin 32 => tcLoc d main_v9 ↦[degpRow w]{fullShare} f := by
  rw [← pointsTo_biUnion Finset.univ (ℓ := tcLoc d main_v9) degpRow rows_disjoint, rows_cover]; try rfl

theorem flat_parts1 (d : Dev nD) (f : Buf (Elt F) (tcLoc d main_v12)) :
    (tcLoc d main_v12 ↦{fullShare} f : sProp 𝕄) = bigSep Finset.univ fun w : Fin 32 => tcLoc d main_v12 ↦[flatPart w]{fullShare} f := by
  rw [← pointsTo_biUnion Finset.univ (ℓ := tcLoc d main_v12) flatPart flat_disjoint, flat_cover]; try rfl

theorem flat_parts2 (d : Dev nD) (f : Buf (Elt F) (tcLoc d main_v16)) :
    (tcLoc d main_v16 ↦{fullShare} f : sProp 𝕄) = bigSep Finset.univ fun w : Fin 32 => tcLoc d main_v16 ↦[flatPart w]{fullShare} f := by
  rw [← pointsTo_biUnion Finset.univ (ℓ := tcLoc d main_v16) flatPart flat_disjoint, flat_cover]; try rfl

theorem flat_parts3 (d : Dev nD) (f : Buf (Elt F) (tcLoc d main_v20)) :
    (tcLoc d main_v20 ↦{fullShare} f : sProp 𝕄) = bigSep Finset.univ fun w : Fin 32 => tcLoc d main_v20 ↦[flatPart w]{fullShare} f := by
  rw [← pointsTo_biUnion Finset.univ (ℓ := tcLoc d main_v20) flatPart flat_disjoint, flat_cover]; try rfl

end Cert.KernelIdeal.Setup

end
-- ==== Proof.Calls.lean ====
import proofs.«213134_g57071525429591_cont_9to1_m_136_24_alg».proof.Proof.Split

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 4) (Elt F) ℕ UU ℕ

variable (sv : Dev nD → StageVals F)

theorem st_eq (q : Fin 4) (d : Dev nD) :
    (bigSep Finset.univ fun c : Fin ((K (F := F)).nCore q) => (P sv).st q d c) = bigSep Finset.univ fun w : Fin 32 => goAt sv q d w :=
  bigSep_tiles q _
theorem dn_eq (q : Fin 4) (d : Dev nD) :
    (bigSep Finset.univ fun c : Fin ((K (F := F)).nCore q) => (P sv).dn q d c) = bigSep Finset.univ fun w : Fin 32 => tdAt sv q d w :=
  bigSep_tiles q _

theorem td_deg_eq (d : Dev nD) :
    (bigSep Finset.univ fun w : Fin 32 => tdAt sv 0 d w)
      = iprop((bigSep Finset.univ fun w : Fin 32 => tcLoc d main_v3 ↦{rdShare w} (sv d).dst)
          ∗ bigSep Finset.univ fun w : Fin 32 => tcLoc d main_v9 ↦[degpRow w]{fullShare} (sv d).degp) := by
  rw [← bigSep_sep']; rfl

theorem go_deg_of (d : Dev nD) (f : Buf (Elt F) (tcLoc d main_v9)) :
    iprop((bigSep Finset.univ fun w : Fin 32 => tcLoc d main_v3 ↦{rdShare w} (sv d).dst)
        ∗ bigSep Finset.univ fun w : Fin 32 => tcLoc d main_v9 ↦[degpRow w]{fullShare} f)
      ⊢ bigSep Finset.univ fun w : Fin 32 => goAt sv 0 d w := by
  rw [← bigSep_sep']
  refine bigSep_mono fun w _ => ?_
  show iprop((tcLoc d main_v3 ↦{rdShare w} (sv d).dst) ∗ tcLoc d main_v9 ↦[degpRow w]{fullShare} f)
    ⊢ iprop((tcLoc d main_v3 ↦{rdShare w} (sv d).dst) ∗ ∃ f, tcLoc d main_v9 ↦[degpRow w]{fullShare} f)
  iintro ⟨Ha, Hb⟩
  isplitl [Ha]; · iexact Ha
  iexists f; iexact Hb

theorem deg_call_in (d : Dev nD) :
    iprop((tcLoc d main_v3 ↦{fullShare} (sv d).dst) ∗ ∃ f, tcLoc d main_v9 ↦{fullShare} f)
      ⊢ iprop((tcLoc d main_v3 ↦{shareDrop fullShare 32} (sv d).dst) ∗ bigSep Finset.univ fun c : Fin ((K (F := F)).nCore 0) => (P sv).st 0 d c) := by
  rw [st_eq]
  iintro ⟨Hd, %f, Hg⟩
  ihave Hd' := ((shares_split (F := F) (tcLoc d main_v3) (sv d).dst).1) $$ Hd
  icases Hd' with ⟨Hrest, Hsh⟩
  ihave Hg' := (Entails.of_eq (degp_rows (F := F) d f)) $$ Hg
  isplitl [Hrest]; · iexact Hrest
  iapply (go_deg_of sv d f)
  isplitl [Hsh]; · iexact Hsh
  iexact Hg'

theorem deg_call_out (d : Dev nD) :
    iprop((tcLoc d main_v3 ↦{shareDrop fullShare 32} (sv d).dst) ∗ bigSep Finset.univ fun c : Fin ((K (F := F)).nCore 0) => (P sv).dn 0 d c)
      ⊢ iprop((tcLoc d main_v3 ↦{fullShare} (sv d).dst) ∗ tcLoc d main_v9 ↦{fullShare} (sv d).degp) := by
  rw [dn_eq, td_deg_eq, degp_rows (F := F) d (sv d).degp]
  iintro ⟨Hrest, Hsh, Hg⟩
  isplitl [Hrest Hsh]
  · iapply ((shares_split (F := F) (tcLoc d main_v3) (sv d).dst).2)
    isplitl [Hrest]; · iexact Hrest
    iexact Hsh
  · iexact Hg

theorem td_spmm1_eq (d : Dev nD) :
    (bigSep Finset.univ fun w : Fin 32 => tdAt sv 1 d w)
      = iprop((bigSep Finset.univ fun w : Fin 32 => tcLoc d main_v11 ↦{rdShare w} (sv d).u 0)
          ∗ (bigSep Finset.univ fun w : Fin 32 => tcLoc d main_v1 ↦{rdShare w} (sv d).src)
          ∗ (bigSep Finset.univ fun w : Fin 32 => tcLoc d main_v3 ↦{rdShare w} (sv d).dst)
          ∗ bigSep Finset.univ fun w : Fin 32 => tcLoc d main_v12 ↦[flatPart w]{fullShare} (sv d).s 0) := by
  rw [← bigSep_sep', ← bigSep_sep', ← bigSep_sep']; rfl

theorem go_spmm1_of (d : Dev nD) (f : Buf (Elt F) (tcLoc d main_v12)) :
    iprop((bigSep Finset.univ fun w : Fin 32 => tcLoc d main_v11 ↦{rdShare w} (sv d).u 0)
        ∗ (bigSep Finset.univ fun w : Fin 32 => tcLoc d main_v1 ↦{rdShare w} (sv d).src)
        ∗ (bigSep Finset.univ fun w : Fin 32 => tcLoc d main_v3 ↦{rdShare w} (sv d).dst)
        ∗ bigSep Finset.univ fun w : Fin 32 => tcLoc d main_v12 ↦[flatPart w]{fullShare} f)
      ⊢ bigSep Finset.univ fun w : Fin 32 => goAt sv 1 d w := by
  rw [← bigSep_sep', ← bigSep_sep', ← bigSep_sep']
  refine bigSep_mono fun w _ => ?_
  show iprop((tcLoc d main_v11 ↦{rdShare w} (sv d).u 0) ∗ (tcLoc d main_v1 ↦{rdShare w} (sv d).src) ∗ (tcLoc d main_v3 ↦{rdShare w} (sv d).dst)
      ∗ tcLoc d main_v12 ↦[flatPart w]{fullShare} f)
    ⊢ iprop((tcLoc d main_v11 ↦{rdShare w} (sv d).u 0) ∗ (tcLoc d main_v1 ↦{rdShare w} (sv d).src) ∗ (tcLoc d main_v3 ↦{rdShare w} (sv d).dst)
      ∗ ∃ f, tcLoc d main_v12 ↦[flatPart w]{fullShare} f)
  iintro ⟨Ha, Hb, Hc, Hd⟩
  isplitl [Ha]; · iexact Ha
  isplitl [Hb]; · iexact Hb
  isplitl [Hc]; · iexact Hc
  iexists f; iexact Hd

theorem spmm1_call_in (d : Dev nD) :
    iprop((tcLoc d main_v11 ↦{fullShare} (sv d).u 0) ∗ (tcLoc d main_v1 ↦{fullShare} (sv d).src) ∗ (tcLoc d main_v3 ↦{fullShare} (sv d).dst)
        ∗ ∃ f, tcLoc d main_v12 ↦{fullShare} f)
      ⊢ iprop(((tcLoc d main_v11 ↦{shareDrop fullShare 32} (sv d).u 0) ∗ (tcLoc d main_v1 ↦{shareDrop fullShare 32} (sv d).src)
          ∗ (tcLoc d main_v3 ↦{shareDrop fullShare 32} (sv d).dst))
        ∗ bigSep Finset.univ fun c : Fin ((K (F := F)).nCore 1) => (P sv).st 1 d c) := by
  rw [st_eq]
  iintro ⟨Hu, Hs, Hd, %f, Hg⟩
  ihave Hu' := ((shares_split (F := F) (tcLoc d main_v11) ((sv d).u 0)).1) $$ Hu
  icases Hu' with ⟨Hur, Hush⟩
  ihave Hs' := ((shares_split (F := F) (tcLoc d main_v1) (sv d).src).1) $$ Hs
  icases Hs' with ⟨Hsr, Hssh⟩
  ihave Hd' := ((shares_split (F := F) (tcLoc d main_v3) (sv d).dst).1) $$ Hd
  icases Hd' with ⟨Hdr, Hdsh⟩
  ihave Hg' := (Entails.of_eq (flat_parts1 (F := F) d f)) $$ Hg
  isplitl [Hur Hsr Hdr]
  · isplitl [Hur]; · iexact Hur
    isplitl [Hsr]; · iexact Hsr
    iexact Hdr
  iapply (go_spmm1_of sv d f)
  isplitl [Hush]; · iexact Hush
  isplitl [Hssh]; · iexact Hssh
  isplitl [Hdsh]; · iexact Hdsh
  iexact Hg'

theorem spmm1_call_out (d : Dev nD) :
    iprop(((tcLoc d main_v11 ↦{shareDrop fullShare 32} (sv d).u 0) ∗ (tcLoc d main_v1 ↦{shareDrop fullShare 32} (sv d).src)
          ∗ (tcLoc d main_v3 ↦{shareDrop fullShare 32} (sv d).dst))
        ∗ bigSep Finset.univ fun c : Fin ((K (F := F)).nCore 1) => (P sv).dn 1 d c)
      ⊢ iprop((tcLoc d main_v11 ↦{fullShare} (sv d).u 0) ∗ (tcLoc d main_v1 ↦{fullShare} (sv d).src) ∗ (tcLoc d main_v3 ↦{fullShare} (sv d).dst)
        ∗ tcLoc d main_v12 ↦{fullShare} (sv d).s 0) := by
  rw [dn_eq, td_spmm1_eq, flat_parts1 (F := F) d ((sv d).s 0)]
  iintro ⟨⟨Hur, Hsr, Hdr⟩, Hush, Hssh, Hdsh, Hg⟩
  isplitl [Hur Hush]
  · iapply ((shares_split (F := F) (tcLoc d main_v11) ((sv d).u 0)).2)
    isplitl [Hur]; · iexact Hur
    iexact Hush
  isplitl [Hsr Hssh]
  · iapply ((shares_split (F := F) (tcLoc d main_v1) (sv d).src).2)
    isplitl [Hsr]; · iexact Hsr
    iexact Hssh
  isplitl [Hdr Hdsh]
  · iapply ((shares_split (F := F) (tcLoc d main_v3) (sv d).dst).2)
    isplitl [Hdr]; · iexact Hdr
    iexact Hdsh
  · iexact Hg

theorem td_spmm2_eq (d : Dev nD) :
    (bigSep Finset.univ fun w : Fin 32 => tdAt sv 2 d w)
      = iprop((bigSep Finset.univ fun w : Fin 32 => tcLoc d main_v15 ↦{rdShare w} (sv d).u 1)
          ∗ (bigSep Finset.univ fun w : Fin 32 => tcLoc d main_v1 ↦{rdShare w} (sv d).src)
          ∗ (bigSep Finset.univ fun w : Fin 32 => tcLoc d main_v3 ↦{rdShare w} (sv d).dst)
          ∗ bigSep Finset.univ fun w : Fin 32 => tcLoc d main_v16 ↦[flatPart w]{fullShare} (sv d).s 1) := by
  rw [← bigSep_sep', ← bigSep_sep', ← bigSep_sep']; rfl

theorem go_spmm2_of (d : Dev nD) (f : Buf (Elt F) (tcLoc d main_v16)) :
    iprop((bigSep Finset.univ fun w : Fin 32 => tcLoc d main_v15 ↦{rdShare w} (sv d).u 1)
        ∗ (bigSep Finset.univ fun w : Fin 32 => tcLoc d main_v1 ↦{rdShare w} (sv d).src)
        ∗ (bigSep Finset.univ fun w : Fin 32 => tcLoc d main_v3 ↦{rdShare w} (sv d).dst)
        ∗ bigSep Finset.univ fun w : Fin 32 => tcLoc d main_v16 ↦[flatPart w]{fullShare} f)
      ⊢ bigSep Finset.univ fun w : Fin 32 => goAt sv 2 d w := by
  rw [← bigSep_sep', ← bigSep_sep', ← bigSep_sep']
  refine bigSep_mono fun w _ => ?_
  show iprop((tcLoc d main_v15 ↦{rdShare w} (sv d).u 1) ∗ (tcLoc d main_v1 ↦{rdShare w} (sv d).src) ∗ (tcLoc d main_v3 ↦{rdShare w} (sv d).dst)
      ∗ tcLoc d main_v16 ↦[flatPart w]{fullShare} f)
    ⊢ iprop((tcLoc d main_v15 ↦{rdShare w} (sv d).u 1) ∗ (tcLoc d main_v1 ↦{rdShare w} (sv d).src) ∗ (tcLoc d main_v3 ↦{rdShare w} (sv d).dst)
      ∗ ∃ f, tcLoc d main_v16 ↦[flatPart w]{fullShare} f)
  iintro ⟨Ha, Hb, Hc, Hd⟩
  isplitl [Ha]; · iexact Ha
  isplitl [Hb]; · iexact Hb
  isplitl [Hc]; · iexact Hc
  iexists f; iexact Hd

theorem spmm2_call_in (d : Dev nD) :
    iprop((tcLoc d main_v15 ↦{fullShare} (sv d).u 1) ∗ (tcLoc d main_v1 ↦{fullShare} (sv d).src) ∗ (tcLoc d main_v3 ↦{fullShare} (sv d).dst)
        ∗ ∃ f, tcLoc d main_v16 ↦{fullShare} f)
      ⊢ iprop(((tcLoc d main_v15 ↦{shareDrop fullShare 32} (sv d).u 1) ∗ (tcLoc d main_v1 ↦{shareDrop fullShare 32} (sv d).src)
          ∗ (tcLoc d main_v3 ↦{shareDrop fullShare 32} (sv d).dst))
        ∗ bigSep Finset.univ fun c : Fin ((K (F := F)).nCore 2) => (P sv).st 2 d c) := by
  rw [st_eq]
  iintro ⟨Hu, Hs, Hd, %f, Hg⟩
  ihave Hu' := ((shares_split (F := F) (tcLoc d main_v15) ((sv d).u 1)).1) $$ Hu
  icases Hu' with ⟨Hur, Hush⟩
  ihave Hs' := ((shares_split (F := F) (tcLoc d main_v1) (sv d).src).1) $$ Hs
  icases Hs' with ⟨Hsr, Hssh⟩
  ihave Hd' := ((shares_split (F := F) (tcLoc d main_v3) (sv d).dst).1) $$ Hd
  icases Hd' with ⟨Hdr, Hdsh⟩
  ihave Hg' := (Entails.of_eq (flat_parts2 (F := F) d f)) $$ Hg
  isplitl [Hur Hsr Hdr]
  · isplitl [Hur]; · iexact Hur
    isplitl [Hsr]; · iexact Hsr
    iexact Hdr
  iapply (go_spmm2_of sv d f)
  isplitl [Hush]; · iexact Hush
  isplitl [Hssh]; · iexact Hssh
  isplitl [Hdsh]; · iexact Hdsh
  iexact Hg'

theorem spmm2_call_out (d : Dev nD) :
    iprop(((tcLoc d main_v15 ↦{shareDrop fullShare 32} (sv d).u 1) ∗ (tcLoc d main_v1 ↦{shareDrop fullShare 32} (sv d).src)
          ∗ (tcLoc d main_v3 ↦{shareDrop fullShare 32} (sv d).dst))
        ∗ bigSep Finset.univ fun c : Fin ((K (F := F)).nCore 2) => (P sv).dn 2 d c)
      ⊢ iprop((tcLoc d main_v15 ↦{fullShare} (sv d).u 1) ∗ (tcLoc d main_v1 ↦{fullShare} (sv d).src) ∗ (tcLoc d main_v3 ↦{fullShare} (sv d).dst)
        ∗ tcLoc d main_v16 ↦{fullShare} (sv d).s 1) := by
  rw [dn_eq, td_spmm2_eq, flat_parts2 (F := F) d ((sv d).s 1)]
  iintro ⟨⟨Hur, Hsr, Hdr⟩, Hush, Hssh, Hdsh, Hg⟩
  isplitl [Hur Hush]
  · iapply ((shares_split (F := F) (tcLoc d main_v15) ((sv d).u 1)).2)
    isplitl [Hur]; · iexact Hur
    iexact Hush
  isplitl [Hsr Hssh]
  · iapply ((shares_split (F := F) (tcLoc d main_v1) (sv d).src).2)
    isplitl [Hsr]; · iexact Hsr
    iexact Hssh
  isplitl [Hdr Hdsh]
  · iapply ((shares_split (F := F) (tcLoc d main_v3) (sv d).dst).2)
    isplitl [Hdr]; · iexact Hdr
    iexact Hdsh
  · iexact Hg

theorem td_spmm3_eq (d : Dev nD) :
    (bigSep Finset.univ fun w : Fin 32 => tdAt sv 3 d w)
      = iprop((bigSep Finset.univ fun w : Fin 32 => tcLoc d main_v19 ↦{rdShare w} (sv d).u 2)
          ∗ (bigSep Finset.univ fun w : Fin 32 => tcLoc d main_v1 ↦{rdShare w} (sv d).src)
          ∗ (bigSep Finset.univ fun w : Fin 32 => tcLoc d main_v3 ↦{rdShare w} (sv d).dst)
          ∗ bigSep Finset.univ fun w : Fin 32 => tcLoc d main_v20 ↦[flatPart w]{fullShare} (sv d).s 2) := by
  rw [← bigSep_sep', ← bigSep_sep', ← bigSep_sep']; rfl

theorem go_spmm3_of (d : Dev nD) (f : Buf (Elt F) (tcLoc d main_v20)) :
    iprop((bigSep Finset.univ fun w : Fin 32 => tcLoc d main_v19 ↦{rdShare w} (sv d).u 2)
        ∗ (bigSep Finset.univ fun w : Fin 32 => tcLoc d main_v1 ↦{rdShare w} (sv d).src)
        ∗ (bigSep Finset.univ fun w : Fin 32 => tcLoc d main_v3 ↦{rdShare w} (sv d).dst)
        ∗ bigSep Finset.univ fun w : Fin 32 => tcLoc d main_v20 ↦[flatPart w]{fullShare} f)
      ⊢ bigSep Finset.univ fun w : Fin 32 => goAt sv 3 d w := by
  rw [← bigSep_sep', ← bigSep_sep', ← bigSep_sep']
  refine bigSep_mono fun w _ => ?_
  show iprop((tcLoc d main_v19 ↦{rdShare w} (sv d).u 2) ∗ (tcLoc d main_v1 ↦{rdShare w} (sv d).src) ∗ (tcLoc d main_v3 ↦{rdShare w} (sv d).dst)
      ∗ tcLoc d main_v20 ↦[flatPart w]{fullShare} f)
    ⊢ iprop((tcLoc d main_v19 ↦{rdShare w} (sv d).u 2) ∗ (tcLoc d main_v1 ↦{rdShare w} (sv d).src) ∗ (tcLoc d main_v3 ↦{rdShare w} (sv d).dst)
      ∗ ∃ f, tcLoc d main_v20 ↦[flatPart w]{fullShare} f)
  iintro ⟨Ha, Hb, Hc, Hd⟩
  isplitl [Ha]; · iexact Ha
  isplitl [Hb]; · iexact Hb
  isplitl [Hc]; · iexact Hc
  iexists f; iexact Hd

theorem spmm3_call_in (d : Dev nD) :
    iprop((tcLoc d main_v19 ↦{fullShare} (sv d).u 2) ∗ (tcLoc d main_v1 ↦{fullShare} (sv d).src) ∗ (tcLoc d main_v3 ↦{fullShare} (sv d).dst)
        ∗ ∃ f, tcLoc d main_v20 ↦{fullShare} f)
      ⊢ iprop(((tcLoc d main_v19 ↦{shareDrop fullShare 32} (sv d).u 2) ∗ (tcLoc d main_v1 ↦{shareDrop fullShare 32} (sv d).src)
          ∗ (tcLoc d main_v3 ↦{shareDrop fullShare 32} (sv d).dst))
        ∗ bigSep Finset.univ fun c : Fin ((K (F := F)).nCore 3) => (P sv).st 3 d c) := by
  rw [st_eq]
  iintro ⟨Hu, Hs, Hd, %f, Hg⟩
  ihave Hu' := ((shares_split (F := F) (tcLoc d main_v19) ((sv d).u 2)).1) $$ Hu
  icases Hu' with ⟨Hur, Hush⟩
  ihave Hs' := ((shares_split (F := F) (tcLoc d main_v1) (sv d).src).1) $$ Hs
  icases Hs' with ⟨Hsr, Hssh⟩
  ihave Hd' := ((shares_split (F := F) (tcLoc d main_v3) (sv d).dst).1) $$ Hd
  icases Hd' with ⟨Hdr, Hdsh⟩
  ihave Hg' := (Entails.of_eq (flat_parts3 (F := F) d f)) $$ Hg
  isplitl [Hur Hsr Hdr]
  · isplitl [Hur]; · iexact Hur
    isplitl [Hsr]; · iexact Hsr
    iexact Hdr
  iapply (go_spmm3_of sv d f)
  isplitl [Hush]; · iexact Hush
  isplitl [Hssh]; · iexact Hssh
  isplitl [Hdsh]; · iexact Hdsh
  iexact Hg'

theorem spmm3_call_out (d : Dev nD) :
    iprop(((tcLoc d main_v19 ↦{shareDrop fullShare 32} (sv d).u 2) ∗ (tcLoc d main_v1 ↦{shareDrop fullShare 32} (sv d).src)
          ∗ (tcLoc d main_v3 ↦{shareDrop fullShare 32} (sv d).dst))
        ∗ bigSep Finset.univ fun c : Fin ((K (F := F)).nCore 3) => (P sv).dn 3 d c)
      ⊢ iprop((tcLoc d main_v19 ↦{fullShare} (sv d).u 2) ∗ (tcLoc d main_v1 ↦{fullShare} (sv d).src) ∗ (tcLoc d main_v3 ↦{fullShare} (sv d).dst)
        ∗ tcLoc d main_v20 ↦{fullShare} (sv d).s 2) := by
  rw [dn_eq, td_spmm3_eq, flat_parts3 (F := F) d ((sv d).s 2)]
  iintro ⟨⟨Hur, Hsr, Hdr⟩, Hush, Hssh, Hdsh, Hg⟩
  isplitl [Hur Hush]
  · iapply ((shares_split (F := F) (tcLoc d main_v19) ((sv d).u 2)).2)
    isplitl [Hur]; · iexact Hur
    iexact Hush
  isplitl [Hsr Hssh]
  · iapply ((shares_split (F := F) (tcLoc d main_v1) (sv d).src).2)
    isplitl [Hsr]; · iexact Hsr
    iexact Hssh
  isplitl [Hdr Hdsh]
  · iapply ((shares_split (F := F) (tcLoc d main_v3) (sv d).dst).2)
    isplitl [Hdr]; · iexact Hdr
    iexact Hdsh
  · iexact Hg

end Cert.KernelIdeal.Setup

end
-- ==== Proof.TcRegions.lean ====
import proofs.«213134_g57071525429591_cont_9to1_m_136_24_alg».proof.Proof.Setup
import proofs.«213134_g57071525429591_cont_9to1_m_136_24_alg».proof.Proof.TcVal
import Idealize.ShloMosaic.Lib.Pipeline.Regions
import Idealize.ShloMosaic.Lib.Pipeline.RegionsLoop
import Idealize.ShloMosaic.Lib.Pipeline.FrameBody
import Idealize.ShloMosaic.Lib.Pipeline.Value
import Idealize.ShloMosaic.Lib.Exec
import Idealize.ShloMosaic.Lib.Tactic

noncomputable section

namespace Cert.KernelIdeal.TcRegions

open Cert.KernelIdeal Cert.KernelIdeal.Gen Cert.KernelIdeal.Setup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

theorem h00 : ∀ a : Fin 2, (![0, 0] : Fin 2 → Nat) a = 0 := by decide

theorem idx_unit_whole {s : Shape} (off : Fin s.rank → Nat) (inb : ∀ a, off a + s.size a ≤ s.size a) (h0 : ∀ a, off a = 0)
    (x : s.Idx) : (Rect.unit (s := s) off s.size inb).toLoadRect.idx x = x :=
  funext fun a => Fin.ext (by
    rw [LoadRect.idx_apply]
    show off a + 1 * (x a).val = (x a).val
    rw [h0 a]; omega)

theorem readAt_unit_whole {Val : EltTy → Type} {sg : RefSig} {κ : Kind} {sp : Space} {s : Shape} {e : EltTy} (v : View sg κ sp s e)
    (off : Fin s.rank → Nat) (inb : ∀ a, off a + s.size a ≤ s.size a) (h0 : ∀ a, off a = 0) (f : v.ty.Contents Val) :
    v.readAt Val (Rect.unit (s := s) off s.size inb).toLoadRect f = v.read Val f :=
  funext fun x => by
    rw [View.readAt_eq_ld]
    show v.read Val f ((Rect.unit (s := s) off s.size inb).toLoadRect.idx x) = _
    rw [idx_unit_whole off inb h0 x]

theorem read_writes_unit_whole {Val : EltTy → Type} {sg : RefSig} {κ : Kind} {sp : Space} {s : Shape} {e : EltTy} (v : View sg κ sp s e)
    (off : Fin s.rank → Nat) (inb : ∀ a, off a + s.size a ≤ s.size a) (h0 : ∀ a, off a = 0) (f : v.ty.Contents Val)
    (p : s.Idx → Val e) :
    v.read Val (v.writes Val f [⟨Rect.unit (s := s) off s.size inb, p⟩]) = p :=
  funext fun x => by
    have h := View.read_writes_cons_emb (v := v) (f := f) (Rect.unit (s := s) off s.size inb) p [] x
    rwa [show (Rect.unit (s := s) off s.size inb).emb x = x from idx_unit_whole off inb h0 x] at h

theorem blk_emb_whole {s : Shape} {e : EltTy} {cs : CoreSpace} (arr : Memref sig .tc .hbm s e) (io sy : Bool)
    (stage : Memref sig .tc (.core cs) ⟨s.rank, s.size⟩ e) (sem : DmaSem sig) (harr : arr.IsWhole) (hstage : stage.IsWhole)
    (t : Fin Pipeline.Grid.none.N) (x : s.Idx) :
    ((Pipeline.Window.whole arr io sy stage sem harr hstage).blk t).view.emb x = arr.view.emb x := by
  show arr.view.emb (((Pipeline.Window.whole arr io sy stage sem harr hstage).rect t).emb x) = arr.view.emb x
  congr 1
  funext a
  apply Fin.ext
  exact Pipeline.Window.rect_emb_val_of_index_zero _ t a rfl x

theorem read_blk_whole {Val : EltTy → Type} {s : Shape} {e : EltTy} {cs : CoreSpace} (arr : Memref sig .tc .hbm s e) (io sy : Bool)
    (stage : Memref sig .tc (.core cs) ⟨s.rank, s.size⟩ e) (sem : DmaSem sig) (harr : arr.IsWhole) (hstage : stage.IsWhole)
    (t : Fin Pipeline.Grid.none.N) (f : arr.view.ty.Contents Val) :
    ((Pipeline.Window.whole arr io sy stage sem harr hstage).blk t).view.read Val f = arr.view.read Val f := by
  funext x
  rw [View.read_apply, View.read_apply, blk_emb_whole]

theorem mem_blk_whole {s : Shape} {e : EltTy} {cs : CoreSpace} (arr : Memref sig .tc .hbm s e) (io sy : Bool)
    (stage : Memref sig .tc (.core cs) ⟨s.rank, s.size⟩ e) (sem : DmaSem sig) (harr : arr.IsWhole) (hstage : stage.IsWhole)
    (t : Fin Pipeline.Grid.none.N) (i : arr.view.ty.Idx) (hi : i ∈ arr.view.set) :
    i ∈ ((Pipeline.Window.whole arr io sy stage sem harr hstage).blk t).view.set := by
  obtain ⟨x, -, rfl⟩ := Finset.mem_map.mp hi
  rw [← blk_emb_whole arr io sy stage sem harr hstage t x]
  exact View.emb_mem_set _ x

def upd (c : Dev nD) (V : (b : Ref sig .tc) → Buf (Elt F) ((c.tc : Thread nD τ).loc b)) (b₀ : Ref sig .tc)
    (v : Buf (Elt F) ((c.tc : Thread nD τ).loc b₀)) : (b : Ref sig .tc) → Buf (Elt F) ((c.tc : Thread nD τ).loc b) :=
  fun b => if h : b = b₀ then h ▸ v else V b

theorem upd_self (c : Dev nD) (V : (b : Ref sig .tc) → Buf (Elt F) ((c.tc : Thread nD τ).loc b)) (b₀ : Ref sig .tc)
    (v : Buf (Elt F) ((c.tc : Thread nD τ).loc b₀)) : upd c V b₀ v b₀ = v := by
  unfold upd; rw [dif_pos rfl]

theorem upd_of_ne (c : Dev nD) (V : (b : Ref sig .tc) → Buf (Elt F) ((c.tc : Thread nD τ).loc b)) (b₀ : Ref sig .tc)
    (v : Buf (Elt F) ((c.tc : Thread nD τ).loc b₀)) {b : Ref sig .tc} (h : b ≠ b₀) : upd c V b₀ v b = V b := by
  unfold upd; rw [dif_neg h]

abbrev adm : (p : Fin 4) → (pcfgs (F := F) p).Adm := fun p => (cfgs p).toPCfg_adm

def recBelow (c : Dev nD) (n : ℕ) : Set (SemLoc sig × HIx 4) := {p | (K (F := F)).lev ((T c : Thread nD τ), p.1) p.2 ≤ 8 * n}

def dummy [∀ e, Nonempty (Elt F e)] (W : (c : Dev nD) → (b : Ref sig .tc) → Buf (Elt F) ((c.tc : Thread nD τ).loc b))
    (p : Fin 4) (c : Dev nD) : Dat τ (Elt F) (HIx 4) ℕ UU ℕ (Pipeline.pin (pcfgs (F := F)) adm p) c where
  A w := W c (Pipeline.arrRef (Pipeline.pin (pcfgs (F := F)) adm p).spec w)
  after _ _ := fun _ => Classical.arbitrary _
  Φ _ := iprop(emp)
  q _ := fullShare
  owed _ := 0

theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

def tcOwes (c : Dev nD) (n : ℕ) : sProp 𝕄 :=
  iprop(∃ Wt, ⌜(K (F := F)).WBelow (T c) Wt (8 * n)⌝ ∗ owes (T c) ((K (F := F)).Otc c n) Wt)

section Region0

variable (W : (c : Dev nD) → (b : Ref sig .tc) → Buf (Elt F) ((c.tc : Thread nD τ).loc b)) (n : ℕ)

def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

def dat1 (c : Dev nD) : Dat τ (Elt F) (HIx 4) ℕ UU ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => TcVal.firstU (iblk1 W c 0 t) (iblk1 W c 1 t) (iblk1 W c 2 t)
    | ⟨4, _⟩ => TcVal.firstDis (iblk1 W c 0 t) (iblk1 W c 1 t) (iblk1 W c 2 t)
  Φ _ := Pipeline.scopedRest (Ix := HIx 4) (Name := ℕ) (U := UU) (Lvl := ℕ) (Val := Elt F) spec1 c
  q _ := fullShare
  owed _ := (K (F := F)).Otc c n
  recorded _ := recBelow (F := F) c n

theorem A_eq1 (c : Dev nD) (w : Fin cfg1.W) : (dat1 W n c).A w = W c (Pipeline.arrRef spec1 w) := by dsimp only [dat1]
theorem after1_0 (c : Dev nD) (t : Fin cfg1.N) : (dat1 W n c).after 0 t = iblk1 W c 0 t := by dsimp only [dat1]
theorem after1_1 (c : Dev nD) (t : Fin cfg1.N) : (dat1 W n c).after 1 t = iblk1 W c 1 t := by dsimp only [dat1]
theorem after1_2 (c : Dev nD) (t : Fin cfg1.N) : (dat1 W n c).after 2 t = iblk1 W c 2 t := by dsimp only [dat1]
theorem after1_3 (c : Dev nD) (t : Fin cfg1.N) : (dat1 W n c).after 3 t = TcVal.firstU (iblk1 W c 0 t) (iblk1 W c 1 t) (iblk1 W c 2 t) := by dsimp only [dat1]
theorem after1_4 (c : Dev nD) (t : Fin cfg1.N) : (dat1 W n c).after 4 t = TcVal.firstDis (iblk1 W c 0 t) (iblk1 W c 1 t) (iblk1 W c 2 t) := by dsimp only [dat1]

theorem before1_0 (c : Dev nD) (t : Fin cfg1.N) (d) : (dat1 W n c).before 0 t d = iblk1 W c 0 t :=
  ((dat1 W n c).before_fetched 0 t (fetch1_0 t) d).trans (by unfold Dat.fetched Dat.blockOf iblk1; rw [A_eq1]; rfl)
theorem before1_1 (c : Dev nD) (t : Fin cfg1.N) (d) : (dat1 W n c).before 1 t d = iblk1 W c 1 t :=
  ((dat1 W n c).before_fetched 1 t (fetch1_1 t) d).trans (by unfold Dat.fetched Dat.blockOf iblk1; rw [A_eq1]; rfl)
theorem before1_2 (c : Dev nD) (t : Fin cfg1.N) (d) : (dat1 W n c).before 2 t d = iblk1 W c 2 t :=
  ((dat1 W n c).before_fetched 2 t (fetch1_2 t) d).trans (by unfold Dat.fetched Dat.blockOf iblk1; rw [A_eq1]; rfl)

set_option maxHeartbeats 1000000 in

theorem sound_kernel1 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S32x10000 .f32) (harg2 : arg2.IsWhole) (arg3 : Memref sig .tc .vmem S128x10000 .f32) (harg3 : arg3.IsWhole) (arg4 : Memref sig .tc .vmem S1x10000 .f32) (harg4 : arg4.IsWhole)
    (x0 : Vec F S10000x128 .f32) (x1 : Vec F S128x128 .f32) (x2 : Vec F S32x10000 .f32) (Kc : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (TcVal.firstU x0 x1 x2) ∗ owns (c : Thread nD τ) arg4 fullShare (TcVal.firstDis x0 x1 x2)) -∗ Kc ⟨⟩))
      ⊢ wp frame (wpE (defs₀ (F := F)) Variants.none c none) E (cc1_body arg0 harg0 arg1 harg1 arg2 harg2 arg3 harg3 arg4 harg4) Kc := by
  simp only [cc1_body_eq_skeleton]; unfold cc1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  have e0 := readAt_unit_whole (Val := Elt F) arg0.view ![0, 0] inb_S10000x128_S10000x128_0_0 h00 f0
  have e1 := readAt_unit_whole (Val := Elt F) arg1.view ![0, 0] inb_S128x128_S128x128_0_0 h00 f1
  have e2 := readAt_unit_whole (Val := Elt F) arg2.view ![0, 0] inb_S32x10000_S32x10000_0_0 h00 f2
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_unit_whole (Val := Elt F) arg3.view ![0, 0] inb_S128x10000_S128x10000_0_0 h00]
    (try rw [e0]); (try rw [e1]); (try rw [e2])
    rfl
  iexists _; isplitr
  swap; · iexact H4
  ipureintro
  rw [read_writes_unit_whole (Val := Elt F) arg4.view ![0, 0] inb_S1x10000_S1x10000_0_0 h00]
  (try rw [e0]); (try rw [e1]); (try rw [e2])
  rfl

def bodyPre1 (c : Dev nD) (t : Fin cfg1.N) : sProp 𝕄 :=
  iprop((dat1 W n c).Φ t.castSucc ∗ (dat1 W n c).owesAt (none : HIx 4) t.castSucc
    ∗ (∃ d, owns (c : Thread nD τ) (st1_0 t) fullShare ((dat1 W n c).before 0 t d))
    ∗ (∃ d, owns (c : Thread nD τ) (st1_1 t) fullShare ((dat1 W n c).before 1 t d))
    ∗ (∃ d, owns (c : Thread nD τ) (st1_2 t) fullShare ((dat1 W n c).before 2 t d))
    ∗ (∃ d, owns (c : Thread nD τ) (st1_3 t) fullShare ((dat1 W n c).before 3 t d))
    ∗ (∃ d, owns (c : Thread nD τ) (st1_4 t) fullShare ((dat1 W n c).before 4 t d)))

def bodyPost1 (c : Dev nD) (t : Fin cfg1.N) : sProp 𝕄 :=
  iprop((dat1 W n c).Φ t.succ ∗ (dat1 W n c).owesAt (none : HIx 4) t.succ
    ∗ owns (c : Thread nD τ) (st1_0 t) fullShare ((dat1 W n c).after 0 t)
    ∗ owns (c : Thread nD τ) (st1_1 t) fullShare ((dat1 W n c).after 1 t)
    ∗ owns (c : Thread nD τ) (st1_2 t) fullShare ((dat1 W n c).after 2 t)
    ∗ owns (c : Thread nD τ) (st1_3 t) fullShare ((dat1 W n c).after 3 t)
    ∗ owns (c : Thread nD τ) (st1_4 t) fullShare ((dat1 W n c).after 4 t))

theorem sound_body1 (c : Dev nD) (t : Fin cfg1.N) :
    bodyPre1 W n c t ⊢ wp frame (wpE (defs₀ (F := F)) Variants.none c none) Set.univ (bodyAt1 t) (fun _ => bodyPost1 W n c t) := by
  unfold bodyPre1 bodyPost1 bodyAt1
  simp only [before1_0, before1_1, before1_2]
  rw [show (dat1 W n c).Φ t.succ = (dat1 W n c).Φ t.castSucc from rfl,
    show (dat1 W n c).owesAt (none : HIx 4) t.succ = (dat1 W n c).owesAt (none : HIx 4) t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 W c 0 t) (iblk1 W c 1 t) (iblk1 W c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) W n c) (defs₀ (F := F)) Variants.none (none : HIx 4) Set.univ := fun t => by
  rw [bigSep_W1, bigSep_W1]
  exact sound_body1 W n c t

def out0 (c : Dev nD) : (b : Ref sig .tc) → Buf (Elt F) ((c.tc : Thread nD τ).loc b) :=
  upd c (upd c (W c) main_v10_0 (TcVal.firstU (W c main_arg0) (W c main_arg3) (W c main_v9))) main_v10_1 (TcVal.firstDis (W c main_arg0) (W c main_arg3) (W c main_v9))

theorem out0_0 (c : Dev nD) : out0 W c main_v10_0 = TcVal.firstU (W c main_arg0) (W c main_arg3) (W c main_v9) := by
  unfold out0; rw [upd_of_ne _ _ _ _ (by decide), upd_self]
theorem out0_1 (c : Dev nD) : out0 W c main_v10_1 = TcVal.firstDis (W c main_arg0) (W c main_arg3) (W c main_v9) := by
  unfold out0; rw [upd_self]
theorem out0_of_ne (c : Dev nD) {b : Ref sig .tc} (h0 : b ≠ main_v10_0) (h1 : b ≠ main_v10_1) : out0 W c b = W c b := by
  unfold out0; rw [upd_of_ne _ _ _ _ h1, upd_of_ne _ _ _ _ h0]

theorem iblk1_0 (c : Dev nD) (t : Fin cfg1.N) : iblk1 W c 0 t = W c main_arg0 :=
  read_blk_whole (Val := Elt F) (Memref.whole main_arg0) false false (stage1_0 0) (sem1_0 0) (Memref.isWhole_whole _) (hstage1_0 0) t (W c main_arg0)
theorem iblk1_1 (c : Dev nD) (t : Fin cfg1.N) : iblk1 W c 1 t = W c main_arg3 :=
  read_blk_whole (Val := Elt F) (Memref.whole main_arg3) false false (stage1_1 0) (sem1_1 0) (Memref.isWhole_whole _) (hstage1_1 0) t (W c main_arg3)
theorem iblk1_2 (c : Dev nD) (t : Fin cfg1.N) : iblk1 W c 2 t = W c main_v9 :=
  read_blk_whole (Val := Elt F) (Memref.whole main_v9) false false (stage1_2 0) (sem1_2 0) (Memref.isWhole_whole _) (hstage1_2 0) t (W c main_v9)

theorem hF1 (c : Dev nD) : ∀ w : Fin cfg1.W, (dat1 W n c).arrAt w cfg1.N = out0 W c (Pipeline.arrRef spec1 w)
  | ⟨0, _⟩ => ((dat1 W n c).arrAt_in 0 rfl _).trans (out0_of_ne W c (b := main_arg0) (by decide) (by decide)).symm
  | ⟨1, _⟩ => ((dat1 W n c).arrAt_in 1 rfl _).trans (out0_of_ne W c (b := main_arg3) (by decide) (by decide)).symm
  | ⟨2, _⟩ => ((dat1 W n c).arrAt_in 2 rfl _).trans (out0_of_ne W c (b := main_v9) (by decide) (by decide)).symm
  | ⟨3, _⟩ => (dat1 W n c).arrAt_eq_of_cover 3 (out0 W c main_v10_0)
      (fun t _ => by
        show (dat1 W n c).after 3 t = _
        rw [after1_3, iblk1_0, iblk1_1, iblk1_2, out0_0]
        exact (read_blk_whole (Val := Elt F) (Memref.whole main_v10_0) true false (stage1_3 0) (sem1_3 0) (Memref.isWhole_whole _) (hstage1_3 0) t _).symm)
      (fun i => ⟨t1_0, flush1_3 t1_0, mem_blk_whole (Memref.whole main_v10_0) true false (stage1_3 0) (sem1_3 0) (Memref.isWhole_whole _) (hstage1_3 0) t1_0 i
        (by rw [show (Memref.whole main_v10_0 : Memref sig .tc _ _ _).view.set = Finset.univ from View.set_whole _]; exact Finset.mem_univ _)⟩)
  | ⟨4, _⟩ => (dat1 W n c).arrAt_eq_of_cover 4 (out0 W c main_v10_1)
      (fun t _ => by
        show (dat1 W n c).after 4 t = _
        rw [after1_4, iblk1_0, iblk1_1, iblk1_2, out0_1]
        exact (read_blk_whole (Val := Elt F) (Memref.whole main_v10_1) true false (stage1_4 0) (sem1_4 0) (Memref.isWhole_whole _) (hstage1_4 0) t _).symm)
      (fun i => ⟨t1_0, flush1_4 t1_0, mem_blk_whole (Memref.whole main_v10_1) true false (stage1_4 0) (sem1_4 0) (Memref.isWhole_whole _) (hstage1_4 0) t1_0 i
        (by rw [show (Memref.whole main_v10_1 : Memref sig .tc _ _ _).view.set = Finset.univ from View.set_whole _]; exact Finset.mem_univ _)⟩)

theorem hrest1 (c : Dev nD) (b : Ref sig .tc) (hb : b ∉ Finset.univ.image (Pipeline.arrRef spec1)) : out0 W c b = W c b :=
  out0_of_ne W c (fun h => hb (h ▸ Finset.mem_image.mpr ⟨3, Finset.mem_univ _, rfl⟩))
    (fun h => hb (h ▸ Finset.mem_image.mpr ⟨4, Finset.mem_univ _, rfl⟩))

end Region0

section Region0Seg

variable [∀ e, Nonempty (Elt F e)]
variable (W : (c : Dev nD) → (b : Ref sig .tc) → Buf (Elt F) ((c.tc : Thread nD τ).loc b)) (n : ℕ)

def dats0 : (p : Fin 4) → (c : Dev nD) → Dat τ (Elt F) (HIx 4) ℕ UU ℕ (Pipeline.pin (pcfgs (F := F)) adm p) c
  | ⟨0, _⟩, c => dat1 W n c
  | ⟨k + 1, h⟩, c => dummy W ⟨k + 1, h⟩ c

set_option maxHeartbeats 2000000 in

set_option backward.isDefEq.respectTransparency.types false in

def reg0 {lv : GSem nD τ sig → HIx 4 → ℕ} (hlv : (K (F := F)).Refines lv) :
    Pipeline.RegionSeg (pcfgs (F := F)) adm (dats0 W n) (none : HIx 4) defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation1 W n c).loose
  hwaits c := Pipeline.cellsWaits_intro _ (dats0 W n) (none : HIx 4) 0 c fun w s t =>
    SparseCore.Cfg.mayWait_none (K := K (F := F)) (thr := (c : Thread nD τ)) _ (Otc_none c n) lv hlv
  pre c := iprop(unscopedBufs c (W c) ∗ tcOwes (F := F) c n)
  post c := iprop(unscopedBufs c (out0 W c) ∗ tcOwes (F := F) c n)
  X _ := iprop(emp)
  Y _ := iprop(emp)
  Z c := Pipeline.unscopedRest spec1 c (W c)
  hentry c := by
    have hsplit := Pipeline.arrays_of_unscopedBufs (pcfgs (F := F)) adm (dats0 W n) (p := 0) launch1.win launch1.arr_whole c
      ((dat1 W n c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOwes Pipeline.Dat.owesAt Pipeline.owesWithin
      icases HO with ⟨%Wt, %hW, HO⟩; iexists Wt; isplitr
      · ipureintro; exact fun p hp => Or.inl (hW p (Finset.mem_coe.mp hp))
      iexact HO
    isplitr; · iempintro
    iexact Hrest
  hin c := by
    show _ ⊢ (Pipeline.scopedRest (Ix := HIx 4) (Name := ℕ) (U := UU) (Lvl := ℕ) (Val := Elt F) spec1 c : sProp 𝕄)
    iintro ⟨-, -, Hr⟩; iexact Hr
  hout c := by
    show (Pipeline.scopedRest (Ix := HIx 4) (Name := ℕ) (U := UU) (Lvl := ℕ) (Val := Elt F) spec1 c : sProp 𝕄) ⊢ _
    unfold Pipeline.ownSems0; rw [Finset.univ_eq_empty, BI.bigSep_empty]
    iintro Hr
    isplitr; · iempintro
    isplitr; · iempintro
    iexact Hr
  hexit c := by
    have hjoin := Pipeline.unscopedBufs_of_arrays (pcfgs (F := F)) adm (p := 0) launch1.win launch1.arr_whole c (dats0 W n)
      ((dat1 W n c).share_full fun _ => rfl) (W c) (out0 W c) (fun w => (dats0 W n 0 c).arrAt w (Pipeline.pin (pcfgs (F := F)) adm 0).N) (hF1 W n c) (hrest1 W c)
    iintro ⟨Ha, HO, -, HZ⟩
    imodintro
    isplitl [Ha HZ]
    · iapply hjoin
      isplitl [Ha]; · iexact Ha
      iexact HZ
    · unfold tcOwes Pipeline.Dat.owesAt Pipeline.owesWithin
      icases HO with ⟨%Wt, %hW, HO⟩; iexists Wt; isplitr
      · ipureintro
        intro p hp
        rcases hW (Finset.mem_coe.mpr hp) with h | ⟨w, s, rfl⟩
        · exact h
        · show (K (F := F)).lev _ none ≤ _
          rw [SparseCore.Cfg.lev_none]; exact Nat.zero_le _
      iexact HO

set_option backward.isDefEq.respectTransparency.types false in

theorem region0 {P : (K (F := F)).Pay (nD := nD) (Val := Elt F) (Name := ℕ) (U := UU)}
    (κ : GSem nD τ sig → ℕ) {lv : GSem nD τ sig → HIx 4 → ℕ} (hlv : (K (F := F)).Refines lv) (d : Dev nD) (Φ : PUnit → sProp 𝕄) :
    iprop((K (F := F)).ctx EH P κ lv ∗ (K (F := F)).tcSt EH d n ∗ boundary (T d : Thread nD τ) ∗ unscopedBufs d (W d)
        ∗ (Pipeline.cellsGhost (Pipeline.pin (pcfgs (F := F)) adm) EP 0 d ∗ Pipeline.toksInit (Pipeline.pin (pcfgs (F := F)) adm) EP 0 d)
        ∗ (iprop((K (F := F)).tcSt EH d n ∗ boundary (T d : Thread nD τ) ∗ unscopedBufs d (out0 W d)) -∗ Φ ⟨⟩))
      ⊢ wp frame (wpE ((K (F := F)).defs (D (F := F))) 𝒱 (T d) none) Set.univ
          (Prog.lift (.customCall (SparseCore.inner (Pipeline.entry 0)) ())) Φ := by
  unfold SparseCore.Cfg.tcSt
  iintro ⟨#Hctx, ⟨HO, Hrest⟩, Hbd, Hub, ⟨Hg, Ht⟩, Hk⟩
  ihave Hla := (SparseCore.Cfg.ctx_levAts κ) $$ Hctx
  iapply ((K (F := F)).wp_liftProg (D (F := F)) 𝒱 (T d) Set.univ none (Prog.op (.customCall (Pipeline.entry 0) ()) fun _ => .ret ⟨⟩) Φ)
  have hR := Pipeline.RegionSeg.wp (pcfgs (F := F)) adm (dats0 W n) (none : HIx 4) cellOf_inj EP defs₀ 𝒱₀ (K (F := F)).L lv (reg0 W n hlv) d none
    (fun _ h => nomatch h) (fun _ => .ret ⟨⟩) Φ
  rw [show (reg0 W n hlv).post d = iprop(unscopedBufs d (out0 W d) ∗ tcOwes (F := F) d n) from rfl,
    show (reg0 W n hlv).pre d = iprop(unscopedBufs d (W d) ∗ tcOwes (F := F) d n) from rfl] at hR
  unfold tcOwes at hR
  iapply hR
  isplitl [Hk Hrest]
  · iintro ⟨Hbd, Hub, HO⟩
    rw [wp_ret]; imodintro
    iapply Hk
    isplitl [HO Hrest]; · isplitl [HO] <;> iassumption
    isplitl [Hbd] <;> iassumption
  isplitl [Hbd]; · iexact Hbd
  isplitl [Hub HO]; · isplitl [Hub] <;> iassumption
  isplitl [Hla]; · iexact Hla
  isplitl [Hg] <;> iassumption

end Region0Seg

section Region1

variable (W : (c : Dev nD) → (b : Ref sig .tc) → Buf (Elt F) ((c.tc : Thread nD τ).loc b)) (n : ℕ)

def iblk3 (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))

def dat3 (c : Dev nD) : Dat τ (Elt F) (HIx 4) ℕ UU ℕ cfg3 c where
  A w := W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => TcVal.midU (iblk3 W c 0 t) (iblk3 W c 1 t) (iblk3 W c 2 t) (iblk3 W c 3 t) (iblk3 W c 4 t)
  Φ _ := Pipeline.scopedRest (Ix := HIx 4) (Name := ℕ) (U := UU) (Lvl := ℕ) (Val := Elt F) spec3 c
  q _ := fullShare
  owed _ := (K (F := F)).Otc c n
  recorded _ := recBelow (F := F) c n

theorem A_eq3 (c : Dev nD) (w : Fin cfg3.W) : (dat3 W n c).A w = W c (Pipeline.arrRef spec3 w) := by dsimp only [dat3]
theorem after3_0 (c : Dev nD) (t : Fin cfg3.N) : (dat3 W n c).after 0 t = iblk3 W c 0 t := by dsimp only [dat3]
theorem after3_1 (c : Dev nD) (t : Fin cfg3.N) : (dat3 W n c).after 1 t = iblk3 W c 1 t := by dsimp only [dat3]
theorem after3_2 (c : Dev nD) (t : Fin cfg3.N) : (dat3 W n c).after 2 t = iblk3 W c 2 t := by dsimp only [dat3]
theorem after3_3 (c : Dev nD) (t : Fin cfg3.N) : (dat3 W n c).after 3 t = iblk3 W c 3 t := by dsimp only [dat3]
theorem after3_4 (c : Dev nD) (t : Fin cfg3.N) : (dat3 W n c).after 4 t = iblk3 W c 4 t := by dsimp only [dat3]
theorem after3_5 (c : Dev nD) (t : Fin cfg3.N) : (dat3 W n c).after 5 t = TcVal.midU (iblk3 W c 0 t) (iblk3 W c 1 t) (iblk3 W c 2 t) (iblk3 W c 3 t) (iblk3 W c 4 t) := by dsimp only [dat3]

theorem before3_0 (c : Dev nD) (t : Fin cfg3.N) (d) : (dat3 W n c).before 0 t d = iblk3 W c 0 t :=
  ((dat3 W n c).before_fetched 0 t (fetch3_0 t) d).trans (by unfold Dat.fetched Dat.blockOf iblk3; rw [A_eq3]; rfl)
theorem before3_1 (c : Dev nD) (t : Fin cfg3.N) (d) : (dat3 W n c).before 1 t d = iblk3 W c 1 t :=
  ((dat3 W n c).before_fetched 1 t (fetch3_1 t) d).trans (by unfold Dat.fetched Dat.blockOf iblk3; rw [A_eq3]; rfl)
theorem before3_2 (c : Dev nD) (t : Fin cfg3.N) (d) : (dat3 W n c).before 2 t d = iblk3 W c 2 t :=
  ((dat3 W n c).before_fetched 2 t (fetch3_2 t) d).trans (by unfold Dat.fetched Dat.blockOf iblk3; rw [A_eq3]; rfl)
theorem before3_3 (c : Dev nD) (t : Fin cfg3.N) (d) : (dat3 W n c).before 3 t d = iblk3 W c 3 t :=
  ((dat3 W n c).before_fetched 3 t (fetch3_3 t) d).trans (by unfold Dat.fetched Dat.blockOf iblk3; rw [A_eq3]; rfl)
theorem before3_4 (c : Dev nD) (t : Fin cfg3.N) (d) : (dat3 W n c).before 4 t d = iblk3 W c 4 t :=
  ((dat3 W n c).before_fetched 4 t (fetch3_4 t) d).trans (by unfold Dat.fetched Dat.blockOf iblk3; rw [A_eq3]; rfl)

set_option maxHeartbeats 1000000 in

theorem sound_kernel3 (c : Dev nD) (E : Set ℕ) (arg0 : Memref sig .tc .vmem S128x10000 .f32) (harg0 : arg0.IsWhole) (arg1 : Memref sig .tc .vmem S128x10000 .f32) (harg1 : arg1.IsWhole) (arg2 : Memref sig .tc .vmem S1x10000 .f32) (harg2 : arg2.IsWhole) (arg3 : Memref sig .tc .vmem S128x1 .f32) (harg3 : arg3.IsWhole) (arg4 : Memref sig .tc .vmem S128x128 .f32) (harg4 : arg4.IsWhole) (arg5 : Memref sig .tc .vmem S128x10000 .f32) (harg5 : arg5.IsWhole)
    (x0 : Vec F S128x10000 .f32) (x1 : Vec F S128x10000 .f32) (x2 : Vec F S1x10000 .f32) (x3 : Vec F S128x1 .f32) (x4 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (TcVal.midU x0 x1 x2 x3 x4)) -∗ Kc ⟨⟩))
      ⊢ wp frame (wpE (defs₀ (F := F)) Variants.none c none) E (cc3_body arg0 harg0 arg1 harg1 arg2 harg2 arg3 harg3 arg4 harg4 arg5 harg5) Kc := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  have e0 := readAt_unit_whole (Val := Elt F) arg0.view ![0, 0] inb_S128x10000_S128x10000_0_0 h00 f0
  have e1 := readAt_unit_whole (Val := Elt F) arg1.view ![0, 0] inb_S128x10000_S128x10000_0_0 h00 f1
  have e2 := readAt_unit_whole (Val := Elt F) arg2.view ![0, 0] inb_S1x10000_S1x10000_0_0 h00 f2
  have e3 := readAt_unit_whole (Val := Elt F) arg3.view ![0, 0] inb_S128x1_S128x1_0_0 h00 f3
  have e4 := readAt_unit_whole (Val := Elt F) arg4.view ![0, 0] inb_S128x128_S128x128_0_0 h00 f4
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [read_writes_unit_whole (Val := Elt F) arg5.view ![0, 0] inb_S128x10000_S128x10000_0_0 h00]
  (try rw [e0]); (try rw [e1]); (try rw [e2]); (try rw [e3]); (try rw [e4])
  rfl

def bodyPre3 (c : Dev nD) (t : Fin cfg3.N) : sProp 𝕄 :=
  iprop((dat3 W n c).Φ t.castSucc ∗ (dat3 W n c).owesAt (none : HIx 4) t.castSucc
    ∗ (∃ d, owns (c : Thread nD τ) (st3_0 t) fullShare ((dat3 W n c).before 0 t d))
    ∗ (∃ d, owns (c : Thread nD τ) (st3_1 t) fullShare ((dat3 W n c).before 1 t d))
    ∗ (∃ d, owns (c : Thread nD τ) (st3_2 t) fullShare ((dat3 W n c).before 2 t d))
    ∗ (∃ d, owns (c : Thread nD τ) (st3_3 t) fullShare ((dat3 W n c).before 3 t d))
    ∗ (∃ d, owns (c : Thread nD τ) (st3_4 t) fullShare ((dat3 W n c).before 4 t d))
    ∗ (∃ d, owns (c : Thread nD τ) (st3_5 t) fullShare ((dat3 W n c).before 5 t d)))

def bodyPost3 (c : Dev nD) (t : Fin cfg3.N) : sProp 𝕄 :=
  iprop((dat3 W n c).Φ t.succ ∗ (dat3 W n c).owesAt (none : HIx 4) t.succ
    ∗ owns (c : Thread nD τ) (st3_0 t) fullShare ((dat3 W n c).after 0 t)
    ∗ owns (c : Thread nD τ) (st3_1 t) fullShare ((dat3 W n c).after 1 t)
    ∗ owns (c : Thread nD τ) (st3_2 t) fullShare ((dat3 W n c).after 2 t)
    ∗ owns (c : Thread nD τ) (st3_3 t) fullShare ((dat3 W n c).after 3 t)
    ∗ owns (c : Thread nD τ) (st3_4 t) fullShare ((dat3 W n c).after 4 t)
    ∗ owns (c : Thread nD τ) (st3_5 t) fullShare ((dat3 W n c).after 5 t))

theorem sound_body3 (c : Dev nD) (t : Fin cfg3.N) :
    bodyPre3 W n c t ⊢ wp frame (wpE (defs₀ (F := F)) Variants.none c none) Set.univ (bodyAt3 t) (fun _ => bodyPost3 W n c t) := by
  unfold bodyPre3 bodyPost3 bodyAt3
  simp only [before3_0, before3_1, before3_2, before3_3, before3_4]
  rw [show (dat3 W n c).Φ t.succ = (dat3 W n c).Φ t.castSucc from rfl,
    show (dat3 W n c).owesAt (none : HIx 4) t.succ = (dat3 W n c).owesAt (none : HIx 4) t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ (iblk3 W c 0 t) (iblk3 W c 1 t) (iblk3 W c 2 t) (iblk3 W c 3 t) (iblk3 W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) W n c) (defs₀ (F := F)) Variants.none (none : HIx 4) Set.univ := fun t => by
  rw [bigSep_W3, bigSep_W3]
  exact sound_body3 W n c t

def out1 (c : Dev nD) : (b : Ref sig .tc) → Buf (Elt F) ((c.tc : Thread nD τ).loc b) :=
  upd c (W c) main_v14 (TcVal.midU (W c main_v13) (W c main_v10_0) (W c main_v10_1) (W c main_v5) (W c main_arg5))

theorem out1_0 (c : Dev nD) : out1 W c main_v14 = TcVal.midU (W c main_v13) (W c main_v10_0) (W c main_v10_1) (W c main_v5) (W c main_arg5) := by
  unfold out1; rw [upd_self]
theorem out1_of_ne (c : Dev nD) {b : Ref sig .tc} (h0 : b ≠ main_v14) : out1 W c b = W c b := by
  unfold out1; rw [upd_of_ne _ _ _ _ h0]

theorem iblk3_0 (c : Dev nD) (t : Fin cfg3.N) : iblk3 W c 0 t = W c main_v13 :=
  read_blk_whole (Val := Elt F) (Memref.whole main_v13) false false (stage3_0 0) (sem3_0 0) (Memref.isWhole_whole _) (hstage3_0 0) t (W c main_v13)
theorem iblk3_1 (c : Dev nD) (t : Fin cfg3.N) : iblk3 W c 1 t = W c main_v10_0 :=
  read_blk_whole (Val := Elt F) (Memref.whole main_v10_0) false false (stage3_1 0) (sem3_1 0) (Memref.isWhole_whole _) (hstage3_1 0) t (W c main_v10_0)
theorem iblk3_2 (c : Dev nD) (t : Fin cfg3.N) : iblk3 W c 2 t = W c main_v10_1 :=
  read_blk_whole (Val := Elt F) (Memref.whole main_v10_1) false false (stage3_2 0) (sem3_2 0) (Memref.isWhole_whole _) (hstage3_2 0) t (W c main_v10_1)
theorem iblk3_3 (c : Dev nD) (t : Fin cfg3.N) : iblk3 W c 3 t = W c main_v5 :=
  read_blk_whole (Val := Elt F) (Memref.whole main_v5) false false (stage3_3 0) (sem3_3 0) (Memref.isWhole_whole _) (hstage3_3 0) t (W c main_v5)
theorem iblk3_4 (c : Dev nD) (t : Fin cfg3.N) : iblk3 W c 4 t = W c main_arg5 :=
  read_blk_whole (Val := Elt F) (Memref.whole main_arg5) false false (stage3_4 0) (sem3_4 0) (Memref.isWhole_whole _) (hstage3_4 0) t (W c main_arg5)

theorem hF3 (c : Dev nD) : ∀ w : Fin cfg3.W, (dat3 W n c).arrAt w cfg3.N = out1 W c (Pipeline.arrRef spec3 w)
  | ⟨0, _⟩ => ((dat3 W n c).arrAt_in 0 rfl _).trans (out1_of_ne W c (b := main_v13) (by decide)).symm
  | ⟨1, _⟩ => ((dat3 W n c).arrAt_in 1 rfl _).trans (out1_of_ne W c (b := main_v10_0) (by decide)).symm
  | ⟨2, _⟩ => ((dat3 W n c).arrAt_in 2 rfl _).trans (out1_of_ne W c (b := main_v10_1) (by decide)).symm
  | ⟨3, _⟩ => ((dat3 W n c).arrAt_in 3 rfl _).trans (out1_of_ne W c (b := main_v5) (by decide)).symm
  | ⟨4, _⟩ => ((dat3 W n c).arrAt_in 4 rfl _).trans (out1_of_ne W c (b := main_arg5) (by decide)).symm
  | ⟨5, _⟩ => (dat3 W n c).arrAt_eq_of_cover 5 (out1 W c main_v14)
      (fun t _ => by
        show (dat3 W n c).after 5 t = _
        rw [after3_5, iblk3_0, iblk3_1, iblk3_2, iblk3_3, iblk3_4, out1_0]
        exact (read_blk_whole (Val := Elt F) (Memref.whole main_v14) true false (stage3_5 0) (sem3_5 0) (Memref.isWhole_whole _) (hstage3_5 0) t _).symm)
      (fun i => ⟨t3_0, flush3_5 t3_0, mem_blk_whole (Memref.whole main_v14) true false (stage3_5 0) (sem3_5 0) (Memref.isWhole_whole _) (hstage3_5 0) t3_0 i
        (by rw [show (Memref.whole main_v14 : Memref sig .tc _ _ _).view.set = Finset.univ from View.set_whole _]; exact Finset.mem_univ _)⟩)

theorem hrest3 (c : Dev nD) (b : Ref sig .tc) (hb : b ∉ Finset.univ.image (Pipeline.arrRef spec3)) : out1 W c b = W c b :=
  out1_of_ne W c (fun h => hb (h ▸ Finset.mem_image.mpr ⟨5, Finset.mem_univ _, rfl⟩))

end Region1

section Region1Seg

variable [∀ e, Nonempty (Elt F e)]
variable (W : (c : Dev nD) → (b : Ref sig .tc) → Buf (Elt F) ((c.tc : Thread nD τ).loc b)) (n : ℕ)

def dats1 : (p : Fin 4) → (c : Dev nD) → Dat τ (Elt F) (HIx 4) ℕ UU ℕ (Pipeline.pin (pcfgs (F := F)) adm p) c
  | ⟨0, h⟩, c => dummy W ⟨0, h⟩ c
  | ⟨1, _⟩, c => dat3 W n c
  | ⟨k + 2, h⟩, c => dummy W ⟨k + 2, h⟩ c

set_option maxHeartbeats 2000000 in

set_option backward.isDefEq.respectTransparency.types false in

def reg1 {lv : GSem nD τ sig → HIx 4 → ℕ} (hlv : (K (F := F)).Refines lv) :
    Pipeline.RegionSeg (pcfgs (F := F)) adm (dats1 W n) (none : HIx 4) defs₀ 𝒱₀ (K (F := F)).L lv 1 where
  win := launch3.win.to₀
  block_pos := launch3.block_pos
  stage_whole := launch3.stage_whole
  K := PEmpty
  osem := fun k => k.elim
  ho := Pipeline.OwnSemFacts.none _
  hbody c := (body_obligation3 W n c).loose
  hwaits c := Pipeline.cellsWaits_intro _ (dats1 W n) (none : HIx 4) 1 c fun w s t =>
    SparseCore.Cfg.mayWait_none (K := K (F := F)) (thr := (c : Thread nD τ)) _ (Otc_none c n) lv hlv
  pre c := iprop(unscopedBufs c (W c) ∗ tcOwes (F := F) c n)
  post c := iprop(unscopedBufs c (out1 W c) ∗ tcOwes (F := F) c n)
  X _ := iprop(emp)
  Y _ := iprop(emp)
  Z c := Pipeline.unscopedRest spec3 c (W c)
  hentry c := by
    have hsplit := Pipeline.arrays_of_unscopedBufs (pcfgs (F := F)) adm (dats1 W n) (p := 1) launch3.win launch3.arr_whole c
      ((dat3 W n c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOwes Pipeline.Dat.owesAt Pipeline.owesWithin
      icases HO with ⟨%Wt, %hW, HO⟩; iexists Wt; isplitr
      · ipureintro; exact fun p hp => Or.inl (hW p (Finset.mem_coe.mp hp))
      iexact HO
    isplitr; · iempintro
    iexact Hrest
  hin c := by
    show _ ⊢ (Pipeline.scopedRest (Ix := HIx 4) (Name := ℕ) (U := UU) (Lvl := ℕ) (Val := Elt F) spec3 c : sProp 𝕄)
    iintro ⟨-, -, Hr⟩; iexact Hr
  hout c := by
    show (Pipeline.scopedRest (Ix := HIx 4) (Name := ℕ) (U := UU) (Lvl := ℕ) (Val := Elt F) spec3 c : sProp 𝕄) ⊢ _
    unfold Pipeline.ownSems0; rw [Finset.univ_eq_empty, BI.bigSep_empty]
    iintro Hr
    isplitr; · iempintro
    isplitr; · iempintro
    iexact Hr
  hexit c := by
    have hjoin := Pipeline.unscopedBufs_of_arrays (pcfgs (F := F)) adm (p := 1) launch3.win launch3.arr_whole c (dats1 W n)
      ((dat3 W n c).share_full fun _ => rfl) (W c) (out1 W c) (fun w => (dats1 W n 1 c).arrAt w (Pipeline.pin (pcfgs (F := F)) adm 1).N) (hF3 W n c) (hrest3 W c)
    iintro ⟨Ha, HO, -, HZ⟩
    imodintro
    isplitl [Ha HZ]
    · iapply hjoin
      isplitl [Ha]; · iexact Ha
      iexact HZ
    · unfold tcOwes Pipeline.Dat.owesAt Pipeline.owesWithin
      icases HO with ⟨%Wt, %hW, HO⟩; iexists Wt; isplitr
      · ipureintro
        intro p hp
        rcases hW (Finset.mem_coe.mpr hp) with h | ⟨w, s, rfl⟩
        · exact h
        · show (K (F := F)).lev _ none ≤ _
          rw [SparseCore.Cfg.lev_none]; exact Nat.zero_le _
      iexact HO

set_option backward.isDefEq.respectTransparency.types false in

theorem region1 {P : (K (F := F)).Pay (nD := nD) (Val := Elt F) (Name := ℕ) (U := UU)}
    (κ : GSem nD τ sig → ℕ) {lv : GSem nD τ sig → HIx 4 → ℕ} (hlv : (K (F := F)).Refines lv) (d : Dev nD) (Φ : PUnit → sProp 𝕄) :
    iprop((K (F := F)).ctx EH P κ lv ∗ (K (F := F)).tcSt EH d n ∗ boundary (T d : Thread nD τ) ∗ unscopedBufs d (W d)
        ∗ (Pipeline.cellsGhost (Pipeline.pin (pcfgs (F := F)) adm) EP 1 d ∗ Pipeline.toksInit (Pipeline.pin (pcfgs (F := F)) adm) EP 1 d)
        ∗ (iprop((K (F := F)).tcSt EH d n ∗ boundary (T d : Thread nD τ) ∗ unscopedBufs d (out1 W d)) -∗ Φ ⟨⟩))
      ⊢ wp frame (wpE ((K (F := F)).defs (D (F := F))) 𝒱 (T d) none) Set.univ
          (Prog.lift (.customCall (SparseCore.inner (Pipeline.entry 1)) ())) Φ := by
  unfold SparseCore.Cfg.tcSt
  iintro ⟨#Hctx, ⟨HO, Hrest⟩, Hbd, Hub, ⟨Hg, Ht⟩, Hk⟩
  ihave Hla := (SparseCore.Cfg.ctx_levAts κ) $$ Hctx
  iapply ((K (F := F)).wp_liftProg (D (F := F)) 𝒱 (T d) Set.univ none (Prog.op (.customCall (Pipeline.entry 1) ()) fun _ => .ret ⟨⟩) Φ)
  have hR := Pipeline.RegionSeg.wp (pcfgs (F := F)) adm (dats1 W n) (none : HIx 4) cellOf_inj EP defs₀ 𝒱₀ (K (F := F)).L lv (reg1 W n hlv) d none
    (fun _ h => nomatch h) (fun _ => .ret ⟨⟩) Φ
  rw [show (reg1 W n hlv).post d = iprop(unscopedBufs d (out1 W d) ∗ tcOwes (F := F) d n) from rfl,
    show (reg1 W n hlv).pre d = iprop(unscopedBufs d (W d) ∗ tcOwes (F := F) d n) from rfl] at hR
  unfold tcOwes at hR
  iapply hR
  isplitl [Hk Hrest]
  · iintro ⟨Hbd, Hub, HO⟩
    rw [wp_ret]; imodintro
    iapply Hk
    isplitl [HO Hrest]; · isplitl [HO] <;> iassumption
    isplitl [Hbd] <;> iassumption
  isplitl [Hbd]; · iexact Hbd
  isplitl [Hub HO]; · isplitl [Hub] <;> iassumption
  isplitl [Hla]; · iexact Hla
  isplitl [Hg] <;> iassumption

end Region1Seg

section Region2

variable (W : (c : Dev nD) → (b : Ref sig .tc) → Buf (Elt F) ((c.tc : Thread nD τ).loc b)) (n : ℕ)

def iblk5 (c : Dev nD) (w : Fin cfg5.W) (t : Fin cfg5.N) : ((cfg5.win w).xblock (cfg5.grid.coords t)).Idx → Elt F (cfg5.win w).elt :=
  ((cfg5.win w).blk t).view.read (Elt F) (W c (Pipeline.arrRef spec5 w))

def dat5 (c : Dev nD) : Dat τ (Elt F) (HIx 4) ℕ UU ℕ cfg5 c where
  A w := W c (Pipeline.arrRef spec5 w)
  after w t := match w with
    | ⟨0, _⟩ => iblk5 W c 0 t
    | ⟨1, _⟩ => iblk5 W c 1 t
    | ⟨2, _⟩ => iblk5 W c 2 t
    | ⟨3, _⟩ => iblk5 W c 3 t
    | ⟨4, _⟩ => iblk5 W c 4 t
    | ⟨5, _⟩ => TcVal.midU (iblk5 W c 0 t) (iblk5 W c 1 t) (iblk5 W c 2 t) (iblk5 W c 3 t) (iblk5 W c 4 t)
  Φ _ := Pipeline.scopedRest (Ix := HIx 4) (Name := ℕ) (U := UU) (Lvl := ℕ) (Val := Elt F) spec5 c
  q _ := fullShare
  owed _ := (K (F := F)).Otc c n
  recorded _ := recBelow (F := F) c n

theorem A_eq5 (c : Dev nD) (w : Fin cfg5.W) : (dat5 W n c).A w = W c (Pipeline.arrRef spec5 w) := by dsimp only [dat5]
theorem after5_0 (c : Dev nD) (t : Fin cfg5.N) : (dat5 W n c).after 0 t = iblk5 W c 0 t := by dsimp only [dat5]
theorem after5_1 (c : Dev nD) (t : Fin cfg5.N) : (dat5 W n c).after 1 t = iblk5 W c 1 t := by dsimp only [dat5]
theorem after5_2 (c : Dev nD) (t : Fin cfg5.N) : (dat5 W n c).after 2 t = iblk5 W c 2 t := by dsimp only [dat5]
theorem after5_3 (c : Dev nD) (t : Fin cfg5.N) : (dat5 W n c).after 3 t = iblk5 W c 3 t := by dsimp only [dat5]
theorem after5_4 (c : Dev nD) (t : Fin cfg5.N) : (dat5 W n c).after 4 t = iblk5 W c 4 t := by dsimp only [dat5]
theorem after5_5 (c : Dev nD) (t : Fin cfg5.N) : (dat5 W n c).after 5 t = TcVal.midU (iblk5 W c 0 t) (iblk5 W c 1 t) (iblk5 W c 2 t) (iblk5 W c 3 t) (iblk5 W c 4 t) := by dsimp only [dat5]

theorem before5_0 (c : Dev nD) (t : Fin cfg5.N) (d) : (dat5 W n c).before 0 t d = iblk5 W c 0 t :=
  ((dat5 W n c).before_fetched 0 t (fetch5_0 t) d).trans (by unfold Dat.fetched Dat.blockOf iblk5; rw [A_eq5]; rfl)
theorem before5_1 (c : Dev nD) (t : Fin cfg5.N) (d) : (dat5 W n c).before 1 t d = iblk5 W c 1 t :=
  ((dat5 W n c).before_fetched 1 t (fetch5_1 t) d).trans (by unfold Dat.fetched Dat.blockOf iblk5; rw [A_eq5]; rfl)
theorem before5_2 (c : Dev nD) (t : Fin cfg5.N) (d) : (dat5 W n c).before 2 t d = iblk5 W c 2 t :=
  ((dat5 W n c).before_fetched 2 t (fetch5_2 t) d).trans (by unfold Dat.fetched Dat.blockOf iblk5; rw [A_eq5]; rfl)
theorem before5_3 (c : Dev nD) (t : Fin cfg5.N) (d) : (dat5 W n c).before 3 t d = iblk5 W c 3 t :=
  ((dat5 W n c).before_fetched 3 t (fetch5_3 t) d).trans (by unfold Dat.fetched Dat.blockOf iblk5; rw [A_eq5]; rfl)
theorem before5_4 (c : Dev nD) (t : Fin cfg5.N) (d) : (dat5 W n c).before 4 t d = iblk5 W c 4 t :=
  ((dat5 W n c).before_fetched 4 t (fetch5_4 t) d).trans (by unfold Dat.fetched Dat.blockOf iblk5; rw [A_eq5]; rfl)

set_option maxHeartbeats 1000000 in

theorem sound_kernel5 (c : Dev nD) (E : Set ℕ) (arg0 : Memref sig .tc .vmem S128x10000 .f32) (harg0 : arg0.IsWhole) (arg1 : Memref sig .tc .vmem S128x10000 .f32) (harg1 : arg1.IsWhole) (arg2 : Memref sig .tc .vmem S1x10000 .f32) (harg2 : arg2.IsWhole) (arg3 : Memref sig .tc .vmem S128x1 .f32) (harg3 : arg3.IsWhole) (arg4 : Memref sig .tc .vmem S128x128 .f32) (harg4 : arg4.IsWhole) (arg5 : Memref sig .tc .vmem S128x10000 .f32) (harg5 : arg5.IsWhole)
    (x0 : Vec F S128x10000 .f32) (x1 : Vec F S128x10000 .f32) (x2 : Vec F S1x10000 .f32) (x3 : Vec F S128x1 .f32) (x4 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (TcVal.midU x0 x1 x2 x3 x4)) -∗ Kc ⟨⟩))
      ⊢ wp frame (wpE (defs₀ (F := F)) Variants.none c none) E (cc5_body arg0 harg0 arg1 harg1 arg2 harg2 arg3 harg3 arg4 harg4 arg5 harg5) Kc := by
  simp only [cc5_body_eq_skeleton]; unfold cc5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  have e0 := readAt_unit_whole (Val := Elt F) arg0.view ![0, 0] inb_S128x10000_S128x10000_0_0 h00 f0
  have e1 := readAt_unit_whole (Val := Elt F) arg1.view ![0, 0] inb_S128x10000_S128x10000_0_0 h00 f1
  have e2 := readAt_unit_whole (Val := Elt F) arg2.view ![0, 0] inb_S1x10000_S1x10000_0_0 h00 f2
  have e3 := readAt_unit_whole (Val := Elt F) arg3.view ![0, 0] inb_S128x1_S128x1_0_0 h00 f3
  have e4 := readAt_unit_whole (Val := Elt F) arg4.view ![0, 0] inb_S128x128_S128x128_0_0 h00 f4
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [read_writes_unit_whole (Val := Elt F) arg5.view ![0, 0] inb_S128x10000_S128x10000_0_0 h00]
  (try rw [e0]); (try rw [e1]); (try rw [e2]); (try rw [e3]); (try rw [e4])
  rfl

def bodyPre5 (c : Dev nD) (t : Fin cfg5.N) : sProp 𝕄 :=
  iprop((dat5 W n c).Φ t.castSucc ∗ (dat5 W n c).owesAt (none : HIx 4) t.castSucc
    ∗ (∃ d, owns (c : Thread nD τ) (st5_0 t) fullShare ((dat5 W n c).before 0 t d))
    ∗ (∃ d, owns (c : Thread nD τ) (st5_1 t) fullShare ((dat5 W n c).before 1 t d))
    ∗ (∃ d, owns (c : Thread nD τ) (st5_2 t) fullShare ((dat5 W n c).before 2 t d))
    ∗ (∃ d, owns (c : Thread nD τ) (st5_3 t) fullShare ((dat5 W n c).before 3 t d))
    ∗ (∃ d, owns (c : Thread nD τ) (st5_4 t) fullShare ((dat5 W n c).before 4 t d))
    ∗ (∃ d, owns (c : Thread nD τ) (st5_5 t) fullShare ((dat5 W n c).before 5 t d)))

def bodyPost5 (c : Dev nD) (t : Fin cfg5.N) : sProp 𝕄 :=
  iprop((dat5 W n c).Φ t.succ ∗ (dat5 W n c).owesAt (none : HIx 4) t.succ
    ∗ owns (c : Thread nD τ) (st5_0 t) fullShare ((dat5 W n c).after 0 t)
    ∗ owns (c : Thread nD τ) (st5_1 t) fullShare ((dat5 W n c).after 1 t)
    ∗ owns (c : Thread nD τ) (st5_2 t) fullShare ((dat5 W n c).after 2 t)
    ∗ owns (c : Thread nD τ) (st5_3 t) fullShare ((dat5 W n c).after 3 t)
    ∗ owns (c : Thread nD τ) (st5_4 t) fullShare ((dat5 W n c).after 4 t)
    ∗ owns (c : Thread nD τ) (st5_5 t) fullShare ((dat5 W n c).after 5 t))

theorem sound_body5 (c : Dev nD) (t : Fin cfg5.N) :
    bodyPre5 W n c t ⊢ wp frame (wpE (defs₀ (F := F)) Variants.none c none) Set.univ (bodyAt5 t) (fun _ => bodyPost5 W n c t) := by
  unfold bodyPre5 bodyPost5 bodyAt5
  simp only [before5_0, before5_1, before5_2, before5_3, before5_4]
  rw [show (dat5 W n c).Φ t.succ = (dat5 W n c).Φ t.castSucc from rfl,
    show (dat5 W n c).owesAt (none : HIx 4) t.succ = (dat5 W n c).owesAt (none : HIx 4) t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ (iblk5 W c 0 t) (iblk5 W c 1 t) (iblk5 W c 2 t) (iblk5 W c 3 t) (iblk5 W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) W n c) (defs₀ (F := F)) Variants.none (none : HIx 4) Set.univ := fun t => by
  rw [bigSep_W5, bigSep_W5]
  exact sound_body5 W n c t

def out2 (c : Dev nD) : (b : Ref sig .tc) → Buf (Elt F) ((c.tc : Thread nD τ).loc b) :=
  upd c (W c) main_v18 (TcVal.midU (W c main_v17) (W c main_v14) (W c main_v10_1) (W c main_v6) (W c main_arg7))

theorem out2_0 (c : Dev nD) : out2 W c main_v18 = TcVal.midU (W c main_v17) (W c main_v14) (W c main_v10_1) (W c main_v6) (W c main_arg7) := by
  unfold out2; rw [upd_self]
theorem out2_of_ne (c : Dev nD) {b : Ref sig .tc} (h0 : b ≠ main_v18) : out2 W c b = W c b := by
  unfold out2; rw [upd_of_ne _ _ _ _ h0]

theorem iblk5_0 (c : Dev nD) (t : Fin cfg5.N) : iblk5 W c 0 t = W c main_v17 :=
  read_blk_whole (Val := Elt F) (Memref.whole main_v17) false false (stage5_0 0) (sem5_0 0) (Memref.isWhole_whole _) (hstage5_0 0) t (W c main_v17)
theorem iblk5_1 (c : Dev nD) (t : Fin cfg5.N) : iblk5 W c 1 t = W c main_v14 :=
  read_blk_whole (Val := Elt F) (Memref.whole main_v14) false false (stage5_1 0) (sem5_1 0) (Memref.isWhole_whole _) (hstage5_1 0) t (W c main_v14)
theorem iblk5_2 (c : Dev nD) (t : Fin cfg5.N) : iblk5 W c 2 t = W c main_v10_1 :=
  read_blk_whole (Val := Elt F) (Memref.whole main_v10_1) false false (stage5_2 0) (sem5_2 0) (Memref.isWhole_whole _) (hstage5_2 0) t (W c main_v10_1)
theorem iblk5_3 (c : Dev nD) (t : Fin cfg5.N) : iblk5 W c 3 t = W c main_v6 :=
  read_blk_whole (Val := Elt F) (Memref.whole main_v6) false false (stage5_3 0) (sem5_3 0) (Memref.isWhole_whole _) (hstage5_3 0) t (W c main_v6)
theorem iblk5_4 (c : Dev nD) (t : Fin cfg5.N) : iblk5 W c 4 t = W c main_arg7 :=
  read_blk_whole (Val := Elt F) (Memref.whole main_arg7) false false (stage5_4 0) (sem5_4 0) (Memref.isWhole_whole _) (hstage5_4 0) t (W c main_arg7)

theorem hF5 (c : Dev nD) : ∀ w : Fin cfg5.W, (dat5 W n c).arrAt w cfg5.N = out2 W c (Pipeline.arrRef spec5 w)
  | ⟨0, _⟩ => ((dat5 W n c).arrAt_in 0 rfl _).trans (out2_of_ne W c (b := main_v17) (by decide)).symm
  | ⟨1, _⟩ => ((dat5 W n c).arrAt_in 1 rfl _).trans (out2_of_ne W c (b := main_v14) (by decide)).symm
  | ⟨2, _⟩ => ((dat5 W n c).arrAt_in 2 rfl _).trans (out2_of_ne W c (b := main_v10_1) (by decide)).symm
  | ⟨3, _⟩ => ((dat5 W n c).arrAt_in 3 rfl _).trans (out2_of_ne W c (b := main_v6) (by decide)).symm
  | ⟨4, _⟩ => ((dat5 W n c).arrAt_in 4 rfl _).trans (out2_of_ne W c (b := main_arg7) (by decide)).symm
  | ⟨5, _⟩ => (dat5 W n c).arrAt_eq_of_cover 5 (out2 W c main_v18)
      (fun t _ => by
        show (dat5 W n c).after 5 t = _
        rw [after5_5, iblk5_0, iblk5_1, iblk5_2, iblk5_3, iblk5_4, out2_0]
        exact (read_blk_whole (Val := Elt F) (Memref.whole main_v18) true false (stage5_5 0) (sem5_5 0) (Memref.isWhole_whole _) (hstage5_5 0) t _).symm)
      (fun i => ⟨t5_0, flush5_5 t5_0, mem_blk_whole (Memref.whole main_v18) true false (stage5_5 0) (sem5_5 0) (Memref.isWhole_whole _) (hstage5_5 0) t5_0 i
        (by rw [show (Memref.whole main_v18 : Memref sig .tc _ _ _).view.set = Finset.univ from View.set_whole _]; exact Finset.mem_univ _)⟩)

theorem hrest5 (c : Dev nD) (b : Ref sig .tc) (hb : b ∉ Finset.univ.image (Pipeline.arrRef spec5)) : out2 W c b = W c b :=
  out2_of_ne W c (fun h => hb (h ▸ Finset.mem_image.mpr ⟨5, Finset.mem_univ _, rfl⟩))

end Region2

section Region2Seg

variable [∀ e, Nonempty (Elt F e)]
variable (W : (c : Dev nD) → (b : Ref sig .tc) → Buf (Elt F) ((c.tc : Thread nD τ).loc b)) (n : ℕ)

def dats2 : (p : Fin 4) → (c : Dev nD) → Dat τ (Elt F) (HIx 4) ℕ UU ℕ (Pipeline.pin (pcfgs (F := F)) adm p) c
  | ⟨0, h⟩, c => dummy W ⟨0, h⟩ c
  | ⟨1, h⟩, c => dummy W ⟨1, h⟩ c
  | ⟨2, _⟩, c => dat5 W n c
  | ⟨k + 3, h⟩, c => dummy W ⟨k + 3, h⟩ c

set_option maxHeartbeats 2000000 in

set_option backward.isDefEq.respectTransparency.types false in

def reg2 {lv : GSem nD τ sig → HIx 4 → ℕ} (hlv : (K (F := F)).Refines lv) :
    Pipeline.RegionSeg (pcfgs (F := F)) adm (dats2 W n) (none : HIx 4) defs₀ 𝒱₀ (K (F := F)).L lv 2 where
  win := launch5.win.to₀
  block_pos := launch5.block_pos
  stage_whole := launch5.stage_whole
  K := PEmpty
  osem := fun k => k.elim
  ho := Pipeline.OwnSemFacts.none _
  hbody c := (body_obligation5 W n c).loose
  hwaits c := Pipeline.cellsWaits_intro _ (dats2 W n) (none : HIx 4) 2 c fun w s t =>
    SparseCore.Cfg.mayWait_none (K := K (F := F)) (thr := (c : Thread nD τ)) _ (Otc_none c n) lv hlv
  pre c := iprop(unscopedBufs c (W c) ∗ tcOwes (F := F) c n)
  post c := iprop(unscopedBufs c (out2 W c) ∗ tcOwes (F := F) c n)
  X _ := iprop(emp)
  Y _ := iprop(emp)
  Z c := Pipeline.unscopedRest spec5 c (W c)
  hentry c := by
    have hsplit := Pipeline.arrays_of_unscopedBufs (pcfgs (F := F)) adm (dats2 W n) (p := 2) launch5.win launch5.arr_whole c
      ((dat5 W n c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOwes Pipeline.Dat.owesAt Pipeline.owesWithin
      icases HO with ⟨%Wt, %hW, HO⟩; iexists Wt; isplitr
      · ipureintro; exact fun p hp => Or.inl (hW p (Finset.mem_coe.mp hp))
      iexact HO
    isplitr; · iempintro
    iexact Hrest
  hin c := by
    show _ ⊢ (Pipeline.scopedRest (Ix := HIx 4) (Name := ℕ) (U := UU) (Lvl := ℕ) (Val := Elt F) spec5 c : sProp 𝕄)
    iintro ⟨-, -, Hr⟩; iexact Hr
  hout c := by
    show (Pipeline.scopedRest (Ix := HIx 4) (Name := ℕ) (U := UU) (Lvl := ℕ) (Val := Elt F) spec5 c : sProp 𝕄) ⊢ _
    unfold Pipeline.ownSems0; rw [Finset.univ_eq_empty, BI.bigSep_empty]
    iintro Hr
    isplitr; · iempintro
    isplitr; · iempintro
    iexact Hr
  hexit c := by
    have hjoin := Pipeline.unscopedBufs_of_arrays (pcfgs (F := F)) adm (p := 2) launch5.win launch5.arr_whole c (dats2 W n)
      ((dat5 W n c).share_full fun _ => rfl) (W c) (out2 W c) (fun w => (dats2 W n 2 c).arrAt w (Pipeline.pin (pcfgs (F := F)) adm 2).N) (hF5 W n c) (hrest5 W c)
    iintro ⟨Ha, HO, -, HZ⟩
    imodintro
    isplitl [Ha HZ]
    · iapply hjoin
      isplitl [Ha]; · iexact Ha
      iexact HZ
    · unfold tcOwes Pipeline.Dat.owesAt Pipeline.owesWithin
      icases HO with ⟨%Wt, %hW, HO⟩; iexists Wt; isplitr
      · ipureintro
        intro p hp
        rcases hW (Finset.mem_coe.mpr hp) with h | ⟨w, s, rfl⟩
        · exact h
        · show (K (F := F)).lev _ none ≤ _
          rw [SparseCore.Cfg.lev_none]; exact Nat.zero_le _
      iexact HO

set_option backward.isDefEq.respectTransparency.types false in

theorem region2 {P : (K (F := F)).Pay (nD := nD) (Val := Elt F) (Name := ℕ) (U := UU)}
    (κ : GSem nD τ sig → ℕ) {lv : GSem nD τ sig → HIx 4 → ℕ} (hlv : (K (F := F)).Refines lv) (d : Dev nD) (Φ : PUnit → sProp 𝕄) :
    iprop((K (F := F)).ctx EH P κ lv ∗ (K (F := F)).tcSt EH d n ∗ boundary (T d : Thread nD τ) ∗ unscopedBufs d (W d)
        ∗ (Pipeline.cellsGhost (Pipeline.pin (pcfgs (F := F)) adm) EP 2 d ∗ Pipeline.toksInit (Pipeline.pin (pcfgs (F := F)) adm) EP 2 d)
        ∗ (iprop((K (F := F)).tcSt EH d n ∗ boundary (T d : Thread nD τ) ∗ unscopedBufs d (out2 W d)) -∗ Φ ⟨⟩))
      ⊢ wp frame (wpE ((K (F := F)).defs (D (F := F))) 𝒱 (T d) none) Set.univ
          (Prog.lift (.customCall (SparseCore.inner (Pipeline.entry 2)) ())) Φ := by
  unfold SparseCore.Cfg.tcSt
  iintro ⟨#Hctx, ⟨HO, Hrest⟩, Hbd, Hub, ⟨Hg, Ht⟩, Hk⟩
  ihave Hla := (SparseCore.Cfg.ctx_levAts κ) $$ Hctx
  iapply ((K (F := F)).wp_liftProg (D (F := F)) 𝒱 (T d) Set.univ none (Prog.op (.customCall (Pipeline.entry 2) ()) fun _ => .ret ⟨⟩) Φ)
  have hR := Pipeline.RegionSeg.wp (pcfgs (F := F)) adm (dats2 W n) (none : HIx 4) cellOf_inj EP defs₀ 𝒱₀ (K (F := F)).L lv (reg2 W n hlv) d none
    (fun _ h => nomatch h) (fun _ => .ret ⟨⟩) Φ
  rw [show (reg2 W n hlv).post d = iprop(unscopedBufs d (out2 W d) ∗ tcOwes (F := F) d n) from rfl,
    show (reg2 W n hlv).pre d = iprop(unscopedBufs d (W d) ∗ tcOwes (F := F) d n) from rfl] at hR
  unfold tcOwes at hR
  iapply hR
  isplitl [Hk Hrest]
  · iintro ⟨Hbd, Hub, HO⟩
    rw [wp_ret]; imodintro
    iapply Hk
    isplitl [HO Hrest]; · isplitl [HO] <;> iassumption
    isplitl [Hbd] <;> iassumption
  isplitl [Hbd]; · iexact Hbd
  isplitl [Hub HO]; · isplitl [Hub] <;> iassumption
  isplitl [Hla]; · iexact Hla
  isplitl [Hg] <;> iassumption

end Region2Seg

section Region3

variable (W : (c : Dev nD) → (b : Ref sig .tc) → Buf (Elt F) ((c.tc : Thread nD τ).loc b)) (n : ℕ)

def iblk7 (c : Dev nD) (w : Fin cfg7.W) (t : Fin cfg7.N) : ((cfg7.win w).xblock (cfg7.grid.coords t)).Idx → Elt F (cfg7.win w).elt :=
  ((cfg7.win w).blk t).view.read (Elt F) (W c (Pipeline.arrRef spec7 w))

def dat7 (c : Dev nD) : Dat τ (Elt F) (HIx 4) ℕ UU ℕ cfg7 c where
  A w := W c (Pipeline.arrRef spec7 w)
  after w t := match w with
    | ⟨0, _⟩ => iblk7 W c 0 t
    | ⟨1, _⟩ => iblk7 W c 1 t
    | ⟨2, _⟩ => iblk7 W c 2 t
    | ⟨3, _⟩ => iblk7 W c 3 t
    | ⟨4, _⟩ => iblk7 W c 4 t
    | ⟨5, _⟩ => iblk7 W c 5 t
    | ⟨6, _⟩ => iblk7 W c 6 t
    | ⟨7, _⟩ => TcVal.finalOut (iblk7 W c 0 t) (iblk7 W c 1 t) (iblk7 W c 2 t) (iblk7 W c 3 t) (iblk7 W c 4 t) (iblk7 W c 5 t) (iblk7 W c 6 t)
  Φ _ := Pipeline.scopedRest (Ix := HIx 4) (Name := ℕ) (U := UU) (Lvl := ℕ) (Val := Elt F) spec7 c
  q _ := fullShare
  owed _ := (K (F := F)).Otc c n
  recorded _ := recBelow (F := F) c n

theorem A_eq7 (c : Dev nD) (w : Fin cfg7.W) : (dat7 W n c).A w = W c (Pipeline.arrRef spec7 w) := by dsimp only [dat7]
theorem after7_0 (c : Dev nD) (t : Fin cfg7.N) : (dat7 W n c).after 0 t = iblk7 W c 0 t := by dsimp only [dat7]
theorem after7_1 (c : Dev nD) (t : Fin cfg7.N) : (dat7 W n c).after 1 t = iblk7 W c 1 t := by dsimp only [dat7]
theorem after7_2 (c : Dev nD) (t : Fin cfg7.N) : (dat7 W n c).after 2 t = iblk7 W c 2 t := by dsimp only [dat7]
theorem after7_3 (c : Dev nD) (t : Fin cfg7.N) : (dat7 W n c).after 3 t = iblk7 W c 3 t := by dsimp only [dat7]
theorem after7_4 (c : Dev nD) (t : Fin cfg7.N) : (dat7 W n c).after 4 t = iblk7 W c 4 t := by dsimp only [dat7]
theorem after7_5 (c : Dev nD) (t : Fin cfg7.N) : (dat7 W n c).after 5 t = iblk7 W c 5 t := by dsimp only [dat7]
theorem after7_6 (c : Dev nD) (t : Fin cfg7.N) : (dat7 W n c).after 6 t = iblk7 W c 6 t := by dsimp only [dat7]
theorem after7_7 (c : Dev nD) (t : Fin cfg7.N) : (dat7 W n c).after 7 t = TcVal.finalOut (iblk7 W c 0 t) (iblk7 W c 1 t) (iblk7 W c 2 t) (iblk7 W c 3 t) (iblk7 W c 4 t) (iblk7 W c 5 t) (iblk7 W c 6 t) := by dsimp only [dat7]

theorem before7_0 (c : Dev nD) (t : Fin cfg7.N) (d) : (dat7 W n c).before 0 t d = iblk7 W c 0 t :=
  ((dat7 W n c).before_fetched 0 t (fetch7_0 t) d).trans (by unfold Dat.fetched Dat.blockOf iblk7; rw [A_eq7]; rfl)
theorem before7_1 (c : Dev nD) (t : Fin cfg7.N) (d) : (dat7 W n c).before 1 t d = iblk7 W c 1 t :=
  ((dat7 W n c).before_fetched 1 t (fetch7_1 t) d).trans (by unfold Dat.fetched Dat.blockOf iblk7; rw [A_eq7]; rfl)
theorem before7_2 (c : Dev nD) (t : Fin cfg7.N) (d) : (dat7 W n c).before 2 t d = iblk7 W c 2 t :=
  ((dat7 W n c).before_fetched 2 t (fetch7_2 t) d).trans (by unfold Dat.fetched Dat.blockOf iblk7; rw [A_eq7]; rfl)
theorem before7_3 (c : Dev nD) (t : Fin cfg7.N) (d) : (dat7 W n c).before 3 t d = iblk7 W c 3 t :=
  ((dat7 W n c).before_fetched 3 t (fetch7_3 t) d).trans (by unfold Dat.fetched Dat.blockOf iblk7; rw [A_eq7]; rfl)
theorem before7_4 (c : Dev nD) (t : Fin cfg7.N) (d) : (dat7 W n c).before 4 t d = iblk7 W c 4 t :=
  ((dat7 W n c).before_fetched 4 t (fetch7_4 t) d).trans (by unfold Dat.fetched Dat.blockOf iblk7; rw [A_eq7]; rfl)
theorem before7_5 (c : Dev nD) (t : Fin cfg7.N) (d) : (dat7 W n c).before 5 t d = iblk7 W c 5 t :=
  ((dat7 W n c).before_fetched 5 t (fetch7_5 t) d).trans (by unfold Dat.fetched Dat.blockOf iblk7; rw [A_eq7]; rfl)
theorem before7_6 (c : Dev nD) (t : Fin cfg7.N) (d) : (dat7 W n c).before 6 t d = iblk7 W c 6 t :=
  ((dat7 W n c).before_fetched 6 t (fetch7_6 t) d).trans (by unfold Dat.fetched Dat.blockOf iblk7; rw [A_eq7]; rfl)

set_option maxHeartbeats 1000000 in

theorem sound_kernel7 (c : Dev nD) (E : Set ℕ) (arg0 : Memref sig .tc .vmem S128x10000 .f32) (harg0 : arg0.IsWhole) (arg1 : Memref sig .tc .vmem S128x10000 .f32) (harg1 : arg1.IsWhole) (arg2 : Memref sig .tc .vmem S1x10000 .f32) (harg2 : arg2.IsWhole) (arg3 : Memref sig .tc .vmem S128x1 .f32) (harg3 : arg3.IsWhole) (arg4 : Memref sig .tc .vmem S10000x1 .i32) (harg4 : arg4.IsWhole) (arg5 : Memref sig .tc .vmem S128x16 .f32) (harg5 : arg5.IsWhole) (arg6 : Memref sig .tc .vmem S1x16 .f32) (harg6 : arg6.IsWhole) (arg7 : Memref sig .tc .vmem S64x16 .f32) (harg7 : arg7.IsWhole)
    (x0 : Vec F S128x10000 .f32) (x1 : Vec F S128x10000 .f32) (x2 : Vec F S1x10000 .f32) (x3 : Vec F S128x1 .f32) (x4 : Vec F S10000x1 .i32) (x5 : Vec F S128x16 .f32) (x6 : Vec F S1x16 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (TcVal.finalOut x0 x1 x2 x3 x4 x5 x6)) -∗ Kc ⟨⟩))
      ⊢ wp frame (wpE (defs₀ (F := F)) Variants.none c none) E (cc7_body arg0 harg0 arg1 harg1 arg2 harg2 arg3 harg3 arg4 harg4 arg5 harg5 arg6 harg6 arg7 harg7) Kc := by
  simp only [cc7_body_eq_skeleton]; unfold cc7_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  have e0 := readAt_unit_whole (Val := Elt F) arg0.view ![0, 0] inb_S128x10000_S128x10000_0_0 h00 f0
  have e1 := readAt_unit_whole (Val := Elt F) arg1.view ![0, 0] inb_S128x10000_S128x10000_0_0 h00 f1
  have e2 := readAt_unit_whole (Val := Elt F) arg2.view ![0, 0] inb_S1x10000_S1x10000_0_0 h00 f2
  have e3 := readAt_unit_whole (Val := Elt F) arg3.view ![0, 0] inb_S128x1_S128x1_0_0 h00 f3
  have e4 := readAt_unit_whole (Val := Elt F) arg4.view ![0, 0] inb_S10000x1_S10000x1_0_0 h00 f4
  have e5 := readAt_unit_whole (Val := Elt F) arg5.view ![0, 0] inb_S128x16_S128x16_0_0 h00 f5
  have e6 := readAt_unit_whole (Val := Elt F) arg6.view ![0, 0] inb_S1x16_S1x16_0_0 h00 f6
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [read_writes_unit_whole (Val := Elt F) arg7.view ![0, 0] inb_S64x16_S64x16_0_0 h00]
  (try rw [e0]); (try rw [e1]); (try rw [e2]); (try rw [e3]); (try rw [e4]); (try rw [e5]); (try rw [e6])
  rfl

def bodyPre7 (c : Dev nD) (t : Fin cfg7.N) : sProp 𝕄 :=
  iprop((dat7 W n c).Φ t.castSucc ∗ (dat7 W n c).owesAt (none : HIx 4) t.castSucc
    ∗ (∃ d, owns (c : Thread nD τ) (st7_0 t) fullShare ((dat7 W n c).before 0 t d))
    ∗ (∃ d, owns (c : Thread nD τ) (st7_1 t) fullShare ((dat7 W n c).before 1 t d))
    ∗ (∃ d, owns (c : Thread nD τ) (st7_2 t) fullShare ((dat7 W n c).before 2 t d))
    ∗ (∃ d, owns (c : Thread nD τ) (st7_3 t) fullShare ((dat7 W n c).before 3 t d))
    ∗ (∃ d, owns (c : Thread nD τ) (st7_4 t) fullShare ((dat7 W n c).before 4 t d))
    ∗ (∃ d, owns (c : Thread nD τ) (st7_5 t) fullShare ((dat7 W n c).before 5 t d))
    ∗ (∃ d, owns (c : Thread nD τ) (st7_6 t) fullShare ((dat7 W n c).before 6 t d))
    ∗ (∃ d, owns (c : Thread nD τ) (st7_7 t) fullShare ((dat7 W n c).before 7 t d)))

def bodyPost7 (c : Dev nD) (t : Fin cfg7.N) : sProp 𝕄 :=
  iprop((dat7 W n c).Φ t.succ ∗ (dat7 W n c).owesAt (none : HIx 4) t.succ
    ∗ owns (c : Thread nD τ) (st7_0 t) fullShare ((dat7 W n c).after 0 t)
    ∗ owns (c : Thread nD τ) (st7_1 t) fullShare ((dat7 W n c).after 1 t)
    ∗ owns (c : Thread nD τ) (st7_2 t) fullShare ((dat7 W n c).after 2 t)
    ∗ owns (c : Thread nD τ) (st7_3 t) fullShare ((dat7 W n c).after 3 t)
    ∗ owns (c : Thread nD τ) (st7_4 t) fullShare ((dat7 W n c).after 4 t)
    ∗ owns (c : Thread nD τ) (st7_5 t) fullShare ((dat7 W n c).after 5 t)
    ∗ owns (c : Thread nD τ) (st7_6 t) fullShare ((dat7 W n c).after 6 t)
    ∗ owns (c : Thread nD τ) (st7_7 t) fullShare ((dat7 W n c).after 7 t))

theorem sound_body7 (c : Dev nD) (t : Fin cfg7.N) :
    bodyPre7 W n c t ⊢ wp frame (wpE (defs₀ (F := F)) Variants.none c none) Set.univ (bodyAt7 t) (fun _ => bodyPost7 W n c t) := by
  unfold bodyPre7 bodyPost7 bodyAt7
  simp only [before7_0, before7_1, before7_2, before7_3, before7_4, before7_5, before7_6]
  rw [show (dat7 W n c).Φ t.succ = (dat7 W n c).Φ t.castSucc from rfl,
    show (dat7 W n c).owesAt (none : HIx 4) t.succ = (dat7 W n c).owesAt (none : HIx 4) t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ (iblk7 W c 0 t) (iblk7 W c 1 t) (iblk7 W c 2 t) (iblk7 W c 3 t) (iblk7 W c 4 t) (iblk7 W c 5 t) (iblk7 W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) W n c) (defs₀ (F := F)) Variants.none (none : HIx 4) Set.univ := fun t => by
  rw [bigSep_W7, bigSep_W7]
  exact sound_body7 W n c t

def out3 (c : Dev nD) : (b : Ref sig .tc) → Buf (Elt F) ((c.tc : Thread nD τ).loc b) :=
  upd c (W c) main_v22 (TcVal.finalOut (W c main_v21) (W c main_v18) (W c main_v10_1) (W c main_v7) (W c main_v4) (W c main_arg9) (W c main_v8))

theorem out3_0 (c : Dev nD) : out3 W c main_v22 = TcVal.finalOut (W c main_v21) (W c main_v18) (W c main_v10_1) (W c main_v7) (W c main_v4) (W c main_arg9) (W c main_v8) := by
  unfold out3; rw [upd_self]
theorem out3_of_ne (c : Dev nD) {b : Ref sig .tc} (h0 : b ≠ main_v22) : out3 W c b = W c b := by
  unfold out3; rw [upd_of_ne _ _ _ _ h0]

theorem iblk7_0 (c : Dev nD) (t : Fin cfg7.N) : iblk7 W c 0 t = W c main_v21 :=
  read_blk_whole (Val := Elt F) (Memref.whole main_v21) false false (stage7_0 0) (sem7_0 0) (Memref.isWhole_whole _) (hstage7_0 0) t (W c main_v21)
theorem iblk7_1 (c : Dev nD) (t : Fin cfg7.N) : iblk7 W c 1 t = W c main_v18 :=
  read_blk_whole (Val := Elt F) (Memref.whole main_v18) false false (stage7_1 0) (sem7_1 0) (Memref.isWhole_whole _) (hstage7_1 0) t (W c main_v18)
theorem iblk7_2 (c : Dev nD) (t : Fin cfg7.N) : iblk7 W c 2 t = W c main_v10_1 :=
  read_blk_whole (Val := Elt F) (Memref.whole main_v10_1) false false (stage7_2 0) (sem7_2 0) (Memref.isWhole_whole _) (hstage7_2 0) t (W c main_v10_1)
theorem iblk7_3 (c : Dev nD) (t : Fin cfg7.N) : iblk7 W c 3 t = W c main_v7 :=
  read_blk_whole (Val := Elt F) (Memref.whole main_v7) false false (stage7_3 0) (sem7_3 0) (Memref.isWhole_whole _) (hstage7_3 0) t (W c main_v7)
theorem iblk7_4 (c : Dev nD) (t : Fin cfg7.N) : iblk7 W c 4 t = W c main_v4 :=
  read_blk_whole (Val := Elt F) (Memref.whole main_v4) false false (stage7_4 0) (sem7_4 0) (Memref.isWhole_whole _) (hstage7_4 0) t (W c main_v4)
theorem iblk7_5 (c : Dev nD) (t : Fin cfg7.N) : iblk7 W c 5 t = W c main_arg9 :=
  read_blk_whole (Val := Elt F) (Memref.whole main_arg9) false false (stage7_5 0) (sem7_5 0) (Memref.isWhole_whole _) (hstage7_5 0) t (W c main_arg9)
theorem iblk7_6 (c : Dev nD) (t : Fin cfg7.N) : iblk7 W c 6 t = W c main_v8 :=
  read_blk_whole (Val := Elt F) (Memref.whole main_v8) false false (stage7_6 0) (sem7_6 0) (Memref.isWhole_whole _) (hstage7_6 0) t (W c main_v8)

theorem hF7 (c : Dev nD) : ∀ w : Fin cfg7.W, (dat7 W n c).arrAt w cfg7.N = out3 W c (Pipeline.arrRef spec7 w)
  | ⟨0, _⟩ => ((dat7 W n c).arrAt_in 0 rfl _).trans (out3_of_ne W c (b := main_v21) (by decide)).symm
  | ⟨1, _⟩ => ((dat7 W n c).arrAt_in 1 rfl _).trans (out3_of_ne W c (b := main_v18) (by decide)).symm
  | ⟨2, _⟩ => ((dat7 W n c).arrAt_in 2 rfl _).trans (out3_of_ne W c (b := main_v10_1) (by decide)).symm
  | ⟨3, _⟩ => ((dat7 W n c).arrAt_in 3 rfl _).trans (out3_of_ne W c (b := main_v7) (by decide)).symm
  | ⟨4, _⟩ => ((dat7 W n c).arrAt_in 4 rfl _).trans (out3_of_ne W c (b := main_v4) (by decide)).symm
  | ⟨5, _⟩ => ((dat7 W n c).arrAt_in 5 rfl _).trans (out3_of_ne W c (b := main_arg9) (by decide)).symm
  | ⟨6, _⟩ => ((dat7 W n c).arrAt_in 6 rfl _).trans (out3_of_ne W c (b := main_v8) (by decide)).symm
  | ⟨7, _⟩ => (dat7 W n c).arrAt_eq_of_cover 7 (out3 W c main_v22)
      (fun t _ => by
        show (dat7 W n c).after 7 t = _
        rw [after7_7, iblk7_0, iblk7_1, iblk7_2, iblk7_3, iblk7_4, iblk7_5, iblk7_6, out3_0]
        exact (read_blk_whole (Val := Elt F) (Memref.whole main_v22) true false (stage7_7 0) (sem7_7 0) (Memref.isWhole_whole _) (hstage7_7 0) t _).symm)
      (fun i => ⟨t7_0, flush7_7 t7_0, mem_blk_whole (Memref.whole main_v22) true false (stage7_7 0) (sem7_7 0) (Memref.isWhole_whole _) (hstage7_7 0) t7_0 i
        (by rw [show (Memref.whole main_v22 : Memref sig .tc _ _ _).view.set = Finset.univ from View.set_whole _]; exact Finset.mem_univ _)⟩)

theorem hrest7 (c : Dev nD) (b : Ref sig .tc) (hb : b ∉ Finset.univ.image (Pipeline.arrRef spec7)) : out3 W c b = W c b :=
  out3_of_ne W c (fun h => hb (h ▸ Finset.mem_image.mpr ⟨7, Finset.mem_univ _, rfl⟩))

end Region3

section Region3Seg

variable [∀ e, Nonempty (Elt F e)]
variable (W : (c : Dev nD) → (b : Ref sig .tc) → Buf (Elt F) ((c.tc : Thread nD τ).loc b)) (n : ℕ)

def dats3 : (p : Fin 4) → (c : Dev nD) → Dat τ (Elt F) (HIx 4) ℕ UU ℕ (Pipeline.pin (pcfgs (F := F)) adm p) c
  | ⟨0, h⟩, c => dummy W ⟨0, h⟩ c
  | ⟨1, h⟩, c => dummy W ⟨1, h⟩ c
  | ⟨2, h⟩, c => dummy W ⟨2, h⟩ c
  | ⟨3, _⟩, c => dat7 W n c
  | ⟨k + 4, h⟩, c => dummy W ⟨k + 4, h⟩ c

set_option maxHeartbeats 2000000 in

set_option backward.isDefEq.respectTransparency.types false in

def reg3 {lv : GSem nD τ sig → HIx 4 → ℕ} (hlv : (K (F := F)).Refines lv) :
    Pipeline.RegionSeg (pcfgs (F := F)) adm (dats3 W n) (none : HIx 4) defs₀ 𝒱₀ (K (F := F)).L lv 3 where
  win := launch7.win.to₀
  block_pos := launch7.block_pos
  stage_whole := launch7.stage_whole
  K := PEmpty
  osem := fun k => k.elim
  ho := Pipeline.OwnSemFacts.none _
  hbody c := (body_obligation7 W n c).loose
  hwaits c := Pipeline.cellsWaits_intro _ (dats3 W n) (none : HIx 4) 3 c fun w s t =>
    SparseCore.Cfg.mayWait_none (K := K (F := F)) (thr := (c : Thread nD τ)) _ (Otc_none c n) lv hlv
  pre c := iprop(unscopedBufs c (W c) ∗ tcOwes (F := F) c n)
  post c := iprop(unscopedBufs c (out3 W c) ∗ tcOwes (F := F) c n)
  X _ := iprop(emp)
  Y _ := iprop(emp)
  Z c := Pipeline.unscopedRest spec7 c (W c)
  hentry c := by
    have hsplit := Pipeline.arrays_of_unscopedBufs (pcfgs (F := F)) adm (dats3 W n) (p := 3) launch7.win launch7.arr_whole c
      ((dat7 W n c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOwes Pipeline.Dat.owesAt Pipeline.owesWithin
      icases HO with ⟨%Wt, %hW, HO⟩; iexists Wt; isplitr
      · ipureintro; exact fun p hp => Or.inl (hW p (Finset.mem_coe.mp hp))
      iexact HO
    isplitr; · iempintro
    iexact Hrest
  hin c := by
    show _ ⊢ (Pipeline.scopedRest (Ix := HIx 4) (Name := ℕ) (U := UU) (Lvl := ℕ) (Val := Elt F) spec7 c : sProp 𝕄)
    iintro ⟨-, -, Hr⟩; iexact Hr
  hout c := by
    show (Pipeline.scopedRest (Ix := HIx 4) (Name := ℕ) (U := UU) (Lvl := ℕ) (Val := Elt F) spec7 c : sProp 𝕄) ⊢ _
    unfold Pipeline.ownSems0; rw [Finset.univ_eq_empty, BI.bigSep_empty]
    iintro Hr
    isplitr; · iempintro
    isplitr; · iempintro
    iexact Hr
  hexit c := by
    have hjoin := Pipeline.unscopedBufs_of_arrays (pcfgs (F := F)) adm (p := 3) launch7.win launch7.arr_whole c (dats3 W n)
      ((dat7 W n c).share_full fun _ => rfl) (W c) (out3 W c) (fun w => (dats3 W n 3 c).arrAt w (Pipeline.pin (pcfgs (F := F)) adm 3).N) (hF7 W n c) (hrest7 W c)
    iintro ⟨Ha, HO, -, HZ⟩
    imodintro
    isplitl [Ha HZ]
    · iapply hjoin
      isplitl [Ha]; · iexact Ha
      iexact HZ
    · unfold tcOwes Pipeline.Dat.owesAt Pipeline.owesWithin
      icases HO with ⟨%Wt, %hW, HO⟩; iexists Wt; isplitr
      · ipureintro
        intro p hp
        rcases hW (Finset.mem_coe.mpr hp) with h | ⟨w, s, rfl⟩
        · exact h
        · show (K (F := F)).lev _ none ≤ _
          rw [SparseCore.Cfg.lev_none]; exact Nat.zero_le _
      iexact HO

set_option backward.isDefEq.respectTransparency.types false in

theorem region3 {P : (K (F := F)).Pay (nD := nD) (Val := Elt F) (Name := ℕ) (U := UU)}
    (κ : GSem nD τ sig → ℕ) {lv : GSem nD τ sig → HIx 4 → ℕ} (hlv : (K (F := F)).Refines lv) (d : Dev nD) (Φ : PUnit → sProp 𝕄) :
    iprop((K (F := F)).ctx EH P κ lv ∗ (K (F := F)).tcSt EH d n ∗ boundary (T d : Thread nD τ) ∗ unscopedBufs d (W d)
        ∗ (Pipeline.cellsGhost (Pipeline.pin (pcfgs (F := F)) adm) EP 3 d ∗ Pipeline.toksInit (Pipeline.pin (pcfgs (F := F)) adm) EP 3 d)
        ∗ (iprop((K (F := F)).tcSt EH d n ∗ boundary (T d : Thread nD τ) ∗ unscopedBufs d (out3 W d)) -∗ Φ ⟨⟩))
      ⊢ wp frame (wpE ((K (F := F)).defs (D (F := F))) 𝒱 (T d) none) Set.univ
          (Prog.lift (.customCall (SparseCore.inner (Pipeline.entry 3)) ())) Φ := by
  unfold SparseCore.Cfg.tcSt
  iintro ⟨#Hctx, ⟨HO, Hrest⟩, Hbd, Hub, ⟨Hg, Ht⟩, Hk⟩
  ihave Hla := (SparseCore.Cfg.ctx_levAts κ) $$ Hctx
  iapply ((K (F := F)).wp_liftProg (D (F := F)) 𝒱 (T d) Set.univ none (Prog.op (.customCall (Pipeline.entry 3) ()) fun _ => .ret ⟨⟩) Φ)
  have hR := Pipeline.RegionSeg.wp (pcfgs (F := F)) adm (dats3 W n) (none : HIx 4) cellOf_inj EP defs₀ 𝒱₀ (K (F := F)).L lv (reg3 W n hlv) d none
    (fun _ h => nomatch h) (fun _ => .ret ⟨⟩) Φ
  rw [show (reg3 W n hlv).post d = iprop(unscopedBufs d (out3 W d) ∗ tcOwes (F := F) d n) from rfl,
    show (reg3 W n hlv).pre d = iprop(unscopedBufs d (W d) ∗ tcOwes (F := F) d n) from rfl] at hR
  unfold tcOwes at hR
  iapply hR
  isplitl [Hk Hrest]
  · iintro ⟨Hbd, Hub, HO⟩
    rw [wp_ret]; imodintro
    iapply Hk
    isplitl [HO Hrest]; · isplitl [HO] <;> iassumption
    isplitl [Hbd] <;> iassumption
  isplitl [Hbd]; · iexact Hbd
  isplitl [Hub HO]; · isplitl [Hub] <;> iassumption
  isplitl [Hla]; · iexact Hla
  isplitl [Hg] <;> iassumption

end Region3Seg

end Cert.KernelIdeal.TcRegions
end
-- ==== Proof.Main.lean ====
import proofs.«213134_g57071525429591_cont_9to1_m_136_24_alg».proof.Proof.Stages
import proofs.«213134_g57071525429591_cont_9to1_m_136_24_alg».proof.Proof.LaunchElem
import proofs.«213134_g57071525429591_cont_9to1_m_136_24_alg».proof.Proof.Calls
import proofs.«213134_g57071525429591_cont_9to1_m_136_24_alg».proof.Proof.TcRegions
import Idealize.ShloMosaic.Lib.Pipeline.Frame

noncomputable section

namespace Cert.KernelIdeal.Setup

open Cert.KernelIdeal Cert.KernelIdeal.Gen Cert.KernelIdeal.TcRegions

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

section Held
variable {F : FTy → Type}
local notation "𝕄" => MT nD τ sig (HIx 4) (Elt F) ℕ UU ℕ

theorem held_take (c : Thread nD τ) {S : Finset (DevRef τ sig)} {b : DevRef τ sig} (hb : b ∈ S) (W : Valuation τ sig (Elt F)) :
    (held c S W : sProp 𝕄) = iprop(((c.1, b) ↦{fullShare} W b) ∗ held c (S.erase b) W) := by
  unfold held
  exact SparseCore.bigSep_erase' hb

theorem rf_mem (b : Ref sig .tc) (h : (rf b : DevRef τ sig).isScoped = false := by decide) : rf b ∈ Pipeline.ucRefs τ sig :=
  Finset.mem_filter.mpr ⟨devRef_mem_tcRefs b, by rw [h]; exact Bool.false_ne_true⟩

theorem ne_rf {a b : Ref sig .tc} (h : a ≠ b) : (rf a : DevRef τ sig) ≠ rf b := fun e => h (Proc.devRef_injective _ e)

theorem held_deg (d : Dev nD) (W : Valuation τ sig (Elt F)) :
    (held (T d) (Pipeline.ucRefs τ sig) W : sProp 𝕄)
      = iprop((tcLoc d main_v3 ↦{fullShare} W (rf main_v3)) ∗ (tcLoc d main_v9 ↦{fullShare} W (rf main_v9))
          ∗ held (T d) (((Pipeline.ucRefs τ sig).erase (rf main_v3)).erase (rf main_v9)) W) := by
  rw [held_take (T d) (rf_mem main_v3) W,
    held_take (T d) (b := rf main_v9) (Finset.mem_erase.mpr ⟨ne_rf (by decide), rf_mem main_v9⟩) W]

abbrev rest4 (a b e f : Ref sig .tc) : Finset (DevRef τ sig) :=
  ((((Pipeline.ucRefs τ sig).erase (rf a)).erase (rf b)).erase (rf e)).erase (rf f)

theorem held_take4 (d : Dev nD) (a b e f : Ref sig .tc) (ha : rf a ∈ Pipeline.ucRefs τ sig) (hb : rf b ∈ Pipeline.ucRefs τ sig)
    (he : rf e ∈ Pipeline.ucRefs τ sig) (hf : rf f ∈ Pipeline.ucRefs τ sig)
    (hab : b ≠ a) (hea : e ≠ a) (heb : e ≠ b) (hfa : f ≠ a) (hfb : f ≠ b) (hfe : f ≠ e) (W : Valuation τ sig (Elt F)) :
    (held (T d) (Pipeline.ucRefs τ sig) W : sProp 𝕄)
      = iprop((tcLoc d a ↦{fullShare} W (rf a)) ∗ (tcLoc d b ↦{fullShare} W (rf b)) ∗ (tcLoc d e ↦{fullShare} W (rf e))
          ∗ (tcLoc d f ↦{fullShare} W (rf f)) ∗ held (T d) (rest4 a b e f) W) := by
  rw [held_take (T d) ha W,
    held_take (T d) (b := rf b) (Finset.mem_erase.mpr ⟨ne_rf hab, hb⟩) W,
    held_take (T d) (b := rf e) (Finset.mem_erase.mpr ⟨ne_rf heb, Finset.mem_erase.mpr ⟨ne_rf hea, he⟩⟩) W,
    held_take (T d) (b := rf f) (Finset.mem_erase.mpr ⟨ne_rf hfe, Finset.mem_erase.mpr ⟨ne_rf hfb, Finset.mem_erase.mpr ⟨ne_rf hfa, hf⟩⟩⟩) W]

theorem ne_of_mem_rest4 {a b e f : Ref sig .tc} {x : DevRef τ sig} (hx : x ∈ rest4 a b e f) : x ≠ rf f :=
  Finset.ne_of_mem_erase hx

end Held

section Steps
variable {F : FTy → Type} [FloatOps F]
variable (m : (ℓ : Loc nD τ sig) → Buf (Elt F) ℓ) (d : Dev nD)

theorem W2_of_ne {b : Ref sig .tc} (h0 : b ≠ main_v9) : W2 m d (rf b) = W1 m d (rf b) := by
  unfold W2; rw [Function.update_of_ne (ne_rf h0)]
theorem W3_of_ne {b : Ref sig .tc} (h0 : b ≠ main_v10_0) (h1 : b ≠ main_v10_1) : W3 m d (rf b) = W2 m d (rf b) := by
  unfold W3; rw [Function.update_of_ne (ne_rf h1), Function.update_of_ne (ne_rf h0)]
theorem W4_of_ne {b : Ref sig .tc} (h0 : b ≠ main_v11) : W4 m d (rf b) = W3 m d (rf b) :=
  (op11 (F := F)).result_of_not_mem _ fun hm => ne_rf h0 (Finset.mem_singleton.mp hm)
theorem W5_of_ne {b : Ref sig .tc} (h0 : b ≠ main_v12) : W5 m d (rf b) = W4 m d (rf b) := by
  unfold W5; rw [Function.update_of_ne (ne_rf h0)]
theorem W6_of_ne {b : Ref sig .tc} (h0 : b ≠ main_v13) : W6 m d (rf b) = W5 m d (rf b) :=
  (op13 (F := F)).result_of_not_mem _ fun hm => ne_rf h0 (Finset.mem_singleton.mp hm)
theorem W7_of_ne {b : Ref sig .tc} (h0 : b ≠ main_v14) : W7 m d (rf b) = W6 m d (rf b) := by
  unfold W7; rw [Function.update_of_ne (ne_rf h0)]
theorem W8_of_ne {b : Ref sig .tc} (h0 : b ≠ main_v15) : W8 m d (rf b) = W7 m d (rf b) :=
  (op15 (F := F)).result_of_not_mem _ fun hm => ne_rf h0 (Finset.mem_singleton.mp hm)
theorem W9_of_ne {b : Ref sig .tc} (h0 : b ≠ main_v16) : W9 m d (rf b) = W8 m d (rf b) := by
  unfold W9; rw [Function.update_of_ne (ne_rf h0)]
theorem W10_of_ne {b : Ref sig .tc} (h0 : b ≠ main_v17) : W10 m d (rf b) = W9 m d (rf b) :=
  (op17 (F := F)).result_of_not_mem _ fun hm => ne_rf h0 (Finset.mem_singleton.mp hm)
theorem W11_of_ne {b : Ref sig .tc} (h0 : b ≠ main_v18) : W11 m d (rf b) = W10 m d (rf b) := by
  unfold W11; rw [Function.update_of_ne (ne_rf h0)]
theorem W12_of_ne {b : Ref sig .tc} (h0 : b ≠ main_v19) : W12 m d (rf b) = W11 m d (rf b) :=
  (op19 (F := F)).result_of_not_mem _ fun hm => ne_rf h0 (Finset.mem_singleton.mp hm)
theorem W13_of_ne {b : Ref sig .tc} (h0 : b ≠ main_v20) : W13 m d (rf b) = W12 m d (rf b) := by
  unfold W13; rw [Function.update_of_ne (ne_rf h0)]
theorem W14_of_ne {b : Ref sig .tc} (h0 : b ≠ main_v21) : W14 m d (rf b) = W13 m d (rf b) :=
  (op21 (F := F)).result_of_not_mem _ fun hm => ne_rf h0 (Finset.mem_singleton.mp hm)
theorem W15_of_ne {b : Ref sig .tc} (h0 : b ≠ main_v22) : W15 m d (rf b) = W14 m d (rf b) := by
  unfold W15; rw [Function.update_of_ne (ne_rf h0)]

theorem W2_v9 : W2 m d (rf main_v9) = degpA m d := by unfold W2; exact Function.update_self _ _ _
theorem W3_u : W3 m d (rf main_v10_0) = u0A m d := by
  unfold W3; rw [Function.update_of_ne (ne_rf (by decide)), Function.update_self]
theorem W3_dis : W3 m d (rf main_v10_1) = disA m d := by unfold W3; exact Function.update_self _ _ _
theorem W5_s : W5 m d (rf main_v12) = s0f m d := by unfold W5; exact Function.update_self _ _ _
theorem W7_u : W7 m d (rf main_v14) = u1A m d := by unfold W7; exact Function.update_self _ _ _
theorem W9_s : W9 m d (rf main_v16) = s1f m d := by unfold W9; exact Function.update_self _ _ _
theorem W11_u : W11 m d (rf main_v18) = u2A m d := by unfold W11; exact Function.update_self _ _ _
theorem W13_s : W13 m d (rf main_v20) = s2f m d := by unfold W13; exact Function.update_self _ _ _
theorem W15_out : W15 m d (rf main_v22) = outA m d := by unfold W15; exact Function.update_self _ _ _
theorem W4_v1 : W4 m d (rf main_v1) = srcA m d := by
  rw [W4_of_ne m d (by decide), W3_of_ne m d (by decide) (by decide), W2_of_ne m d (by decide)]; rfl
theorem W4_v3 : W4 m d (rf main_v3) = dstA m d := by
  rw [W4_of_ne m d (by decide), W3_of_ne m d (by decide) (by decide), W2_of_ne m d (by decide)]; rfl
theorem W5_v1 : W5 m d (rf main_v1) = srcA m d := by
  rw [W5_of_ne m d (by decide), W4_of_ne m d (by decide), W3_of_ne m d (by decide) (by decide), W2_of_ne m d (by decide)]; rfl
theorem W5_v3 : W5 m d (rf main_v3) = dstA m d := by
  rw [W5_of_ne m d (by decide), W4_of_ne m d (by decide), W3_of_ne m d (by decide) (by decide), W2_of_ne m d (by decide)]; rfl
theorem W8_v1 : W8 m d (rf main_v1) = srcA m d := by
  rw [W8_of_ne m d (by decide), W7_of_ne m d (by decide), W6_of_ne m d (by decide), W5_of_ne m d (by decide), W4_of_ne m d (by decide), W3_of_ne m d (by decide) (by decide), W2_of_ne m d (by decide)]; rfl
theorem W8_v3 : W8 m d (rf main_v3) = dstA m d := by
  rw [W8_of_ne m d (by decide), W7_of_ne m d (by decide), W6_of_ne m d (by decide), W5_of_ne m d (by decide), W4_of_ne m d (by decide), W3_of_ne m d (by decide) (by decide), W2_of_ne m d (by decide)]; rfl
theorem W9_v1 : W9 m d (rf main_v1) = srcA m d := by
  rw [W9_of_ne m d (by decide), W8_of_ne m d (by decide), W7_of_ne m d (by decide), W6_of_ne m d (by decide), W5_of_ne m d (by decide), W4_of_ne m d (by decide), W3_of_ne m d (by decide) (by decide), W2_of_ne m d (by decide)]; rfl
theorem W9_v3 : W9 m d (rf main_v3) = dstA m d := by
  rw [W9_of_ne m d (by decide), W8_of_ne m d (by decide), W7_of_ne m d (by decide), W6_of_ne m d (by decide), W5_of_ne m d (by decide), W4_of_ne m d (by decide), W3_of_ne m d (by decide) (by decide), W2_of_ne m d (by decide)]; rfl
theorem W12_v1 : W12 m d (rf main_v1) = srcA m d := by
  rw [W12_of_ne m d (by decide), W11_of_ne m d (by decide), W10_of_ne m d (by decide), W9_of_ne m d (by decide), W8_of_ne m d (by decide), W7_of_ne m d (by decide), W6_of_ne m d (by decide), W5_of_ne m d (by decide), W4_of_ne m d (by decide), W3_of_ne m d (by decide) (by decide), W2_of_ne m d (by decide)]; rfl
theorem W12_v3 : W12 m d (rf main_v3) = dstA m d := by
  rw [W12_of_ne m d (by decide), W11_of_ne m d (by decide), W10_of_ne m d (by decide), W9_of_ne m d (by decide), W8_of_ne m d (by decide), W7_of_ne m d (by decide), W6_of_ne m d (by decide), W5_of_ne m d (by decide), W4_of_ne m d (by decide), W3_of_ne m d (by decide) (by decide), W2_of_ne m d (by decide)]; rfl
theorem W13_v1 : W13 m d (rf main_v1) = srcA m d := by
  rw [W13_of_ne m d (by decide), W12_of_ne m d (by decide), W11_of_ne m d (by decide), W10_of_ne m d (by decide), W9_of_ne m d (by decide), W8_of_ne m d (by decide), W7_of_ne m d (by decide), W6_of_ne m d (by decide), W5_of_ne m d (by decide), W4_of_ne m d (by decide), W3_of_ne m d (by decide) (by decide), W2_of_ne m d (by decide)]; rfl
theorem W13_v3 : W13 m d (rf main_v3) = dstA m d := by
  rw [W13_of_ne m d (by decide), W12_of_ne m d (by decide), W11_of_ne m d (by decide), W10_of_ne m d (by decide), W9_of_ne m d (by decide), W8_of_ne m d (by decide), W7_of_ne m d (by decide), W6_of_ne m d (by decide), W5_of_ne m d (by decide), W4_of_ne m d (by decide), W3_of_ne m d (by decide) (by decide), W2_of_ne m d (by decide)]; rfl
theorem W6_u : W6 m d (rf main_v10_0) = u0A m d := by rw [W6_of_ne m d (by decide), W5_of_ne m d (by decide), W4_of_ne m d (by decide)]; exact W3_u m d
theorem W6_dis : W6 m d (rf main_v10_1) = disA m d := by rw [W6_of_ne m d (by decide), W5_of_ne m d (by decide), W4_of_ne m d (by decide)]; exact W3_dis m d
theorem W10_u : W10 m d (rf main_v14) = u1A m d := by rw [W10_of_ne m d (by decide), W9_of_ne m d (by decide), W8_of_ne m d (by decide)]; exact W7_u m d
theorem W10_dis : W10 m d (rf main_v10_1) = disA m d := by rw [W10_of_ne m d (by decide), W9_of_ne m d (by decide), W8_of_ne m d (by decide), W7_of_ne m d (by decide), W6_of_ne m d (by decide), W5_of_ne m d (by decide), W4_of_ne m d (by decide)]; exact W3_dis m d
theorem W14_u : W14 m d (rf main_v18) = u2A m d := by rw [W14_of_ne m d (by decide), W13_of_ne m d (by decide), W12_of_ne m d (by decide)]; exact W11_u m d
theorem W14_dis : W14 m d (rf main_v10_1) = disA m d := by rw [W14_of_ne m d (by decide), W13_of_ne m d (by decide), W12_of_ne m d (by decide), W11_of_ne m d (by decide), W10_of_ne m d (by decide), W9_of_ne m d (by decide), W8_of_ne m d (by decide), W7_of_ne m d (by decide), W6_of_ne m d (by decide), W5_of_ne m d (by decide), W4_of_ne m d (by decide)]; exact W3_dis m d
theorem W5_u : W5 m d (rf main_v11) = u0f m d := by rw [W5_of_ne m d (by decide)]; rfl
theorem W9_u : W9 m d (rf main_v15) = u1f m d := by rw [W9_of_ne m d (by decide)]; rfl
theorem W13_u : W13 m d (rf main_v19) = u2f m d := by rw [W13_of_ne m d (by decide)]; rfl

theorem R0_u : W3 m d (rf main_v10_0) = TcVal.firstU (W2 m d (rf main_arg0)) (W2 m d (rf main_arg3)) (W2 m d (rf main_v9)) := by
  rw [W3_u, W2_v9]; rfl
theorem R0_dis : W3 m d (rf main_v10_1) = TcVal.firstDis (W2 m d (rf main_arg0)) (W2 m d (rf main_arg3)) (W2 m d (rf main_v9)) := by
  rw [W3_dis, W2_v9]; rfl
theorem R1_out : W7 m d (rf main_v14) = TcVal.midU (W6 m d (rf main_v13)) (W6 m d (rf main_v10_0)) (W6 m d (rf main_v10_1)) (W6 m d (rf main_v5)) (W6 m d (rf main_arg5)) := by
  rw [W7_u, W6_u, W6_dis]; rfl
theorem R2_out : W11 m d (rf main_v18) = TcVal.midU (W10 m d (rf main_v17)) (W10 m d (rf main_v14)) (W10 m d (rf main_v10_1)) (W10 m d (rf main_v6)) (W10 m d (rf main_arg7)) := by
  rw [W11_u, W10_u, W10_dis]; rfl
theorem R3_out : W15 m d (rf main_v22) = TcVal.finalOut (W14 m d (rf main_v21)) (W14 m d (rf main_v18)) (W14 m d (rf main_v10_1)) (W14 m d (rf main_v7)) (W14 m d (rf main_v4)) (W14 m d (rf main_arg9)) (W14 m d (rf main_v8)) := by
  rw [W15_out, W14_u, W14_dis]; rfl

end Steps

section Regions
variable {F : FTy → Type} [FloatOps F]
local notation "𝕄" => MT nD τ sig (HIx 4) (Elt F) ℕ UU ℕ

theorem region0' [∀ e, Nonempty (Elt F e)] {P : (K (F := F)).Pay (nD := nD) (Val := Elt F) (Name := ℕ) (U := UU)}
    (W : (c : Dev nD) → (b : Ref sig .tc) → Buf (Elt F) ((c.tc : Thread nD τ).loc b)) (n : ℕ)
    (κ : GSem nD τ sig → ℕ) {lv : GSem nD τ sig → HIx 4 → ℕ} (hlv : (K (F := F)).Refines lv) (d : Dev nD)
    (W' : (b : Ref sig .tc) → Buf (Elt F) ((d.tc : Thread nD τ).loc b))
    (hout0 : W' main_v10_0 = TcVal.firstU (W d main_arg0) (W d main_arg3) (W d main_v9))
    (hout1 : W' main_v10_1 = TcVal.firstDis (W d main_arg0) (W d main_arg3) (W d main_v9))
    (hrest : ∀ b, b ≠ main_v10_0 → b ≠ main_v10_1 → W' b = W d b) (Φ : PUnit → sProp 𝕄) :
    iprop((K (F := F)).ctx EH P κ lv ∗ (K (F := F)).tcSt EH d n ∗ boundary (T d : Thread nD τ) ∗ unscopedBufs d (W d)
        ∗ (Pipeline.cellsGhost cfgs EP 0 d ∗ Pipeline.toksInit cfgs EP 0 d)
        ∗ (iprop((K (F := F)).tcSt EH d n ∗ boundary (T d : Thread nD τ) ∗ unscopedBufs d W') -∗ Φ ⟨⟩))
      ⊢ wp frame (wpE ((K (F := F)).defs (D (F := F))) 𝒱 (T d) none) Set.univ
          (Prog.lift (.customCall (SparseCore.inner (Pipeline.entry 0)) ())) Φ := by
  have hW : out0 W d = W' := funext fun b => by
    by_cases h0 : b = main_v10_0
    · subst h0; rw [out0_0, hout0]
    by_cases h1 : b = main_v10_1
    · subst h1; rw [out0_1, hout1]
    rw [out0_of_ne W d h0 h1, hrest b h0 h1]
  rw [← hW]
  exact region0 W n κ hlv d Φ

theorem region1' [∀ e, Nonempty (Elt F e)] {P : (K (F := F)).Pay (nD := nD) (Val := Elt F) (Name := ℕ) (U := UU)}
    (W : (c : Dev nD) → (b : Ref sig .tc) → Buf (Elt F) ((c.tc : Thread nD τ).loc b)) (n : ℕ)
    (κ : GSem nD τ sig → ℕ) {lv : GSem nD τ sig → HIx 4 → ℕ} (hlv : (K (F := F)).Refines lv) (d : Dev nD)
    (W' : (b : Ref sig .tc) → Buf (Elt F) ((d.tc : Thread nD τ).loc b))
    (hout0 : W' main_v14 = TcVal.midU (W d main_v13) (W d main_v10_0) (W d main_v10_1) (W d main_v5) (W d main_arg5))
    (hrest : ∀ b, b ≠ main_v14 → W' b = W d b) (Φ : PUnit → sProp 𝕄) :
    iprop((K (F := F)).ctx EH P κ lv ∗ (K (F := F)).tcSt EH d n ∗ boundary (T d : Thread nD τ) ∗ unscopedBufs d (W d)
        ∗ (Pipeline.cellsGhost cfgs EP 1 d ∗ Pipeline.toksInit cfgs EP 1 d)
        ∗ (iprop((K (F := F)).tcSt EH d n ∗ boundary (T d : Thread nD τ) ∗ unscopedBufs d W') -∗ Φ ⟨⟩))
      ⊢ wp frame (wpE ((K (F := F)).defs (D (F := F))) 𝒱 (T d) none) Set.univ
          (Prog.lift (.customCall (SparseCore.inner (Pipeline.entry 1)) ())) Φ := by
  have hW : out1 W d = W' := funext fun b => by
    by_cases h0 : b = main_v14
    · subst h0; rw [out1_0, hout0]
    rw [out1_of_ne W d h0, hrest b h0]
  rw [← hW]
  exact region1 W n κ hlv d Φ

theorem region2' [∀ e, Nonempty (Elt F e)] {P : (K (F := F)).Pay (nD := nD) (Val := Elt F) (Name := ℕ) (U := UU)}
    (W : (c : Dev nD) → (b : Ref sig .tc) → Buf (Elt F) ((c.tc : Thread nD τ).loc b)) (n : ℕ)
    (κ : GSem nD τ sig → ℕ) {lv : GSem nD τ sig → HIx 4 → ℕ} (hlv : (K (F := F)).Refines lv) (d : Dev nD)
    (W' : (b : Ref sig .tc) → Buf (Elt F) ((d.tc : Thread nD τ).loc b))
    (hout0 : W' main_v18 = TcVal.midU (W d main_v17) (W d main_v14) (W d main_v10_1) (W d main_v6) (W d main_arg7))
    (hrest : ∀ b, b ≠ main_v18 → W' b = W d b) (Φ : PUnit → sProp 𝕄) :
    iprop((K (F := F)).ctx EH P κ lv ∗ (K (F := F)).tcSt EH d n ∗ boundary (T d : Thread nD τ) ∗ unscopedBufs d (W d)
        ∗ (Pipeline.cellsGhost cfgs EP 2 d ∗ Pipeline.toksInit cfgs EP 2 d)
        ∗ (iprop((K (F := F)).tcSt EH d n ∗ boundary (T d : Thread nD τ) ∗ unscopedBufs d W') -∗ Φ ⟨⟩))
      ⊢ wp frame (wpE ((K (F := F)).defs (D (F := F))) 𝒱 (T d) none) Set.univ
          (Prog.lift (.customCall (SparseCore.inner (Pipeline.entry 2)) ())) Φ := by
  have hW : out2 W d = W' := funext fun b => by
    by_cases h0 : b = main_v18
    · subst h0; rw [out2_0, hout0]
    rw [out2_of_ne W d h0, hrest b h0]
  rw [← hW]
  exact region2 W n κ hlv d Φ

theorem region3' [∀ e, Nonempty (Elt F e)] {P : (K (F := F)).Pay (nD := nD) (Val := Elt F) (Name := ℕ) (U := UU)}
    (W : (c : Dev nD) → (b : Ref sig .tc) → Buf (Elt F) ((c.tc : Thread nD τ).loc b)) (n : ℕ)
    (κ : GSem nD τ sig → ℕ) {lv : GSem nD τ sig → HIx 4 → ℕ} (hlv : (K (F := F)).Refines lv) (d : Dev nD)
    (W' : (b : Ref sig .tc) → Buf (Elt F) ((d.tc : Thread nD τ).loc b))
    (hout0 : W' main_v22 = TcVal.finalOut (W d main_v21) (W d main_v18) (W d main_v10_1) (W d main_v7) (W d main_v4) (W d main_arg9) (W d main_v8))
    (hrest : ∀ b, b ≠ main_v22 → W' b = W d b) (Φ : PUnit → sProp 𝕄) :
    iprop((K (F := F)).ctx EH P κ lv ∗ (K (F := F)).tcSt EH d n ∗ boundary (T d : Thread nD τ) ∗ unscopedBufs d (W d)
        ∗ (Pipeline.cellsGhost cfgs EP 3 d ∗ Pipeline.toksInit cfgs EP 3 d)
        ∗ (iprop((K (F := F)).tcSt EH d n ∗ boundary (T d : Thread nD τ) ∗ unscopedBufs d W') -∗ Φ ⟨⟩))
      ⊢ wp frame (wpE ((K (F := F)).defs (D (F := F))) 𝒱 (T d) none) Set.univ
          (Prog.lift (.customCall (SparseCore.inner (Pipeline.entry 3)) ())) Φ := by
  have hW : out3 W d = W' := funext fun b => by
    by_cases h0 : b = main_v22
    · subst h0; rw [out3_0, hout0]
    rw [out3_of_ne W d h0, hrest b h0]
  rw [← hW]
  exact region3 W n κ hlv d Φ

end Regions

section C
variable {F : FTy → Type} [FloatOps F]
variable (m : (ℓ : Loc nD τ sig) → Buf (Elt F) ℓ) (ρ : Dev nD → PrngReg) (d : Dev nD)
local notation "𝕄" => MT nD τ sig (HIx 4) (Elt F) ℕ UU ℕ

theorem unscoped_held :
    (unscopedBufs d (fun b => m ((SparseCore.T d).loc b)) : sProp 𝕄) = held (T d) (Pipeline.ucRefs τ sig) (V0 m d) :=
  Pipeline.unscopedBufs_held (Ix := HIx 4) (Name := ℕ) (U := UU) (Lvl := ℕ) d (V0 m d)

theorem unscoped_held' (W : Valuation τ sig (Elt F)) :
    (unscopedBufs d (fun b => W (rf b)) : sProp 𝕄) = held (T d) (Pipeline.ucRefs τ sig) W :=
  Pipeline.unscopedBufs_held (Ix := HIx 4) (Name := ℕ) (U := UU) (Lvl := ℕ) d W

abbrev gAt (p : Fin 4) : sProp 𝕄 :=
  iprop(Pipeline.cellsGhost cfgs (EP (F := F)) p d ∗ Pipeline.toksInit cfgs (EP (F := F)) p d)

theorem G_split : G (F := F) d = iprop(gAt (F := F) d 0 ∗ gAt (F := F) d 1 ∗ gAt (F := F) d 2 ∗ gAt (F := F) d 3) :=
  bigSep_univ_eq_bigSepL [(0 : Fin 4), 1, 2, 3] (by decide) (by decide) _

abbrev regionItem (p : Fin 4) : Prog (TpuEff nD τ sig (Elt F) (SparseCore.Sig (Pipeline.Sig Λ₀ (Fin 4) fun p => (pcfgs (F := F) p).Adm) 4) .tc) PUnit :=
  Prog.lift (.customCall (SparseCore.inner (Pipeline.entry p)) ())

theorem main_chain : main (F := F) d = Pipeline.chain
    [ StableHlo.seq (ops0 (F := F)), (sc (F := F)).run d 0, regionItem 0, StableHlo.seq [op11 (F := F)],
      (sc (F := F)).run d 1, StableHlo.seq [op13 (F := F)], regionItem 1, StableHlo.seq [op15 (F := F)],
      (sc (F := F)).run d 2, StableHlo.seq [op17 (F := F)], regionItem 2, StableHlo.seq [op19 (F := F)],
      (sc (F := F)).run d 3, StableHlo.seq [op21 (F := F)], regionItem 3 ] := by
  chain_rfl

theorem ops0_sub : ∀ op ∈ (ops0 : List (HloOp τ sig (Elt F))), op.bufs ⊆ Pipeline.ucRefs τ sig := by
  intro op h
  refine Pipeline.sub_ucRefs op ?_
  simp only [List.mem_cons, List.not_mem_nil, or_false] at h
  rcases h with rfl | rfl | rfl | rfl | rfl | rfl | rfl | rfl | rfl <;> simp
theorem ops0_fresh : ∀ op ∈ (ops0 : List (HloOp τ sig (Elt F))), op.fresh = ∅ := by
  intro op h
  simp only [List.mem_cons, List.not_mem_nil, or_false] at h
  rcases h with rfl | rfl | rfl | rfl | rfl | rfl | rfl | rfl | rfl <;> rfl

theorem one_sub {op : HloOp τ sig (Elt F)} (h : op.bufs ⊆ StableHlo.tcRefs τ sig) : ∀ o ∈ [op], o.bufs ⊆ Pipeline.ucRefs τ sig := by
  intro o ho
  rw [List.mem_singleton] at ho; subst ho
  exact Pipeline.sub_ucRefs o h
theorem one_fresh {op : HloOp τ sig (Elt F)} (h : op.fresh = ∅) : ∀ o ∈ [op], o.fresh = ∅ := by
  intro o ho
  rw [List.mem_singleton] at ho; subst ho
  exact h

theorem held_deg_out :
    (iprop((tcLoc d main_v3 ↦{fullShare} (svOf m d).dst) ∗ (tcLoc d main_v9 ↦{fullShare} (svOf m d).degp)
      ∗ held (T d) (((Pipeline.ucRefs τ sig).erase (rf main_v3)).erase (rf main_v9)) (W1 m d)) : sProp 𝕄)
      = held (T d) (Pipeline.ucRefs τ sig) (W2 m d) := by
  rw [held_deg d (W2 m d)]
  unfold W2
  rw [Function.update_self, Function.update_of_ne (ne_rf (by decide)),
    held_congr (T d) (V := Function.update (W1 m d) (rf main_v9) (degpA m d)) (V' := W1 m d) fun b' hb' =>
      Function.update_of_ne (Finset.ne_of_mem_erase hb') _ _]
  rfl

theorem held_spmm1_in :
    (held (T d) (Pipeline.ucRefs τ sig) (W4 m d) : sProp 𝕄)
      = iprop((tcLoc d main_v11 ↦{fullShare} (svOf m d).u 0) ∗ (tcLoc d main_v1 ↦{fullShare} (svOf m d).src) ∗ (tcLoc d main_v3 ↦{fullShare} (svOf m d).dst)
          ∗ (tcLoc d main_v12 ↦{fullShare} W4 m d (rf main_v12)) ∗ held (T d) (rest4 main_v11 main_v1 main_v3 main_v12) (W4 m d)) := by
  rw [held_take4 (F := F) d main_v11 main_v1 main_v3 main_v12 (rf_mem _) (rf_mem _) (rf_mem _) (rf_mem _)
      (by decide) (by decide) (by decide) (by decide) (by decide) (by decide) (W4 m d),
    W4_v1, W4_v3]
  rfl

theorem held_spmm1_out :
    (iprop((tcLoc d main_v11 ↦{fullShare} (svOf m d).u 0) ∗ (tcLoc d main_v1 ↦{fullShare} (svOf m d).src) ∗ (tcLoc d main_v3 ↦{fullShare} (svOf m d).dst)
          ∗ (tcLoc d main_v12 ↦{fullShare} (svOf m d).s 0) ∗ held (T d) (rest4 main_v11 main_v1 main_v3 main_v12) (W4 m d)) : sProp 𝕄)
      = held (T d) (Pipeline.ucRefs τ sig) (W5 m d) := by
  rw [held_take4 (F := F) d main_v11 main_v1 main_v3 main_v12 (rf_mem _) (rf_mem _) (rf_mem _) (rf_mem _)
      (by decide) (by decide) (by decide) (by decide) (by decide) (by decide) (W5 m d),
    W5_v1, W5_v3, W5_u, W5_s,
    held_congr (T d) (V := W5 m d) (V' := W4 m d) fun x hx => by
      unfold W5; exact Function.update_of_ne (ne_of_mem_rest4 hx) _ _]
  rfl

theorem held_spmm2_in :
    (held (T d) (Pipeline.ucRefs τ sig) (W8 m d) : sProp 𝕄)
      = iprop((tcLoc d main_v15 ↦{fullShare} (svOf m d).u 1) ∗ (tcLoc d main_v1 ↦{fullShare} (svOf m d).src) ∗ (tcLoc d main_v3 ↦{fullShare} (svOf m d).dst)
          ∗ (tcLoc d main_v16 ↦{fullShare} W8 m d (rf main_v16)) ∗ held (T d) (rest4 main_v15 main_v1 main_v3 main_v16) (W8 m d)) := by
  rw [held_take4 (F := F) d main_v15 main_v1 main_v3 main_v16 (rf_mem _) (rf_mem _) (rf_mem _) (rf_mem _)
      (by decide) (by decide) (by decide) (by decide) (by decide) (by decide) (W8 m d),
    W8_v1, W8_v3]
  rfl

theorem held_spmm2_out :
    (iprop((tcLoc d main_v15 ↦{fullShare} (svOf m d).u 1) ∗ (tcLoc d main_v1 ↦{fullShare} (svOf m d).src) ∗ (tcLoc d main_v3 ↦{fullShare} (svOf m d).dst)
          ∗ (tcLoc d main_v16 ↦{fullShare} (svOf m d).s 1) ∗ held (T d) (rest4 main_v15 main_v1 main_v3 main_v16) (W8 m d)) : sProp 𝕄)
      = held (T d) (Pipeline.ucRefs τ sig) (W9 m d) := by
  rw [held_take4 (F := F) d main_v15 main_v1 main_v3 main_v16 (rf_mem _) (rf_mem _) (rf_mem _) (rf_mem _)
      (by decide) (by decide) (by decide) (by decide) (by decide) (by decide) (W9 m d),
    W9_v1, W9_v3, W9_u, W9_s,
    held_congr (T d) (V := W9 m d) (V' := W8 m d) fun x hx => by
      unfold W9; exact Function.update_of_ne (ne_of_mem_rest4 hx) _ _]
  rfl

theorem held_spmm3_in :
    (held (T d) (Pipeline.ucRefs τ sig) (W12 m d) : sProp 𝕄)
      = iprop((tcLoc d main_v19 ↦{fullShare} (svOf m d).u 2) ∗ (tcLoc d main_v1 ↦{fullShare} (svOf m d).src) ∗ (tcLoc d main_v3 ↦{fullShare} (svOf m d).dst)
          ∗ (tcLoc d main_v20 ↦{fullShare} W12 m d (rf main_v20)) ∗ held (T d) (rest4 main_v19 main_v1 main_v3 main_v20) (W12 m d)) := by
  rw [held_take4 (F := F) d main_v19 main_v1 main_v3 main_v20 (rf_mem _) (rf_mem _) (rf_mem _) (rf_mem _)
      (by decide) (by decide) (by decide) (by decide) (by decide) (by decide) (W12 m d),
    W12_v1, W12_v3]
  rfl

theorem held_spmm3_out :
    (iprop((tcLoc d main_v19 ↦{fullShare} (svOf m d).u 2) ∗ (tcLoc d main_v1 ↦{fullShare} (svOf m d).src) ∗ (tcLoc d main_v3 ↦{fullShare} (svOf m d).dst)
          ∗ (tcLoc d main_v20 ↦{fullShare} (svOf m d).s 2) ∗ held (T d) (rest4 main_v19 main_v1 main_v3 main_v20) (W12 m d)) : sProp 𝕄)
      = held (T d) (Pipeline.ucRefs τ sig) (W13 m d) := by
  rw [held_take4 (F := F) d main_v19 main_v1 main_v3 main_v20 (rf_mem _) (rf_mem _) (rf_mem _) (rf_mem _)
      (by decide) (by decide) (by decide) (by decide) (by decide) (by decide) (W13 m d),
    W13_v1, W13_v3, W13_u, W13_s,
    held_congr (T d) (V := W13 m d) (V' := W12 m d) fun x hx => by
      unfold W13; exact Function.update_of_ne (ne_of_mem_rest4 hx) _ _]
  rfl

end C

section Main
variable {F : FTy → Type} [FloatOps F] [∀ e, Nonempty (Elt F e)]
variable (m : (ℓ : Loc nD τ sig) → Buf (Elt F) ℓ) (ρ : Dev nD → PrngReg)
local notation "𝕄" => MT nD τ sig (HIx 4) (Elt F) ℕ UU ℕ

def FIN (d : Dev nD) : sProp 𝕄 := held (T d) (Pipeline.ucRefs τ sig) (W15 m d)

set_option maxHeartbeats 4000000 in

theorem hmain (κ : GSem nD τ sig → ℕ) (d : Dev nD) :
    iprop((K (F := F)).ctx EH (P (svOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  unfold SparseCore.Cfg.tcRes
  rw [unscoped_held, main_chain]
  simp only [Pipeline.chain_cons, Pipeline.chain_nil]
  iintro ⟨#Hctx, Hst, ⟨Hb, Hheld, -, -⟩, HG⟩
  ihave HG' := (Entails.of_eq (G_split (F := F) d)) $$ HG
  icases HG' with ⟨Hg0, Hg1, Hg2, Hg3⟩
  iapply (wp_seq 𝒱 none Set.univ d (Pipeline.ucRefs τ sig) _ (ops0 (F := F)) ops0_sub ops0_fresh (V0 m d)) $$ [Hb Hheld]
  · isplitl [Hb]; · iexact Hb
    iexact Hheld
  iintro ⟨Hb, Hheld⟩
  ihave Hheld := (Entails.of_eq (show (held (d.tc : Thread nD τ) (Pipeline.ucRefs τ sig) (after (ops0 (F := F)) (V0 m d)) : sProp 𝕄) = held (T d) (Pipeline.ucRefs τ sig) (W1 m d) from rfl)) $$ Hheld

  ihave H := (Entails.of_eq (held_deg (F := F) d (W1 m d))) $$ Hheld
  icases H with ⟨Hv3, Hv9, Hheld⟩
  ihave Hin := (deg_call_in (svOf m) d) $$ [Hv3 Hv9]
  · isplitl [Hv3]; · iexact Hv3
    iexists _; iexact Hv9
  icases Hin with ⟨Hr3, Hst0⟩
  rw [wp_bind]
  iapply ((K (F := F)).wp_run (D (F := F)) 𝒱 (EH := EH) (P := P (svOf m)) κ d 0)
  isplitr; · iexact Hctx
  isplitl [Hst]; · iexact Hst
  isplitl [Hst0]; · iexact Hst0
  iintro ⟨Hst, Hdn⟩
  ihave Hout := (deg_call_out (svOf m) d) $$ [Hr3 Hdn]
  · isplitl [Hr3]; · iexact Hr3
    iexact Hdn
  icases Hout with ⟨Hv3, Hv9⟩
  ihave Hheld := (Entails.of_eq (held_deg_out m d)) $$ [Hv3 Hv9 Hheld]
  · isplitl [Hv3]; · iexact Hv3
    isplitl [Hv9]; · iexact Hv9
    iexact Hheld

  ihave Hub := (Entails.of_eq (unscoped_held' d (W2 m d)).symm) $$ Hheld
  rw [wp_bind]
  iapply (region0' (fun c b => W2 m c (rf b)) ((0 : Fin 4).val + 1) κ (lv := (K (F := F)).lev) (by sl_refines_lev) d (fun b => W3 m d (rf b))
    (R0_u m d) (R0_dis m d) (fun b h0 h1 => W3_of_ne m d h0 h1) _)
  isplitr; · iexact Hctx
  isplitl [Hst]; · iexact Hst
  isplitl [Hb]; · iexact Hb
  isplitl [Hub]; · iexact Hub
  isplitl [Hg0]; · iexact Hg0
  iintro ⟨Hst, Hb, Hub⟩
  ihave Hheld := (Entails.of_eq (unscoped_held' d (W3 m d))) $$ Hub

  iapply (wp_seq 𝒱 none Set.univ d (Pipeline.ucRefs τ sig) _ [op11 (F := F)] (one_sub (by simp)) (one_fresh rfl) (W3 m d)) $$ [Hb Hheld]
  · isplitl [Hb]; · iexact Hb
    iexact Hheld
  iintro ⟨Hb, Hheld⟩
  ihave Hheld := (Entails.of_eq (show (held (d.tc : Thread nD τ) (Pipeline.ucRefs τ sig) (after [op11 (F := F)] (W3 m d)) : sProp 𝕄) = held (T d) (Pipeline.ucRefs τ sig) (W4 m d) from rfl)) $$ Hheld

  ihave H := (Entails.of_eq (held_spmm1_in m d)) $$ Hheld
  icases H with ⟨Hu, Hs, Hd, Hr, Hheld⟩
  ihave Hin := (spmm1_call_in (svOf m) d) $$ [Hu Hs Hd Hr]
  · isplitl [Hu]; · iexact Hu
    isplitl [Hs]; · iexact Hs
    isplitl [Hd]; · iexact Hd
    iexists _; iexact Hr
  icases Hin with ⟨⟨Hur, Hsr, Hdr⟩, Hstq⟩
  ihave Hst := (Entails.of_eq (show (K (F := F)).tcSt EH d ((0 : Fin 4).val + 1) = (K (F := F)).tcSt EH d (1 : Fin 4).val from rfl)) $$ Hst
  rw [wp_bind]
  iapply ((K (F := F)).wp_run (D (F := F)) 𝒱 (EH := EH) (P := P (svOf m)) κ d 1)
  isplitr; · iexact Hctx
  isplitl [Hst]; · iexact Hst
  isplitl [Hstq]; · iexact Hstq
  iintro ⟨Hst, Hdn⟩
  ihave Hout := (spmm1_call_out (svOf m) d) $$ [Hur Hsr Hdr Hdn]
  · isplitl [Hur Hsr Hdr]
    · isplitl [Hur]; · iexact Hur
      isplitl [Hsr]; · iexact Hsr
      iexact Hdr
    iexact Hdn
  icases Hout with ⟨Hu, Hs, Hd, Hr⟩
  ihave Hheld := (Entails.of_eq (held_spmm1_out m d)) $$ [Hu Hs Hd Hr Hheld]
  · isplitl [Hu]; · iexact Hu
    isplitl [Hs]; · iexact Hs
    isplitl [Hd]; · iexact Hd
    isplitl [Hr]; · iexact Hr
    iexact Hheld

  iapply (wp_seq 𝒱 none Set.univ d (Pipeline.ucRefs τ sig) _ [op13 (F := F)] (one_sub (by simp)) (one_fresh rfl) (W5 m d)) $$ [Hb Hheld]
  · isplitl [Hb]; · iexact Hb
    iexact Hheld
  iintro ⟨Hb, Hheld⟩
  ihave Hheld := (Entails.of_eq (show (held (d.tc : Thread nD τ) (Pipeline.ucRefs τ sig) (after [op13 (F := F)] (W5 m d)) : sProp 𝕄) = held (T d) (Pipeline.ucRefs τ sig) (W6 m d) from rfl)) $$ Hheld

  ihave Hub := (Entails.of_eq (unscoped_held' d (W6 m d)).symm) $$ Hheld
  rw [wp_bind]
  iapply (region1' (fun c b => W6 m c (rf b)) ((1 : Fin 4).val + 1) κ (lv := (K (F := F)).lev) (by sl_refines_lev) d (fun b => W7 m d (rf b))
    (R1_out m d) (fun b h0 => W7_of_ne m d h0) _)
  isplitr; · iexact Hctx
  isplitl [Hst]; · iexact Hst
  isplitl [Hb]; · iexact Hb
  isplitl [Hub]; · iexact Hub
  isplitl [Hg1]; · iexact Hg1
  iintro ⟨Hst, Hb, Hub⟩
  ihave Hheld := (Entails.of_eq (unscoped_held' d (W7 m d))) $$ Hub

  iapply (wp_seq 𝒱 none Set.univ d (Pipeline.ucRefs τ sig) _ [op15 (F := F)] (one_sub (by simp)) (one_fresh rfl) (W7 m d)) $$ [Hb Hheld]
  · isplitl [Hb]; · iexact Hb
    iexact Hheld
  iintro ⟨Hb, Hheld⟩
  ihave Hheld := (Entails.of_eq (show (held (d.tc : Thread nD τ) (Pipeline.ucRefs τ sig) (after [op15 (F := F)] (W7 m d)) : sProp 𝕄) = held (T d) (Pipeline.ucRefs τ sig) (W8 m d) from rfl)) $$ Hheld

  ihave H := (Entails.of_eq (held_spmm2_in m d)) $$ Hheld
  icases H with ⟨Hu, Hs, Hd, Hr, Hheld⟩
  ihave Hin := (spmm2_call_in (svOf m) d) $$ [Hu Hs Hd Hr]
  · isplitl [Hu]; · iexact Hu
    isplitl [Hs]; · iexact Hs
    isplitl [Hd]; · iexact Hd
    iexists _; iexact Hr
  icases Hin with ⟨⟨Hur, Hsr, Hdr⟩, Hstq⟩
  ihave Hst := (Entails.of_eq (show (K (F := F)).tcSt EH d ((1 : Fin 4).val + 1) = (K (F := F)).tcSt EH d (2 : Fin 4).val from rfl)) $$ Hst
  rw [wp_bind]
  iapply ((K (F := F)).wp_run (D (F := F)) 𝒱 (EH := EH) (P := P (svOf m)) κ d 2)
  isplitr; · iexact Hctx
  isplitl [Hst]; · iexact Hst
  isplitl [Hstq]; · iexact Hstq
  iintro ⟨Hst, Hdn⟩
  ihave Hout := (spmm2_call_out (svOf m) d) $$ [Hur Hsr Hdr Hdn]
  · isplitl [Hur Hsr Hdr]
    · isplitl [Hur]; · iexact Hur
      isplitl [Hsr]; · iexact Hsr
      iexact Hdr
    iexact Hdn
  icases Hout with ⟨Hu, Hs, Hd, Hr⟩
  ihave Hheld := (Entails.of_eq (held_spmm2_out m d)) $$ [Hu Hs Hd Hr Hheld]
  · isplitl [Hu]; · iexact Hu
    isplitl [Hs]; · iexact Hs
    isplitl [Hd]; · iexact Hd
    isplitl [Hr]; · iexact Hr
    iexact Hheld

  iapply (wp_seq 𝒱 none Set.univ d (Pipeline.ucRefs τ sig) _ [op17 (F := F)] (one_sub (by simp)) (one_fresh rfl) (W9 m d)) $$ [Hb Hheld]
  · isplitl [Hb]; · iexact Hb
    iexact Hheld
  iintro ⟨Hb, Hheld⟩
  ihave Hheld := (Entails.of_eq (show (held (d.tc : Thread nD τ) (Pipeline.ucRefs τ sig) (after [op17 (F := F)] (W9 m d)) : sProp 𝕄) = held (T d) (Pipeline.ucRefs τ sig) (W10 m d) from rfl)) $$ Hheld

  ihave Hub := (Entails.of_eq (unscoped_held' d (W10 m d)).symm) $$ Hheld
  rw [wp_bind]
  iapply (region2' (fun c b => W10 m c (rf b)) ((2 : Fin 4).val + 1) κ (lv := (K (F := F)).lev) (by sl_refines_lev) d (fun b => W11 m d (rf b))
    (R2_out m d) (fun b h0 => W11_of_ne m d h0) _)
  isplitr; · iexact Hctx
  isplitl [Hst]; · iexact Hst
  isplitl [Hb]; · iexact Hb
  isplitl [Hub]; · iexact Hub
  isplitl [Hg2]; · iexact Hg2
  iintro ⟨Hst, Hb, Hub⟩
  ihave Hheld := (Entails.of_eq (unscoped_held' d (W11 m d))) $$ Hub

  iapply (wp_seq 𝒱 none Set.univ d (Pipeline.ucRefs τ sig) _ [op19 (F := F)] (one_sub (by simp)) (one_fresh rfl) (W11 m d)) $$ [Hb Hheld]
  · isplitl [Hb]; · iexact Hb
    iexact Hheld
  iintro ⟨Hb, Hheld⟩
  ihave Hheld := (Entails.of_eq (show (held (d.tc : Thread nD τ) (Pipeline.ucRefs τ sig) (after [op19 (F := F)] (W11 m d)) : sProp 𝕄) = held (T d) (Pipeline.ucRefs τ sig) (W12 m d) from rfl)) $$ Hheld

  ihave H := (Entails.of_eq (held_spmm3_in m d)) $$ Hheld
  icases H with ⟨Hu, Hs, Hd, Hr, Hheld⟩
  ihave Hin := (spmm3_call_in (svOf m) d) $$ [Hu Hs Hd Hr]
  · isplitl [Hu]; · iexact Hu
    isplitl [Hs]; · iexact Hs
    isplitl [Hd]; · iexact Hd
    iexists _; iexact Hr
  icases Hin with ⟨⟨Hur, Hsr, Hdr⟩, Hstq⟩
  ihave Hst := (Entails.of_eq (show (K (F := F)).tcSt EH d ((2 : Fin 4).val + 1) = (K (F := F)).tcSt EH d (3 : Fin 4).val from rfl)) $$ Hst
  rw [wp_bind]
  iapply ((K (F := F)).wp_run (D (F := F)) 𝒱 (EH := EH) (P := P (svOf m)) κ d 3)
  isplitr; · iexact Hctx
  isplitl [Hst]; · iexact Hst
  isplitl [Hstq]; · iexact Hstq
  iintro ⟨Hst, Hdn⟩
  ihave Hout := (spmm3_call_out (svOf m) d) $$ [Hur Hsr Hdr Hdn]
  · isplitl [Hur Hsr Hdr]
    · isplitl [Hur]; · iexact Hur
      isplitl [Hsr]; · iexact Hsr
      iexact Hdr
    iexact Hdn
  icases Hout with ⟨Hu, Hs, Hd, Hr⟩
  ihave Hheld := (Entails.of_eq (held_spmm3_out m d)) $$ [Hu Hs Hd Hr Hheld]
  · isplitl [Hu]; · iexact Hu
    isplitl [Hs]; · iexact Hs
    isplitl [Hd]; · iexact Hd
    isplitl [Hr]; · iexact Hr
    iexact Hheld

  iapply (wp_seq 𝒱 none Set.univ d (Pipeline.ucRefs τ sig) _ [op21 (F := F)] (one_sub (by simp)) (one_fresh rfl) (W13 m d)) $$ [Hb Hheld]
  · isplitl [Hb]; · iexact Hb
    iexact Hheld
  iintro ⟨Hb, Hheld⟩
  ihave Hheld := (Entails.of_eq (show (held (d.tc : Thread nD τ) (Pipeline.ucRefs τ sig) (after [op21 (F := F)] (W13 m d)) : sProp 𝕄) = held (T d) (Pipeline.ucRefs τ sig) (W14 m d) from rfl)) $$ Hheld

  ihave Hub := (Entails.of_eq (unscoped_held' d (W14 m d)).symm) $$ Hheld
  rw [wp_bind]
  iapply (region3' (fun c b => W14 m c (rf b)) ((3 : Fin 4).val + 1) κ (lv := (K (F := F)).lev) (by sl_refines_lev) d (fun b => W15 m d (rf b))
    (R3_out m d) (fun b h0 => W15_of_ne m d h0) _)
  isplitr; · iexact Hctx
  isplitl [Hst]; · iexact Hst
  isplitl [Hb]; · iexact Hb
  isplitl [Hub]; · iexact Hub
  isplitl [Hg3]; · iexact Hg3
  iintro ⟨Hst, Hb, Hub⟩
  ihave Hheld := (Entails.of_eq (unscoped_held' d (W15 m d))) $$ Hub

  ihave Hst := (Entails.of_eq (show (K (F := F)).tcSt EH d ((3 : Fin 4).val + 1) = (K (F := F)).tcSt EH d 4 from rfl)) $$ Hst
  first | rw [wp_pure] | rw [wp_ret]
  imodintro
  isplitl [Hst]; · iexact Hst
  unfold FIN; iexact Hheld

end Main

end Cert.KernelIdeal.Setup

end
-- ==== Proof.Launch.lean ====
import proofs.«213134_g57071525429591_cont_9to1_m_136_24_alg».proof.Proof.Main

noncomputable section

namespace Cert.KernelIdeal.Setup

open Cert.KernelIdeal Cert.KernelIdeal.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
local notation "𝕄" => MT nD τ sig (HIx 4) (Elt F) ℕ UU ℕ

theorem held_agree (c : Thread nD τ) (W : Valuation τ sig (Elt F)) (st : Phys nD τ sig (Elt F)) :
    ∀ S : Finset (DevRef τ sig), iprop(held c S W ∗ SI st) ⊢ (⌜∀ b ∈ S, st.mem.mem (c.1, b) = W b⌝ : sProp 𝕄) := by
  intro S
  induction S using Finset.induction_on with
  | empty => iintro _; ipureintro; intro b hb; exact absurd hb (Finset.notMem_empty b)
  | insert b S hb ih =>
    unfold held at ih ⊢
    rw [SparseCore.bigSep_insert' hb]
    iintro ⟨⟨Hb, HS⟩, HSI⟩
    icombine HSI Hb gives %h1
    ihave %h2 := ih $$ [HS HSI]
    · isplitl [HS]; · iexact HS
      iexact HSI
    ipureintro
    intro b' hb'
    rcases Finset.mem_insert.mp hb' with rfl | hb'
    · exact funext fun i => h1 i (Finset.mem_univ i)
    · exact h2 b' hb'

def fq (d : Dev nD) (s' : Phys nD τ sig (Elt F)) : Prop := ∀ b ∈ Pipeline.ucRefs τ sig, s'.mem.mem (d, b) = W15 m d b

theorem hfin (d : Dev nD) (s' : Phys nD τ sig (Elt F)) : iprop(FIN m d ∗ SI s') ⊢ (⌜fq m d s'⌝ : sProp 𝕄) :=
  held_agree (T d) (W15 m d) s' _

theorem W15_arg (d : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10) :
    W15 m d (rf b) = m (d, rf b) := by
  rcases hb with rfl | rfl | rfl | rfl | rfl | rfl | rfl | rfl | rfl | rfl | rfl <;>
  · simp (disch := decide) only [W15, W14, W13, W12, W11, W10, W9, W8, W7, W6, W5, W4, W3, W2, W1, V0, ops0, after_cons, after_nil,
      Function.update_of_ne (ne_rf _), reshape_result_ne', unary_result_ne']

theorem W15_res (d : Dev nD) : W15 m d (rf main_v22) = outA m d := Function.update_self _ _ _

def QC : PUnit × MemSt nD τ sig (Elt F) → Prop := fun r => ∀ c : Dev nD,
  r.2.mem (tcLoc c main_v22) = outA m c
  ∧ r.2.mem (tcLoc c main_arg0) = m (tcLoc c main_arg0) ∧ r.2.mem (tcLoc c main_arg1) = m (tcLoc c main_arg1)
  ∧ r.2.mem (tcLoc c main_arg2) = m (tcLoc c main_arg2) ∧ r.2.mem (tcLoc c main_arg3) = m (tcLoc c main_arg3)
  ∧ r.2.mem (tcLoc c main_arg4) = m (tcLoc c main_arg4) ∧ r.2.mem (tcLoc c main_arg5) = m (tcLoc c main_arg5)
  ∧ r.2.mem (tcLoc c main_arg6) = m (tcLoc c main_arg6) ∧ r.2.mem (tcLoc c main_arg7) = m (tcLoc c main_arg7)
  ∧ r.2.mem (tcLoc c main_arg8) = m (tcLoc c main_arg8) ∧ r.2.mem (tcLoc c main_arg9) = m (tcLoc c main_arg9)
  ∧ r.2.mem (tcLoc c main_arg10) = m (tcLoc c main_arg10)

theorem hQ (s' : Phys nD τ sig (Elt F)) (h : ∀ d, fq m d s') : QC m (⟨⟩, s'.mem) := by
  intro c
  have key : ∀ b : Ref sig .tc, (rf b : DevRef τ sig).isScoped = false → s'.mem.mem (tcLoc c b) = W15 m c (rf b) :=
    fun b hb => h c (rf b) (rf_mem b hb)
  refine ⟨(key main_v22 (by decide)).trans (W15_res m c), ?_, ?_, ?_, ?_, ?_, ?_, ?_, ?_, ?_, ?_, ?_⟩
  · exact (key main_arg0 (by decide)).trans (W15_arg m c main_arg0 (by simp))
  · exact (key main_arg1 (by decide)).trans (W15_arg m c main_arg1 (by simp))
  · exact (key main_arg2 (by decide)).trans (W15_arg m c main_arg2 (by simp))
  · exact (key main_arg3 (by decide)).trans (W15_arg m c main_arg3 (by simp))
  · exact (key main_arg4 (by decide)).trans (W15_arg m c main_arg4 (by simp))
  · exact (key main_arg5 (by decide)).trans (W15_arg m c main_arg5 (by simp))
  · exact (key main_arg6 (by decide)).trans (W15_arg m c main_arg6 (by simp))
  · exact (key main_arg7 (by decide)).trans (W15_arg m c main_arg7 (by simp))
  · exact (key main_arg8 (by decide)).trans (W15_arg m c main_arg8 (by simp))
  · exact (key main_arg9 (by decide)).trans (W15_arg m c main_arg9 (by simp))
  · exact (key main_arg10 (by decide)).trans (W15_arg m c main_arg10 (by simp))

theorem run_of [∀ e, Nonempty (Elt F e)]
    (hmain : ∀ (κ : GSem nD τ sig → ℕ) (d : Dev nD),
      iprop((K (F := F)).ctx EH (P (svOf m)) κ ∗ (K (F := F)).tcSt EH d 0 ∗ (K (F := F)).tcRes m ρ d ∗ G (F := F) d)
        ⊢ wp frame (wpE ((K (F := F)).defs (D (F := F))) 𝒱 (SparseCore.T d) none) Set.univ (main d) fun _ => iprop((K (F := F)).tcSt EH d 4 ∗ FIN m d))
    (htile : ∀ q, (K (F := F)).TileObl (D (F := F)) 𝒱 (P (svOf m)) v₀ q) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (svOf m)) facts v₀
    (fun q hq => by fin_cases q <;> exact absurd (show Kind.scVector = Kind.scScalar from hq) (fun h => Kind.noConfusion h))
    (fun q _ => htile q)
    (fun q _ => SparseCore.Cfg.VecSplit.of_plain (vecSplit (svOf m) q))
    m ρ main (fun d => G (F := F) d) (FIN m) (u₀ (F := F)) (sep_elim_left.trans (hu₀ (svOf m))) hmain (fq m) (hfin m) (QC m) (hQ m)

end Cert.KernelIdeal.Setup

end
-- ==== Proof.PreDecode.lean ====
import proofs.«213134_g57071525429591_cont_9to1_m_136_24_alg».proof.Pre_input_domain
import Idealize.ShloMosaic.Lib.ReduceAll
import Idealize.ShloMosaic.Lib.StableHlo.Predicate
import Idealize.ShloMosaic.Lib.IdealHost
import Idealize.ShloMosaic.Lib.ValueIdx
import Idealize.ShloMosaic.PureOps.Ideal.Laws

namespace Cert.PreDecode

open Idealize.ShloMosaic Idealize.ShloMosaic.ValueIdx Cert.Pre_input_domain

instance : Subsingleton S_.Idx := ⟨fun _ _ => funext fun d => d.elim0⟩

theorem word_range {w hi : BitVec 32} (hhi : hi.toNat < 2 ^ 31) (h0 : IntOp.cmpi .sge w 0#32 = 1#1)
    (h1 : IntOp.cmpi .sle w hi = 1#1) : w.toNat ≤ hi.toNat := by
  have hw : w.toNat < 2 ^ 31 := by
    unfold IntOp.cmpi at h0
    simp only [StableHlo.Predicate.ofBool_eq_one_iff, BitVec.sle, decide_eq_true_eq] at h0
    have hz : (0#32 : BitVec 32).toInt = 0 := by decide
    rw [hz, BitVec.toInt_eq_toNat_cond w] at h0
    have := w.isLt
    split at h0 <;> omega
  exact (StableHlo.Predicate.sle_iff_toNat hw hhi).1 h1

theorem all_range {s : Shape} {axes : List (Fin s.rank)} (a : IVec s 32) (hi : BitVec 32) (hhi : hi.toNat < 2 ^ 31)
    (hb : S_.BroadcastsInDim s (![] : Fin 0 → Fin s.rank)) (hr : s.ReducesTo axes S_) (h0 : 0 < S_.numel)
    (e : Host.reduce IntOp.andi
        (andi (cmpi .sge a (broadcastInDim s ![] hb (constantI S_ 32 0#32)))
          (cmpi .sle a (broadcastInDim s ![] hb (constantI S_ 32 hi))))
        (constantI S_ 1 1#1) hr h0 ix0 = 1#1) (i : s.Idx) : (a i).toNat ≤ hi.toNat := by
  have := Host.reduce_andi_all _ _ hr h0 ix0 e i
  obtain ⟨h1, h2⟩ := IntOp.andi_eq_one.1 this
  exact word_range hhi h1 h2

theorem all_abs_lt {F : FTy → Type} [FloatOps F] {s : Shape} {axes : List (Fin s.rank)} (a : FVec F s .f32)
    (hb : S_.BroadcastsInDim s (![] : Fin 0 → Fin s.rank)) (hr : s.ReducesTo axes S_) (h0 : 0 < S_.numel)
    (e : Host.reduce IntOp.andi
        (cmpf .olt (Host.absf a) (broadcastInDim s ![] hb (constant S_ .f32 0x7F800000#32)))
        (constantI S_ 1 1#1) hr h0 ix0 = 1#1) (i : s.Idx) :
    FloatOps.cmpf .olt (FloatOps.hostAbsf (a i)) (FloatOps.ofBits (F := F) .f32 0x7F800000#32) = 1#1 :=
  Host.reduce_andi_all _ _ hr h0 ix0 e i

theorem ofBits_inf_f32 : Ideal.ofBits .f32 0x7F800000#32 = ⊤ := by
  simp [Ideal.ofBits, Ideal.ieee]

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  simp only [StableHlo.Predicate.ofBool_eq_one_iff, decide_eq_true_eq] at h'
  induction x with
  | bot => simp at h'
  | top => simp at h'
  | coe r => exact ⟨r, rfl⟩

section
variable [Facts]
open Facts

variable {F : FTy → Type} [FloatOps F]
  (a0 : FVec F S10000x128 .f32) (a1 : IVec S2x320000 32) (a2 : IVec S10000 32) (a3 : FVec F S128x128 .f32)
  (a4 : FVec F S128 .f32) (a5 : FVec F S128x128 .f32) (a6 : FVec F S128 .f32) (a7 : FVec F S128x128 .f32)
  (a8 : FVec F S128 .f32) (a9 : FVec F S128x16 .f32) (a10 : FVec F S16 .f32)

def AbsLt {F : FTy → Type} [FloatOps F] (x : F .f32) : Prop :=
  FloatOps.cmpf .olt (FloatOps.hostAbsf x) (FloatOps.ofBits (F := F) .f32 0x7F800000#32) = 1#1

theorem decode (h : fn (F := F) a0 a1 a2 a3 a4 a5 a6 a7 a8 a9 a10 = fun _ => 1#1) :
    (∀ i, (a1 i).toNat < 10000) ∧ (∀ i, (a2 i).toNat < 64)
      ∧ (∀ i, AbsLt (a0 i)) ∧ (∀ i, AbsLt (a3 i)) ∧ (∀ i, AbsLt (a4 i)) ∧ (∀ i, AbsLt (a5 i)) ∧ (∀ i, AbsLt (a6 i))
      ∧ (∀ i, AbsLt (a7 i)) ∧ (∀ i, AbsLt (a8 i)) ∧ (∀ i, AbsLt (a9 i)) ∧ (∀ i, AbsLt (a10 i)) := by
  have h0 := congrFun h ix0
  obtain ⟨h50, c2⟩ := IntOp.andi_eq_one.1 h0
  obtain ⟨h43, c1⟩ := IntOp.andi_eq_one.1 h50
  obtain ⟨h38, c10⟩ := IntOp.andi_eq_one.1 h43
  obtain ⟨h33, c9⟩ := IntOp.andi_eq_one.1 h38
  obtain ⟨h28, c8⟩ := IntOp.andi_eq_one.1 h33
  obtain ⟨h23, c7⟩ := IntOp.andi_eq_one.1 h28
  obtain ⟨h18, c6⟩ := IntOp.andi_eq_one.1 h23
  obtain ⟨h13, c5⟩ := IntOp.andi_eq_one.1 h18
  obtain ⟨h8, c4⟩ := IntOp.andi_eq_one.1 h13
  obtain ⟨c0, c3⟩ := IntOp.andi_eq_one.1 h8
  refine ⟨fun i => ?_, fun i => ?_, fun i => ?_, fun i => ?_, fun i => ?_, fun i => ?_, fun i => ?_, fun i => ?_,
    fun i => ?_, fun i => ?_, fun i => ?_⟩
  · exact Nat.lt_of_le_of_lt (all_range a1 9999#32 (by decide) bcast_S_S2x320000 reducesTo_S2x320000_S_d0_1 h_S_ c1 i)
      (by decide)
  · exact Nat.lt_of_le_of_lt (all_range a2 63#32 (by decide) bcast_S_S10000 reducesTo_S10000_S_d0 h_S_ c2 i) (by decide)
  · exact all_abs_lt a0 bcast_S_S10000x128 reducesTo_S10000x128_S_d0_1 h_S_ c0 i
  · exact all_abs_lt a3 bcast_S_S128x128 reducesTo_S128x128_S_d0_1 h_S_ c3 i
  · exact all_abs_lt a4 bcast_S_S128 reducesTo_S128_S_d0 h_S_ c4 i
  · exact all_abs_lt a5 bcast_S_S128x128 reducesTo_S128x128_S_d0_1 h_S_ c5 i
  · exact all_abs_lt a6 bcast_S_S128 reducesTo_S128_S_d0 h_S_ c6 i
  · exact all_abs_lt a7 bcast_S_S128x128 reducesTo_S128x128_S_d0_1 h_S_ c7 i
  · exact all_abs_lt a8 bcast_S_S128 reducesTo_S128_S_d0 h_S_ c8 i
  · exact all_abs_lt a9 bcast_S_S128x16 reducesTo_S128x16_S_d0_1 h_S_ c9 i
  · exact all_abs_lt a10 bcast_S_S16 reducesTo_S16_S_d0 h_S_ c10 i

end

theorem real_of_absLt (x : EReal) (h : AbsLt (F := Ideal) x) : ∃ r : ℝ, x = (r : EReal) := real_of_abs_lt x h

end Cert.PreDecode
-- ==== Proof.EdgeWords.lean ====
import proofs.«213134_g57071525429591_cont_9to1_m_136_24_alg».proof.Proof.Stages
import proofs.«213134_g57071525429591_cont_9to1_m_136_24_alg».proof.Proof.PreDecode
import Idealize.ShloMosaic.Lib.ValueLayout

noncomputable section

namespace Cert.KernelIdeal.Setup

open Cert.KernelIdeal Cert.KernelIdeal.Gen
open Idealize.ShloMosaic Idealize.ShloMosaic.StableHlo Idealize.ShloMosaic.ValueIdx
open Idealize.SL.Sem

theorem row_of_table {α : Type} {n : ℕ} (r : Fin 2) (t : (⟨2, ![2, n]⟩ : Shape).Idx → α)
    (hs : (⟨2, ![2, n]⟩ : Shape).Slices ![r.val, 0] ⟨2, ![1, n]⟩) (hc : (⟨2, ![1, n]⟩ : Shape).ShapeCasts ⟨1, ![n]⟩) (e : Fin n) :
    shapeCast ⟨1, ![n]⟩ (extractStridedSlice ⟨2, ![1, n]⟩ ![r.val, 0] t hs) hc (ix1 e) = t (ix2 r e) := by
  rw [shapeCast_1a_a_apply]
  refine extractStridedSlice_apply _ t hs _ (ix2 r e) fun a => ?_
  match a with
  | ⟨0, _⟩ => show r.val = r.val + 0; rfl
  | ⟨1, _⟩ => show e.val = 0 + e.val; rw [Nat.zero_add]

variable {F : FTy → Type} [FloatOps F]
variable (m : (ℓ : Loc nD τ sig) → Buf (Elt F) ℓ) (d : Dev nD)

theorem W1_v1 : W1 m d (rf main_v1)
    = shapeCast S320000 (extractStridedSlice S1x320000 ![0, 0] (m (tcLoc d main_arg1)) slices_S2x320000_S1x320000_0_0) shapeCasts_S1x320000_S320000 := by
  show StableHlo.after (ops0 (F := F)) (V0 m d) (Proc.devRef .tc main_v1) = _
  after_results
  rfl

theorem W1_v3 : W1 m d (rf main_v3)
    = shapeCast S320000 (extractStridedSlice S1x320000 ![1, 0] (m (tcLoc d main_arg1)) slices_S2x320000_S1x320000_1_0) shapeCasts_S1x320000_S320000 := by
  show StableHlo.after (ops0 (F := F)) (V0 m d) (Proc.devRef .tc main_v3) = _
  after_results
  rfl

theorem srcA_ix1 (e : Fin 320000) : srcA m d (ix1 e) = m (tcLoc d main_arg1) (ix2 (0 : Fin 2) e) := by
  show W1 m d (rf main_v1) (ix1 e) = _
  rw [W1_v1]
  exact row_of_table (0 : Fin 2) (m (tcLoc d main_arg1)) _ _ e

theorem dstA_ix1 (e : Fin 320000) : dstA m d (ix1 e) = m (tcLoc d main_arg1) (ix2 (1 : Fin 2) e) := by
  show W1 m d (rf main_v3) (ix1 e) = _
  rw [W1_v3]
  exact row_of_table (1 : Fin 2) (m (tcLoc d main_arg1)) _ _ e

theorem srcA_apply (x : S320000.Idx) : srcA m d x = m (tcLoc d main_arg1) (ix2 (0 : Fin 2) (x 0)) := by
  obtain ⟨e, rfl⟩ : ∃ e : Fin 320000, x = ix1 e := ⟨x 0, eq_ix1 (n := 320000) x⟩
  exact srcA_ix1 m d e

theorem dstA_apply (x : S320000.Idx) : dstA m d x = m (tcLoc d main_arg1) (ix2 (1 : Fin 2) (x 0)) := by
  obtain ⟨e, rfl⟩ : ∃ e : Fin 320000, x = ix1 e := ⟨x 0, eq_ix1 (n := 320000) x⟩
  exact dstA_ix1 m d e

theorem src_lt (h : ∀ j, (m (tcLoc d main_arg1) j).toNat < 10000) (x : S320000.Idx) : (srcA m d x).toNat < 10000 := by
  rw [srcA_apply]; exact h _

theorem dst_lt (h : ∀ j, (m (tcLoc d main_arg1) j).toNat < 10000) (x : S320000.Idx) : (dstA m d x).toNat < 10000 := by
  rw [dstA_apply]; exact h _

end Cert.KernelIdeal.Setup
-- ==== Proof.DegTile.lean ====
import proofs.«213134_g57071525429591_cont_9to1_m_136_24_alg».proof.Proof.Setup
import proofs.«213134_g57071525429591_cont_9to1_m_136_24_alg».proof.Proof.Pay
import proofs.«213134_g57071525429591_cont_9to1_m_136_24_alg».proof.Proof.DegVal
import Idealize.ShloMosaic.Lib.Writes
import Idealize.ShloMosaic.Lib.WritesUnit

noncomputable section

namespace Cert.KernelIdeal.DegTile

open Cert.KernelIdeal Cert.KernelIdeal.Gen Cert.KernelIdeal.Setup
open Cert.DegVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev dstV : Memref sig .scVector .hbm S320000 .i32 := Memref.whole main_v3_scv
abbrev degV : Memref sig .scVector .hbm S32x10000 .f32 := Memref.whole main_v9_scv
abbrev accE : Memref sig .scVector .vmem S10000 .f32 := Memref.whole cc0_scratch0
abbrev accO : Memref sig .scVector .vmem S10000 .f32 := Memref.whole cc0_scratch1
abbrev dvS : Memref sig .scVector .vmem S2000 .i32 := Memref.whole cc0_scratch2

abbrev dstLoc (d : Dev nD) : Loc nD τ sig := (SparseCore.T d).loc main_v3
abbrev degLoc (d : Dev nD) : Loc nD τ sig := (SparseCore.T d).loc main_v9

abbrev cV (L : grid0.Coords) : Fin τ.nSC := (L 0).castLE hcore0
abbrev jV (L : grid0.Coords) : Fin τ.nSub := (L 1).castLE hsub0

def wL (L : grid0.Coords) : Fin 32 := ⟨2 * (L 1).val + (L 0).val, by
  have h0 : (L 0).val < 2 := (L 0).isLt
  have h1 : (L 1).val < 16 := (L 1).isLt
  omega⟩

theorem hdivDeg : 32 ∣ S32x10000.size 0 := ⟨1, rfl⟩

abbrev degRowSet (w : Fin 32) : Finset S32x10000.Idx := (Rect.part (s := S32x10000) (a₀ := 0) hdivDeg w).set

abbrev dstPts (d : Dev nD) (q : PosShare TreeShare) (fd : Vec F S320000 .i32) : sProp 𝕄 := dstLoc d ↦{q} fd
abbrev degPts (d : Dev nD) (w : Fin 32) (f : Vec F S32x10000 .f32) : sProp 𝕄 := degLoc d ↦[degRowSet w]{fullShare} f

variable [FloatOps F]

section Tile

variable (d : Dev nD) (L : grid0.Coords)

abbrev c0cell : GSem nD τ sig := (V d (cV L) (jV L), .dma cc0_scoped0.sem)
abbrev c1cell : GSem nD τ sig := (V d (cV L) (jV L), .dma cc0_scoped1.sem)
abbrev eLoc : Loc nD τ sig := (V d (cV L) (jV L)).loc cc0_scratch0
abbrev oLoc : Loc nD τ sig := (V d (cV L) (jV L)).loc cc0_scratch1
abbrev vLoc : Loc nD τ sig := (V d (cV L) (jV L)).loc cc0_scratch2

omit [FloatOps F] in
theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, eLoc d L ↦{fullShare} f) ∗ (∃ f, oLoc d L ↦{fullShare} f) ∗ (∃ f, vLoc d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

theorem zstep {κ : Kind} {sp : Space} (v : View sig κ sp S10000 .f32) (f : v.ty.Contents (Elt F)) (k : Fin k0_t1_loop.trips)
    (inb : ∀ a, (k0_off1 k) a + S16.size a ≤ S10000.size a) (j : S10000.Idx)
    (hz : (j 0).val < 16 * k.val → v.read (Elt F) f j = zeroRow j) (hj : (j 0).val < 16 * (k.val + 1)) :
    v.read (Elt F) (v.writes (Elt F) f [(⟨Rect.unit (k0_off1 k) S16.size inb, k0_pay1 (F := F)⟩ : View.Piece (Elt F) S10000 .f32)]) j = zeroRow j := by
  rw [View.read_writes_cons_unit v f inb (k0_pay1 (F := F)) [] j (k0_off1_eq k)]
  split
  · rfl
  · rename_i h
    rw [View.writes_nil]
    apply hz
    by_contra hc
    apply h
    intro a
    obtain rfl : a = 0 := Subsingleton.elim _ _
    constructor
    · show 16 * k.val ≤ (j 0).val
      omega
    · show (j 0).val < 16 * k.val + 16
      omega

def inv1 (k : Nat) (_ : PUnit) : sProp 𝕄 :=
  iprop(∃ (fe fo : Vec F S10000 .f32), ((accE : Memref sig .scVector .vmem S10000 .f32).view.loc (V d (cV L) (jV L)) ↦{fullShare} fe)
    ∗ ((accO : Memref sig .scVector .vmem S10000 .f32).view.loc (V d (cV L) (jV L)) ↦{fullShare} fo)
    ∗ ⌜∀ j : S10000.Idx, (j 0).val < 16 * k → fe j = zeroRow j ∧ fo j = zeroRow j⌝)

def DvHolds (fd : Vec F S320000 .i32) (w : Fin 32) (jc : Nat) (fv : Vec F S2000 .i32) : Prop :=
  ∀ x : S2000.Idx, fv x = wordAt (dstPart fd w) (2000 * jc + (x 0).val)

omit [FloatOps F] in

theorem load_dv {fd : Vec F S320000 .i32} {w : Fin 32} {jc : Nat} {fv : Vec F S2000 .i32} (h : DvHolds fd w jc fv)
    (off : Fin 1 → Nat) (n : Nat) (heq : off = ![n]) (inb : ∀ a, off a + S16.size a ≤ S2000.size a) :
    (dvS : Memref sig .scVector .vmem S2000 .i32).view.readAt (Elt F) (Rect.unit (s := S2000) off S16.size inb).toLoadRect fv
      = vec16 (dstPart fd w) (2000 * jc + n) := by
  subst heq
  funext x
  rw [View.readAt_apply]
  show fv ((Rect.unit (s := S2000) ![n] S16.size inb).toLoadRect.idx x) = _
  rw [h]
  unfold vec16
  congr 1
  rw [LoadRect.idx_apply]
  show 2000 * jc + (n + 1 * (x 0).val) = 2000 * jc + n + (x 0).val
  omega

omit [FloatOps F] in

theorem inRange_vec16 {fd : Vec F S320000 .i32} (hpre : ∀ x, (fd x).toNat < 10000) (w : Fin 32) (base : Nat) :
    InRange (vec16 (dstPart fd w) base) := by
  intro a x
  obtain rfl : a = 0 := Subsingleton.elim _ _
  show (wordAt (dstPart fd w) (base + (x 0).val)).toNat < 10000
  unfold wordAt
  split
  · exact hpre _
  · show (0 : BitVec 32).toNat < 10000
    decide

omit [FloatOps F] in
theorem trips2 : Scf.trips k0_t2_loop.lb k0_t2_loop.ub k0_t2_loop.st = 5 := by decide
omit [FloatOps F] in
theorem trips3 : Scf.trips k0_t3_loop.lb k0_t3_loop.ub k0_t3_loop.st = 62 := by decide

omit [FloatOps F] in

theorem dma_holds (fd : Vec F S320000 .i32) (L : grid0.Coords) (jc : Fin k0_t2_loop.trips)
    (inb : ∀ a, (k0_off2 L jc) a + S2000.size a ≤ S320000.size a) (hr : ∀ a, (Rect.unit (s := S320000) (k0_off2 L jc) S2000.size inb).stride a = 1)
    (fv : Vec F S2000 .i32) :
    DvHolds fd (wL L) jc.val
      (View.write (Elt F) (dvS : Memref sig .scVector .vmem S2000 .i32).view fv
        (View.read (Elt F) ((dstV : Memref sig .scVector .hbm S320000 .i32).slice (Rect.unit (s := S320000) (k0_off2 L jc) S2000.size inb) hr).view fd) Finset.univ) := by
  intro x
  have hjc : jc.val < 5 := lt_of_lt_of_eq jc.isLt trips2
  have hx : (x 0).val < 2000 := (x 0).isLt
  refine (congrFun (View.write_whole_univ (Val := Elt F) (cc0_scratch2 : Ref sig .scVector) fv _) x).trans ?_
  rw [View.read_apply]
  show fd (((dstV : Memref sig .scVector .hbm S320000 .i32).slice (Rect.unit (s := S320000) (k0_off2 L jc) S2000.size inb) hr).view.emb x) = _
  unfold wordAt
  rw [dif_pos (by omega)]
  unfold dstPart
  refine congrArg fd (funext fun (a : Fin 1) => Fin.ext ?_)
  obtain rfl : a = 0 := Subsingleton.elim _ _
  show (k0_off2 L jc) 0 + 1 * (x 0).val = (wL L).val * 10000 + (2000 * jc.val + (x 0).val)
  rw [k0_off2_eq]
  show 20000 * (L 1).val + 10000 * (L 0).val + 2000 * jc.val + 1 * (x 0).val = (2 * (L 1).val + (L 0).val) * 10000 + (2000 * jc.val + (x 0).val)
  omega

theorem scat_of_store (f : Vec F S10000 .f32) (v : IVec S16 32) (h : ∀ a x, ((![v] : Fin 1 → IVec S16 32) a x).toNat < S10000.size a)
    (part : IVec ShN 32) (base : Nat) (hv : v = vec16 part base) :
    storeIdx f ![v] (k0_pay2 (F := F)) (fun _ => 1#1) true h = scat f (vec16 part base) := by
  subst hv
  exact (scat_eq f _ h).symm

theorem storeE (f : Vec F S10000 .f32) (v : IVec S16 32) (h : ∀ a x, ((![v] : Fin 1 → IVec S16 32) a x).toNat < S10000.size a) :
    ((accE : Memref sig .scVector .vmem S10000 .f32).access (.whole S10000)).write (Elt F) f
        (storeIdx (((accE : Memref sig .scVector .vmem S10000 .f32).access (.whole S10000)).read (Elt F) f) ![v] (k0_pay2 (F := F)) (fun _ => 1#1) true h) Finset.univ
      = storeIdx f ![v] (k0_pay2 (F := F)) (fun _ => 1#1) true h :=
  (Memref.write_access_whole_univ (Elt F) (cc0_scratch0 : Ref sig .scVector) f _).trans
    (congrArg (fun g => storeIdx g ![v] (k0_pay2 (F := F)) (fun _ => 1#1) true h) (Memref.read_access_whole (Elt F) (cc0_scratch0 : Ref sig .scVector) f))
theorem storeO (f : Vec F S10000 .f32) (v : IVec S16 32) (h : ∀ a x, ((![v] : Fin 1 → IVec S16 32) a x).toNat < S10000.size a) :
    ((accO : Memref sig .scVector .vmem S10000 .f32).access (.whole S10000)).write (Elt F) f
        (storeIdx (((accO : Memref sig .scVector .vmem S10000 .f32).access (.whole S10000)).read (Elt F) f) ![v] (k0_pay2 (F := F)) (fun _ => 1#1) true h) Finset.univ
      = storeIdx f ![v] (k0_pay2 (F := F)) (fun _ => 1#1) true h :=
  (Memref.write_access_whole_univ (Elt F) (cc0_scratch1 : Ref sig .scVector) f _).trans
    (congrArg (fun g => storeIdx g ![v] (k0_pay2 (F := F)) (fun _ => 1#1) true h) (Memref.read_access_whole (Elt F) (cc0_scratch1 : Ref sig .scVector) f))

section Pts
variable (d : Dev nD) (L : grid0.Coords)
omit [FloatOps F] in
theorem ptsE_whole (f : Vec F S10000 .f32) :
    (((accE : Memref sig .scVector .vmem S10000 .f32).access (.whole S10000)).loc (V d (cV L) (jV L))
        ↦[((accE : Memref sig .scVector .vmem S10000 .f32).access (.whole S10000)).set]{fullShare} f : sProp 𝕄)
      = (accE : Memref sig .scVector .vmem S10000 .f32).view.loc (V d (cV L) (jV L)) ↦{fullShare} f := by
  rw [show ((accE : Memref sig .scVector .vmem S10000 .f32).access (.whole S10000)).set = Finset.univ from Memref.set_access_whole (cc0_scratch0 : Ref sig .scVector)]
omit [FloatOps F] in
theorem ptsO_whole (f : Vec F S10000 .f32) :
    (((accO : Memref sig .scVector .vmem S10000 .f32).access (.whole S10000)).loc (V d (cV L) (jV L))
        ↦[((accO : Memref sig .scVector .vmem S10000 .f32).access (.whole S10000)).set]{fullShare} f : sProp 𝕄)
      = (accO : Memref sig .scVector .vmem S10000 .f32).view.loc (V d (cV L) (jV L)) ↦{fullShare} f := by
  rw [show ((accO : Memref sig .scVector .vmem S10000 .f32).access (.whole S10000)).set = Finset.univ from Memref.set_access_whole (cc0_scratch1 : Ref sig .scVector)]
end Pts

def inv2 (q : PosShare TreeShare) (fd : Vec F S320000 .i32) (O : CellTallies nD τ sig (HIx 4)) (W : Waits sig (HIx 4)) (jc : Nat) (_ : PUnit) : sProp 𝕄 :=
  iprop(Transfers.MayWaits (V d (cV L) (jV L)) (none : HIx 4) O
    ∗ ((dstV : Memref sig .scVector .hbm S320000 .i32).view.loc (V d (cV L) (jV L)) ↦{q} fd)
    ∗ (∃ fv : Vec F S2000 .i32, (dvS : Memref sig .scVector .vmem S2000 .i32).view.loc (V d (cV L) (jV L)) ↦{fullShare} fv)
    ∗ semVal (c0cell d L) 0
    ∗ ((accE : Memref sig .scVector .vmem S10000 .f32).view.loc (V d (cV L) (jV L)) ↦{fullShare} (chunksN (F := F) (dstPart fd (wL L)) jc).1)
    ∗ ((accO : Memref sig .scVector .vmem S10000 .f32).view.loc (V d (cV L) (jV L)) ↦{fullShare} (chunksN (F := F) (dstPart fd (wL L)) jc).2)
    ∗ ∃ W', ⌜∀ p ∈ W', p ∈ W ∨ p.2 = none⌝ ∗ owes (V d (cV L) (jV L)) O W')

def inv3 (fd : Vec F S320000 .i32) (fv : Vec F S2000 .i32) (jc : Nat) (st : Acc F) (t : Nat) (_ : PUnit) : sProp 𝕄 :=
  iprop(((dvS : Memref sig .scVector .vmem S2000 .i32).view.loc (V d (cV L) (jV L)) ↦{fullShare} fv)
    ∗ ((accE : Memref sig .scVector .vmem S10000 .f32).view.loc (V d (cV L) (jV L)) ↦{fullShare} (pairsN (dstPart fd (wL L)) jc st t).1)
    ∗ ((accO : Memref sig .scVector .vmem S10000 .f32).view.loc (V d (cV L) (jV L)) ↦{fullShare} (pairsN (dstPart fd (wL L)) jc st t).2))

theorem mstep {κ : Kind} {sp : Space} (v vo : View sig κ sp S10000 .f32) (f : v.ty.Contents (Elt F)) (fo : vo.ty.Contents (Elt F)) (E Oc : Vec F S10000 .f32)
    (off : Fin 1 → Nat) (n : Nat) (heq : off = ![n]) (inb : ∀ a, off a + S16.size a ≤ S10000.size a) (j : S10000.Idx)
    (hf : ∀ j, v.read (Elt F) f j = if (j 0).val < n then FloatOps.addf (E j) (Oc j) else E j)
    (hfo : ∀ j, vo.read (Elt F) fo j = Oc j) :
    v.read (Elt F) (v.writes (Elt F) f [(⟨Rect.unit (s := S10000) off S16.size inb,
        k0_pay3 (v.readAt (Elt F) (Rect.unit (s := S10000) off S16.size inb).toLoadRect f) (vo.readAt (Elt F) (Rect.unit (s := S10000) off S16.size inb).toLoadRect fo)⟩ : View.Piece (Elt F) S10000 .f32)]) j
      = if (j 0).val < n + 16 then FloatOps.addf (E j) (Oc j) else E j := by
  subst heq
  rw [View.read_writes_cons_unit v f inb _ [] j rfl]
  split
  · rename_i h
    have h0 := h 0
    have hlo : n ≤ (j 0).val := h0.1
    have hhi : (j 0).val < n + 16 := h0.2
    rw [if_pos hhi]
    show FloatOps.addf (v.readAt (Elt F) (Rect.unit (s := S10000) ![n] S16.size inb).toLoadRect f (Rect.unitLocal (s := S10000) (off := ![n]) (size := S16.size) j h))
      (vo.readAt (Elt F) (Rect.unit (s := S10000) ![n] S16.size inb).toLoadRect fo (Rect.unitLocal (s := S10000) (off := ![n]) (size := S16.size) j h)) = _
    have hidx : (Rect.unit (s := S10000) ![n] S16.size inb).toLoadRect.idx (Rect.unitLocal (s := S10000) (off := ![n]) (size := S16.size) j h) = j := by
      funext a
      obtain rfl : a = 0 := Subsingleton.elim _ _
      apply Fin.ext
      rw [LoadRect.idx_apply]
      show n + 1 * ((j 0).val - n) = (j 0).val
      omega
    rw [View.readAt_apply, View.readAt_apply, hidx, hf, hfo, if_neg (by omega)]
  · rename_i h
    rw [View.writes_nil, hf]
    have hn : ¬ (n ≤ (j 0).val ∧ (j 0).val < n + 16) := fun hc => h (fun a => by
      obtain rfl : a = 0 := Subsingleton.elim _ _
      exact hc)
    by_cases h1 : (j 0).val < n
    · rw [if_pos h1, if_pos (by omega)]
    · rw [if_neg h1, if_neg (by omega)]

omit [FloatOps F] in
theorem trips4 : Scf.trips k0_t4_loop.lb k0_t4_loop.ub k0_t4_loop.st = 625 := by decide

section Row
variable (d : Dev nD) (L : grid0.Coords)

abbrev rowK (L : grid0.Coords) : Rect S32x10000 := Rect.unit (s := S32x10000) (k0_off6 L) S1x10000.size (k0_off6_inb L)
abbrev degRowK (L : grid0.Coords) : Memref sig .scVector .hbm S10000 .f32 :=
  ((degV : Memref sig .scVector .hbm S32x10000 .f32).slice (rowK L) (fun _ => rfl)).squeeze S10000 squeezes_S1x10000_S10000

omit [FloatOps F] in

theorem mem_degRowSet (w : Fin 32) (i : S32x10000.Idx) : i ∈ degRowSet w ↔ (i 0).val = w.val := by
  unfold degRowSet
  rw [Rect.mem_set_unit]
  constructor
  · intro h
    have h0 := h 0
    simp only [Shape.partIx, Shape.partSize, ↓reduceIte] at h0
    have : S32x10000.size 0 / 32 = 1 := rfl
    rw [this] at h0
    omega
  · intro h a
    match a with
    | 0 =>
      simp only [Shape.partIx, Shape.partSize, ↓reduceIte]
      have : S32x10000.size 0 / 32 = 1 := rfl
      rw [this]
      omega
    | 1 =>
      simp only [Shape.partIx, Shape.partSize]
      have h1 : (i 1).val < 10000 := (i 1).isLt
      simp
      exact h1

omit [FloatOps F] in
theorem mem_rowK (i : S32x10000.Idx) : i ∈ (rowK L).set ↔ (i 0).val = (wL L).val := by
  unfold rowK
  rw [Rect.mem_set_unit, k0_off6_eq]
  constructor
  · intro h
    have h0 := h 0
    show (i 0).val = 2 * (L 1).val + (L 0).val
    have : S1x10000.size 0 = 1 := rfl
    simp only [Matrix.cons_val_zero, this] at h0
    omega
  · intro h a
    have h' : (i 0).val = 2 * (L 1).val + (L 0).val := h
    match a with
    | 0 =>
      have : S1x10000.size 0 = 1 := rfl
      simp only [Matrix.cons_val_zero, this]
      omega
    | 1 =>
      have h1 : (i 1).val < 10000 := (i 1).isLt
      have : S1x10000.size 1 = 10000 := rfl
      simp only [Matrix.cons_val_one, Matrix.cons_val_zero, this]
      omega

omit [FloatOps F] in
theorem set_degRowK : (degRowK L).view.set = degRowSet (wL L) := by
  show ((((degV : Memref sig .scVector .hbm S32x10000 .f32).view.slice (rowK L)).reshape S10000 squeezes_S1x10000_S10000.numel_eq).set) = _
  rw [View.set_reshape, View.set_slice]
  ext i
  rw [mem_degRowSet]
  show i ∈ (rowK L).set.map (Function.Embedding.refl _) ↔ _
  rw [Finset.map_refl, mem_rowK]

omit [FloatOps F] in
theorem pts_degRowK (f : Vec F S32x10000 .f32) :
    ((degRowK L).view.loc (V d (cV L) (jV L)) ↦[(degRowK L).view.set]{fullShare} f : sProp 𝕄) = degPts d (wL L) f := by
  rw [set_degRowK]

omit [FloatOps F] in

theorem emb_degRowK (y : S10000.Idx) :
    (((degRowK L).view.emb y) 0).val = (wL L).val ∧ (((degRowK L).view.emb y) 1).val = (y 0).val := by
  have hm : (degRowK L).view.emb y ∈ (degRowK L).view.set := Finset.mem_map_of_mem _ (Finset.mem_univ _)
  rw [set_degRowK, mem_degRowSet] at hm
  refine ⟨hm, ?_⟩
  show (((rowK L).emb (Shape.reshapeEquiv squeezes_S1x10000_S10000.numel_eq y)) 1).val = _
  rw [Shape.reshapeEquiv_cons_one, Rect.emb_apply]
  show (k0_off6 L) 1 + 1 * (y 0).val = (y 0).val
  rw [k0_off6_eq]
  show 0 + 1 * (y 0).val = (y 0).val
  omega

omit [FloatOps F] in

theorem pointsTo_writes_whole (c : Thread nD τ) {sp : Space} {s : Shape} {e : EltTy} (v : View sig c.2.kind sp s e) (q : PosShare TreeShare)
    (f g : Buf (Elt F) (v.loc c)) (X : (Rect.whole s).shape.Idx → Elt F e) (h : ∀ y : s.Idx, v.read (Elt F) g y = X y) :
    (v.loc c ↦[v.set]{q} v.writes (Elt F) f [(⟨Rect.whole s, X⟩ : View.Piece (Elt F) s e)] : sProp 𝕄) = v.loc c ↦[v.set]{q} g :=
  pointsTo_congr fun i hi => by
    obtain ⟨y, -, rfl⟩ := Finset.mem_map.mp hi
    have h1 := View.read_writes_cons_emb v f (Rect.whole s) X [] y
    rw [Rect.emb_whole_apply] at h1
    have h2 := h y
    rw [View.read_apply] at h1 h2
    exact (cast_inj _).mp (h1.trans h2.symm)

theorem read_degpOf (fd : Vec F S320000 .i32) (y : S10000.Idx) :
    (degRowK L).view.read (Elt F) (degpOf fd : Vec F S32x10000 .f32) y = degRow (F := F) (dstPart fd (wL L)) y := by
  rw [View.read_apply, cast_eq]
  obtain ⟨e0, e1⟩ := emb_degRowK L y
  have hw : (⟨(((degRowK L).view.emb y) 0).val, (((degRowK L).view.emb y) 0).isLt⟩ : Fin 32) = wL L := Fin.ext e0
  have hy : Shape.ofLane (d := ![10000]) ⟨(((degRowK L).view.emb y) 1).val, (((degRowK L).view.emb y) 1).isLt⟩ = y := by
    funext a
    obtain rfl : a = 0 := Subsingleton.elim _ _
    exact Fin.ext e1
  show degRow (F := F) (dstPart fd (⟨(((degRowK L).view.emb y) 0).val, (((degRowK L).view.emb y) 0).isLt⟩ : Fin 32))
    (Shape.ofLane (d := ![10000]) ⟨(((degRowK L).view.emb y) 1).val, (((degRowK L).view.emb y) 1).isLt⟩) = _
  rw [hw, hy]

theorem final_row (fd : Vec F S320000 .i32) (fg : Vec F S32x10000 .f32) (X : (Rect.whole S10000).shape.Idx → F .f32)
    (hX : ∀ y : S10000.Idx, X y = degRow (F := F) (dstPart fd (wL L)) y) :
    ((degRowK L).view.loc (V d (cV L) (jV L)) ↦[(degRowK L).view.set]{fullShare}
        (degRowK L).view.writes (Elt F) fg [(⟨Rect.whole S10000, X⟩ : View.Piece (Elt F) S10000 .f32)] : sProp 𝕄)
      = degPts d (wL L) (degpOf fd) :=
  (pointsTo_writes_whole (F := F) (V d (cV L) (jV L)) (degRowK L).view fullShare fg (degpOf fd : Vec F S32x10000 .f32) X
    (fun y => (read_degpOf L fd y).trans (hX y).symm)).trans (pts_degRowK (F := F) d L _)
end Row

def inv4 (E Oc : Vec F S10000 .f32) (k : Nat) (_ : PUnit) : sProp 𝕄 :=
  iprop((∃ fe : Vec F S10000 .f32, ((accE : Memref sig .scVector .vmem S10000 .f32).view.loc (V d (cV L) (jV L)) ↦{fullShare} fe)
      ∗ ⌜∀ j : S10000.Idx, fe j = if (j 0).val < 16 * k then FloatOps.addf (E j) (Oc j) else E j⌝)
    ∗ ((accO : Memref sig .scVector .vmem S10000 .f32).view.loc (V d (cV L) (jV L)) ↦{fullShare} Oc))

theorem tile_body (hF : (K (F := F)).Facts) (q : PosShare TreeShare) (fd : Vec F S320000 .i32) (gdeg : Vec F S32x10000 .f32)
    (hval : gdeg = degpOf fd)
    (hpre : ∀ x, (fd x).toNat < 10000)
    (O : CellTallies nD τ sig (HIx 4)) (W : Waits sig (HIx 4)) (hO : ∀ g, O g none = 0) :
    iprop(levAts (K (F := F)).L (K (F := F)).lev ∗ emp
        ∗ (dstPts d q fd ∗ ∃ f, degPts d (wL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_deg_kernel L dstV (Memref.isWhole_whole _) degV (Memref.isWhole_whole _) accE (Memref.isWhole_whole _)
            accO (Memref.isWhole_whole _) dvS (Memref.isWhole_whole _) cc0_scoped0 cc0_scoped1)
          fun _ => iprop((dstPts d q fd ∗ degPts d (wL L) gdeg)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_deg_kernel_eq_skeleton]; unfold cc0_deg_kernel_skel
  rw [(K (F := F)).scopedBufs_V hF d (cV L) (jV L), SparseCore.Cfg.scopedSems0_V (Val := Elt F) d (cV L) (jV L), ownSems0_V, ownBufs_V]
  iintro ⟨#Hlv, -, ⟨Hd, %fg, Hg⟩, ⟨⟨%fe, He⟩, ⟨%fo, Ho⟩, ⟨%fv, Hv⟩, Hbufs⟩, ⟨Hsem0, Hsem1, Hsems⟩, HO⟩
  ihave Hmw := ((K (F := F)).mayWaits_none (thr := V d (cV L) (jV L)) hO) $$ Hlv
  sl_for (inv1 d L) $$ [He Ho]
  case region =>
    intro k _
    unfold inv1
    iintro ⟨%fe, %fo, He, Ho, %hz⟩
    sl_exec
    sl_step
    iexists _; iexists _
    isplitl [He]; · iexact He
    isplitl [Ho]; · iexact Ho
    ipureintro
    intro j hj
    exact ⟨zstep (accE : Memref sig .scVector .vmem S10000 .f32).view fe k _ j (fun h => (hz j h).1) hj,
      zstep (accO : Memref sig .scVector .vmem S10000 .f32).view fo k _ j (fun h => (hz j h).2) hj⟩
  · unfold inv1
    iexists fe; iexists fo
    isplitl [He]; · iexact He
    isplitl [Ho]; · iexact Ho
    ipureintro
    intro j hj
    exact absurd hj (by omega)
  iintro %_ HI
  unfold inv1
  icases HI with ⟨%fe1, %fo1, He, Ho, %hz1⟩
  have htr1 : Scf.trips k0_t1_loop.lb k0_t1_loop.ub k0_t1_loop.st = 625 := by decide
  have hfe1 : fe1 = zeroRow := funext fun j => (hz1 j (by rw [htr1]; have : (j 0).val < 10000 := (j 0).isLt; omega)).1
  have hfo1 : fo1 = zeroRow := funext fun j => (hz1 j (by rw [htr1]; have : (j 0).val < 10000 := (j 0).isLt; omega)).2
  subst hfe1 hfo1
  sl_exec
  sl_for (inv2 d L q fd O W) $$ [Hmw Hd Hv Hsem0 He Ho HO]
  case region =>
    intro jc _
    unfold inv2
    iintro ⟨#Hmw, Hd, ⟨%fv, Hv⟩, Hsem0, He, Ho, %W', %hW', HO⟩
    sl_exec
    have hdv : DvHolds fd (wL L) jc.val (View.write (Elt F) (dvS : Memref sig .scVector .vmem S2000 .i32).view fv (tile_body.sl.dma0 L fd jc) Finset.univ) := by
      unfold tile_body.sl.dma0
      exact dma_holds fd L jc _ _ fv
    generalize View.write (Elt F) (dvS : Memref sig .scVector .vmem S2000 .i32).view fv (tile_body.sl.dma0 L fd jc) Finset.univ = fv' at hdv
    sl_for (inv3 d L fd fv' jc.val (chunksN (F := F) (dstPart fd (wL L)) jc.val)) $$ [Hv He Ho]
    case region =>
      intro t _
      unfold inv3
      iintro ⟨Hv, He, Ho⟩
      have hv1 := load_dv hdv (k0_off3 t) (32 * t.val) (k0_off3_eq t) (k0_off3_inb t)
      have hc1 : k0_chk1 (vec16 (dstPart fd (wL L)) (2000 * jc.val + 32 * t.val)) := inRange_vec16 hpre _ _
      have hv2 : (dvS : Memref sig .scVector .vmem S2000 .i32).view.readAt (Elt F) (Rect.unit (s := S2000) (k0_off4 t) S16.size (k0_off4_inb t)).toLoadRect fv'
          = vec16 (dstPart fd (wL L)) (2000 * jc.val + 32 * t.val + 16) := by
        rw [load_dv hdv (k0_off4 t) (32 * t.val + 16) (k0_off4_eq t) (k0_off4_inb t), Nat.add_assoc]
      have hc2 : k0_chk2 (vec16 (dstPart fd (wL L)) (2000 * jc.val + 32 * t.val + 16)) := inRange_vec16 hpre _ _
      sl_exec
      ihave He' := (Entails.of_eq (ptsE_whole (F := F) d L _).symm) $$ He
      iapply (SparseCore.wp_vectorStoreIdx 𝒱₀ (V d (cV L) (jV L)) none Set.univ (base := (accE : Memref sig .scVector .vmem S10000 .f32))) $$ He'; iintro He
      ihave He' := (Entails.of_eq (by rw [storeE, scat_of_store _ _ _ _ _ rfl, ptsE_whole])) $$ He
      sl_exec
      ihave Ho' := (Entails.of_eq (ptsO_whole (F := F) d L _).symm) $$ Ho
      iapply (SparseCore.wp_vectorStoreIdx 𝒱₀ (V d (cV L) (jV L)) none Set.univ (base := (accO : Memref sig .scVector .vmem S10000 .f32))) $$ Ho'; iintro Ho
      ihave Ho' := (Entails.of_eq (by rw [storeO, scat_of_store _ _ _ _ _ rfl, ptsO_whole])) $$ Ho
      sl_step
      isplitl [Hv]; · iexact Hv
      isplitl [He']; · iexact He'
      iexact Ho'
    · unfold inv3
      isplitl [Hv]; · iexact Hv
      isplitl [He]; · iexact He
      iexact Ho
    iintro %_ HI
    unfold inv3
    rw [trips3]
    icases HI with ⟨Hv, He, Ho⟩
    have hv3 := load_dv hdv ![1984] 1984 rfl (by decide)
    have hc3 : k0_chk3 (vec16 (dstPart fd (wL L)) (2000 * jc.val + 1984)) := inRange_vec16 hpre _ _
    sl_exec
    ihave He' := (Entails.of_eq (ptsE_whole (F := F) d L _).symm) $$ He
    iapply (SparseCore.wp_vectorStoreIdx 𝒱₀ (V d (cV L) (jV L)) none Set.univ (base := (accE : Memref sig .scVector .vmem S10000 .f32))) $$ He'; iintro He
    ihave He' := (Entails.of_eq (by rw [storeE, scat_of_store _ _ _ _ _ rfl, ptsE_whole])) $$ He
    sl_step
    isplitr; · iexact Hmw
    isplitl [Hd]; · iexact Hd
    isplitl [Hv]; · iexists fv'; iexact Hv
    isplitl [Hsem0]; · iexact Hsem0
    isplitl [He']; · iexact He'
    isplitl [Ho]; · iexact Ho
    iexists (insert (SemLoc.dma cc0_scoped0.sem, (default : HIx 4)) W'); isplitr
    · ipureintro; intro p hp
      rcases Finset.mem_insert.mp hp with hp | hp
      · exact .inr (hp ▸ rfl)
      · exact hW' p hp
    · iexact HO
  · unfold inv2
    isplitl [Hmw]; · iexact Hmw
    isplitl [Hd]; · iexact Hd
    isplitl [Hv]; · iexists fv; iexact Hv
    isplitl [Hsem0]; · iexact Hsem0
    isplitl [He]; · iexact He
    isplitl [Ho]; · iexact Ho
    iexists W; isplitr
    · ipureintro; exact fun p hp => .inl hp
    · iexact HO
  iintro %_ HI
  unfold inv2
  rw [trips2]
  icases HI with ⟨-, Hd, ⟨%fv2, Hv⟩, Hsem0, He, Ho, %W2, %hW2, HO⟩
  sl_exec
  sl_for (inv4 d L (chunksN (F := F) (dstPart fd (wL L)) 5).1 (chunksN (F := F) (dstPart fd (wL L)) 5).2) $$ [He Ho]
  case region =>
    intro k _
    unfold inv4
    iintro ⟨⟨%fe4, He, %hf4⟩, Ho⟩
    sl_exec
    sl_step
    isplitl [He]
    · iexists _
      isplitl [He]; · iexact He
      ipureintro
      intro j
      exact mstep (accE : Memref sig .scVector .vmem S10000 .f32).view (accO : Memref sig .scVector .vmem S10000 .f32).view fe4
        (chunksN (F := F) (dstPart fd (wL L)) 5).2 _ _ (k0_off5 k) (16 * k.val) (k0_off5_eq k) _ j hf4 (fun _ => rfl)
    · iexact Ho
  · unfold inv4
    isplitl [He]
    · iexists _
      isplitl [He]; · iexact He
      ipureintro
      intro j
      rw [if_neg (by omega)]
    · iexact Ho
  iintro %_ HI
  unfold inv4
  rw [trips4]
  icases HI with ⟨⟨%fe5, He, %hf5⟩, Ho⟩
  have hfe5 : fe5 = degRow (F := F) (dstPart fd (wL L)) := funext fun j => by
    rw [hf5 j, if_pos (by have : (j 0).val < 10000 := (j 0).isLt; omega)]; rfl
  subst hfe5
  ihave Hg' := (Entails.of_eq (pts_degRowK (F := F) d L fg).symm) $$ Hg
  sl_exec
  have hX : ∀ y : S10000.Idx, tile_body.sl.dma0_1 L fd y = degRow (F := F) (dstPart fd (wL L)) y := by
    intro y
    unfold tile_body.sl.dma0_1
    rfl
  ihave Hg := (Entails.of_eq (final_row (F := F) d L fd fg _ hX)) $$ Hg'
  subst hval
  sl_step
  isplitl [Hd Hg]
  · isplitl [Hd]; · iexact Hd
    iexact Hg
  isplitl [He Ho Hv Hbufs]
  · isplitl [He]; · iexists _; iexact He
    isplitl [Ho]; · iexists _; iexact Ho
    isplitl [Hv]; · iexists _; iexact Hv
    iexact Hbufs
  isplitl [Hsem0 Hsem1 Hsems]
  · isplitl [Hsem0]; · iexact Hsem0
    isplitl [Hsem1]; · iexact Hsem1
    iexact Hsems
  iexists (insert (SemLoc.dma cc0_scoped1.sem, (default : HIx 4)) W2); isplitr
  · ipureintro; intro p hp
    rcases Finset.mem_insert.mp hp with hp | hp
    · exact .inr (hp ▸ rfl)
    · exact hW2 p hp
  · iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_deg_kernel (coordsV c s) dstV (Memref.isWhole_whole _) degV (Memref.isWhole_whole _)
          accE (Memref.isWhole_whole _) accO (Memref.isWhole_whole _) dvS (Memref.isWhole_whole _) cc0_scoped0 cc0_scoped1) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (sv : Dev nD → StageVals F) (hval : ∀ d, (sv d).degp = degpOf (sv d).dst) (hpre : ∀ d x, ((sv d).dst x).toNat < 10000) :
    (K (F := F)).TileObl (D (F := F)) 𝒱 (P sv) v₀ 0 := by
  intro d c i O W hO _ _
  simp only [show (P sv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (rdShare (tileNo (coreIx 0 c) (subIx 0 i))) (sv d).dst (sv d).degp (hval d) (hpre d) O W hO).trans
    (wp_mono frame _ _ fun _ => obl_post)

end Cert.KernelIdeal.DegTile
end
-- ==== Proof.SpmmNames.lean ====
import proofs.«213134_g57071525429591_cont_9to1_m_136_24_alg».proof.Proof.Setup
import proofs.«213134_g57071525429591_cont_9to1_m_136_24_alg».proof.Proof.SpmmVal
import Idealize.ShloMosaic.Lib.Batch
import Idealize.ShloMosaic.Lib.SparseCore.Ops

noncomputable section

namespace Cert.KernelIdeal.SpmmTile

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev mU : Memref sig .scVector .hbm S1280000 .f32 := Memref.whole main_v11_scv
abbrev mS : Memref sig .scVector .hbm S320000 .i32 := Memref.whole main_v1_scv
abbrev mD : Memref sig .scVector .hbm S320000 .i32 := Memref.whole main_v3_scv
abbrev mO : Memref sig .scVector .hbm S1280000 .f32 := Memref.whole main_v12_scv
abbrev bU0 : Ref sig .scVector := cc2_scratch0
abbrev bU1 : Ref sig .scVector := cc2_scratch1
abbrev bU2 : Ref sig .scVector := cc2_scratch2
abbrev bU3 : Ref sig .scVector := cc2_scratch3
abbrev bE0 : Ref sig .scVector := cc2_scratch4
abbrev bE1 : Ref sig .scVector := cc2_scratch5
abbrev bE2 : Ref sig .scVector := cc2_scratch6
abbrev bE3 : Ref sig .scVector := cc2_scratch7
abbrev bO0 : Ref sig .scVector := cc2_scratch8
abbrev bO1 : Ref sig .scVector := cc2_scratch9
abbrev bO2 : Ref sig .scVector := cc2_scratch10
abbrev bO3 : Ref sig .scVector := cc2_scratch11
abbrev bSa : Ref sig .scVector := cc2_scratch12
abbrev bDa : Ref sig .scVector := cc2_scratch13
abbrev bSb : Ref sig .scVector := cc2_scratch14
abbrev bDb : Ref sig .scVector := cc2_scratch15
abbrev semA : DmaSems sig S_ := cc2_scratch16
abbrev semB : DmaSems sig S_ := cc2_scratch17
abbrev semU : DmaSems sig S_ := cc2_scratch18
abbrev mU0 : Memref sig .scVector .vmem S10000 .f32 := Memref.whole bU0
abbrev mU1 : Memref sig .scVector .vmem S10000 .f32 := Memref.whole bU1
abbrev mU2 : Memref sig .scVector .vmem S10000 .f32 := Memref.whole bU2
abbrev mU3 : Memref sig .scVector .vmem S10000 .f32 := Memref.whole bU3
abbrev mE0 : Memref sig .scVector .vmem S10000 .f32 := Memref.whole bE0
abbrev mE1 : Memref sig .scVector .vmem S10000 .f32 := Memref.whole bE1
abbrev mE2 : Memref sig .scVector .vmem S10000 .f32 := Memref.whole bE2
abbrev mE3 : Memref sig .scVector .vmem S10000 .f32 := Memref.whole bE3
abbrev mO0 : Memref sig .scVector .vmem S10000 .f32 := Memref.whole bO0
abbrev mO1 : Memref sig .scVector .vmem S10000 .f32 := Memref.whole bO1
abbrev mO2 : Memref sig .scVector .vmem S10000 .f32 := Memref.whole bO2
abbrev mO3 : Memref sig .scVector .vmem S10000 .f32 := Memref.whole bO3
abbrev mSa : Memref sig .scVector .vmem S1600 .i32 := Memref.whole bSa
abbrev mDa : Memref sig .scVector .vmem S1600 .i32 := Memref.whole bDa
abbrev mSb : Memref sig .scVector .vmem S1600 .i32 := Memref.whole bSb
abbrev mDb : Memref sig .scVector .vmem S1600 .i32 := Memref.whole bDb

abbrev thr (d : Dev nD) (L : grid2.Coords) : Thread nD τ := V d ((L 0).castLE hcore2) ((L 1).castLE hsub2)

variable [FloatOps F]

abbrev uSl0 (L : grid2.Coords) : Memref sig .scVector .hbm S10000 .f32 := mU.slice (Rect.unit (s := S1280000) (k2_off1 L 0#32) S10000.size (k2_off1_inb L 0)) (fun _ => rfl)
abbrev uSl1 (L : grid2.Coords) : Memref sig .scVector .hbm S10000 .f32 := mU.slice (Rect.unit (s := S1280000) (k2_off1 L 1#32) S10000.size (k2_off1_inb L 1)) (fun _ => rfl)
abbrev uSl2 (L : grid2.Coords) : Memref sig .scVector .hbm S10000 .f32 := mU.slice (Rect.unit (s := S1280000) (k2_off1 L 2#32) S10000.size (k2_off1_inb L 2)) (fun _ => rfl)
abbrev uSl3 (L : grid2.Coords) : Memref sig .scVector .hbm S10000 .f32 := mU.slice (Rect.unit (s := S1280000) (k2_off1 L 3#32) S10000.size (k2_off1_inb L 3)) (fun _ => rfl)
abbrev oSl0 (L : grid2.Coords) : Memref sig .scVector .hbm S10000 .f32 := mO.slice (Rect.unit (s := S1280000) (k2_off1 L 0#32) S10000.size (k2_off1_inb L 0)) (fun _ => rfl)
abbrev oSl1 (L : grid2.Coords) : Memref sig .scVector .hbm S10000 .f32 := mO.slice (Rect.unit (s := S1280000) (k2_off1 L 1#32) S10000.size (k2_off1_inb L 1)) (fun _ => rfl)
abbrev oSl2 (L : grid2.Coords) : Memref sig .scVector .hbm S10000 .f32 := mO.slice (Rect.unit (s := S1280000) (k2_off1 L 2#32) S10000.size (k2_off1_inb L 2)) (fun _ => rfl)
abbrev oSl3 (L : grid2.Coords) : Memref sig .scVector .hbm S10000 .f32 := mO.slice (Rect.unit (s := S1280000) (k2_off1 L 3#32) S10000.size (k2_off1_inb L 3)) (fun _ => rfl)

abbrev rowRect (L : grid2.Coords) (k : Fin 4) : Rect S1280000 := Rect.unit (s := S1280000) (k2_off1 L (BitVec.ofNat 32 k.val)) S10000.size (k2_off1_inb L k)

def rowSet (L : grid2.Coords) (k : Fin 4) : Finset S1280000.Idx := (rowRect L k).set

def rowOf (a : Vec F S1280000 .f32) (L : grid2.Coords) (k : Fin 4) : Vec F S10000 .f32 := fun j => a ((rowRect L k).emb j)

def outPiece (d : Dev nD) (L : grid2.Coords) (k : Fin 4) : sProp 𝕄 := iprop(∃ f : Vec F S1280000 .f32, tcLoc d main_v12 ↦[rowSet L k]{fullShare} f)

def outDone (d : Dev nD) (L : grid2.Coords) (uA : Vec F S1280000 .f32) (srcA dstA : IVec S320000 32) (k : Fin 4) : sProp 𝕄 :=
  iprop(∃ f : Vec F S1280000 .f32, ⌜∀ j : S10000.Idx, f ((rowRect L k).emb j) = spmmRow (rowOf uA L k) srcA dstA j⌝ ∗ tcLoc d main_v12 ↦[rowSet L k]{fullShare} f)

def scratch20 (d : Dev nD) (L : grid2.Coords) : sProp 𝕄 :=
  iprop((∃ f : Vec F S10000 .f32, (thr d L).loc bU0 ↦{fullShare} f) ∗ (∃ f : Vec F S10000 .f32, (thr d L).loc bU1 ↦{fullShare} f)
    ∗ (∃ f : Vec F S10000 .f32, (thr d L).loc bU2 ↦{fullShare} f) ∗ (∃ f : Vec F S10000 .f32, (thr d L).loc bU3 ↦{fullShare} f)
    ∗ (∃ f : Vec F S10000 .f32, (thr d L).loc bE0 ↦{fullShare} f) ∗ (∃ f : Vec F S10000 .f32, (thr d L).loc bE1 ↦{fullShare} f)
    ∗ (∃ f : Vec F S10000 .f32, (thr d L).loc bE2 ↦{fullShare} f) ∗ (∃ f : Vec F S10000 .f32, (thr d L).loc bE3 ↦{fullShare} f)
    ∗ (∃ f : Vec F S10000 .f32, (thr d L).loc bO0 ↦{fullShare} f) ∗ (∃ f : Vec F S10000 .f32, (thr d L).loc bO1 ↦{fullShare} f)
    ∗ (∃ f : Vec F S10000 .f32, (thr d L).loc bO2 ↦{fullShare} f) ∗ (∃ f : Vec F S10000 .f32, (thr d L).loc bO3 ↦{fullShare} f)
    ∗ (∃ f : IVec S1600 32, (thr d L).loc bSa ↦{fullShare} f) ∗ (∃ f : IVec S1600 32, (thr d L).loc bDa ↦{fullShare} f)
    ∗ (∃ f : IVec S1600 32, (thr d L).loc bSb ↦{fullShare} f) ∗ (∃ f : IVec S1600 32, (thr d L).loc bDb ↦{fullShare} f))

def sems7 (d : Dev nD) (L : grid2.Coords) : sProp 𝕄 :=
  iprop(semVal (thr d L, SemLoc.dma semA.sem) 0 ∗ semVal (thr d L, SemLoc.dma semB.sem) 0 ∗ semVal (thr d L, SemLoc.dma semU.sem) 0
    ∗ semVal (thr d L, SemLoc.dma cc2_scoped0.sem) 0 ∗ semVal (thr d L, SemLoc.dma cc2_scoped1.sem) 0
    ∗ semVal (thr d L, SemLoc.dma cc2_scoped2.sem) 0 ∗ semVal (thr d L, SemLoc.dma cc2_scoped3.sem) 0)

abbrev kern (L : grid2.Coords) := cc2_spmm_kernel (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc2_scoped0 cc2_scoped1 cc2_scoped2 cc2_scoped3

def TileCore (F : FTy → Type) [FloatOps F] : Prop :=
  ∀ (d : Dev nD) (L : grid2.Coords) (q : PosShare TreeShare) (uA : Vec F S1280000 .f32) (srcA dstA : IVec S320000 32),
    (∀ x, (srcA x).toNat < 10000) → (∀ x, (dstA x).toNat < 10000) →
    ∀ (O : CellTallies nD τ sig (HIx 4)) (W : Waits sig (HIx 4)),
    iprop(Transfers.MayWaits (thr d L) (none : HIx 4) O
        ∗ (tcLoc d main_v11 ↦{q} uA) ∗ (tcLoc d main_v1 ↦{q} srcA) ∗ (tcLoc d main_v3 ↦{q} dstA)
        ∗ outPiece (F := F) d L 0 ∗ outPiece (F := F) d L 1 ∗ outPiece (F := F) d L 2 ∗ outPiece (F := F) d L 3
        ∗ scratch20 (F := F) d L ∗ sems7 (F := F) d L ∗ owes (thr d L) O W)
      ⊢ wp frame (wpE (defs₀ (F := F)) 𝒱₀ (thr d L) none) Set.univ (kern (F := F) L)
          fun _ => iprop((tcLoc d main_v11 ↦{q} uA) ∗ (tcLoc d main_v1 ↦{q} srcA) ∗ (tcLoc d main_v3 ↦{q} dstA)
            ∗ outDone d L uA srcA dstA 0 ∗ outDone d L uA srcA dstA 1 ∗ outDone d L uA srcA dstA 2 ∗ outDone d L uA srcA dstA 3
            ∗ scratch20 (F := F) d L ∗ sems7 (F := F) d L ∗ ∃ W', ⌜∀ p ∈ W', p ∈ W ∨ p.2 = none⌝ ∗ owes (thr d L) O W')

end Cert.KernelIdeal.SpmmTile

end
-- ==== Proof.SpmmRows.lean ====
import proofs.«213134_g57071525429591_cont_9to1_m_136_24_alg».proof.Proof.SpmmNames
import proofs.«213134_g57071525429591_cont_9to1_m_136_24_alg».proof.Proof.Pay
import proofs.«213134_g57071525429591_cont_9to1_m_136_24_alg».proof.Proof.Stages

noncomputable section

namespace Cert.KernelIdeal.SpmmTile

open Cert.KernelIdeal Cert.KernelIdeal.Gen Cert.KernelIdeal.Setup Cert.SpmmVal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

def wOf (L : grid2.Coords) : Fin 32 :=
  ⟨2 * (L 1).val + (L 0).val, by
    have h0 : (L 0).val < 2 := (L 0).isLt
    have h1 : (L 1).val < 16 := (L 1).isLt
    omega⟩

theorem wOf_val (L : grid2.Coords) : (wOf L).val = 2 * (L 1).val + (L 0).val := rfl

theorem wOf_eq (L : grid2.Coords) (c : Fin 2) (i : Fin 16) (h0 : (L 0).val = c.val) (h1 : (L 1).val = i.val) :
    wOf L = tileNo c i :=
  Fin.ext (by show 2 * (L 1).val + (L 0).val = 2 * i.val + c.val; omega)

theorem mem_rowSet (L : grid2.Coords) (k : Fin 4) (p : S1280000.Idx) :
    p ∈ rowSet L k ↔ 40000 * (wOf L).val + 10000 * k.val ≤ (p 0).val ∧ (p 0).val < 40000 * (wOf L).val + 10000 * k.val + 10000 := by
  unfold rowSet rowRect
  rw [Rect.mem_set_unit, Fin.forall_fin_one, k2_off1_eq L k, wOf_val]
  show (80000 * (L 1).val + 40000 * (L 0).val + 10000 * k.val ≤ (p 0).val
      ∧ (p 0).val < 80000 * (L 1).val + 40000 * (L 0).val + 10000 * k.val + 10000) ↔ _
  omega

theorem mem_flatPart (w : Fin 32) (p : S1280000.Idx) :
    p ∈ flatPart w ↔ 40000 * w.val ≤ (p 0).val ∧ (p 0).val < 40000 * w.val + 40000 := by
  show p ∈ (Rect.part (s := S1280000) (a₀ := 0) hdivFlat w).set ↔ _
  rw [Rect.mem_set_unit, Fin.forall_fin_one]
  show (w.val * 40000 ≤ (p 0).val ∧ (p 0).val < w.val * 40000 + 40000) ↔ _
  omega

theorem rowSet_disjoint (L : grid2.Coords) {k k' : Fin 4} (h : k ≠ k') : Disjoint (rowSet L k) (rowSet L k') := by
  rw [Finset.disjoint_left]
  intro p hp hp'
  rw [mem_rowSet] at hp hp'
  have hk : k.val ≠ k'.val := fun e => h (Fin.ext e)
  omega

theorem flatPart_eq (L : grid2.Coords) : flatPart (wOf L) = rowSet L 0 ∪ rowSet L 1 ∪ rowSet L 2 ∪ rowSet L 3 := by
  ext p
  have e0 := mem_rowSet L 0 p
  have e1 := mem_rowSet L 1 p
  have e2 := mem_rowSet L 2 p
  have e3 := mem_rowSet L 3 p
  rw [show ((0 : Fin 4).val) = 0 from rfl] at e0
  rw [show ((1 : Fin 4).val) = 1 from rfl] at e1
  rw [show ((2 : Fin 4).val) = 2 from rfl] at e2
  rw [show ((3 : Fin 4).val) = 3 from rfl] at e3
  rw [Finset.mem_union, Finset.mem_union, Finset.mem_union, e0, e1, e2, e3, mem_flatPart]
  omega

theorem disj01 (L : grid2.Coords) : Disjoint (rowSet L 0) (rowSet L 1) := rowSet_disjoint L (by decide)
theorem disj012 (L : grid2.Coords) : Disjoint (rowSet L 0 ∪ rowSet L 1) (rowSet L 2) :=
  Finset.disjoint_union_left.mpr ⟨rowSet_disjoint L (by decide), rowSet_disjoint L (by decide)⟩
theorem disj0123 (L : grid2.Coords) : Disjoint (rowSet L 0 ∪ rowSet L 1 ∪ rowSet L 2) (rowSet L 3) :=
  Finset.disjoint_union_left.mpr ⟨Finset.disjoint_union_left.mpr ⟨rowSet_disjoint L (by decide), rowSet_disjoint L (by decide)⟩,
    rowSet_disjoint L (by decide)⟩

theorem part_rows (d : Dev nD) (L : grid2.Coords) (f : Vec F S1280000 .f32) :
    (tcLoc d main_v12 ↦[flatPart (wOf L)]{fullShare} f : sProp 𝕄)
      ⊣⊢ iprop((tcLoc d main_v12 ↦[rowSet L 0]{fullShare} f) ∗ (tcLoc d main_v12 ↦[rowSet L 1]{fullShare} f)
          ∗ (tcLoc d main_v12 ↦[rowSet L 2]{fullShare} f) ∗ tcLoc d main_v12 ↦[rowSet L 3]{fullShare} f) := by
  rw [flatPart_eq L]
  constructor
  · refine (pointsTo_union (disj0123 L)).1.trans ?_
    refine (sep_mono_left ((pointsTo_union (disj012 L)).1.trans (sep_mono_left (pointsTo_union (disj01 L)).1))).trans ?_
    iintro ⟨⟨⟨H0, H1⟩, H2⟩, H3⟩
    isplitl [H0]
    · iexact H0
    isplitl [H1]
    · iexact H1
    isplitl [H2]
    · iexact H2
    · iexact H3
  · refine BIBase.Entails.trans ?_ (pointsTo_union (disj0123 L)).2
    refine BIBase.Entails.trans ?_ (sep_mono_left ((sep_mono_left (pointsTo_union (disj01 L)).2).trans (pointsTo_union (disj012 L)).2))
    iintro ⟨H0, H1, H2, H3⟩
    isplitr [H3]
    · isplitr [H2]
      · isplitl [H0]
        · iexact H0
        · iexact H1
      · iexact H2
    · iexact H3

theorem rows_in (d : Dev nD) (L : grid2.Coords) :
    (iprop(∃ f : Vec F S1280000 .f32, tcLoc d main_v12 ↦[flatPart (wOf L)]{fullShare} f) : sProp 𝕄)
      ⊢ iprop(outPiece (F := F) d L 0 ∗ outPiece (F := F) d L 1 ∗ outPiece (F := F) d L 2 ∗ outPiece (F := F) d L 3) := by
  iintro ⟨%f, H⟩
  icases (part_rows d L f).1 $$ H with ⟨H0, H1, H2, H3⟩
  unfold outPiece
  isplitl [H0]
  · iexists f; iexact H0
  isplitl [H1]
  · iexists f; iexact H1
  isplitl [H2]
  · iexists f; iexact H2
  · iexists f; iexact H3

variable [FloatOps F]

theorem emb_val (L : grid2.Coords) (k : Fin 4) (j : S10000.Idx) :
    (((rowRect L k).emb j) 0).val = 40000 * (wOf L).val + 10000 * k.val + (j 0).val := by
  rw [Rect.emb_apply]
  show (k2_off1 L (BitVec.ofNat 32 k.val)) 0 + 1 * (j 0).val = _
  rw [k2_off1_eq L k, wOf_val]
  show 80000 * (L 1).val + 40000 * (L 0).val + 10000 * k.val + 1 * (j 0).val = _
  omega

theorem rowOf_eq (uA : Vec F S1280000 .f32) (L : grid2.Coords) (k : Fin 4) :
    rowOf uA L k = flatRow uA (4 * (wOf L).val + k.val) := by
  funext j
  unfold rowOf flatRow
  have hj : (j 0).val < 10000 := (j 0).isLt
  have hw := (wOf L).isLt
  have hk := k.isLt
  rw [dif_pos (by omega : (4 * (wOf L).val + k.val) * 10000 + (j 0).val < 1280000)]
  congr 1
  funext a
  obtain rfl : a = 0 := Subsingleton.elim _ _
  apply Fin.ext
  rw [emb_val]
  show _ = (4 * (wOf L).val + k.val) * 10000 + (j 0).val
  omega

theorem spmmFlat_row (uA : Vec F S1280000 .f32) (srcA dstA : IVec S320000 32) (L : grid2.Coords) (k : Fin 4) (j : S10000.Idx) :
    spmmFlat uA srcA dstA ((rowRect L k).emb j) = spmmRow (rowOf uA L k) srcA dstA j := by
  unfold spmmFlat
  have hv := emb_val L k j
  have hj : (j 0).val < 10000 := (j 0).isLt
  have hdiv : (((rowRect L k).emb j) 0).val / 10000 = 4 * (wOf L).val + k.val := by rw [hv]; omega
  have hmod : (((rowRect L k).emb j) 0).val % 10000 = (j 0).val := by rw [hv]; omega
  have hl : (Shape.ofLane (d := ![10000]) ⟨(((rowRect L k).emb j) 0).val % 10000, Nat.mod_lt _ (by decide : 0 < 10000)⟩ : S10000.Idx) = j := by
    funext a
    obtain rfl : a = 0 := Subsingleton.elim _ _
    apply Fin.ext
    exact hmod
  rw [hdiv, hl, rowOf_eq]

theorem row_done (d : Dev nD) (L : grid2.Coords) (uA : Vec F S1280000 .f32) (srcA dstA : IVec S320000 32) (k : Fin 4) :
    outDone d L uA srcA dstA k ⊢ (tcLoc d main_v12 ↦[rowSet L k]{fullShare} spmmFlat uA srcA dstA : sProp 𝕄) := by
  unfold outDone
  iintro ⟨%f, %hf, H⟩
  have e : (tcLoc d main_v12 ↦[rowSet L k]{fullShare} f : sProp 𝕄) = tcLoc d main_v12 ↦[rowSet L k]{fullShare} spmmFlat uA srcA dstA :=
    pointsTo_congr fun p hp => by
      obtain ⟨j, rfl⟩ := (rowRect L k).toLoadRect.exists_idx_of_mem hp
      exact (hf j).trans (spmmFlat_row uA srcA dstA L k j).symm
  rw [← e]
  iexact H

theorem rows_out (d : Dev nD) (L : grid2.Coords) (uA : Vec F S1280000 .f32) (srcA dstA : IVec S320000 32)
    (sOut : Vec F S1280000 .f32) (hval : sOut = spmmFlat uA srcA dstA) :
    (iprop(outDone d L uA srcA dstA 0 ∗ outDone d L uA srcA dstA 1 ∗ outDone d L uA srcA dstA 2 ∗ outDone d L uA srcA dstA 3) : sProp 𝕄)
      ⊢ (tcLoc d main_v12 ↦[flatPart (wOf L)]{fullShare} sOut : sProp 𝕄) := by
  subst hval
  exact (BIClass.sep_mono (row_done d L uA srcA dstA 0) (BIClass.sep_mono (row_done d L uA srcA dstA 1)
    (BIClass.sep_mono (row_done d L uA srcA dstA 2) (row_done d L uA srcA dstA 3)))).trans (part_rows d L _).2

end Cert.KernelIdeal.SpmmTile

end
-- ==== Proof.SpmmObl.lean ====
import proofs.«213134_g57071525429591_cont_9to1_m_136_24_alg».proof.Proof.SpmmNames
import proofs.«213134_g57071525429591_cont_9to1_m_136_24_alg».proof.Proof.SpmmRows
import proofs.«213134_g57071525429591_cont_9to1_m_136_24_alg».proof.Proof.Stages

noncomputable section

namespace Cert.KernelIdeal.SpmmTile

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

abbrev qCall : Fin 4 := 1
abbrev lblCall : Fin 8 := 2

theorem refs16_nodup : ([bU0, bU1, bU2, bU3, bE0, bE1, bE2, bE3, bO0, bO1, bO2, bO3, bSa, bDa, bSb, bDb] : List (Ref sig .scVector)).Nodup := by decide

theorem sems7_nodup : ([SemLoc.dma semA.sem, SemLoc.dma semB.sem, SemLoc.dma semU.sem, SemLoc.dma cc2_scoped0.sem, SemLoc.dma cc2_scoped1.sem, SemLoc.dma cc2_scoped2.sem, SemLoc.dma cc2_scoped3.sem] : List (SemLoc sig)).Nodup := by decide

theorem sems7_scoped : ∀ s ∈ ([SemLoc.dma semA.sem, SemLoc.dma semB.sem, SemLoc.dma semU.sem, SemLoc.dma cc2_scoped0.sem, SemLoc.dma cc2_scoped1.sem, SemLoc.dma cc2_scoped2.sem, SemLoc.dma cc2_scoped3.sem] : List (SemLoc sig)),
    s.isScoped .scVector = true := by decide

variable {F : FTy → Type}

local notation "𝕄" => MT nD τ sig (HIx 4) (Elt F) ℕ UU ℕ

section Carve

variable (d : Dev nD) (L : grid2.Coords)

abbrev bufsL : List (DevRef τ sig) :=
  [bU0, bU1, bU2, bU3, bE0, bE1, bE2, bE3, bO0, bO1, bO2, bO3, bSa, bDa, bSb, bDb].map (Proc.devRef (Proc.scVector ((L 0).castLE hcore2) ((L 1).castLE hsub2) : Proc τ))

abbrev semsL : List (GSem nD τ sig) :=
  [SemLoc.dma semA.sem, SemLoc.dma semB.sem, SemLoc.dma semU.sem, SemLoc.dma cc2_scoped0.sem, SemLoc.dma cc2_scoped1.sem, SemLoc.dma cc2_scoped2.sem, SemLoc.dma cc2_scoped3.sem].map fun s : SemLoc sig => ((thr d L, s) : GSem nD τ sig)

theorem bufsL_nodup : (bufsL L).Nodup :=
  List.Nodup.map (Proc.devRef_injective _) refs16_nodup

theorem semsL_nodup : (semsL d L).Nodup :=
  List.Nodup.map (fun _ _ h => (Prod.mk.inj h).2) sems7_nodup

theorem bufsL_sub : (bufsL L).toFinset ⊆ ownRefs (τ := τ) (.scVector ((L 0).castLE hcore2) ((L 1).castLE hsub2)) := by
  intro b hb
  rw [List.mem_toFinset, List.mem_map] at hb
  obtain ⟨r, hr, rfl⟩ := hb
  simp only [List.mem_cons, List.not_mem_nil, or_false] at hr
  rcases hr with rfl | rfl | rfl | rfl | rfl | rfl | rfl | rfl | rfl | rfl | rfl | rfl | rfl | rfl | rfl | rfl <;>
    exact SparseCore.Cfg.mem_ownRefs_of_owner rfl

theorem semsL_sub : (semsL d L).toFinset ⊆ ownCells (thr d L) := by
  intro g hg
  rw [List.mem_toFinset, List.mem_map] at hg
  obtain ⟨s, hs, rfl⟩ := hg
  exact mem_ownCells.mpr ⟨rfl, sems7_scoped s hs⟩

theorem ownBufs_carve :
    (ownBufs (thr d L) : sProp 𝕄)
      = iprop(scratch20 (F := F) d L ∗ bigSep (ownRefs (τ := τ) (.scVector ((L 0).castLE hcore2) ((L 1).castLE hsub2)) \ (bufsL L).toFinset)
          fun b => iprop(∃ f, ((d, b) : Loc nD τ sig) ↦{fullShare} f)) := by
  unfold SparseCore.Cfg.ownBufs
  rw [SparseCore.bigSep_sdiff_split' (bufsL_sub L), bigSep_eq_bigSepL _ (bufsL_nodup L)]
  rfl

theorem ownSems0_carve :
    (ownSems0 (thr d L) : sProp 𝕄)
      = iprop(sems7 (F := F) d L ∗ bigSep (ownCells (thr d L) \ (semsL d L).toFinset) fun g => semVal g 0) := by
  unfold SparseCore.Cfg.ownSems0
  rw [SparseCore.bigSep_sdiff_split' (semsL_sub d L), bigSep_eq_bigSepL _ (semsL_nodup d L)]
  rfl

end Carve

variable [FloatOps F]

theorem tile_wrap (hF : (K (F := F)).Facts) (core : TileCore F)
    (sv : Dev nD → StageVals F) (hval : ∀ d, (sv d).s 0 = spmmFlat ((sv d).u 0) (sv d).src (sv d).dst)
    (hsrc : ∀ d x, ((sv d).src x).toNat < 10000) (hdst : ∀ d x, ((sv d).dst x).toNat < 10000)
    (d : Dev nD) (L : grid2.Coords) (w : Fin 32) (hw : wOf L = w)
    (O : CellTallies nD τ sig (HIx 4)) (W : Waits sig (HIx 4)) (hO : ∀ g, O g none = 0) :
    iprop(levAts (K (F := F)).L (K (F := F)).lev ∗ iprop(emp) ∗ goSpmm1 sv d w ∗ scopedBufs (thr d L) ∗ scopedSems0 (thr d L) ∗ owes (thr d L) O W)
      ⊢ wp frame (wpE (defs₀ (F := F)) 𝒱₀ (thr d L) none) Set.univ (kern (F := F) L)
          fun _ => iprop(tdSpmm1 sv d w ∗ scopedBufs (thr d L) ∗ scopedSems0 (thr d L)
            ∗ ∃ W', ⌜∀ p ∈ W', p ∈ W ∨ p.2 = none⌝ ∗ owes (thr d L) O W') := by
  subst hw
  rw [(K (F := F)).scopedBufs_V hF d _ _, SparseCore.Cfg.scopedSems0_V (Val := Elt F) d _ _, ownSems0_carve, ownBufs_carve]
  unfold goSpmm1 tdSpmm1
  iintro ⟨#Hlv, -, ⟨Hu, Hs, Hd, Ho⟩, ⟨Hscr, Hbufs⟩, ⟨Hsems, Hsemrest⟩, HO⟩
  ihave Hrows := (rows_in (F := F) d L) $$ Ho
  icases Hrows with ⟨Ho0, Ho1, Ho2, Ho3⟩
  ihave Hmw := ((K (F := F)).mayWaits_none (thr := thr d L) hO) $$ Hlv
  iapply (wp_wand_r frame _ Set.univ)
  isplitl [Hmw Hu Hs Hd Ho0 Ho1 Ho2 Ho3 Hscr Hsems HO]
  · iapply (core d L (rdShare (wOf L)) ((sv d).u 0) (sv d).src (sv d).dst (hsrc d) (hdst d) O W)
    isplitl [Hmw]; · iexact Hmw
    isplitl [Hu]; · iexact Hu
    isplitl [Hs]; · iexact Hs
    isplitl [Hd]; · iexact Hd
    isplitl [Ho0]; · iexact Ho0
    isplitl [Ho1]; · iexact Ho1
    isplitl [Ho2]; · iexact Ho2
    isplitl [Ho3]; · iexact Ho3
    isplitl [Hscr]; · iexact Hscr
    isplitl [Hsems]; · iexact Hsems
    iexact HO
  iintro %_ ⟨Hu, Hs, Hd, Ho0, Ho1, Ho2, Ho3, Hscr, Hsems, HO⟩
  ihave Ho := (rows_out d L ((sv d).u 0) (sv d).src (sv d).dst ((sv d).s 0) (hval d)) $$ [Ho0 Ho1 Ho2 Ho3]
  · isplitl [Ho0]; · iexact Ho0
    isplitl [Ho1]; · iexact Ho1
    isplitl [Ho2]; · iexact Ho2
    iexact Ho3
  isplitl [Hu Hs Hd Ho]
  · isplitl [Hu]; · iexact Hu
    isplitl [Hs]; · iexact Hs
    isplitl [Hd]; · iexact Hd
    iexact Ho
  isplitl [Hscr Hbufs]
  · isplitl [Hscr]; · iexact Hscr
    iexact Hbufs
  isplitl [Hsems Hsemrest]
  · isplitl [Hsems]; · iexact Hsems
    iexact Hsemrest
  iexact HO

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) lblCall ()
      = SparseCore.onTile hcore2 hsub2 (fun c s => kern (F := F) (coordsV c s)) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (core : TileCore F)
    (sv : Dev nD → StageVals F) (hval : ∀ d, (sv d).s 0 = spmmFlat ((sv d).u 0) (sv d).src (sv d).dst)
    (hsrc : ∀ d x, ((sv d).src x).toNat < 10000) (hdst : ∀ d x, ((sv d).dst x).toNat < 10000) :
    (K (F := F)).TileObl (D (F := F)) 𝒱 (P sv) v₀ qCall := by
  intro d c i O W hO _ _
  simp only [show (P sv).ox = fun _ _ => 0 from rfl, add_zero]
  change _ ⊢ wp _ _ _ (Pipeline.liftProg (defs₀ (F := F) (.scVector ((K (F := F)).core qCall c) ((K (F := F)).sub qCall i)) lblCall ())) _
  refine BI.Entails.trans ?_ (Pipeline.wp_liftProg (D (F := F)) (Pipeline.defs_kernel pcfgs defs₀) 𝒱₀ _ Set.univ none _ _)
  have hc : ((K (F := F)).core qCall c).val < grid2.bound 0 ∧ ((K (F := F)).sub qCall i).val < grid2.bound 1 := ⟨c.isLt, i.isLt⟩
  rw [defs₀_vector]; simp only [SparseCore.onTile, hc, and_self, ↓reduceDIte]
  exact (tile_wrap facts core sv hval hsrc hdst d (coordsV ⟨_, hc.1⟩ ⟨_, hc.2⟩) (tileNo (coreIx qCall c) (subIx qCall i))
      (wOf_eq _ (coreIx qCall c) (subIx qCall i) rfl rfl) O W hO).trans
    (wp_mono frame _ _ fun _ => obl_post)

end Cert.KernelIdeal.SpmmTile

end
-- ==== Proof.SpmmNames2.lean ====
import proofs.«213134_g57071525429591_cont_9to1_m_136_24_alg».proof.Proof.Setup
import proofs.«213134_g57071525429591_cont_9to1_m_136_24_alg».proof.Proof.SpmmVal
import Idealize.ShloMosaic.Lib.Batch
import Idealize.ShloMosaic.Lib.SparseCore.Ops

noncomputable section

namespace Cert.KernelIdeal.SpmmTile2

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev mU : Memref sig .scVector .hbm S1280000 .f32 := Memref.whole main_v15_scv
abbrev mS : Memref sig .scVector .hbm S320000 .i32 := Memref.whole main_v1_scv
abbrev mD : Memref sig .scVector .hbm S320000 .i32 := Memref.whole main_v3_scv
abbrev mO : Memref sig .scVector .hbm S1280000 .f32 := Memref.whole main_v16_scv
abbrev bU0 : Ref sig .scVector := cc4_scratch0
abbrev bU1 : Ref sig .scVector := cc4_scratch1
abbrev bU2 : Ref sig .scVector := cc4_scratch2
abbrev bU3 : Ref sig .scVector := cc4_scratch3
abbrev bE0 : Ref sig .scVector := cc4_scratch4
abbrev bE1 : Ref sig .scVector := cc4_scratch5
abbrev bE2 : Ref sig .scVector := cc4_scratch6
abbrev bE3 : Ref sig .scVector := cc4_scratch7
abbrev bO0 : Ref sig .scVector := cc4_scratch8
abbrev bO1 : Ref sig .scVector := cc4_scratch9
abbrev bO2 : Ref sig .scVector := cc4_scratch10
abbrev bO3 : Ref sig .scVector := cc4_scratch11
abbrev bSa : Ref sig .scVector := cc4_scratch12
abbrev bDa : Ref sig .scVector := cc4_scratch13
abbrev bSb : Ref sig .scVector := cc4_scratch14
abbrev bDb : Ref sig .scVector := cc4_scratch15
abbrev semA : DmaSems sig S_ := cc4_scratch16
abbrev semB : DmaSems sig S_ := cc4_scratch17
abbrev semU : DmaSems sig S_ := cc4_scratch18
abbrev mU0 : Memref sig .scVector .vmem S10000 .f32 := Memref.whole bU0
abbrev mU1 : Memref sig .scVector .vmem S10000 .f32 := Memref.whole bU1
abbrev mU2 : Memref sig .scVector .vmem S10000 .f32 := Memref.whole bU2
abbrev mU3 : Memref sig .scVector .vmem S10000 .f32 := Memref.whole bU3
abbrev mE0 : Memref sig .scVector .vmem S10000 .f32 := Memref.whole bE0
abbrev mE1 : Memref sig .scVector .vmem S10000 .f32 := Memref.whole bE1
abbrev mE2 : Memref sig .scVector .vmem S10000 .f32 := Memref.whole bE2
abbrev mE3 : Memref sig .scVector .vmem S10000 .f32 := Memref.whole bE3
abbrev mO0 : Memref sig .scVector .vmem S10000 .f32 := Memref.whole bO0
abbrev mO1 : Memref sig .scVector .vmem S10000 .f32 := Memref.whole bO1
abbrev mO2 : Memref sig .scVector .vmem S10000 .f32 := Memref.whole bO2
abbrev mO3 : Memref sig .scVector .vmem S10000 .f32 := Memref.whole bO3
abbrev mSa : Memref sig .scVector .vmem S1600 .i32 := Memref.whole bSa
abbrev mDa : Memref sig .scVector .vmem S1600 .i32 := Memref.whole bDa
abbrev mSb : Memref sig .scVector .vmem S1600 .i32 := Memref.whole bSb
abbrev mDb : Memref sig .scVector .vmem S1600 .i32 := Memref.whole bDb

abbrev thr (d : Dev nD) (L : grid4.Coords) : Thread nD τ := V d ((L 0).castLE hcore4) ((L 1).castLE hsub4)

variable [FloatOps F]

abbrev uSl0 (L : grid4.Coords) : Memref sig .scVector .hbm S10000 .f32 := mU.slice (Rect.unit (s := S1280000) (k4_off1 L 0#32) S10000.size (k4_off1_inb L 0)) (fun _ => rfl)
abbrev uSl1 (L : grid4.Coords) : Memref sig .scVector .hbm S10000 .f32 := mU.slice (Rect.unit (s := S1280000) (k4_off1 L 1#32) S10000.size (k4_off1_inb L 1)) (fun _ => rfl)
abbrev uSl2 (L : grid4.Coords) : Memref sig .scVector .hbm S10000 .f32 := mU.slice (Rect.unit (s := S1280000) (k4_off1 L 2#32) S10000.size (k4_off1_inb L 2)) (fun _ => rfl)
abbrev uSl3 (L : grid4.Coords) : Memref sig .scVector .hbm S10000 .f32 := mU.slice (Rect.unit (s := S1280000) (k4_off1 L 3#32) S10000.size (k4_off1_inb L 3)) (fun _ => rfl)
abbrev oSl0 (L : grid4.Coords) : Memref sig .scVector .hbm S10000 .f32 := mO.slice (Rect.unit (s := S1280000) (k4_off1 L 0#32) S10000.size (k4_off1_inb L 0)) (fun _ => rfl)
abbrev oSl1 (L : grid4.Coords) : Memref sig .scVector .hbm S10000 .f32 := mO.slice (Rect.unit (s := S1280000) (k4_off1 L 1#32) S10000.size (k4_off1_inb L 1)) (fun _ => rfl)
abbrev oSl2 (L : grid4.Coords) : Memref sig .scVector .hbm S10000 .f32 := mO.slice (Rect.unit (s := S1280000) (k4_off1 L 2#32) S10000.size (k4_off1_inb L 2)) (fun _ => rfl)
abbrev oSl3 (L : grid4.Coords) : Memref sig .scVector .hbm S10000 .f32 := mO.slice (Rect.unit (s := S1280000) (k4_off1 L 3#32) S10000.size (k4_off1_inb L 3)) (fun _ => rfl)

abbrev rowRect (L : grid4.Coords) (k : Fin 4) : Rect S1280000 := Rect.unit (s := S1280000) (k4_off1 L (BitVec.ofNat 32 k.val)) S10000.size (k4_off1_inb L k)

def rowSet (L : grid4.Coords) (k : Fin 4) : Finset S1280000.Idx := (rowRect L k).set

def rowOf (a : Vec F S1280000 .f32) (L : grid4.Coords) (k : Fin 4) : Vec F S10000 .f32 := fun j => a ((rowRect L k).emb j)

def outPiece (d : Dev nD) (L : grid4.Coords) (k : Fin 4) : sProp 𝕄 := iprop(∃ f : Vec F S1280000 .f32, tcLoc d main_v16 ↦[rowSet L k]{fullShare} f)

def outDone (d : Dev nD) (L : grid4.Coords) (uA : Vec F S1280000 .f32) (srcA dstA : IVec S320000 32) (k : Fin 4) : sProp 𝕄 :=
  iprop(∃ f : Vec F S1280000 .f32, ⌜∀ j : S10000.Idx, f ((rowRect L k).emb j) = spmmRow (rowOf uA L k) srcA dstA j⌝ ∗ tcLoc d main_v16 ↦[rowSet L k]{fullShare} f)

def scratch20 (d : Dev nD) (L : grid4.Coords) : sProp 𝕄 :=
  iprop((∃ f : Vec F S10000 .f32, (thr d L).loc bU0 ↦{fullShare} f) ∗ (∃ f : Vec F S10000 .f32, (thr d L).loc bU1 ↦{fullShare} f)
    ∗ (∃ f : Vec F S10000 .f32, (thr d L).loc bU2 ↦{fullShare} f) ∗ (∃ f : Vec F S10000 .f32, (thr d L).loc bU3 ↦{fullShare} f)
    ∗ (∃ f : Vec F S10000 .f32, (thr d L).loc bE0 ↦{fullShare} f) ∗ (∃ f : Vec F S10000 .f32, (thr d L).loc bE1 ↦{fullShare} f)
    ∗ (∃ f : Vec F S10000 .f32, (thr d L).loc bE2 ↦{fullShare} f) ∗ (∃ f : Vec F S10000 .f32, (thr d L).loc bE3 ↦{fullShare} f)
    ∗ (∃ f : Vec F S10000 .f32, (thr d L).loc bO0 ↦{fullShare} f) ∗ (∃ f : Vec F S10000 .f32, (thr d L).loc bO1 ↦{fullShare} f)
    ∗ (∃ f : Vec F S10000 .f32, (thr d L).loc bO2 ↦{fullShare} f) ∗ (∃ f : Vec F S10000 .f32, (thr d L).loc bO3 ↦{fullShare} f)
    ∗ (∃ f : IVec S1600 32, (thr d L).loc bSa ↦{fullShare} f) ∗ (∃ f : IVec S1600 32, (thr d L).loc bDa ↦{fullShare} f)
    ∗ (∃ f : IVec S1600 32, (thr d L).loc bSb ↦{fullShare} f) ∗ (∃ f : IVec S1600 32, (thr d L).loc bDb ↦{fullShare} f))

def sems7 (d : Dev nD) (L : grid4.Coords) : sProp 𝕄 :=
  iprop(semVal (thr d L, SemLoc.dma semA.sem) 0 ∗ semVal (thr d L, SemLoc.dma semB.sem) 0 ∗ semVal (thr d L, SemLoc.dma semU.sem) 0
    ∗ semVal (thr d L, SemLoc.dma cc4_scoped0.sem) 0 ∗ semVal (thr d L, SemLoc.dma cc4_scoped1.sem) 0
    ∗ semVal (thr d L, SemLoc.dma cc4_scoped2.sem) 0 ∗ semVal (thr d L, SemLoc.dma cc4_scoped3.sem) 0)

abbrev kern (L : grid4.Coords) := cc4_spmm_kernel (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc4_scoped0 cc4_scoped1 cc4_scoped2 cc4_scoped3

def TileCore (F : FTy → Type) [FloatOps F] : Prop :=
  ∀ (d : Dev nD) (L : grid4.Coords) (q : PosShare TreeShare) (uA : Vec F S1280000 .f32) (srcA dstA : IVec S320000 32),
    (∀ x, (srcA x).toNat < 10000) → (∀ x, (dstA x).toNat < 10000) →
    ∀ (O : CellTallies nD τ sig (HIx 4)) (W : Waits sig (HIx 4)),
    iprop(Transfers.MayWaits (thr d L) (none : HIx 4) O
        ∗ (tcLoc d main_v15 ↦{q} uA) ∗ (tcLoc d main_v1 ↦{q} srcA) ∗ (tcLoc d main_v3 ↦{q} dstA)
        ∗ outPiece (F := F) d L 0 ∗ outPiece (F := F) d L 1 ∗ outPiece (F := F) d L 2 ∗ outPiece (F := F) d L 3
        ∗ scratch20 (F := F) d L ∗ sems7 (F := F) d L ∗ owes (thr d L) O W)
      ⊢ wp frame (wpE (defs₀ (F := F)) 𝒱₀ (thr d L) none) Set.univ (kern (F := F) L)
          fun _ => iprop((tcLoc d main_v15 ↦{q} uA) ∗ (tcLoc d main_v1 ↦{q} srcA) ∗ (tcLoc d main_v3 ↦{q} dstA)
            ∗ outDone d L uA srcA dstA 0 ∗ outDone d L uA srcA dstA 1 ∗ outDone d L uA srcA dstA 2 ∗ outDone d L uA srcA dstA 3
            ∗ scratch20 (F := F) d L ∗ sems7 (F := F) d L ∗ ∃ W', ⌜∀ p ∈ W', p ∈ W ∨ p.2 = none⌝ ∗ owes (thr d L) O W')

end Cert.KernelIdeal.SpmmTile2

end
-- ==== Proof.SpmmRows2.lean ====
import proofs.«213134_g57071525429591_cont_9to1_m_136_24_alg».proof.Proof.SpmmNames2
import proofs.«213134_g57071525429591_cont_9to1_m_136_24_alg».proof.Proof.Pay
import proofs.«213134_g57071525429591_cont_9to1_m_136_24_alg».proof.Proof.Stages

noncomputable section

namespace Cert.KernelIdeal.SpmmTile2

open Cert.KernelIdeal Cert.KernelIdeal.Gen Cert.KernelIdeal.Setup Cert.SpmmVal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

def wOf (L : grid4.Coords) : Fin 32 :=
  ⟨2 * (L 1).val + (L 0).val, by
    have h0 : (L 0).val < 2 := (L 0).isLt
    have h1 : (L 1).val < 16 := (L 1).isLt
    omega⟩

theorem wOf_val (L : grid4.Coords) : (wOf L).val = 2 * (L 1).val + (L 0).val := rfl

theorem wOf_eq (L : grid4.Coords) (c : Fin 2) (i : Fin 16) (h0 : (L 0).val = c.val) (h1 : (L 1).val = i.val) :
    wOf L = tileNo c i :=
  Fin.ext (by show 2 * (L 1).val + (L 0).val = 2 * i.val + c.val; omega)

theorem mem_rowSet (L : grid4.Coords) (k : Fin 4) (p : S1280000.Idx) :
    p ∈ rowSet L k ↔ 40000 * (wOf L).val + 10000 * k.val ≤ (p 0).val ∧ (p 0).val < 40000 * (wOf L).val + 10000 * k.val + 10000 := by
  unfold rowSet rowRect
  rw [Rect.mem_set_unit, Fin.forall_fin_one, k4_off1_eq L k, wOf_val]
  show (80000 * (L 1).val + 40000 * (L 0).val + 10000 * k.val ≤ (p 0).val
      ∧ (p 0).val < 80000 * (L 1).val + 40000 * (L 0).val + 10000 * k.val + 10000) ↔ _
  omega

theorem mem_flatPart (w : Fin 32) (p : S1280000.Idx) :
    p ∈ flatPart w ↔ 40000 * w.val ≤ (p 0).val ∧ (p 0).val < 40000 * w.val + 40000 := by
  show p ∈ (Rect.part (s := S1280000) (a₀ := 0) hdivFlat w).set ↔ _
  rw [Rect.mem_set_unit, Fin.forall_fin_one]
  show (w.val * 40000 ≤ (p 0).val ∧ (p 0).val < w.val * 40000 + 40000) ↔ _
  omega

theorem rowSet_disjoint (L : grid4.Coords) {k k' : Fin 4} (h : k ≠ k') : Disjoint (rowSet L k) (rowSet L k') := by
  rw [Finset.disjoint_left]
  intro p hp hp'
  rw [mem_rowSet] at hp hp'
  have hk : k.val ≠ k'.val := fun e => h (Fin.ext e)
  omega

theorem flatPart_eq (L : grid4.Coords) : flatPart (wOf L) = rowSet L 0 ∪ rowSet L 1 ∪ rowSet L 2 ∪ rowSet L 3 := by
  ext p
  have e0 := mem_rowSet L 0 p
  have e1 := mem_rowSet L 1 p
  have e2 := mem_rowSet L 2 p
  have e3 := mem_rowSet L 3 p
  rw [show ((0 : Fin 4).val) = 0 from rfl] at e0
  rw [show ((1 : Fin 4).val) = 1 from rfl] at e1
  rw [show ((2 : Fin 4).val) = 2 from rfl] at e2
  rw [show ((3 : Fin 4).val) = 3 from rfl] at e3
  rw [Finset.mem_union, Finset.mem_union, Finset.mem_union, e0, e1, e2, e3, mem_flatPart]
  omega

theorem disj01 (L : grid4.Coords) : Disjoint (rowSet L 0) (rowSet L 1) := rowSet_disjoint L (by decide)
theorem disj012 (L : grid4.Coords) : Disjoint (rowSet L 0 ∪ rowSet L 1) (rowSet L 2) :=
  Finset.disjoint_union_left.mpr ⟨rowSet_disjoint L (by decide), rowSet_disjoint L (by decide)⟩
theorem disj0123 (L : grid4.Coords) : Disjoint (rowSet L 0 ∪ rowSet L 1 ∪ rowSet L 2) (rowSet L 3) :=
  Finset.disjoint_union_left.mpr ⟨Finset.disjoint_union_left.mpr ⟨rowSet_disjoint L (by decide), rowSet_disjoint L (by decide)⟩,
    rowSet_disjoint L (by decide)⟩

theorem part_rows (d : Dev nD) (L : grid4.Coords) (f : Vec F S1280000 .f32) :
    (tcLoc d main_v16 ↦[flatPart (wOf L)]{fullShare} f : sProp 𝕄)
      ⊣⊢ iprop((tcLoc d main_v16 ↦[rowSet L 0]{fullShare} f) ∗ (tcLoc d main_v16 ↦[rowSet L 1]{fullShare} f)
          ∗ (tcLoc d main_v16 ↦[rowSet L 2]{fullShare} f) ∗ tcLoc d main_v16 ↦[rowSet L 3]{fullShare} f) := by
  rw [flatPart_eq L]
  constructor
  · refine (pointsTo_union (disj0123 L)).1.trans ?_
    refine (sep_mono_left ((pointsTo_union (disj012 L)).1.trans (sep_mono_left (pointsTo_union (disj01 L)).1))).trans ?_
    iintro ⟨⟨⟨H0, H1⟩, H2⟩, H3⟩
    isplitl [H0]
    · iexact H0
    isplitl [H1]
    · iexact H1
    isplitl [H2]
    · iexact H2
    · iexact H3
  · refine BIBase.Entails.trans ?_ (pointsTo_union (disj0123 L)).2
    refine BIBase.Entails.trans ?_ (sep_mono_left ((sep_mono_left (pointsTo_union (disj01 L)).2).trans (pointsTo_union (disj012 L)).2))
    iintro ⟨H0, H1, H2, H3⟩
    isplitr [H3]
    · isplitr [H2]
      · isplitl [H0]
        · iexact H0
        · iexact H1
      · iexact H2
    · iexact H3

theorem rows_in (d : Dev nD) (L : grid4.Coords) :
    (iprop(∃ f : Vec F S1280000 .f32, tcLoc d main_v16 ↦[flatPart (wOf L)]{fullShare} f) : sProp 𝕄)
      ⊢ iprop(outPiece (F := F) d L 0 ∗ outPiece (F := F) d L 1 ∗ outPiece (F := F) d L 2 ∗ outPiece (F := F) d L 3) := by
  iintro ⟨%f, H⟩
  icases (part_rows d L f).1 $$ H with ⟨H0, H1, H2, H3⟩
  unfold outPiece
  isplitl [H0]
  · iexists f; iexact H0
  isplitl [H1]
  · iexists f; iexact H1
  isplitl [H2]
  · iexists f; iexact H2
  · iexists f; iexact H3

variable [FloatOps F]

theorem emb_val (L : grid4.Coords) (k : Fin 4) (j : S10000.Idx) :
    (((rowRect L k).emb j) 0).val = 40000 * (wOf L).val + 10000 * k.val + (j 0).val := by
  rw [Rect.emb_apply]
  show (k4_off1 L (BitVec.ofNat 32 k.val)) 0 + 1 * (j 0).val = _
  rw [k4_off1_eq L k, wOf_val]
  show 80000 * (L 1).val + 40000 * (L 0).val + 10000 * k.val + 1 * (j 0).val = _
  omega

theorem rowOf_eq (uA : Vec F S1280000 .f32) (L : grid4.Coords) (k : Fin 4) :
    rowOf uA L k = flatRow uA (4 * (wOf L).val + k.val) := by
  funext j
  unfold rowOf flatRow
  have hj : (j 0).val < 10000 := (j 0).isLt
  have hw := (wOf L).isLt
  have hk := k.isLt
  rw [dif_pos (by omega : (4 * (wOf L).val + k.val) * 10000 + (j 0).val < 1280000)]
  congr 1
  funext a
  obtain rfl : a = 0 := Subsingleton.elim _ _
  apply Fin.ext
  rw [emb_val]
  show _ = (4 * (wOf L).val + k.val) * 10000 + (j 0).val
  omega

theorem spmmFlat_row (uA : Vec F S1280000 .f32) (srcA dstA : IVec S320000 32) (L : grid4.Coords) (k : Fin 4) (j : S10000.Idx) :
    spmmFlat uA srcA dstA ((rowRect L k).emb j) = spmmRow (rowOf uA L k) srcA dstA j := by
  unfold spmmFlat
  have hv := emb_val L k j
  have hj : (j 0).val < 10000 := (j 0).isLt
  have hdiv : (((rowRect L k).emb j) 0).val / 10000 = 4 * (wOf L).val + k.val := by rw [hv]; omega
  have hmod : (((rowRect L k).emb j) 0).val % 10000 = (j 0).val := by rw [hv]; omega
  have hl : (Shape.ofLane (d := ![10000]) ⟨(((rowRect L k).emb j) 0).val % 10000, Nat.mod_lt _ (by decide : 0 < 10000)⟩ : S10000.Idx) = j := by
    funext a
    obtain rfl : a = 0 := Subsingleton.elim _ _
    apply Fin.ext
    exact hmod
  rw [hdiv, hl, rowOf_eq]

theorem row_done (d : Dev nD) (L : grid4.Coords) (uA : Vec F S1280000 .f32) (srcA dstA : IVec S320000 32) (k : Fin 4) :
    outDone d L uA srcA dstA k ⊢ (tcLoc d main_v16 ↦[rowSet L k]{fullShare} spmmFlat uA srcA dstA : sProp 𝕄) := by
  unfold outDone
  iintro ⟨%f, %hf, H⟩
  have e : (tcLoc d main_v16 ↦[rowSet L k]{fullShare} f : sProp 𝕄) = tcLoc d main_v16 ↦[rowSet L k]{fullShare} spmmFlat uA srcA dstA :=
    pointsTo_congr fun p hp => by
      obtain ⟨j, rfl⟩ := (rowRect L k).toLoadRect.exists_idx_of_mem hp
      exact (hf j).trans (spmmFlat_row uA srcA dstA L k j).symm
  rw [← e]
  iexact H

theorem rows_out (d : Dev nD) (L : grid4.Coords) (uA : Vec F S1280000 .f32) (srcA dstA : IVec S320000 32)
    (sOut : Vec F S1280000 .f32) (hval : sOut = spmmFlat uA srcA dstA) :
    (iprop(outDone d L uA srcA dstA 0 ∗ outDone d L uA srcA dstA 1 ∗ outDone d L uA srcA dstA 2 ∗ outDone d L uA srcA dstA 3) : sProp 𝕄)
      ⊢ (tcLoc d main_v16 ↦[flatPart (wOf L)]{fullShare} sOut : sProp 𝕄) := by
  subst hval
  exact (BIClass.sep_mono (row_done d L uA srcA dstA 0) (BIClass.sep_mono (row_done d L uA srcA dstA 1)
    (BIClass.sep_mono (row_done d L uA srcA dstA 2) (row_done d L uA srcA dstA 3)))).trans (part_rows d L _).2

end Cert.KernelIdeal.SpmmTile2

end
-- ==== Proof.SpmmObl2.lean ====
import proofs.«213134_g57071525429591_cont_9to1_m_136_24_alg».proof.Proof.SpmmNames2
import proofs.«213134_g57071525429591_cont_9to1_m_136_24_alg».proof.Proof.SpmmRows2
import proofs.«213134_g57071525429591_cont_9to1_m_136_24_alg».proof.Proof.Stages

noncomputable section

namespace Cert.KernelIdeal.SpmmTile2

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

abbrev qCall : Fin 4 := 2
abbrev lblCall : Fin 8 := 4

theorem refs16_nodup : ([bU0, bU1, bU2, bU3, bE0, bE1, bE2, bE3, bO0, bO1, bO2, bO3, bSa, bDa, bSb, bDb] : List (Ref sig .scVector)).Nodup := by decide

theorem sems7_nodup : ([SemLoc.dma semA.sem, SemLoc.dma semB.sem, SemLoc.dma semU.sem, SemLoc.dma cc4_scoped0.sem, SemLoc.dma cc4_scoped1.sem, SemLoc.dma cc4_scoped2.sem, SemLoc.dma cc4_scoped3.sem] : List (SemLoc sig)).Nodup := by decide

theorem sems7_scoped : ∀ s ∈ ([SemLoc.dma semA.sem, SemLoc.dma semB.sem, SemLoc.dma semU.sem, SemLoc.dma cc4_scoped0.sem, SemLoc.dma cc4_scoped1.sem, SemLoc.dma cc4_scoped2.sem, SemLoc.dma cc4_scoped3.sem] : List (SemLoc sig)),
    s.isScoped .scVector = true := by decide

variable {F : FTy → Type}

local notation "𝕄" => MT nD τ sig (HIx 4) (Elt F) ℕ UU ℕ

section Carve

variable (d : Dev nD) (L : grid4.Coords)

abbrev bufsL : List (DevRef τ sig) :=
  [bU0, bU1, bU2, bU3, bE0, bE1, bE2, bE3, bO0, bO1, bO2, bO3, bSa, bDa, bSb, bDb].map (Proc.devRef (Proc.scVector ((L 0).castLE hcore4) ((L 1).castLE hsub4) : Proc τ))

abbrev semsL : List (GSem nD τ sig) :=
  [SemLoc.dma semA.sem, SemLoc.dma semB.sem, SemLoc.dma semU.sem, SemLoc.dma cc4_scoped0.sem, SemLoc.dma cc4_scoped1.sem, SemLoc.dma cc4_scoped2.sem, SemLoc.dma cc4_scoped3.sem].map fun s : SemLoc sig => ((thr d L, s) : GSem nD τ sig)

theorem bufsL_nodup : (bufsL L).Nodup :=
  List.Nodup.map (Proc.devRef_injective _) refs16_nodup

theorem semsL_nodup : (semsL d L).Nodup :=
  List.Nodup.map (fun _ _ h => (Prod.mk.inj h).2) sems7_nodup

theorem bufsL_sub : (bufsL L).toFinset ⊆ ownRefs (τ := τ) (.scVector ((L 0).castLE hcore4) ((L 1).castLE hsub4)) := by
  intro b hb
  rw [List.mem_toFinset, List.mem_map] at hb
  obtain ⟨r, hr, rfl⟩ := hb
  simp only [List.mem_cons, List.not_mem_nil, or_false] at hr
  rcases hr with rfl | rfl | rfl | rfl | rfl | rfl | rfl | rfl | rfl | rfl | rfl | rfl | rfl | rfl | rfl | rfl <;>
    exact SparseCore.Cfg.mem_ownRefs_of_owner rfl

theorem semsL_sub : (semsL d L).toFinset ⊆ ownCells (thr d L) := by
  intro g hg
  rw [List.mem_toFinset, List.mem_map] at hg
  obtain ⟨s, hs, rfl⟩ := hg
  exact mem_ownCells.mpr ⟨rfl, sems7_scoped s hs⟩

theorem ownBufs_carve :
    (ownBufs (thr d L) : sProp 𝕄)
      = iprop(scratch20 (F := F) d L ∗ bigSep (ownRefs (τ := τ) (.scVector ((L 0).castLE hcore4) ((L 1).castLE hsub4)) \ (bufsL L).toFinset)
          fun b => iprop(∃ f, ((d, b) : Loc nD τ sig) ↦{fullShare} f)) := by
  unfold SparseCore.Cfg.ownBufs
  rw [SparseCore.bigSep_sdiff_split' (bufsL_sub L), bigSep_eq_bigSepL _ (bufsL_nodup L)]
  rfl

theorem ownSems0_carve :
    (ownSems0 (thr d L) : sProp 𝕄)
      = iprop(sems7 (F := F) d L ∗ bigSep (ownCells (thr d L) \ (semsL d L).toFinset) fun g => semVal g 0) := by
  unfold SparseCore.Cfg.ownSems0
  rw [SparseCore.bigSep_sdiff_split' (semsL_sub d L), bigSep_eq_bigSepL _ (semsL_nodup d L)]
  rfl

end Carve

variable [FloatOps F]

theorem tile_wrap (hF : (K (F := F)).Facts) (core : TileCore F)
    (sv : Dev nD → StageVals F) (hval : ∀ d, (sv d).s 1 = spmmFlat ((sv d).u 1) (sv d).src (sv d).dst)
    (hsrc : ∀ d x, ((sv d).src x).toNat < 10000) (hdst : ∀ d x, ((sv d).dst x).toNat < 10000)
    (d : Dev nD) (L : grid4.Coords) (w : Fin 32) (hw : wOf L = w)
    (O : CellTallies nD τ sig (HIx 4)) (W : Waits sig (HIx 4)) (hO : ∀ g, O g none = 0) :
    iprop(levAts (K (F := F)).L (K (F := F)).lev ∗ iprop(emp) ∗ goSpmm2 sv d w ∗ scopedBufs (thr d L) ∗ scopedSems0 (thr d L) ∗ owes (thr d L) O W)
      ⊢ wp frame (wpE (defs₀ (F := F)) 𝒱₀ (thr d L) none) Set.univ (kern (F := F) L)
          fun _ => iprop(tdSpmm2 sv d w ∗ scopedBufs (thr d L) ∗ scopedSems0 (thr d L)
            ∗ ∃ W', ⌜∀ p ∈ W', p ∈ W ∨ p.2 = none⌝ ∗ owes (thr d L) O W') := by
  subst hw
  rw [(K (F := F)).scopedBufs_V hF d _ _, SparseCore.Cfg.scopedSems0_V (Val := Elt F) d _ _, ownSems0_carve, ownBufs_carve]
  unfold goSpmm2 tdSpmm2
  iintro ⟨#Hlv, -, ⟨Hu, Hs, Hd, Ho⟩, ⟨Hscr, Hbufs⟩, ⟨Hsems, Hsemrest⟩, HO⟩
  ihave Hrows := (rows_in (F := F) d L) $$ Ho
  icases Hrows with ⟨Ho0, Ho1, Ho2, Ho3⟩
  ihave Hmw := ((K (F := F)).mayWaits_none (thr := thr d L) hO) $$ Hlv
  iapply (wp_wand_r frame _ Set.univ)
  isplitl [Hmw Hu Hs Hd Ho0 Ho1 Ho2 Ho3 Hscr Hsems HO]
  · iapply (core d L (rdShare (wOf L)) ((sv d).u 1) (sv d).src (sv d).dst (hsrc d) (hdst d) O W)
    isplitl [Hmw]; · iexact Hmw
    isplitl [Hu]; · iexact Hu
    isplitl [Hs]; · iexact Hs
    isplitl [Hd]; · iexact Hd
    isplitl [Ho0]; · iexact Ho0
    isplitl [Ho1]; · iexact Ho1
    isplitl [Ho2]; · iexact Ho2
    isplitl [Ho3]; · iexact Ho3
    isplitl [Hscr]; · iexact Hscr
    isplitl [Hsems]; · iexact Hsems
    iexact HO
  iintro %_ ⟨Hu, Hs, Hd, Ho0, Ho1, Ho2, Ho3, Hscr, Hsems, HO⟩
  ihave Ho := (rows_out d L ((sv d).u 1) (sv d).src (sv d).dst ((sv d).s 1) (hval d)) $$ [Ho0 Ho1 Ho2 Ho3]
  · isplitl [Ho0]; · iexact Ho0
    isplitl [Ho1]; · iexact Ho1
    isplitl [Ho2]; · iexact Ho2
    iexact Ho3
  isplitl [Hu Hs Hd Ho]
  · isplitl [Hu]; · iexact Hu
    isplitl [Hs]; · iexact Hs
    isplitl [Hd]; · iexact Hd
    iexact Ho
  isplitl [Hscr Hbufs]
  · isplitl [Hscr]; · iexact Hscr
    iexact Hbufs
  isplitl [Hsems Hsemrest]
  · isplitl [Hsems]; · iexact Hsems
    iexact Hsemrest
  iexact HO

def coordsV (c : Fin (grid4.bound 0)) (s : Fin (grid4.bound 1)) : grid4.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) lblCall ()
      = SparseCore.onTile hcore4 hsub4 (fun c s => kern (F := F) (coordsV c s)) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (core : TileCore F)
    (sv : Dev nD → StageVals F) (hval : ∀ d, (sv d).s 1 = spmmFlat ((sv d).u 1) (sv d).src (sv d).dst)
    (hsrc : ∀ d x, ((sv d).src x).toNat < 10000) (hdst : ∀ d x, ((sv d).dst x).toNat < 10000) :
    (K (F := F)).TileObl (D (F := F)) 𝒱 (P sv) v₀ qCall := by
  intro d c i O W hO _ _
  simp only [show (P sv).ox = fun _ _ => 0 from rfl, add_zero]
  change _ ⊢ wp _ _ _ (Pipeline.liftProg (defs₀ (F := F) (.scVector ((K (F := F)).core qCall c) ((K (F := F)).sub qCall i)) lblCall ())) _
  refine BI.Entails.trans ?_ (Pipeline.wp_liftProg (D (F := F)) (Pipeline.defs_kernel pcfgs defs₀) 𝒱₀ _ Set.univ none _ _)
  have hc : ((K (F := F)).core qCall c).val < grid4.bound 0 ∧ ((K (F := F)).sub qCall i).val < grid4.bound 1 := ⟨c.isLt, i.isLt⟩
  rw [defs₀_vector]; simp only [SparseCore.onTile, hc, and_self, ↓reduceDIte]
  exact (tile_wrap facts core sv hval hsrc hdst d (coordsV ⟨_, hc.1⟩ ⟨_, hc.2⟩) (tileNo (coreIx qCall c) (subIx qCall i))
      (wOf_eq _ (coreIx qCall c) (subIx qCall i) rfl rfl) O W hO).trans
    (wp_mono frame _ _ fun _ => obl_post)

end Cert.KernelIdeal.SpmmTile2

end
-- ==== Proof.SpmmNames3.lean ====
import proofs.«213134_g57071525429591_cont_9to1_m_136_24_alg».proof.Proof.Setup
import proofs.«213134_g57071525429591_cont_9to1_m_136_24_alg».proof.Proof.SpmmVal
import Idealize.ShloMosaic.Lib.Batch
import Idealize.ShloMosaic.Lib.SparseCore.Ops

noncomputable section

namespace Cert.KernelIdeal.SpmmTile3

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev mU : Memref sig .scVector .hbm S1280000 .f32 := Memref.whole main_v19_scv
abbrev mS : Memref sig .scVector .hbm S320000 .i32 := Memref.whole main_v1_scv
abbrev mD : Memref sig .scVector .hbm S320000 .i32 := Memref.whole main_v3_scv
abbrev mO : Memref sig .scVector .hbm S1280000 .f32 := Memref.whole main_v20_scv
abbrev bU0 : Ref sig .scVector := cc6_scratch0
abbrev bU1 : Ref sig .scVector := cc6_scratch1
abbrev bU2 : Ref sig .scVector := cc6_scratch2
abbrev bU3 : Ref sig .scVector := cc6_scratch3
abbrev bE0 : Ref sig .scVector := cc6_scratch4
abbrev bE1 : Ref sig .scVector := cc6_scratch5
abbrev bE2 : Ref sig .scVector := cc6_scratch6
abbrev bE3 : Ref sig .scVector := cc6_scratch7
abbrev bO0 : Ref sig .scVector := cc6_scratch8
abbrev bO1 : Ref sig .scVector := cc6_scratch9
abbrev bO2 : Ref sig .scVector := cc6_scratch10
abbrev bO3 : Ref sig .scVector := cc6_scratch11
abbrev bSa : Ref sig .scVector := cc6_scratch12
abbrev bDa : Ref sig .scVector := cc6_scratch13
abbrev bSb : Ref sig .scVector := cc6_scratch14
abbrev bDb : Ref sig .scVector := cc6_scratch15
abbrev semA : DmaSems sig S_ := cc6_scratch16
abbrev semB : DmaSems sig S_ := cc6_scratch17
abbrev semU : DmaSems sig S_ := cc6_scratch18
abbrev mU0 : Memref sig .scVector .vmem S10000 .f32 := Memref.whole bU0
abbrev mU1 : Memref sig .scVector .vmem S10000 .f32 := Memref.whole bU1
abbrev mU2 : Memref sig .scVector .vmem S10000 .f32 := Memref.whole bU2
abbrev mU3 : Memref sig .scVector .vmem S10000 .f32 := Memref.whole bU3
abbrev mE0 : Memref sig .scVector .vmem S10000 .f32 := Memref.whole bE0
abbrev mE1 : Memref sig .scVector .vmem S10000 .f32 := Memref.whole bE1
abbrev mE2 : Memref sig .scVector .vmem S10000 .f32 := Memref.whole bE2
abbrev mE3 : Memref sig .scVector .vmem S10000 .f32 := Memref.whole bE3
abbrev mO0 : Memref sig .scVector .vmem S10000 .f32 := Memref.whole bO0
abbrev mO1 : Memref sig .scVector .vmem S10000 .f32 := Memref.whole bO1
abbrev mO2 : Memref sig .scVector .vmem S10000 .f32 := Memref.whole bO2
abbrev mO3 : Memref sig .scVector .vmem S10000 .f32 := Memref.whole bO3
abbrev mSa : Memref sig .scVector .vmem S1600 .i32 := Memref.whole bSa
abbrev mDa : Memref sig .scVector .vmem S1600 .i32 := Memref.whole bDa
abbrev mSb : Memref sig .scVector .vmem S1600 .i32 := Memref.whole bSb
abbrev mDb : Memref sig .scVector .vmem S1600 .i32 := Memref.whole bDb

abbrev thr (d : Dev nD) (L : grid6.Coords) : Thread nD τ := V d ((L 0).castLE hcore6) ((L 1).castLE hsub6)

variable [FloatOps F]

abbrev uSl0 (L : grid6.Coords) : Memref sig .scVector .hbm S10000 .f32 := mU.slice (Rect.unit (s := S1280000) (k6_off1 L 0#32) S10000.size (k6_off1_inb L 0)) (fun _ => rfl)
abbrev uSl1 (L : grid6.Coords) : Memref sig .scVector .hbm S10000 .f32 := mU.slice (Rect.unit (s := S1280000) (k6_off1 L 1#32) S10000.size (k6_off1_inb L 1)) (fun _ => rfl)
abbrev uSl2 (L : grid6.Coords) : Memref sig .scVector .hbm S10000 .f32 := mU.slice (Rect.unit (s := S1280000) (k6_off1 L 2#32) S10000.size (k6_off1_inb L 2)) (fun _ => rfl)
abbrev uSl3 (L : grid6.Coords) : Memref sig .scVector .hbm S10000 .f32 := mU.slice (Rect.unit (s := S1280000) (k6_off1 L 3#32) S10000.size (k6_off1_inb L 3)) (fun _ => rfl)
abbrev oSl0 (L : grid6.Coords) : Memref sig .scVector .hbm S10000 .f32 := mO.slice (Rect.unit (s := S1280000) (k6_off1 L 0#32) S10000.size (k6_off1_inb L 0)) (fun _ => rfl)
abbrev oSl1 (L : grid6.Coords) : Memref sig .scVector .hbm S10000 .f32 := mO.slice (Rect.unit (s := S1280000) (k6_off1 L 1#32) S10000.size (k6_off1_inb L 1)) (fun _ => rfl)
abbrev oSl2 (L : grid6.Coords) : Memref sig .scVector .hbm S10000 .f32 := mO.slice (Rect.unit (s := S1280000) (k6_off1 L 2#32) S10000.size (k6_off1_inb L 2)) (fun _ => rfl)
abbrev oSl3 (L : grid6.Coords) : Memref sig .scVector .hbm S10000 .f32 := mO.slice (Rect.unit (s := S1280000) (k6_off1 L 3#32) S10000.size (k6_off1_inb L 3)) (fun _ => rfl)

abbrev rowRect (L : grid6.Coords) (k : Fin 4) : Rect S1280000 := Rect.unit (s := S1280000) (k6_off1 L (BitVec.ofNat 32 k.val)) S10000.size (k6_off1_inb L k)

def rowSet (L : grid6.Coords) (k : Fin 4) : Finset S1280000.Idx := (rowRect L k).set

def rowOf (a : Vec F S1280000 .f32) (L : grid6.Coords) (k : Fin 4) : Vec F S10000 .f32 := fun j => a ((rowRect L k).emb j)

def outPiece (d : Dev nD) (L : grid6.Coords) (k : Fin 4) : sProp 𝕄 := iprop(∃ f : Vec F S1280000 .f32, tcLoc d main_v20 ↦[rowSet L k]{fullShare} f)

def outDone (d : Dev nD) (L : grid6.Coords) (uA : Vec F S1280000 .f32) (srcA dstA : IVec S320000 32) (k : Fin 4) : sProp 𝕄 :=
  iprop(∃ f : Vec F S1280000 .f32, ⌜∀ j : S10000.Idx, f ((rowRect L k).emb j) = spmmRow (rowOf uA L k) srcA dstA j⌝ ∗ tcLoc d main_v20 ↦[rowSet L k]{fullShare} f)

def scratch20 (d : Dev nD) (L : grid6.Coords) : sProp 𝕄 :=
  iprop((∃ f : Vec F S10000 .f32, (thr d L).loc bU0 ↦{fullShare} f) ∗ (∃ f : Vec F S10000 .f32, (thr d L).loc bU1 ↦{fullShare} f)
    ∗ (∃ f : Vec F S10000 .f32, (thr d L).loc bU2 ↦{fullShare} f) ∗ (∃ f : Vec F S10000 .f32, (thr d L).loc bU3 ↦{fullShare} f)
    ∗ (∃ f : Vec F S10000 .f32, (thr d L).loc bE0 ↦{fullShare} f) ∗ (∃ f : Vec F S10000 .f32, (thr d L).loc bE1 ↦{fullShare} f)
    ∗ (∃ f : Vec F S10000 .f32, (thr d L).loc bE2 ↦{fullShare} f) ∗ (∃ f : Vec F S10000 .f32, (thr d L).loc bE3 ↦{fullShare} f)
    ∗ (∃ f : Vec F S10000 .f32, (thr d L).loc bO0 ↦{fullShare} f) ∗ (∃ f : Vec F S10000 .f32, (thr d L).loc bO1 ↦{fullShare} f)
    ∗ (∃ f : Vec F S10000 .f32, (thr d L).loc bO2 ↦{fullShare} f) ∗ (∃ f : Vec F S10000 .f32, (thr d L).loc bO3 ↦{fullShare} f)
    ∗ (∃ f : IVec S1600 32, (thr d L).loc bSa ↦{fullShare} f) ∗ (∃ f : IVec S1600 32, (thr d L).loc bDa ↦{fullShare} f)
    ∗ (∃ f : IVec S1600 32, (thr d L).loc bSb ↦{fullShare} f) ∗ (∃ f : IVec S1600 32, (thr d L).loc bDb ↦{fullShare} f))

def sems7 (d : Dev nD) (L : grid6.Coords) : sProp 𝕄 :=
  iprop(semVal (thr d L, SemLoc.dma semA.sem) 0 ∗ semVal (thr d L, SemLoc.dma semB.sem) 0 ∗ semVal (thr d L, SemLoc.dma semU.sem) 0
    ∗ semVal (thr d L, SemLoc.dma cc6_scoped0.sem) 0 ∗ semVal (thr d L, SemLoc.dma cc6_scoped1.sem) 0
    ∗ semVal (thr d L, SemLoc.dma cc6_scoped2.sem) 0 ∗ semVal (thr d L, SemLoc.dma cc6_scoped3.sem) 0)

abbrev kern (L : grid6.Coords) := cc6_spmm_kernel (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc6_scoped0 cc6_scoped1 cc6_scoped2 cc6_scoped3

def TileCore (F : FTy → Type) [FloatOps F] : Prop :=
  ∀ (d : Dev nD) (L : grid6.Coords) (q : PosShare TreeShare) (uA : Vec F S1280000 .f32) (srcA dstA : IVec S320000 32),
    (∀ x, (srcA x).toNat < 10000) → (∀ x, (dstA x).toNat < 10000) →
    ∀ (O : CellTallies nD τ sig (HIx 4)) (W : Waits sig (HIx 4)),
    iprop(Transfers.MayWaits (thr d L) (none : HIx 4) O
        ∗ (tcLoc d main_v19 ↦{q} uA) ∗ (tcLoc d main_v1 ↦{q} srcA) ∗ (tcLoc d main_v3 ↦{q} dstA)
        ∗ outPiece (F := F) d L 0 ∗ outPiece (F := F) d L 1 ∗ outPiece (F := F) d L 2 ∗ outPiece (F := F) d L 3
        ∗ scratch20 (F := F) d L ∗ sems7 (F := F) d L ∗ owes (thr d L) O W)
      ⊢ wp frame (wpE (defs₀ (F := F)) 𝒱₀ (thr d L) none) Set.univ (kern (F := F) L)
          fun _ => iprop((tcLoc d main_v19 ↦{q} uA) ∗ (tcLoc d main_v1 ↦{q} srcA) ∗ (tcLoc d main_v3 ↦{q} dstA)
            ∗ outDone d L uA srcA dstA 0 ∗ outDone d L uA srcA dstA 1 ∗ outDone d L uA srcA dstA 2 ∗ outDone d L uA srcA dstA 3
            ∗ scratch20 (F := F) d L ∗ sems7 (F := F) d L ∗ ∃ W', ⌜∀ p ∈ W', p ∈ W ∨ p.2 = none⌝ ∗ owes (thr d L) O W')

end Cert.KernelIdeal.SpmmTile3

end
-- ==== Proof.SpmmRows3.lean ====
import proofs.«213134_g57071525429591_cont_9to1_m_136_24_alg».proof.Proof.SpmmNames3
import proofs.«213134_g57071525429591_cont_9to1_m_136_24_alg».proof.Proof.Pay
import proofs.«213134_g57071525429591_cont_9to1_m_136_24_alg».proof.Proof.Stages

noncomputable section

namespace Cert.KernelIdeal.SpmmTile3

open Cert.KernelIdeal Cert.KernelIdeal.Gen Cert.KernelIdeal.Setup Cert.SpmmVal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

def wOf (L : grid6.Coords) : Fin 32 :=
  ⟨2 * (L 1).val + (L 0).val, by
    have h0 : (L 0).val < 2 := (L 0).isLt
    have h1 : (L 1).val < 16 := (L 1).isLt
    omega⟩

theorem wOf_val (L : grid6.Coords) : (wOf L).val = 2 * (L 1).val + (L 0).val := rfl

theorem wOf_eq (L : grid6.Coords) (c : Fin 2) (i : Fin 16) (h0 : (L 0).val = c.val) (h1 : (L 1).val = i.val) :
    wOf L = tileNo c i :=
  Fin.ext (by show 2 * (L 1).val + (L 0).val = 2 * i.val + c.val; omega)

theorem mem_rowSet (L : grid6.Coords) (k : Fin 4) (p : S1280000.Idx) :
    p ∈ rowSet L k ↔ 40000 * (wOf L).val + 10000 * k.val ≤ (p 0).val ∧ (p 0).val < 40000 * (wOf L).val + 10000 * k.val + 10000 := by
  unfold rowSet rowRect
  rw [Rect.mem_set_unit, Fin.forall_fin_one, k6_off1_eq L k, wOf_val]
  show (80000 * (L 1).val + 40000 * (L 0).val + 10000 * k.val ≤ (p 0).val
      ∧ (p 0).val < 80000 * (L 1).val + 40000 * (L 0).val + 10000 * k.val + 10000) ↔ _
  omega

theorem mem_flatPart (w : Fin 32) (p : S1280000.Idx) :
    p ∈ flatPart w ↔ 40000 * w.val ≤ (p 0).val ∧ (p 0).val < 40000 * w.val + 40000 := by
  show p ∈ (Rect.part (s := S1280000) (a₀ := 0) hdivFlat w).set ↔ _
  rw [Rect.mem_set_unit, Fin.forall_fin_one]
  show (w.val * 40000 ≤ (p 0).val ∧ (p 0).val < w.val * 40000 + 40000) ↔ _
  omega

theorem rowSet_disjoint (L : grid6.Coords) {k k' : Fin 4} (h : k ≠ k') : Disjoint (rowSet L k) (rowSet L k') := by
  rw [Finset.disjoint_left]
  intro p hp hp'
  rw [mem_rowSet] at hp hp'
  have hk : k.val ≠ k'.val := fun e => h (Fin.ext e)
  omega

theorem flatPart_eq (L : grid6.Coords) : flatPart (wOf L) = rowSet L 0 ∪ rowSet L 1 ∪ rowSet L 2 ∪ rowSet L 3 := by
  ext p
  have e0 := mem_rowSet L 0 p
  have e1 := mem_rowSet L 1 p
  have e2 := mem_rowSet L 2 p
  have e3 := mem_rowSet L 3 p
  rw [show ((0 : Fin 4).val) = 0 from rfl] at e0
  rw [show ((1 : Fin 4).val) = 1 from rfl] at e1
  rw [show ((2 : Fin 4).val) = 2 from rfl] at e2
  rw [show ((3 : Fin 4).val) = 3 from rfl] at e3
  rw [Finset.mem_union, Finset.mem_union, Finset.mem_union, e0, e1, e2, e3, mem_flatPart]
  omega

theorem disj01 (L : grid6.Coords) : Disjoint (rowSet L 0) (rowSet L 1) := rowSet_disjoint L (by decide)
theorem disj012 (L : grid6.Coords) : Disjoint (rowSet L 0 ∪ rowSet L 1) (rowSet L 2) :=
  Finset.disjoint_union_left.mpr ⟨rowSet_disjoint L (by decide), rowSet_disjoint L (by decide)⟩
theorem disj0123 (L : grid6.Coords) : Disjoint (rowSet L 0 ∪ rowSet L 1 ∪ rowSet L 2) (rowSet L 3) :=
  Finset.disjoint_union_left.mpr ⟨Finset.disjoint_union_left.mpr ⟨rowSet_disjoint L (by decide), rowSet_disjoint L (by decide)⟩,
    rowSet_disjoint L (by decide)⟩

theorem part_rows (d : Dev nD) (L : grid6.Coords) (f : Vec F S1280000 .f32) :
    (tcLoc d main_v20 ↦[flatPart (wOf L)]{fullShare} f : sProp 𝕄)
      ⊣⊢ iprop((tcLoc d main_v20 ↦[rowSet L 0]{fullShare} f) ∗ (tcLoc d main_v20 ↦[rowSet L 1]{fullShare} f)
          ∗ (tcLoc d main_v20 ↦[rowSet L 2]{fullShare} f) ∗ tcLoc d main_v20 ↦[rowSet L 3]{fullShare} f) := by
  rw [flatPart_eq L]
  constructor
  · refine (pointsTo_union (disj0123 L)).1.trans ?_
    refine (sep_mono_left ((pointsTo_union (disj012 L)).1.trans (sep_mono_left (pointsTo_union (disj01 L)).1))).trans ?_
    iintro ⟨⟨⟨H0, H1⟩, H2⟩, H3⟩
    isplitl [H0]
    · iexact H0
    isplitl [H1]
    · iexact H1
    isplitl [H2]
    · iexact H2
    · iexact H3
  · refine BIBase.Entails.trans ?_ (pointsTo_union (disj0123 L)).2
    refine BIBase.Entails.trans ?_ (sep_mono_left ((sep_mono_left (pointsTo_union (disj01 L)).2).trans (pointsTo_union (disj012 L)).2))
    iintro ⟨H0, H1, H2, H3⟩
    isplitr [H3]
    · isplitr [H2]
      · isplitl [H0]
        · iexact H0
        · iexact H1
      · iexact H2
    · iexact H3

theorem rows_in (d : Dev nD) (L : grid6.Coords) :
    (iprop(∃ f : Vec F S1280000 .f32, tcLoc d main_v20 ↦[flatPart (wOf L)]{fullShare} f) : sProp 𝕄)
      ⊢ iprop(outPiece (F := F) d L 0 ∗ outPiece (F := F) d L 1 ∗ outPiece (F := F) d L 2 ∗ outPiece (F := F) d L 3) := by
  iintro ⟨%f, H⟩
  icases (part_rows d L f).1 $$ H with ⟨H0, H1, H2, H3⟩
  unfold outPiece
  isplitl [H0]
  · iexists f; iexact H0
  isplitl [H1]
  · iexists f; iexact H1
  isplitl [H2]
  · iexists f; iexact H2
  · iexists f; iexact H3

variable [FloatOps F]

theorem emb_val (L : grid6.Coords) (k : Fin 4) (j : S10000.Idx) :
    (((rowRect L k).emb j) 0).val = 40000 * (wOf L).val + 10000 * k.val + (j 0).val := by
  rw [Rect.emb_apply]
  show (k6_off1 L (BitVec.ofNat 32 k.val)) 0 + 1 * (j 0).val = _
  rw [k6_off1_eq L k, wOf_val]
  show 80000 * (L 1).val + 40000 * (L 0).val + 10000 * k.val + 1 * (j 0).val = _
  omega

theorem rowOf_eq (uA : Vec F S1280000 .f32) (L : grid6.Coords) (k : Fin 4) :
    rowOf uA L k = flatRow uA (4 * (wOf L).val + k.val) := by
  funext j
  unfold rowOf flatRow
  have hj : (j 0).val < 10000 := (j 0).isLt
  have hw := (wOf L).isLt
  have hk := k.isLt
  rw [dif_pos (by omega : (4 * (wOf L).val + k.val) * 10000 + (j 0).val < 1280000)]
  congr 1
  funext a
  obtain rfl : a = 0 := Subsingleton.elim _ _
  apply Fin.ext
  rw [emb_val]
  show _ = (4 * (wOf L).val + k.val) * 10000 + (j 0).val
  omega

theorem spmmFlat_row (uA : Vec F S1280000 .f32) (srcA dstA : IVec S320000 32) (L : grid6.Coords) (k : Fin 4) (j : S10000.Idx) :
    spmmFlat uA srcA dstA ((rowRect L k).emb j) = spmmRow (rowOf uA L k) srcA dstA j := by
  unfold spmmFlat
  have hv := emb_val L k j
  have hj : (j 0).val < 10000 := (j 0).isLt
  have hdiv : (((rowRect L k).emb j) 0).val / 10000 = 4 * (wOf L).val + k.val := by rw [hv]; omega
  have hmod : (((rowRect L k).emb j) 0).val % 10000 = (j 0).val := by rw [hv]; omega
  have hl : (Shape.ofLane (d := ![10000]) ⟨(((rowRect L k).emb j) 0).val % 10000, Nat.mod_lt _ (by decide : 0 < 10000)⟩ : S10000.Idx) = j := by
    funext a
    obtain rfl : a = 0 := Subsingleton.elim _ _
    apply Fin.ext
    exact hmod
  rw [hdiv, hl, rowOf_eq]

theorem row_done (d : Dev nD) (L : grid6.Coords) (uA : Vec F S1280000 .f32) (srcA dstA : IVec S320000 32) (k : Fin 4) :
    outDone d L uA srcA dstA k ⊢ (tcLoc d main_v20 ↦[rowSet L k]{fullShare} spmmFlat uA srcA dstA : sProp 𝕄) := by
  unfold outDone
  iintro ⟨%f, %hf, H⟩
  have e : (tcLoc d main_v20 ↦[rowSet L k]{fullShare} f : sProp 𝕄) = tcLoc d main_v20 ↦[rowSet L k]{fullShare} spmmFlat uA srcA dstA :=
    pointsTo_congr fun p hp => by
      obtain ⟨j, rfl⟩ := (rowRect L k).toLoadRect.exists_idx_of_mem hp
      exact (hf j).trans (spmmFlat_row uA srcA dstA L k j).symm
  rw [← e]
  iexact H

theorem rows_out (d : Dev nD) (L : grid6.Coords) (uA : Vec F S1280000 .f32) (srcA dstA : IVec S320000 32)
    (sOut : Vec F S1280000 .f32) (hval : sOut = spmmFlat uA srcA dstA) :
    (iprop(outDone d L uA srcA dstA 0 ∗ outDone d L uA srcA dstA 1 ∗ outDone d L uA srcA dstA 2 ∗ outDone d L uA srcA dstA 3) : sProp 𝕄)
      ⊢ (tcLoc d main_v20 ↦[flatPart (wOf L)]{fullShare} sOut : sProp 𝕄) := by
  subst hval
  exact (BIClass.sep_mono (row_done d L uA srcA dstA 0) (BIClass.sep_mono (row_done d L uA srcA dstA 1)
    (BIClass.sep_mono (row_done d L uA srcA dstA 2) (row_done d L uA srcA dstA 3)))).trans (part_rows d L _).2

end Cert.KernelIdeal.SpmmTile3

end
-- ==== Proof.SpmmObl3.lean ====
import proofs.«213134_g57071525429591_cont_9to1_m_136_24_alg».proof.Proof.SpmmNames3
import proofs.«213134_g57071525429591_cont_9to1_m_136_24_alg».proof.Proof.SpmmRows3
import proofs.«213134_g57071525429591_cont_9to1_m_136_24_alg».proof.Proof.Stages

noncomputable section

namespace Cert.KernelIdeal.SpmmTile3

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

abbrev qCall : Fin 4 := 3
abbrev lblCall : Fin 8 := 6

theorem refs16_nodup : ([bU0, bU1, bU2, bU3, bE0, bE1, bE2, bE3, bO0, bO1, bO2, bO3, bSa, bDa, bSb, bDb] : List (Ref sig .scVector)).Nodup := by decide

theorem sems7_nodup : ([SemLoc.dma semA.sem, SemLoc.dma semB.sem, SemLoc.dma semU.sem, SemLoc.dma cc6_scoped0.sem, SemLoc.dma cc6_scoped1.sem, SemLoc.dma cc6_scoped2.sem, SemLoc.dma cc6_scoped3.sem] : List (SemLoc sig)).Nodup := by decide

theorem sems7_scoped : ∀ s ∈ ([SemLoc.dma semA.sem, SemLoc.dma semB.sem, SemLoc.dma semU.sem, SemLoc.dma cc6_scoped0.sem, SemLoc.dma cc6_scoped1.sem, SemLoc.dma cc6_scoped2.sem, SemLoc.dma cc6_scoped3.sem] : List (SemLoc sig)),
    s.isScoped .scVector = true := by decide

variable {F : FTy → Type}

local notation "𝕄" => MT nD τ sig (HIx 4) (Elt F) ℕ UU ℕ

section Carve

variable (d : Dev nD) (L : grid6.Coords)

abbrev bufsL : List (DevRef τ sig) :=
  [bU0, bU1, bU2, bU3, bE0, bE1, bE2, bE3, bO0, bO1, bO2, bO3, bSa, bDa, bSb, bDb].map (Proc.devRef (Proc.scVector ((L 0).castLE hcore6) ((L 1).castLE hsub6) : Proc τ))

abbrev semsL : List (GSem nD τ sig) :=
  [SemLoc.dma semA.sem, SemLoc.dma semB.sem, SemLoc.dma semU.sem, SemLoc.dma cc6_scoped0.sem, SemLoc.dma cc6_scoped1.sem, SemLoc.dma cc6_scoped2.sem, SemLoc.dma cc6_scoped3.sem].map fun s : SemLoc sig => ((thr d L, s) : GSem nD τ sig)

theorem bufsL_nodup : (bufsL L).Nodup :=
  List.Nodup.map (Proc.devRef_injective _) refs16_nodup

theorem semsL_nodup : (semsL d L).Nodup :=
  List.Nodup.map (fun _ _ h => (Prod.mk.inj h).2) sems7_nodup

theorem bufsL_sub : (bufsL L).toFinset ⊆ ownRefs (τ := τ) (.scVector ((L 0).castLE hcore6) ((L 1).castLE hsub6)) := by
  intro b hb
  rw [List.mem_toFinset, List.mem_map] at hb
  obtain ⟨r, hr, rfl⟩ := hb
  simp only [List.mem_cons, List.not_mem_nil, or_false] at hr
  rcases hr with rfl | rfl | rfl | rfl | rfl | rfl | rfl | rfl | rfl | rfl | rfl | rfl | rfl | rfl | rfl | rfl <;>
    exact SparseCore.Cfg.mem_ownRefs_of_owner rfl

theorem semsL_sub : (semsL d L).toFinset ⊆ ownCells (thr d L) := by
  intro g hg
  rw [List.mem_toFinset, List.mem_map] at hg
  obtain ⟨s, hs, rfl⟩ := hg
  exact mem_ownCells.mpr ⟨rfl, sems7_scoped s hs⟩

theorem ownBufs_carve :
    (ownBufs (thr d L) : sProp 𝕄)
      = iprop(scratch20 (F := F) d L ∗ bigSep (ownRefs (τ := τ) (.scVector ((L 0).castLE hcore6) ((L 1).castLE hsub6)) \ (bufsL L).toFinset)
          fun b => iprop(∃ f, ((d, b) : Loc nD τ sig) ↦{fullShare} f)) := by
  unfold SparseCore.Cfg.ownBufs
  rw [SparseCore.bigSep_sdiff_split' (bufsL_sub L), bigSep_eq_bigSepL _ (bufsL_nodup L)]
  rfl

theorem ownSems0_carve :
    (ownSems0 (thr d L) : sProp 𝕄)
      = iprop(sems7 (F := F) d L ∗ bigSep (ownCells (thr d L) \ (semsL d L).toFinset) fun g => semVal g 0) := by
  unfold SparseCore.Cfg.ownSems0
  rw [SparseCore.bigSep_sdiff_split' (semsL_sub d L), bigSep_eq_bigSepL _ (semsL_nodup d L)]
  rfl

end Carve

variable [FloatOps F]

theorem tile_wrap (hF : (K (F := F)).Facts) (core : TileCore F)
    (sv : Dev nD → StageVals F) (hval : ∀ d, (sv d).s 2 = spmmFlat ((sv d).u 2) (sv d).src (sv d).dst)
    (hsrc : ∀ d x, ((sv d).src x).toNat < 10000) (hdst : ∀ d x, ((sv d).dst x).toNat < 10000)
    (d : Dev nD) (L : grid6.Coords) (w : Fin 32) (hw : wOf L = w)
    (O : CellTallies nD τ sig (HIx 4)) (W : Waits sig (HIx 4)) (hO : ∀ g, O g none = 0) :
    iprop(levAts (K (F := F)).L (K (F := F)).lev ∗ iprop(emp) ∗ goSpmm3 sv d w ∗ scopedBufs (thr d L) ∗ scopedSems0 (thr d L) ∗ owes (thr d L) O W)
      ⊢ wp frame (wpE (defs₀ (F := F)) 𝒱₀ (thr d L) none) Set.univ (kern (F := F) L)
          fun _ => iprop(tdSpmm3 sv d w ∗ scopedBufs (thr d L) ∗ scopedSems0 (thr d L)
            ∗ ∃ W', ⌜∀ p ∈ W', p ∈ W ∨ p.2 = none⌝ ∗ owes (thr d L) O W') := by
  subst hw
  rw [(K (F := F)).scopedBufs_V hF d _ _, SparseCore.Cfg.scopedSems0_V (Val := Elt F) d _ _, ownSems0_carve, ownBufs_carve]
  unfold goSpmm3 tdSpmm3
  iintro ⟨#Hlv, -, ⟨Hu, Hs, Hd, Ho⟩, ⟨Hscr, Hbufs⟩, ⟨Hsems, Hsemrest⟩, HO⟩
  ihave Hrows := (rows_in (F := F) d L) $$ Ho
  icases Hrows with ⟨Ho0, Ho1, Ho2, Ho3⟩
  ihave Hmw := ((K (F := F)).mayWaits_none (thr := thr d L) hO) $$ Hlv
  iapply (wp_wand_r frame _ Set.univ)
  isplitl [Hmw Hu Hs Hd Ho0 Ho1 Ho2 Ho3 Hscr Hsems HO]
  · iapply (core d L (rdShare (wOf L)) ((sv d).u 2) (sv d).src (sv d).dst (hsrc d) (hdst d) O W)
    isplitl [Hmw]; · iexact Hmw
    isplitl [Hu]; · iexact Hu
    isplitl [Hs]; · iexact Hs
    isplitl [Hd]; · iexact Hd
    isplitl [Ho0]; · iexact Ho0
    isplitl [Ho1]; · iexact Ho1
    isplitl [Ho2]; · iexact Ho2
    isplitl [Ho3]; · iexact Ho3
    isplitl [Hscr]; · iexact Hscr
    isplitl [Hsems]; · iexact Hsems
    iexact HO
  iintro %_ ⟨Hu, Hs, Hd, Ho0, Ho1, Ho2, Ho3, Hscr, Hsems, HO⟩
  ihave Ho := (rows_out d L ((sv d).u 2) (sv d).src (sv d).dst ((sv d).s 2) (hval d)) $$ [Ho0 Ho1 Ho2 Ho3]
  · isplitl [Ho0]; · iexact Ho0
    isplitl [Ho1]; · iexact Ho1
    isplitl [Ho2]; · iexact Ho2
    iexact Ho3
  isplitl [Hu Hs Hd Ho]
  · isplitl [Hu]; · iexact Hu
    isplitl [Hs]; · iexact Hs
    isplitl [Hd]; · iexact Hd
    iexact Ho
  isplitl [Hscr Hbufs]
  · isplitl [Hscr]; · iexact Hscr
    iexact Hbufs
  isplitl [Hsems Hsemrest]
  · isplitl [Hsems]; · iexact Hsems
    iexact Hsemrest
  iexact HO

def coordsV (c : Fin (grid6.bound 0)) (s : Fin (grid6.bound 1)) : grid6.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) lblCall ()
      = SparseCore.onTile hcore6 hsub6 (fun c s => kern (F := F) (coordsV c s)) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (core : TileCore F)
    (sv : Dev nD → StageVals F) (hval : ∀ d, (sv d).s 2 = spmmFlat ((sv d).u 2) (sv d).src (sv d).dst)
    (hsrc : ∀ d x, ((sv d).src x).toNat < 10000) (hdst : ∀ d x, ((sv d).dst x).toNat < 10000) :
    (K (F := F)).TileObl (D (F := F)) 𝒱 (P sv) v₀ qCall := by
  intro d c i O W hO _ _
  simp only [show (P sv).ox = fun _ _ => 0 from rfl, add_zero]
  change _ ⊢ wp _ _ _ (Pipeline.liftProg (defs₀ (F := F) (.scVector ((K (F := F)).core qCall c) ((K (F := F)).sub qCall i)) lblCall ())) _
  refine BI.Entails.trans ?_ (Pipeline.wp_liftProg (D (F := F)) (Pipeline.defs_kernel pcfgs defs₀) 𝒱₀ _ Set.univ none _ _)
  have hc : ((K (F := F)).core qCall c).val < grid6.bound 0 ∧ ((K (F := F)).sub qCall i).val < grid6.bound 1 := ⟨c.isLt, i.isLt⟩
  rw [defs₀_vector]; simp only [SparseCore.onTile, hc, and_self, ↓reduceDIte]
  exact (tile_wrap facts core sv hval hsrc hdst d (coordsV ⟨_, hc.1⟩ ⟨_, hc.2⟩) (tileNo (coreIx qCall c) (subIx qCall i))
      (wOf_eq _ (coreIx qCall c) (subIx qCall i) rfl rfl) O W hO).trans
    (wp_mono frame _ _ fun _ => obl_post)

end Cert.KernelIdeal.SpmmTile3

end
-- ==== Proof.SpmmTile.lean ====
import proofs.«213134_g57071525429591_cont_9to1_m_136_24_alg».proof.Proof.SpmmNames

set_option maxHeartbeats 6400000

noncomputable section

namespace Cert.KernelIdeal.SpmmTile

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

theorem inRange_of (v : IVec S16 32) (h : ∀ x, (v x).toNat < 10000) :
    ∀ a x, ((![v] : Fin 1 → IVec S16 32) a x).toNat < S10000.size a := by
  intro a x
  have ha : a = 0 := Subsingleton.elim _ _
  subst ha
  exact h x

theorem wordAt_lt {t : IVec ShE 32} (ht : ∀ x, (t x).toNat < 10000) (k : Nat) : (wordAt t k).toNat < 10000 := by
  unfold wordAt
  split
  · exact ht _
  · show (0 : BitVec 32).toNat < 10000
    decide

theorem vec16_lt {t : IVec ShE 32} (ht : ∀ x, (t x).toNat < 10000) (base : Nat) (x : S16.Idx) : (vec16 t base x).toNat < 10000 :=
  wordAt_lt ht _

theorem vec16_inRange {t : IVec ShE 32} (ht : ∀ x, (t x).toNat < 10000) (base : Nat) :
    ∀ a x, ((![vec16 t base] : Fin 1 → IVec S16 32) a x).toNat < S10000.size a := inRange_of _ (vec16_lt ht base)

def HoldsChunk (t : IVec ShE 32) (jc : Nat) (s : IVec S1600 32) : Prop := ∀ j : S1600.Idx, s j = wordAt t (1600 * jc + (j 0).val)

def rd16 (s : IVec S1600 32) (off : Fin 1 → Nat) (inb : ∀ a, off a + S16.size a ≤ S1600.size a) : IVec S16 32 :=
  fun x => s ((Rect.unit (s := S1600) off S16.size inb).toLoadRect.idx x)

omit [FloatOps F] in

theorem rd16_eq (t : IVec ShE 32) (jc : Nat) (s : IVec S1600 32) (hs : HoldsChunk t jc s)
    (off : Fin 1 → Nat) (o : Nat) (ho : off = ![o]) (inb : ∀ a, off a + S16.size a ≤ S1600.size a) :
    rd16 s off inb = vec16 t (1600 * jc + o) := by
  subst ho
  funext x
  unfold rd16 vec16
  rw [hs]
  congr 1
  rw [LoadRect.idx_apply]
  show 1600 * jc + (o + 1 * (x 0).val) = 1600 * jc + o + (x 0).val
  omega

omit [FloatOps F] in
theorem load_Sa (t : IVec ShE 32) (jc : Nat) (s : IVec S1600 32) (hs : HoldsChunk t jc s)
    (off : Fin 1 → Nat) (o : Nat) (ho : off = ![o]) (inb : ∀ a, off a + S16.size a ≤ S1600.size a) :
    (mSa : Memref sig .scVector .vmem S1600 .i32).view.readAt (Elt F) (Rect.unit (s := S1600) off S16.size inb).toLoadRect s = vec16 t (1600 * jc + o) :=
  rd16_eq t jc s hs off o ho inb
omit [FloatOps F] in
theorem load_Da (t : IVec ShE 32) (jc : Nat) (s : IVec S1600 32) (hs : HoldsChunk t jc s)
    (off : Fin 1 → Nat) (o : Nat) (ho : off = ![o]) (inb : ∀ a, off a + S16.size a ≤ S1600.size a) :
    (mDa : Memref sig .scVector .vmem S1600 .i32).view.readAt (Elt F) (Rect.unit (s := S1600) off S16.size inb).toLoadRect s = vec16 t (1600 * jc + o) :=
  rd16_eq t jc s hs off o ho inb
omit [FloatOps F] in
theorem load_Sb (t : IVec ShE 32) (jc : Nat) (s : IVec S1600 32) (hs : HoldsChunk t jc s)
    (off : Fin 1 → Nat) (o : Nat) (ho : off = ![o]) (inb : ∀ a, off a + S16.size a ≤ S1600.size a) :
    (mSb : Memref sig .scVector .vmem S1600 .i32).view.readAt (Elt F) (Rect.unit (s := S1600) off S16.size inb).toLoadRect s = vec16 t (1600 * jc + o) :=
  rd16_eq t jc s hs off o ho inb
omit [FloatOps F] in
theorem load_Db (t : IVec ShE 32) (jc : Nat) (s : IVec S1600 32) (hs : HoldsChunk t jc s)
    (off : Fin 1 → Nat) (o : Nat) (ho : off = ![o]) (inb : ∀ a, off a + S16.size a ≤ S1600.size a) :
    (mDb : Memref sig .scVector .vmem S1600 .i32).view.readAt (Elt F) (Rect.unit (s := S1600) off S16.size inb).toLoadRect s = vec16 t (1600 * jc + o) :=
  rd16_eq t jc s hs off o ho inb

omit [FloatOps F] in
theorem pts_acc_E0 (d : Dev nD) (L : grid2.Coords) (f : Vec F S10000 .f32) :
    (((mE0 : Memref sig .scVector .vmem S10000 .f32).access (Rect.whole S10000)).loc (thr d L) ↦[((mE0 : Memref sig .scVector .vmem S10000 .f32).access (Rect.whole S10000)).set]{fullShare} f : sProp 𝕄)
      = ((thr d L).loc bE0 ↦{fullShare} f) := by
  rw [show ((mE0 : Memref sig .scVector .vmem S10000 .f32).access (Rect.whole S10000)).set = Finset.univ from Memref.set_access_whole bE0]

theorem acc_step_E0 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE0 : Memref sig .scVector .vmem S10000 .f32).access (Rect.whole S10000)).loc (thr d L) ↦[((mE0 : Memref sig .scVector .vmem S10000 .f32).access (Rect.whole S10000)).set]{fullShare}
        (((mE0 : Memref sig .scVector .vmem S10000 .f32).access (Rect.whole S10000)).write (Elt F) e
          (storeIdx (((mE0 : Memref sig .scVector .vmem S10000 .f32).access (Rect.whole S10000)).read (Elt F) e) ![dv]
            (loadIdx (((mU0 : Memref sig .scVector .vmem S10000 .f32).access (Rect.whole S10000)).read (Elt F) u) ![sv] hs) (fun _ => 1#1) true hd) Finset.univ) : sProp 𝕄)
      = ((thr d L).loc bE0 ↦{fullShare} step u e sv dv) := by
  rw [show ((mE0 : Memref sig .scVector .vmem S10000 .f32).access (Rect.whole S10000)).set = Finset.univ from Memref.set_access_whole bE0,
    show ∀ w, ((mE0 : Memref sig .scVector .vmem S10000 .f32).access (Rect.whole S10000)).write (Elt F) e w Finset.univ = w from fun w => Memref.write_access_whole_univ (Elt F) bE0 e w,
    show ((mE0 : Memref sig .scVector .vmem S10000 .f32).access (Rect.whole S10000)).read (Elt F) e = e from Memref.read_access_whole (Elt F) bE0 e,
    show ((mU0 : Memref sig .scVector .vmem S10000 .f32).access (Rect.whole S10000)).read (Elt F) u = u from Memref.read_access_whole (Elt F) bU0 u,
    ← step_eq u e sv dv hs hd]

omit [FloatOps F] in
theorem pts_acc_E1 (d : Dev nD) (L : grid2.Coords) (f : Vec F S10000 .f32) :
    (((mE1 : Memref sig .scVector .vmem S10000 .f32).access (Rect.whole S10000)).loc (thr d L) ↦[((mE1 : Memref sig .scVector .vmem S10000 .f32).access (Rect.whole S10000)).set]{fullShare} f : sProp 𝕄)
      = ((thr d L).loc bE1 ↦{fullShare} f) := by
  rw [show ((mE1 : Memref sig .scVector .vmem S10000 .f32).access (Rect.whole S10000)).set = Finset.univ from Memref.set_access_whole bE1]

theorem acc_step_E1 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE1 : Memref sig .scVector .vmem S10000 .f32).access (Rect.whole S10000)).loc (thr d L) ↦[((mE1 : Memref sig .scVector .vmem S10000 .f32).access (Rect.whole S10000)).set]{fullShare}
        (((mE1 : Memref sig .scVector .vmem S10000 .f32).access (Rect.whole S10000)).write (Elt F) e
          (storeIdx (((mE1 : Memref sig .scVector .vmem S10000 .f32).access (Rect.whole S10000)).read (Elt F) e) ![dv]
            (loadIdx (((mU1 : Memref sig .scVector .vmem S10000 .f32).access (Rect.whole S10000)).read (Elt F) u) ![sv] hs) (fun _ => 1#1) true hd) Finset.univ) : sProp 𝕄)
      = ((thr d L).loc bE1 ↦{fullShare} step u e sv dv) := by
  rw [show ((mE1 : Memref sig .scVector .vmem S10000 .f32).access (Rect.whole S10000)).set = Finset.univ from Memref.set_access_whole bE1,
    show ∀ w, ((mE1 : Memref sig .scVector .vmem S10000 .f32).access (Rect.whole S10000)).write (Elt F) e w Finset.univ = w from fun w => Memref.write_access_whole_univ (Elt F) bE1 e w,
    show ((mE1 : Memref sig .scVector .vmem S10000 .f32).access (Rect.whole S10000)).read (Elt F) e = e from Memref.read_access_whole (Elt F) bE1 e,
    show ((mU1 : Memref sig .scVector .vmem S10000 .f32).access (Rect.whole S10000)).read (Elt F) u = u from Memref.read_access_whole (Elt F) bU1 u,
    ← step_eq u e sv dv hs hd]

omit [FloatOps F] in
theorem pts_acc_E2 (d : Dev nD) (L : grid2.Coords) (f : Vec F S10000 .f32) :
    (((mE2 : Memref sig .scVector .vmem S10000 .f32).access (Rect.whole S10000)).loc (thr d L) ↦[((mE2 : Memref sig .scVector .vmem S10000 .f32).access (Rect.whole S10000)).set]{fullShare} f : sProp 𝕄)
      = ((thr d L).loc bE2 ↦{fullShare} f) := by
  rw [show ((mE2 : Memref sig .scVector .vmem S10000 .f32).access (Rect.whole S10000)).set = Finset.univ from Memref.set_access_whole bE2]

theorem acc_step_E2 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE2 : Memref sig .scVector .vmem S10000 .f32).access (Rect.whole S10000)).loc (thr d L) ↦[((mE2 : Memref sig .scVector .vmem S10000 .f32).access (Rect.whole S10000)).set]{fullShare}
        (((mE2 : Memref sig .scVector .vmem S10000 .f32).access (Rect.whole S10000)).write (Elt F) e
          (storeIdx (((mE2 : Memref sig .scVector .vmem S10000 .f32).access (Rect.whole S10000)).read (Elt F) e) ![dv]
            (loadIdx (((mU2 : Memref sig .scVector .vmem S10000 .f32).access (Rect.whole S10000)).read (Elt F) u) ![sv] hs) (fun _ => 1#1) true hd) Finset.univ) : sProp 𝕄)
      = ((thr d L).loc bE2 ↦{fullShare} step u e sv dv) := by
  rw [show ((mE2 : Memref sig .scVector .vmem S10000 .f32).access (Rect.whole S10000)).set = Finset.univ from Memref.set_access_whole bE2,
    show ∀ w, ((mE2 : Memref sig .scVector .vmem S10000 .f32).access (Rect.whole S10000)).write (Elt F) e w Finset.univ = w from fun w => Memref.write_access_whole_univ (Elt F) bE2 e w,
    show ((mE2 : Memref sig .scVector .vmem S10000 .f32).access (Rect.whole S10000)).read (Elt F) e = e from Memref.read_access_whole (Elt F) bE2 e,
    show ((mU2 : Memref sig .scVector .vmem S10000 .f32).access (Rect.whole S10000)).read (Elt F) u = u from Memref.read_access_whole (Elt F) bU2 u,
    ← step_eq u e sv dv hs hd]

omit [FloatOps F] in
theorem pts_acc_E3 (d : Dev nD) (L : grid2.Coords) (f : Vec F S10000 .f32) :
    (((mE3 : Memref sig .scVector .vmem S10000 .f32).access (Rect.whole S10000)).loc (thr d L) ↦[((mE3 : Memref sig .scVector .vmem S10000 .f32).access (Rect.whole S10000)).set]{fullShare} f : sProp 𝕄)
      = ((thr d L).loc bE3 ↦{fullShare} f) := by
  rw [show ((mE3 : Memref sig .scVector .vmem S10000 .f32).access (Rect.whole S10000)).set = Finset.univ from Memref.set_access_whole bE3]

theorem acc_step_E3 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE3 : Memref sig .scVector .vmem S10000 .f32).access (Rect.whole S10000)).loc (thr d L) ↦[((mE3 : Memref sig .scVector .vmem S10000 .f32).access (Rect.whole S10000)).set]{fullShare}
        (((mE3 : Memref sig .scVector .vmem S10000 .f32).access (Rect.whole S10000)).write (Elt F) e
          (storeIdx (((mE3 : Memref sig .scVector .vmem S10000 .f32).access (Rect.whole S10000)).read (Elt F) e) ![dv]
            (loadIdx (((mU3 : Memref sig .scVector .vmem S10000 .f32).access (Rect.whole S10000)).read (Elt F) u) ![sv] hs) (fun _ => 1#1) true hd) Finset.univ) : sProp 𝕄)
      = ((thr d L).loc bE3 ↦{fullShare} step u e sv dv) := by
  rw [show ((mE3 : Memref sig .scVector .vmem S10000 .f32).access (Rect.whole S10000)).set = Finset.univ from Memref.set_access_whole bE3,
    show ∀ w, ((mE3 : Memref sig .scVector .vmem S10000 .f32).access (Rect.whole S10000)).write (Elt F) e w Finset.univ = w from fun w => Memref.write_access_whole_univ (Elt F) bE3 e w,
    show ((mE3 : Memref sig .scVector .vmem S10000 .f32).access (Rect.whole S10000)).read (Elt F) e = e from Memref.read_access_whole (Elt F) bE3 e,
    show ((mU3 : Memref sig .scVector .vmem S10000 .f32).access (Rect.whole S10000)).read (Elt F) u = u from Memref.read_access_whole (Elt F) bU3 u,
    ← step_eq u e sv dv hs hd]

omit [FloatOps F] in
theorem pts_acc_O0 (d : Dev nD) (L : grid2.Coords) (f : Vec F S10000 .f32) :
    (((mO0 : Memref sig .scVector .vmem S10000 .f32).access (Rect.whole S10000)).loc (thr d L) ↦[((mO0 : Memref sig .scVector .vmem S10000 .f32).access (Rect.whole S10000)).set]{fullShare} f : sProp 𝕄)
      = ((thr d L).loc bO0 ↦{fullShare} f) := by
  rw [show ((mO0 : Memref sig .scVector .vmem S10000 .f32).access (Rect.whole S10000)).set = Finset.univ from Memref.set_access_whole bO0]

theorem acc_step_O0 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO0 : Memref sig .scVector .vmem S10000 .f32).access (Rect.whole S10000)).loc (thr d L) ↦[((mO0 : Memref sig .scVector .vmem S10000 .f32).access (Rect.whole S10000)).set]{fullShare}
        (((mO0 : Memref sig .scVector .vmem S10000 .f32).access (Rect.whole S10000)).write (Elt F) e
          (storeIdx (((mO0 : Memref sig .scVector .vmem S10000 .f32).access (Rect.whole S10000)).read (Elt F) e) ![dv]
            (loadIdx (((mU0 : Memref sig .scVector .vmem S10000 .f32).access (Rect.whole S10000)).read (Elt F) u) ![sv] hs) (fun _ => 1#1) true hd) Finset.univ) : sProp 𝕄)
      = ((thr d L).loc bO0 ↦{fullShare} step u e sv dv) := by
  rw [show ((mO0 : Memref sig .scVector .vmem S10000 .f32).access (Rect.whole S10000)).set = Finset.univ from Memref.set_access_whole bO0,
    show ∀ w, ((mO0 : Memref sig .scVector .vmem S10000 .f32).access (Rect.whole S10000)).write (Elt F) e w Finset.univ = w from fun w => Memref.write_access_whole_univ (Elt F) bO0 e w,
    show ((mO0 : Memref sig .scVector .vmem S10000 .f32).access (Rect.whole S10000)).read (Elt F) e = e from Memref.read_access_whole (Elt F) bO0 e,
    show ((mU0 : Memref sig .scVector .vmem S10000 .f32).access (Rect.whole S10000)).read (Elt F) u = u from Memref.read_access_whole (Elt F) bU0 u,
    ← step_eq u e sv dv hs hd]

omit [FloatOps F] in
theorem pts_acc_O1 (d : Dev nD) (L : grid2.Coords) (f : Vec F S10000 .f32) :
    (((mO1 : Memref sig .scVector .vmem S10000 .f32).access (Rect.whole S10000)).loc (thr d L) ↦[((mO1 : Memref sig .scVector .vmem S10000 .f32).access (Rect.whole S10000)).set]{fullShare} f : sProp 𝕄)
      = ((thr d L).loc bO1 ↦{fullShare} f) := by
  rw [show ((mO1 : Memref sig .scVector .vmem S10000 .f32).access (Rect.whole S10000)).set = Finset.univ from Memref.set_access_whole bO1]

theorem acc_step_O1 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO1 : Memref sig .scVector .vmem S10000 .f32).access (Rect.whole S10000)).loc (thr d L) ↦[((mO1 : Memref sig .scVector .vmem S10000 .f32).access (Rect.whole S10000)).set]{fullShare}
        (((mO1 : Memref sig .scVector .vmem S10000 .f32).access (Rect.whole S10000)).write (Elt F) e
          (storeIdx (((mO1 : Memref sig .scVector .vmem S10000 .f32).access (Rect.whole S10000)).read (Elt F) e) ![dv]
            (loadIdx (((mU1 : Memref sig .scVector .vmem S10000 .f32).access (Rect.whole S10000)).read (Elt F) u) ![sv] hs) (fun _ => 1#1) true hd) Finset.univ) : sProp 𝕄)
      = ((thr d L).loc bO1 ↦{fullShare} step u e sv dv) := by
  rw [show ((mO1 : Memref sig .scVector .vmem S10000 .f32).access (Rect.whole S10000)).set = Finset.univ from Memref.set_access_whole bO1,
    show ∀ w, ((mO1 : Memref sig .scVector .vmem S10000 .f32).access (Rect.whole S10000)).write (Elt F) e w Finset.univ = w from fun w => Memref.write_access_whole_univ (Elt F) bO1 e w,
    show ((mO1 : Memref sig .scVector .vmem S10000 .f32).access (Rect.whole S10000)).read (Elt F) e = e from Memref.read_access_whole (Elt F) bO1 e,
    show ((mU1 : Memref sig .scVector .vmem S10000 .f32).access (Rect.whole S10000)).read (Elt F) u = u from Memref.read_access_whole (Elt F) bU1 u,
    ← step_eq u e sv dv hs hd]

omit [FloatOps F] in
theorem pts_acc_O2 (d : Dev nD) (L : grid2.Coords) (f : Vec F S10000 .f32) :
    (((mO2 : Memref sig .scVector .vmem S10000 .f32).access (Rect.whole S10000)).loc (thr d L) ↦[((mO2 : Memref sig .scVector .vmem S10000 .f32).access (Rect.whole S10000)).set]{fullShare} f : sProp 𝕄)
      = ((thr d L).loc bO2 ↦{fullShare} f) := by
  rw [show ((mO2 : Memref sig .scVector .vmem S10000 .f32).access (Rect.whole S10000)).set = Finset.univ from Memref.set_access_whole bO2]

theorem acc_step_O2 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO2 : Memref sig .scVector .vmem S10000 .f32).access (Rect.whole S10000)).loc (thr d L) ↦[((mO2 : Memref sig .scVector .vmem S10000 .f32).access (Rect.whole S10000)).set]{fullShare}
        (((mO2 : Memref sig .scVector .vmem S10000 .f32).access (Rect.whole S10000)).write (Elt F) e
          (storeIdx (((mO2 : Memref sig .scVector .vmem S10000 .f32).access (Rect.whole S10000)).read (Elt F) e) ![dv]
            (loadIdx (((mU2 : Memref sig .scVector .vmem S10000 .f32).access (Rect.whole S10000)).read (Elt F) u) ![sv] hs) (fun _ => 1#1) true hd) Finset.univ) : sProp 𝕄)
      = ((thr d L).loc bO2 ↦{fullShare} step u e sv dv) := by
  rw [show ((mO2 : Memref sig .scVector .vmem S10000 .f32).access (Rect.whole S10000)).set = Finset.univ from Memref.set_access_whole bO2,
    show ∀ w, ((mO2 : Memref sig .scVector .vmem S10000 .f32).access (Rect.whole S10000)).write (Elt F) e w Finset.univ = w from fun w => Memref.write_access_whole_univ (Elt F) bO2 e w,
    show ((mO2 : Memref sig .scVector .vmem S10000 .f32).access (Rect.whole S10000)).read (Elt F) e = e from Memref.read_access_whole (Elt F) bO2 e,
    show ((mU2 : Memref sig .scVector .vmem S10000 .f32).access (Rect.whole S10000)).read (Elt F) u = u from Memref.read_access_whole (Elt F) bU2 u,
    ← step_eq u e sv dv hs hd]

omit [FloatOps F] in
theorem pts_acc_O3 (d : Dev nD) (L : grid2.Coords) (f : Vec F S10000 .f32) :
    (((mO3 : Memref sig .scVector .vmem S10000 .f32).access (Rect.whole S10000)).loc (thr d L) ↦[((mO3 : Memref sig .scVector .vmem S10000 .f32).access (Rect.whole S10000)).set]{fullShare} f : sProp 𝕄)
      = ((thr d L).loc bO3 ↦{fullShare} f) := by
  rw [show ((mO3 : Memref sig .scVector .vmem S10000 .f32).access (Rect.whole S10000)).set = Finset.univ from Memref.set_access_whole bO3]

theorem acc_step_O3 (d : Dev nD) (L : grid2.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO3 : Memref sig .scVector .vmem S10000 .f32).access (Rect.whole S10000)).loc (thr d L) ↦[((mO3 : Memref sig .scVector .vmem S10000 .f32).access (Rect.whole S10000)).set]{fullShare}
        (((mO3 : Memref sig .scVector .vmem S10000 .f32).access (Rect.whole S10000)).write (Elt F) e
          (storeIdx (((mO3 : Memref sig .scVector .vmem S10000 .f32).access (Rect.whole S10000)).read (Elt F) e) ![dv]
            (loadIdx (((mU3 : Memref sig .scVector .vmem S10000 .f32).access (Rect.whole S10000)).read (Elt F) u) ![sv] hs) (fun _ => 1#1) true hd) Finset.univ) : sProp 𝕄)
      = ((thr d L).loc bO3 ↦{fullShare} step u e sv dv) := by
  rw [show ((mO3 : Memref sig .scVector .vmem S10000 .f32).access (Rect.whole S10000)).set = Finset.univ from Memref.set_access_whole bO3,
    show ∀ w, ((mO3 : Memref sig .scVector .vmem S10000 .f32).access (Rect.whole S10000)).write (Elt F) e w Finset.univ = w from fun w => Memref.write_access_whole_univ (Elt F) bO3 e w,
    show ((mO3 : Memref sig .scVector .vmem S10000 .f32).access (Rect.whole S10000)).read (Elt F) e = e from Memref.read_access_whole (Elt F) bO3 e,
    show ((mU3 : Memref sig .scVector .vmem S10000 .f32).access (Rect.whole S10000)).read (Elt F) u = u from Memref.read_access_whole (Elt F) bU3 u,
    ← step_eq u e sv dv hs hd]

omit [FloatOps F] in
theorem pts_view_U0 (d : Dev nD) (L : grid2.Coords) (f : Vec F S10000 .f32) :
    ((mU0 : Memref sig .scVector .vmem S10000 .f32).view.loc (thr d L) ↦{fullShare} f : sProp 𝕄) = ((thr d L).loc bU0 ↦{fullShare} f) := rfl
omit [FloatOps F] in
theorem pts_view_U1 (d : Dev nD) (L : grid2.Coords) (f : Vec F S10000 .f32) :
    ((mU1 : Memref sig .scVector .vmem S10000 .f32).view.loc (thr d L) ↦{fullShare} f : sProp 𝕄) = ((thr d L).loc bU1 ↦{fullShare} f) := rfl
omit [FloatOps F] in
theorem pts_view_U2 (d : Dev nD) (L : grid2.Coords) (f : Vec F S10000 .f32) :
    ((mU2 : Memref sig .scVector .vmem S10000 .f32).view.loc (thr d L) ↦{fullShare} f : sProp 𝕄) = ((thr d L).loc bU2 ↦{fullShare} f) := rfl
omit [FloatOps F] in
theorem pts_view_U3 (d : Dev nD) (L : grid2.Coords) (f : Vec F S10000 .f32) :
    ((mU3 : Memref sig .scVector .vmem S10000 .f32).view.loc (thr d L) ↦{fullShare} f : sProp 𝕄) = ((thr d L).loc bU3 ↦{fullShare} f) := rfl
omit [FloatOps F] in
theorem pts_view_E0 (d : Dev nD) (L : grid2.Coords) (f : Vec F S10000 .f32) :
    ((mE0 : Memref sig .scVector .vmem S10000 .f32).view.loc (thr d L) ↦{fullShare} f : sProp 𝕄) = ((thr d L).loc bE0 ↦{fullShare} f) := rfl
omit [FloatOps F] in
theorem pts_view_E1 (d : Dev nD) (L : grid2.Coords) (f : Vec F S10000 .f32) :
    ((mE1 : Memref sig .scVector .vmem S10000 .f32).view.loc (thr d L) ↦{fullShare} f : sProp 𝕄) = ((thr d L).loc bE1 ↦{fullShare} f) := rfl
omit [FloatOps F] in
theorem pts_view_E2 (d : Dev nD) (L : grid2.Coords) (f : Vec F S10000 .f32) :
    ((mE2 : Memref sig .scVector .vmem S10000 .f32).view.loc (thr d L) ↦{fullShare} f : sProp 𝕄) = ((thr d L).loc bE2 ↦{fullShare} f) := rfl
omit [FloatOps F] in
theorem pts_view_E3 (d : Dev nD) (L : grid2.Coords) (f : Vec F S10000 .f32) :
    ((mE3 : Memref sig .scVector .vmem S10000 .f32).view.loc (thr d L) ↦{fullShare} f : sProp 𝕄) = ((thr d L).loc bE3 ↦{fullShare} f) := rfl
omit [FloatOps F] in
theorem pts_view_Sa (d : Dev nD) (L : grid2.Coords) (f : IVec S1600 32) :
    ((mSa : Memref sig .scVector .vmem S1600 .i32).view.loc (thr d L) ↦{fullShare} f : sProp 𝕄) = ((thr d L).loc bSa ↦{fullShare} f) := rfl
omit [FloatOps F] in
theorem pts_view_Da (d : Dev nD) (L : grid2.Coords) (f : IVec S1600 32) :
    ((mDa : Memref sig .scVector .vmem S1600 .i32).view.loc (thr d L) ↦{fullShare} f : sProp 𝕄) = ((thr d L).loc bDa ↦{fullShare} f) := rfl
omit [FloatOps F] in
theorem pts_view_Sb (d : Dev nD) (L : grid2.Coords) (f : IVec S1600 32) :
    ((mSb : Memref sig .scVector .vmem S1600 .i32).view.loc (thr d L) ↦{fullShare} f : sProp 𝕄) = ((thr d L).loc bSb ↦{fullShare} f) := rfl
omit [FloatOps F] in
theorem pts_view_Db (d : Dev nD) (L : grid2.Coords) (f : IVec S1600 32) :
    ((mDb : Memref sig .scVector .vmem S1600 .i32).view.loc (thr d L) ↦{fullShare} f : sProp 𝕄) = ((thr d L).loc bDb ↦{fullShare} f) := rfl
omit [FloatOps F] in
theorem pts_view_U (d : Dev nD) (L : grid2.Coords) (q : PosShare TreeShare) (f : Vec F S1280000 .f32) :
    ((mU : Memref sig .scVector .hbm S1280000 .f32).view.loc (thr d L) ↦{q} f : sProp 𝕄) = (tcLoc d main_v11 ↦{q} f) := rfl
omit [FloatOps F] in
theorem pts_view_S (d : Dev nD) (L : grid2.Coords) (q : PosShare TreeShare) (f : IVec S320000 32) :
    ((mS : Memref sig .scVector .hbm S320000 .i32).view.loc (thr d L) ↦{q} f : sProp 𝕄) = (tcLoc d main_v1 ↦{q} f) := rfl
omit [FloatOps F] in
theorem pts_view_D (d : Dev nD) (L : grid2.Coords) (q : PosShare TreeShare) (f : IVec S320000 32) :
    ((mD : Memref sig .scVector .hbm S320000 .i32).view.loc (thr d L) ↦{q} f : sProp 𝕄) = (tcLoc d main_v3 ↦{q} f) := rfl

def trip3Inv (d : Dev nD) (L : grid2.Coords) (src dst : IVec ShE 32) (jc : Nat) (sv dv : IVec S1600 32)
    (u : Fin 4 → Vec F S10000 .f32) (st : Fin 4 → Acc F) (n : Nat) (_ : Unit) : sProp 𝕄 :=
  iprop(((thr d L).loc bSa ↦{fullShare} sv) ∗ ((thr d L).loc bDa ↦{fullShare} dv)
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (pairsN (u 0) src dst jc (st 0) n).1) ∗ ((thr d L).loc bE1 ↦{fullShare} (pairsN (u 1) src dst jc (st 1) n).1)
    ∗ ((thr d L).loc bE2 ↦{fullShare} (pairsN (u 2) src dst jc (st 2) n).1) ∗ ((thr d L).loc bE3 ↦{fullShare} (pairsN (u 3) src dst jc (st 3) n).1)
    ∗ ((thr d L).loc bO0 ↦{fullShare} (pairsN (u 0) src dst jc (st 0) n).2) ∗ ((thr d L).loc bO1 ↦{fullShare} (pairsN (u 1) src dst jc (st 1) n).2)
    ∗ ((thr d L).loc bO2 ↦{fullShare} (pairsN (u 2) src dst jc (st 2) n).2) ∗ ((thr d L).loc bO3 ↦{fullShare} (pairsN (u 3) src dst jc (st 3) n).2))

abbrev trip3Body (L : grid2.Coords) (v1 : BitVec 32) := k2_t3_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc2_scoped0 cc2_scoped1 cc2_scoped2 cc2_scoped3 v1

theorem trip3 (d : Dev nD) (L : grid2.Coords) (v1 : BitVec 32) (src dst : IVec ShE 32)
    (hsrc : ∀ x, (src x).toNat < 10000) (hdst : ∀ x, (dst x).toNat < 10000) (jc : Nat)
    (sv dv : IVec S1600 32) (hsv : HoldsChunk src jc sv) (hdv : HoldsChunk dst jc dv)
    (u : Fin 4 → Vec F S10000 .f32) (st : Fin 4 → Acc F) :
    ∀ (p : Fin k2_t3_loop.trips) (acc : Unit), trip3Inv d L src dst jc sv dv u st p.val acc
      ⊢ wp frame (wpE (defs₀ (F := F)) 𝒱₀ (thr d L) none) Set.univ (trip3Body (F := F) L v1 p acc) (trip3Inv d L src dst jc sv dv u st (p.val + 1)) := by
  intro p acc
  unfold trip3Inv trip3Body k2_t3_body
  simp only [Prog.lift, Prog.bind_op, Prog.bind_ret, Prog.pure_eq_ret]
  iintro ⟨Hsv, Hdv, Hu0, Hu1, Hu2, Hu3, HE0, HE1, HE2, HE3, HO0, HO1, HO2, HO3⟩
  iapply (wp_load 𝒱₀ (thr d L) none Set.univ (m := (mSa : Memref sig .scVector .vmem S1600 .i32)) (S := Finset.univ) (Finset.subset_univ _)) $$ Hsv; iintro Hsv
  rw [load_Sa (F := F) src jc sv hsv _ _ (k2_off5_eq p)]
  rw [wp_assume_of _ _ _ _ (show k2_chk1 _ from ⟨vec16_inRange hsrc _, vec16_inRange hsrc _, vec16_inRange hsrc _, vec16_inRange hsrc _⟩)]
  iapply (wp_load 𝒱₀ (thr d L) none Set.univ (m := (mDa : Memref sig .scVector .vmem S1600 .i32)) (S := Finset.univ) (Finset.subset_univ _)) $$ Hdv; iintro Hdv
  rw [load_Da (F := F) dst jc dv hdv _ _ (k2_off5_eq p)]
  rw [wp_assume_of _ _ _ _ (show k2_chk2 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HE0' := (Entails.of_eq (pts_acc_E0 (F := F) d L _).symm) $$ HE0
  iapply (SparseCore.wp_vectorStoreIdx 𝒱₀ (thr d L) none Set.univ (base := (mE0 : Memref sig .scVector .vmem S10000 .f32))) $$ HE0'; iintro HE0'
  ihave HE0 := (Entails.of_eq (acc_step_E0 (F := F) d L _ _ _ _ _ _)) $$ HE0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HE1' := (Entails.of_eq (pts_acc_E1 (F := F) d L _).symm) $$ HE1
  iapply (SparseCore.wp_vectorStoreIdx 𝒱₀ (thr d L) none Set.univ (base := (mE1 : Memref sig .scVector .vmem S10000 .f32))) $$ HE1'; iintro HE1'
  ihave HE1 := (Entails.of_eq (acc_step_E1 (F := F) d L _ _ _ _ _ _)) $$ HE1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HE2' := (Entails.of_eq (pts_acc_E2 (F := F) d L _).symm) $$ HE2
  iapply (SparseCore.wp_vectorStoreIdx 𝒱₀ (thr d L) none Set.univ (base := (mE2 : Memref sig .scVector .vmem S10000 .f32))) $$ HE2'; iintro HE2'
  ihave HE2 := (Entails.of_eq (acc_step_E2 (F := F) d L _ _ _ _ _ _)) $$ HE2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HE3' := (Entails.of_eq (pts_acc_E3 (F := F) d L _).symm) $$ HE3
  iapply (SparseCore.wp_vectorStoreIdx 𝒱₀ (thr d L) none Set.univ (base := (mE3 : Memref sig .scVector .vmem S10000 .f32))) $$ HE3'; iintro HE3'
  ihave HE3 := (Entails.of_eq (acc_step_E3 (F := F) d L _ _ _ _ _ _)) $$ HE3'
  iapply (wp_load 𝒱₀ (thr d L) none Set.univ (m := (mSa : Memref sig .scVector .vmem S1600 .i32)) (S := Finset.univ) (Finset.subset_univ _)) $$ Hsv; iintro Hsv
  rw [load_Sa (F := F) src jc sv hsv _ _ (k2_off6_eq p)]
  rw [wp_assume_of _ _ _ _ (show k2_chk3 _ from ⟨vec16_inRange hsrc _, vec16_inRange hsrc _, vec16_inRange hsrc _, vec16_inRange hsrc _⟩)]
  iapply (wp_load 𝒱₀ (thr d L) none Set.univ (m := (mDa : Memref sig .scVector .vmem S1600 .i32)) (S := Finset.univ) (Finset.subset_univ _)) $$ Hdv; iintro Hdv
  rw [load_Da (F := F) dst jc dv hdv _ _ (k2_off6_eq p)]
  rw [wp_assume_of _ _ _ _ (show k2_chk4 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HO0' := (Entails.of_eq (pts_acc_O0 (F := F) d L _).symm) $$ HO0
  iapply (SparseCore.wp_vectorStoreIdx 𝒱₀ (thr d L) none Set.univ (base := (mO0 : Memref sig .scVector .vmem S10000 .f32))) $$ HO0'; iintro HO0'
  ihave HO0 := (Entails.of_eq (acc_step_O0 (F := F) d L _ _ _ _ _ _)) $$ HO0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HO1' := (Entails.of_eq (pts_acc_O1 (F := F) d L _).symm) $$ HO1
  iapply (SparseCore.wp_vectorStoreIdx 𝒱₀ (thr d L) none Set.univ (base := (mO1 : Memref sig .scVector .vmem S10000 .f32))) $$ HO1'; iintro HO1'
  ihave HO1 := (Entails.of_eq (acc_step_O1 (F := F) d L _ _ _ _ _ _)) $$ HO1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HO2' := (Entails.of_eq (pts_acc_O2 (F := F) d L _).symm) $$ HO2
  iapply (SparseCore.wp_vectorStoreIdx 𝒱₀ (thr d L) none Set.univ (base := (mO2 : Memref sig .scVector .vmem S10000 .f32))) $$ HO2'; iintro HO2'
  ihave HO2 := (Entails.of_eq (acc_step_O2 (F := F) d L _ _ _ _ _ _)) $$ HO2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HO3' := (Entails.of_eq (pts_acc_O3 (F := F) d L _).symm) $$ HO3
  iapply (SparseCore.wp_vectorStoreIdx 𝒱₀ (thr d L) none Set.univ (base := (mO3 : Memref sig .scVector .vmem S10000 .f32))) $$ HO3'; iintro HO3'
  ihave HO3 := (Entails.of_eq (acc_step_O3 (F := F) d L _ _ _ _ _ _)) $$ HO3'
  sl_step
  isplitl [Hsv]; · iexact Hsv
  isplitl [Hdv]; · iexact Hdv
  isplitl [Hu0]; · iexact Hu0
  isplitl [Hu1]; · iexact Hu1
  isplitl [Hu2]; · iexact Hu2
  isplitl [Hu3]; · iexact Hu3
  isplitl [HE0]; · iexact HE0
  isplitl [HE1]; · iexact HE1
  isplitl [HE2]; · iexact HE2
  isplitl [HE3]; · iexact HE3
  isplitl [HO0]; · iexact HO0
  isplitl [HO1]; · iexact HO1
  isplitl [HO2]; · iexact HO2
  iexact HO3

def trip4Inv (d : Dev nD) (L : grid2.Coords) (src dst : IVec ShE 32) (jc : Nat) (sv dv : IVec S1600 32)
    (u : Fin 4 → Vec F S10000 .f32) (st : Fin 4 → Acc F) (n : Nat) (_ : Unit) : sProp 𝕄 :=
  iprop(((thr d L).loc bSb ↦{fullShare} sv) ∗ ((thr d L).loc bDb ↦{fullShare} dv)
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (pairsN (u 0) src dst jc (st 0) n).1) ∗ ((thr d L).loc bE1 ↦{fullShare} (pairsN (u 1) src dst jc (st 1) n).1)
    ∗ ((thr d L).loc bE2 ↦{fullShare} (pairsN (u 2) src dst jc (st 2) n).1) ∗ ((thr d L).loc bE3 ↦{fullShare} (pairsN (u 3) src dst jc (st 3) n).1)
    ∗ ((thr d L).loc bO0 ↦{fullShare} (pairsN (u 0) src dst jc (st 0) n).2) ∗ ((thr d L).loc bO1 ↦{fullShare} (pairsN (u 1) src dst jc (st 1) n).2)
    ∗ ((thr d L).loc bO2 ↦{fullShare} (pairsN (u 2) src dst jc (st 2) n).2) ∗ ((thr d L).loc bO3 ↦{fullShare} (pairsN (u 3) src dst jc (st 3) n).2))

abbrev trip4Body (L : grid2.Coords) (v1 : BitVec 32) := k2_t4_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc2_scoped0 cc2_scoped1 cc2_scoped2 cc2_scoped3 v1

theorem trip4 (d : Dev nD) (L : grid2.Coords) (v1 : BitVec 32) (src dst : IVec ShE 32)
    (hsrc : ∀ x, (src x).toNat < 10000) (hdst : ∀ x, (dst x).toNat < 10000) (jc : Nat)
    (sv dv : IVec S1600 32) (hsv : HoldsChunk src jc sv) (hdv : HoldsChunk dst jc dv)
    (u : Fin 4 → Vec F S10000 .f32) (st : Fin 4 → Acc F) :
    ∀ (p : Fin k2_t4_loop.trips) (acc : Unit), trip4Inv d L src dst jc sv dv u st p.val acc
      ⊢ wp frame (wpE (defs₀ (F := F)) 𝒱₀ (thr d L) none) Set.univ (trip4Body (F := F) L v1 p acc) (trip4Inv d L src dst jc sv dv u st (p.val + 1)) := by
  intro p acc
  unfold trip4Inv trip4Body k2_t4_body
  simp only [Prog.lift, Prog.bind_op, Prog.bind_ret, Prog.pure_eq_ret]
  iintro ⟨Hsv, Hdv, Hu0, Hu1, Hu2, Hu3, HE0, HE1, HE2, HE3, HO0, HO1, HO2, HO3⟩
  iapply (wp_load 𝒱₀ (thr d L) none Set.univ (m := (mSb : Memref sig .scVector .vmem S1600 .i32)) (S := Finset.univ) (Finset.subset_univ _)) $$ Hsv; iintro Hsv
  rw [load_Sb (F := F) src jc sv hsv _ _ (k2_off8_eq p)]
  rw [wp_assume_of _ _ _ _ (show k2_chk5 _ from ⟨vec16_inRange hsrc _, vec16_inRange hsrc _, vec16_inRange hsrc _, vec16_inRange hsrc _⟩)]
  iapply (wp_load 𝒱₀ (thr d L) none Set.univ (m := (mDb : Memref sig .scVector .vmem S1600 .i32)) (S := Finset.univ) (Finset.subset_univ _)) $$ Hdv; iintro Hdv
  rw [load_Db (F := F) dst jc dv hdv _ _ (k2_off8_eq p)]
  rw [wp_assume_of _ _ _ _ (show k2_chk6 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HE0' := (Entails.of_eq (pts_acc_E0 (F := F) d L _).symm) $$ HE0
  iapply (SparseCore.wp_vectorStoreIdx 𝒱₀ (thr d L) none Set.univ (base := (mE0 : Memref sig .scVector .vmem S10000 .f32))) $$ HE0'; iintro HE0'
  ihave HE0 := (Entails.of_eq (acc_step_E0 (F := F) d L _ _ _ _ _ _)) $$ HE0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HE1' := (Entails.of_eq (pts_acc_E1 (F := F) d L _).symm) $$ HE1
  iapply (SparseCore.wp_vectorStoreIdx 𝒱₀ (thr d L) none Set.univ (base := (mE1 : Memref sig .scVector .vmem S10000 .f32))) $$ HE1'; iintro HE1'
  ihave HE1 := (Entails.of_eq (acc_step_E1 (F := F) d L _ _ _ _ _ _)) $$ HE1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HE2' := (Entails.of_eq (pts_acc_E2 (F := F) d L _).symm) $$ HE2
  iapply (SparseCore.wp_vectorStoreIdx 𝒱₀ (thr d L) none Set.univ (base := (mE2 : Memref sig .scVector .vmem S10000 .f32))) $$ HE2'; iintro HE2'
  ihave HE2 := (Entails.of_eq (acc_step_E2 (F := F) d L _ _ _ _ _ _)) $$ HE2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HE3' := (Entails.of_eq (pts_acc_E3 (F := F) d L _).symm) $$ HE3
  iapply (SparseCore.wp_vectorStoreIdx 𝒱₀ (thr d L) none Set.univ (base := (mE3 : Memref sig .scVector .vmem S10000 .f32))) $$ HE3'; iintro HE3'
  ihave HE3 := (Entails.of_eq (acc_step_E3 (F := F) d L _ _ _ _ _ _)) $$ HE3'
  iapply (wp_load 𝒱₀ (thr d L) none Set.univ (m := (mSb : Memref sig .scVector .vmem S1600 .i32)) (S := Finset.univ) (Finset.subset_univ _)) $$ Hsv; iintro Hsv
  rw [load_Sb (F := F) src jc sv hsv _ _ (k2_off9_eq p)]
  rw [wp_assume_of _ _ _ _ (show k2_chk7 _ from ⟨vec16_inRange hsrc _, vec16_inRange hsrc _, vec16_inRange hsrc _, vec16_inRange hsrc _⟩)]
  iapply (wp_load 𝒱₀ (thr d L) none Set.univ (m := (mDb : Memref sig .scVector .vmem S1600 .i32)) (S := Finset.univ) (Finset.subset_univ _)) $$ Hdv; iintro Hdv
  rw [load_Db (F := F) dst jc dv hdv _ _ (k2_off9_eq p)]
  rw [wp_assume_of _ _ _ _ (show k2_chk8 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HO0' := (Entails.of_eq (pts_acc_O0 (F := F) d L _).symm) $$ HO0
  iapply (SparseCore.wp_vectorStoreIdx 𝒱₀ (thr d L) none Set.univ (base := (mO0 : Memref sig .scVector .vmem S10000 .f32))) $$ HO0'; iintro HO0'
  ihave HO0 := (Entails.of_eq (acc_step_O0 (F := F) d L _ _ _ _ _ _)) $$ HO0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HO1' := (Entails.of_eq (pts_acc_O1 (F := F) d L _).symm) $$ HO1
  iapply (SparseCore.wp_vectorStoreIdx 𝒱₀ (thr d L) none Set.univ (base := (mO1 : Memref sig .scVector .vmem S10000 .f32))) $$ HO1'; iintro HO1'
  ihave HO1 := (Entails.of_eq (acc_step_O1 (F := F) d L _ _ _ _ _ _)) $$ HO1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HO2' := (Entails.of_eq (pts_acc_O2 (F := F) d L _).symm) $$ HO2
  iapply (SparseCore.wp_vectorStoreIdx 𝒱₀ (thr d L) none Set.univ (base := (mO2 : Memref sig .scVector .vmem S10000 .f32))) $$ HO2'; iintro HO2'
  ihave HO2 := (Entails.of_eq (acc_step_O2 (F := F) d L _ _ _ _ _ _)) $$ HO2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HO3' := (Entails.of_eq (pts_acc_O3 (F := F) d L _).symm) $$ HO3
  iapply (SparseCore.wp_vectorStoreIdx 𝒱₀ (thr d L) none Set.univ (base := (mO3 : Memref sig .scVector .vmem S10000 .f32))) $$ HO3'; iintro HO3'
  ihave HO3 := (Entails.of_eq (acc_step_O3 (F := F) d L _ _ _ _ _ _)) $$ HO3'
  sl_step
  isplitl [Hsv]; · iexact Hsv
  isplitl [Hdv]; · iexact Hdv
  isplitl [Hu0]; · iexact Hu0
  isplitl [Hu1]; · iexact Hu1
  isplitl [Hu2]; · iexact Hu2
  isplitl [Hu3]; · iexact Hu3
  isplitl [HE0]; · iexact HE0
  isplitl [HE1]; · iexact HE1
  isplitl [HE2]; · iexact HE2
  isplitl [HE3]; · iexact HE3
  isplitl [HO0]; · iexact HO0
  isplitl [HO1]; · iexact HO1
  isplitl [HO2]; · iexact HO2
  iexact HO3

abbrev sSl (off : Fin 1 → Nat) (inb : ∀ a, off a + S1600.size a ≤ S320000.size a) : Memref sig .scVector .hbm S1600 .i32 :=
  mS.slice (Rect.unit (s := S320000) off S1600.size inb) (fun _ => rfl)
abbrev dSl (off : Fin 1 → Nat) (inb : ∀ a, off a + S1600.size a ≤ S320000.size a) : Memref sig .scVector .hbm S1600 .i32 :=
  mD.slice (Rect.unit (s := S320000) off S1600.size inb) (fun _ => rfl)

abbrev NU : ℕ := (mU0 : Memref sig .scVector .vmem S10000 .f32).view.amount (SemLoc.dma (sig := sig) semU.sem)
abbrev NA : ℕ := (mSa : Memref sig .scVector .vmem S1600 .i32).view.amount (SemLoc.dma (sig := sig) semA.sem)
abbrev NB : ℕ := (mSb : Memref sig .scVector .vmem S1600 .i32).view.amount (SemLoc.dma (sig := sig) semB.sem)

abbrev landed {sD : Shape} {eD : EltTy} (c : Thread nD τ) (dstm : Memref sig c.2.kind .vmem sD eD) (srcm : Memref sig c.2.kind .hbm sD eD)
    (fs : Buf (Elt F) (srcm.view.loc c)) (fd : Buf (Elt F) (dstm.view.loc c)) : Buf (Elt F) (dstm.view.loc c) :=
  dstm.view.write (Elt F) fd (ReadAs.same.apply (srcm.view.read (Elt F) fs)) Finset.univ

def DAat (d : Dev nD) (L : grid2.Coords) (q : PosShare TreeShare) (srcA dstA : IVec S320000 32)
    (off : Fin 1 → Nat) (inb : ∀ a, off a + S1600.size a ≤ S320000.size a) (g0 g1 : IVec S1600 32) : Fin 2 → sProp 𝕄 :=
  fun t => match t with
    | ⟨0, _⟩ => iprop(((mSa : Memref sig .scVector .vmem S1600 .i32).view.loc (thr d L) ↦{fullShare} landed (F := F) (thr d L) mSa (sSl off inb) srcA g0)
        ∗ ((sSl off inb).view.loc (thr d L) ↦[(sSl off inb).view.set]{q} srcA))
    | ⟨1, _⟩ => iprop(((mDa : Memref sig .scVector .vmem S1600 .i32).view.loc (thr d L) ↦{fullShare} landed (F := F) (thr d L) mDa (dSl off inb) dstA g1)
        ∗ ((dSl off inb).view.loc (thr d L) ↦[(dSl off inb).view.set]{q} dstA))

omit [FloatOps F] in
instance DAat_storable (d : Dev nD) (L : grid2.Coords) (q : PosShare TreeShare) (srcA dstA : IVec S320000 32)
    (off : Fin 1 → Nat) (inb : ∀ a, off a + S1600.size a ≤ S320000.size a) (g0 g1 : IVec S1600 32) (t : Fin 2) :
    Storable (upEmb : UEmb _ 𝕄) (DAat (F := F) d L q srcA dstA off inb g0 g1 t) := by
  unfold DAat
  match t with
  | ⟨0, _⟩ => infer_instance
  | ⟨1, _⟩ => infer_instance

omit [FloatOps F] in
theorem DAat_congr (d : Dev nD) (L : grid2.Coords) (q : PosShare TreeShare) (srcA dstA : IVec S320000 32)
    {off off' : Fin 1 → Nat} (h : off = off') (inb : ∀ a, off a + S1600.size a ≤ S320000.size a) (inb' : ∀ a, off' a + S1600.size a ≤ S320000.size a)
    (g0 g1 : IVec S1600 32) : DAat (F := F) d L q srcA dstA off inb g0 g1 = DAat d L q srcA dstA off' inb' g0 g1 := by
  subst h; rfl

def DBat (d : Dev nD) (L : grid2.Coords) (q : PosShare TreeShare) (srcA dstA : IVec S320000 32)
    (off : Fin 1 → Nat) (inb : ∀ a, off a + S1600.size a ≤ S320000.size a) (g0 g1 : IVec S1600 32) : Fin 2 → sProp 𝕄 :=
  fun t => match t with
    | ⟨0, _⟩ => iprop(((mSb : Memref sig .scVector .vmem S1600 .i32).view.loc (thr d L) ↦{fullShare} landed (F := F) (thr d L) mSb (sSl off inb) srcA g0)
        ∗ ((sSl off inb).view.loc (thr d L) ↦[(sSl off inb).view.set]{q} srcA))
    | ⟨1, _⟩ => iprop(((mDb : Memref sig .scVector .vmem S1600 .i32).view.loc (thr d L) ↦{fullShare} landed (F := F) (thr d L) mDb (dSl off inb) dstA g1)
        ∗ ((dSl off inb).view.loc (thr d L) ↦[(dSl off inb).view.set]{q} dstA))

omit [FloatOps F] in
instance DBat_storable (d : Dev nD) (L : grid2.Coords) (q : PosShare TreeShare) (srcA dstA : IVec S320000 32)
    (off : Fin 1 → Nat) (inb : ∀ a, off a + S1600.size a ≤ S320000.size a) (g0 g1 : IVec S1600 32) (t : Fin 2) :
    Storable (upEmb : UEmb _ 𝕄) (DBat (F := F) d L q srcA dstA off inb g0 g1 t) := by
  unfold DBat
  match t with
  | ⟨0, _⟩ => infer_instance
  | ⟨1, _⟩ => infer_instance

def sRest (off : Fin 1 → Nat) (inb : ∀ a, off a + S1600.size a ≤ S320000.size a) : Finset S320000.Idx := Finset.univ \ (sSl off inb).view.set
def dRest (off : Fin 1 → Nat) (inb : ∀ a, off a + S1600.size a ≤ S320000.size a) : Finset S320000.Idx := Finset.univ \ (dSl off inb).view.set

omit [FloatOps F] in
theorem sRest_congr {off off' : Fin 1 → Nat} (h : off = off') (inb : ∀ a, off a + S1600.size a ≤ S320000.size a) (inb' : ∀ a, off' a + S1600.size a ≤ S320000.size a) :
    sRest off inb = sRest off' inb' := by subst h; rfl
omit [FloatOps F] in
theorem dRest_congr {off off' : Fin 1 → Nat} (h : off = off') (inb : ∀ a, off a + S1600.size a ≤ S320000.size a) (inb' : ∀ a, off' a + S1600.size a ≤ S320000.size a) :
    dRest off inb = dRest off' inb' := by subst h; rfl

omit [FloatOps F] in
theorem pts_sRest (d : Dev nD) (L : grid2.Coords) (q : PosShare TreeShare) (f : IVec S320000 32) (off : Fin 1 → Nat) (inb : ∀ a, off a + S1600.size a ≤ S320000.size a) :
    ((mS : Memref sig .scVector .hbm S320000 .i32).view.loc (thr d L) ↦[Finset.univ \ (sSl off inb).view.set]{q} f : sProp 𝕄) = (tcLoc d main_v1 ↦[sRest off inb]{q} f) := rfl
omit [FloatOps F] in
theorem pts_dRest (d : Dev nD) (L : grid2.Coords) (q : PosShare TreeShare) (f : IVec S320000 32) (off : Fin 1 → Nat) (inb : ∀ a, off a + S1600.size a ≤ S320000.size a) :
    ((mD : Memref sig .scVector .hbm S320000 .i32).view.loc (thr d L) ↦[Finset.univ \ (dSl off inb).view.set]{q} f : sProp 𝕄) = (tcLoc d main_v3 ↦[dRest off inb]{q} f) := rfl

omit [FloatOps F] in

def aside (P : sProp 𝕄) : sProp 𝕄 := P
omit [FloatOps F] in
theorem aside_eq (P : sProp 𝕄) : aside P = P := rfl

omit [FloatOps F] in
theorem chunk_word (t : IVec S320000 32) (jc : Nat) (inb : ∀ a, (![1600 * jc] : Fin 1 → Nat) a + S1600.size a ≤ S320000.size a) (j : S1600.Idx) :
    t ((Rect.unit (s := S320000) ![1600 * jc] S1600.size inb).emb j) = wordAt t (1600 * jc + (j 0).val) := by
  have hlt : 1600 * jc + (j 0).val < 320000 := by
    have h1 := inb 0
    have h2 := (j 0).isLt
    simp at h1 h2
    omega
  unfold wordAt
  rw [dif_pos hlt]
  congr 1
  funext a
  obtain rfl : a = 0 := Subsingleton.elim _ _
  apply Fin.ext
  simp [Shape.ofLane]

omit [FloatOps F] in

theorem landed_holds_Sa (d : Dev nD) (L : grid2.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mSa (sSl off inb) t g) := by
  subst ho
  intro j
  show (View.whole bSa).write (Elt F) g (ReadAs.same.apply ((sSl ![1600 * jc] inb).view.read (Elt F) t)) Finset.univ j = _
  rw [View.write_whole_univ]
  exact chunk_word t jc inb j

omit [FloatOps F] in
theorem landed_holds_Da (d : Dev nD) (L : grid2.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mDa (dSl off inb) t g) := by
  subst ho
  intro j
  show (View.whole bDa).write (Elt F) g (ReadAs.same.apply ((dSl ![1600 * jc] inb).view.read (Elt F) t)) Finset.univ j = _
  rw [View.write_whole_univ]
  exact chunk_word t jc inb j

omit [FloatOps F] in
theorem landed_holds_Sb (d : Dev nD) (L : grid2.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mSb (sSl off inb) t g) := by
  subst ho
  intro j
  show (View.whole bSb).write (Elt F) g (ReadAs.same.apply ((sSl ![1600 * jc] inb).view.read (Elt F) t)) Finset.univ j = _
  rw [View.write_whole_univ]
  exact chunk_word t jc inb j

omit [FloatOps F] in
theorem landed_holds_Db (d : Dev nD) (L : grid2.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mDb (dSl off inb) t g) := by
  subst ho
  intro j
  show (View.whole bDb).write (Elt F) g (ReadAs.same.apply ((dSl ![1600 * jc] inb).view.read (Elt F) t)) Finset.univ j = _
  rw [View.write_whole_univ]
  exact chunk_word t jc inb j

omit [FloatOps F] in

theorem wr_in (b : Ref sig .scVector) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) (Val := Elt F) f w (M := Finset.univ) (x := x) (Finset.mem_univ _)

omit [FloatOps F] in

theorem wr_out (b : Ref sig .scVector) (r : Rect b.ty.shape) (f : b.ty.Contents (Elt F)) (w : r.shape.Idx → Elt F b.ty.elt) (i : b.ty.shape.Idx)
    (hi : i ∉ r.set) : ((Memref.whole b).access r).write (Elt F) f w Finset.univ i = f i := by
  refine View.write_of_not_mem _ _ _ ?_
  rw [View.setOn_univ, View.set_slice]
  intro hm
  obtain ⟨y, hy, rfl⟩ := Finset.mem_map.mp hm
  exact hi hy

omit [FloatOps F] in

theorem mem_block16 (off : Fin 1 → Nat) (n : Nat) (ho : off = ![16 * n]) (inb : ∀ a, off a + S16.size a ≤ S10000.size a) (j : S10000.Idx) :
    j ∈ (Rect.unit (s := S10000) off S16.size inb).set ↔ 16 * n ≤ (j 0).val ∧ (j 0).val < 16 * n + 16 := by
  subst ho
  rw [Rect.mem_set_unit]
  constructor
  · intro h; have := h 0; simpa using this
  · intro h a; obtain rfl : a = 0 := Subsingleton.elim _ _; simpa using h

def ZeroTo (n : Nat) (f : Vec F S10000 .f32) : Prop := ∀ j : S10000.Idx, (j 0).val < 16 * n → f j = (Scalar.ofBits .f32 0x00000000#32 : F .f32)

theorem zeroTo_all (f : Vec F S10000 .f32) (h : ZeroTo 625 f) : f = zeroRow := by
  funext j
  exact h j (by have := (j 0).isLt; simp at this; omega)

theorem zeroTo_zero (f : Vec F S10000 .f32) : ZeroTo 0 f := fun j hj => absurd hj (by omega)

def MergedTo (n : Nat) (e o f : Vec F S10000 .f32) : Prop :=
  ∀ j : S10000.Idx, ((j 0).val < 16 * n → f j = FloatOps.addf (e j) (o j)) ∧ (16 * n ≤ (j 0).val → f j = e j)

theorem mergedTo_zero (e o : Vec F S10000 .f32) : MergedTo 0 e o e := fun j => ⟨fun hj => absurd hj (by omega), fun _ => rfl⟩

theorem mergedTo_all (e o f : Vec F S10000 .f32) (h : MergedTo 625 e o f) : f = fun j => FloatOps.addf (e j) (o j) := by
  funext j
  exact (h j).1 (by have := (j 0).isLt; simp at this; omega)

theorem zero_core (k : Fin k2_t1_loop.trips) (f g : Vec F S10000 .f32) (hf : ZeroTo k.val f)
    (hin : ∀ x, g ((Rect.unit (s := S10000) (k2_off2 k) S16.size (k2_off2_inb k)).emb x) = k2_pay1 (F := F) x)
    (hout : ∀ j, j ∉ (Rect.unit (s := S10000) (k2_off2 k) S16.size (k2_off2_inb k)).set → g j = f j) : ZeroTo (k.val + 1) g := by
  intro j hj
  by_cases hm : j ∈ (Rect.unit (s := S10000) (k2_off2 k) S16.size (k2_off2_inb k)).set
  · obtain ⟨x, rfl⟩ := (Rect.unit (s := S10000) (k2_off2 k) S16.size (k2_off2_inb k)).toLoadRect.exists_idx_of_mem hm
    exact hin x
  · rw [hout j hm]
    apply hf
    rw [mem_block16 _ k.val (k2_off2_eq k)] at hm
    omega

theorem merge_core (t : Fin k2_t5_loop.trips) (e o f g : Vec F S10000 .f32) (hf : MergedTo t.val e o f)
    (hin : ∀ x, g ((Rect.unit (s := S10000) (k2_off10 t) S16.size (k2_off10_inb t)).emb x) = FloatOps.addf (f ((Rect.unit (s := S10000) (k2_off10 t) S16.size (k2_off10_inb t)).toLoadRect.idx x)) (o ((Rect.unit (s := S10000) (k2_off10 t) S16.size (k2_off10_inb t)).toLoadRect.idx x)))
    (hout : ∀ j, j ∉ (Rect.unit (s := S10000) (k2_off10 t) S16.size (k2_off10_inb t)).set → g j = f j) : MergedTo (t.val + 1) e o g := by
  intro j
  by_cases hm : j ∈ (Rect.unit (s := S10000) (k2_off10 t) S16.size (k2_off10_inb t)).set
  · obtain ⟨x, rfl⟩ := (Rect.unit (s := S10000) (k2_off10 t) S16.size (k2_off10_inb t)).toLoadRect.exists_idx_of_mem hm
    have hb := (mem_block16 _ t.val (k2_off10_eq t) _ _).mp hm
    refine ⟨fun _ => ?_, fun h => absurd h (by omega)⟩
    refine (hin x).trans ?_
    exact congrArg (fun a => FloatOps.addf a (o ((Rect.unit (s := S10000) (k2_off10 t) S16.size (k2_off10_inb t)).toLoadRect.idx x))) ((hf ((Rect.unit (s := S10000) (k2_off10 t) S16.size (k2_off10_inb t)).toLoadRect.idx x)).2 hb.1)
  · rw [hout j hm]
    rw [mem_block16 _ t.val (k2_off10_eq t)] at hm
    exact ⟨fun h => (hf j).1 (by omega), fun h => (hf j).2 (by omega)⟩

def zeroInv (d : Dev nD) (L : grid2.Coords) (n : Nat) (_ : Unit) : sProp 𝕄 :=
  iprop((∃ f : Vec F S10000 .f32, ((thr d L).loc bE0 ↦{fullShare} f) ∗ ⌜ZeroTo n f⌝)
    ∗ (∃ f : Vec F S10000 .f32, ((thr d L).loc bO0 ↦{fullShare} f) ∗ ⌜ZeroTo n f⌝)
    ∗ (∃ f : Vec F S10000 .f32, ((thr d L).loc bE1 ↦{fullShare} f) ∗ ⌜ZeroTo n f⌝)
    ∗ (∃ f : Vec F S10000 .f32, ((thr d L).loc bO1 ↦{fullShare} f) ∗ ⌜ZeroTo n f⌝)
    ∗ (∃ f : Vec F S10000 .f32, ((thr d L).loc bE2 ↦{fullShare} f) ∗ ⌜ZeroTo n f⌝)
    ∗ (∃ f : Vec F S10000 .f32, ((thr d L).loc bO2 ↦{fullShare} f) ∗ ⌜ZeroTo n f⌝)
    ∗ (∃ f : Vec F S10000 .f32, ((thr d L).loc bE3 ↦{fullShare} f) ∗ ⌜ZeroTo n f⌝)
    ∗ (∃ f : Vec F S10000 .f32, ((thr d L).loc bO3 ↦{fullShare} f) ∗ ⌜ZeroTo n f⌝))

abbrev T1 (L : grid2.Coords) := k2_t1_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc2_scoped0 cc2_scoped1 cc2_scoped2 cc2_scoped3

theorem trip1 (d : Dev nD) (L : grid2.Coords) :
    ∀ (k : Fin k2_t1_loop.trips) (acc : Unit), zeroInv (F := F) d L k.val acc
      ⊢ wp frame (wpE (defs₀ (F := F)) 𝒱₀ (thr d L) none) Set.univ (T1 (F := F) L k acc) (zeroInv (F := F) d L (k.val + 1)) := by
  intro k acc
  unfold zeroInv T1 k2_t1_body
  simp only [Prog.lift, Prog.bind_op, Prog.bind_ret, Prog.pure_eq_ret]
  iintro ⟨⟨%fE0, HE0, %hE0⟩, ⟨%fO0, HO0, %hO0⟩, ⟨%fE1, HE1, %hE1⟩, ⟨%fO1, HO1, %hO1⟩, ⟨%fE2, HE2, %hE2⟩, ⟨%fO2, HO2, %hO2⟩, ⟨%fE3, HE3, %hE3⟩, ⟨%fO3, HO3, %hO3⟩⟩
  iapply (wp_load 𝒱₀ (thr d L) none Set.univ (m := (mE0 : Memref sig .scVector .vmem S10000 .f32)) (S := Finset.univ) (Finset.subset_univ _)) $$ HE0; iintro HE0
  iapply (wp_store 𝒱₀ (thr d L) none Set.univ (m := (mE0 : Memref sig .scVector .vmem S10000 .f32)) (r := Rect.unit (s := S10000) (k2_off2 k) S16.size (k2_off2_inb k)) (Mk := Finset.univ) (S := Finset.univ) (Finset.subset_univ _)) $$ HE0; iintro HE0
  iapply (wp_load 𝒱₀ (thr d L) none Set.univ (m := (mO0 : Memref sig .scVector .vmem S10000 .f32)) (S := Finset.univ) (Finset.subset_univ _)) $$ HO0; iintro HO0
  iapply (wp_store 𝒱₀ (thr d L) none Set.univ (m := (mO0 : Memref sig .scVector .vmem S10000 .f32)) (r := Rect.unit (s := S10000) (k2_off2 k) S16.size (k2_off2_inb k)) (Mk := Finset.univ) (S := Finset.univ) (Finset.subset_univ _)) $$ HO0; iintro HO0
  iapply (wp_load 𝒱₀ (thr d L) none Set.univ (m := (mE1 : Memref sig .scVector .vmem S10000 .f32)) (S := Finset.univ) (Finset.subset_univ _)) $$ HE1; iintro HE1
  iapply (wp_store 𝒱₀ (thr d L) none Set.univ (m := (mE1 : Memref sig .scVector .vmem S10000 .f32)) (r := Rect.unit (s := S10000) (k2_off2 k) S16.size (k2_off2_inb k)) (Mk := Finset.univ) (S := Finset.univ) (Finset.subset_univ _)) $$ HE1; iintro HE1
  iapply (wp_load 𝒱₀ (thr d L) none Set.univ (m := (mO1 : Memref sig .scVector .vmem S10000 .f32)) (S := Finset.univ) (Finset.subset_univ _)) $$ HO1; iintro HO1
  iapply (wp_store 𝒱₀ (thr d L) none Set.univ (m := (mO1 : Memref sig .scVector .vmem S10000 .f32)) (r := Rect.unit (s := S10000) (k2_off2 k) S16.size (k2_off2_inb k)) (Mk := Finset.univ) (S := Finset.univ) (Finset.subset_univ _)) $$ HO1; iintro HO1
  iapply (wp_load 𝒱₀ (thr d L) none Set.univ (m := (mE2 : Memref sig .scVector .vmem S10000 .f32)) (S := Finset.univ) (Finset.subset_univ _)) $$ HE2; iintro HE2
  iapply (wp_store 𝒱₀ (thr d L) none Set.univ (m := (mE2 : Memref sig .scVector .vmem S10000 .f32)) (r := Rect.unit (s := S10000) (k2_off2 k) S16.size (k2_off2_inb k)) (Mk := Finset.univ) (S := Finset.univ) (Finset.subset_univ _)) $$ HE2; iintro HE2
  iapply (wp_load 𝒱₀ (thr d L) none Set.univ (m := (mO2 : Memref sig .scVector .vmem S10000 .f32)) (S := Finset.univ) (Finset.subset_univ _)) $$ HO2; iintro HO2
  iapply (wp_store 𝒱₀ (thr d L) none Set.univ (m := (mO2 : Memref sig .scVector .vmem S10000 .f32)) (r := Rect.unit (s := S10000) (k2_off2 k) S16.size (k2_off2_inb k)) (Mk := Finset.univ) (S := Finset.univ) (Finset.subset_univ _)) $$ HO2; iintro HO2
  iapply (wp_load 𝒱₀ (thr d L) none Set.univ (m := (mE3 : Memref sig .scVector .vmem S10000 .f32)) (S := Finset.univ) (Finset.subset_univ _)) $$ HE3; iintro HE3
  iapply (wp_store 𝒱₀ (thr d L) none Set.univ (m := (mE3 : Memref sig .scVector .vmem S10000 .f32)) (r := Rect.unit (s := S10000) (k2_off2 k) S16.size (k2_off2_inb k)) (Mk := Finset.univ) (S := Finset.univ) (Finset.subset_univ _)) $$ HE3; iintro HE3
  iapply (wp_load 𝒱₀ (thr d L) none Set.univ (m := (mO3 : Memref sig .scVector .vmem S10000 .f32)) (S := Finset.univ) (Finset.subset_univ _)) $$ HO3; iintro HO3
  iapply (wp_store 𝒱₀ (thr d L) none Set.univ (m := (mO3 : Memref sig .scVector .vmem S10000 .f32)) (r := Rect.unit (s := S10000) (k2_off2 k) S16.size (k2_off2_inb k)) (Mk := Finset.univ) (S := Finset.univ) (Finset.subset_univ _)) $$ HO3; iintro HO3
  sl_step
  isplitl [HE0]
  · iexists _; isplitl [HE0]; · iexact HE0
    ipureintro; exact zero_core k fE0 _ hE0 (wr_in (F := F) bE0 _ fE0 _) (wr_out (F := F) bE0 _ fE0 _)
  isplitl [HO0]
  · iexists _; isplitl [HO0]; · iexact HO0
    ipureintro; exact zero_core k fO0 _ hO0 (wr_in (F := F) bO0 _ fO0 _) (wr_out (F := F) bO0 _ fO0 _)
  isplitl [HE1]
  · iexists _; isplitl [HE1]; · iexact HE1
    ipureintro; exact zero_core k fE1 _ hE1 (wr_in (F := F) bE1 _ fE1 _) (wr_out (F := F) bE1 _ fE1 _)
  isplitl [HO1]
  · iexists _; isplitl [HO1]; · iexact HO1
    ipureintro; exact zero_core k fO1 _ hO1 (wr_in (F := F) bO1 _ fO1 _) (wr_out (F := F) bO1 _ fO1 _)
  isplitl [HE2]
  · iexists _; isplitl [HE2]; · iexact HE2
    ipureintro; exact zero_core k fE2 _ hE2 (wr_in (F := F) bE2 _ fE2 _) (wr_out (F := F) bE2 _ fE2 _)
  isplitl [HO2]
  · iexists _; isplitl [HO2]; · iexact HO2
    ipureintro; exact zero_core k fO2 _ hO2 (wr_in (F := F) bO2 _ fO2 _) (wr_out (F := F) bO2 _ fO2 _)
  isplitl [HE3]
  · iexists _; isplitl [HE3]; · iexact HE3
    ipureintro; exact zero_core k fE3 _ hE3 (wr_in (F := F) bE3 _ fE3 _) (wr_out (F := F) bE3 _ fE3 _)
  iexists _; isplitl [HO3]; · iexact HO3
  ipureintro; exact zero_core k fO3 _ hO3 (wr_in (F := F) bO3 _ fO3 _) (wr_out (F := F) bO3 _ fO3 _)

def mergeInv (d : Dev nD) (L : grid2.Coords) (e o : Fin 4 → Vec F S10000 .f32) (n : Nat) (_ : Unit) : sProp 𝕄 :=
  iprop((∃ f : Vec F S10000 .f32, ((thr d L).loc bE0 ↦{fullShare} f) ∗ ⌜MergedTo n (e 0) (o 0) f⌝) ∗ ((thr d L).loc bO0 ↦{fullShare} o 0)
    ∗ (∃ f : Vec F S10000 .f32, ((thr d L).loc bE1 ↦{fullShare} f) ∗ ⌜MergedTo n (e 1) (o 1) f⌝) ∗ ((thr d L).loc bO1 ↦{fullShare} o 1)
    ∗ (∃ f : Vec F S10000 .f32, ((thr d L).loc bE2 ↦{fullShare} f) ∗ ⌜MergedTo n (e 2) (o 2) f⌝) ∗ ((thr d L).loc bO2 ↦{fullShare} o 2)
    ∗ (∃ f : Vec F S10000 .f32, ((thr d L).loc bE3 ↦{fullShare} f) ∗ ⌜MergedTo n (e 3) (o 3) f⌝) ∗ ((thr d L).loc bO3 ↦{fullShare} o 3))

abbrev T5 (L : grid2.Coords) (v1 : BitVec 32) := k2_t5_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc2_scoped0 cc2_scoped1 cc2_scoped2 cc2_scoped3 v1

theorem trip5 (d : Dev nD) (L : grid2.Coords) (v1 : BitVec 32) (e o : Fin 4 → Vec F S10000 .f32) :
    ∀ (t : Fin k2_t5_loop.trips) (acc : Unit), mergeInv d L e o t.val acc
      ⊢ wp frame (wpE (defs₀ (F := F)) 𝒱₀ (thr d L) none) Set.univ (T5 (F := F) L v1 t acc) (mergeInv d L e o (t.val + 1)) := by
  intro t acc
  unfold mergeInv T5 k2_t5_body
  simp only [Prog.lift, Prog.bind_op, Prog.bind_ret, Prog.pure_eq_ret]
  iintro ⟨⟨%f0, HE0, %h0⟩, HO0, ⟨%f1, HE1, %h1⟩, HO1, ⟨%f2, HE2, %h2⟩, HO2, ⟨%f3, HE3, %h3⟩, HO3⟩
  iapply (wp_load 𝒱₀ (thr d L) none Set.univ (m := (mE0 : Memref sig .scVector .vmem S10000 .f32)) (S := Finset.univ) (Finset.subset_univ _)) $$ HE0; iintro HE0
  iapply (wp_load 𝒱₀ (thr d L) none Set.univ (m := (mO0 : Memref sig .scVector .vmem S10000 .f32)) (S := Finset.univ) (Finset.subset_univ _)) $$ HO0; iintro HO0
  iapply (wp_load 𝒱₀ (thr d L) none Set.univ (m := (mE0 : Memref sig .scVector .vmem S10000 .f32)) (S := Finset.univ) (Finset.subset_univ _)) $$ HE0; iintro HE0
  iapply (wp_store 𝒱₀ (thr d L) none Set.univ (m := (mE0 : Memref sig .scVector .vmem S10000 .f32)) (r := Rect.unit (s := S10000) (k2_off10 t) S16.size (k2_off10_inb t)) (Mk := Finset.univ) (S := Finset.univ) (Finset.subset_univ _)) $$ HE0; iintro HE0
  iapply (wp_load 𝒱₀ (thr d L) none Set.univ (m := (mE1 : Memref sig .scVector .vmem S10000 .f32)) (S := Finset.univ) (Finset.subset_univ _)) $$ HE1; iintro HE1
  iapply (wp_load 𝒱₀ (thr d L) none Set.univ (m := (mO1 : Memref sig .scVector .vmem S10000 .f32)) (S := Finset.univ) (Finset.subset_univ _)) $$ HO1; iintro HO1
  iapply (wp_load 𝒱₀ (thr d L) none Set.univ (m := (mE1 : Memref sig .scVector .vmem S10000 .f32)) (S := Finset.univ) (Finset.subset_univ _)) $$ HE1; iintro HE1
  iapply (wp_store 𝒱₀ (thr d L) none Set.univ (m := (mE1 : Memref sig .scVector .vmem S10000 .f32)) (r := Rect.unit (s := S10000) (k2_off10 t) S16.size (k2_off10_inb t)) (Mk := Finset.univ) (S := Finset.univ) (Finset.subset_univ _)) $$ HE1; iintro HE1
  iapply (wp_load 𝒱₀ (thr d L) none Set.univ (m := (mE2 : Memref sig .scVector .vmem S10000 .f32)) (S := Finset.univ) (Finset.subset_univ _)) $$ HE2; iintro HE2
  iapply (wp_load 𝒱₀ (thr d L) none Set.univ (m := (mO2 : Memref sig .scVector .vmem S10000 .f32)) (S := Finset.univ) (Finset.subset_univ _)) $$ HO2; iintro HO2
  iapply (wp_load 𝒱₀ (thr d L) none Set.univ (m := (mE2 : Memref sig .scVector .vmem S10000 .f32)) (S := Finset.univ) (Finset.subset_univ _)) $$ HE2; iintro HE2
  iapply (wp_store 𝒱₀ (thr d L) none Set.univ (m := (mE2 : Memref sig .scVector .vmem S10000 .f32)) (r := Rect.unit (s := S10000) (k2_off10 t) S16.size (k2_off10_inb t)) (Mk := Finset.univ) (S := Finset.univ) (Finset.subset_univ _)) $$ HE2; iintro HE2
  iapply (wp_load 𝒱₀ (thr d L) none Set.univ (m := (mE3 : Memref sig .scVector .vmem S10000 .f32)) (S := Finset.univ) (Finset.subset_univ _)) $$ HE3; iintro HE3
  iapply (wp_load 𝒱₀ (thr d L) none Set.univ (m := (mO3 : Memref sig .scVector .vmem S10000 .f32)) (S := Finset.univ) (Finset.subset_univ _)) $$ HO3; iintro HO3
  iapply (wp_load 𝒱₀ (thr d L) none Set.univ (m := (mE3 : Memref sig .scVector .vmem S10000 .f32)) (S := Finset.univ) (Finset.subset_univ _)) $$ HE3; iintro HE3
  iapply (wp_store 𝒱₀ (thr d L) none Set.univ (m := (mE3 : Memref sig .scVector .vmem S10000 .f32)) (r := Rect.unit (s := S10000) (k2_off10 t) S16.size (k2_off10_inb t)) (Mk := Finset.univ) (S := Finset.univ) (Finset.subset_univ _)) $$ HE3; iintro HE3
  sl_step
  isplitl [HE0]
  · iexists _; isplitl [HE0]; · iexact HE0
    ipureintro; exact merge_core t (e 0) (o 0) f0 _ h0 (wr_in (F := F) bE0 _ f0 _) (wr_out (F := F) bE0 _ f0 _)
  isplitl [HO0]; · iexact HO0
  isplitl [HE1]
  · iexists _; isplitl [HE1]; · iexact HE1
    ipureintro; exact merge_core t (e 1) (o 1) f1 _ h1 (wr_in (F := F) bE1 _ f1 _) (wr_out (F := F) bE1 _ f1 _)
  isplitl [HO1]; · iexact HO1
  isplitl [HE2]
  · iexists _; isplitl [HE2]; · iexact HE2
    ipureintro; exact merge_core t (e 2) (o 2) f2 _ h2 (wr_in (F := F) bE2 _ f2 _) (wr_out (F := F) bE2 _ f2 _)
  isplitl [HO2]; · iexact HO2
  isplitl [HE3]
  · iexists _; isplitl [HE3]; · iexact HE3
    ipureintro; exact merge_core t (e 3) (o 3) f3 _ h3 (wr_in (F := F) bE3 _ f3 _) (wr_out (F := F) bE3 _ f3 _)
  iexact HO3

omit [FloatOps F] in
theorem inb_of (o : Nat) (h : o + 1600 ≤ 320000) : ∀ a, (![o] : Fin 1 → Nat) a + S1600.size a ≤ S320000.size a := by
  intro a
  obtain rfl : a = 0 := Subsingleton.elim _ _
  simpa using h

omit [FloatOps F] in
theorem k2_cond1_iff : ∀ k : Fin k2_t2_loop.trips, k2_cond1 k = 1#1 ↔ k.val + 1 < 100 := by decide +kernel

omit [FloatOps F] in
theorem trips2 : k2_t2_loop.trips = 100 := by decide
omit [FloatOps F] in
theorem trips3 : k2_t3_loop.trips = 50 := by decide
omit [FloatOps F] in
theorem trips4 : k2_t4_loop.trips = 50 := by decide

def semAInv (d : Dev nD) (L : grid2.Coords) (q : PosShare TreeShare) (srcA dstA : IVec S320000 32) (n : Nat) : sProp 𝕄 :=
  if h : n < 100 then
    iprop(∃ g0 g1 : IVec S1600 32, Transfers.Batch (countersEmb (U := UU)) (thr d L) (SemLoc.dma semA.sem) (none : HIx 4) NA
        (DAat (F := F) d L q srcA dstA ![3200 * n] (inb_of _ (by omega)) g0 g1) 2 0
      ∗ (tcLoc d main_v1 ↦[sRest ![3200 * n] (inb_of _ (by omega))]{q} srcA)
      ∗ (tcLoc d main_v3 ↦[dRest ![3200 * n] (inb_of _ (by omega))]{q} dstA))
  else
    iprop(semVal (thr d L, SemLoc.dma semA.sem) 0 ∗ (∃ g : IVec S1600 32, (thr d L).loc bSa ↦{fullShare} g) ∗ (∃ g : IVec S1600 32, (thr d L).loc bDa ↦{fullShare} g)
      ∗ (tcLoc d main_v1 ↦{q} srcA) ∗ (tcLoc d main_v3 ↦{q} dstA))

omit [FloatOps F] in
theorem semAInv_lt (d : Dev nD) (L : grid2.Coords) (q : PosShare TreeShare) (srcA dstA : IVec S320000 32) (n : Nat) (h : n < 100) :
    semAInv (F := F) d L q srcA dstA n =
      iprop(∃ g0 g1 : IVec S1600 32, Transfers.Batch (countersEmb (U := UU)) (thr d L) (SemLoc.dma semA.sem) (none : HIx 4) NA
          (DAat (F := F) d L q srcA dstA ![3200 * n] (inb_of _ (by omega)) g0 g1) 2 0
        ∗ (tcLoc d main_v1 ↦[sRest ![3200 * n] (inb_of _ (by omega))]{q} srcA)
        ∗ (tcLoc d main_v3 ↦[dRest ![3200 * n] (inb_of _ (by omega))]{q} dstA)) := by
  unfold semAInv; rw [dif_pos h]
omit [FloatOps F] in
theorem semAInv_ge (d : Dev nD) (L : grid2.Coords) (q : PosShare TreeShare) (srcA dstA : IVec S320000 32) (n : Nat) (h : ¬ n < 100) :
    semAInv (F := F) d L q srcA dstA n =
      iprop(semVal (thr d L, SemLoc.dma semA.sem) 0 ∗ (∃ g : IVec S1600 32, (thr d L).loc bSa ↦{fullShare} g) ∗ (∃ g : IVec S1600 32, (thr d L).loc bDa ↦{fullShare} g)
        ∗ (tcLoc d main_v1 ↦{q} srcA) ∗ (tcLoc d main_v3 ↦{q} dstA)) := by
  unfold semAInv; rw [dif_neg h]

def outerInv (d : Dev nD) (L : grid2.Coords) (q : PosShare TreeShare) (srcA dstA : IVec S320000 32)
    (u : Fin 4 → Vec F S10000 .f32) (O : CellTallies nD τ sig (HIx 4)) (W : Waits sig (HIx 4)) (n : Nat) (_ : Unit) : sProp 𝕄 :=
  iprop(Transfers.MayWaits (thr d L) (none : HIx 4) O
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (chunksN (u 0) srcA dstA (2 * n)).1) ∗ ((thr d L).loc bE1 ↦{fullShare} (chunksN (u 1) srcA dstA (2 * n)).1)
    ∗ ((thr d L).loc bE2 ↦{fullShare} (chunksN (u 2) srcA dstA (2 * n)).1) ∗ ((thr d L).loc bE3 ↦{fullShare} (chunksN (u 3) srcA dstA (2 * n)).1)
    ∗ ((thr d L).loc bO0 ↦{fullShare} (chunksN (u 0) srcA dstA (2 * n)).2) ∗ ((thr d L).loc bO1 ↦{fullShare} (chunksN (u 1) srcA dstA (2 * n)).2)
    ∗ ((thr d L).loc bO2 ↦{fullShare} (chunksN (u 2) srcA dstA (2 * n)).2) ∗ ((thr d L).loc bO3 ↦{fullShare} (chunksN (u 3) srcA dstA (2 * n)).2)
    ∗ (∃ g : IVec S1600 32, (thr d L).loc bSb ↦{fullShare} g) ∗ (∃ g : IVec S1600 32, (thr d L).loc bDb ↦{fullShare} g)
    ∗ semVal (thr d L, SemLoc.dma semB.sem) 0
    ∗ semAInv (F := F) d L q srcA dstA n
    ∗ ∃ W', ⌜∀ p ∈ W', p ∈ W ∨ p.2 = none⌝ ∗ owes (thr d L) O W')

abbrev T2 (L : grid2.Coords) (v1 : BitVec 32) := k2_t2_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc2_scoped0 cc2_scoped1 cc2_scoped2 cc2_scoped3 v1

theorem trip2 (d : Dev nD) (L : grid2.Coords) (v1 : BitVec 32) (q : PosShare TreeShare) (srcA dstA : IVec S320000 32)
    (hsrc : ∀ x, (srcA x).toNat < 10000) (hdst : ∀ x, (dstA x).toNat < 10000)
    (u : Fin 4 → Vec F S10000 .f32) (O : CellTallies nD τ sig (HIx 4)) (W : Waits sig (HIx 4)) :
    ∀ (k : Fin k2_t2_loop.trips) (acc : Unit), outerInv d L q srcA dstA u O W k.val acc
      ⊢ wp frame (wpE (defs₀ (F := F)) 𝒱₀ (thr d L) none) Set.univ (T2 (F := F) L v1 k acc) (outerInv d L q srcA dstA u O W (k.val + 1)) := by
  intro k acc
  have hk : k.val < 100 := lt_of_lt_of_eq k.isLt trips2
  unfold outerInv T2 k2_t2_body
  rw [semAInv_lt d L q srcA dstA k.val hk]
  iintro ⟨Hmw, Hu0, Hu1, Hu2, Hu3, HE0, HE1, HE2, HE3, HO0, HO1, HO2, HO3, ⟨%gb0, Hsb⟩, ⟨%gb1, Hdb⟩, HsemB, ⟨%ga0, %ga1, HBA, Hs, Hd⟩, %W', %hW', HO⟩

  ihave HBA := (Entails.of_eq (congrArg (fun D => Transfers.Batch (countersEmb (U := UU)) (thr d L) (SemLoc.dma semA.sem) (none : HIx 4) NA D 2 0)
      (DAat_congr (F := F) d L q srcA dstA (k2_off3_eq k).symm (inb_of _ (by omega)) (k2_off3_inb k) ga0 ga1))) $$ HBA
  ihave Hs := (Entails.of_eq ((congrArg (fun S => (tcLoc d main_v1 ↦[S]{q} srcA : sProp 𝕄)) (sRest_congr (k2_off3_eq k).symm (inb_of _ (by omega)) (k2_off3_inb k))).trans
      (pts_sRest (F := F) d L q srcA _ _).symm)) $$ Hs
  ihave Hd := (Entails.of_eq ((congrArg (fun S => (tcLoc d main_v3 ↦[S]{q} dstA : sProp 𝕄)) (dRest_congr (k2_off3_eq k).symm (inb_of _ (by omega)) (k2_off3_inb k))).trans
      (pts_dRest (F := F) d L q dstA _ _).symm)) $$ Hd
  ihave Hsb := (Entails.of_eq (pts_view_Sb (F := F) d L _).symm) $$ Hsb
  ihave Hdb := (Entails.of_eq (pts_view_Db (F := F) d L _).symm) $$ Hdb
  ihave HsemB := (Entails.of_eq (aside_eq _).symm) $$ HsemB
  sl_exec

  ihave Hs := (Entails.of_eq (show ((sSl (k2_off3 k) (k2_off3_inb k)).view.loc (thr d L) ↦{q} srcA : sProp 𝕄) = ((mS : Memref sig .scVector .hbm S320000 .i32).view.loc (thr d L) ↦{q} srcA) from rfl)) $$ Hs
  ihave Hd := (Entails.of_eq (show ((dSl (k2_off3 k) (k2_off3_inb k)).view.loc (thr d L) ↦{q} dstA : sProp 𝕄) = ((mD : Memref sig .scVector .hbm S320000 .i32).view.loc (thr d L) ↦{q} dstA) from rfl)) $$ Hd
  ihave HsemB := (Entails.of_eq (aside_eq _)) $$ HsemB
  ihave HsemA : (semVal (thr d L, SemLoc.dma semA.sem) 0 : sProp 𝕄) $$ [HBA]; · iexact HBA
  ihave HsemA := (Entails.of_eq (aside_eq _).symm) $$ HsemA
  imod (Transfers.batch_alloc' (Lvl := ℕ) (countersEmb (U := UU)) (thr d L) (none : HIx 4) NB
      (DBat (F := F) d L q srcA dstA (k2_off4 k) (k2_off4_inb k) gb0 gb1) (sm := .dma semB.sem) (E := Set.univ)) $$ HsemB with HBB
  sl_exec

  sl_for (trip3Inv (F := F) d L srcA dstA (2 * k.val) (landed (F := F) (thr d L) mSa (sSl (k2_off3 k) (k2_off3_inb k)) srcA ga0)
      (landed (F := F) (thr d L) mDa (dSl (k2_off3 k) (k2_off3_inb k)) dstA ga1) u (fun i => chunksN (u i) srcA dstA (2 * k.val))) $$ [HBA_dst0 HBA_dst1 Hu0 Hu1 Hu2 Hu3 HE0 HE1 HE2 HE3 HO0 HO1 HO2 HO3]
  case region =>
    exact trip3 (F := F) d L v1 srcA dstA hsrc hdst (2 * k.val) _ _
      (landed_holds_Sa (F := F) d L srcA (2 * k.val) _ ((k2_off3_eq k).trans (by rw [show 1600 * (2 * k.val) = 3200 * k.val by omega])) _ _)
      (landed_holds_Da (F := F) d L dstA (2 * k.val) _ ((k2_off3_eq k).trans (by rw [show 1600 * (2 * k.val) = 3200 * k.val by omega])) _ _) u _
  · unfold trip3Inv
    isplitl [HBA_dst0]; · iexact HBA_dst0
    isplitl [HBA_dst1]; · iexact HBA_dst1
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    iexact HO3
  iintro %_ HI
  ihave HI := (Entails.of_eq (congrArg (fun n => trip3Inv (F := F) d L srcA dstA (2 * k.val) (landed (F := F) (thr d L) mSa (sSl (k2_off3 k) (k2_off3_inb k)) srcA ga0)
      (landed (F := F) (thr d L) mDa (dSl (k2_off3 k) (k2_off3_inb k)) dstA ga1) u (fun i => chunksN (u i) srcA dstA (2 * k.val)) n ()) trips3)) $$ HI
  unfold trip3Inv
  icases HI with ⟨Hsa, Hda, Hu0, Hu1, Hu2, Hu3, HE0, HE1, HE2, HE3, HO0, HO1, HO2, HO3⟩
  ihave Hsa := (Entails.of_eq (pts_view_Sa (F := F) d L _).symm) $$ Hsa
  ihave Hda := (Entails.of_eq (pts_view_Da (F := F) d L _).symm) $$ Hda
  sl_exec

  ihave Hs := (Entails.of_eq (show ((sSl (k2_off4 k) (k2_off4_inb k)).view.loc (thr d L) ↦{q} srcA : sProp 𝕄) = ((mS : Memref sig .scVector .hbm S320000 .i32).view.loc (thr d L) ↦{q} srcA) from rfl)) $$ Hs
  ihave Hd := (Entails.of_eq (show ((dSl (k2_off4 k) (k2_off4_inb k)).view.loc (thr d L) ↦{q} dstA : sProp 𝕄) = ((mD : Memref sig .scVector .hbm S320000 .i32).view.loc (thr d L) ↦{q} dstA) from rfl)) $$ Hd
  by_cases hc : k2_cond1 k = 1#1
  · have hk1 : k.val + 1 < 100 := (k2_cond1_iff k).mp hc
    rw [dif_pos hc]
    ihave HsemA := (Entails.of_eq (aside_eq _)) $$ HsemA
    imod (Transfers.batch_alloc' (Lvl := ℕ) (countersEmb (U := UU)) (thr d L) (none : HIx 4) NA
        (DAat (F := F) d L q srcA dstA (k2_off7 k) (k2_off7_inb k hc) _ _) (sm := .dma semA.sem) (E := Set.univ)) $$ HsemA with HBA
    sl_exec
    sl_for (trip4Inv (F := F) d L srcA dstA (2 * k.val + 1) (landed (F := F) (thr d L) mSb (sSl (k2_off4 k) (k2_off4_inb k)) srcA gb0)
        (landed (F := F) (thr d L) mDb (dSl (k2_off4 k) (k2_off4_inb k)) dstA gb1) u (fun i => pairsN (u i) srcA dstA (2 * k.val) (chunksN (u i) srcA dstA (2 * k.val)) 50)) $$ [HBB_dst0 HBB_dst1 Hu0 Hu1 Hu2 Hu3 HE0 HE1 HE2 HE3 HO0 HO1 HO2 HO3]
    case region =>
      exact trip4 (F := F) d L v1 srcA dstA hsrc hdst (2 * k.val + 1) _ _
        (landed_holds_Sb (F := F) d L srcA (2 * k.val + 1) _ ((k2_off4_eq k).trans (by rw [show 1600 * (2 * k.val + 1) = 3200 * k.val + 1600 by omega])) _ _)
        (landed_holds_Db (F := F) d L dstA (2 * k.val + 1) _ ((k2_off4_eq k).trans (by rw [show 1600 * (2 * k.val + 1) = 3200 * k.val + 1600 by omega])) _ _) u _
    · unfold trip4Inv
      isplitl [HBB_dst0]; · iexact HBB_dst0
      isplitl [HBB_dst1]; · iexact HBB_dst1
      isplitl [Hu0]; · iexact Hu0
      isplitl [Hu1]; · iexact Hu1
      isplitl [Hu2]; · iexact Hu2
      isplitl [Hu3]; · iexact Hu3
      isplitl [HE0]; · iexact HE0
      isplitl [HE1]; · iexact HE1
      isplitl [HE2]; · iexact HE2
      isplitl [HE3]; · iexact HE3
      isplitl [HO0]; · iexact HO0
      isplitl [HO1]; · iexact HO1
      isplitl [HO2]; · iexact HO2
      iexact HO3
    iintro %_ HI
    ihave HI := (Entails.of_eq (congrArg (fun n => trip4Inv (F := F) d L srcA dstA (2 * k.val + 1) (landed (F := F) (thr d L) mSb (sSl (k2_off4 k) (k2_off4_inb k)) srcA gb0)
        (landed (F := F) (thr d L) mDb (dSl (k2_off4 k) (k2_off4_inb k)) dstA gb1) u (fun i => pairsN (u i) srcA dstA (2 * k.val) (chunksN (u i) srcA dstA (2 * k.val)) 50) n ()) trips4)) $$ HI
    unfold trip4Inv
    icases HI with ⟨Hsb, Hdb, Hu0, Hu1, Hu2, Hu3, HE0, HE1, HE2, HE3, HO0, HO1, HO2, HO3⟩
    sl_step
    rw [semAInv_lt d L q srcA dstA (k.val + 1) hk1]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HBB]; · iexact HBB
    isplitl [HBA Hs Hd]
    · iexists _, _
      isplitl [HBA]
      · iapply (Entails.of_eq (congrArg (fun D => Transfers.Batch (countersEmb (U := UU)) (thr d L) (SemLoc.dma semA.sem) (none : HIx 4) NA D 2 0)
          (DAat_congr (F := F) d L q srcA dstA ((k2_off7_eq k).trans (by rw [show 3200 * (k.val + 1) = 3200 * k.val + 3200 by omega])) (k2_off7_inb k hc) (inb_of _ (by omega)) _ _)))
        iexact HBA
      isplitl [Hs]
      · iapply (Entails.of_eq ((pts_sRest (F := F) d L q srcA _ _).trans (congrArg (fun S => (tcLoc d main_v1 ↦[S]{q} srcA : sProp 𝕄))
          (sRest_congr ((k2_off7_eq k).trans (by rw [show 3200 * (k.val + 1) = 3200 * k.val + 3200 by omega])) (k2_off7_inb k hc) (inb_of _ (by omega))))))
        iexact Hs
      · iapply (Entails.of_eq ((pts_dRest (F := F) d L q dstA _ _).trans (congrArg (fun S => (tcLoc d main_v3 ↦[S]{q} dstA : sProp 𝕄))
          (dRest_congr ((k2_off7_eq k).trans (by rw [show 3200 * (k.val + 1) = 3200 * k.val + 3200 by omega])) (k2_off7_inb k hc) (inb_of _ (by omega))))))
        iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp
  · have hk1 : ¬ (k.val + 1 < 100) := fun h => hc ((k2_cond1_iff k).mpr h)
    rw [dif_neg hc]
    sl_exec
    sl_for (trip4Inv (F := F) d L srcA dstA (2 * k.val + 1) (landed (F := F) (thr d L) mSb (sSl (k2_off4 k) (k2_off4_inb k)) srcA gb0)
        (landed (F := F) (thr d L) mDb (dSl (k2_off4 k) (k2_off4_inb k)) dstA gb1) u (fun i => pairsN (u i) srcA dstA (2 * k.val) (chunksN (u i) srcA dstA (2 * k.val)) 50)) $$ [HBB_dst0 HBB_dst1 Hu0 Hu1 Hu2 Hu3 HE0 HE1 HE2 HE3 HO0 HO1 HO2 HO3]
    case region =>
      exact trip4 (F := F) d L v1 srcA dstA hsrc hdst (2 * k.val + 1) _ _
        (landed_holds_Sb (F := F) d L srcA (2 * k.val + 1) _ ((k2_off4_eq k).trans (by rw [show 1600 * (2 * k.val + 1) = 3200 * k.val + 1600 by omega])) _ _)
        (landed_holds_Db (F := F) d L dstA (2 * k.val + 1) _ ((k2_off4_eq k).trans (by rw [show 1600 * (2 * k.val + 1) = 3200 * k.val + 1600 by omega])) _ _) u _
    · unfold trip4Inv
      isplitl [HBB_dst0]; · iexact HBB_dst0
      isplitl [HBB_dst1]; · iexact HBB_dst1
      isplitl [Hu0]; · iexact Hu0
      isplitl [Hu1]; · iexact Hu1
      isplitl [Hu2]; · iexact Hu2
      isplitl [Hu3]; · iexact Hu3
      isplitl [HE0]; · iexact HE0
      isplitl [HE1]; · iexact HE1
      isplitl [HE2]; · iexact HE2
      isplitl [HE3]; · iexact HE3
      isplitl [HO0]; · iexact HO0
      isplitl [HO1]; · iexact HO1
      isplitl [HO2]; · iexact HO2
      iexact HO3
    iintro %_ HI
    ihave HI := (Entails.of_eq (congrArg (fun n => trip4Inv (F := F) d L srcA dstA (2 * k.val + 1) (landed (F := F) (thr d L) mSb (sSl (k2_off4 k) (k2_off4_inb k)) srcA gb0)
        (landed (F := F) (thr d L) mDb (dSl (k2_off4 k) (k2_off4_inb k)) dstA gb1) u (fun i => pairsN (u i) srcA dstA (2 * k.val) (chunksN (u i) srcA dstA (2 * k.val)) 50) n ()) trips4)) $$ HI
    unfold trip4Inv
    icases HI with ⟨Hsb, Hdb, Hu0, Hu1, Hu2, Hu3, HE0, HE1, HE2, HE3, HO0, HO1, HO2, HO3⟩
    sl_step
    rw [semAInv_ge d L q srcA dstA (k.val + 1) hk1]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HBB]; · iexact HBB
    isplitl [HsemA Hsa Hda Hs Hd]
    · isplitl [HsemA]; · iapply (Entails.of_eq (aside_eq _)); iexact HsemA
      isplitl [Hsa]; · iexists _; iexact Hsa
      isplitl [Hda]; · iexists _; iexact Hda
      isplitl [Hs]; · iexact Hs
      iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
theorem landed_row_0 (d : Dev nD) (L : grid2.Coords) (uA : Vec F S1280000 .f32) (g : Vec F S10000 .f32) :
    landed (F := F) (thr d L) mU0 (uSl0 L) uA g = rowOf uA L 0 := by
  funext j
  show (View.whole bU0).write (Elt F) g (ReadAs.same.apply ((uSl0 L).view.read (Elt F) uA)) Finset.univ j = _
  rw [View.write_whole_univ]
  rfl

omit [FloatOps F] in
theorem pts_out_0 (d : Dev nD) (L : grid2.Coords) (f : Vec F S1280000 .f32) :
    ((oSl0 L).view.loc (thr d L) ↦[(oSl0 L).view.set]{fullShare} f : sProp 𝕄) = (tcLoc d main_v12 ↦[rowSet L 0]{fullShare} f) := by
  have hset : (oSl0 L).view.set = rowSet L 0 := by
    show ((View.whole main_v12_scv).slice (rowRect L 0)).set = (rowRect L 0).set
    rw [View.set_slice]; exact Finset.map_refl
  rw [hset]

omit [FloatOps F] in
theorem landed_row_1 (d : Dev nD) (L : grid2.Coords) (uA : Vec F S1280000 .f32) (g : Vec F S10000 .f32) :
    landed (F := F) (thr d L) mU1 (uSl1 L) uA g = rowOf uA L 1 := by
  funext j
  show (View.whole bU1).write (Elt F) g (ReadAs.same.apply ((uSl1 L).view.read (Elt F) uA)) Finset.univ j = _
  rw [View.write_whole_univ]
  rfl

omit [FloatOps F] in
theorem pts_out_1 (d : Dev nD) (L : grid2.Coords) (f : Vec F S1280000 .f32) :
    ((oSl1 L).view.loc (thr d L) ↦[(oSl1 L).view.set]{fullShare} f : sProp 𝕄) = (tcLoc d main_v12 ↦[rowSet L 1]{fullShare} f) := by
  have hset : (oSl1 L).view.set = rowSet L 1 := by
    show ((View.whole main_v12_scv).slice (rowRect L 1)).set = (rowRect L 1).set
    rw [View.set_slice]; exact Finset.map_refl
  rw [hset]

omit [FloatOps F] in
theorem landed_row_2 (d : Dev nD) (L : grid2.Coords) (uA : Vec F S1280000 .f32) (g : Vec F S10000 .f32) :
    landed (F := F) (thr d L) mU2 (uSl2 L) uA g = rowOf uA L 2 := by
  funext j
  show (View.whole bU2).write (Elt F) g (ReadAs.same.apply ((uSl2 L).view.read (Elt F) uA)) Finset.univ j = _
  rw [View.write_whole_univ]
  rfl

omit [FloatOps F] in
theorem pts_out_2 (d : Dev nD) (L : grid2.Coords) (f : Vec F S1280000 .f32) :
    ((oSl2 L).view.loc (thr d L) ↦[(oSl2 L).view.set]{fullShare} f : sProp 𝕄) = (tcLoc d main_v12 ↦[rowSet L 2]{fullShare} f) := by
  have hset : (oSl2 L).view.set = rowSet L 2 := by
    show ((View.whole main_v12_scv).slice (rowRect L 2)).set = (rowRect L 2).set
    rw [View.set_slice]; exact Finset.map_refl
  rw [hset]

omit [FloatOps F] in
theorem landed_row_3 (d : Dev nD) (L : grid2.Coords) (uA : Vec F S1280000 .f32) (g : Vec F S10000 .f32) :
    landed (F := F) (thr d L) mU3 (uSl3 L) uA g = rowOf uA L 3 := by
  funext j
  show (View.whole bU3).write (Elt F) g (ReadAs.same.apply ((uSl3 L).view.read (Elt F) uA)) Finset.univ j = _
  rw [View.write_whole_univ]
  rfl

omit [FloatOps F] in
theorem pts_out_3 (d : Dev nD) (L : grid2.Coords) (f : Vec F S1280000 .f32) :
    ((oSl3 L).view.loc (thr d L) ↦[(oSl3 L).view.set]{fullShare} f : sProp 𝕄) = (tcLoc d main_v12 ↦[rowSet L 3]{fullShare} f) := by
  have hset : (oSl3 L).view.set = rowSet L 3 := by
    show ((View.whole main_v12_scv).slice (rowRect L 3)).set = (rowRect L 3).set
    rw [View.set_slice]; exact Finset.map_refl
  rw [hset]

def DU (d : Dev nD) (L : grid2.Coords) (q : PosShare TreeShare) (uA : Vec F S1280000 .f32) (f0 f1 f2 f3 : Vec F S10000 .f32) : Fin 4 → sProp 𝕄 :=
  fun t => match t with
    | ⟨0, _⟩ => iprop(((mU0 : Memref sig .scVector .vmem S10000 .f32).view.loc (thr d L) ↦{fullShare} landed (F := F) (thr d L) mU0 (uSl0 L) uA f0)
        ∗ ((uSl0 L : Memref sig .scVector .hbm S10000 .f32).view.loc (thr d L) ↦[(uSl0 L : Memref sig .scVector .hbm S10000 .f32).view.set]{q} uA))
    | ⟨1, _⟩ => iprop(((mU1 : Memref sig .scVector .vmem S10000 .f32).view.loc (thr d L) ↦{fullShare} landed (F := F) (thr d L) mU1 (uSl1 L) uA f1)
        ∗ ((uSl1 L : Memref sig .scVector .hbm S10000 .f32).view.loc (thr d L) ↦[(uSl1 L : Memref sig .scVector .hbm S10000 .f32).view.set]{q} uA))
    | ⟨2, _⟩ => iprop(((mU2 : Memref sig .scVector .vmem S10000 .f32).view.loc (thr d L) ↦{fullShare} landed (F := F) (thr d L) mU2 (uSl2 L) uA f2)
        ∗ ((uSl2 L : Memref sig .scVector .hbm S10000 .f32).view.loc (thr d L) ↦[(uSl2 L : Memref sig .scVector .hbm S10000 .f32).view.set]{q} uA))
    | ⟨3, _⟩ => iprop(((mU3 : Memref sig .scVector .vmem S10000 .f32).view.loc (thr d L) ↦{fullShare} landed (F := F) (thr d L) mU3 (uSl3 L) uA f3)
        ∗ ((uSl3 L : Memref sig .scVector .hbm S10000 .f32).view.loc (thr d L) ↦[(uSl3 L : Memref sig .scVector .hbm S10000 .f32).view.set]{q} uA))

omit [FloatOps F] in
instance DU_storable (d : Dev nD) (L : grid2.Coords) (q : PosShare TreeShare) (uA : Vec F S1280000 .f32) (f0 f1 f2 f3 : Vec F S10000 .f32) (t : Fin 4) :
    Storable (upEmb : UEmb _ 𝕄) (DU (F := F) d L q uA f0 f1 f2 f3 t) := by
  unfold DU
  match t with
  | ⟨0, _⟩ => infer_instance
  | ⟨1, _⟩ => infer_instance
  | ⟨2, _⟩ => infer_instance
  | ⟨3, _⟩ => infer_instance

omit [FloatOps F] in
theorem trips1 : k2_t1_loop.trips = 625 := by decide
omit [FloatOps F] in
theorem trips5 : k2_t5_loop.trips = 625 := by decide

omit [FloatOps F] in
theorem read_row_0 (L : grid2.Coords) (g : Vec F S1280000 .f32) (j : S10000.Idx) :
    (oSl0 L).view.read (Elt F) g j = g ((rowRect L 0).emb j) := rfl

omit [FloatOps F] in
theorem writes_whole_read_0 (L : grid2.Coords) (fo : Vec F S1280000 .f32) (w : Vec F S10000 .f32) (j : S10000.Idx) :
    (oSl0 L).view.read (Elt F) ((oSl0 L).view.writes (Elt F) fo [⟨Rect.whole S10000, w⟩]) j = w j := by
  have h := View.read_writes_cons_emb (v := (oSl0 L).view) (Val := Elt F) (f := fo) (Rect.whole S10000) w [] j
  rwa [Rect.emb_whole_apply] at h

omit [FloatOps F] in
theorem read_row_1 (L : grid2.Coords) (g : Vec F S1280000 .f32) (j : S10000.Idx) :
    (oSl1 L).view.read (Elt F) g j = g ((rowRect L 1).emb j) := rfl

omit [FloatOps F] in
theorem writes_whole_read_1 (L : grid2.Coords) (fo : Vec F S1280000 .f32) (w : Vec F S10000 .f32) (j : S10000.Idx) :
    (oSl1 L).view.read (Elt F) ((oSl1 L).view.writes (Elt F) fo [⟨Rect.whole S10000, w⟩]) j = w j := by
  have h := View.read_writes_cons_emb (v := (oSl1 L).view) (Val := Elt F) (f := fo) (Rect.whole S10000) w [] j
  rwa [Rect.emb_whole_apply] at h

omit [FloatOps F] in
theorem read_row_2 (L : grid2.Coords) (g : Vec F S1280000 .f32) (j : S10000.Idx) :
    (oSl2 L).view.read (Elt F) g j = g ((rowRect L 2).emb j) := rfl

omit [FloatOps F] in
theorem writes_whole_read_2 (L : grid2.Coords) (fo : Vec F S1280000 .f32) (w : Vec F S10000 .f32) (j : S10000.Idx) :
    (oSl2 L).view.read (Elt F) ((oSl2 L).view.writes (Elt F) fo [⟨Rect.whole S10000, w⟩]) j = w j := by
  have h := View.read_writes_cons_emb (v := (oSl2 L).view) (Val := Elt F) (f := fo) (Rect.whole S10000) w [] j
  rwa [Rect.emb_whole_apply] at h

omit [FloatOps F] in
theorem read_row_3 (L : grid2.Coords) (g : Vec F S1280000 .f32) (j : S10000.Idx) :
    (oSl3 L).view.read (Elt F) g j = g ((rowRect L 3).emb j) := rfl

omit [FloatOps F] in
theorem writes_whole_read_3 (L : grid2.Coords) (fo : Vec F S1280000 .f32) (w : Vec F S10000 .f32) (j : S10000.Idx) :
    (oSl3 L).view.read (Elt F) ((oSl3 L).view.writes (Elt F) fo [⟨Rect.whole S10000, w⟩]) j = w j := by
  have h := View.read_writes_cons_emb (v := (oSl3 L).view) (Val := Elt F) (f := fo) (Rect.whole S10000) w [] j
  rwa [Rect.emb_whole_apply] at h

theorem tile_core : TileCore F := by
  intro d L q uA srcA dstA hsrc hdst O W
  unfold kern
  simp only [cc2_spmm_kernel_eq_skeleton]
  unfold cc2_spmm_kernel_skel
  simp only [k2_part1_eq_skeleton, k2_part2_eq_skeleton]
  unfold k2_part1_skel k2_part2_skel
  unfold outPiece scratch20 sems7
  iintro ⟨Hmw, Hu, Hs, Hd, ⟨%fo0, Ho0⟩, ⟨%fo1, Ho1⟩, ⟨%fo2, Ho2⟩, ⟨%fo3, Ho3⟩,
    ⟨⟨%f0, H0⟩, ⟨%f1, H1⟩, ⟨%f2, H2⟩, ⟨%f3, H3⟩, ⟨%fE0, HE0⟩, ⟨%fE1, HE1⟩, ⟨%fE2, HE2⟩, ⟨%fE3, HE3⟩, ⟨%fO0, HO0⟩, ⟨%fO1, HO1⟩, ⟨%fO2, HO2⟩, ⟨%fO3, HO3⟩,
      ⟨%ga0, Hsa⟩, ⟨%ga1, Hda⟩, ⟨%gb0, Hsb⟩, ⟨%gb1, Hdb⟩⟩,
    ⟨HsemA, HsemB, HsemU, Hsc0, Hsc1, Hsc2, Hsc3⟩, HO⟩
  ihave Hu := (Entails.of_eq (pts_view_U (F := F) d L q _).symm) $$ Hu
  ihave Hs := (Entails.of_eq (pts_view_S (F := F) d L q _).symm) $$ Hs
  ihave Hd := (Entails.of_eq (pts_view_D (F := F) d L q _).symm) $$ Hd
  ihave H0 := (Entails.of_eq (pts_view_U0 (F := F) d L _).symm) $$ H0
  ihave H1 := (Entails.of_eq (pts_view_U1 (F := F) d L _).symm) $$ H1
  ihave H2 := (Entails.of_eq (pts_view_U2 (F := F) d L _).symm) $$ H2
  ihave H3 := (Entails.of_eq (pts_view_U3 (F := F) d L _).symm) $$ H3
  ihave Hsa := (Entails.of_eq (pts_view_Sa (F := F) d L _).symm) $$ Hsa
  ihave Hda := (Entails.of_eq (pts_view_Da (F := F) d L _).symm) $$ Hda
  ihave Ho0 := (Entails.of_eq (pts_out_0 (F := F) d L _).symm) $$ Ho0
  ihave Ho1 := (Entails.of_eq (pts_out_1 (F := F) d L _).symm) $$ Ho1
  ihave Ho2 := (Entails.of_eq (pts_out_2 (F := F) d L _).symm) $$ Ho2
  ihave Ho3 := (Entails.of_eq (pts_out_3 (F := F) d L _).symm) $$ Ho3
  ihave HsemB := (Entails.of_eq (aside_eq _).symm) $$ HsemB
  ihave Hsc0 := (Entails.of_eq (aside_eq _).symm) $$ Hsc0
  ihave Hsc1 := (Entails.of_eq (aside_eq _).symm) $$ Hsc1
  ihave Hsc2 := (Entails.of_eq (aside_eq _).symm) $$ Hsc2
  ihave Hsc3 := (Entails.of_eq (aside_eq _).symm) $$ Hsc3
  imod (Transfers.batch_alloc' (Lvl := ℕ) (countersEmb (U := UU)) (thr d L) (none : HIx 4) NA
      (DAat (F := F) d L q srcA dstA ![0] inb_S320000_S1600_0 ga0 ga1) (sm := .dma semA.sem) (E := Set.univ)) $$ HsemA with HBA
  imod (Transfers.batch_alloc' (Lvl := ℕ) (countersEmb (U := UU)) (thr d L) (none : HIx 4) NU
      (DU (F := F) d L q uA f0 f1 f2 f3) (sm := .dma semU.sem) (E := Set.univ)) $$ HsemU with HBU
  sl_exec
  rw [bind_assoc]
  sl_for (zeroInv (F := F) d L) $$ [HE0 HO0 HE1 HO1 HE2 HO2 HE3 HO3]
  case region => exact trip1 d L
  · unfold zeroInv
    isplitl [HE0]
    · iexists _; isplitl [HE0]; · iexact HE0
      ipureintro; exact zeroTo_zero _
    isplitl [HO0]
    · iexists _; isplitl [HO0]; · iexact HO0
      ipureintro; exact zeroTo_zero _
    isplitl [HE1]
    · iexists _; isplitl [HE1]; · iexact HE1
      ipureintro; exact zeroTo_zero _
    isplitl [HO1]
    · iexists _; isplitl [HO1]; · iexact HO1
      ipureintro; exact zeroTo_zero _
    isplitl [HE2]
    · iexists _; isplitl [HE2]; · iexact HE2
      ipureintro; exact zeroTo_zero _
    isplitl [HO2]
    · iexists _; isplitl [HO2]; · iexact HO2
      ipureintro; exact zeroTo_zero _
    isplitl [HE3]
    · iexists _; isplitl [HE3]; · iexact HE3
      ipureintro; exact zeroTo_zero _
    iexists _; isplitl [HO3]; · iexact HO3
    ipureintro; exact zeroTo_zero _
  iintro %_ HI
  ihave HI := (Entails.of_eq (congrArg (fun n => zeroInv (F := F) d L n ()) trips1)) $$ HI
  unfold zeroInv
  icases HI with ⟨⟨%zE0, HE0, %hzE0⟩, ⟨%zO0, HO0, %hzO0⟩, ⟨%zE1, HE1, %hzE1⟩, ⟨%zO1, HO1, %hzO1⟩, ⟨%zE2, HE2, %hzE2⟩, ⟨%zO2, HO2, %hzO2⟩, ⟨%zE3, HE3, %hzE3⟩, ⟨%zO3, HO3, %hzO3⟩⟩
  obtain rfl := zeroTo_all zE0 hzE0
  obtain rfl := zeroTo_all zO0 hzO0
  obtain rfl := zeroTo_all zE1 hzE1
  obtain rfl := zeroTo_all zO1 hzO1
  obtain rfl := zeroTo_all zE2 hzE2
  obtain rfl := zeroTo_all zO2 hzO2
  obtain rfl := zeroTo_all zE3 hzE3
  obtain rfl := zeroTo_all zO3 hzO3
  sl_exec
  ihave Hu0 := (Entails.of_eq (pts_view_U0 (F := F) d L _)) $$ HBU_dst0
  ihave Hu0 := (Entails.of_eq (congrArg (fun f => ((thr d L).loc bU0 ↦{fullShare} f : sProp 𝕄)) (landed_row_0 (F := F) d L uA f0))) $$ Hu0
  ihave Hu1 := (Entails.of_eq (pts_view_U1 (F := F) d L _)) $$ HBU_dst1
  ihave Hu1 := (Entails.of_eq (congrArg (fun f => ((thr d L).loc bU1 ↦{fullShare} f : sProp 𝕄)) (landed_row_1 (F := F) d L uA f1))) $$ Hu1
  ihave Hu2 := (Entails.of_eq (pts_view_U2 (F := F) d L _)) $$ HBU_dst2
  ihave Hu2 := (Entails.of_eq (congrArg (fun f => ((thr d L).loc bU2 ↦{fullShare} f : sProp 𝕄)) (landed_row_2 (F := F) d L uA f2))) $$ Hu2
  ihave Hu3 := (Entails.of_eq (pts_view_U3 (F := F) d L _)) $$ HBU_dst3
  ihave Hu3 := (Entails.of_eq (congrArg (fun f => ((thr d L).loc bU3 ↦{fullShare} f : sProp 𝕄)) (landed_row_3 (F := F) d L uA f3))) $$ Hu3
  rw [bind_assoc]
  sl_for (outerInv (F := F) d L q srcA dstA (fun k => rowOf uA L k) O W) $$ [Hmw Hu0 Hu1 Hu2 Hu3 HE0 HE1 HE2 HE3 HO0 HO1 HO2 HO3 Hsb Hdb HsemB HBA Hs Hd HO]
  case region => exact trip2 (F := F) d L _ q srcA dstA hsrc hdst _ O W
  · unfold outerInv
    rw [semAInv_lt d L q srcA dstA 0 (by omega)]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HsemB]; · iapply (Entails.of_eq (aside_eq _)); iexact HsemB
    isplitl [HBA Hs Hd]
    · iexists ga0, ga1
      isplitl [HBA]
      · iapply (Entails.of_eq (congrArg (fun D => Transfers.Batch (countersEmb (U := UU)) (thr d L) (SemLoc.dma semA.sem) (none : HIx 4) NA D 2 0)
          (DAat_congr (F := F) d L q srcA dstA (show (![0] : Fin 1 → Nat) = ![3200 * 0] from rfl) inb_S320000_S1600_0 (inb_of _ (by omega)) ga0 ga1)))
        iexact HBA
      isplitl [Hs]
      · iapply (Entails.of_eq ((pts_sRest (F := F) d L q srcA _ _).trans (congrArg (fun S => (tcLoc d main_v1 ↦[S]{q} srcA : sProp 𝕄))
          (sRest_congr (show (![0] : Fin 1 → Nat) = ![3200 * 0] from rfl) inb_S320000_S1600_0 (inb_of _ (by omega))))))
        iexact Hs
      · iapply (Entails.of_eq ((pts_dRest (F := F) d L q dstA _ _).trans (congrArg (fun S => (tcLoc d main_v3 ↦[S]{q} dstA : sProp 𝕄))
          (dRest_congr (show (![0] : Fin 1 → Nat) = ![3200 * 0] from rfl) inb_S320000_S1600_0 (inb_of _ (by omega))))))
        iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  iintro %_ HI
  ihave HI := (Entails.of_eq (congrArg (fun n => outerInv (F := F) d L q srcA dstA (fun k => rowOf uA L k) O W n ()) trips2)) $$ HI
  unfold outerInv
  rw [semAInv_ge d L q srcA dstA 100 (by omega)]
  icases HI with ⟨Hmw, Hu0, Hu1, Hu2, Hu3, HE0, HE1, HE2, HE3, HO0, HO1, HO2, HO3, ⟨%gb0', Hsb⟩, ⟨%gb1', Hdb⟩, HsemB, ⟨HsemA, ⟨%ga0', Hsa⟩, ⟨%ga1', Hda⟩, Hs, Hd⟩, %W1, %hW1, HO⟩
  sl_respell []
  rw [bind_assoc]
  sl_for (mergeInv (F := F) d L (fun k => (chunksN (rowOf uA L k) srcA dstA (2 * 100)).1) (fun k => (chunksN (rowOf uA L k) srcA dstA (2 * 100)).2)) $$ [HE0 HO0 HE1 HO1 HE2 HO2 HE3 HO3]
  case region => exact trip5 (F := F) d L _ _ _
  · unfold mergeInv
    isplitl [HE0]
    · iexists _; isplitl [HE0]; · iexact HE0
      ipureintro; exact mergedTo_zero _ _
    isplitl [HO0]; · iexact HO0
    isplitl [HE1]
    · iexists _; isplitl [HE1]; · iexact HE1
      ipureintro; exact mergedTo_zero _ _
    isplitl [HO1]; · iexact HO1
    isplitl [HE2]
    · iexists _; isplitl [HE2]; · iexact HE2
      ipureintro; exact mergedTo_zero _ _
    isplitl [HO2]; · iexact HO2
    isplitl [HE3]
    · iexists _; isplitl [HE3]; · iexact HE3
      ipureintro; exact mergedTo_zero _ _
    iexact HO3
  iintro %_ HI
  ihave HI := (Entails.of_eq (congrArg (fun n => mergeInv (F := F) d L (fun k => (chunksN (rowOf uA L k) srcA dstA (2 * 100)).1) (fun k => (chunksN (rowOf uA L k) srcA dstA (2 * 100)).2) n ()) trips5)) $$ HI
  unfold mergeInv
  icases HI with ⟨⟨%m0, HE0, %hm0⟩, HO0, ⟨%m1, HE1, %hm1⟩, HO1, ⟨%m2, HE2, %hm2⟩, HO2, ⟨%m3, HE3, %hm3⟩, HO3⟩
  ihave HE0 := (Entails.of_eq (pts_view_E0 (F := F) d L _).symm) $$ HE0
  ihave HE1 := (Entails.of_eq (pts_view_E1 (F := F) d L _).symm) $$ HE1
  ihave HE2 := (Entails.of_eq (pts_view_E2 (F := F) d L _).symm) $$ HE2
  ihave HE3 := (Entails.of_eq (pts_view_E3 (F := F) d L _).symm) $$ HE3
  ihave Hsc0 := (Entails.of_eq (aside_eq _)) $$ Hsc0
  ihave Hsc1 := (Entails.of_eq (aside_eq _)) $$ Hsc1
  ihave Hsc2 := (Entails.of_eq (aside_eq _)) $$ Hsc2
  ihave Hsc3 := (Entails.of_eq (aside_eq _)) $$ Hsc3
  sl_exec
  sl_step
  isplitl [Hu]; · iexact Hu
  isplitl [Hs]; · iexact Hs
  isplitl [Hd]; · iexact Hd
  isplitl [Ho0]
  · unfold outDone
    iexists _; isplitr
    swap
    · iapply (Entails.of_eq (pts_out_0 (F := F) d L _)); iexact Ho0
    ipureintro; intro j
    refine (read_row_0 (F := F) L _ j).symm.trans ?_
    refine (writes_whole_read_0 (F := F) L _ _ j).trans ?_
    show m0 j = _
    rw [mergedTo_all _ _ _ hm0]
    rfl
  isplitl [Ho1]
  · unfold outDone
    iexists _; isplitr
    swap
    · iapply (Entails.of_eq (pts_out_1 (F := F) d L _)); iexact Ho1
    ipureintro; intro j
    refine (read_row_1 (F := F) L _ j).symm.trans ?_
    refine (writes_whole_read_1 (F := F) L _ _ j).trans ?_
    show m1 j = _
    rw [mergedTo_all _ _ _ hm1]
    rfl
  isplitl [Ho2]
  · unfold outDone
    iexists _; isplitr
    swap
    · iapply (Entails.of_eq (pts_out_2 (F := F) d L _)); iexact Ho2
    ipureintro; intro j
    refine (read_row_2 (F := F) L _ j).symm.trans ?_
    refine (writes_whole_read_2 (F := F) L _ _ j).trans ?_
    show m2 j = _
    rw [mergedTo_all _ _ _ hm2]
    rfl
  isplitl [Ho3]
  · unfold outDone
    iexists _; isplitr
    swap
    · iapply (Entails.of_eq (pts_out_3 (F := F) d L _)); iexact Ho3
    ipureintro; intro j
    refine (read_row_3 (F := F) L _ j).symm.trans ?_
    refine (writes_whole_read_3 (F := F) L _ _ j).trans ?_
    show m3 j = _
    rw [mergedTo_all _ _ _ hm3]
    rfl
  isplitl [Hu0 Hu1 Hu2 Hu3 HE0 HE1 HE2 HE3 HO0 HO1 HO2 HO3 Hsa Hda Hsb Hdb]
  · isplitl [Hu0]; · iexists _; iexact Hu0
    isplitl [Hu1]; · iexists _; iexact Hu1
    isplitl [Hu2]; · iexists _; iexact Hu2
    isplitl [Hu3]; · iexists _; iexact Hu3
    isplitl [HE0]; · iexists _; iexact HE0
    isplitl [HE1]; · iexists _; iexact HE1
    isplitl [HE2]; · iexists _; iexact HE2
    isplitl [HE3]; · iexists _; iexact HE3
    isplitl [HO0]; · iexists _; iexact HO0
    isplitl [HO1]; · iexists _; iexact HO1
    isplitl [HO2]; · iexists _; iexact HO2
    isplitl [HO3]; · iexists _; iexact HO3
    isplitl [Hsa]; · iexists _; iexact Hsa
    isplitl [Hda]; · iexists _; iexact Hda
    isplitl [Hsb]; · iexists _; iexact Hsb
    iexists _; iexact Hdb
  isplitl [HsemA HsemB HBU Hsc0 Hsc1 Hsc2 Hsc3]
  · isplitl [HsemA]; · iexact HsemA
    isplitl [HsemB]; · iexact HsemB
    isplitl [HBU]; · iexact HBU
    isplitl [Hsc0]; · iexact Hsc0
    isplitl [Hsc1]; · iexact Hsc1
    isplitl [Hsc2]; · iexact Hsc2
    iexact Hsc3
  iexists _; isplitr
  swap
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW1 p hp

end Cert.KernelIdeal.SpmmTile

end
-- ==== Proof.SpmmTile2.lean ====
import proofs.«213134_g57071525429591_cont_9to1_m_136_24_alg».proof.Proof.SpmmNames2

set_option maxHeartbeats 6400000

noncomputable section

namespace Cert.KernelIdeal.SpmmTile2

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

theorem inRange_of (v : IVec S16 32) (h : ∀ x, (v x).toNat < 10000) :
    ∀ a x, ((![v] : Fin 1 → IVec S16 32) a x).toNat < S10000.size a := by
  intro a x
  have ha : a = 0 := Subsingleton.elim _ _
  subst ha
  exact h x

theorem wordAt_lt {t : IVec ShE 32} (ht : ∀ x, (t x).toNat < 10000) (k : Nat) : (wordAt t k).toNat < 10000 := by
  unfold wordAt
  split
  · exact ht _
  · show (0 : BitVec 32).toNat < 10000
    decide

theorem vec16_lt {t : IVec ShE 32} (ht : ∀ x, (t x).toNat < 10000) (base : Nat) (x : S16.Idx) : (vec16 t base x).toNat < 10000 :=
  wordAt_lt ht _

theorem vec16_inRange {t : IVec ShE 32} (ht : ∀ x, (t x).toNat < 10000) (base : Nat) :
    ∀ a x, ((![vec16 t base] : Fin 1 → IVec S16 32) a x).toNat < S10000.size a := inRange_of _ (vec16_lt ht base)

def HoldsChunk (t : IVec ShE 32) (jc : Nat) (s : IVec S1600 32) : Prop := ∀ j : S1600.Idx, s j = wordAt t (1600 * jc + (j 0).val)

def rd16 (s : IVec S1600 32) (off : Fin 1 → Nat) (inb : ∀ a, off a + S16.size a ≤ S1600.size a) : IVec S16 32 :=
  fun x => s ((Rect.unit (s := S1600) off S16.size inb).toLoadRect.idx x)

omit [FloatOps F] in

theorem rd16_eq (t : IVec ShE 32) (jc : Nat) (s : IVec S1600 32) (hs : HoldsChunk t jc s)
    (off : Fin 1 → Nat) (o : Nat) (ho : off = ![o]) (inb : ∀ a, off a + S16.size a ≤ S1600.size a) :
    rd16 s off inb = vec16 t (1600 * jc + o) := by
  subst ho
  funext x
  unfold rd16 vec16
  rw [hs]
  congr 1
  rw [LoadRect.idx_apply]
  show 1600 * jc + (o + 1 * (x 0).val) = 1600 * jc + o + (x 0).val
  omega

omit [FloatOps F] in
theorem load_Sa (t : IVec ShE 32) (jc : Nat) (s : IVec S1600 32) (hs : HoldsChunk t jc s)
    (off : Fin 1 → Nat) (o : Nat) (ho : off = ![o]) (inb : ∀ a, off a + S16.size a ≤ S1600.size a) :
    (mSa : Memref sig .scVector .vmem S1600 .i32).view.readAt (Elt F) (Rect.unit (s := S1600) off S16.size inb).toLoadRect s = vec16 t (1600 * jc + o) :=
  rd16_eq t jc s hs off o ho inb
omit [FloatOps F] in
theorem load_Da (t : IVec ShE 32) (jc : Nat) (s : IVec S1600 32) (hs : HoldsChunk t jc s)
    (off : Fin 1 → Nat) (o : Nat) (ho : off = ![o]) (inb : ∀ a, off a + S16.size a ≤ S1600.size a) :
    (mDa : Memref sig .scVector .vmem S1600 .i32).view.readAt (Elt F) (Rect.unit (s := S1600) off S16.size inb).toLoadRect s = vec16 t (1600 * jc + o) :=
  rd16_eq t jc s hs off o ho inb
omit [FloatOps F] in
theorem load_Sb (t : IVec ShE 32) (jc : Nat) (s : IVec S1600 32) (hs : HoldsChunk t jc s)
    (off : Fin 1 → Nat) (o : Nat) (ho : off = ![o]) (inb : ∀ a, off a + S16.size a ≤ S1600.size a) :
    (mSb : Memref sig .scVector .vmem S1600 .i32).view.readAt (Elt F) (Rect.unit (s := S1600) off S16.size inb).toLoadRect s = vec16 t (1600 * jc + o) :=
  rd16_eq t jc s hs off o ho inb
omit [FloatOps F] in
theorem load_Db (t : IVec ShE 32) (jc : Nat) (s : IVec S1600 32) (hs : HoldsChunk t jc s)
    (off : Fin 1 → Nat) (o : Nat) (ho : off = ![o]) (inb : ∀ a, off a + S16.size a ≤ S1600.size a) :
    (mDb : Memref sig .scVector .vmem S1600 .i32).view.readAt (Elt F) (Rect.unit (s := S1600) off S16.size inb).toLoadRect s = vec16 t (1600 * jc + o) :=
  rd16_eq t jc s hs off o ho inb

omit [FloatOps F] in
theorem pts_acc_E0 (d : Dev nD) (L : grid4.Coords) (f : Vec F S10000 .f32) :
    (((mE0 : Memref sig .scVector .vmem S10000 .f32).access (Rect.whole S10000)).loc (thr d L) ↦[((mE0 : Memref sig .scVector .vmem S10000 .f32).access (Rect.whole S10000)).set]{fullShare} f : sProp 𝕄)
      = ((thr d L).loc bE0 ↦{fullShare} f) := by
  rw [show ((mE0 : Memref sig .scVector .vmem S10000 .f32).access (Rect.whole S10000)).set = Finset.univ from Memref.set_access_whole bE0]

theorem acc_step_E0 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE0 : Memref sig .scVector .vmem S10000 .f32).access (Rect.whole S10000)).loc (thr d L) ↦[((mE0 : Memref sig .scVector .vmem S10000 .f32).access (Rect.whole S10000)).set]{fullShare}
        (((mE0 : Memref sig .scVector .vmem S10000 .f32).access (Rect.whole S10000)).write (Elt F) e
          (storeIdx (((mE0 : Memref sig .scVector .vmem S10000 .f32).access (Rect.whole S10000)).read (Elt F) e) ![dv]
            (loadIdx (((mU0 : Memref sig .scVector .vmem S10000 .f32).access (Rect.whole S10000)).read (Elt F) u) ![sv] hs) (fun _ => 1#1) true hd) Finset.univ) : sProp 𝕄)
      = ((thr d L).loc bE0 ↦{fullShare} step u e sv dv) := by
  rw [show ((mE0 : Memref sig .scVector .vmem S10000 .f32).access (Rect.whole S10000)).set = Finset.univ from Memref.set_access_whole bE0,
    show ∀ w, ((mE0 : Memref sig .scVector .vmem S10000 .f32).access (Rect.whole S10000)).write (Elt F) e w Finset.univ = w from fun w => Memref.write_access_whole_univ (Elt F) bE0 e w,
    show ((mE0 : Memref sig .scVector .vmem S10000 .f32).access (Rect.whole S10000)).read (Elt F) e = e from Memref.read_access_whole (Elt F) bE0 e,
    show ((mU0 : Memref sig .scVector .vmem S10000 .f32).access (Rect.whole S10000)).read (Elt F) u = u from Memref.read_access_whole (Elt F) bU0 u,
    ← step_eq u e sv dv hs hd]

omit [FloatOps F] in
theorem pts_acc_E1 (d : Dev nD) (L : grid4.Coords) (f : Vec F S10000 .f32) :
    (((mE1 : Memref sig .scVector .vmem S10000 .f32).access (Rect.whole S10000)).loc (thr d L) ↦[((mE1 : Memref sig .scVector .vmem S10000 .f32).access (Rect.whole S10000)).set]{fullShare} f : sProp 𝕄)
      = ((thr d L).loc bE1 ↦{fullShare} f) := by
  rw [show ((mE1 : Memref sig .scVector .vmem S10000 .f32).access (Rect.whole S10000)).set = Finset.univ from Memref.set_access_whole bE1]

theorem acc_step_E1 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE1 : Memref sig .scVector .vmem S10000 .f32).access (Rect.whole S10000)).loc (thr d L) ↦[((mE1 : Memref sig .scVector .vmem S10000 .f32).access (Rect.whole S10000)).set]{fullShare}
        (((mE1 : Memref sig .scVector .vmem S10000 .f32).access (Rect.whole S10000)).write (Elt F) e
          (storeIdx (((mE1 : Memref sig .scVector .vmem S10000 .f32).access (Rect.whole S10000)).read (Elt F) e) ![dv]
            (loadIdx (((mU1 : Memref sig .scVector .vmem S10000 .f32).access (Rect.whole S10000)).read (Elt F) u) ![sv] hs) (fun _ => 1#1) true hd) Finset.univ) : sProp 𝕄)
      = ((thr d L).loc bE1 ↦{fullShare} step u e sv dv) := by
  rw [show ((mE1 : Memref sig .scVector .vmem S10000 .f32).access (Rect.whole S10000)).set = Finset.univ from Memref.set_access_whole bE1,
    show ∀ w, ((mE1 : Memref sig .scVector .vmem S10000 .f32).access (Rect.whole S10000)).write (Elt F) e w Finset.univ = w from fun w => Memref.write_access_whole_univ (Elt F) bE1 e w,
    show ((mE1 : Memref sig .scVector .vmem S10000 .f32).access (Rect.whole S10000)).read (Elt F) e = e from Memref.read_access_whole (Elt F) bE1 e,
    show ((mU1 : Memref sig .scVector .vmem S10000 .f32).access (Rect.whole S10000)).read (Elt F) u = u from Memref.read_access_whole (Elt F) bU1 u,
    ← step_eq u e sv dv hs hd]

omit [FloatOps F] in
theorem pts_acc_E2 (d : Dev nD) (L : grid4.Coords) (f : Vec F S10000 .f32) :
    (((mE2 : Memref sig .scVector .vmem S10000 .f32).access (Rect.whole S10000)).loc (thr d L) ↦[((mE2 : Memref sig .scVector .vmem S10000 .f32).access (Rect.whole S10000)).set]{fullShare} f : sProp 𝕄)
      = ((thr d L).loc bE2 ↦{fullShare} f) := by
  rw [show ((mE2 : Memref sig .scVector .vmem S10000 .f32).access (Rect.whole S10000)).set = Finset.univ from Memref.set_access_whole bE2]

theorem acc_step_E2 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE2 : Memref sig .scVector .vmem S10000 .f32).access (Rect.whole S10000)).loc (thr d L) ↦[((mE2 : Memref sig .scVector .vmem S10000 .f32).access (Rect.whole S10000)).set]{fullShare}
        (((mE2 : Memref sig .scVector .vmem S10000 .f32).access (Rect.whole S10000)).write (Elt F) e
          (storeIdx (((mE2 : Memref sig .scVector .vmem S10000 .f32).access (Rect.whole S10000)).read (Elt F) e) ![dv]
            (loadIdx (((mU2 : Memref sig .scVector .vmem S10000 .f32).access (Rect.whole S10000)).read (Elt F) u) ![sv] hs) (fun _ => 1#1) true hd) Finset.univ) : sProp 𝕄)
      = ((thr d L).loc bE2 ↦{fullShare} step u e sv dv) := by
  rw [show ((mE2 : Memref sig .scVector .vmem S10000 .f32).access (Rect.whole S10000)).set = Finset.univ from Memref.set_access_whole bE2,
    show ∀ w, ((mE2 : Memref sig .scVector .vmem S10000 .f32).access (Rect.whole S10000)).write (Elt F) e w Finset.univ = w from fun w => Memref.write_access_whole_univ (Elt F) bE2 e w,
    show ((mE2 : Memref sig .scVector .vmem S10000 .f32).access (Rect.whole S10000)).read (Elt F) e = e from Memref.read_access_whole (Elt F) bE2 e,
    show ((mU2 : Memref sig .scVector .vmem S10000 .f32).access (Rect.whole S10000)).read (Elt F) u = u from Memref.read_access_whole (Elt F) bU2 u,
    ← step_eq u e sv dv hs hd]

omit [FloatOps F] in
theorem pts_acc_E3 (d : Dev nD) (L : grid4.Coords) (f : Vec F S10000 .f32) :
    (((mE3 : Memref sig .scVector .vmem S10000 .f32).access (Rect.whole S10000)).loc (thr d L) ↦[((mE3 : Memref sig .scVector .vmem S10000 .f32).access (Rect.whole S10000)).set]{fullShare} f : sProp 𝕄)
      = ((thr d L).loc bE3 ↦{fullShare} f) := by
  rw [show ((mE3 : Memref sig .scVector .vmem S10000 .f32).access (Rect.whole S10000)).set = Finset.univ from Memref.set_access_whole bE3]

theorem acc_step_E3 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE3 : Memref sig .scVector .vmem S10000 .f32).access (Rect.whole S10000)).loc (thr d L) ↦[((mE3 : Memref sig .scVector .vmem S10000 .f32).access (Rect.whole S10000)).set]{fullShare}
        (((mE3 : Memref sig .scVector .vmem S10000 .f32).access (Rect.whole S10000)).write (Elt F) e
          (storeIdx (((mE3 : Memref sig .scVector .vmem S10000 .f32).access (Rect.whole S10000)).read (Elt F) e) ![dv]
            (loadIdx (((mU3 : Memref sig .scVector .vmem S10000 .f32).access (Rect.whole S10000)).read (Elt F) u) ![sv] hs) (fun _ => 1#1) true hd) Finset.univ) : sProp 𝕄)
      = ((thr d L).loc bE3 ↦{fullShare} step u e sv dv) := by
  rw [show ((mE3 : Memref sig .scVector .vmem S10000 .f32).access (Rect.whole S10000)).set = Finset.univ from Memref.set_access_whole bE3,
    show ∀ w, ((mE3 : Memref sig .scVector .vmem S10000 .f32).access (Rect.whole S10000)).write (Elt F) e w Finset.univ = w from fun w => Memref.write_access_whole_univ (Elt F) bE3 e w,
    show ((mE3 : Memref sig .scVector .vmem S10000 .f32).access (Rect.whole S10000)).read (Elt F) e = e from Memref.read_access_whole (Elt F) bE3 e,
    show ((mU3 : Memref sig .scVector .vmem S10000 .f32).access (Rect.whole S10000)).read (Elt F) u = u from Memref.read_access_whole (Elt F) bU3 u,
    ← step_eq u e sv dv hs hd]

omit [FloatOps F] in
theorem pts_acc_O0 (d : Dev nD) (L : grid4.Coords) (f : Vec F S10000 .f32) :
    (((mO0 : Memref sig .scVector .vmem S10000 .f32).access (Rect.whole S10000)).loc (thr d L) ↦[((mO0 : Memref sig .scVector .vmem S10000 .f32).access (Rect.whole S10000)).set]{fullShare} f : sProp 𝕄)
      = ((thr d L).loc bO0 ↦{fullShare} f) := by
  rw [show ((mO0 : Memref sig .scVector .vmem S10000 .f32).access (Rect.whole S10000)).set = Finset.univ from Memref.set_access_whole bO0]

theorem acc_step_O0 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO0 : Memref sig .scVector .vmem S10000 .f32).access (Rect.whole S10000)).loc (thr d L) ↦[((mO0 : Memref sig .scVector .vmem S10000 .f32).access (Rect.whole S10000)).set]{fullShare}
        (((mO0 : Memref sig .scVector .vmem S10000 .f32).access (Rect.whole S10000)).write (Elt F) e
          (storeIdx (((mO0 : Memref sig .scVector .vmem S10000 .f32).access (Rect.whole S10000)).read (Elt F) e) ![dv]
            (loadIdx (((mU0 : Memref sig .scVector .vmem S10000 .f32).access (Rect.whole S10000)).read (Elt F) u) ![sv] hs) (fun _ => 1#1) true hd) Finset.univ) : sProp 𝕄)
      = ((thr d L).loc bO0 ↦{fullShare} step u e sv dv) := by
  rw [show ((mO0 : Memref sig .scVector .vmem S10000 .f32).access (Rect.whole S10000)).set = Finset.univ from Memref.set_access_whole bO0,
    show ∀ w, ((mO0 : Memref sig .scVector .vmem S10000 .f32).access (Rect.whole S10000)).write (Elt F) e w Finset.univ = w from fun w => Memref.write_access_whole_univ (Elt F) bO0 e w,
    show ((mO0 : Memref sig .scVector .vmem S10000 .f32).access (Rect.whole S10000)).read (Elt F) e = e from Memref.read_access_whole (Elt F) bO0 e,
    show ((mU0 : Memref sig .scVector .vmem S10000 .f32).access (Rect.whole S10000)).read (Elt F) u = u from Memref.read_access_whole (Elt F) bU0 u,
    ← step_eq u e sv dv hs hd]

omit [FloatOps F] in
theorem pts_acc_O1 (d : Dev nD) (L : grid4.Coords) (f : Vec F S10000 .f32) :
    (((mO1 : Memref sig .scVector .vmem S10000 .f32).access (Rect.whole S10000)).loc (thr d L) ↦[((mO1 : Memref sig .scVector .vmem S10000 .f32).access (Rect.whole S10000)).set]{fullShare} f : sProp 𝕄)
      = ((thr d L).loc bO1 ↦{fullShare} f) := by
  rw [show ((mO1 : Memref sig .scVector .vmem S10000 .f32).access (Rect.whole S10000)).set = Finset.univ from Memref.set_access_whole bO1]

theorem acc_step_O1 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO1 : Memref sig .scVector .vmem S10000 .f32).access (Rect.whole S10000)).loc (thr d L) ↦[((mO1 : Memref sig .scVector .vmem S10000 .f32).access (Rect.whole S10000)).set]{fullShare}
        (((mO1 : Memref sig .scVector .vmem S10000 .f32).access (Rect.whole S10000)).write (Elt F) e
          (storeIdx (((mO1 : Memref sig .scVector .vmem S10000 .f32).access (Rect.whole S10000)).read (Elt F) e) ![dv]
            (loadIdx (((mU1 : Memref sig .scVector .vmem S10000 .f32).access (Rect.whole S10000)).read (Elt F) u) ![sv] hs) (fun _ => 1#1) true hd) Finset.univ) : sProp 𝕄)
      = ((thr d L).loc bO1 ↦{fullShare} step u e sv dv) := by
  rw [show ((mO1 : Memref sig .scVector .vmem S10000 .f32).access (Rect.whole S10000)).set = Finset.univ from Memref.set_access_whole bO1,
    show ∀ w, ((mO1 : Memref sig .scVector .vmem S10000 .f32).access (Rect.whole S10000)).write (Elt F) e w Finset.univ = w from fun w => Memref.write_access_whole_univ (Elt F) bO1 e w,
    show ((mO1 : Memref sig .scVector .vmem S10000 .f32).access (Rect.whole S10000)).read (Elt F) e = e from Memref.read_access_whole (Elt F) bO1 e,
    show ((mU1 : Memref sig .scVector .vmem S10000 .f32).access (Rect.whole S10000)).read (Elt F) u = u from Memref.read_access_whole (Elt F) bU1 u,
    ← step_eq u e sv dv hs hd]

omit [FloatOps F] in
theorem pts_acc_O2 (d : Dev nD) (L : grid4.Coords) (f : Vec F S10000 .f32) :
    (((mO2 : Memref sig .scVector .vmem S10000 .f32).access (Rect.whole S10000)).loc (thr d L) ↦[((mO2 : Memref sig .scVector .vmem S10000 .f32).access (Rect.whole S10000)).set]{fullShare} f : sProp 𝕄)
      = ((thr d L).loc bO2 ↦{fullShare} f) := by
  rw [show ((mO2 : Memref sig .scVector .vmem S10000 .f32).access (Rect.whole S10000)).set = Finset.univ from Memref.set_access_whole bO2]

theorem acc_step_O2 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO2 : Memref sig .scVector .vmem S10000 .f32).access (Rect.whole S10000)).loc (thr d L) ↦[((mO2 : Memref sig .scVector .vmem S10000 .f32).access (Rect.whole S10000)).set]{fullShare}
        (((mO2 : Memref sig .scVector .vmem S10000 .f32).access (Rect.whole S10000)).write (Elt F) e
          (storeIdx (((mO2 : Memref sig .scVector .vmem S10000 .f32).access (Rect.whole S10000)).read (Elt F) e) ![dv]
            (loadIdx (((mU2 : Memref sig .scVector .vmem S10000 .f32).access (Rect.whole S10000)).read (Elt F) u) ![sv] hs) (fun _ => 1#1) true hd) Finset.univ) : sProp 𝕄)
      = ((thr d L).loc bO2 ↦{fullShare} step u e sv dv) := by
  rw [show ((mO2 : Memref sig .scVector .vmem S10000 .f32).access (Rect.whole S10000)).set = Finset.univ from Memref.set_access_whole bO2,
    show ∀ w, ((mO2 : Memref sig .scVector .vmem S10000 .f32).access (Rect.whole S10000)).write (Elt F) e w Finset.univ = w from fun w => Memref.write_access_whole_univ (Elt F) bO2 e w,
    show ((mO2 : Memref sig .scVector .vmem S10000 .f32).access (Rect.whole S10000)).read (Elt F) e = e from Memref.read_access_whole (Elt F) bO2 e,
    show ((mU2 : Memref sig .scVector .vmem S10000 .f32).access (Rect.whole S10000)).read (Elt F) u = u from Memref.read_access_whole (Elt F) bU2 u,
    ← step_eq u e sv dv hs hd]

omit [FloatOps F] in
theorem pts_acc_O3 (d : Dev nD) (L : grid4.Coords) (f : Vec F S10000 .f32) :
    (((mO3 : Memref sig .scVector .vmem S10000 .f32).access (Rect.whole S10000)).loc (thr d L) ↦[((mO3 : Memref sig .scVector .vmem S10000 .f32).access (Rect.whole S10000)).set]{fullShare} f : sProp 𝕄)
      = ((thr d L).loc bO3 ↦{fullShare} f) := by
  rw [show ((mO3 : Memref sig .scVector .vmem S10000 .f32).access (Rect.whole S10000)).set = Finset.univ from Memref.set_access_whole bO3]

theorem acc_step_O3 (d : Dev nD) (L : grid4.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO3 : Memref sig .scVector .vmem S10000 .f32).access (Rect.whole S10000)).loc (thr d L) ↦[((mO3 : Memref sig .scVector .vmem S10000 .f32).access (Rect.whole S10000)).set]{fullShare}
        (((mO3 : Memref sig .scVector .vmem S10000 .f32).access (Rect.whole S10000)).write (Elt F) e
          (storeIdx (((mO3 : Memref sig .scVector .vmem S10000 .f32).access (Rect.whole S10000)).read (Elt F) e) ![dv]
            (loadIdx (((mU3 : Memref sig .scVector .vmem S10000 .f32).access (Rect.whole S10000)).read (Elt F) u) ![sv] hs) (fun _ => 1#1) true hd) Finset.univ) : sProp 𝕄)
      = ((thr d L).loc bO3 ↦{fullShare} step u e sv dv) := by
  rw [show ((mO3 : Memref sig .scVector .vmem S10000 .f32).access (Rect.whole S10000)).set = Finset.univ from Memref.set_access_whole bO3,
    show ∀ w, ((mO3 : Memref sig .scVector .vmem S10000 .f32).access (Rect.whole S10000)).write (Elt F) e w Finset.univ = w from fun w => Memref.write_access_whole_univ (Elt F) bO3 e w,
    show ((mO3 : Memref sig .scVector .vmem S10000 .f32).access (Rect.whole S10000)).read (Elt F) e = e from Memref.read_access_whole (Elt F) bO3 e,
    show ((mU3 : Memref sig .scVector .vmem S10000 .f32).access (Rect.whole S10000)).read (Elt F) u = u from Memref.read_access_whole (Elt F) bU3 u,
    ← step_eq u e sv dv hs hd]

omit [FloatOps F] in
theorem pts_view_U0 (d : Dev nD) (L : grid4.Coords) (f : Vec F S10000 .f32) :
    ((mU0 : Memref sig .scVector .vmem S10000 .f32).view.loc (thr d L) ↦{fullShare} f : sProp 𝕄) = ((thr d L).loc bU0 ↦{fullShare} f) := rfl
omit [FloatOps F] in
theorem pts_view_U1 (d : Dev nD) (L : grid4.Coords) (f : Vec F S10000 .f32) :
    ((mU1 : Memref sig .scVector .vmem S10000 .f32).view.loc (thr d L) ↦{fullShare} f : sProp 𝕄) = ((thr d L).loc bU1 ↦{fullShare} f) := rfl
omit [FloatOps F] in
theorem pts_view_U2 (d : Dev nD) (L : grid4.Coords) (f : Vec F S10000 .f32) :
    ((mU2 : Memref sig .scVector .vmem S10000 .f32).view.loc (thr d L) ↦{fullShare} f : sProp 𝕄) = ((thr d L).loc bU2 ↦{fullShare} f) := rfl
omit [FloatOps F] in
theorem pts_view_U3 (d : Dev nD) (L : grid4.Coords) (f : Vec F S10000 .f32) :
    ((mU3 : Memref sig .scVector .vmem S10000 .f32).view.loc (thr d L) ↦{fullShare} f : sProp 𝕄) = ((thr d L).loc bU3 ↦{fullShare} f) := rfl
omit [FloatOps F] in
theorem pts_view_E0 (d : Dev nD) (L : grid4.Coords) (f : Vec F S10000 .f32) :
    ((mE0 : Memref sig .scVector .vmem S10000 .f32).view.loc (thr d L) ↦{fullShare} f : sProp 𝕄) = ((thr d L).loc bE0 ↦{fullShare} f) := rfl
omit [FloatOps F] in
theorem pts_view_E1 (d : Dev nD) (L : grid4.Coords) (f : Vec F S10000 .f32) :
    ((mE1 : Memref sig .scVector .vmem S10000 .f32).view.loc (thr d L) ↦{fullShare} f : sProp 𝕄) = ((thr d L).loc bE1 ↦{fullShare} f) := rfl
omit [FloatOps F] in
theorem pts_view_E2 (d : Dev nD) (L : grid4.Coords) (f : Vec F S10000 .f32) :
    ((mE2 : Memref sig .scVector .vmem S10000 .f32).view.loc (thr d L) ↦{fullShare} f : sProp 𝕄) = ((thr d L).loc bE2 ↦{fullShare} f) := rfl
omit [FloatOps F] in
theorem pts_view_E3 (d : Dev nD) (L : grid4.Coords) (f : Vec F S10000 .f32) :
    ((mE3 : Memref sig .scVector .vmem S10000 .f32).view.loc (thr d L) ↦{fullShare} f : sProp 𝕄) = ((thr d L).loc bE3 ↦{fullShare} f) := rfl
omit [FloatOps F] in
theorem pts_view_Sa (d : Dev nD) (L : grid4.Coords) (f : IVec S1600 32) :
    ((mSa : Memref sig .scVector .vmem S1600 .i32).view.loc (thr d L) ↦{fullShare} f : sProp 𝕄) = ((thr d L).loc bSa ↦{fullShare} f) := rfl
omit [FloatOps F] in
theorem pts_view_Da (d : Dev nD) (L : grid4.Coords) (f : IVec S1600 32) :
    ((mDa : Memref sig .scVector .vmem S1600 .i32).view.loc (thr d L) ↦{fullShare} f : sProp 𝕄) = ((thr d L).loc bDa ↦{fullShare} f) := rfl
omit [FloatOps F] in
theorem pts_view_Sb (d : Dev nD) (L : grid4.Coords) (f : IVec S1600 32) :
    ((mSb : Memref sig .scVector .vmem S1600 .i32).view.loc (thr d L) ↦{fullShare} f : sProp 𝕄) = ((thr d L).loc bSb ↦{fullShare} f) := rfl
omit [FloatOps F] in
theorem pts_view_Db (d : Dev nD) (L : grid4.Coords) (f : IVec S1600 32) :
    ((mDb : Memref sig .scVector .vmem S1600 .i32).view.loc (thr d L) ↦{fullShare} f : sProp 𝕄) = ((thr d L).loc bDb ↦{fullShare} f) := rfl
omit [FloatOps F] in
theorem pts_view_U (d : Dev nD) (L : grid4.Coords) (q : PosShare TreeShare) (f : Vec F S1280000 .f32) :
    ((mU : Memref sig .scVector .hbm S1280000 .f32).view.loc (thr d L) ↦{q} f : sProp 𝕄) = (tcLoc d main_v15 ↦{q} f) := rfl
omit [FloatOps F] in
theorem pts_view_S (d : Dev nD) (L : grid4.Coords) (q : PosShare TreeShare) (f : IVec S320000 32) :
    ((mS : Memref sig .scVector .hbm S320000 .i32).view.loc (thr d L) ↦{q} f : sProp 𝕄) = (tcLoc d main_v1 ↦{q} f) := rfl
omit [FloatOps F] in
theorem pts_view_D (d : Dev nD) (L : grid4.Coords) (q : PosShare TreeShare) (f : IVec S320000 32) :
    ((mD : Memref sig .scVector .hbm S320000 .i32).view.loc (thr d L) ↦{q} f : sProp 𝕄) = (tcLoc d main_v3 ↦{q} f) := rfl

def trip3Inv (d : Dev nD) (L : grid4.Coords) (src dst : IVec ShE 32) (jc : Nat) (sv dv : IVec S1600 32)
    (u : Fin 4 → Vec F S10000 .f32) (st : Fin 4 → Acc F) (n : Nat) (_ : Unit) : sProp 𝕄 :=
  iprop(((thr d L).loc bSa ↦{fullShare} sv) ∗ ((thr d L).loc bDa ↦{fullShare} dv)
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (pairsN (u 0) src dst jc (st 0) n).1) ∗ ((thr d L).loc bE1 ↦{fullShare} (pairsN (u 1) src dst jc (st 1) n).1)
    ∗ ((thr d L).loc bE2 ↦{fullShare} (pairsN (u 2) src dst jc (st 2) n).1) ∗ ((thr d L).loc bE3 ↦{fullShare} (pairsN (u 3) src dst jc (st 3) n).1)
    ∗ ((thr d L).loc bO0 ↦{fullShare} (pairsN (u 0) src dst jc (st 0) n).2) ∗ ((thr d L).loc bO1 ↦{fullShare} (pairsN (u 1) src dst jc (st 1) n).2)
    ∗ ((thr d L).loc bO2 ↦{fullShare} (pairsN (u 2) src dst jc (st 2) n).2) ∗ ((thr d L).loc bO3 ↦{fullShare} (pairsN (u 3) src dst jc (st 3) n).2))

abbrev trip3Body (L : grid4.Coords) (v1 : BitVec 32) := k4_t3_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc4_scoped0 cc4_scoped1 cc4_scoped2 cc4_scoped3 v1

theorem trip3 (d : Dev nD) (L : grid4.Coords) (v1 : BitVec 32) (src dst : IVec ShE 32)
    (hsrc : ∀ x, (src x).toNat < 10000) (hdst : ∀ x, (dst x).toNat < 10000) (jc : Nat)
    (sv dv : IVec S1600 32) (hsv : HoldsChunk src jc sv) (hdv : HoldsChunk dst jc dv)
    (u : Fin 4 → Vec F S10000 .f32) (st : Fin 4 → Acc F) :
    ∀ (p : Fin k4_t3_loop.trips) (acc : Unit), trip3Inv d L src dst jc sv dv u st p.val acc
      ⊢ wp frame (wpE (defs₀ (F := F)) 𝒱₀ (thr d L) none) Set.univ (trip3Body (F := F) L v1 p acc) (trip3Inv d L src dst jc sv dv u st (p.val + 1)) := by
  intro p acc
  unfold trip3Inv trip3Body k4_t3_body
  simp only [Prog.lift, Prog.bind_op, Prog.bind_ret, Prog.pure_eq_ret]
  iintro ⟨Hsv, Hdv, Hu0, Hu1, Hu2, Hu3, HE0, HE1, HE2, HE3, HO0, HO1, HO2, HO3⟩
  iapply (wp_load 𝒱₀ (thr d L) none Set.univ (m := (mSa : Memref sig .scVector .vmem S1600 .i32)) (S := Finset.univ) (Finset.subset_univ _)) $$ Hsv; iintro Hsv
  rw [load_Sa (F := F) src jc sv hsv _ _ (k4_off5_eq p)]
  rw [wp_assume_of _ _ _ _ (show k4_chk1 _ from ⟨vec16_inRange hsrc _, vec16_inRange hsrc _, vec16_inRange hsrc _, vec16_inRange hsrc _⟩)]
  iapply (wp_load 𝒱₀ (thr d L) none Set.univ (m := (mDa : Memref sig .scVector .vmem S1600 .i32)) (S := Finset.univ) (Finset.subset_univ _)) $$ Hdv; iintro Hdv
  rw [load_Da (F := F) dst jc dv hdv _ _ (k4_off5_eq p)]
  rw [wp_assume_of _ _ _ _ (show k4_chk2 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HE0' := (Entails.of_eq (pts_acc_E0 (F := F) d L _).symm) $$ HE0
  iapply (SparseCore.wp_vectorStoreIdx 𝒱₀ (thr d L) none Set.univ (base := (mE0 : Memref sig .scVector .vmem S10000 .f32))) $$ HE0'; iintro HE0'
  ihave HE0 := (Entails.of_eq (acc_step_E0 (F := F) d L _ _ _ _ _ _)) $$ HE0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HE1' := (Entails.of_eq (pts_acc_E1 (F := F) d L _).symm) $$ HE1
  iapply (SparseCore.wp_vectorStoreIdx 𝒱₀ (thr d L) none Set.univ (base := (mE1 : Memref sig .scVector .vmem S10000 .f32))) $$ HE1'; iintro HE1'
  ihave HE1 := (Entails.of_eq (acc_step_E1 (F := F) d L _ _ _ _ _ _)) $$ HE1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HE2' := (Entails.of_eq (pts_acc_E2 (F := F) d L _).symm) $$ HE2
  iapply (SparseCore.wp_vectorStoreIdx 𝒱₀ (thr d L) none Set.univ (base := (mE2 : Memref sig .scVector .vmem S10000 .f32))) $$ HE2'; iintro HE2'
  ihave HE2 := (Entails.of_eq (acc_step_E2 (F := F) d L _ _ _ _ _ _)) $$ HE2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HE3' := (Entails.of_eq (pts_acc_E3 (F := F) d L _).symm) $$ HE3
  iapply (SparseCore.wp_vectorStoreIdx 𝒱₀ (thr d L) none Set.univ (base := (mE3 : Memref sig .scVector .vmem S10000 .f32))) $$ HE3'; iintro HE3'
  ihave HE3 := (Entails.of_eq (acc_step_E3 (F := F) d L _ _ _ _ _ _)) $$ HE3'
  iapply (wp_load 𝒱₀ (thr d L) none Set.univ (m := (mSa : Memref sig .scVector .vmem S1600 .i32)) (S := Finset.univ) (Finset.subset_univ _)) $$ Hsv; iintro Hsv
  rw [load_Sa (F := F) src jc sv hsv _ _ (k4_off6_eq p)]
  rw [wp_assume_of _ _ _ _ (show k4_chk3 _ from ⟨vec16_inRange hsrc _, vec16_inRange hsrc _, vec16_inRange hsrc _, vec16_inRange hsrc _⟩)]
  iapply (wp_load 𝒱₀ (thr d L) none Set.univ (m := (mDa : Memref sig .scVector .vmem S1600 .i32)) (S := Finset.univ) (Finset.subset_univ _)) $$ Hdv; iintro Hdv
  rw [load_Da (F := F) dst jc dv hdv _ _ (k4_off6_eq p)]
  rw [wp_assume_of _ _ _ _ (show k4_chk4 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HO0' := (Entails.of_eq (pts_acc_O0 (F := F) d L _).symm) $$ HO0
  iapply (SparseCore.wp_vectorStoreIdx 𝒱₀ (thr d L) none Set.univ (base := (mO0 : Memref sig .scVector .vmem S10000 .f32))) $$ HO0'; iintro HO0'
  ihave HO0 := (Entails.of_eq (acc_step_O0 (F := F) d L _ _ _ _ _ _)) $$ HO0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HO1' := (Entails.of_eq (pts_acc_O1 (F := F) d L _).symm) $$ HO1
  iapply (SparseCore.wp_vectorStoreIdx 𝒱₀ (thr d L) none Set.univ (base := (mO1 : Memref sig .scVector .vmem S10000 .f32))) $$ HO1'; iintro HO1'
  ihave HO1 := (Entails.of_eq (acc_step_O1 (F := F) d L _ _ _ _ _ _)) $$ HO1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HO2' := (Entails.of_eq (pts_acc_O2 (F := F) d L _).symm) $$ HO2
  iapply (SparseCore.wp_vectorStoreIdx 𝒱₀ (thr d L) none Set.univ (base := (mO2 : Memref sig .scVector .vmem S10000 .f32))) $$ HO2'; iintro HO2'
  ihave HO2 := (Entails.of_eq (acc_step_O2 (F := F) d L _ _ _ _ _ _)) $$ HO2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HO3' := (Entails.of_eq (pts_acc_O3 (F := F) d L _).symm) $$ HO3
  iapply (SparseCore.wp_vectorStoreIdx 𝒱₀ (thr d L) none Set.univ (base := (mO3 : Memref sig .scVector .vmem S10000 .f32))) $$ HO3'; iintro HO3'
  ihave HO3 := (Entails.of_eq (acc_step_O3 (F := F) d L _ _ _ _ _ _)) $$ HO3'
  sl_step
  isplitl [Hsv]; · iexact Hsv
  isplitl [Hdv]; · iexact Hdv
  isplitl [Hu0]; · iexact Hu0
  isplitl [Hu1]; · iexact Hu1
  isplitl [Hu2]; · iexact Hu2
  isplitl [Hu3]; · iexact Hu3
  isplitl [HE0]; · iexact HE0
  isplitl [HE1]; · iexact HE1
  isplitl [HE2]; · iexact HE2
  isplitl [HE3]; · iexact HE3
  isplitl [HO0]; · iexact HO0
  isplitl [HO1]; · iexact HO1
  isplitl [HO2]; · iexact HO2
  iexact HO3

def trip4Inv (d : Dev nD) (L : grid4.Coords) (src dst : IVec ShE 32) (jc : Nat) (sv dv : IVec S1600 32)
    (u : Fin 4 → Vec F S10000 .f32) (st : Fin 4 → Acc F) (n : Nat) (_ : Unit) : sProp 𝕄 :=
  iprop(((thr d L).loc bSb ↦{fullShare} sv) ∗ ((thr d L).loc bDb ↦{fullShare} dv)
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (pairsN (u 0) src dst jc (st 0) n).1) ∗ ((thr d L).loc bE1 ↦{fullShare} (pairsN (u 1) src dst jc (st 1) n).1)
    ∗ ((thr d L).loc bE2 ↦{fullShare} (pairsN (u 2) src dst jc (st 2) n).1) ∗ ((thr d L).loc bE3 ↦{fullShare} (pairsN (u 3) src dst jc (st 3) n).1)
    ∗ ((thr d L).loc bO0 ↦{fullShare} (pairsN (u 0) src dst jc (st 0) n).2) ∗ ((thr d L).loc bO1 ↦{fullShare} (pairsN (u 1) src dst jc (st 1) n).2)
    ∗ ((thr d L).loc bO2 ↦{fullShare} (pairsN (u 2) src dst jc (st 2) n).2) ∗ ((thr d L).loc bO3 ↦{fullShare} (pairsN (u 3) src dst jc (st 3) n).2))

abbrev trip4Body (L : grid4.Coords) (v1 : BitVec 32) := k4_t4_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc4_scoped0 cc4_scoped1 cc4_scoped2 cc4_scoped3 v1

theorem trip4 (d : Dev nD) (L : grid4.Coords) (v1 : BitVec 32) (src dst : IVec ShE 32)
    (hsrc : ∀ x, (src x).toNat < 10000) (hdst : ∀ x, (dst x).toNat < 10000) (jc : Nat)
    (sv dv : IVec S1600 32) (hsv : HoldsChunk src jc sv) (hdv : HoldsChunk dst jc dv)
    (u : Fin 4 → Vec F S10000 .f32) (st : Fin 4 → Acc F) :
    ∀ (p : Fin k4_t4_loop.trips) (acc : Unit), trip4Inv d L src dst jc sv dv u st p.val acc
      ⊢ wp frame (wpE (defs₀ (F := F)) 𝒱₀ (thr d L) none) Set.univ (trip4Body (F := F) L v1 p acc) (trip4Inv d L src dst jc sv dv u st (p.val + 1)) := by
  intro p acc
  unfold trip4Inv trip4Body k4_t4_body
  simp only [Prog.lift, Prog.bind_op, Prog.bind_ret, Prog.pure_eq_ret]
  iintro ⟨Hsv, Hdv, Hu0, Hu1, Hu2, Hu3, HE0, HE1, HE2, HE3, HO0, HO1, HO2, HO3⟩
  iapply (wp_load 𝒱₀ (thr d L) none Set.univ (m := (mSb : Memref sig .scVector .vmem S1600 .i32)) (S := Finset.univ) (Finset.subset_univ _)) $$ Hsv; iintro Hsv
  rw [load_Sb (F := F) src jc sv hsv _ _ (k4_off8_eq p)]
  rw [wp_assume_of _ _ _ _ (show k4_chk5 _ from ⟨vec16_inRange hsrc _, vec16_inRange hsrc _, vec16_inRange hsrc _, vec16_inRange hsrc _⟩)]
  iapply (wp_load 𝒱₀ (thr d L) none Set.univ (m := (mDb : Memref sig .scVector .vmem S1600 .i32)) (S := Finset.univ) (Finset.subset_univ _)) $$ Hdv; iintro Hdv
  rw [load_Db (F := F) dst jc dv hdv _ _ (k4_off8_eq p)]
  rw [wp_assume_of _ _ _ _ (show k4_chk6 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HE0' := (Entails.of_eq (pts_acc_E0 (F := F) d L _).symm) $$ HE0
  iapply (SparseCore.wp_vectorStoreIdx 𝒱₀ (thr d L) none Set.univ (base := (mE0 : Memref sig .scVector .vmem S10000 .f32))) $$ HE0'; iintro HE0'
  ihave HE0 := (Entails.of_eq (acc_step_E0 (F := F) d L _ _ _ _ _ _)) $$ HE0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HE1' := (Entails.of_eq (pts_acc_E1 (F := F) d L _).symm) $$ HE1
  iapply (SparseCore.wp_vectorStoreIdx 𝒱₀ (thr d L) none Set.univ (base := (mE1 : Memref sig .scVector .vmem S10000 .f32))) $$ HE1'; iintro HE1'
  ihave HE1 := (Entails.of_eq (acc_step_E1 (F := F) d L _ _ _ _ _ _)) $$ HE1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HE2' := (Entails.of_eq (pts_acc_E2 (F := F) d L _).symm) $$ HE2
  iapply (SparseCore.wp_vectorStoreIdx 𝒱₀ (thr d L) none Set.univ (base := (mE2 : Memref sig .scVector .vmem S10000 .f32))) $$ HE2'; iintro HE2'
  ihave HE2 := (Entails.of_eq (acc_step_E2 (F := F) d L _ _ _ _ _ _)) $$ HE2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HE3' := (Entails.of_eq (pts_acc_E3 (F := F) d L _).symm) $$ HE3
  iapply (SparseCore.wp_vectorStoreIdx 𝒱₀ (thr d L) none Set.univ (base := (mE3 : Memref sig .scVector .vmem S10000 .f32))) $$ HE3'; iintro HE3'
  ihave HE3 := (Entails.of_eq (acc_step_E3 (F := F) d L _ _ _ _ _ _)) $$ HE3'
  iapply (wp_load 𝒱₀ (thr d L) none Set.univ (m := (mSb : Memref sig .scVector .vmem S1600 .i32)) (S := Finset.univ) (Finset.subset_univ _)) $$ Hsv; iintro Hsv
  rw [load_Sb (F := F) src jc sv hsv _ _ (k4_off9_eq p)]
  rw [wp_assume_of _ _ _ _ (show k4_chk7 _ from ⟨vec16_inRange hsrc _, vec16_inRange hsrc _, vec16_inRange hsrc _, vec16_inRange hsrc _⟩)]
  iapply (wp_load 𝒱₀ (thr d L) none Set.univ (m := (mDb : Memref sig .scVector .vmem S1600 .i32)) (S := Finset.univ) (Finset.subset_univ _)) $$ Hdv; iintro Hdv
  rw [load_Db (F := F) dst jc dv hdv _ _ (k4_off9_eq p)]
  rw [wp_assume_of _ _ _ _ (show k4_chk8 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HO0' := (Entails.of_eq (pts_acc_O0 (F := F) d L _).symm) $$ HO0
  iapply (SparseCore.wp_vectorStoreIdx 𝒱₀ (thr d L) none Set.univ (base := (mO0 : Memref sig .scVector .vmem S10000 .f32))) $$ HO0'; iintro HO0'
  ihave HO0 := (Entails.of_eq (acc_step_O0 (F := F) d L _ _ _ _ _ _)) $$ HO0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HO1' := (Entails.of_eq (pts_acc_O1 (F := F) d L _).symm) $$ HO1
  iapply (SparseCore.wp_vectorStoreIdx 𝒱₀ (thr d L) none Set.univ (base := (mO1 : Memref sig .scVector .vmem S10000 .f32))) $$ HO1'; iintro HO1'
  ihave HO1 := (Entails.of_eq (acc_step_O1 (F := F) d L _ _ _ _ _ _)) $$ HO1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HO2' := (Entails.of_eq (pts_acc_O2 (F := F) d L _).symm) $$ HO2
  iapply (SparseCore.wp_vectorStoreIdx 𝒱₀ (thr d L) none Set.univ (base := (mO2 : Memref sig .scVector .vmem S10000 .f32))) $$ HO2'; iintro HO2'
  ihave HO2 := (Entails.of_eq (acc_step_O2 (F := F) d L _ _ _ _ _ _)) $$ HO2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HO3' := (Entails.of_eq (pts_acc_O3 (F := F) d L _).symm) $$ HO3
  iapply (SparseCore.wp_vectorStoreIdx 𝒱₀ (thr d L) none Set.univ (base := (mO3 : Memref sig .scVector .vmem S10000 .f32))) $$ HO3'; iintro HO3'
  ihave HO3 := (Entails.of_eq (acc_step_O3 (F := F) d L _ _ _ _ _ _)) $$ HO3'
  sl_step
  isplitl [Hsv]; · iexact Hsv
  isplitl [Hdv]; · iexact Hdv
  isplitl [Hu0]; · iexact Hu0
  isplitl [Hu1]; · iexact Hu1
  isplitl [Hu2]; · iexact Hu2
  isplitl [Hu3]; · iexact Hu3
  isplitl [HE0]; · iexact HE0
  isplitl [HE1]; · iexact HE1
  isplitl [HE2]; · iexact HE2
  isplitl [HE3]; · iexact HE3
  isplitl [HO0]; · iexact HO0
  isplitl [HO1]; · iexact HO1
  isplitl [HO2]; · iexact HO2
  iexact HO3

abbrev sSl (off : Fin 1 → Nat) (inb : ∀ a, off a + S1600.size a ≤ S320000.size a) : Memref sig .scVector .hbm S1600 .i32 :=
  mS.slice (Rect.unit (s := S320000) off S1600.size inb) (fun _ => rfl)
abbrev dSl (off : Fin 1 → Nat) (inb : ∀ a, off a + S1600.size a ≤ S320000.size a) : Memref sig .scVector .hbm S1600 .i32 :=
  mD.slice (Rect.unit (s := S320000) off S1600.size inb) (fun _ => rfl)

abbrev NU : ℕ := (mU0 : Memref sig .scVector .vmem S10000 .f32).view.amount (SemLoc.dma (sig := sig) semU.sem)
abbrev NA : ℕ := (mSa : Memref sig .scVector .vmem S1600 .i32).view.amount (SemLoc.dma (sig := sig) semA.sem)
abbrev NB : ℕ := (mSb : Memref sig .scVector .vmem S1600 .i32).view.amount (SemLoc.dma (sig := sig) semB.sem)

abbrev landed {sD : Shape} {eD : EltTy} (c : Thread nD τ) (dstm : Memref sig c.2.kind .vmem sD eD) (srcm : Memref sig c.2.kind .hbm sD eD)
    (fs : Buf (Elt F) (srcm.view.loc c)) (fd : Buf (Elt F) (dstm.view.loc c)) : Buf (Elt F) (dstm.view.loc c) :=
  dstm.view.write (Elt F) fd (ReadAs.same.apply (srcm.view.read (Elt F) fs)) Finset.univ

def DAat (d : Dev nD) (L : grid4.Coords) (q : PosShare TreeShare) (srcA dstA : IVec S320000 32)
    (off : Fin 1 → Nat) (inb : ∀ a, off a + S1600.size a ≤ S320000.size a) (g0 g1 : IVec S1600 32) : Fin 2 → sProp 𝕄 :=
  fun t => match t with
    | ⟨0, _⟩ => iprop(((mSa : Memref sig .scVector .vmem S1600 .i32).view.loc (thr d L) ↦{fullShare} landed (F := F) (thr d L) mSa (sSl off inb) srcA g0)
        ∗ ((sSl off inb).view.loc (thr d L) ↦[(sSl off inb).view.set]{q} srcA))
    | ⟨1, _⟩ => iprop(((mDa : Memref sig .scVector .vmem S1600 .i32).view.loc (thr d L) ↦{fullShare} landed (F := F) (thr d L) mDa (dSl off inb) dstA g1)
        ∗ ((dSl off inb).view.loc (thr d L) ↦[(dSl off inb).view.set]{q} dstA))

omit [FloatOps F] in
instance DAat_storable (d : Dev nD) (L : grid4.Coords) (q : PosShare TreeShare) (srcA dstA : IVec S320000 32)
    (off : Fin 1 → Nat) (inb : ∀ a, off a + S1600.size a ≤ S320000.size a) (g0 g1 : IVec S1600 32) (t : Fin 2) :
    Storable (upEmb : UEmb _ 𝕄) (DAat (F := F) d L q srcA dstA off inb g0 g1 t) := by
  unfold DAat
  match t with
  | ⟨0, _⟩ => infer_instance
  | ⟨1, _⟩ => infer_instance

omit [FloatOps F] in
theorem DAat_congr (d : Dev nD) (L : grid4.Coords) (q : PosShare TreeShare) (srcA dstA : IVec S320000 32)
    {off off' : Fin 1 → Nat} (h : off = off') (inb : ∀ a, off a + S1600.size a ≤ S320000.size a) (inb' : ∀ a, off' a + S1600.size a ≤ S320000.size a)
    (g0 g1 : IVec S1600 32) : DAat (F := F) d L q srcA dstA off inb g0 g1 = DAat d L q srcA dstA off' inb' g0 g1 := by
  subst h; rfl

def DBat (d : Dev nD) (L : grid4.Coords) (q : PosShare TreeShare) (srcA dstA : IVec S320000 32)
    (off : Fin 1 → Nat) (inb : ∀ a, off a + S1600.size a ≤ S320000.size a) (g0 g1 : IVec S1600 32) : Fin 2 → sProp 𝕄 :=
  fun t => match t with
    | ⟨0, _⟩ => iprop(((mSb : Memref sig .scVector .vmem S1600 .i32).view.loc (thr d L) ↦{fullShare} landed (F := F) (thr d L) mSb (sSl off inb) srcA g0)
        ∗ ((sSl off inb).view.loc (thr d L) ↦[(sSl off inb).view.set]{q} srcA))
    | ⟨1, _⟩ => iprop(((mDb : Memref sig .scVector .vmem S1600 .i32).view.loc (thr d L) ↦{fullShare} landed (F := F) (thr d L) mDb (dSl off inb) dstA g1)
        ∗ ((dSl off inb).view.loc (thr d L) ↦[(dSl off inb).view.set]{q} dstA))

omit [FloatOps F] in
instance DBat_storable (d : Dev nD) (L : grid4.Coords) (q : PosShare TreeShare) (srcA dstA : IVec S320000 32)
    (off : Fin 1 → Nat) (inb : ∀ a, off a + S1600.size a ≤ S320000.size a) (g0 g1 : IVec S1600 32) (t : Fin 2) :
    Storable (upEmb : UEmb _ 𝕄) (DBat (F := F) d L q srcA dstA off inb g0 g1 t) := by
  unfold DBat
  match t with
  | ⟨0, _⟩ => infer_instance
  | ⟨1, _⟩ => infer_instance

def sRest (off : Fin 1 → Nat) (inb : ∀ a, off a + S1600.size a ≤ S320000.size a) : Finset S320000.Idx := Finset.univ \ (sSl off inb).view.set
def dRest (off : Fin 1 → Nat) (inb : ∀ a, off a + S1600.size a ≤ S320000.size a) : Finset S320000.Idx := Finset.univ \ (dSl off inb).view.set

omit [FloatOps F] in
theorem sRest_congr {off off' : Fin 1 → Nat} (h : off = off') (inb : ∀ a, off a + S1600.size a ≤ S320000.size a) (inb' : ∀ a, off' a + S1600.size a ≤ S320000.size a) :
    sRest off inb = sRest off' inb' := by subst h; rfl
omit [FloatOps F] in
theorem dRest_congr {off off' : Fin 1 → Nat} (h : off = off') (inb : ∀ a, off a + S1600.size a ≤ S320000.size a) (inb' : ∀ a, off' a + S1600.size a ≤ S320000.size a) :
    dRest off inb = dRest off' inb' := by subst h; rfl

omit [FloatOps F] in
theorem pts_sRest (d : Dev nD) (L : grid4.Coords) (q : PosShare TreeShare) (f : IVec S320000 32) (off : Fin 1 → Nat) (inb : ∀ a, off a + S1600.size a ≤ S320000.size a) :
    ((mS : Memref sig .scVector .hbm S320000 .i32).view.loc (thr d L) ↦[Finset.univ \ (sSl off inb).view.set]{q} f : sProp 𝕄) = (tcLoc d main_v1 ↦[sRest off inb]{q} f) := rfl
omit [FloatOps F] in
theorem pts_dRest (d : Dev nD) (L : grid4.Coords) (q : PosShare TreeShare) (f : IVec S320000 32) (off : Fin 1 → Nat) (inb : ∀ a, off a + S1600.size a ≤ S320000.size a) :
    ((mD : Memref sig .scVector .hbm S320000 .i32).view.loc (thr d L) ↦[Finset.univ \ (dSl off inb).view.set]{q} f : sProp 𝕄) = (tcLoc d main_v3 ↦[dRest off inb]{q} f) := rfl

omit [FloatOps F] in

def aside (P : sProp 𝕄) : sProp 𝕄 := P
omit [FloatOps F] in
theorem aside_eq (P : sProp 𝕄) : aside P = P := rfl

omit [FloatOps F] in
theorem chunk_word (t : IVec S320000 32) (jc : Nat) (inb : ∀ a, (![1600 * jc] : Fin 1 → Nat) a + S1600.size a ≤ S320000.size a) (j : S1600.Idx) :
    t ((Rect.unit (s := S320000) ![1600 * jc] S1600.size inb).emb j) = wordAt t (1600 * jc + (j 0).val) := by
  have hlt : 1600 * jc + (j 0).val < 320000 := by
    have h1 := inb 0
    have h2 := (j 0).isLt
    simp at h1 h2
    omega
  unfold wordAt
  rw [dif_pos hlt]
  congr 1
  funext a
  obtain rfl : a = 0 := Subsingleton.elim _ _
  apply Fin.ext
  simp [Shape.ofLane]

omit [FloatOps F] in

theorem landed_holds_Sa (d : Dev nD) (L : grid4.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mSa (sSl off inb) t g) := by
  subst ho
  intro j
  show (View.whole bSa).write (Elt F) g (ReadAs.same.apply ((sSl ![1600 * jc] inb).view.read (Elt F) t)) Finset.univ j = _
  rw [View.write_whole_univ]
  exact chunk_word t jc inb j

omit [FloatOps F] in
theorem landed_holds_Da (d : Dev nD) (L : grid4.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mDa (dSl off inb) t g) := by
  subst ho
  intro j
  show (View.whole bDa).write (Elt F) g (ReadAs.same.apply ((dSl ![1600 * jc] inb).view.read (Elt F) t)) Finset.univ j = _
  rw [View.write_whole_univ]
  exact chunk_word t jc inb j

omit [FloatOps F] in
theorem landed_holds_Sb (d : Dev nD) (L : grid4.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mSb (sSl off inb) t g) := by
  subst ho
  intro j
  show (View.whole bSb).write (Elt F) g (ReadAs.same.apply ((sSl ![1600 * jc] inb).view.read (Elt F) t)) Finset.univ j = _
  rw [View.write_whole_univ]
  exact chunk_word t jc inb j

omit [FloatOps F] in
theorem landed_holds_Db (d : Dev nD) (L : grid4.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mDb (dSl off inb) t g) := by
  subst ho
  intro j
  show (View.whole bDb).write (Elt F) g (ReadAs.same.apply ((dSl ![1600 * jc] inb).view.read (Elt F) t)) Finset.univ j = _
  rw [View.write_whole_univ]
  exact chunk_word t jc inb j

omit [FloatOps F] in

theorem wr_in (b : Ref sig .scVector) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) (Val := Elt F) f w (M := Finset.univ) (x := x) (Finset.mem_univ _)

omit [FloatOps F] in

theorem wr_out (b : Ref sig .scVector) (r : Rect b.ty.shape) (f : b.ty.Contents (Elt F)) (w : r.shape.Idx → Elt F b.ty.elt) (i : b.ty.shape.Idx)
    (hi : i ∉ r.set) : ((Memref.whole b).access r).write (Elt F) f w Finset.univ i = f i := by
  refine View.write_of_not_mem _ _ _ ?_
  rw [View.setOn_univ, View.set_slice]
  intro hm
  obtain ⟨y, hy, rfl⟩ := Finset.mem_map.mp hm
  exact hi hy

omit [FloatOps F] in

theorem mem_block16 (off : Fin 1 → Nat) (n : Nat) (ho : off = ![16 * n]) (inb : ∀ a, off a + S16.size a ≤ S10000.size a) (j : S10000.Idx) :
    j ∈ (Rect.unit (s := S10000) off S16.size inb).set ↔ 16 * n ≤ (j 0).val ∧ (j 0).val < 16 * n + 16 := by
  subst ho
  rw [Rect.mem_set_unit]
  constructor
  · intro h; have := h 0; simpa using this
  · intro h a; obtain rfl : a = 0 := Subsingleton.elim _ _; simpa using h

def ZeroTo (n : Nat) (f : Vec F S10000 .f32) : Prop := ∀ j : S10000.Idx, (j 0).val < 16 * n → f j = (Scalar.ofBits .f32 0x00000000#32 : F .f32)

theorem zeroTo_all (f : Vec F S10000 .f32) (h : ZeroTo 625 f) : f = zeroRow := by
  funext j
  exact h j (by have := (j 0).isLt; simp at this; omega)

theorem zeroTo_zero (f : Vec F S10000 .f32) : ZeroTo 0 f := fun j hj => absurd hj (by omega)

def MergedTo (n : Nat) (e o f : Vec F S10000 .f32) : Prop :=
  ∀ j : S10000.Idx, ((j 0).val < 16 * n → f j = FloatOps.addf (e j) (o j)) ∧ (16 * n ≤ (j 0).val → f j = e j)

theorem mergedTo_zero (e o : Vec F S10000 .f32) : MergedTo 0 e o e := fun j => ⟨fun hj => absurd hj (by omega), fun _ => rfl⟩

theorem mergedTo_all (e o f : Vec F S10000 .f32) (h : MergedTo 625 e o f) : f = fun j => FloatOps.addf (e j) (o j) := by
  funext j
  exact (h j).1 (by have := (j 0).isLt; simp at this; omega)

theorem zero_core (k : Fin k4_t1_loop.trips) (f g : Vec F S10000 .f32) (hf : ZeroTo k.val f)
    (hin : ∀ x, g ((Rect.unit (s := S10000) (k4_off2 k) S16.size (k4_off2_inb k)).emb x) = k4_pay1 (F := F) x)
    (hout : ∀ j, j ∉ (Rect.unit (s := S10000) (k4_off2 k) S16.size (k4_off2_inb k)).set → g j = f j) : ZeroTo (k.val + 1) g := by
  intro j hj
  by_cases hm : j ∈ (Rect.unit (s := S10000) (k4_off2 k) S16.size (k4_off2_inb k)).set
  · obtain ⟨x, rfl⟩ := (Rect.unit (s := S10000) (k4_off2 k) S16.size (k4_off2_inb k)).toLoadRect.exists_idx_of_mem hm
    exact hin x
  · rw [hout j hm]
    apply hf
    rw [mem_block16 _ k.val (k4_off2_eq k)] at hm
    omega

theorem merge_core (t : Fin k4_t5_loop.trips) (e o f g : Vec F S10000 .f32) (hf : MergedTo t.val e o f)
    (hin : ∀ x, g ((Rect.unit (s := S10000) (k4_off10 t) S16.size (k4_off10_inb t)).emb x) = FloatOps.addf (f ((Rect.unit (s := S10000) (k4_off10 t) S16.size (k4_off10_inb t)).toLoadRect.idx x)) (o ((Rect.unit (s := S10000) (k4_off10 t) S16.size (k4_off10_inb t)).toLoadRect.idx x)))
    (hout : ∀ j, j ∉ (Rect.unit (s := S10000) (k4_off10 t) S16.size (k4_off10_inb t)).set → g j = f j) : MergedTo (t.val + 1) e o g := by
  intro j
  by_cases hm : j ∈ (Rect.unit (s := S10000) (k4_off10 t) S16.size (k4_off10_inb t)).set
  · obtain ⟨x, rfl⟩ := (Rect.unit (s := S10000) (k4_off10 t) S16.size (k4_off10_inb t)).toLoadRect.exists_idx_of_mem hm
    have hb := (mem_block16 _ t.val (k4_off10_eq t) _ _).mp hm
    refine ⟨fun _ => ?_, fun h => absurd h (by omega)⟩
    refine (hin x).trans ?_
    exact congrArg (fun a => FloatOps.addf a (o ((Rect.unit (s := S10000) (k4_off10 t) S16.size (k4_off10_inb t)).toLoadRect.idx x))) ((hf ((Rect.unit (s := S10000) (k4_off10 t) S16.size (k4_off10_inb t)).toLoadRect.idx x)).2 hb.1)
  · rw [hout j hm]
    rw [mem_block16 _ t.val (k4_off10_eq t)] at hm
    exact ⟨fun h => (hf j).1 (by omega), fun h => (hf j).2 (by omega)⟩

def zeroInv (d : Dev nD) (L : grid4.Coords) (n : Nat) (_ : Unit) : sProp 𝕄 :=
  iprop((∃ f : Vec F S10000 .f32, ((thr d L).loc bE0 ↦{fullShare} f) ∗ ⌜ZeroTo n f⌝)
    ∗ (∃ f : Vec F S10000 .f32, ((thr d L).loc bO0 ↦{fullShare} f) ∗ ⌜ZeroTo n f⌝)
    ∗ (∃ f : Vec F S10000 .f32, ((thr d L).loc bE1 ↦{fullShare} f) ∗ ⌜ZeroTo n f⌝)
    ∗ (∃ f : Vec F S10000 .f32, ((thr d L).loc bO1 ↦{fullShare} f) ∗ ⌜ZeroTo n f⌝)
    ∗ (∃ f : Vec F S10000 .f32, ((thr d L).loc bE2 ↦{fullShare} f) ∗ ⌜ZeroTo n f⌝)
    ∗ (∃ f : Vec F S10000 .f32, ((thr d L).loc bO2 ↦{fullShare} f) ∗ ⌜ZeroTo n f⌝)
    ∗ (∃ f : Vec F S10000 .f32, ((thr d L).loc bE3 ↦{fullShare} f) ∗ ⌜ZeroTo n f⌝)
    ∗ (∃ f : Vec F S10000 .f32, ((thr d L).loc bO3 ↦{fullShare} f) ∗ ⌜ZeroTo n f⌝))

abbrev T1 (L : grid4.Coords) := k4_t1_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc4_scoped0 cc4_scoped1 cc4_scoped2 cc4_scoped3

theorem trip1 (d : Dev nD) (L : grid4.Coords) :
    ∀ (k : Fin k4_t1_loop.trips) (acc : Unit), zeroInv (F := F) d L k.val acc
      ⊢ wp frame (wpE (defs₀ (F := F)) 𝒱₀ (thr d L) none) Set.univ (T1 (F := F) L k acc) (zeroInv (F := F) d L (k.val + 1)) := by
  intro k acc
  unfold zeroInv T1 k4_t1_body
  simp only [Prog.lift, Prog.bind_op, Prog.bind_ret, Prog.pure_eq_ret]
  iintro ⟨⟨%fE0, HE0, %hE0⟩, ⟨%fO0, HO0, %hO0⟩, ⟨%fE1, HE1, %hE1⟩, ⟨%fO1, HO1, %hO1⟩, ⟨%fE2, HE2, %hE2⟩, ⟨%fO2, HO2, %hO2⟩, ⟨%fE3, HE3, %hE3⟩, ⟨%fO3, HO3, %hO3⟩⟩
  iapply (wp_load 𝒱₀ (thr d L) none Set.univ (m := (mE0 : Memref sig .scVector .vmem S10000 .f32)) (S := Finset.univ) (Finset.subset_univ _)) $$ HE0; iintro HE0
  iapply (wp_store 𝒱₀ (thr d L) none Set.univ (m := (mE0 : Memref sig .scVector .vmem S10000 .f32)) (r := Rect.unit (s := S10000) (k4_off2 k) S16.size (k4_off2_inb k)) (Mk := Finset.univ) (S := Finset.univ) (Finset.subset_univ _)) $$ HE0; iintro HE0
  iapply (wp_load 𝒱₀ (thr d L) none Set.univ (m := (mO0 : Memref sig .scVector .vmem S10000 .f32)) (S := Finset.univ) (Finset.subset_univ _)) $$ HO0; iintro HO0
  iapply (wp_store 𝒱₀ (thr d L) none Set.univ (m := (mO0 : Memref sig .scVector .vmem S10000 .f32)) (r := Rect.unit (s := S10000) (k4_off2 k) S16.size (k4_off2_inb k)) (Mk := Finset.univ) (S := Finset.univ) (Finset.subset_univ _)) $$ HO0; iintro HO0
  iapply (wp_load 𝒱₀ (thr d L) none Set.univ (m := (mE1 : Memref sig .scVector .vmem S10000 .f32)) (S := Finset.univ) (Finset.subset_univ _)) $$ HE1; iintro HE1
  iapply (wp_store 𝒱₀ (thr d L) none Set.univ (m := (mE1 : Memref sig .scVector .vmem S10000 .f32)) (r := Rect.unit (s := S10000) (k4_off2 k) S16.size (k4_off2_inb k)) (Mk := Finset.univ) (S := Finset.univ) (Finset.subset_univ _)) $$ HE1; iintro HE1
  iapply (wp_load 𝒱₀ (thr d L) none Set.univ (m := (mO1 : Memref sig .scVector .vmem S10000 .f32)) (S := Finset.univ) (Finset.subset_univ _)) $$ HO1; iintro HO1
  iapply (wp_store 𝒱₀ (thr d L) none Set.univ (m := (mO1 : Memref sig .scVector .vmem S10000 .f32)) (r := Rect.unit (s := S10000) (k4_off2 k) S16.size (k4_off2_inb k)) (Mk := Finset.univ) (S := Finset.univ) (Finset.subset_univ _)) $$ HO1; iintro HO1
  iapply (wp_load 𝒱₀ (thr d L) none Set.univ (m := (mE2 : Memref sig .scVector .vmem S10000 .f32)) (S := Finset.univ) (Finset.subset_univ _)) $$ HE2; iintro HE2
  iapply (wp_store 𝒱₀ (thr d L) none Set.univ (m := (mE2 : Memref sig .scVector .vmem S10000 .f32)) (r := Rect.unit (s := S10000) (k4_off2 k) S16.size (k4_off2_inb k)) (Mk := Finset.univ) (S := Finset.univ) (Finset.subset_univ _)) $$ HE2; iintro HE2
  iapply (wp_load 𝒱₀ (thr d L) none Set.univ (m := (mO2 : Memref sig .scVector .vmem S10000 .f32)) (S := Finset.univ) (Finset.subset_univ _)) $$ HO2; iintro HO2
  iapply (wp_store 𝒱₀ (thr d L) none Set.univ (m := (mO2 : Memref sig .scVector .vmem S10000 .f32)) (r := Rect.unit (s := S10000) (k4_off2 k) S16.size (k4_off2_inb k)) (Mk := Finset.univ) (S := Finset.univ) (Finset.subset_univ _)) $$ HO2; iintro HO2
  iapply (wp_load 𝒱₀ (thr d L) none Set.univ (m := (mE3 : Memref sig .scVector .vmem S10000 .f32)) (S := Finset.univ) (Finset.subset_univ _)) $$ HE3; iintro HE3
  iapply (wp_store 𝒱₀ (thr d L) none Set.univ (m := (mE3 : Memref sig .scVector .vmem S10000 .f32)) (r := Rect.unit (s := S10000) (k4_off2 k) S16.size (k4_off2_inb k)) (Mk := Finset.univ) (S := Finset.univ) (Finset.subset_univ _)) $$ HE3; iintro HE3
  iapply (wp_load 𝒱₀ (thr d L) none Set.univ (m := (mO3 : Memref sig .scVector .vmem S10000 .f32)) (S := Finset.univ) (Finset.subset_univ _)) $$ HO3; iintro HO3
  iapply (wp_store 𝒱₀ (thr d L) none Set.univ (m := (mO3 : Memref sig .scVector .vmem S10000 .f32)) (r := Rect.unit (s := S10000) (k4_off2 k) S16.size (k4_off2_inb k)) (Mk := Finset.univ) (S := Finset.univ) (Finset.subset_univ _)) $$ HO3; iintro HO3
  sl_step
  isplitl [HE0]
  · iexists _; isplitl [HE0]; · iexact HE0
    ipureintro; exact zero_core k fE0 _ hE0 (wr_in (F := F) bE0 _ fE0 _) (wr_out (F := F) bE0 _ fE0 _)
  isplitl [HO0]
  · iexists _; isplitl [HO0]; · iexact HO0
    ipureintro; exact zero_core k fO0 _ hO0 (wr_in (F := F) bO0 _ fO0 _) (wr_out (F := F) bO0 _ fO0 _)
  isplitl [HE1]
  · iexists _; isplitl [HE1]; · iexact HE1
    ipureintro; exact zero_core k fE1 _ hE1 (wr_in (F := F) bE1 _ fE1 _) (wr_out (F := F) bE1 _ fE1 _)
  isplitl [HO1]
  · iexists _; isplitl [HO1]; · iexact HO1
    ipureintro; exact zero_core k fO1 _ hO1 (wr_in (F := F) bO1 _ fO1 _) (wr_out (F := F) bO1 _ fO1 _)
  isplitl [HE2]
  · iexists _; isplitl [HE2]; · iexact HE2
    ipureintro; exact zero_core k fE2 _ hE2 (wr_in (F := F) bE2 _ fE2 _) (wr_out (F := F) bE2 _ fE2 _)
  isplitl [HO2]
  · iexists _; isplitl [HO2]; · iexact HO2
    ipureintro; exact zero_core k fO2 _ hO2 (wr_in (F := F) bO2 _ fO2 _) (wr_out (F := F) bO2 _ fO2 _)
  isplitl [HE3]
  · iexists _; isplitl [HE3]; · iexact HE3
    ipureintro; exact zero_core k fE3 _ hE3 (wr_in (F := F) bE3 _ fE3 _) (wr_out (F := F) bE3 _ fE3 _)
  iexists _; isplitl [HO3]; · iexact HO3
  ipureintro; exact zero_core k fO3 _ hO3 (wr_in (F := F) bO3 _ fO3 _) (wr_out (F := F) bO3 _ fO3 _)

def mergeInv (d : Dev nD) (L : grid4.Coords) (e o : Fin 4 → Vec F S10000 .f32) (n : Nat) (_ : Unit) : sProp 𝕄 :=
  iprop((∃ f : Vec F S10000 .f32, ((thr d L).loc bE0 ↦{fullShare} f) ∗ ⌜MergedTo n (e 0) (o 0) f⌝) ∗ ((thr d L).loc bO0 ↦{fullShare} o 0)
    ∗ (∃ f : Vec F S10000 .f32, ((thr d L).loc bE1 ↦{fullShare} f) ∗ ⌜MergedTo n (e 1) (o 1) f⌝) ∗ ((thr d L).loc bO1 ↦{fullShare} o 1)
    ∗ (∃ f : Vec F S10000 .f32, ((thr d L).loc bE2 ↦{fullShare} f) ∗ ⌜MergedTo n (e 2) (o 2) f⌝) ∗ ((thr d L).loc bO2 ↦{fullShare} o 2)
    ∗ (∃ f : Vec F S10000 .f32, ((thr d L).loc bE3 ↦{fullShare} f) ∗ ⌜MergedTo n (e 3) (o 3) f⌝) ∗ ((thr d L).loc bO3 ↦{fullShare} o 3))

abbrev T5 (L : grid4.Coords) (v1 : BitVec 32) := k4_t5_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc4_scoped0 cc4_scoped1 cc4_scoped2 cc4_scoped3 v1

theorem trip5 (d : Dev nD) (L : grid4.Coords) (v1 : BitVec 32) (e o : Fin 4 → Vec F S10000 .f32) :
    ∀ (t : Fin k4_t5_loop.trips) (acc : Unit), mergeInv d L e o t.val acc
      ⊢ wp frame (wpE (defs₀ (F := F)) 𝒱₀ (thr d L) none) Set.univ (T5 (F := F) L v1 t acc) (mergeInv d L e o (t.val + 1)) := by
  intro t acc
  unfold mergeInv T5 k4_t5_body
  simp only [Prog.lift, Prog.bind_op, Prog.bind_ret, Prog.pure_eq_ret]
  iintro ⟨⟨%f0, HE0, %h0⟩, HO0, ⟨%f1, HE1, %h1⟩, HO1, ⟨%f2, HE2, %h2⟩, HO2, ⟨%f3, HE3, %h3⟩, HO3⟩
  iapply (wp_load 𝒱₀ (thr d L) none Set.univ (m := (mE0 : Memref sig .scVector .vmem S10000 .f32)) (S := Finset.univ) (Finset.subset_univ _)) $$ HE0; iintro HE0
  iapply (wp_load 𝒱₀ (thr d L) none Set.univ (m := (mO0 : Memref sig .scVector .vmem S10000 .f32)) (S := Finset.univ) (Finset.subset_univ _)) $$ HO0; iintro HO0
  iapply (wp_load 𝒱₀ (thr d L) none Set.univ (m := (mE0 : Memref sig .scVector .vmem S10000 .f32)) (S := Finset.univ) (Finset.subset_univ _)) $$ HE0; iintro HE0
  iapply (wp_store 𝒱₀ (thr d L) none Set.univ (m := (mE0 : Memref sig .scVector .vmem S10000 .f32)) (r := Rect.unit (s := S10000) (k4_off10 t) S16.size (k4_off10_inb t)) (Mk := Finset.univ) (S := Finset.univ) (Finset.subset_univ _)) $$ HE0; iintro HE0
  iapply (wp_load 𝒱₀ (thr d L) none Set.univ (m := (mE1 : Memref sig .scVector .vmem S10000 .f32)) (S := Finset.univ) (Finset.subset_univ _)) $$ HE1; iintro HE1
  iapply (wp_load 𝒱₀ (thr d L) none Set.univ (m := (mO1 : Memref sig .scVector .vmem S10000 .f32)) (S := Finset.univ) (Finset.subset_univ _)) $$ HO1; iintro HO1
  iapply (wp_load 𝒱₀ (thr d L) none Set.univ (m := (mE1 : Memref sig .scVector .vmem S10000 .f32)) (S := Finset.univ) (Finset.subset_univ _)) $$ HE1; iintro HE1
  iapply (wp_store 𝒱₀ (thr d L) none Set.univ (m := (mE1 : Memref sig .scVector .vmem S10000 .f32)) (r := Rect.unit (s := S10000) (k4_off10 t) S16.size (k4_off10_inb t)) (Mk := Finset.univ) (S := Finset.univ) (Finset.subset_univ _)) $$ HE1; iintro HE1
  iapply (wp_load 𝒱₀ (thr d L) none Set.univ (m := (mE2 : Memref sig .scVector .vmem S10000 .f32)) (S := Finset.univ) (Finset.subset_univ _)) $$ HE2; iintro HE2
  iapply (wp_load 𝒱₀ (thr d L) none Set.univ (m := (mO2 : Memref sig .scVector .vmem S10000 .f32)) (S := Finset.univ) (Finset.subset_univ _)) $$ HO2; iintro HO2
  iapply (wp_load 𝒱₀ (thr d L) none Set.univ (m := (mE2 : Memref sig .scVector .vmem S10000 .f32)) (S := Finset.univ) (Finset.subset_univ _)) $$ HE2; iintro HE2
  iapply (wp_store 𝒱₀ (thr d L) none Set.univ (m := (mE2 : Memref sig .scVector .vmem S10000 .f32)) (r := Rect.unit (s := S10000) (k4_off10 t) S16.size (k4_off10_inb t)) (Mk := Finset.univ) (S := Finset.univ) (Finset.subset_univ _)) $$ HE2; iintro HE2
  iapply (wp_load 𝒱₀ (thr d L) none Set.univ (m := (mE3 : Memref sig .scVector .vmem S10000 .f32)) (S := Finset.univ) (Finset.subset_univ _)) $$ HE3; iintro HE3
  iapply (wp_load 𝒱₀ (thr d L) none Set.univ (m := (mO3 : Memref sig .scVector .vmem S10000 .f32)) (S := Finset.univ) (Finset.subset_univ _)) $$ HO3; iintro HO3
  iapply (wp_load 𝒱₀ (thr d L) none Set.univ (m := (mE3 : Memref sig .scVector .vmem S10000 .f32)) (S := Finset.univ) (Finset.subset_univ _)) $$ HE3; iintro HE3
  iapply (wp_store 𝒱₀ (thr d L) none Set.univ (m := (mE3 : Memref sig .scVector .vmem S10000 .f32)) (r := Rect.unit (s := S10000) (k4_off10 t) S16.size (k4_off10_inb t)) (Mk := Finset.univ) (S := Finset.univ) (Finset.subset_univ _)) $$ HE3; iintro HE3
  sl_step
  isplitl [HE0]
  · iexists _; isplitl [HE0]; · iexact HE0
    ipureintro; exact merge_core t (e 0) (o 0) f0 _ h0 (wr_in (F := F) bE0 _ f0 _) (wr_out (F := F) bE0 _ f0 _)
  isplitl [HO0]; · iexact HO0
  isplitl [HE1]
  · iexists _; isplitl [HE1]; · iexact HE1
    ipureintro; exact merge_core t (e 1) (o 1) f1 _ h1 (wr_in (F := F) bE1 _ f1 _) (wr_out (F := F) bE1 _ f1 _)
  isplitl [HO1]; · iexact HO1
  isplitl [HE2]
  · iexists _; isplitl [HE2]; · iexact HE2
    ipureintro; exact merge_core t (e 2) (o 2) f2 _ h2 (wr_in (F := F) bE2 _ f2 _) (wr_out (F := F) bE2 _ f2 _)
  isplitl [HO2]; · iexact HO2
  isplitl [HE3]
  · iexists _; isplitl [HE3]; · iexact HE3
    ipureintro; exact merge_core t (e 3) (o 3) f3 _ h3 (wr_in (F := F) bE3 _ f3 _) (wr_out (F := F) bE3 _ f3 _)
  iexact HO3

omit [FloatOps F] in
theorem inb_of (o : Nat) (h : o + 1600 ≤ 320000) : ∀ a, (![o] : Fin 1 → Nat) a + S1600.size a ≤ S320000.size a := by
  intro a
  obtain rfl : a = 0 := Subsingleton.elim _ _
  simpa using h

omit [FloatOps F] in
theorem k4_cond1_iff : ∀ k : Fin k4_t2_loop.trips, k4_cond1 k = 1#1 ↔ k.val + 1 < 100 := by decide +kernel

omit [FloatOps F] in
theorem trips2 : k4_t2_loop.trips = 100 := by decide
omit [FloatOps F] in
theorem trips3 : k4_t3_loop.trips = 50 := by decide
omit [FloatOps F] in
theorem trips4 : k4_t4_loop.trips = 50 := by decide

def semAInv (d : Dev nD) (L : grid4.Coords) (q : PosShare TreeShare) (srcA dstA : IVec S320000 32) (n : Nat) : sProp 𝕄 :=
  if h : n < 100 then
    iprop(∃ g0 g1 : IVec S1600 32, Transfers.Batch (countersEmb (U := UU)) (thr d L) (SemLoc.dma semA.sem) (none : HIx 4) NA
        (DAat (F := F) d L q srcA dstA ![3200 * n] (inb_of _ (by omega)) g0 g1) 2 0
      ∗ (tcLoc d main_v1 ↦[sRest ![3200 * n] (inb_of _ (by omega))]{q} srcA)
      ∗ (tcLoc d main_v3 ↦[dRest ![3200 * n] (inb_of _ (by omega))]{q} dstA))
  else
    iprop(semVal (thr d L, SemLoc.dma semA.sem) 0 ∗ (∃ g : IVec S1600 32, (thr d L).loc bSa ↦{fullShare} g) ∗ (∃ g : IVec S1600 32, (thr d L).loc bDa ↦{fullShare} g)
      ∗ (tcLoc d main_v1 ↦{q} srcA) ∗ (tcLoc d main_v3 ↦{q} dstA))

omit [FloatOps F] in
theorem semAInv_lt (d : Dev nD) (L : grid4.Coords) (q : PosShare TreeShare) (srcA dstA : IVec S320000 32) (n : Nat) (h : n < 100) :
    semAInv (F := F) d L q srcA dstA n =
      iprop(∃ g0 g1 : IVec S1600 32, Transfers.Batch (countersEmb (U := UU)) (thr d L) (SemLoc.dma semA.sem) (none : HIx 4) NA
          (DAat (F := F) d L q srcA dstA ![3200 * n] (inb_of _ (by omega)) g0 g1) 2 0
        ∗ (tcLoc d main_v1 ↦[sRest ![3200 * n] (inb_of _ (by omega))]{q} srcA)
        ∗ (tcLoc d main_v3 ↦[dRest ![3200 * n] (inb_of _ (by omega))]{q} dstA)) := by
  unfold semAInv; rw [dif_pos h]
omit [FloatOps F] in
theorem semAInv_ge (d : Dev nD) (L : grid4.Coords) (q : PosShare TreeShare) (srcA dstA : IVec S320000 32) (n : Nat) (h : ¬ n < 100) :
    semAInv (F := F) d L q srcA dstA n =
      iprop(semVal (thr d L, SemLoc.dma semA.sem) 0 ∗ (∃ g : IVec S1600 32, (thr d L).loc bSa ↦{fullShare} g) ∗ (∃ g : IVec S1600 32, (thr d L).loc bDa ↦{fullShare} g)
        ∗ (tcLoc d main_v1 ↦{q} srcA) ∗ (tcLoc d main_v3 ↦{q} dstA)) := by
  unfold semAInv; rw [dif_neg h]

def outerInv (d : Dev nD) (L : grid4.Coords) (q : PosShare TreeShare) (srcA dstA : IVec S320000 32)
    (u : Fin 4 → Vec F S10000 .f32) (O : CellTallies nD τ sig (HIx 4)) (W : Waits sig (HIx 4)) (n : Nat) (_ : Unit) : sProp 𝕄 :=
  iprop(Transfers.MayWaits (thr d L) (none : HIx 4) O
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (chunksN (u 0) srcA dstA (2 * n)).1) ∗ ((thr d L).loc bE1 ↦{fullShare} (chunksN (u 1) srcA dstA (2 * n)).1)
    ∗ ((thr d L).loc bE2 ↦{fullShare} (chunksN (u 2) srcA dstA (2 * n)).1) ∗ ((thr d L).loc bE3 ↦{fullShare} (chunksN (u 3) srcA dstA (2 * n)).1)
    ∗ ((thr d L).loc bO0 ↦{fullShare} (chunksN (u 0) srcA dstA (2 * n)).2) ∗ ((thr d L).loc bO1 ↦{fullShare} (chunksN (u 1) srcA dstA (2 * n)).2)
    ∗ ((thr d L).loc bO2 ↦{fullShare} (chunksN (u 2) srcA dstA (2 * n)).2) ∗ ((thr d L).loc bO3 ↦{fullShare} (chunksN (u 3) srcA dstA (2 * n)).2)
    ∗ (∃ g : IVec S1600 32, (thr d L).loc bSb ↦{fullShare} g) ∗ (∃ g : IVec S1600 32, (thr d L).loc bDb ↦{fullShare} g)
    ∗ semVal (thr d L, SemLoc.dma semB.sem) 0
    ∗ semAInv (F := F) d L q srcA dstA n
    ∗ ∃ W', ⌜∀ p ∈ W', p ∈ W ∨ p.2 = none⌝ ∗ owes (thr d L) O W')

abbrev T2 (L : grid4.Coords) (v1 : BitVec 32) := k4_t2_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc4_scoped0 cc4_scoped1 cc4_scoped2 cc4_scoped3 v1

theorem trip2 (d : Dev nD) (L : grid4.Coords) (v1 : BitVec 32) (q : PosShare TreeShare) (srcA dstA : IVec S320000 32)
    (hsrc : ∀ x, (srcA x).toNat < 10000) (hdst : ∀ x, (dstA x).toNat < 10000)
    (u : Fin 4 → Vec F S10000 .f32) (O : CellTallies nD τ sig (HIx 4)) (W : Waits sig (HIx 4)) :
    ∀ (k : Fin k4_t2_loop.trips) (acc : Unit), outerInv d L q srcA dstA u O W k.val acc
      ⊢ wp frame (wpE (defs₀ (F := F)) 𝒱₀ (thr d L) none) Set.univ (T2 (F := F) L v1 k acc) (outerInv d L q srcA dstA u O W (k.val + 1)) := by
  intro k acc
  have hk : k.val < 100 := lt_of_lt_of_eq k.isLt trips2
  unfold outerInv T2 k4_t2_body
  rw [semAInv_lt d L q srcA dstA k.val hk]
  iintro ⟨Hmw, Hu0, Hu1, Hu2, Hu3, HE0, HE1, HE2, HE3, HO0, HO1, HO2, HO3, ⟨%gb0, Hsb⟩, ⟨%gb1, Hdb⟩, HsemB, ⟨%ga0, %ga1, HBA, Hs, Hd⟩, %W', %hW', HO⟩

  ihave HBA := (Entails.of_eq (congrArg (fun D => Transfers.Batch (countersEmb (U := UU)) (thr d L) (SemLoc.dma semA.sem) (none : HIx 4) NA D 2 0)
      (DAat_congr (F := F) d L q srcA dstA (k4_off3_eq k).symm (inb_of _ (by omega)) (k4_off3_inb k) ga0 ga1))) $$ HBA
  ihave Hs := (Entails.of_eq ((congrArg (fun S => (tcLoc d main_v1 ↦[S]{q} srcA : sProp 𝕄)) (sRest_congr (k4_off3_eq k).symm (inb_of _ (by omega)) (k4_off3_inb k))).trans
      (pts_sRest (F := F) d L q srcA _ _).symm)) $$ Hs
  ihave Hd := (Entails.of_eq ((congrArg (fun S => (tcLoc d main_v3 ↦[S]{q} dstA : sProp 𝕄)) (dRest_congr (k4_off3_eq k).symm (inb_of _ (by omega)) (k4_off3_inb k))).trans
      (pts_dRest (F := F) d L q dstA _ _).symm)) $$ Hd
  ihave Hsb := (Entails.of_eq (pts_view_Sb (F := F) d L _).symm) $$ Hsb
  ihave Hdb := (Entails.of_eq (pts_view_Db (F := F) d L _).symm) $$ Hdb
  ihave HsemB := (Entails.of_eq (aside_eq _).symm) $$ HsemB
  sl_exec

  ihave Hs := (Entails.of_eq (show ((sSl (k4_off3 k) (k4_off3_inb k)).view.loc (thr d L) ↦{q} srcA : sProp 𝕄) = ((mS : Memref sig .scVector .hbm S320000 .i32).view.loc (thr d L) ↦{q} srcA) from rfl)) $$ Hs
  ihave Hd := (Entails.of_eq (show ((dSl (k4_off3 k) (k4_off3_inb k)).view.loc (thr d L) ↦{q} dstA : sProp 𝕄) = ((mD : Memref sig .scVector .hbm S320000 .i32).view.loc (thr d L) ↦{q} dstA) from rfl)) $$ Hd
  ihave HsemB := (Entails.of_eq (aside_eq _)) $$ HsemB
  ihave HsemA : (semVal (thr d L, SemLoc.dma semA.sem) 0 : sProp 𝕄) $$ [HBA]; · iexact HBA
  ihave HsemA := (Entails.of_eq (aside_eq _).symm) $$ HsemA
  imod (Transfers.batch_alloc' (Lvl := ℕ) (countersEmb (U := UU)) (thr d L) (none : HIx 4) NB
      (DBat (F := F) d L q srcA dstA (k4_off4 k) (k4_off4_inb k) gb0 gb1) (sm := .dma semB.sem) (E := Set.univ)) $$ HsemB with HBB
  sl_exec

  sl_for (trip3Inv (F := F) d L srcA dstA (2 * k.val) (landed (F := F) (thr d L) mSa (sSl (k4_off3 k) (k4_off3_inb k)) srcA ga0)
      (landed (F := F) (thr d L) mDa (dSl (k4_off3 k) (k4_off3_inb k)) dstA ga1) u (fun i => chunksN (u i) srcA dstA (2 * k.val))) $$ [HBA_dst0 HBA_dst1 Hu0 Hu1 Hu2 Hu3 HE0 HE1 HE2 HE3 HO0 HO1 HO2 HO3]
  case region =>
    exact trip3 (F := F) d L v1 srcA dstA hsrc hdst (2 * k.val) _ _
      (landed_holds_Sa (F := F) d L srcA (2 * k.val) _ ((k4_off3_eq k).trans (by rw [show 1600 * (2 * k.val) = 3200 * k.val by omega])) _ _)
      (landed_holds_Da (F := F) d L dstA (2 * k.val) _ ((k4_off3_eq k).trans (by rw [show 1600 * (2 * k.val) = 3200 * k.val by omega])) _ _) u _
  · unfold trip3Inv
    isplitl [HBA_dst0]; · iexact HBA_dst0
    isplitl [HBA_dst1]; · iexact HBA_dst1
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    iexact HO3
  iintro %_ HI
  ihave HI := (Entails.of_eq (congrArg (fun n => trip3Inv (F := F) d L srcA dstA (2 * k.val) (landed (F := F) (thr d L) mSa (sSl (k4_off3 k) (k4_off3_inb k)) srcA ga0)
      (landed (F := F) (thr d L) mDa (dSl (k4_off3 k) (k4_off3_inb k)) dstA ga1) u (fun i => chunksN (u i) srcA dstA (2 * k.val)) n ()) trips3)) $$ HI
  unfold trip3Inv
  icases HI with ⟨Hsa, Hda, Hu0, Hu1, Hu2, Hu3, HE0, HE1, HE2, HE3, HO0, HO1, HO2, HO3⟩
  ihave Hsa := (Entails.of_eq (pts_view_Sa (F := F) d L _).symm) $$ Hsa
  ihave Hda := (Entails.of_eq (pts_view_Da (F := F) d L _).symm) $$ Hda
  sl_exec

  ihave Hs := (Entails.of_eq (show ((sSl (k4_off4 k) (k4_off4_inb k)).view.loc (thr d L) ↦{q} srcA : sProp 𝕄) = ((mS : Memref sig .scVector .hbm S320000 .i32).view.loc (thr d L) ↦{q} srcA) from rfl)) $$ Hs
  ihave Hd := (Entails.of_eq (show ((dSl (k4_off4 k) (k4_off4_inb k)).view.loc (thr d L) ↦{q} dstA : sProp 𝕄) = ((mD : Memref sig .scVector .hbm S320000 .i32).view.loc (thr d L) ↦{q} dstA) from rfl)) $$ Hd
  by_cases hc : k4_cond1 k = 1#1
  · have hk1 : k.val + 1 < 100 := (k4_cond1_iff k).mp hc
    rw [dif_pos hc]
    ihave HsemA := (Entails.of_eq (aside_eq _)) $$ HsemA
    imod (Transfers.batch_alloc' (Lvl := ℕ) (countersEmb (U := UU)) (thr d L) (none : HIx 4) NA
        (DAat (F := F) d L q srcA dstA (k4_off7 k) (k4_off7_inb k hc) _ _) (sm := .dma semA.sem) (E := Set.univ)) $$ HsemA with HBA
    sl_exec
    sl_for (trip4Inv (F := F) d L srcA dstA (2 * k.val + 1) (landed (F := F) (thr d L) mSb (sSl (k4_off4 k) (k4_off4_inb k)) srcA gb0)
        (landed (F := F) (thr d L) mDb (dSl (k4_off4 k) (k4_off4_inb k)) dstA gb1) u (fun i => pairsN (u i) srcA dstA (2 * k.val) (chunksN (u i) srcA dstA (2 * k.val)) 50)) $$ [HBB_dst0 HBB_dst1 Hu0 Hu1 Hu2 Hu3 HE0 HE1 HE2 HE3 HO0 HO1 HO2 HO3]
    case region =>
      exact trip4 (F := F) d L v1 srcA dstA hsrc hdst (2 * k.val + 1) _ _
        (landed_holds_Sb (F := F) d L srcA (2 * k.val + 1) _ ((k4_off4_eq k).trans (by rw [show 1600 * (2 * k.val + 1) = 3200 * k.val + 1600 by omega])) _ _)
        (landed_holds_Db (F := F) d L dstA (2 * k.val + 1) _ ((k4_off4_eq k).trans (by rw [show 1600 * (2 * k.val + 1) = 3200 * k.val + 1600 by omega])) _ _) u _
    · unfold trip4Inv
      isplitl [HBB_dst0]; · iexact HBB_dst0
      isplitl [HBB_dst1]; · iexact HBB_dst1
      isplitl [Hu0]; · iexact Hu0
      isplitl [Hu1]; · iexact Hu1
      isplitl [Hu2]; · iexact Hu2
      isplitl [Hu3]; · iexact Hu3
      isplitl [HE0]; · iexact HE0
      isplitl [HE1]; · iexact HE1
      isplitl [HE2]; · iexact HE2
      isplitl [HE3]; · iexact HE3
      isplitl [HO0]; · iexact HO0
      isplitl [HO1]; · iexact HO1
      isplitl [HO2]; · iexact HO2
      iexact HO3
    iintro %_ HI
    ihave HI := (Entails.of_eq (congrArg (fun n => trip4Inv (F := F) d L srcA dstA (2 * k.val + 1) (landed (F := F) (thr d L) mSb (sSl (k4_off4 k) (k4_off4_inb k)) srcA gb0)
        (landed (F := F) (thr d L) mDb (dSl (k4_off4 k) (k4_off4_inb k)) dstA gb1) u (fun i => pairsN (u i) srcA dstA (2 * k.val) (chunksN (u i) srcA dstA (2 * k.val)) 50) n ()) trips4)) $$ HI
    unfold trip4Inv
    icases HI with ⟨Hsb, Hdb, Hu0, Hu1, Hu2, Hu3, HE0, HE1, HE2, HE3, HO0, HO1, HO2, HO3⟩
    sl_step
    rw [semAInv_lt d L q srcA dstA (k.val + 1) hk1]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HBB]; · iexact HBB
    isplitl [HBA Hs Hd]
    · iexists _, _
      isplitl [HBA]
      · iapply (Entails.of_eq (congrArg (fun D => Transfers.Batch (countersEmb (U := UU)) (thr d L) (SemLoc.dma semA.sem) (none : HIx 4) NA D 2 0)
          (DAat_congr (F := F) d L q srcA dstA ((k4_off7_eq k).trans (by rw [show 3200 * (k.val + 1) = 3200 * k.val + 3200 by omega])) (k4_off7_inb k hc) (inb_of _ (by omega)) _ _)))
        iexact HBA
      isplitl [Hs]
      · iapply (Entails.of_eq ((pts_sRest (F := F) d L q srcA _ _).trans (congrArg (fun S => (tcLoc d main_v1 ↦[S]{q} srcA : sProp 𝕄))
          (sRest_congr ((k4_off7_eq k).trans (by rw [show 3200 * (k.val + 1) = 3200 * k.val + 3200 by omega])) (k4_off7_inb k hc) (inb_of _ (by omega))))))
        iexact Hs
      · iapply (Entails.of_eq ((pts_dRest (F := F) d L q dstA _ _).trans (congrArg (fun S => (tcLoc d main_v3 ↦[S]{q} dstA : sProp 𝕄))
          (dRest_congr ((k4_off7_eq k).trans (by rw [show 3200 * (k.val + 1) = 3200 * k.val + 3200 by omega])) (k4_off7_inb k hc) (inb_of _ (by omega))))))
        iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp
  · have hk1 : ¬ (k.val + 1 < 100) := fun h => hc ((k4_cond1_iff k).mpr h)
    rw [dif_neg hc]
    sl_exec
    sl_for (trip4Inv (F := F) d L srcA dstA (2 * k.val + 1) (landed (F := F) (thr d L) mSb (sSl (k4_off4 k) (k4_off4_inb k)) srcA gb0)
        (landed (F := F) (thr d L) mDb (dSl (k4_off4 k) (k4_off4_inb k)) dstA gb1) u (fun i => pairsN (u i) srcA dstA (2 * k.val) (chunksN (u i) srcA dstA (2 * k.val)) 50)) $$ [HBB_dst0 HBB_dst1 Hu0 Hu1 Hu2 Hu3 HE0 HE1 HE2 HE3 HO0 HO1 HO2 HO3]
    case region =>
      exact trip4 (F := F) d L v1 srcA dstA hsrc hdst (2 * k.val + 1) _ _
        (landed_holds_Sb (F := F) d L srcA (2 * k.val + 1) _ ((k4_off4_eq k).trans (by rw [show 1600 * (2 * k.val + 1) = 3200 * k.val + 1600 by omega])) _ _)
        (landed_holds_Db (F := F) d L dstA (2 * k.val + 1) _ ((k4_off4_eq k).trans (by rw [show 1600 * (2 * k.val + 1) = 3200 * k.val + 1600 by omega])) _ _) u _
    · unfold trip4Inv
      isplitl [HBB_dst0]; · iexact HBB_dst0
      isplitl [HBB_dst1]; · iexact HBB_dst1
      isplitl [Hu0]; · iexact Hu0
      isplitl [Hu1]; · iexact Hu1
      isplitl [Hu2]; · iexact Hu2
      isplitl [Hu3]; · iexact Hu3
      isplitl [HE0]; · iexact HE0
      isplitl [HE1]; · iexact HE1
      isplitl [HE2]; · iexact HE2
      isplitl [HE3]; · iexact HE3
      isplitl [HO0]; · iexact HO0
      isplitl [HO1]; · iexact HO1
      isplitl [HO2]; · iexact HO2
      iexact HO3
    iintro %_ HI
    ihave HI := (Entails.of_eq (congrArg (fun n => trip4Inv (F := F) d L srcA dstA (2 * k.val + 1) (landed (F := F) (thr d L) mSb (sSl (k4_off4 k) (k4_off4_inb k)) srcA gb0)
        (landed (F := F) (thr d L) mDb (dSl (k4_off4 k) (k4_off4_inb k)) dstA gb1) u (fun i => pairsN (u i) srcA dstA (2 * k.val) (chunksN (u i) srcA dstA (2 * k.val)) 50) n ()) trips4)) $$ HI
    unfold trip4Inv
    icases HI with ⟨Hsb, Hdb, Hu0, Hu1, Hu2, Hu3, HE0, HE1, HE2, HE3, HO0, HO1, HO2, HO3⟩
    sl_step
    rw [semAInv_ge d L q srcA dstA (k.val + 1) hk1]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HBB]; · iexact HBB
    isplitl [HsemA Hsa Hda Hs Hd]
    · isplitl [HsemA]; · iapply (Entails.of_eq (aside_eq _)); iexact HsemA
      isplitl [Hsa]; · iexists _; iexact Hsa
      isplitl [Hda]; · iexists _; iexact Hda
      isplitl [Hs]; · iexact Hs
      iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
theorem landed_row_0 (d : Dev nD) (L : grid4.Coords) (uA : Vec F S1280000 .f32) (g : Vec F S10000 .f32) :
    landed (F := F) (thr d L) mU0 (uSl0 L) uA g = rowOf uA L 0 := by
  funext j
  show (View.whole bU0).write (Elt F) g (ReadAs.same.apply ((uSl0 L).view.read (Elt F) uA)) Finset.univ j = _
  rw [View.write_whole_univ]
  rfl

omit [FloatOps F] in
theorem pts_out_0 (d : Dev nD) (L : grid4.Coords) (f : Vec F S1280000 .f32) :
    ((oSl0 L).view.loc (thr d L) ↦[(oSl0 L).view.set]{fullShare} f : sProp 𝕄) = (tcLoc d main_v16 ↦[rowSet L 0]{fullShare} f) := by
  have hset : (oSl0 L).view.set = rowSet L 0 := by
    show ((View.whole main_v16_scv).slice (rowRect L 0)).set = (rowRect L 0).set
    rw [View.set_slice]; exact Finset.map_refl
  rw [hset]

omit [FloatOps F] in
theorem landed_row_1 (d : Dev nD) (L : grid4.Coords) (uA : Vec F S1280000 .f32) (g : Vec F S10000 .f32) :
    landed (F := F) (thr d L) mU1 (uSl1 L) uA g = rowOf uA L 1 := by
  funext j
  show (View.whole bU1).write (Elt F) g (ReadAs.same.apply ((uSl1 L).view.read (Elt F) uA)) Finset.univ j = _
  rw [View.write_whole_univ]
  rfl

omit [FloatOps F] in
theorem pts_out_1 (d : Dev nD) (L : grid4.Coords) (f : Vec F S1280000 .f32) :
    ((oSl1 L).view.loc (thr d L) ↦[(oSl1 L).view.set]{fullShare} f : sProp 𝕄) = (tcLoc d main_v16 ↦[rowSet L 1]{fullShare} f) := by
  have hset : (oSl1 L).view.set = rowSet L 1 := by
    show ((View.whole main_v16_scv).slice (rowRect L 1)).set = (rowRect L 1).set
    rw [View.set_slice]; exact Finset.map_refl
  rw [hset]

omit [FloatOps F] in
theorem landed_row_2 (d : Dev nD) (L : grid4.Coords) (uA : Vec F S1280000 .f32) (g : Vec F S10000 .f32) :
    landed (F := F) (thr d L) mU2 (uSl2 L) uA g = rowOf uA L 2 := by
  funext j
  show (View.whole bU2).write (Elt F) g (ReadAs.same.apply ((uSl2 L).view.read (Elt F) uA)) Finset.univ j = _
  rw [View.write_whole_univ]
  rfl

omit [FloatOps F] in
theorem pts_out_2 (d : Dev nD) (L : grid4.Coords) (f : Vec F S1280000 .f32) :
    ((oSl2 L).view.loc (thr d L) ↦[(oSl2 L).view.set]{fullShare} f : sProp 𝕄) = (tcLoc d main_v16 ↦[rowSet L 2]{fullShare} f) := by
  have hset : (oSl2 L).view.set = rowSet L 2 := by
    show ((View.whole main_v16_scv).slice (rowRect L 2)).set = (rowRect L 2).set
    rw [View.set_slice]; exact Finset.map_refl
  rw [hset]

omit [FloatOps F] in
theorem landed_row_3 (d : Dev nD) (L : grid4.Coords) (uA : Vec F S1280000 .f32) (g : Vec F S10000 .f32) :
    landed (F := F) (thr d L) mU3 (uSl3 L) uA g = rowOf uA L 3 := by
  funext j
  show (View.whole bU3).write (Elt F) g (ReadAs.same.apply ((uSl3 L).view.read (Elt F) uA)) Finset.univ j = _
  rw [View.write_whole_univ]
  rfl

omit [FloatOps F] in
theorem pts_out_3 (d : Dev nD) (L : grid4.Coords) (f : Vec F S1280000 .f32) :
    ((oSl3 L).view.loc (thr d L) ↦[(oSl3 L).view.set]{fullShare} f : sProp 𝕄) = (tcLoc d main_v16 ↦[rowSet L 3]{fullShare} f) := by
  have hset : (oSl3 L).view.set = rowSet L 3 := by
    show ((View.whole main_v16_scv).slice (rowRect L 3)).set = (rowRect L 3).set
    rw [View.set_slice]; exact Finset.map_refl
  rw [hset]

def DU (d : Dev nD) (L : grid4.Coords) (q : PosShare TreeShare) (uA : Vec F S1280000 .f32) (f0 f1 f2 f3 : Vec F S10000 .f32) : Fin 4 → sProp 𝕄 :=
  fun t => match t with
    | ⟨0, _⟩ => iprop(((mU0 : Memref sig .scVector .vmem S10000 .f32).view.loc (thr d L) ↦{fullShare} landed (F := F) (thr d L) mU0 (uSl0 L) uA f0)
        ∗ ((uSl0 L : Memref sig .scVector .hbm S10000 .f32).view.loc (thr d L) ↦[(uSl0 L : Memref sig .scVector .hbm S10000 .f32).view.set]{q} uA))
    | ⟨1, _⟩ => iprop(((mU1 : Memref sig .scVector .vmem S10000 .f32).view.loc (thr d L) ↦{fullShare} landed (F := F) (thr d L) mU1 (uSl1 L) uA f1)
        ∗ ((uSl1 L : Memref sig .scVector .hbm S10000 .f32).view.loc (thr d L) ↦[(uSl1 L : Memref sig .scVector .hbm S10000 .f32).view.set]{q} uA))
    | ⟨2, _⟩ => iprop(((mU2 : Memref sig .scVector .vmem S10000 .f32).view.loc (thr d L) ↦{fullShare} landed (F := F) (thr d L) mU2 (uSl2 L) uA f2)
        ∗ ((uSl2 L : Memref sig .scVector .hbm S10000 .f32).view.loc (thr d L) ↦[(uSl2 L : Memref sig .scVector .hbm S10000 .f32).view.set]{q} uA))
    | ⟨3, _⟩ => iprop(((mU3 : Memref sig .scVector .vmem S10000 .f32).view.loc (thr d L) ↦{fullShare} landed (F := F) (thr d L) mU3 (uSl3 L) uA f3)
        ∗ ((uSl3 L : Memref sig .scVector .hbm S10000 .f32).view.loc (thr d L) ↦[(uSl3 L : Memref sig .scVector .hbm S10000 .f32).view.set]{q} uA))

omit [FloatOps F] in
instance DU_storable (d : Dev nD) (L : grid4.Coords) (q : PosShare TreeShare) (uA : Vec F S1280000 .f32) (f0 f1 f2 f3 : Vec F S10000 .f32) (t : Fin 4) :
    Storable (upEmb : UEmb _ 𝕄) (DU (F := F) d L q uA f0 f1 f2 f3 t) := by
  unfold DU
  match t with
  | ⟨0, _⟩ => infer_instance
  | ⟨1, _⟩ => infer_instance
  | ⟨2, _⟩ => infer_instance
  | ⟨3, _⟩ => infer_instance

omit [FloatOps F] in
theorem trips1 : k4_t1_loop.trips = 625 := by decide
omit [FloatOps F] in
theorem trips5 : k4_t5_loop.trips = 625 := by decide

omit [FloatOps F] in
theorem read_row_0 (L : grid4.Coords) (g : Vec F S1280000 .f32) (j : S10000.Idx) :
    (oSl0 L).view.read (Elt F) g j = g ((rowRect L 0).emb j) := rfl

omit [FloatOps F] in
theorem writes_whole_read_0 (L : grid4.Coords) (fo : Vec F S1280000 .f32) (w : Vec F S10000 .f32) (j : S10000.Idx) :
    (oSl0 L).view.read (Elt F) ((oSl0 L).view.writes (Elt F) fo [⟨Rect.whole S10000, w⟩]) j = w j := by
  have h := View.read_writes_cons_emb (v := (oSl0 L).view) (Val := Elt F) (f := fo) (Rect.whole S10000) w [] j
  rwa [Rect.emb_whole_apply] at h

omit [FloatOps F] in
theorem read_row_1 (L : grid4.Coords) (g : Vec F S1280000 .f32) (j : S10000.Idx) :
    (oSl1 L).view.read (Elt F) g j = g ((rowRect L 1).emb j) := rfl

omit [FloatOps F] in
theorem writes_whole_read_1 (L : grid4.Coords) (fo : Vec F S1280000 .f32) (w : Vec F S10000 .f32) (j : S10000.Idx) :
    (oSl1 L).view.read (Elt F) ((oSl1 L).view.writes (Elt F) fo [⟨Rect.whole S10000, w⟩]) j = w j := by
  have h := View.read_writes_cons_emb (v := (oSl1 L).view) (Val := Elt F) (f := fo) (Rect.whole S10000) w [] j
  rwa [Rect.emb_whole_apply] at h

omit [FloatOps F] in
theorem read_row_2 (L : grid4.Coords) (g : Vec F S1280000 .f32) (j : S10000.Idx) :
    (oSl2 L).view.read (Elt F) g j = g ((rowRect L 2).emb j) := rfl

omit [FloatOps F] in
theorem writes_whole_read_2 (L : grid4.Coords) (fo : Vec F S1280000 .f32) (w : Vec F S10000 .f32) (j : S10000.Idx) :
    (oSl2 L).view.read (Elt F) ((oSl2 L).view.writes (Elt F) fo [⟨Rect.whole S10000, w⟩]) j = w j := by
  have h := View.read_writes_cons_emb (v := (oSl2 L).view) (Val := Elt F) (f := fo) (Rect.whole S10000) w [] j
  rwa [Rect.emb_whole_apply] at h

omit [FloatOps F] in
theorem read_row_3 (L : grid4.Coords) (g : Vec F S1280000 .f32) (j : S10000.Idx) :
    (oSl3 L).view.read (Elt F) g j = g ((rowRect L 3).emb j) := rfl

omit [FloatOps F] in
theorem writes_whole_read_3 (L : grid4.Coords) (fo : Vec F S1280000 .f32) (w : Vec F S10000 .f32) (j : S10000.Idx) :
    (oSl3 L).view.read (Elt F) ((oSl3 L).view.writes (Elt F) fo [⟨Rect.whole S10000, w⟩]) j = w j := by
  have h := View.read_writes_cons_emb (v := (oSl3 L).view) (Val := Elt F) (f := fo) (Rect.whole S10000) w [] j
  rwa [Rect.emb_whole_apply] at h

theorem tile_core : TileCore F := by
  intro d L q uA srcA dstA hsrc hdst O W
  unfold kern
  simp only [cc4_spmm_kernel_eq_skeleton]
  unfold cc4_spmm_kernel_skel
  simp only [k4_part1_eq_skeleton, k4_part2_eq_skeleton]
  unfold k4_part1_skel k4_part2_skel
  unfold outPiece scratch20 sems7
  iintro ⟨Hmw, Hu, Hs, Hd, ⟨%fo0, Ho0⟩, ⟨%fo1, Ho1⟩, ⟨%fo2, Ho2⟩, ⟨%fo3, Ho3⟩,
    ⟨⟨%f0, H0⟩, ⟨%f1, H1⟩, ⟨%f2, H2⟩, ⟨%f3, H3⟩, ⟨%fE0, HE0⟩, ⟨%fE1, HE1⟩, ⟨%fE2, HE2⟩, ⟨%fE3, HE3⟩, ⟨%fO0, HO0⟩, ⟨%fO1, HO1⟩, ⟨%fO2, HO2⟩, ⟨%fO3, HO3⟩,
      ⟨%ga0, Hsa⟩, ⟨%ga1, Hda⟩, ⟨%gb0, Hsb⟩, ⟨%gb1, Hdb⟩⟩,
    ⟨HsemA, HsemB, HsemU, Hsc0, Hsc1, Hsc2, Hsc3⟩, HO⟩
  ihave Hu := (Entails.of_eq (pts_view_U (F := F) d L q _).symm) $$ Hu
  ihave Hs := (Entails.of_eq (pts_view_S (F := F) d L q _).symm) $$ Hs
  ihave Hd := (Entails.of_eq (pts_view_D (F := F) d L q _).symm) $$ Hd
  ihave H0 := (Entails.of_eq (pts_view_U0 (F := F) d L _).symm) $$ H0
  ihave H1 := (Entails.of_eq (pts_view_U1 (F := F) d L _).symm) $$ H1
  ihave H2 := (Entails.of_eq (pts_view_U2 (F := F) d L _).symm) $$ H2
  ihave H3 := (Entails.of_eq (pts_view_U3 (F := F) d L _).symm) $$ H3
  ihave Hsa := (Entails.of_eq (pts_view_Sa (F := F) d L _).symm) $$ Hsa
  ihave Hda := (Entails.of_eq (pts_view_Da (F := F) d L _).symm) $$ Hda
  ihave Ho0 := (Entails.of_eq (pts_out_0 (F := F) d L _).symm) $$ Ho0
  ihave Ho1 := (Entails.of_eq (pts_out_1 (F := F) d L _).symm) $$ Ho1
  ihave Ho2 := (Entails.of_eq (pts_out_2 (F := F) d L _).symm) $$ Ho2
  ihave Ho3 := (Entails.of_eq (pts_out_3 (F := F) d L _).symm) $$ Ho3
  ihave HsemB := (Entails.of_eq (aside_eq _).symm) $$ HsemB
  ihave Hsc0 := (Entails.of_eq (aside_eq _).symm) $$ Hsc0
  ihave Hsc1 := (Entails.of_eq (aside_eq _).symm) $$ Hsc1
  ihave Hsc2 := (Entails.of_eq (aside_eq _).symm) $$ Hsc2
  ihave Hsc3 := (Entails.of_eq (aside_eq _).symm) $$ Hsc3
  imod (Transfers.batch_alloc' (Lvl := ℕ) (countersEmb (U := UU)) (thr d L) (none : HIx 4) NA
      (DAat (F := F) d L q srcA dstA ![0] inb_S320000_S1600_0 ga0 ga1) (sm := .dma semA.sem) (E := Set.univ)) $$ HsemA with HBA
  imod (Transfers.batch_alloc' (Lvl := ℕ) (countersEmb (U := UU)) (thr d L) (none : HIx 4) NU
      (DU (F := F) d L q uA f0 f1 f2 f3) (sm := .dma semU.sem) (E := Set.univ)) $$ HsemU with HBU
  sl_exec
  rw [bind_assoc]
  sl_for (zeroInv (F := F) d L) $$ [HE0 HO0 HE1 HO1 HE2 HO2 HE3 HO3]
  case region => exact trip1 d L
  · unfold zeroInv
    isplitl [HE0]
    · iexists _; isplitl [HE0]; · iexact HE0
      ipureintro; exact zeroTo_zero _
    isplitl [HO0]
    · iexists _; isplitl [HO0]; · iexact HO0
      ipureintro; exact zeroTo_zero _
    isplitl [HE1]
    · iexists _; isplitl [HE1]; · iexact HE1
      ipureintro; exact zeroTo_zero _
    isplitl [HO1]
    · iexists _; isplitl [HO1]; · iexact HO1
      ipureintro; exact zeroTo_zero _
    isplitl [HE2]
    · iexists _; isplitl [HE2]; · iexact HE2
      ipureintro; exact zeroTo_zero _
    isplitl [HO2]
    · iexists _; isplitl [HO2]; · iexact HO2
      ipureintro; exact zeroTo_zero _
    isplitl [HE3]
    · iexists _; isplitl [HE3]; · iexact HE3
      ipureintro; exact zeroTo_zero _
    iexists _; isplitl [HO3]; · iexact HO3
    ipureintro; exact zeroTo_zero _
  iintro %_ HI
  ihave HI := (Entails.of_eq (congrArg (fun n => zeroInv (F := F) d L n ()) trips1)) $$ HI
  unfold zeroInv
  icases HI with ⟨⟨%zE0, HE0, %hzE0⟩, ⟨%zO0, HO0, %hzO0⟩, ⟨%zE1, HE1, %hzE1⟩, ⟨%zO1, HO1, %hzO1⟩, ⟨%zE2, HE2, %hzE2⟩, ⟨%zO2, HO2, %hzO2⟩, ⟨%zE3, HE3, %hzE3⟩, ⟨%zO3, HO3, %hzO3⟩⟩
  obtain rfl := zeroTo_all zE0 hzE0
  obtain rfl := zeroTo_all zO0 hzO0
  obtain rfl := zeroTo_all zE1 hzE1
  obtain rfl := zeroTo_all zO1 hzO1
  obtain rfl := zeroTo_all zE2 hzE2
  obtain rfl := zeroTo_all zO2 hzO2
  obtain rfl := zeroTo_all zE3 hzE3
  obtain rfl := zeroTo_all zO3 hzO3
  sl_exec
  ihave Hu0 := (Entails.of_eq (pts_view_U0 (F := F) d L _)) $$ HBU_dst0
  ihave Hu0 := (Entails.of_eq (congrArg (fun f => ((thr d L).loc bU0 ↦{fullShare} f : sProp 𝕄)) (landed_row_0 (F := F) d L uA f0))) $$ Hu0
  ihave Hu1 := (Entails.of_eq (pts_view_U1 (F := F) d L _)) $$ HBU_dst1
  ihave Hu1 := (Entails.of_eq (congrArg (fun f => ((thr d L).loc bU1 ↦{fullShare} f : sProp 𝕄)) (landed_row_1 (F := F) d L uA f1))) $$ Hu1
  ihave Hu2 := (Entails.of_eq (pts_view_U2 (F := F) d L _)) $$ HBU_dst2
  ihave Hu2 := (Entails.of_eq (congrArg (fun f => ((thr d L).loc bU2 ↦{fullShare} f : sProp 𝕄)) (landed_row_2 (F := F) d L uA f2))) $$ Hu2
  ihave Hu3 := (Entails.of_eq (pts_view_U3 (F := F) d L _)) $$ HBU_dst3
  ihave Hu3 := (Entails.of_eq (congrArg (fun f => ((thr d L).loc bU3 ↦{fullShare} f : sProp 𝕄)) (landed_row_3 (F := F) d L uA f3))) $$ Hu3
  rw [bind_assoc]
  sl_for (outerInv (F := F) d L q srcA dstA (fun k => rowOf uA L k) O W) $$ [Hmw Hu0 Hu1 Hu2 Hu3 HE0 HE1 HE2 HE3 HO0 HO1 HO2 HO3 Hsb Hdb HsemB HBA Hs Hd HO]
  case region => exact trip2 (F := F) d L _ q srcA dstA hsrc hdst _ O W
  · unfold outerInv
    rw [semAInv_lt d L q srcA dstA 0 (by omega)]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HsemB]; · iapply (Entails.of_eq (aside_eq _)); iexact HsemB
    isplitl [HBA Hs Hd]
    · iexists ga0, ga1
      isplitl [HBA]
      · iapply (Entails.of_eq (congrArg (fun D => Transfers.Batch (countersEmb (U := UU)) (thr d L) (SemLoc.dma semA.sem) (none : HIx 4) NA D 2 0)
          (DAat_congr (F := F) d L q srcA dstA (show (![0] : Fin 1 → Nat) = ![3200 * 0] from rfl) inb_S320000_S1600_0 (inb_of _ (by omega)) ga0 ga1)))
        iexact HBA
      isplitl [Hs]
      · iapply (Entails.of_eq ((pts_sRest (F := F) d L q srcA _ _).trans (congrArg (fun S => (tcLoc d main_v1 ↦[S]{q} srcA : sProp 𝕄))
          (sRest_congr (show (![0] : Fin 1 → Nat) = ![3200 * 0] from rfl) inb_S320000_S1600_0 (inb_of _ (by omega))))))
        iexact Hs
      · iapply (Entails.of_eq ((pts_dRest (F := F) d L q dstA _ _).trans (congrArg (fun S => (tcLoc d main_v3 ↦[S]{q} dstA : sProp 𝕄))
          (dRest_congr (show (![0] : Fin 1 → Nat) = ![3200 * 0] from rfl) inb_S320000_S1600_0 (inb_of _ (by omega))))))
        iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  iintro %_ HI
  ihave HI := (Entails.of_eq (congrArg (fun n => outerInv (F := F) d L q srcA dstA (fun k => rowOf uA L k) O W n ()) trips2)) $$ HI
  unfold outerInv
  rw [semAInv_ge d L q srcA dstA 100 (by omega)]
  icases HI with ⟨Hmw, Hu0, Hu1, Hu2, Hu3, HE0, HE1, HE2, HE3, HO0, HO1, HO2, HO3, ⟨%gb0', Hsb⟩, ⟨%gb1', Hdb⟩, HsemB, ⟨HsemA, ⟨%ga0', Hsa⟩, ⟨%ga1', Hda⟩, Hs, Hd⟩, %W1, %hW1, HO⟩
  sl_respell []
  rw [bind_assoc]
  sl_for (mergeInv (F := F) d L (fun k => (chunksN (rowOf uA L k) srcA dstA (2 * 100)).1) (fun k => (chunksN (rowOf uA L k) srcA dstA (2 * 100)).2)) $$ [HE0 HO0 HE1 HO1 HE2 HO2 HE3 HO3]
  case region => exact trip5 (F := F) d L _ _ _
  · unfold mergeInv
    isplitl [HE0]
    · iexists _; isplitl [HE0]; · iexact HE0
      ipureintro; exact mergedTo_zero _ _
    isplitl [HO0]; · iexact HO0
    isplitl [HE1]
    · iexists _; isplitl [HE1]; · iexact HE1
      ipureintro; exact mergedTo_zero _ _
    isplitl [HO1]; · iexact HO1
    isplitl [HE2]
    · iexists _; isplitl [HE2]; · iexact HE2
      ipureintro; exact mergedTo_zero _ _
    isplitl [HO2]; · iexact HO2
    isplitl [HE3]
    · iexists _; isplitl [HE3]; · iexact HE3
      ipureintro; exact mergedTo_zero _ _
    iexact HO3
  iintro %_ HI
  ihave HI := (Entails.of_eq (congrArg (fun n => mergeInv (F := F) d L (fun k => (chunksN (rowOf uA L k) srcA dstA (2 * 100)).1) (fun k => (chunksN (rowOf uA L k) srcA dstA (2 * 100)).2) n ()) trips5)) $$ HI
  unfold mergeInv
  icases HI with ⟨⟨%m0, HE0, %hm0⟩, HO0, ⟨%m1, HE1, %hm1⟩, HO1, ⟨%m2, HE2, %hm2⟩, HO2, ⟨%m3, HE3, %hm3⟩, HO3⟩
  ihave HE0 := (Entails.of_eq (pts_view_E0 (F := F) d L _).symm) $$ HE0
  ihave HE1 := (Entails.of_eq (pts_view_E1 (F := F) d L _).symm) $$ HE1
  ihave HE2 := (Entails.of_eq (pts_view_E2 (F := F) d L _).symm) $$ HE2
  ihave HE3 := (Entails.of_eq (pts_view_E3 (F := F) d L _).symm) $$ HE3
  ihave Hsc0 := (Entails.of_eq (aside_eq _)) $$ Hsc0
  ihave Hsc1 := (Entails.of_eq (aside_eq _)) $$ Hsc1
  ihave Hsc2 := (Entails.of_eq (aside_eq _)) $$ Hsc2
  ihave Hsc3 := (Entails.of_eq (aside_eq _)) $$ Hsc3
  sl_exec
  sl_step
  isplitl [Hu]; · iexact Hu
  isplitl [Hs]; · iexact Hs
  isplitl [Hd]; · iexact Hd
  isplitl [Ho0]
  · unfold outDone
    iexists _; isplitr
    swap
    · iapply (Entails.of_eq (pts_out_0 (F := F) d L _)); iexact Ho0
    ipureintro; intro j
    refine (read_row_0 (F := F) L _ j).symm.trans ?_
    refine (writes_whole_read_0 (F := F) L _ _ j).trans ?_
    show m0 j = _
    rw [mergedTo_all _ _ _ hm0]
    rfl
  isplitl [Ho1]
  · unfold outDone
    iexists _; isplitr
    swap
    · iapply (Entails.of_eq (pts_out_1 (F := F) d L _)); iexact Ho1
    ipureintro; intro j
    refine (read_row_1 (F := F) L _ j).symm.trans ?_
    refine (writes_whole_read_1 (F := F) L _ _ j).trans ?_
    show m1 j = _
    rw [mergedTo_all _ _ _ hm1]
    rfl
  isplitl [Ho2]
  · unfold outDone
    iexists _; isplitr
    swap
    · iapply (Entails.of_eq (pts_out_2 (F := F) d L _)); iexact Ho2
    ipureintro; intro j
    refine (read_row_2 (F := F) L _ j).symm.trans ?_
    refine (writes_whole_read_2 (F := F) L _ _ j).trans ?_
    show m2 j = _
    rw [mergedTo_all _ _ _ hm2]
    rfl
  isplitl [Ho3]
  · unfold outDone
    iexists _; isplitr
    swap
    · iapply (Entails.of_eq (pts_out_3 (F := F) d L _)); iexact Ho3
    ipureintro; intro j
    refine (read_row_3 (F := F) L _ j).symm.trans ?_
    refine (writes_whole_read_3 (F := F) L _ _ j).trans ?_
    show m3 j = _
    rw [mergedTo_all _ _ _ hm3]
    rfl
  isplitl [Hu0 Hu1 Hu2 Hu3 HE0 HE1 HE2 HE3 HO0 HO1 HO2 HO3 Hsa Hda Hsb Hdb]
  · isplitl [Hu0]; · iexists _; iexact Hu0
    isplitl [Hu1]; · iexists _; iexact Hu1
    isplitl [Hu2]; · iexists _; iexact Hu2
    isplitl [Hu3]; · iexists _; iexact Hu3
    isplitl [HE0]; · iexists _; iexact HE0
    isplitl [HE1]; · iexists _; iexact HE1
    isplitl [HE2]; · iexists _; iexact HE2
    isplitl [HE3]; · iexists _; iexact HE3
    isplitl [HO0]; · iexists _; iexact HO0
    isplitl [HO1]; · iexists _; iexact HO1
    isplitl [HO2]; · iexists _; iexact HO2
    isplitl [HO3]; · iexists _; iexact HO3
    isplitl [Hsa]; · iexists _; iexact Hsa
    isplitl [Hda]; · iexists _; iexact Hda
    isplitl [Hsb]; · iexists _; iexact Hsb
    iexists _; iexact Hdb
  isplitl [HsemA HsemB HBU Hsc0 Hsc1 Hsc2 Hsc3]
  · isplitl [HsemA]; · iexact HsemA
    isplitl [HsemB]; · iexact HsemB
    isplitl [HBU]; · iexact HBU
    isplitl [Hsc0]; · iexact Hsc0
    isplitl [Hsc1]; · iexact Hsc1
    isplitl [Hsc2]; · iexact Hsc2
    iexact Hsc3
  iexists _; isplitr
  swap
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW1 p hp

end Cert.KernelIdeal.SpmmTile2

end
-- ==== Proof.SpmmTile3.lean ====
import proofs.«213134_g57071525429591_cont_9to1_m_136_24_alg».proof.Proof.SpmmNames3

set_option maxHeartbeats 6400000

noncomputable section

namespace Cert.KernelIdeal.SpmmTile3

open Cert.KernelIdeal Cert.KernelIdeal.Gen Cert.KernelIdeal.Setup Cert.SpmmVal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

theorem inRange_of (v : IVec S16 32) (h : ∀ x, (v x).toNat < 10000) :
    ∀ a x, ((![v] : Fin 1 → IVec S16 32) a x).toNat < S10000.size a := by
  intro a x
  have ha : a = 0 := Subsingleton.elim _ _
  subst ha
  exact h x

theorem wordAt_lt {t : IVec ShE 32} (ht : ∀ x, (t x).toNat < 10000) (k : Nat) : (wordAt t k).toNat < 10000 := by
  unfold wordAt
  split
  · exact ht _
  · show (0 : BitVec 32).toNat < 10000
    decide

theorem vec16_lt {t : IVec ShE 32} (ht : ∀ x, (t x).toNat < 10000) (base : Nat) (x : S16.Idx) : (vec16 t base x).toNat < 10000 :=
  wordAt_lt ht _

theorem vec16_inRange {t : IVec ShE 32} (ht : ∀ x, (t x).toNat < 10000) (base : Nat) :
    ∀ a x, ((![vec16 t base] : Fin 1 → IVec S16 32) a x).toNat < S10000.size a := inRange_of _ (vec16_lt ht base)

def HoldsChunk (t : IVec ShE 32) (jc : Nat) (s : IVec S1600 32) : Prop := ∀ j : S1600.Idx, s j = wordAt t (1600 * jc + (j 0).val)

def rd16 (s : IVec S1600 32) (off : Fin 1 → Nat) (inb : ∀ a, off a + S16.size a ≤ S1600.size a) : IVec S16 32 :=
  fun x => s ((Rect.unit (s := S1600) off S16.size inb).toLoadRect.idx x)

omit [FloatOps F] in

theorem rd16_eq (t : IVec ShE 32) (jc : Nat) (s : IVec S1600 32) (hs : HoldsChunk t jc s)
    (off : Fin 1 → Nat) (o : Nat) (ho : off = ![o]) (inb : ∀ a, off a + S16.size a ≤ S1600.size a) :
    rd16 s off inb = vec16 t (1600 * jc + o) := by
  subst ho
  funext x
  unfold rd16 vec16
  rw [hs]
  congr 1
  rw [LoadRect.idx_apply]
  show 1600 * jc + (o + 1 * (x 0).val) = 1600 * jc + o + (x 0).val
  omega

omit [FloatOps F] in
theorem load_Sa (t : IVec ShE 32) (jc : Nat) (s : IVec S1600 32) (hs : HoldsChunk t jc s)
    (off : Fin 1 → Nat) (o : Nat) (ho : off = ![o]) (inb : ∀ a, off a + S16.size a ≤ S1600.size a) :
    (mSa : Memref sig .scVector .vmem S1600 .i32).view.readAt (Elt F) (Rect.unit (s := S1600) off S16.size inb).toLoadRect s = vec16 t (1600 * jc + o) :=
  rd16_eq t jc s hs off o ho inb
omit [FloatOps F] in
theorem load_Da (t : IVec ShE 32) (jc : Nat) (s : IVec S1600 32) (hs : HoldsChunk t jc s)
    (off : Fin 1 → Nat) (o : Nat) (ho : off = ![o]) (inb : ∀ a, off a + S16.size a ≤ S1600.size a) :
    (mDa : Memref sig .scVector .vmem S1600 .i32).view.readAt (Elt F) (Rect.unit (s := S1600) off S16.size inb).toLoadRect s = vec16 t (1600 * jc + o) :=
  rd16_eq t jc s hs off o ho inb
omit [FloatOps F] in
theorem load_Sb (t : IVec ShE 32) (jc : Nat) (s : IVec S1600 32) (hs : HoldsChunk t jc s)
    (off : Fin 1 → Nat) (o : Nat) (ho : off = ![o]) (inb : ∀ a, off a + S16.size a ≤ S1600.size a) :
    (mSb : Memref sig .scVector .vmem S1600 .i32).view.readAt (Elt F) (Rect.unit (s := S1600) off S16.size inb).toLoadRect s = vec16 t (1600 * jc + o) :=
  rd16_eq t jc s hs off o ho inb
omit [FloatOps F] in
theorem load_Db (t : IVec ShE 32) (jc : Nat) (s : IVec S1600 32) (hs : HoldsChunk t jc s)
    (off : Fin 1 → Nat) (o : Nat) (ho : off = ![o]) (inb : ∀ a, off a + S16.size a ≤ S1600.size a) :
    (mDb : Memref sig .scVector .vmem S1600 .i32).view.readAt (Elt F) (Rect.unit (s := S1600) off S16.size inb).toLoadRect s = vec16 t (1600 * jc + o) :=
  rd16_eq t jc s hs off o ho inb

omit [FloatOps F] in
theorem pts_acc_E0 (d : Dev nD) (L : grid6.Coords) (f : Vec F S10000 .f32) :
    (((mE0 : Memref sig .scVector .vmem S10000 .f32).access (Rect.whole S10000)).loc (thr d L) ↦[((mE0 : Memref sig .scVector .vmem S10000 .f32).access (Rect.whole S10000)).set]{fullShare} f : sProp 𝕄)
      = ((thr d L).loc bE0 ↦{fullShare} f) := by
  rw [show ((mE0 : Memref sig .scVector .vmem S10000 .f32).access (Rect.whole S10000)).set = Finset.univ from Memref.set_access_whole bE0]

theorem acc_step_E0 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE0 : Memref sig .scVector .vmem S10000 .f32).access (Rect.whole S10000)).loc (thr d L) ↦[((mE0 : Memref sig .scVector .vmem S10000 .f32).access (Rect.whole S10000)).set]{fullShare}
        (((mE0 : Memref sig .scVector .vmem S10000 .f32).access (Rect.whole S10000)).write (Elt F) e
          (storeIdx (((mE0 : Memref sig .scVector .vmem S10000 .f32).access (Rect.whole S10000)).read (Elt F) e) ![dv]
            (loadIdx (((mU0 : Memref sig .scVector .vmem S10000 .f32).access (Rect.whole S10000)).read (Elt F) u) ![sv] hs) (fun _ => 1#1) true hd) Finset.univ) : sProp 𝕄)
      = ((thr d L).loc bE0 ↦{fullShare} step u e sv dv) := by
  rw [show ((mE0 : Memref sig .scVector .vmem S10000 .f32).access (Rect.whole S10000)).set = Finset.univ from Memref.set_access_whole bE0,
    show ∀ w, ((mE0 : Memref sig .scVector .vmem S10000 .f32).access (Rect.whole S10000)).write (Elt F) e w Finset.univ = w from fun w => Memref.write_access_whole_univ (Elt F) bE0 e w,
    show ((mE0 : Memref sig .scVector .vmem S10000 .f32).access (Rect.whole S10000)).read (Elt F) e = e from Memref.read_access_whole (Elt F) bE0 e,
    show ((mU0 : Memref sig .scVector .vmem S10000 .f32).access (Rect.whole S10000)).read (Elt F) u = u from Memref.read_access_whole (Elt F) bU0 u,
    ← step_eq u e sv dv hs hd]

omit [FloatOps F] in
theorem pts_acc_E1 (d : Dev nD) (L : grid6.Coords) (f : Vec F S10000 .f32) :
    (((mE1 : Memref sig .scVector .vmem S10000 .f32).access (Rect.whole S10000)).loc (thr d L) ↦[((mE1 : Memref sig .scVector .vmem S10000 .f32).access (Rect.whole S10000)).set]{fullShare} f : sProp 𝕄)
      = ((thr d L).loc bE1 ↦{fullShare} f) := by
  rw [show ((mE1 : Memref sig .scVector .vmem S10000 .f32).access (Rect.whole S10000)).set = Finset.univ from Memref.set_access_whole bE1]

theorem acc_step_E1 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE1 : Memref sig .scVector .vmem S10000 .f32).access (Rect.whole S10000)).loc (thr d L) ↦[((mE1 : Memref sig .scVector .vmem S10000 .f32).access (Rect.whole S10000)).set]{fullShare}
        (((mE1 : Memref sig .scVector .vmem S10000 .f32).access (Rect.whole S10000)).write (Elt F) e
          (storeIdx (((mE1 : Memref sig .scVector .vmem S10000 .f32).access (Rect.whole S10000)).read (Elt F) e) ![dv]
            (loadIdx (((mU1 : Memref sig .scVector .vmem S10000 .f32).access (Rect.whole S10000)).read (Elt F) u) ![sv] hs) (fun _ => 1#1) true hd) Finset.univ) : sProp 𝕄)
      = ((thr d L).loc bE1 ↦{fullShare} step u e sv dv) := by
  rw [show ((mE1 : Memref sig .scVector .vmem S10000 .f32).access (Rect.whole S10000)).set = Finset.univ from Memref.set_access_whole bE1,
    show ∀ w, ((mE1 : Memref sig .scVector .vmem S10000 .f32).access (Rect.whole S10000)).write (Elt F) e w Finset.univ = w from fun w => Memref.write_access_whole_univ (Elt F) bE1 e w,
    show ((mE1 : Memref sig .scVector .vmem S10000 .f32).access (Rect.whole S10000)).read (Elt F) e = e from Memref.read_access_whole (Elt F) bE1 e,
    show ((mU1 : Memref sig .scVector .vmem S10000 .f32).access (Rect.whole S10000)).read (Elt F) u = u from Memref.read_access_whole (Elt F) bU1 u,
    ← step_eq u e sv dv hs hd]

omit [FloatOps F] in
theorem pts_acc_E2 (d : Dev nD) (L : grid6.Coords) (f : Vec F S10000 .f32) :
    (((mE2 : Memref sig .scVector .vmem S10000 .f32).access (Rect.whole S10000)).loc (thr d L) ↦[((mE2 : Memref sig .scVector .vmem S10000 .f32).access (Rect.whole S10000)).set]{fullShare} f : sProp 𝕄)
      = ((thr d L).loc bE2 ↦{fullShare} f) := by
  rw [show ((mE2 : Memref sig .scVector .vmem S10000 .f32).access (Rect.whole S10000)).set = Finset.univ from Memref.set_access_whole bE2]

theorem acc_step_E2 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE2 : Memref sig .scVector .vmem S10000 .f32).access (Rect.whole S10000)).loc (thr d L) ↦[((mE2 : Memref sig .scVector .vmem S10000 .f32).access (Rect.whole S10000)).set]{fullShare}
        (((mE2 : Memref sig .scVector .vmem S10000 .f32).access (Rect.whole S10000)).write (Elt F) e
          (storeIdx (((mE2 : Memref sig .scVector .vmem S10000 .f32).access (Rect.whole S10000)).read (Elt F) e) ![dv]
            (loadIdx (((mU2 : Memref sig .scVector .vmem S10000 .f32).access (Rect.whole S10000)).read (Elt F) u) ![sv] hs) (fun _ => 1#1) true hd) Finset.univ) : sProp 𝕄)
      = ((thr d L).loc bE2 ↦{fullShare} step u e sv dv) := by
  rw [show ((mE2 : Memref sig .scVector .vmem S10000 .f32).access (Rect.whole S10000)).set = Finset.univ from Memref.set_access_whole bE2,
    show ∀ w, ((mE2 : Memref sig .scVector .vmem S10000 .f32).access (Rect.whole S10000)).write (Elt F) e w Finset.univ = w from fun w => Memref.write_access_whole_univ (Elt F) bE2 e w,
    show ((mE2 : Memref sig .scVector .vmem S10000 .f32).access (Rect.whole S10000)).read (Elt F) e = e from Memref.read_access_whole (Elt F) bE2 e,
    show ((mU2 : Memref sig .scVector .vmem S10000 .f32).access (Rect.whole S10000)).read (Elt F) u = u from Memref.read_access_whole (Elt F) bU2 u,
    ← step_eq u e sv dv hs hd]

omit [FloatOps F] in
theorem pts_acc_E3 (d : Dev nD) (L : grid6.Coords) (f : Vec F S10000 .f32) :
    (((mE3 : Memref sig .scVector .vmem S10000 .f32).access (Rect.whole S10000)).loc (thr d L) ↦[((mE3 : Memref sig .scVector .vmem S10000 .f32).access (Rect.whole S10000)).set]{fullShare} f : sProp 𝕄)
      = ((thr d L).loc bE3 ↦{fullShare} f) := by
  rw [show ((mE3 : Memref sig .scVector .vmem S10000 .f32).access (Rect.whole S10000)).set = Finset.univ from Memref.set_access_whole bE3]

theorem acc_step_E3 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mE3 : Memref sig .scVector .vmem S10000 .f32).access (Rect.whole S10000)).loc (thr d L) ↦[((mE3 : Memref sig .scVector .vmem S10000 .f32).access (Rect.whole S10000)).set]{fullShare}
        (((mE3 : Memref sig .scVector .vmem S10000 .f32).access (Rect.whole S10000)).write (Elt F) e
          (storeIdx (((mE3 : Memref sig .scVector .vmem S10000 .f32).access (Rect.whole S10000)).read (Elt F) e) ![dv]
            (loadIdx (((mU3 : Memref sig .scVector .vmem S10000 .f32).access (Rect.whole S10000)).read (Elt F) u) ![sv] hs) (fun _ => 1#1) true hd) Finset.univ) : sProp 𝕄)
      = ((thr d L).loc bE3 ↦{fullShare} step u e sv dv) := by
  rw [show ((mE3 : Memref sig .scVector .vmem S10000 .f32).access (Rect.whole S10000)).set = Finset.univ from Memref.set_access_whole bE3,
    show ∀ w, ((mE3 : Memref sig .scVector .vmem S10000 .f32).access (Rect.whole S10000)).write (Elt F) e w Finset.univ = w from fun w => Memref.write_access_whole_univ (Elt F) bE3 e w,
    show ((mE3 : Memref sig .scVector .vmem S10000 .f32).access (Rect.whole S10000)).read (Elt F) e = e from Memref.read_access_whole (Elt F) bE3 e,
    show ((mU3 : Memref sig .scVector .vmem S10000 .f32).access (Rect.whole S10000)).read (Elt F) u = u from Memref.read_access_whole (Elt F) bU3 u,
    ← step_eq u e sv dv hs hd]

omit [FloatOps F] in
theorem pts_acc_O0 (d : Dev nD) (L : grid6.Coords) (f : Vec F S10000 .f32) :
    (((mO0 : Memref sig .scVector .vmem S10000 .f32).access (Rect.whole S10000)).loc (thr d L) ↦[((mO0 : Memref sig .scVector .vmem S10000 .f32).access (Rect.whole S10000)).set]{fullShare} f : sProp 𝕄)
      = ((thr d L).loc bO0 ↦{fullShare} f) := by
  rw [show ((mO0 : Memref sig .scVector .vmem S10000 .f32).access (Rect.whole S10000)).set = Finset.univ from Memref.set_access_whole bO0]

theorem acc_step_O0 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO0 : Memref sig .scVector .vmem S10000 .f32).access (Rect.whole S10000)).loc (thr d L) ↦[((mO0 : Memref sig .scVector .vmem S10000 .f32).access (Rect.whole S10000)).set]{fullShare}
        (((mO0 : Memref sig .scVector .vmem S10000 .f32).access (Rect.whole S10000)).write (Elt F) e
          (storeIdx (((mO0 : Memref sig .scVector .vmem S10000 .f32).access (Rect.whole S10000)).read (Elt F) e) ![dv]
            (loadIdx (((mU0 : Memref sig .scVector .vmem S10000 .f32).access (Rect.whole S10000)).read (Elt F) u) ![sv] hs) (fun _ => 1#1) true hd) Finset.univ) : sProp 𝕄)
      = ((thr d L).loc bO0 ↦{fullShare} step u e sv dv) := by
  rw [show ((mO0 : Memref sig .scVector .vmem S10000 .f32).access (Rect.whole S10000)).set = Finset.univ from Memref.set_access_whole bO0,
    show ∀ w, ((mO0 : Memref sig .scVector .vmem S10000 .f32).access (Rect.whole S10000)).write (Elt F) e w Finset.univ = w from fun w => Memref.write_access_whole_univ (Elt F) bO0 e w,
    show ((mO0 : Memref sig .scVector .vmem S10000 .f32).access (Rect.whole S10000)).read (Elt F) e = e from Memref.read_access_whole (Elt F) bO0 e,
    show ((mU0 : Memref sig .scVector .vmem S10000 .f32).access (Rect.whole S10000)).read (Elt F) u = u from Memref.read_access_whole (Elt F) bU0 u,
    ← step_eq u e sv dv hs hd]

omit [FloatOps F] in
theorem pts_acc_O1 (d : Dev nD) (L : grid6.Coords) (f : Vec F S10000 .f32) :
    (((mO1 : Memref sig .scVector .vmem S10000 .f32).access (Rect.whole S10000)).loc (thr d L) ↦[((mO1 : Memref sig .scVector .vmem S10000 .f32).access (Rect.whole S10000)).set]{fullShare} f : sProp 𝕄)
      = ((thr d L).loc bO1 ↦{fullShare} f) := by
  rw [show ((mO1 : Memref sig .scVector .vmem S10000 .f32).access (Rect.whole S10000)).set = Finset.univ from Memref.set_access_whole bO1]

theorem acc_step_O1 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO1 : Memref sig .scVector .vmem S10000 .f32).access (Rect.whole S10000)).loc (thr d L) ↦[((mO1 : Memref sig .scVector .vmem S10000 .f32).access (Rect.whole S10000)).set]{fullShare}
        (((mO1 : Memref sig .scVector .vmem S10000 .f32).access (Rect.whole S10000)).write (Elt F) e
          (storeIdx (((mO1 : Memref sig .scVector .vmem S10000 .f32).access (Rect.whole S10000)).read (Elt F) e) ![dv]
            (loadIdx (((mU1 : Memref sig .scVector .vmem S10000 .f32).access (Rect.whole S10000)).read (Elt F) u) ![sv] hs) (fun _ => 1#1) true hd) Finset.univ) : sProp 𝕄)
      = ((thr d L).loc bO1 ↦{fullShare} step u e sv dv) := by
  rw [show ((mO1 : Memref sig .scVector .vmem S10000 .f32).access (Rect.whole S10000)).set = Finset.univ from Memref.set_access_whole bO1,
    show ∀ w, ((mO1 : Memref sig .scVector .vmem S10000 .f32).access (Rect.whole S10000)).write (Elt F) e w Finset.univ = w from fun w => Memref.write_access_whole_univ (Elt F) bO1 e w,
    show ((mO1 : Memref sig .scVector .vmem S10000 .f32).access (Rect.whole S10000)).read (Elt F) e = e from Memref.read_access_whole (Elt F) bO1 e,
    show ((mU1 : Memref sig .scVector .vmem S10000 .f32).access (Rect.whole S10000)).read (Elt F) u = u from Memref.read_access_whole (Elt F) bU1 u,
    ← step_eq u e sv dv hs hd]

omit [FloatOps F] in
theorem pts_acc_O2 (d : Dev nD) (L : grid6.Coords) (f : Vec F S10000 .f32) :
    (((mO2 : Memref sig .scVector .vmem S10000 .f32).access (Rect.whole S10000)).loc (thr d L) ↦[((mO2 : Memref sig .scVector .vmem S10000 .f32).access (Rect.whole S10000)).set]{fullShare} f : sProp 𝕄)
      = ((thr d L).loc bO2 ↦{fullShare} f) := by
  rw [show ((mO2 : Memref sig .scVector .vmem S10000 .f32).access (Rect.whole S10000)).set = Finset.univ from Memref.set_access_whole bO2]

theorem acc_step_O2 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO2 : Memref sig .scVector .vmem S10000 .f32).access (Rect.whole S10000)).loc (thr d L) ↦[((mO2 : Memref sig .scVector .vmem S10000 .f32).access (Rect.whole S10000)).set]{fullShare}
        (((mO2 : Memref sig .scVector .vmem S10000 .f32).access (Rect.whole S10000)).write (Elt F) e
          (storeIdx (((mO2 : Memref sig .scVector .vmem S10000 .f32).access (Rect.whole S10000)).read (Elt F) e) ![dv]
            (loadIdx (((mU2 : Memref sig .scVector .vmem S10000 .f32).access (Rect.whole S10000)).read (Elt F) u) ![sv] hs) (fun _ => 1#1) true hd) Finset.univ) : sProp 𝕄)
      = ((thr d L).loc bO2 ↦{fullShare} step u e sv dv) := by
  rw [show ((mO2 : Memref sig .scVector .vmem S10000 .f32).access (Rect.whole S10000)).set = Finset.univ from Memref.set_access_whole bO2,
    show ∀ w, ((mO2 : Memref sig .scVector .vmem S10000 .f32).access (Rect.whole S10000)).write (Elt F) e w Finset.univ = w from fun w => Memref.write_access_whole_univ (Elt F) bO2 e w,
    show ((mO2 : Memref sig .scVector .vmem S10000 .f32).access (Rect.whole S10000)).read (Elt F) e = e from Memref.read_access_whole (Elt F) bO2 e,
    show ((mU2 : Memref sig .scVector .vmem S10000 .f32).access (Rect.whole S10000)).read (Elt F) u = u from Memref.read_access_whole (Elt F) bU2 u,
    ← step_eq u e sv dv hs hd]

omit [FloatOps F] in
theorem pts_acc_O3 (d : Dev nD) (L : grid6.Coords) (f : Vec F S10000 .f32) :
    (((mO3 : Memref sig .scVector .vmem S10000 .f32).access (Rect.whole S10000)).loc (thr d L) ↦[((mO3 : Memref sig .scVector .vmem S10000 .f32).access (Rect.whole S10000)).set]{fullShare} f : sProp 𝕄)
      = ((thr d L).loc bO3 ↦{fullShare} f) := by
  rw [show ((mO3 : Memref sig .scVector .vmem S10000 .f32).access (Rect.whole S10000)).set = Finset.univ from Memref.set_access_whole bO3]

theorem acc_step_O3 (d : Dev nD) (L : grid6.Coords) (u e : Vec F S10000 .f32) (sv dv : IVec S16 32)
    (hs : ∀ a x, ((![sv] : Fin 1 → IVec S16 32) a x).toNat < S10000.size a)
    (hd : ∀ a x, ((![dv] : Fin 1 → IVec S16 32) a x).toNat < S10000.size a) :
    (((mO3 : Memref sig .scVector .vmem S10000 .f32).access (Rect.whole S10000)).loc (thr d L) ↦[((mO3 : Memref sig .scVector .vmem S10000 .f32).access (Rect.whole S10000)).set]{fullShare}
        (((mO3 : Memref sig .scVector .vmem S10000 .f32).access (Rect.whole S10000)).write (Elt F) e
          (storeIdx (((mO3 : Memref sig .scVector .vmem S10000 .f32).access (Rect.whole S10000)).read (Elt F) e) ![dv]
            (loadIdx (((mU3 : Memref sig .scVector .vmem S10000 .f32).access (Rect.whole S10000)).read (Elt F) u) ![sv] hs) (fun _ => 1#1) true hd) Finset.univ) : sProp 𝕄)
      = ((thr d L).loc bO3 ↦{fullShare} step u e sv dv) := by
  rw [show ((mO3 : Memref sig .scVector .vmem S10000 .f32).access (Rect.whole S10000)).set = Finset.univ from Memref.set_access_whole bO3,
    show ∀ w, ((mO3 : Memref sig .scVector .vmem S10000 .f32).access (Rect.whole S10000)).write (Elt F) e w Finset.univ = w from fun w => Memref.write_access_whole_univ (Elt F) bO3 e w,
    show ((mO3 : Memref sig .scVector .vmem S10000 .f32).access (Rect.whole S10000)).read (Elt F) e = e from Memref.read_access_whole (Elt F) bO3 e,
    show ((mU3 : Memref sig .scVector .vmem S10000 .f32).access (Rect.whole S10000)).read (Elt F) u = u from Memref.read_access_whole (Elt F) bU3 u,
    ← step_eq u e sv dv hs hd]

omit [FloatOps F] in
theorem pts_view_U0 (d : Dev nD) (L : grid6.Coords) (f : Vec F S10000 .f32) :
    ((mU0 : Memref sig .scVector .vmem S10000 .f32).view.loc (thr d L) ↦{fullShare} f : sProp 𝕄) = ((thr d L).loc bU0 ↦{fullShare} f) := rfl
omit [FloatOps F] in
theorem pts_view_U1 (d : Dev nD) (L : grid6.Coords) (f : Vec F S10000 .f32) :
    ((mU1 : Memref sig .scVector .vmem S10000 .f32).view.loc (thr d L) ↦{fullShare} f : sProp 𝕄) = ((thr d L).loc bU1 ↦{fullShare} f) := rfl
omit [FloatOps F] in
theorem pts_view_U2 (d : Dev nD) (L : grid6.Coords) (f : Vec F S10000 .f32) :
    ((mU2 : Memref sig .scVector .vmem S10000 .f32).view.loc (thr d L) ↦{fullShare} f : sProp 𝕄) = ((thr d L).loc bU2 ↦{fullShare} f) := rfl
omit [FloatOps F] in
theorem pts_view_U3 (d : Dev nD) (L : grid6.Coords) (f : Vec F S10000 .f32) :
    ((mU3 : Memref sig .scVector .vmem S10000 .f32).view.loc (thr d L) ↦{fullShare} f : sProp 𝕄) = ((thr d L).loc bU3 ↦{fullShare} f) := rfl
omit [FloatOps F] in
theorem pts_view_E0 (d : Dev nD) (L : grid6.Coords) (f : Vec F S10000 .f32) :
    ((mE0 : Memref sig .scVector .vmem S10000 .f32).view.loc (thr d L) ↦{fullShare} f : sProp 𝕄) = ((thr d L).loc bE0 ↦{fullShare} f) := rfl
omit [FloatOps F] in
theorem pts_view_E1 (d : Dev nD) (L : grid6.Coords) (f : Vec F S10000 .f32) :
    ((mE1 : Memref sig .scVector .vmem S10000 .f32).view.loc (thr d L) ↦{fullShare} f : sProp 𝕄) = ((thr d L).loc bE1 ↦{fullShare} f) := rfl
omit [FloatOps F] in
theorem pts_view_E2 (d : Dev nD) (L : grid6.Coords) (f : Vec F S10000 .f32) :
    ((mE2 : Memref sig .scVector .vmem S10000 .f32).view.loc (thr d L) ↦{fullShare} f : sProp 𝕄) = ((thr d L).loc bE2 ↦{fullShare} f) := rfl
omit [FloatOps F] in
theorem pts_view_E3 (d : Dev nD) (L : grid6.Coords) (f : Vec F S10000 .f32) :
    ((mE3 : Memref sig .scVector .vmem S10000 .f32).view.loc (thr d L) ↦{fullShare} f : sProp 𝕄) = ((thr d L).loc bE3 ↦{fullShare} f) := rfl
omit [FloatOps F] in
theorem pts_view_Sa (d : Dev nD) (L : grid6.Coords) (f : IVec S1600 32) :
    ((mSa : Memref sig .scVector .vmem S1600 .i32).view.loc (thr d L) ↦{fullShare} f : sProp 𝕄) = ((thr d L).loc bSa ↦{fullShare} f) := rfl
omit [FloatOps F] in
theorem pts_view_Da (d : Dev nD) (L : grid6.Coords) (f : IVec S1600 32) :
    ((mDa : Memref sig .scVector .vmem S1600 .i32).view.loc (thr d L) ↦{fullShare} f : sProp 𝕄) = ((thr d L).loc bDa ↦{fullShare} f) := rfl
omit [FloatOps F] in
theorem pts_view_Sb (d : Dev nD) (L : grid6.Coords) (f : IVec S1600 32) :
    ((mSb : Memref sig .scVector .vmem S1600 .i32).view.loc (thr d L) ↦{fullShare} f : sProp 𝕄) = ((thr d L).loc bSb ↦{fullShare} f) := rfl
omit [FloatOps F] in
theorem pts_view_Db (d : Dev nD) (L : grid6.Coords) (f : IVec S1600 32) :
    ((mDb : Memref sig .scVector .vmem S1600 .i32).view.loc (thr d L) ↦{fullShare} f : sProp 𝕄) = ((thr d L).loc bDb ↦{fullShare} f) := rfl
omit [FloatOps F] in
theorem pts_view_U (d : Dev nD) (L : grid6.Coords) (q : PosShare TreeShare) (f : Vec F S1280000 .f32) :
    ((mU : Memref sig .scVector .hbm S1280000 .f32).view.loc (thr d L) ↦{q} f : sProp 𝕄) = (tcLoc d main_v19 ↦{q} f) := rfl
omit [FloatOps F] in
theorem pts_view_S (d : Dev nD) (L : grid6.Coords) (q : PosShare TreeShare) (f : IVec S320000 32) :
    ((mS : Memref sig .scVector .hbm S320000 .i32).view.loc (thr d L) ↦{q} f : sProp 𝕄) = (tcLoc d main_v1 ↦{q} f) := rfl
omit [FloatOps F] in
theorem pts_view_D (d : Dev nD) (L : grid6.Coords) (q : PosShare TreeShare) (f : IVec S320000 32) :
    ((mD : Memref sig .scVector .hbm S320000 .i32).view.loc (thr d L) ↦{q} f : sProp 𝕄) = (tcLoc d main_v3 ↦{q} f) := rfl

def trip3Inv (d : Dev nD) (L : grid6.Coords) (src dst : IVec ShE 32) (jc : Nat) (sv dv : IVec S1600 32)
    (u : Fin 4 → Vec F S10000 .f32) (st : Fin 4 → Acc F) (n : Nat) (_ : Unit) : sProp 𝕄 :=
  iprop(((thr d L).loc bSa ↦{fullShare} sv) ∗ ((thr d L).loc bDa ↦{fullShare} dv)
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (pairsN (u 0) src dst jc (st 0) n).1) ∗ ((thr d L).loc bE1 ↦{fullShare} (pairsN (u 1) src dst jc (st 1) n).1)
    ∗ ((thr d L).loc bE2 ↦{fullShare} (pairsN (u 2) src dst jc (st 2) n).1) ∗ ((thr d L).loc bE3 ↦{fullShare} (pairsN (u 3) src dst jc (st 3) n).1)
    ∗ ((thr d L).loc bO0 ↦{fullShare} (pairsN (u 0) src dst jc (st 0) n).2) ∗ ((thr d L).loc bO1 ↦{fullShare} (pairsN (u 1) src dst jc (st 1) n).2)
    ∗ ((thr d L).loc bO2 ↦{fullShare} (pairsN (u 2) src dst jc (st 2) n).2) ∗ ((thr d L).loc bO3 ↦{fullShare} (pairsN (u 3) src dst jc (st 3) n).2))

abbrev trip3Body (L : grid6.Coords) (v1 : BitVec 32) := k6_t3_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc6_scoped0 cc6_scoped1 cc6_scoped2 cc6_scoped3 v1

theorem trip3 (d : Dev nD) (L : grid6.Coords) (v1 : BitVec 32) (src dst : IVec ShE 32)
    (hsrc : ∀ x, (src x).toNat < 10000) (hdst : ∀ x, (dst x).toNat < 10000) (jc : Nat)
    (sv dv : IVec S1600 32) (hsv : HoldsChunk src jc sv) (hdv : HoldsChunk dst jc dv)
    (u : Fin 4 → Vec F S10000 .f32) (st : Fin 4 → Acc F) :
    ∀ (p : Fin k6_t3_loop.trips) (acc : Unit), trip3Inv d L src dst jc sv dv u st p.val acc
      ⊢ wp frame (wpE (defs₀ (F := F)) 𝒱₀ (thr d L) none) Set.univ (trip3Body (F := F) L v1 p acc) (trip3Inv d L src dst jc sv dv u st (p.val + 1)) := by
  intro p acc
  unfold trip3Inv trip3Body k6_t3_body
  simp only [Prog.lift, Prog.bind_op, Prog.bind_ret, Prog.pure_eq_ret]
  iintro ⟨Hsv, Hdv, Hu0, Hu1, Hu2, Hu3, HE0, HE1, HE2, HE3, HO0, HO1, HO2, HO3⟩
  iapply (wp_load 𝒱₀ (thr d L) none Set.univ (m := (mSa : Memref sig .scVector .vmem S1600 .i32)) (S := Finset.univ) (Finset.subset_univ _)) $$ Hsv; iintro Hsv
  rw [load_Sa (F := F) src jc sv hsv _ _ (k6_off5_eq p)]
  rw [wp_assume_of _ _ _ _ (show k6_chk1 _ from ⟨vec16_inRange hsrc _, vec16_inRange hsrc _, vec16_inRange hsrc _, vec16_inRange hsrc _⟩)]
  iapply (wp_load 𝒱₀ (thr d L) none Set.univ (m := (mDa : Memref sig .scVector .vmem S1600 .i32)) (S := Finset.univ) (Finset.subset_univ _)) $$ Hdv; iintro Hdv
  rw [load_Da (F := F) dst jc dv hdv _ _ (k6_off5_eq p)]
  rw [wp_assume_of _ _ _ _ (show k6_chk2 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HE0' := (Entails.of_eq (pts_acc_E0 (F := F) d L _).symm) $$ HE0
  iapply (SparseCore.wp_vectorStoreIdx 𝒱₀ (thr d L) none Set.univ (base := (mE0 : Memref sig .scVector .vmem S10000 .f32))) $$ HE0'; iintro HE0'
  ihave HE0 := (Entails.of_eq (acc_step_E0 (F := F) d L _ _ _ _ _ _)) $$ HE0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HE1' := (Entails.of_eq (pts_acc_E1 (F := F) d L _).symm) $$ HE1
  iapply (SparseCore.wp_vectorStoreIdx 𝒱₀ (thr d L) none Set.univ (base := (mE1 : Memref sig .scVector .vmem S10000 .f32))) $$ HE1'; iintro HE1'
  ihave HE1 := (Entails.of_eq (acc_step_E1 (F := F) d L _ _ _ _ _ _)) $$ HE1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HE2' := (Entails.of_eq (pts_acc_E2 (F := F) d L _).symm) $$ HE2
  iapply (SparseCore.wp_vectorStoreIdx 𝒱₀ (thr d L) none Set.univ (base := (mE2 : Memref sig .scVector .vmem S10000 .f32))) $$ HE2'; iintro HE2'
  ihave HE2 := (Entails.of_eq (acc_step_E2 (F := F) d L _ _ _ _ _ _)) $$ HE2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HE3' := (Entails.of_eq (pts_acc_E3 (F := F) d L _).symm) $$ HE3
  iapply (SparseCore.wp_vectorStoreIdx 𝒱₀ (thr d L) none Set.univ (base := (mE3 : Memref sig .scVector .vmem S10000 .f32))) $$ HE3'; iintro HE3'
  ihave HE3 := (Entails.of_eq (acc_step_E3 (F := F) d L _ _ _ _ _ _)) $$ HE3'
  iapply (wp_load 𝒱₀ (thr d L) none Set.univ (m := (mSa : Memref sig .scVector .vmem S1600 .i32)) (S := Finset.univ) (Finset.subset_univ _)) $$ Hsv; iintro Hsv
  rw [load_Sa (F := F) src jc sv hsv _ _ (k6_off6_eq p)]
  rw [wp_assume_of _ _ _ _ (show k6_chk3 _ from ⟨vec16_inRange hsrc _, vec16_inRange hsrc _, vec16_inRange hsrc _, vec16_inRange hsrc _⟩)]
  iapply (wp_load 𝒱₀ (thr d L) none Set.univ (m := (mDa : Memref sig .scVector .vmem S1600 .i32)) (S := Finset.univ) (Finset.subset_univ _)) $$ Hdv; iintro Hdv
  rw [load_Da (F := F) dst jc dv hdv _ _ (k6_off6_eq p)]
  rw [wp_assume_of _ _ _ _ (show k6_chk4 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HO0' := (Entails.of_eq (pts_acc_O0 (F := F) d L _).symm) $$ HO0
  iapply (SparseCore.wp_vectorStoreIdx 𝒱₀ (thr d L) none Set.univ (base := (mO0 : Memref sig .scVector .vmem S10000 .f32))) $$ HO0'; iintro HO0'
  ihave HO0 := (Entails.of_eq (acc_step_O0 (F := F) d L _ _ _ _ _ _)) $$ HO0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HO1' := (Entails.of_eq (pts_acc_O1 (F := F) d L _).symm) $$ HO1
  iapply (SparseCore.wp_vectorStoreIdx 𝒱₀ (thr d L) none Set.univ (base := (mO1 : Memref sig .scVector .vmem S10000 .f32))) $$ HO1'; iintro HO1'
  ihave HO1 := (Entails.of_eq (acc_step_O1 (F := F) d L _ _ _ _ _ _)) $$ HO1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HO2' := (Entails.of_eq (pts_acc_O2 (F := F) d L _).symm) $$ HO2
  iapply (SparseCore.wp_vectorStoreIdx 𝒱₀ (thr d L) none Set.univ (base := (mO2 : Memref sig .scVector .vmem S10000 .f32))) $$ HO2'; iintro HO2'
  ihave HO2 := (Entails.of_eq (acc_step_O2 (F := F) d L _ _ _ _ _ _)) $$ HO2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HO3' := (Entails.of_eq (pts_acc_O3 (F := F) d L _).symm) $$ HO3
  iapply (SparseCore.wp_vectorStoreIdx 𝒱₀ (thr d L) none Set.univ (base := (mO3 : Memref sig .scVector .vmem S10000 .f32))) $$ HO3'; iintro HO3'
  ihave HO3 := (Entails.of_eq (acc_step_O3 (F := F) d L _ _ _ _ _ _)) $$ HO3'
  sl_step
  isplitl [Hsv]; · iexact Hsv
  isplitl [Hdv]; · iexact Hdv
  isplitl [Hu0]; · iexact Hu0
  isplitl [Hu1]; · iexact Hu1
  isplitl [Hu2]; · iexact Hu2
  isplitl [Hu3]; · iexact Hu3
  isplitl [HE0]; · iexact HE0
  isplitl [HE1]; · iexact HE1
  isplitl [HE2]; · iexact HE2
  isplitl [HE3]; · iexact HE3
  isplitl [HO0]; · iexact HO0
  isplitl [HO1]; · iexact HO1
  isplitl [HO2]; · iexact HO2
  iexact HO3

def trip4Inv (d : Dev nD) (L : grid6.Coords) (src dst : IVec ShE 32) (jc : Nat) (sv dv : IVec S1600 32)
    (u : Fin 4 → Vec F S10000 .f32) (st : Fin 4 → Acc F) (n : Nat) (_ : Unit) : sProp 𝕄 :=
  iprop(((thr d L).loc bSb ↦{fullShare} sv) ∗ ((thr d L).loc bDb ↦{fullShare} dv)
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (pairsN (u 0) src dst jc (st 0) n).1) ∗ ((thr d L).loc bE1 ↦{fullShare} (pairsN (u 1) src dst jc (st 1) n).1)
    ∗ ((thr d L).loc bE2 ↦{fullShare} (pairsN (u 2) src dst jc (st 2) n).1) ∗ ((thr d L).loc bE3 ↦{fullShare} (pairsN (u 3) src dst jc (st 3) n).1)
    ∗ ((thr d L).loc bO0 ↦{fullShare} (pairsN (u 0) src dst jc (st 0) n).2) ∗ ((thr d L).loc bO1 ↦{fullShare} (pairsN (u 1) src dst jc (st 1) n).2)
    ∗ ((thr d L).loc bO2 ↦{fullShare} (pairsN (u 2) src dst jc (st 2) n).2) ∗ ((thr d L).loc bO3 ↦{fullShare} (pairsN (u 3) src dst jc (st 3) n).2))

abbrev trip4Body (L : grid6.Coords) (v1 : BitVec 32) := k6_t4_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc6_scoped0 cc6_scoped1 cc6_scoped2 cc6_scoped3 v1

theorem trip4 (d : Dev nD) (L : grid6.Coords) (v1 : BitVec 32) (src dst : IVec ShE 32)
    (hsrc : ∀ x, (src x).toNat < 10000) (hdst : ∀ x, (dst x).toNat < 10000) (jc : Nat)
    (sv dv : IVec S1600 32) (hsv : HoldsChunk src jc sv) (hdv : HoldsChunk dst jc dv)
    (u : Fin 4 → Vec F S10000 .f32) (st : Fin 4 → Acc F) :
    ∀ (p : Fin k6_t4_loop.trips) (acc : Unit), trip4Inv d L src dst jc sv dv u st p.val acc
      ⊢ wp frame (wpE (defs₀ (F := F)) 𝒱₀ (thr d L) none) Set.univ (trip4Body (F := F) L v1 p acc) (trip4Inv d L src dst jc sv dv u st (p.val + 1)) := by
  intro p acc
  unfold trip4Inv trip4Body k6_t4_body
  simp only [Prog.lift, Prog.bind_op, Prog.bind_ret, Prog.pure_eq_ret]
  iintro ⟨Hsv, Hdv, Hu0, Hu1, Hu2, Hu3, HE0, HE1, HE2, HE3, HO0, HO1, HO2, HO3⟩
  iapply (wp_load 𝒱₀ (thr d L) none Set.univ (m := (mSb : Memref sig .scVector .vmem S1600 .i32)) (S := Finset.univ) (Finset.subset_univ _)) $$ Hsv; iintro Hsv
  rw [load_Sb (F := F) src jc sv hsv _ _ (k6_off8_eq p)]
  rw [wp_assume_of _ _ _ _ (show k6_chk5 _ from ⟨vec16_inRange hsrc _, vec16_inRange hsrc _, vec16_inRange hsrc _, vec16_inRange hsrc _⟩)]
  iapply (wp_load 𝒱₀ (thr d L) none Set.univ (m := (mDb : Memref sig .scVector .vmem S1600 .i32)) (S := Finset.univ) (Finset.subset_univ _)) $$ Hdv; iintro Hdv
  rw [load_Db (F := F) dst jc dv hdv _ _ (k6_off8_eq p)]
  rw [wp_assume_of _ _ _ _ (show k6_chk6 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HE0' := (Entails.of_eq (pts_acc_E0 (F := F) d L _).symm) $$ HE0
  iapply (SparseCore.wp_vectorStoreIdx 𝒱₀ (thr d L) none Set.univ (base := (mE0 : Memref sig .scVector .vmem S10000 .f32))) $$ HE0'; iintro HE0'
  ihave HE0 := (Entails.of_eq (acc_step_E0 (F := F) d L _ _ _ _ _ _)) $$ HE0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HE1' := (Entails.of_eq (pts_acc_E1 (F := F) d L _).symm) $$ HE1
  iapply (SparseCore.wp_vectorStoreIdx 𝒱₀ (thr d L) none Set.univ (base := (mE1 : Memref sig .scVector .vmem S10000 .f32))) $$ HE1'; iintro HE1'
  ihave HE1 := (Entails.of_eq (acc_step_E1 (F := F) d L _ _ _ _ _ _)) $$ HE1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HE2' := (Entails.of_eq (pts_acc_E2 (F := F) d L _).symm) $$ HE2
  iapply (SparseCore.wp_vectorStoreIdx 𝒱₀ (thr d L) none Set.univ (base := (mE2 : Memref sig .scVector .vmem S10000 .f32))) $$ HE2'; iintro HE2'
  ihave HE2 := (Entails.of_eq (acc_step_E2 (F := F) d L _ _ _ _ _ _)) $$ HE2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HE3' := (Entails.of_eq (pts_acc_E3 (F := F) d L _).symm) $$ HE3
  iapply (SparseCore.wp_vectorStoreIdx 𝒱₀ (thr d L) none Set.univ (base := (mE3 : Memref sig .scVector .vmem S10000 .f32))) $$ HE3'; iintro HE3'
  ihave HE3 := (Entails.of_eq (acc_step_E3 (F := F) d L _ _ _ _ _ _)) $$ HE3'
  iapply (wp_load 𝒱₀ (thr d L) none Set.univ (m := (mSb : Memref sig .scVector .vmem S1600 .i32)) (S := Finset.univ) (Finset.subset_univ _)) $$ Hsv; iintro Hsv
  rw [load_Sb (F := F) src jc sv hsv _ _ (k6_off9_eq p)]
  rw [wp_assume_of _ _ _ _ (show k6_chk7 _ from ⟨vec16_inRange hsrc _, vec16_inRange hsrc _, vec16_inRange hsrc _, vec16_inRange hsrc _⟩)]
  iapply (wp_load 𝒱₀ (thr d L) none Set.univ (m := (mDb : Memref sig .scVector .vmem S1600 .i32)) (S := Finset.univ) (Finset.subset_univ _)) $$ Hdv; iintro Hdv
  rw [load_Db (F := F) dst jc dv hdv _ _ (k6_off9_eq p)]
  rw [wp_assume_of _ _ _ _ (show k6_chk8 _ from ⟨vec16_inRange hdst _, vec16_inRange hdst _, vec16_inRange hdst _, vec16_inRange hdst _⟩)]
  iapply (SparseCore.wp_vectorLoadIdx 𝒱₀ (thr d L) none Set.univ (base := (mU0 : Memref sig .scVector .vmem S10000 .f32)) (S := Finset.univ) (q := fullShare) (Finset.subset_univ _)) $$ Hu0; iintro Hu0
  ihave HO0' := (Entails.of_eq (pts_acc_O0 (F := F) d L _).symm) $$ HO0
  iapply (SparseCore.wp_vectorStoreIdx 𝒱₀ (thr d L) none Set.univ (base := (mO0 : Memref sig .scVector .vmem S10000 .f32))) $$ HO0'; iintro HO0'
  ihave HO0 := (Entails.of_eq (acc_step_O0 (F := F) d L _ _ _ _ _ _)) $$ HO0'
  iapply (SparseCore.wp_vectorLoadIdx 𝒱₀ (thr d L) none Set.univ (base := (mU1 : Memref sig .scVector .vmem S10000 .f32)) (S := Finset.univ) (q := fullShare) (Finset.subset_univ _)) $$ Hu1; iintro Hu1
  ihave HO1' := (Entails.of_eq (pts_acc_O1 (F := F) d L _).symm) $$ HO1
  iapply (SparseCore.wp_vectorStoreIdx 𝒱₀ (thr d L) none Set.univ (base := (mO1 : Memref sig .scVector .vmem S10000 .f32))) $$ HO1'; iintro HO1'
  ihave HO1 := (Entails.of_eq (acc_step_O1 (F := F) d L _ _ _ _ _ _)) $$ HO1'
  iapply (SparseCore.wp_vectorLoadIdx 𝒱₀ (thr d L) none Set.univ (base := (mU2 : Memref sig .scVector .vmem S10000 .f32)) (S := Finset.univ) (q := fullShare) (Finset.subset_univ _)) $$ Hu2; iintro Hu2
  ihave HO2' := (Entails.of_eq (pts_acc_O2 (F := F) d L _).symm) $$ HO2
  iapply (SparseCore.wp_vectorStoreIdx 𝒱₀ (thr d L) none Set.univ (base := (mO2 : Memref sig .scVector .vmem S10000 .f32))) $$ HO2'; iintro HO2'
  ihave HO2 := (Entails.of_eq (acc_step_O2 (F := F) d L _ _ _ _ _ _)) $$ HO2'
  iapply (SparseCore.wp_vectorLoadIdx 𝒱₀ (thr d L) none Set.univ (base := (mU3 : Memref sig .scVector .vmem S10000 .f32)) (S := Finset.univ) (q := fullShare) (Finset.subset_univ _)) $$ Hu3; iintro Hu3
  ihave HO3' := (Entails.of_eq (pts_acc_O3 (F := F) d L _).symm) $$ HO3
  iapply (SparseCore.wp_vectorStoreIdx 𝒱₀ (thr d L) none Set.univ (base := (mO3 : Memref sig .scVector .vmem S10000 .f32))) $$ HO3'; iintro HO3'
  ihave HO3 := (Entails.of_eq (acc_step_O3 (F := F) d L _ _ _ _ _ _)) $$ HO3'
  sl_step
  isplitl [Hsv]; · iexact Hsv
  isplitl [Hdv]; · iexact Hdv
  isplitl [Hu0]; · iexact Hu0
  isplitl [Hu1]; · iexact Hu1
  isplitl [Hu2]; · iexact Hu2
  isplitl [Hu3]; · iexact Hu3
  isplitl [HE0]; · iexact HE0
  isplitl [HE1]; · iexact HE1
  isplitl [HE2]; · iexact HE2
  isplitl [HE3]; · iexact HE3
  isplitl [HO0]; · iexact HO0
  isplitl [HO1]; · iexact HO1
  isplitl [HO2]; · iexact HO2
  iexact HO3

abbrev sSl (off : Fin 1 → Nat) (inb : ∀ a, off a + S1600.size a ≤ S320000.size a) : Memref sig .scVector .hbm S1600 .i32 :=
  mS.slice (Rect.unit (s := S320000) off S1600.size inb) (fun _ => rfl)
abbrev dSl (off : Fin 1 → Nat) (inb : ∀ a, off a + S1600.size a ≤ S320000.size a) : Memref sig .scVector .hbm S1600 .i32 :=
  mD.slice (Rect.unit (s := S320000) off S1600.size inb) (fun _ => rfl)

abbrev NU : ℕ := (mU0 : Memref sig .scVector .vmem S10000 .f32).view.amount (SemLoc.dma (sig := sig) semU.sem)
abbrev NA : ℕ := (mSa : Memref sig .scVector .vmem S1600 .i32).view.amount (SemLoc.dma (sig := sig) semA.sem)
abbrev NB : ℕ := (mSb : Memref sig .scVector .vmem S1600 .i32).view.amount (SemLoc.dma (sig := sig) semB.sem)

abbrev landed {sD : Shape} {eD : EltTy} (c : Thread nD τ) (dstm : Memref sig c.2.kind .vmem sD eD) (srcm : Memref sig c.2.kind .hbm sD eD)
    (fs : Buf (Elt F) (srcm.view.loc c)) (fd : Buf (Elt F) (dstm.view.loc c)) : Buf (Elt F) (dstm.view.loc c) :=
  dstm.view.write (Elt F) fd (ReadAs.same.apply (srcm.view.read (Elt F) fs)) Finset.univ

def DAat (d : Dev nD) (L : grid6.Coords) (q : PosShare TreeShare) (srcA dstA : IVec S320000 32)
    (off : Fin 1 → Nat) (inb : ∀ a, off a + S1600.size a ≤ S320000.size a) (g0 g1 : IVec S1600 32) : Fin 2 → sProp 𝕄 :=
  fun t => match t with
    | ⟨0, _⟩ => iprop(((mSa : Memref sig .scVector .vmem S1600 .i32).view.loc (thr d L) ↦{fullShare} landed (F := F) (thr d L) mSa (sSl off inb) srcA g0)
        ∗ ((sSl off inb).view.loc (thr d L) ↦[(sSl off inb).view.set]{q} srcA))
    | ⟨1, _⟩ => iprop(((mDa : Memref sig .scVector .vmem S1600 .i32).view.loc (thr d L) ↦{fullShare} landed (F := F) (thr d L) mDa (dSl off inb) dstA g1)
        ∗ ((dSl off inb).view.loc (thr d L) ↦[(dSl off inb).view.set]{q} dstA))

omit [FloatOps F] in
instance DAat_storable (d : Dev nD) (L : grid6.Coords) (q : PosShare TreeShare) (srcA dstA : IVec S320000 32)
    (off : Fin 1 → Nat) (inb : ∀ a, off a + S1600.size a ≤ S320000.size a) (g0 g1 : IVec S1600 32) (t : Fin 2) :
    Storable (upEmb : UEmb _ 𝕄) (DAat (F := F) d L q srcA dstA off inb g0 g1 t) := by
  unfold DAat
  match t with
  | ⟨0, _⟩ => infer_instance
  | ⟨1, _⟩ => infer_instance

omit [FloatOps F] in
theorem DAat_congr (d : Dev nD) (L : grid6.Coords) (q : PosShare TreeShare) (srcA dstA : IVec S320000 32)
    {off off' : Fin 1 → Nat} (h : off = off') (inb : ∀ a, off a + S1600.size a ≤ S320000.size a) (inb' : ∀ a, off' a + S1600.size a ≤ S320000.size a)
    (g0 g1 : IVec S1600 32) : DAat (F := F) d L q srcA dstA off inb g0 g1 = DAat d L q srcA dstA off' inb' g0 g1 := by
  subst h; rfl

def DBat (d : Dev nD) (L : grid6.Coords) (q : PosShare TreeShare) (srcA dstA : IVec S320000 32)
    (off : Fin 1 → Nat) (inb : ∀ a, off a + S1600.size a ≤ S320000.size a) (g0 g1 : IVec S1600 32) : Fin 2 → sProp 𝕄 :=
  fun t => match t with
    | ⟨0, _⟩ => iprop(((mSb : Memref sig .scVector .vmem S1600 .i32).view.loc (thr d L) ↦{fullShare} landed (F := F) (thr d L) mSb (sSl off inb) srcA g0)
        ∗ ((sSl off inb).view.loc (thr d L) ↦[(sSl off inb).view.set]{q} srcA))
    | ⟨1, _⟩ => iprop(((mDb : Memref sig .scVector .vmem S1600 .i32).view.loc (thr d L) ↦{fullShare} landed (F := F) (thr d L) mDb (dSl off inb) dstA g1)
        ∗ ((dSl off inb).view.loc (thr d L) ↦[(dSl off inb).view.set]{q} dstA))

omit [FloatOps F] in
instance DBat_storable (d : Dev nD) (L : grid6.Coords) (q : PosShare TreeShare) (srcA dstA : IVec S320000 32)
    (off : Fin 1 → Nat) (inb : ∀ a, off a + S1600.size a ≤ S320000.size a) (g0 g1 : IVec S1600 32) (t : Fin 2) :
    Storable (upEmb : UEmb _ 𝕄) (DBat (F := F) d L q srcA dstA off inb g0 g1 t) := by
  unfold DBat
  match t with
  | ⟨0, _⟩ => infer_instance
  | ⟨1, _⟩ => infer_instance

def sRest (off : Fin 1 → Nat) (inb : ∀ a, off a + S1600.size a ≤ S320000.size a) : Finset S320000.Idx := Finset.univ \ (sSl off inb).view.set
def dRest (off : Fin 1 → Nat) (inb : ∀ a, off a + S1600.size a ≤ S320000.size a) : Finset S320000.Idx := Finset.univ \ (dSl off inb).view.set

omit [FloatOps F] in
theorem sRest_congr {off off' : Fin 1 → Nat} (h : off = off') (inb : ∀ a, off a + S1600.size a ≤ S320000.size a) (inb' : ∀ a, off' a + S1600.size a ≤ S320000.size a) :
    sRest off inb = sRest off' inb' := by subst h; rfl
omit [FloatOps F] in
theorem dRest_congr {off off' : Fin 1 → Nat} (h : off = off') (inb : ∀ a, off a + S1600.size a ≤ S320000.size a) (inb' : ∀ a, off' a + S1600.size a ≤ S320000.size a) :
    dRest off inb = dRest off' inb' := by subst h; rfl

omit [FloatOps F] in
theorem pts_sRest (d : Dev nD) (L : grid6.Coords) (q : PosShare TreeShare) (f : IVec S320000 32) (off : Fin 1 → Nat) (inb : ∀ a, off a + S1600.size a ≤ S320000.size a) :
    ((mS : Memref sig .scVector .hbm S320000 .i32).view.loc (thr d L) ↦[Finset.univ \ (sSl off inb).view.set]{q} f : sProp 𝕄) = (tcLoc d main_v1 ↦[sRest off inb]{q} f) := rfl
omit [FloatOps F] in
theorem pts_dRest (d : Dev nD) (L : grid6.Coords) (q : PosShare TreeShare) (f : IVec S320000 32) (off : Fin 1 → Nat) (inb : ∀ a, off a + S1600.size a ≤ S320000.size a) :
    ((mD : Memref sig .scVector .hbm S320000 .i32).view.loc (thr d L) ↦[Finset.univ \ (dSl off inb).view.set]{q} f : sProp 𝕄) = (tcLoc d main_v3 ↦[dRest off inb]{q} f) := rfl

omit [FloatOps F] in

def aside (P : sProp 𝕄) : sProp 𝕄 := P
omit [FloatOps F] in
theorem aside_eq (P : sProp 𝕄) : aside P = P := rfl

omit [FloatOps F] in
theorem chunk_word (t : IVec S320000 32) (jc : Nat) (inb : ∀ a, (![1600 * jc] : Fin 1 → Nat) a + S1600.size a ≤ S320000.size a) (j : S1600.Idx) :
    t ((Rect.unit (s := S320000) ![1600 * jc] S1600.size inb).emb j) = wordAt t (1600 * jc + (j 0).val) := by
  have hlt : 1600 * jc + (j 0).val < 320000 := by
    have h1 := inb 0
    have h2 := (j 0).isLt
    simp at h1 h2
    omega
  unfold wordAt
  rw [dif_pos hlt]
  congr 1
  funext a
  obtain rfl : a = 0 := Subsingleton.elim _ _
  apply Fin.ext
  simp [Shape.ofLane]

omit [FloatOps F] in

theorem landed_holds_Sa (d : Dev nD) (L : grid6.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mSa (sSl off inb) t g) := by
  subst ho
  intro j
  show (View.whole bSa).write (Elt F) g (ReadAs.same.apply ((sSl ![1600 * jc] inb).view.read (Elt F) t)) Finset.univ j = _
  rw [View.write_whole_univ]
  exact chunk_word t jc inb j

omit [FloatOps F] in
theorem landed_holds_Da (d : Dev nD) (L : grid6.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mDa (dSl off inb) t g) := by
  subst ho
  intro j
  show (View.whole bDa).write (Elt F) g (ReadAs.same.apply ((dSl ![1600 * jc] inb).view.read (Elt F) t)) Finset.univ j = _
  rw [View.write_whole_univ]
  exact chunk_word t jc inb j

omit [FloatOps F] in
theorem landed_holds_Sb (d : Dev nD) (L : grid6.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mSb (sSl off inb) t g) := by
  subst ho
  intro j
  show (View.whole bSb).write (Elt F) g (ReadAs.same.apply ((sSl ![1600 * jc] inb).view.read (Elt F) t)) Finset.univ j = _
  rw [View.write_whole_univ]
  exact chunk_word t jc inb j

omit [FloatOps F] in
theorem landed_holds_Db (d : Dev nD) (L : grid6.Coords) (t : IVec S320000 32) (jc : Nat) (off : Fin 1 → Nat) (ho : off = ![1600 * jc])
    (inb : ∀ a, off a + S1600.size a ≤ S320000.size a) (g : IVec S1600 32) :
    HoldsChunk t jc (landed (F := F) (thr d L) mDb (dSl off inb) t g) := by
  subst ho
  intro j
  show (View.whole bDb).write (Elt F) g (ReadAs.same.apply ((dSl ![1600 * jc] inb).view.read (Elt F) t)) Finset.univ j = _
  rw [View.write_whole_univ]
  exact chunk_word t jc inb j

omit [FloatOps F] in

theorem wr_in (b : Ref sig .scVector) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) (Val := Elt F) f w (M := Finset.univ) (x := x) (Finset.mem_univ _)

omit [FloatOps F] in

theorem wr_out (b : Ref sig .scVector) (r : Rect b.ty.shape) (f : b.ty.Contents (Elt F)) (w : r.shape.Idx → Elt F b.ty.elt) (i : b.ty.shape.Idx)
    (hi : i ∉ r.set) : ((Memref.whole b).access r).write (Elt F) f w Finset.univ i = f i := by
  refine View.write_of_not_mem _ _ _ ?_
  rw [View.setOn_univ, View.set_slice]
  intro hm
  obtain ⟨y, hy, rfl⟩ := Finset.mem_map.mp hm
  exact hi hy

omit [FloatOps F] in

theorem mem_block16 (off : Fin 1 → Nat) (n : Nat) (ho : off = ![16 * n]) (inb : ∀ a, off a + S16.size a ≤ S10000.size a) (j : S10000.Idx) :
    j ∈ (Rect.unit (s := S10000) off S16.size inb).set ↔ 16 * n ≤ (j 0).val ∧ (j 0).val < 16 * n + 16 := by
  subst ho
  rw [Rect.mem_set_unit]
  constructor
  · intro h; have := h 0; simpa using this
  · intro h a; obtain rfl : a = 0 := Subsingleton.elim _ _; simpa using h

def ZeroTo (n : Nat) (f : Vec F S10000 .f32) : Prop := ∀ j : S10000.Idx, (j 0).val < 16 * n → f j = (Scalar.ofBits .f32 0x00000000#32 : F .f32)

theorem zeroTo_all (f : Vec F S10000 .f32) (h : ZeroTo 625 f) : f = zeroRow := by
  funext j
  exact h j (by have := (j 0).isLt; simp at this; omega)

theorem zeroTo_zero (f : Vec F S10000 .f32) : ZeroTo 0 f := fun j hj => absurd hj (by omega)

def MergedTo (n : Nat) (e o f : Vec F S10000 .f32) : Prop :=
  ∀ j : S10000.Idx, ((j 0).val < 16 * n → f j = FloatOps.addf (e j) (o j)) ∧ (16 * n ≤ (j 0).val → f j = e j)

theorem mergedTo_zero (e o : Vec F S10000 .f32) : MergedTo 0 e o e := fun j => ⟨fun hj => absurd hj (by omega), fun _ => rfl⟩

theorem mergedTo_all (e o f : Vec F S10000 .f32) (h : MergedTo 625 e o f) : f = fun j => FloatOps.addf (e j) (o j) := by
  funext j
  exact (h j).1 (by have := (j 0).isLt; simp at this; omega)

theorem zero_core (k : Fin k6_t1_loop.trips) (f g : Vec F S10000 .f32) (hf : ZeroTo k.val f)
    (hin : ∀ x, g ((Rect.unit (s := S10000) (k6_off2 k) S16.size (k6_off2_inb k)).emb x) = k6_pay1 (F := F) x)
    (hout : ∀ j, j ∉ (Rect.unit (s := S10000) (k6_off2 k) S16.size (k6_off2_inb k)).set → g j = f j) : ZeroTo (k.val + 1) g := by
  intro j hj
  by_cases hm : j ∈ (Rect.unit (s := S10000) (k6_off2 k) S16.size (k6_off2_inb k)).set
  · obtain ⟨x, rfl⟩ := (Rect.unit (s := S10000) (k6_off2 k) S16.size (k6_off2_inb k)).toLoadRect.exists_idx_of_mem hm
    exact hin x
  · rw [hout j hm]
    apply hf
    rw [mem_block16 _ k.val (k6_off2_eq k)] at hm
    omega

theorem merge_core (t : Fin k6_t5_loop.trips) (e o f g : Vec F S10000 .f32) (hf : MergedTo t.val e o f)
    (hin : ∀ x, g ((Rect.unit (s := S10000) (k6_off10 t) S16.size (k6_off10_inb t)).emb x) = FloatOps.addf (f ((Rect.unit (s := S10000) (k6_off10 t) S16.size (k6_off10_inb t)).toLoadRect.idx x)) (o ((Rect.unit (s := S10000) (k6_off10 t) S16.size (k6_off10_inb t)).toLoadRect.idx x)))
    (hout : ∀ j, j ∉ (Rect.unit (s := S10000) (k6_off10 t) S16.size (k6_off10_inb t)).set → g j = f j) : MergedTo (t.val + 1) e o g := by
  intro j
  by_cases hm : j ∈ (Rect.unit (s := S10000) (k6_off10 t) S16.size (k6_off10_inb t)).set
  · obtain ⟨x, rfl⟩ := (Rect.unit (s := S10000) (k6_off10 t) S16.size (k6_off10_inb t)).toLoadRect.exists_idx_of_mem hm
    have hb := (mem_block16 _ t.val (k6_off10_eq t) _ _).mp hm
    refine ⟨fun _ => ?_, fun h => absurd h (by omega)⟩
    refine (hin x).trans ?_
    exact congrArg (fun a => FloatOps.addf a (o ((Rect.unit (s := S10000) (k6_off10 t) S16.size (k6_off10_inb t)).toLoadRect.idx x))) ((hf ((Rect.unit (s := S10000) (k6_off10 t) S16.size (k6_off10_inb t)).toLoadRect.idx x)).2 hb.1)
  · rw [hout j hm]
    rw [mem_block16 _ t.val (k6_off10_eq t)] at hm
    exact ⟨fun h => (hf j).1 (by omega), fun h => (hf j).2 (by omega)⟩

def zeroInv (d : Dev nD) (L : grid6.Coords) (n : Nat) (_ : Unit) : sProp 𝕄 :=
  iprop((∃ f : Vec F S10000 .f32, ((thr d L).loc bE0 ↦{fullShare} f) ∗ ⌜ZeroTo n f⌝)
    ∗ (∃ f : Vec F S10000 .f32, ((thr d L).loc bO0 ↦{fullShare} f) ∗ ⌜ZeroTo n f⌝)
    ∗ (∃ f : Vec F S10000 .f32, ((thr d L).loc bE1 ↦{fullShare} f) ∗ ⌜ZeroTo n f⌝)
    ∗ (∃ f : Vec F S10000 .f32, ((thr d L).loc bO1 ↦{fullShare} f) ∗ ⌜ZeroTo n f⌝)
    ∗ (∃ f : Vec F S10000 .f32, ((thr d L).loc bE2 ↦{fullShare} f) ∗ ⌜ZeroTo n f⌝)
    ∗ (∃ f : Vec F S10000 .f32, ((thr d L).loc bO2 ↦{fullShare} f) ∗ ⌜ZeroTo n f⌝)
    ∗ (∃ f : Vec F S10000 .f32, ((thr d L).loc bE3 ↦{fullShare} f) ∗ ⌜ZeroTo n f⌝)
    ∗ (∃ f : Vec F S10000 .f32, ((thr d L).loc bO3 ↦{fullShare} f) ∗ ⌜ZeroTo n f⌝))

abbrev T1 (L : grid6.Coords) := k6_t1_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc6_scoped0 cc6_scoped1 cc6_scoped2 cc6_scoped3

theorem trip1 (d : Dev nD) (L : grid6.Coords) :
    ∀ (k : Fin k6_t1_loop.trips) (acc : Unit), zeroInv (F := F) d L k.val acc
      ⊢ wp frame (wpE (defs₀ (F := F)) 𝒱₀ (thr d L) none) Set.univ (T1 (F := F) L k acc) (zeroInv (F := F) d L (k.val + 1)) := by
  intro k acc
  unfold zeroInv T1 k6_t1_body
  simp only [Prog.lift, Prog.bind_op, Prog.bind_ret, Prog.pure_eq_ret]
  iintro ⟨⟨%fE0, HE0, %hE0⟩, ⟨%fO0, HO0, %hO0⟩, ⟨%fE1, HE1, %hE1⟩, ⟨%fO1, HO1, %hO1⟩, ⟨%fE2, HE2, %hE2⟩, ⟨%fO2, HO2, %hO2⟩, ⟨%fE3, HE3, %hE3⟩, ⟨%fO3, HO3, %hO3⟩⟩
  iapply (wp_load 𝒱₀ (thr d L) none Set.univ (m := (mE0 : Memref sig .scVector .vmem S10000 .f32)) (S := Finset.univ) (Finset.subset_univ _)) $$ HE0; iintro HE0
  iapply (wp_store 𝒱₀ (thr d L) none Set.univ (m := (mE0 : Memref sig .scVector .vmem S10000 .f32)) (r := Rect.unit (s := S10000) (k6_off2 k) S16.size (k6_off2_inb k)) (Mk := Finset.univ) (S := Finset.univ) (Finset.subset_univ _)) $$ HE0; iintro HE0
  iapply (wp_load 𝒱₀ (thr d L) none Set.univ (m := (mO0 : Memref sig .scVector .vmem S10000 .f32)) (S := Finset.univ) (Finset.subset_univ _)) $$ HO0; iintro HO0
  iapply (wp_store 𝒱₀ (thr d L) none Set.univ (m := (mO0 : Memref sig .scVector .vmem S10000 .f32)) (r := Rect.unit (s := S10000) (k6_off2 k) S16.size (k6_off2_inb k)) (Mk := Finset.univ) (S := Finset.univ) (Finset.subset_univ _)) $$ HO0; iintro HO0
  iapply (wp_load 𝒱₀ (thr d L) none Set.univ (m := (mE1 : Memref sig .scVector .vmem S10000 .f32)) (S := Finset.univ) (Finset.subset_univ _)) $$ HE1; iintro HE1
  iapply (wp_store 𝒱₀ (thr d L) none Set.univ (m := (mE1 : Memref sig .scVector .vmem S10000 .f32)) (r := Rect.unit (s := S10000) (k6_off2 k) S16.size (k6_off2_inb k)) (Mk := Finset.univ) (S := Finset.univ) (Finset.subset_univ _)) $$ HE1; iintro HE1
  iapply (wp_load 𝒱₀ (thr d L) none Set.univ (m := (mO1 : Memref sig .scVector .vmem S10000 .f32)) (S := Finset.univ) (Finset.subset_univ _)) $$ HO1; iintro HO1
  iapply (wp_store 𝒱₀ (thr d L) none Set.univ (m := (mO1 : Memref sig .scVector .vmem S10000 .f32)) (r := Rect.unit (s := S10000) (k6_off2 k) S16.size (k6_off2_inb k)) (Mk := Finset.univ) (S := Finset.univ) (Finset.subset_univ _)) $$ HO1; iintro HO1
  iapply (wp_load 𝒱₀ (thr d L) none Set.univ (m := (mE2 : Memref sig .scVector .vmem S10000 .f32)) (S := Finset.univ) (Finset.subset_univ _)) $$ HE2; iintro HE2
  iapply (wp_store 𝒱₀ (thr d L) none Set.univ (m := (mE2 : Memref sig .scVector .vmem S10000 .f32)) (r := Rect.unit (s := S10000) (k6_off2 k) S16.size (k6_off2_inb k)) (Mk := Finset.univ) (S := Finset.univ) (Finset.subset_univ _)) $$ HE2; iintro HE2
  iapply (wp_load 𝒱₀ (thr d L) none Set.univ (m := (mO2 : Memref sig .scVector .vmem S10000 .f32)) (S := Finset.univ) (Finset.subset_univ _)) $$ HO2; iintro HO2
  iapply (wp_store 𝒱₀ (thr d L) none Set.univ (m := (mO2 : Memref sig .scVector .vmem S10000 .f32)) (r := Rect.unit (s := S10000) (k6_off2 k) S16.size (k6_off2_inb k)) (Mk := Finset.univ) (S := Finset.univ) (Finset.subset_univ _)) $$ HO2; iintro HO2
  iapply (wp_load 𝒱₀ (thr d L) none Set.univ (m := (mE3 : Memref sig .scVector .vmem S10000 .f32)) (S := Finset.univ) (Finset.subset_univ _)) $$ HE3; iintro HE3
  iapply (wp_store 𝒱₀ (thr d L) none Set.univ (m := (mE3 : Memref sig .scVector .vmem S10000 .f32)) (r := Rect.unit (s := S10000) (k6_off2 k) S16.size (k6_off2_inb k)) (Mk := Finset.univ) (S := Finset.univ) (Finset.subset_univ _)) $$ HE3; iintro HE3
  iapply (wp_load 𝒱₀ (thr d L) none Set.univ (m := (mO3 : Memref sig .scVector .vmem S10000 .f32)) (S := Finset.univ) (Finset.subset_univ _)) $$ HO3; iintro HO3
  iapply (wp_store 𝒱₀ (thr d L) none Set.univ (m := (mO3 : Memref sig .scVector .vmem S10000 .f32)) (r := Rect.unit (s := S10000) (k6_off2 k) S16.size (k6_off2_inb k)) (Mk := Finset.univ) (S := Finset.univ) (Finset.subset_univ _)) $$ HO3; iintro HO3
  sl_step
  isplitl [HE0]
  · iexists _; isplitl [HE0]; · iexact HE0
    ipureintro; exact zero_core k fE0 _ hE0 (wr_in (F := F) bE0 _ fE0 _) (wr_out (F := F) bE0 _ fE0 _)
  isplitl [HO0]
  · iexists _; isplitl [HO0]; · iexact HO0
    ipureintro; exact zero_core k fO0 _ hO0 (wr_in (F := F) bO0 _ fO0 _) (wr_out (F := F) bO0 _ fO0 _)
  isplitl [HE1]
  · iexists _; isplitl [HE1]; · iexact HE1
    ipureintro; exact zero_core k fE1 _ hE1 (wr_in (F := F) bE1 _ fE1 _) (wr_out (F := F) bE1 _ fE1 _)
  isplitl [HO1]
  · iexists _; isplitl [HO1]; · iexact HO1
    ipureintro; exact zero_core k fO1 _ hO1 (wr_in (F := F) bO1 _ fO1 _) (wr_out (F := F) bO1 _ fO1 _)
  isplitl [HE2]
  · iexists _; isplitl [HE2]; · iexact HE2
    ipureintro; exact zero_core k fE2 _ hE2 (wr_in (F := F) bE2 _ fE2 _) (wr_out (F := F) bE2 _ fE2 _)
  isplitl [HO2]
  · iexists _; isplitl [HO2]; · iexact HO2
    ipureintro; exact zero_core k fO2 _ hO2 (wr_in (F := F) bO2 _ fO2 _) (wr_out (F := F) bO2 _ fO2 _)
  isplitl [HE3]
  · iexists _; isplitl [HE3]; · iexact HE3
    ipureintro; exact zero_core k fE3 _ hE3 (wr_in (F := F) bE3 _ fE3 _) (wr_out (F := F) bE3 _ fE3 _)
  iexists _; isplitl [HO3]; · iexact HO3
  ipureintro; exact zero_core k fO3 _ hO3 (wr_in (F := F) bO3 _ fO3 _) (wr_out (F := F) bO3 _ fO3 _)

def mergeInv (d : Dev nD) (L : grid6.Coords) (e o : Fin 4 → Vec F S10000 .f32) (n : Nat) (_ : Unit) : sProp 𝕄 :=
  iprop((∃ f : Vec F S10000 .f32, ((thr d L).loc bE0 ↦{fullShare} f) ∗ ⌜MergedTo n (e 0) (o 0) f⌝) ∗ ((thr d L).loc bO0 ↦{fullShare} o 0)
    ∗ (∃ f : Vec F S10000 .f32, ((thr d L).loc bE1 ↦{fullShare} f) ∗ ⌜MergedTo n (e 1) (o 1) f⌝) ∗ ((thr d L).loc bO1 ↦{fullShare} o 1)
    ∗ (∃ f : Vec F S10000 .f32, ((thr d L).loc bE2 ↦{fullShare} f) ∗ ⌜MergedTo n (e 2) (o 2) f⌝) ∗ ((thr d L).loc bO2 ↦{fullShare} o 2)
    ∗ (∃ f : Vec F S10000 .f32, ((thr d L).loc bE3 ↦{fullShare} f) ∗ ⌜MergedTo n (e 3) (o 3) f⌝) ∗ ((thr d L).loc bO3 ↦{fullShare} o 3))

abbrev T5 (L : grid6.Coords) (v1 : BitVec 32) := k6_t5_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc6_scoped0 cc6_scoped1 cc6_scoped2 cc6_scoped3 v1

theorem trip5 (d : Dev nD) (L : grid6.Coords) (v1 : BitVec 32) (e o : Fin 4 → Vec F S10000 .f32) :
    ∀ (t : Fin k6_t5_loop.trips) (acc : Unit), mergeInv d L e o t.val acc
      ⊢ wp frame (wpE (defs₀ (F := F)) 𝒱₀ (thr d L) none) Set.univ (T5 (F := F) L v1 t acc) (mergeInv d L e o (t.val + 1)) := by
  intro t acc
  unfold mergeInv T5 k6_t5_body
  simp only [Prog.lift, Prog.bind_op, Prog.bind_ret, Prog.pure_eq_ret]
  iintro ⟨⟨%f0, HE0, %h0⟩, HO0, ⟨%f1, HE1, %h1⟩, HO1, ⟨%f2, HE2, %h2⟩, HO2, ⟨%f3, HE3, %h3⟩, HO3⟩
  iapply (wp_load 𝒱₀ (thr d L) none Set.univ (m := (mE0 : Memref sig .scVector .vmem S10000 .f32)) (S := Finset.univ) (Finset.subset_univ _)) $$ HE0; iintro HE0
  iapply (wp_load 𝒱₀ (thr d L) none Set.univ (m := (mO0 : Memref sig .scVector .vmem S10000 .f32)) (S := Finset.univ) (Finset.subset_univ _)) $$ HO0; iintro HO0
  iapply (wp_load 𝒱₀ (thr d L) none Set.univ (m := (mE0 : Memref sig .scVector .vmem S10000 .f32)) (S := Finset.univ) (Finset.subset_univ _)) $$ HE0; iintro HE0
  iapply (wp_store 𝒱₀ (thr d L) none Set.univ (m := (mE0 : Memref sig .scVector .vmem S10000 .f32)) (r := Rect.unit (s := S10000) (k6_off10 t) S16.size (k6_off10_inb t)) (Mk := Finset.univ) (S := Finset.univ) (Finset.subset_univ _)) $$ HE0; iintro HE0
  iapply (wp_load 𝒱₀ (thr d L) none Set.univ (m := (mE1 : Memref sig .scVector .vmem S10000 .f32)) (S := Finset.univ) (Finset.subset_univ _)) $$ HE1; iintro HE1
  iapply (wp_load 𝒱₀ (thr d L) none Set.univ (m := (mO1 : Memref sig .scVector .vmem S10000 .f32)) (S := Finset.univ) (Finset.subset_univ _)) $$ HO1; iintro HO1
  iapply (wp_load 𝒱₀ (thr d L) none Set.univ (m := (mE1 : Memref sig .scVector .vmem S10000 .f32)) (S := Finset.univ) (Finset.subset_univ _)) $$ HE1; iintro HE1
  iapply (wp_store 𝒱₀ (thr d L) none Set.univ (m := (mE1 : Memref sig .scVector .vmem S10000 .f32)) (r := Rect.unit (s := S10000) (k6_off10 t) S16.size (k6_off10_inb t)) (Mk := Finset.univ) (S := Finset.univ) (Finset.subset_univ _)) $$ HE1; iintro HE1
  iapply (wp_load 𝒱₀ (thr d L) none Set.univ (m := (mE2 : Memref sig .scVector .vmem S10000 .f32)) (S := Finset.univ) (Finset.subset_univ _)) $$ HE2; iintro HE2
  iapply (wp_load 𝒱₀ (thr d L) none Set.univ (m := (mO2 : Memref sig .scVector .vmem S10000 .f32)) (S := Finset.univ) (Finset.subset_univ _)) $$ HO2; iintro HO2
  iapply (wp_load 𝒱₀ (thr d L) none Set.univ (m := (mE2 : Memref sig .scVector .vmem S10000 .f32)) (S := Finset.univ) (Finset.subset_univ _)) $$ HE2; iintro HE2
  iapply (wp_store 𝒱₀ (thr d L) none Set.univ (m := (mE2 : Memref sig .scVector .vmem S10000 .f32)) (r := Rect.unit (s := S10000) (k6_off10 t) S16.size (k6_off10_inb t)) (Mk := Finset.univ) (S := Finset.univ) (Finset.subset_univ _)) $$ HE2; iintro HE2
  iapply (wp_load 𝒱₀ (thr d L) none Set.univ (m := (mE3 : Memref sig .scVector .vmem S10000 .f32)) (S := Finset.univ) (Finset.subset_univ _)) $$ HE3; iintro HE3
  iapply (wp_load 𝒱₀ (thr d L) none Set.univ (m := (mO3 : Memref sig .scVector .vmem S10000 .f32)) (S := Finset.univ) (Finset.subset_univ _)) $$ HO3; iintro HO3
  iapply (wp_load 𝒱₀ (thr d L) none Set.univ (m := (mE3 : Memref sig .scVector .vmem S10000 .f32)) (S := Finset.univ) (Finset.subset_univ _)) $$ HE3; iintro HE3
  iapply (wp_store 𝒱₀ (thr d L) none Set.univ (m := (mE3 : Memref sig .scVector .vmem S10000 .f32)) (r := Rect.unit (s := S10000) (k6_off10 t) S16.size (k6_off10_inb t)) (Mk := Finset.univ) (S := Finset.univ) (Finset.subset_univ _)) $$ HE3; iintro HE3
  sl_step
  isplitl [HE0]
  · iexists _; isplitl [HE0]; · iexact HE0
    ipureintro; exact merge_core t (e 0) (o 0) f0 _ h0 (wr_in (F := F) bE0 _ f0 _) (wr_out (F := F) bE0 _ f0 _)
  isplitl [HO0]; · iexact HO0
  isplitl [HE1]
  · iexists _; isplitl [HE1]; · iexact HE1
    ipureintro; exact merge_core t (e 1) (o 1) f1 _ h1 (wr_in (F := F) bE1 _ f1 _) (wr_out (F := F) bE1 _ f1 _)
  isplitl [HO1]; · iexact HO1
  isplitl [HE2]
  · iexists _; isplitl [HE2]; · iexact HE2
    ipureintro; exact merge_core t (e 2) (o 2) f2 _ h2 (wr_in (F := F) bE2 _ f2 _) (wr_out (F := F) bE2 _ f2 _)
  isplitl [HO2]; · iexact HO2
  isplitl [HE3]
  · iexists _; isplitl [HE3]; · iexact HE3
    ipureintro; exact merge_core t (e 3) (o 3) f3 _ h3 (wr_in (F := F) bE3 _ f3 _) (wr_out (F := F) bE3 _ f3 _)
  iexact HO3

omit [FloatOps F] in
theorem inb_of (o : Nat) (h : o + 1600 ≤ 320000) : ∀ a, (![o] : Fin 1 → Nat) a + S1600.size a ≤ S320000.size a := by
  intro a
  obtain rfl : a = 0 := Subsingleton.elim _ _
  simpa using h

omit [FloatOps F] in
theorem k6_cond1_iff : ∀ k : Fin k6_t2_loop.trips, k6_cond1 k = 1#1 ↔ k.val + 1 < 100 := by decide +kernel

omit [FloatOps F] in
theorem trips2 : k6_t2_loop.trips = 100 := by decide
omit [FloatOps F] in
theorem trips3 : k6_t3_loop.trips = 50 := by decide
omit [FloatOps F] in
theorem trips4 : k6_t4_loop.trips = 50 := by decide

def semAInv (d : Dev nD) (L : grid6.Coords) (q : PosShare TreeShare) (srcA dstA : IVec S320000 32) (n : Nat) : sProp 𝕄 :=
  if h : n < 100 then
    iprop(∃ g0 g1 : IVec S1600 32, Transfers.Batch (countersEmb (U := UU)) (thr d L) (SemLoc.dma semA.sem) (none : HIx 4) NA
        (DAat (F := F) d L q srcA dstA ![3200 * n] (inb_of _ (by omega)) g0 g1) 2 0
      ∗ (tcLoc d main_v1 ↦[sRest ![3200 * n] (inb_of _ (by omega))]{q} srcA)
      ∗ (tcLoc d main_v3 ↦[dRest ![3200 * n] (inb_of _ (by omega))]{q} dstA))
  else
    iprop(semVal (thr d L, SemLoc.dma semA.sem) 0 ∗ (∃ g : IVec S1600 32, (thr d L).loc bSa ↦{fullShare} g) ∗ (∃ g : IVec S1600 32, (thr d L).loc bDa ↦{fullShare} g)
      ∗ (tcLoc d main_v1 ↦{q} srcA) ∗ (tcLoc d main_v3 ↦{q} dstA))

omit [FloatOps F] in
theorem semAInv_lt (d : Dev nD) (L : grid6.Coords) (q : PosShare TreeShare) (srcA dstA : IVec S320000 32) (n : Nat) (h : n < 100) :
    semAInv (F := F) d L q srcA dstA n =
      iprop(∃ g0 g1 : IVec S1600 32, Transfers.Batch (countersEmb (U := UU)) (thr d L) (SemLoc.dma semA.sem) (none : HIx 4) NA
          (DAat (F := F) d L q srcA dstA ![3200 * n] (inb_of _ (by omega)) g0 g1) 2 0
        ∗ (tcLoc d main_v1 ↦[sRest ![3200 * n] (inb_of _ (by omega))]{q} srcA)
        ∗ (tcLoc d main_v3 ↦[dRest ![3200 * n] (inb_of _ (by omega))]{q} dstA)) := by
  unfold semAInv; rw [dif_pos h]
omit [FloatOps F] in
theorem semAInv_ge (d : Dev nD) (L : grid6.Coords) (q : PosShare TreeShare) (srcA dstA : IVec S320000 32) (n : Nat) (h : ¬ n < 100) :
    semAInv (F := F) d L q srcA dstA n =
      iprop(semVal (thr d L, SemLoc.dma semA.sem) 0 ∗ (∃ g : IVec S1600 32, (thr d L).loc bSa ↦{fullShare} g) ∗ (∃ g : IVec S1600 32, (thr d L).loc bDa ↦{fullShare} g)
        ∗ (tcLoc d main_v1 ↦{q} srcA) ∗ (tcLoc d main_v3 ↦{q} dstA)) := by
  unfold semAInv; rw [dif_neg h]

def outerInv (d : Dev nD) (L : grid6.Coords) (q : PosShare TreeShare) (srcA dstA : IVec S320000 32)
    (u : Fin 4 → Vec F S10000 .f32) (O : CellTallies nD τ sig (HIx 4)) (W : Waits sig (HIx 4)) (n : Nat) (_ : Unit) : sProp 𝕄 :=
  iprop(Transfers.MayWaits (thr d L) (none : HIx 4) O
    ∗ ((thr d L).loc bU0 ↦{fullShare} u 0) ∗ ((thr d L).loc bU1 ↦{fullShare} u 1) ∗ ((thr d L).loc bU2 ↦{fullShare} u 2) ∗ ((thr d L).loc bU3 ↦{fullShare} u 3)
    ∗ ((thr d L).loc bE0 ↦{fullShare} (chunksN (u 0) srcA dstA (2 * n)).1) ∗ ((thr d L).loc bE1 ↦{fullShare} (chunksN (u 1) srcA dstA (2 * n)).1)
    ∗ ((thr d L).loc bE2 ↦{fullShare} (chunksN (u 2) srcA dstA (2 * n)).1) ∗ ((thr d L).loc bE3 ↦{fullShare} (chunksN (u 3) srcA dstA (2 * n)).1)
    ∗ ((thr d L).loc bO0 ↦{fullShare} (chunksN (u 0) srcA dstA (2 * n)).2) ∗ ((thr d L).loc bO1 ↦{fullShare} (chunksN (u 1) srcA dstA (2 * n)).2)
    ∗ ((thr d L).loc bO2 ↦{fullShare} (chunksN (u 2) srcA dstA (2 * n)).2) ∗ ((thr d L).loc bO3 ↦{fullShare} (chunksN (u 3) srcA dstA (2 * n)).2)
    ∗ (∃ g : IVec S1600 32, (thr d L).loc bSb ↦{fullShare} g) ∗ (∃ g : IVec S1600 32, (thr d L).loc bDb ↦{fullShare} g)
    ∗ semVal (thr d L, SemLoc.dma semB.sem) 0
    ∗ semAInv (F := F) d L q srcA dstA n
    ∗ ∃ W', ⌜∀ p ∈ W', p ∈ W ∨ p.2 = none⌝ ∗ owes (thr d L) O W')

abbrev T2 (L : grid6.Coords) (v1 : BitVec 32) := k6_t2_body (F := F) L mU (Memref.isWhole_whole _) mS (Memref.isWhole_whole _) mD (Memref.isWhole_whole _) mO (Memref.isWhole_whole _) mU0 (Memref.isWhole_whole _) mU1 (Memref.isWhole_whole _) mU2 (Memref.isWhole_whole _) mU3 (Memref.isWhole_whole _) mE0 (Memref.isWhole_whole _) mE1 (Memref.isWhole_whole _) mE2 (Memref.isWhole_whole _) mE3 (Memref.isWhole_whole _) mO0 (Memref.isWhole_whole _) mO1 (Memref.isWhole_whole _) mO2 (Memref.isWhole_whole _) mO3 (Memref.isWhole_whole _) mSa (Memref.isWhole_whole _) mDa (Memref.isWhole_whole _) mSb (Memref.isWhole_whole _) mDb (Memref.isWhole_whole _) semA semB semU cc6_scoped0 cc6_scoped1 cc6_scoped2 cc6_scoped3 v1

theorem trip2 (d : Dev nD) (L : grid6.Coords) (v1 : BitVec 32) (q : PosShare TreeShare) (srcA dstA : IVec S320000 32)
    (hsrc : ∀ x, (srcA x).toNat < 10000) (hdst : ∀ x, (dstA x).toNat < 10000)
    (u : Fin 4 → Vec F S10000 .f32) (O : CellTallies nD τ sig (HIx 4)) (W : Waits sig (HIx 4)) :
    ∀ (k : Fin k6_t2_loop.trips) (acc : Unit), outerInv d L q srcA dstA u O W k.val acc
      ⊢ wp frame (wpE (defs₀ (F := F)) 𝒱₀ (thr d L) none) Set.univ (T2 (F := F) L v1 k acc) (outerInv d L q srcA dstA u O W (k.val + 1)) := by
  intro k acc
  have hk : k.val < 100 := lt_of_lt_of_eq k.isLt trips2
  unfold outerInv T2 k6_t2_body
  rw [semAInv_lt d L q srcA dstA k.val hk]
  iintro ⟨Hmw, Hu0, Hu1, Hu2, Hu3, HE0, HE1, HE2, HE3, HO0, HO1, HO2, HO3, ⟨%gb0, Hsb⟩, ⟨%gb1, Hdb⟩, HsemB, ⟨%ga0, %ga1, HBA, Hs, Hd⟩, %W', %hW', HO⟩

  ihave HBA := (Entails.of_eq (congrArg (fun D => Transfers.Batch (countersEmb (U := UU)) (thr d L) (SemLoc.dma semA.sem) (none : HIx 4) NA D 2 0)
      (DAat_congr (F := F) d L q srcA dstA (k6_off3_eq k).symm (inb_of _ (by omega)) (k6_off3_inb k) ga0 ga1))) $$ HBA
  ihave Hs := (Entails.of_eq ((congrArg (fun S => (tcLoc d main_v1 ↦[S]{q} srcA : sProp 𝕄)) (sRest_congr (k6_off3_eq k).symm (inb_of _ (by omega)) (k6_off3_inb k))).trans
      (pts_sRest (F := F) d L q srcA _ _).symm)) $$ Hs
  ihave Hd := (Entails.of_eq ((congrArg (fun S => (tcLoc d main_v3 ↦[S]{q} dstA : sProp 𝕄)) (dRest_congr (k6_off3_eq k).symm (inb_of _ (by omega)) (k6_off3_inb k))).trans
      (pts_dRest (F := F) d L q dstA _ _).symm)) $$ Hd
  ihave Hsb := (Entails.of_eq (pts_view_Sb (F := F) d L _).symm) $$ Hsb
  ihave Hdb := (Entails.of_eq (pts_view_Db (F := F) d L _).symm) $$ Hdb
  ihave HsemB := (Entails.of_eq (aside_eq _).symm) $$ HsemB
  sl_exec

  ihave Hs := (Entails.of_eq (show ((sSl (k6_off3 k) (k6_off3_inb k)).view.loc (thr d L) ↦{q} srcA : sProp 𝕄) = ((mS : Memref sig .scVector .hbm S320000 .i32).view.loc (thr d L) ↦{q} srcA) from rfl)) $$ Hs
  ihave Hd := (Entails.of_eq (show ((dSl (k6_off3 k) (k6_off3_inb k)).view.loc (thr d L) ↦{q} dstA : sProp 𝕄) = ((mD : Memref sig .scVector .hbm S320000 .i32).view.loc (thr d L) ↦{q} dstA) from rfl)) $$ Hd
  ihave HsemB := (Entails.of_eq (aside_eq _)) $$ HsemB
  ihave HsemA : (semVal (thr d L, SemLoc.dma semA.sem) 0 : sProp 𝕄) $$ [HBA]; · iexact HBA
  ihave HsemA := (Entails.of_eq (aside_eq _).symm) $$ HsemA
  imod (Transfers.batch_alloc' (Lvl := ℕ) (countersEmb (U := UU)) (thr d L) (none : HIx 4) NB
      (DBat (F := F) d L q srcA dstA (k6_off4 k) (k6_off4_inb k) gb0 gb1) (sm := .dma semB.sem) (E := Set.univ)) $$ HsemB with HBB
  sl_exec

  sl_for (trip3Inv (F := F) d L srcA dstA (2 * k.val) (landed (F := F) (thr d L) mSa (sSl (k6_off3 k) (k6_off3_inb k)) srcA ga0)
      (landed (F := F) (thr d L) mDa (dSl (k6_off3 k) (k6_off3_inb k)) dstA ga1) u (fun i => chunksN (u i) srcA dstA (2 * k.val))) $$ [HBA_dst0 HBA_dst1 Hu0 Hu1 Hu2 Hu3 HE0 HE1 HE2 HE3 HO0 HO1 HO2 HO3]
  case region =>
    exact trip3 (F := F) d L v1 srcA dstA hsrc hdst (2 * k.val) _ _
      (landed_holds_Sa (F := F) d L srcA (2 * k.val) _ ((k6_off3_eq k).trans (by rw [show 1600 * (2 * k.val) = 3200 * k.val by omega])) _ _)
      (landed_holds_Da (F := F) d L dstA (2 * k.val) _ ((k6_off3_eq k).trans (by rw [show 1600 * (2 * k.val) = 3200 * k.val by omega])) _ _) u _
  · unfold trip3Inv
    isplitl [HBA_dst0]; · iexact HBA_dst0
    isplitl [HBA_dst1]; · iexact HBA_dst1
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    iexact HO3
  iintro %_ HI
  ihave HI := (Entails.of_eq (congrArg (fun n => trip3Inv (F := F) d L srcA dstA (2 * k.val) (landed (F := F) (thr d L) mSa (sSl (k6_off3 k) (k6_off3_inb k)) srcA ga0)
      (landed (F := F) (thr d L) mDa (dSl (k6_off3 k) (k6_off3_inb k)) dstA ga1) u (fun i => chunksN (u i) srcA dstA (2 * k.val)) n ()) trips3)) $$ HI
  unfold trip3Inv
  icases HI with ⟨Hsa, Hda, Hu0, Hu1, Hu2, Hu3, HE0, HE1, HE2, HE3, HO0, HO1, HO2, HO3⟩
  ihave Hsa := (Entails.of_eq (pts_view_Sa (F := F) d L _).symm) $$ Hsa
  ihave Hda := (Entails.of_eq (pts_view_Da (F := F) d L _).symm) $$ Hda
  sl_exec

  ihave Hs := (Entails.of_eq (show ((sSl (k6_off4 k) (k6_off4_inb k)).view.loc (thr d L) ↦{q} srcA : sProp 𝕄) = ((mS : Memref sig .scVector .hbm S320000 .i32).view.loc (thr d L) ↦{q} srcA) from rfl)) $$ Hs
  ihave Hd := (Entails.of_eq (show ((dSl (k6_off4 k) (k6_off4_inb k)).view.loc (thr d L) ↦{q} dstA : sProp 𝕄) = ((mD : Memref sig .scVector .hbm S320000 .i32).view.loc (thr d L) ↦{q} dstA) from rfl)) $$ Hd
  by_cases hc : k6_cond1 k = 1#1
  · have hk1 : k.val + 1 < 100 := (k6_cond1_iff k).mp hc
    rw [dif_pos hc]
    ihave HsemA := (Entails.of_eq (aside_eq _)) $$ HsemA
    imod (Transfers.batch_alloc' (Lvl := ℕ) (countersEmb (U := UU)) (thr d L) (none : HIx 4) NA
        (DAat (F := F) d L q srcA dstA (k6_off7 k) (k6_off7_inb k hc) _ _) (sm := .dma semA.sem) (E := Set.univ)) $$ HsemA with HBA
    sl_exec
    sl_for (trip4Inv (F := F) d L srcA dstA (2 * k.val + 1) (landed (F := F) (thr d L) mSb (sSl (k6_off4 k) (k6_off4_inb k)) srcA gb0)
        (landed (F := F) (thr d L) mDb (dSl (k6_off4 k) (k6_off4_inb k)) dstA gb1) u (fun i => pairsN (u i) srcA dstA (2 * k.val) (chunksN (u i) srcA dstA (2 * k.val)) 50)) $$ [HBB_dst0 HBB_dst1 Hu0 Hu1 Hu2 Hu3 HE0 HE1 HE2 HE3 HO0 HO1 HO2 HO3]
    case region =>
      exact trip4 (F := F) d L v1 srcA dstA hsrc hdst (2 * k.val + 1) _ _
        (landed_holds_Sb (F := F) d L srcA (2 * k.val + 1) _ ((k6_off4_eq k).trans (by rw [show 1600 * (2 * k.val + 1) = 3200 * k.val + 1600 by omega])) _ _)
        (landed_holds_Db (F := F) d L dstA (2 * k.val + 1) _ ((k6_off4_eq k).trans (by rw [show 1600 * (2 * k.val + 1) = 3200 * k.val + 1600 by omega])) _ _) u _
    · unfold trip4Inv
      isplitl [HBB_dst0]; · iexact HBB_dst0
      isplitl [HBB_dst1]; · iexact HBB_dst1
      isplitl [Hu0]; · iexact Hu0
      isplitl [Hu1]; · iexact Hu1
      isplitl [Hu2]; · iexact Hu2
      isplitl [Hu3]; · iexact Hu3
      isplitl [HE0]; · iexact HE0
      isplitl [HE1]; · iexact HE1
      isplitl [HE2]; · iexact HE2
      isplitl [HE3]; · iexact HE3
      isplitl [HO0]; · iexact HO0
      isplitl [HO1]; · iexact HO1
      isplitl [HO2]; · iexact HO2
      iexact HO3
    iintro %_ HI
    ihave HI := (Entails.of_eq (congrArg (fun n => trip4Inv (F := F) d L srcA dstA (2 * k.val + 1) (landed (F := F) (thr d L) mSb (sSl (k6_off4 k) (k6_off4_inb k)) srcA gb0)
        (landed (F := F) (thr d L) mDb (dSl (k6_off4 k) (k6_off4_inb k)) dstA gb1) u (fun i => pairsN (u i) srcA dstA (2 * k.val) (chunksN (u i) srcA dstA (2 * k.val)) 50) n ()) trips4)) $$ HI
    unfold trip4Inv
    icases HI with ⟨Hsb, Hdb, Hu0, Hu1, Hu2, Hu3, HE0, HE1, HE2, HE3, HO0, HO1, HO2, HO3⟩
    sl_step
    rw [semAInv_lt d L q srcA dstA (k.val + 1) hk1]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HBB]; · iexact HBB
    isplitl [HBA Hs Hd]
    · iexists _, _
      isplitl [HBA]
      · iapply (Entails.of_eq (congrArg (fun D => Transfers.Batch (countersEmb (U := UU)) (thr d L) (SemLoc.dma semA.sem) (none : HIx 4) NA D 2 0)
          (DAat_congr (F := F) d L q srcA dstA ((k6_off7_eq k).trans (by rw [show 3200 * (k.val + 1) = 3200 * k.val + 3200 by omega])) (k6_off7_inb k hc) (inb_of _ (by omega)) _ _)))
        iexact HBA
      isplitl [Hs]
      · iapply (Entails.of_eq ((pts_sRest (F := F) d L q srcA _ _).trans (congrArg (fun S => (tcLoc d main_v1 ↦[S]{q} srcA : sProp 𝕄))
          (sRest_congr ((k6_off7_eq k).trans (by rw [show 3200 * (k.val + 1) = 3200 * k.val + 3200 by omega])) (k6_off7_inb k hc) (inb_of _ (by omega))))))
        iexact Hs
      · iapply (Entails.of_eq ((pts_dRest (F := F) d L q dstA _ _).trans (congrArg (fun S => (tcLoc d main_v3 ↦[S]{q} dstA : sProp 𝕄))
          (dRest_congr ((k6_off7_eq k).trans (by rw [show 3200 * (k.val + 1) = 3200 * k.val + 3200 by omega])) (k6_off7_inb k hc) (inb_of _ (by omega))))))
        iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp
  · have hk1 : ¬ (k.val + 1 < 100) := fun h => hc ((k6_cond1_iff k).mpr h)
    rw [dif_neg hc]
    sl_exec
    sl_for (trip4Inv (F := F) d L srcA dstA (2 * k.val + 1) (landed (F := F) (thr d L) mSb (sSl (k6_off4 k) (k6_off4_inb k)) srcA gb0)
        (landed (F := F) (thr d L) mDb (dSl (k6_off4 k) (k6_off4_inb k)) dstA gb1) u (fun i => pairsN (u i) srcA dstA (2 * k.val) (chunksN (u i) srcA dstA (2 * k.val)) 50)) $$ [HBB_dst0 HBB_dst1 Hu0 Hu1 Hu2 Hu3 HE0 HE1 HE2 HE3 HO0 HO1 HO2 HO3]
    case region =>
      exact trip4 (F := F) d L v1 srcA dstA hsrc hdst (2 * k.val + 1) _ _
        (landed_holds_Sb (F := F) d L srcA (2 * k.val + 1) _ ((k6_off4_eq k).trans (by rw [show 1600 * (2 * k.val + 1) = 3200 * k.val + 1600 by omega])) _ _)
        (landed_holds_Db (F := F) d L dstA (2 * k.val + 1) _ ((k6_off4_eq k).trans (by rw [show 1600 * (2 * k.val + 1) = 3200 * k.val + 1600 by omega])) _ _) u _
    · unfold trip4Inv
      isplitl [HBB_dst0]; · iexact HBB_dst0
      isplitl [HBB_dst1]; · iexact HBB_dst1
      isplitl [Hu0]; · iexact Hu0
      isplitl [Hu1]; · iexact Hu1
      isplitl [Hu2]; · iexact Hu2
      isplitl [Hu3]; · iexact Hu3
      isplitl [HE0]; · iexact HE0
      isplitl [HE1]; · iexact HE1
      isplitl [HE2]; · iexact HE2
      isplitl [HE3]; · iexact HE3
      isplitl [HO0]; · iexact HO0
      isplitl [HO1]; · iexact HO1
      isplitl [HO2]; · iexact HO2
      iexact HO3
    iintro %_ HI
    ihave HI := (Entails.of_eq (congrArg (fun n => trip4Inv (F := F) d L srcA dstA (2 * k.val + 1) (landed (F := F) (thr d L) mSb (sSl (k6_off4 k) (k6_off4_inb k)) srcA gb0)
        (landed (F := F) (thr d L) mDb (dSl (k6_off4 k) (k6_off4_inb k)) dstA gb1) u (fun i => pairsN (u i) srcA dstA (2 * k.val) (chunksN (u i) srcA dstA (2 * k.val)) 50) n ()) trips4)) $$ HI
    unfold trip4Inv
    icases HI with ⟨Hsb, Hdb, Hu0, Hu1, Hu2, Hu3, HE0, HE1, HE2, HE3, HO0, HO1, HO2, HO3⟩
    sl_step
    rw [semAInv_ge d L q srcA dstA (k.val + 1) hk1]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HBB]; · iexact HBB
    isplitl [HsemA Hsa Hda Hs Hd]
    · isplitl [HsemA]; · iapply (Entails.of_eq (aside_eq _)); iexact HsemA
      isplitl [Hsa]; · iexists _; iexact Hsa
      isplitl [Hda]; · iexists _; iexact Hda
      isplitl [Hs]; · iexact Hs
      iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
theorem landed_row_0 (d : Dev nD) (L : grid6.Coords) (uA : Vec F S1280000 .f32) (g : Vec F S10000 .f32) :
    landed (F := F) (thr d L) mU0 (uSl0 L) uA g = rowOf uA L 0 := by
  funext j
  show (View.whole bU0).write (Elt F) g (ReadAs.same.apply ((uSl0 L).view.read (Elt F) uA)) Finset.univ j = _
  rw [View.write_whole_univ]
  rfl

omit [FloatOps F] in
theorem pts_out_0 (d : Dev nD) (L : grid6.Coords) (f : Vec F S1280000 .f32) :
    ((oSl0 L).view.loc (thr d L) ↦[(oSl0 L).view.set]{fullShare} f : sProp 𝕄) = (tcLoc d main_v20 ↦[rowSet L 0]{fullShare} f) := by
  have hset : (oSl0 L).view.set = rowSet L 0 := by
    show ((View.whole main_v20_scv).slice (rowRect L 0)).set = (rowRect L 0).set
    rw [View.set_slice]; exact Finset.map_refl
  rw [hset]

omit [FloatOps F] in
theorem landed_row_1 (d : Dev nD) (L : grid6.Coords) (uA : Vec F S1280000 .f32) (g : Vec F S10000 .f32) :
    landed (F := F) (thr d L) mU1 (uSl1 L) uA g = rowOf uA L 1 := by
  funext j
  show (View.whole bU1).write (Elt F) g (ReadAs.same.apply ((uSl1 L).view.read (Elt F) uA)) Finset.univ j = _
  rw [View.write_whole_univ]
  rfl

omit [FloatOps F] in
theorem pts_out_1 (d : Dev nD) (L : grid6.Coords) (f : Vec F S1280000 .f32) :
    ((oSl1 L).view.loc (thr d L) ↦[(oSl1 L).view.set]{fullShare} f : sProp 𝕄) = (tcLoc d main_v20 ↦[rowSet L 1]{fullShare} f) := by
  have hset : (oSl1 L).view.set = rowSet L 1 := by
    show ((View.whole main_v20_scv).slice (rowRect L 1)).set = (rowRect L 1).set
    rw [View.set_slice]; exact Finset.map_refl
  rw [hset]

omit [FloatOps F] in
theorem landed_row_2 (d : Dev nD) (L : grid6.Coords) (uA : Vec F S1280000 .f32) (g : Vec F S10000 .f32) :
    landed (F := F) (thr d L) mU2 (uSl2 L) uA g = rowOf uA L 2 := by
  funext j
  show (View.whole bU2).write (Elt F) g (ReadAs.same.apply ((uSl2 L).view.read (Elt F) uA)) Finset.univ j = _
  rw [View.write_whole_univ]
  rfl

omit [FloatOps F] in
theorem pts_out_2 (d : Dev nD) (L : grid6.Coords) (f : Vec F S1280000 .f32) :
    ((oSl2 L).view.loc (thr d L) ↦[(oSl2 L).view.set]{fullShare} f : sProp 𝕄) = (tcLoc d main_v20 ↦[rowSet L 2]{fullShare} f) := by
  have hset : (oSl2 L).view.set = rowSet L 2 := by
    show ((View.whole main_v20_scv).slice (rowRect L 2)).set = (rowRect L 2).set
    rw [View.set_slice]; exact Finset.map_refl
  rw [hset]

omit [FloatOps F] in
theorem landed_row_3 (d : Dev nD) (L : grid6.Coords) (uA : Vec F S1280000 .f32) (g : Vec F S10000 .f32) :
    landed (F := F) (thr d L) mU3 (uSl3 L) uA g = rowOf uA L 3 := by
  funext j
  show (View.whole bU3).write (Elt F) g (ReadAs.same.apply ((uSl3 L).view.read (Elt F) uA)) Finset.univ j = _
  rw [View.write_whole_univ]
  rfl

omit [FloatOps F] in
theorem pts_out_3 (d : Dev nD) (L : grid6.Coords) (f : Vec F S1280000 .f32) :
    ((oSl3 L).view.loc (thr d L) ↦[(oSl3 L).view.set]{fullShare} f : sProp 𝕄) = (tcLoc d main_v20 ↦[rowSet L 3]{fullShare} f) := by
  have hset : (oSl3 L).view.set = rowSet L 3 := by
    show ((View.whole main_v20_scv).slice (rowRect L 3)).set = (rowRect L 3).set
    rw [View.set_slice]; exact Finset.map_refl
  rw [hset]

def DU (d : Dev nD) (L : grid6.Coords) (q : PosShare TreeShare) (uA : Vec F S1280000 .f32) (f0 f1 f2 f3 : Vec F S10000 .f32) : Fin 4 → sProp 𝕄 :=
  fun t => match t with
    | ⟨0, _⟩ => iprop(((mU0 : Memref sig .scVector .vmem S10000 .f32).view.loc (thr d L) ↦{fullShare} landed (F := F) (thr d L) mU0 (uSl0 L) uA f0)
        ∗ ((uSl0 L : Memref sig .scVector .hbm S10000 .f32).view.loc (thr d L) ↦[(uSl0 L : Memref sig .scVector .hbm S10000 .f32).view.set]{q} uA))
    | ⟨1, _⟩ => iprop(((mU1 : Memref sig .scVector .vmem S10000 .f32).view.loc (thr d L) ↦{fullShare} landed (F := F) (thr d L) mU1 (uSl1 L) uA f1)
        ∗ ((uSl1 L : Memref sig .scVector .hbm S10000 .f32).view.loc (thr d L) ↦[(uSl1 L : Memref sig .scVector .hbm S10000 .f32).view.set]{q} uA))
    | ⟨2, _⟩ => iprop(((mU2 : Memref sig .scVector .vmem S10000 .f32).view.loc (thr d L) ↦{fullShare} landed (F := F) (thr d L) mU2 (uSl2 L) uA f2)
        ∗ ((uSl2 L : Memref sig .scVector .hbm S10000 .f32).view.loc (thr d L) ↦[(uSl2 L : Memref sig .scVector .hbm S10000 .f32).view.set]{q} uA))
    | ⟨3, _⟩ => iprop(((mU3 : Memref sig .scVector .vmem S10000 .f32).view.loc (thr d L) ↦{fullShare} landed (F := F) (thr d L) mU3 (uSl3 L) uA f3)
        ∗ ((uSl3 L : Memref sig .scVector .hbm S10000 .f32).view.loc (thr d L) ↦[(uSl3 L : Memref sig .scVector .hbm S10000 .f32).view.set]{q} uA))

omit [FloatOps F] in
instance DU_storable (d : Dev nD) (L : grid6.Coords) (q : PosShare TreeShare) (uA : Vec F S1280000 .f32) (f0 f1 f2 f3 : Vec F S10000 .f32) (t : Fin 4) :
    Storable (upEmb : UEmb _ 𝕄) (DU (F := F) d L q uA f0 f1 f2 f3 t) := by
  unfold DU
  match t with
  | ⟨0, _⟩ => infer_instance
  | ⟨1, _⟩ => infer_instance
  | ⟨2, _⟩ => infer_instance
  | ⟨3, _⟩ => infer_instance

omit [FloatOps F] in
theorem trips1 : k6_t1_loop.trips = 625 := by decide
omit [FloatOps F] in
theorem trips5 : k6_t5_loop.trips = 625 := by decide

omit [FloatOps F] in
theorem read_row_0 (L : grid6.Coords) (g : Vec F S1280000 .f32) (j : S10000.Idx) :
    (oSl0 L).view.read (Elt F) g j = g ((rowRect L 0).emb j) := rfl

omit [FloatOps F] in
theorem writes_whole_read_0 (L : grid6.Coords) (fo : Vec F S1280000 .f32) (w : Vec F S10000 .f32) (j : S10000.Idx) :
    (oSl0 L).view.read (Elt F) ((oSl0 L).view.writes (Elt F) fo [⟨Rect.whole S10000, w⟩]) j = w j := by
  have h := View.read_writes_cons_emb (v := (oSl0 L).view) (Val := Elt F) (f := fo) (Rect.whole S10000) w [] j
  rwa [Rect.emb_whole_apply] at h

omit [FloatOps F] in
theorem read_row_1 (L : grid6.Coords) (g : Vec F S1280000 .f32) (j : S10000.Idx) :
    (oSl1 L).view.read (Elt F) g j = g ((rowRect L 1).emb j) := rfl

omit [FloatOps F] in
theorem writes_whole_read_1 (L : grid6.Coords) (fo : Vec F S1280000 .f32) (w : Vec F S10000 .f32) (j : S10000.Idx) :
    (oSl1 L).view.read (Elt F) ((oSl1 L).view.writes (Elt F) fo [⟨Rect.whole S10000, w⟩]) j = w j := by
  have h := View.read_writes_cons_emb (v := (oSl1 L).view) (Val := Elt F) (f := fo) (Rect.whole S10000) w [] j
  rwa [Rect.emb_whole_apply] at h

omit [FloatOps F] in
theorem read_row_2 (L : grid6.Coords) (g : Vec F S1280000 .f32) (j : S10000.Idx) :
    (oSl2 L).view.read (Elt F) g j = g ((rowRect L 2).emb j) := rfl

omit [FloatOps F] in
theorem writes_whole_read_2 (L : grid6.Coords) (fo : Vec F S1280000 .f32) (w : Vec F S10000 .f32) (j : S10000.Idx) :
    (oSl2 L).view.read (Elt F) ((oSl2 L).view.writes (Elt F) fo [⟨Rect.whole S10000, w⟩]) j = w j := by
  have h := View.read_writes_cons_emb (v := (oSl2 L).view) (Val := Elt F) (f := fo) (Rect.whole S10000) w [] j
  rwa [Rect.emb_whole_apply] at h

omit [FloatOps F] in
theorem read_row_3 (L : grid6.Coords) (g : Vec F S1280000 .f32) (j : S10000.Idx) :
    (oSl3 L).view.read (Elt F) g j = g ((rowRect L 3).emb j) := rfl

omit [FloatOps F] in
theorem writes_whole_read_3 (L : grid6.Coords) (fo : Vec F S1280000 .f32) (w : Vec F S10000 .f32) (j : S10000.Idx) :
    (oSl3 L).view.read (Elt F) ((oSl3 L).view.writes (Elt F) fo [⟨Rect.whole S10000, w⟩]) j = w j := by
  have h := View.read_writes_cons_emb (v := (oSl3 L).view) (Val := Elt F) (f := fo) (Rect.whole S10000) w [] j
  rwa [Rect.emb_whole_apply] at h

theorem tile_core : TileCore F := by
  intro d L q uA srcA dstA hsrc hdst O W
  unfold kern
  simp only [cc6_spmm_kernel_eq_skeleton]
  unfold cc6_spmm_kernel_skel
  simp only [k6_part1_eq_skeleton, k6_part2_eq_skeleton]
  unfold k6_part1_skel k6_part2_skel
  unfold outPiece scratch20 sems7
  iintro ⟨Hmw, Hu, Hs, Hd, ⟨%fo0, Ho0⟩, ⟨%fo1, Ho1⟩, ⟨%fo2, Ho2⟩, ⟨%fo3, Ho3⟩,
    ⟨⟨%f0, H0⟩, ⟨%f1, H1⟩, ⟨%f2, H2⟩, ⟨%f3, H3⟩, ⟨%fE0, HE0⟩, ⟨%fE1, HE1⟩, ⟨%fE2, HE2⟩, ⟨%fE3, HE3⟩, ⟨%fO0, HO0⟩, ⟨%fO1, HO1⟩, ⟨%fO2, HO2⟩, ⟨%fO3, HO3⟩,
      ⟨%ga0, Hsa⟩, ⟨%ga1, Hda⟩, ⟨%gb0, Hsb⟩, ⟨%gb1, Hdb⟩⟩,
    ⟨HsemA, HsemB, HsemU, Hsc0, Hsc1, Hsc2, Hsc3⟩, HO⟩
  ihave Hu := (Entails.of_eq (pts_view_U (F := F) d L q _).symm) $$ Hu
  ihave Hs := (Entails.of_eq (pts_view_S (F := F) d L q _).symm) $$ Hs
  ihave Hd := (Entails.of_eq (pts_view_D (F := F) d L q _).symm) $$ Hd
  ihave H0 := (Entails.of_eq (pts_view_U0 (F := F) d L _).symm) $$ H0
  ihave H1 := (Entails.of_eq (pts_view_U1 (F := F) d L _).symm) $$ H1
  ihave H2 := (Entails.of_eq (pts_view_U2 (F := F) d L _).symm) $$ H2
  ihave H3 := (Entails.of_eq (pts_view_U3 (F := F) d L _).symm) $$ H3
  ihave Hsa := (Entails.of_eq (pts_view_Sa (F := F) d L _).symm) $$ Hsa
  ihave Hda := (Entails.of_eq (pts_view_Da (F := F) d L _).symm) $$ Hda
  ihave Ho0 := (Entails.of_eq (pts_out_0 (F := F) d L _).symm) $$ Ho0
  ihave Ho1 := (Entails.of_eq (pts_out_1 (F := F) d L _).symm) $$ Ho1
  ihave Ho2 := (Entails.of_eq (pts_out_2 (F := F) d L _).symm) $$ Ho2
  ihave Ho3 := (Entails.of_eq (pts_out_3 (F := F) d L _).symm) $$ Ho3
  ihave HsemB := (Entails.of_eq (aside_eq _).symm) $$ HsemB
  ihave Hsc0 := (Entails.of_eq (aside_eq _).symm) $$ Hsc0
  ihave Hsc1 := (Entails.of_eq (aside_eq _).symm) $$ Hsc1
  ihave Hsc2 := (Entails.of_eq (aside_eq _).symm) $$ Hsc2
  ihave Hsc3 := (Entails.of_eq (aside_eq _).symm) $$ Hsc3
  imod (Transfers.batch_alloc' (Lvl := ℕ) (countersEmb (U := UU)) (thr d L) (none : HIx 4) NA
      (DAat (F := F) d L q srcA dstA ![0] inb_S320000_S1600_0 ga0 ga1) (sm := .dma semA.sem) (E := Set.univ)) $$ HsemA with HBA
  imod (Transfers.batch_alloc' (Lvl := ℕ) (countersEmb (U := UU)) (thr d L) (none : HIx 4) NU
      (DU (F := F) d L q uA f0 f1 f2 f3) (sm := .dma semU.sem) (E := Set.univ)) $$ HsemU with HBU
  sl_exec
  rw [bind_assoc]
  sl_for (zeroInv (F := F) d L) $$ [HE0 HO0 HE1 HO1 HE2 HO2 HE3 HO3]
  case region => exact trip1 d L
  · unfold zeroInv
    isplitl [HE0]
    · iexists _; isplitl [HE0]; · iexact HE0
      ipureintro; exact zeroTo_zero _
    isplitl [HO0]
    · iexists _; isplitl [HO0]; · iexact HO0
      ipureintro; exact zeroTo_zero _
    isplitl [HE1]
    · iexists _; isplitl [HE1]; · iexact HE1
      ipureintro; exact zeroTo_zero _
    isplitl [HO1]
    · iexists _; isplitl [HO1]; · iexact HO1
      ipureintro; exact zeroTo_zero _
    isplitl [HE2]
    · iexists _; isplitl [HE2]; · iexact HE2
      ipureintro; exact zeroTo_zero _
    isplitl [HO2]
    · iexists _; isplitl [HO2]; · iexact HO2
      ipureintro; exact zeroTo_zero _
    isplitl [HE3]
    · iexists _; isplitl [HE3]; · iexact HE3
      ipureintro; exact zeroTo_zero _
    iexists _; isplitl [HO3]; · iexact HO3
    ipureintro; exact zeroTo_zero _
  iintro %_ HI
  ihave HI := (Entails.of_eq (congrArg (fun n => zeroInv (F := F) d L n ()) trips1)) $$ HI
  unfold zeroInv
  icases HI with ⟨⟨%zE0, HE0, %hzE0⟩, ⟨%zO0, HO0, %hzO0⟩, ⟨%zE1, HE1, %hzE1⟩, ⟨%zO1, HO1, %hzO1⟩, ⟨%zE2, HE2, %hzE2⟩, ⟨%zO2, HO2, %hzO2⟩, ⟨%zE3, HE3, %hzE3⟩, ⟨%zO3, HO3, %hzO3⟩⟩
  obtain rfl := zeroTo_all zE0 hzE0
  obtain rfl := zeroTo_all zO0 hzO0
  obtain rfl := zeroTo_all zE1 hzE1
  obtain rfl := zeroTo_all zO1 hzO1
  obtain rfl := zeroTo_all zE2 hzE2
  obtain rfl := zeroTo_all zO2 hzO2
  obtain rfl := zeroTo_all zE3 hzE3
  obtain rfl := zeroTo_all zO3 hzO3
  sl_exec
  ihave Hu0 := (Entails.of_eq (pts_view_U0 (F := F) d L _)) $$ HBU_dst0
  ihave Hu0 := (Entails.of_eq (congrArg (fun f => ((thr d L).loc bU0 ↦{fullShare} f : sProp 𝕄)) (landed_row_0 (F := F) d L uA f0))) $$ Hu0
  ihave Hu1 := (Entails.of_eq (pts_view_U1 (F := F) d L _)) $$ HBU_dst1
  ihave Hu1 := (Entails.of_eq (congrArg (fun f => ((thr d L).loc bU1 ↦{fullShare} f : sProp 𝕄)) (landed_row_1 (F := F) d L uA f1))) $$ Hu1
  ihave Hu2 := (Entails.of_eq (pts_view_U2 (F := F) d L _)) $$ HBU_dst2
  ihave Hu2 := (Entails.of_eq (congrArg (fun f => ((thr d L).loc bU2 ↦{fullShare} f : sProp 𝕄)) (landed_row_2 (F := F) d L uA f2))) $$ Hu2
  ihave Hu3 := (Entails.of_eq (pts_view_U3 (F := F) d L _)) $$ HBU_dst3
  ihave Hu3 := (Entails.of_eq (congrArg (fun f => ((thr d L).loc bU3 ↦{fullShare} f : sProp 𝕄)) (landed_row_3 (F := F) d L uA f3))) $$ Hu3
  rw [bind_assoc]
  sl_for (outerInv (F := F) d L q srcA dstA (fun k => rowOf uA L k) O W) $$ [Hmw Hu0 Hu1 Hu2 Hu3 HE0 HE1 HE2 HE3 HO0 HO1 HO2 HO3 Hsb Hdb HsemB HBA Hs Hd HO]
  case region => exact trip2 (F := F) d L _ q srcA dstA hsrc hdst _ O W
  · unfold outerInv
    rw [semAInv_lt d L q srcA dstA 0 (by omega)]
    isplitl [Hmw]; · iexact Hmw
    isplitl [Hu0]; · iexact Hu0
    isplitl [Hu1]; · iexact Hu1
    isplitl [Hu2]; · iexact Hu2
    isplitl [Hu3]; · iexact Hu3
    isplitl [HE0]; · iexact HE0
    isplitl [HE1]; · iexact HE1
    isplitl [HE2]; · iexact HE2
    isplitl [HE3]; · iexact HE3
    isplitl [HO0]; · iexact HO0
    isplitl [HO1]; · iexact HO1
    isplitl [HO2]; · iexact HO2
    isplitl [HO3]; · iexact HO3
    isplitl [Hsb]; · iexists _; iexact Hsb
    isplitl [Hdb]; · iexists _; iexact Hdb
    isplitl [HsemB]; · iapply (Entails.of_eq (aside_eq _)); iexact HsemB
    isplitl [HBA Hs Hd]
    · iexists ga0, ga1
      isplitl [HBA]
      · iapply (Entails.of_eq (congrArg (fun D => Transfers.Batch (countersEmb (U := UU)) (thr d L) (SemLoc.dma semA.sem) (none : HIx 4) NA D 2 0)
          (DAat_congr (F := F) d L q srcA dstA (show (![0] : Fin 1 → Nat) = ![3200 * 0] from rfl) inb_S320000_S1600_0 (inb_of _ (by omega)) ga0 ga1)))
        iexact HBA
      isplitl [Hs]
      · iapply (Entails.of_eq ((pts_sRest (F := F) d L q srcA _ _).trans (congrArg (fun S => (tcLoc d main_v1 ↦[S]{q} srcA : sProp 𝕄))
          (sRest_congr (show (![0] : Fin 1 → Nat) = ![3200 * 0] from rfl) inb_S320000_S1600_0 (inb_of _ (by omega))))))
        iexact Hs
      · iapply (Entails.of_eq ((pts_dRest (F := F) d L q dstA _ _).trans (congrArg (fun S => (tcLoc d main_v3 ↦[S]{q} dstA : sProp 𝕄))
          (dRest_congr (show (![0] : Fin 1 → Nat) = ![3200 * 0] from rfl) inb_S320000_S1600_0 (inb_of _ (by omega))))))
        iexact Hd
    iexists _; isplitr
    swap
    · iexact HO
    ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  iintro %_ HI
  ihave HI := (Entails.of_eq (congrArg (fun n => outerInv (F := F) d L q srcA dstA (fun k => rowOf uA L k) O W n ()) trips2)) $$ HI
  unfold outerInv
  rw [semAInv_ge d L q srcA dstA 100 (by omega)]
  icases HI with ⟨Hmw, Hu0, Hu1, Hu2, Hu3, HE0, HE1, HE2, HE3, HO0, HO1, HO2, HO3, ⟨%gb0', Hsb⟩, ⟨%gb1', Hdb⟩, HsemB, ⟨HsemA, ⟨%ga0', Hsa⟩, ⟨%ga1', Hda⟩, Hs, Hd⟩, %W1, %hW1, HO⟩
  sl_respell []
  rw [bind_assoc]
  sl_for (mergeInv (F := F) d L (fun k => (chunksN (rowOf uA L k) srcA dstA (2 * 100)).1) (fun k => (chunksN (rowOf uA L k) srcA dstA (2 * 100)).2)) $$ [HE0 HO0 HE1 HO1 HE2 HO2 HE3 HO3]
  case region => exact trip5 (F := F) d L _ _ _
  · unfold mergeInv
    isplitl [HE0]
    · iexists _; isplitl [HE0]; · iexact HE0
      ipureintro; exact mergedTo_zero _ _
    isplitl [HO0]; · iexact HO0
    isplitl [HE1]
    · iexists _; isplitl [HE1]; · iexact HE1
      ipureintro; exact mergedTo_zero _ _
    isplitl [HO1]; · iexact HO1
    isplitl [HE2]
    · iexists _; isplitl [HE2]; · iexact HE2
      ipureintro; exact mergedTo_zero _ _
    isplitl [HO2]; · iexact HO2
    isplitl [HE3]
    · iexists _; isplitl [HE3]; · iexact HE3
      ipureintro; exact mergedTo_zero _ _
    iexact HO3
  iintro %_ HI
  ihave HI := (Entails.of_eq (congrArg (fun n => mergeInv (F := F) d L (fun k => (chunksN (rowOf uA L k) srcA dstA (2 * 100)).1) (fun k => (chunksN (rowOf uA L k) srcA dstA (2 * 100)).2) n ()) trips5)) $$ HI
  unfold mergeInv
  icases HI with ⟨⟨%m0, HE0, %hm0⟩, HO0, ⟨%m1, HE1, %hm1⟩, HO1, ⟨%m2, HE2, %hm2⟩, HO2, ⟨%m3, HE3, %hm3⟩, HO3⟩
  ihave HE0 := (Entails.of_eq (pts_view_E0 (F := F) d L _).symm) $$ HE0
  ihave HE1 := (Entails.of_eq (pts_view_E1 (F := F) d L _).symm) $$ HE1
  ihave HE2 := (Entails.of_eq (pts_view_E2 (F := F) d L _).symm) $$ HE2
  ihave HE3 := (Entails.of_eq (pts_view_E3 (F := F) d L _).symm) $$ HE3
  ihave Hsc0 := (Entails.of_eq (aside_eq _)) $$ Hsc0
  ihave Hsc1 := (Entails.of_eq (aside_eq _)) $$ Hsc1
  ihave Hsc2 := (Entails.of_eq (aside_eq _)) $$ Hsc2
  ihave Hsc3 := (Entails.of_eq (aside_eq _)) $$ Hsc3
  sl_exec
  sl_step
  isplitl [Hu]; · iexact Hu
  isplitl [Hs]; · iexact Hs
  isplitl [Hd]; · iexact Hd
  isplitl [Ho0]
  · unfold outDone
    iexists _; isplitr
    swap
    · iapply (Entails.of_eq (pts_out_0 (F := F) d L _)); iexact Ho0
    ipureintro; intro j
    refine (read_row_0 (F := F) L _ j).symm.trans ?_
    refine (writes_whole_read_0 (F := F) L _ _ j).trans ?_
    show m0 j = _
    rw [mergedTo_all _ _ _ hm0]
    rfl
  isplitl [Ho1]
  · unfold outDone
    iexists _; isplitr
    swap
    · iapply (Entails.of_eq (pts_out_1 (F := F) d L _)); iexact Ho1
    ipureintro; intro j
    refine (read_row_1 (F := F) L _ j).symm.trans ?_
    refine (writes_whole_read_1 (F := F) L _ _ j).trans ?_
    show m1 j = _
    rw [mergedTo_all _ _ _ hm1]
    rfl
  isplitl [Ho2]
  · unfold outDone
    iexists _; isplitr
    swap
    · iapply (Entails.of_eq (pts_out_2 (F := F) d L _)); iexact Ho2
    ipureintro; intro j
    refine (read_row_2 (F := F) L _ j).symm.trans ?_
    refine (writes_whole_read_2 (F := F) L _ _ j).trans ?_
    show m2 j = _
    rw [mergedTo_all _ _ _ hm2]
    rfl
  isplitl [Ho3]
  · unfold outDone
    iexists _; isplitr
    swap
    · iapply (Entails.of_eq (pts_out_3 (F := F) d L _)); iexact Ho3
    ipureintro; intro j
    refine (read_row_3 (F := F) L _ j).symm.trans ?_
    refine (writes_whole_read_3 (F := F) L _ _ j).trans ?_
    show m3 j = _
    rw [mergedTo_all _ _ _ hm3]
    rfl
  isplitl [Hu0 Hu1 Hu2 Hu3 HE0 HE1 HE2 HE3 HO0 HO1 HO2 HO3 Hsa Hda Hsb Hdb]
  · isplitl [Hu0]; · iexists _; iexact Hu0
    isplitl [Hu1]; · iexists _; iexact Hu1
    isplitl [Hu2]; · iexists _; iexact Hu2
    isplitl [Hu3]; · iexists _; iexact Hu3
    isplitl [HE0]; · iexists _; iexact HE0
    isplitl [HE1]; · iexists _; iexact HE1
    isplitl [HE2]; · iexists _; iexact HE2
    isplitl [HE3]; · iexists _; iexact HE3
    isplitl [HO0]; · iexists _; iexact HO0
    isplitl [HO1]; · iexists _; iexact HO1
    isplitl [HO2]; · iexists _; iexact HO2
    isplitl [HO3]; · iexists _; iexact HO3
    isplitl [Hsa]; · iexists _; iexact Hsa
    isplitl [Hda]; · iexists _; iexact Hda
    isplitl [Hsb]; · iexists _; iexact Hsb
    iexists _; iexact Hdb
  isplitl [HsemA HsemB HBU Hsc0 Hsc1 Hsc2 Hsc3]
  · isplitl [HsemA]; · iexact HsemA
    isplitl [HsemB]; · iexact HsemB
    isplitl [HBU]; · iexact HBU
    isplitl [Hsc0]; · iexact Hsc0
    isplitl [Hsc1]; · iexact Hsc1
    isplitl [Hsc2]; · iexact Hsc2
    iexact Hsc3
  iexists _; isplitr
  swap
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW1 p hp

end Cert.KernelIdeal.SpmmTile3

end
-- ==== Proof.Runs.lean ====
import proofs.«213134_g57071525429591_cont_9to1_m_136_24_alg».proof.Proof.Launch
import proofs.«213134_g57071525429591_cont_9to1_m_136_24_alg».proof.Proof.EdgeWords
import proofs.«213134_g57071525429591_cont_9to1_m_136_24_alg».proof.Proof.DegTile
import proofs.«213134_g57071525429591_cont_9to1_m_136_24_alg».proof.Proof.SpmmObl
import proofs.«213134_g57071525429591_cont_9to1_m_136_24_alg».proof.Proof.SpmmObl2
import proofs.«213134_g57071525429591_cont_9to1_m_136_24_alg».proof.Proof.SpmmObl3
import proofs.«213134_g57071525429591_cont_9to1_m_136_24_alg».proof.Proof.SpmmTile
import proofs.«213134_g57071525429591_cont_9to1_m_136_24_alg».proof.Proof.SpmmTile2
import proofs.«213134_g57071525429591_cont_9to1_m_136_24_alg».proof.Proof.SpmmTile3

noncomputable section

namespace Cert.KernelIdeal.Setup

open Cert.KernelIdeal Cert.KernelIdeal.Gen
open Idealize.ShloMosaic Idealize.ShloMosaic.StableHlo
open Idealize.ShloMosaic.SparseCore (S V T)
open Idealize.ShloMosaic.SparseCore.Cfg (HIx Pay)
open Idealize.SL.Sem

variable {F : FTy → Type} [FloatOps F] [∀ e, Nonempty (Elt F e)]
variable (m : (ℓ : Loc nD τ sig) → Buf (Elt F) ℓ) (ρ : Dev nD → PrngReg)

theorem sv_degp (d : Dev nD) : (svOf m d).degp = Cert.DegVal.degpOf (svOf m d).dst := rfl

theorem sv_s0 (d : Dev nD) : (svOf m d).s 0 = spmmFlat ((svOf m d).u 0) (svOf m d).src (svOf m d).dst := by
  unfold svOf
  rfl
theorem sv_s1 (d : Dev nD) : (svOf m d).s 1 = spmmFlat ((svOf m d).u 1) (svOf m d).src (svOf m d).dst := by
  unfold svOf
  rfl
theorem sv_s2 (d : Dev nD) : (svOf m d).s 2 = spmmFlat ((svOf m d).u 2) (svOf m d).src (svOf m d).dst := by
  unfold svOf
  rfl

theorem run (hedge : ∀ d j, (m (tcLoc d main_arg1) j).toNat < 10000) :
    θ_run (Cert.KernelIdeal.defs (F := F)) (Cert.KernelIdeal.threads (F := F)) ⟨m, fun _ => 0, ρ⟩ (QC m) :=
  run_of m ρ (hmain m ρ) (fun q => by
    fin_cases q
    · exact DegTile.tileObl0 (svOf m) (sv_degp m) (fun d x => dst_lt m d (hedge d) x)
    · exact SpmmTile.tileObl1 SpmmTile.tile_core (svOf m) (sv_s0 m) (fun d x => src_lt m d (hedge d) x) (fun d x => dst_lt m d (hedge d) x)
    · exact SpmmTile2.tileObl1 SpmmTile2.tile_core (svOf m) (sv_s1 m) (fun d x => src_lt m d (hedge d) x) (fun d x => dst_lt m d (hedge d) x)
    · exact SpmmTile3.tileObl1 SpmmTile3.tile_core (svOf m) (sv_s2 m) (fun d x => src_lt m d (hedge d) x) (fun d x => dst_lt m d (hedge d) x))

end Cert.KernelIdeal.Setup
-- ==== Proof.RefRead.lean ====
import proofs.«213134_g57071525429591_cont_9to1_m_136_24_alg».proof.Proof.RefRun
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S10000, .i32⟩ : BufTy).Contents (Elt F) :=
  iotaInDim S10000 32 0
def val_main_v1 (x1 : (⟨S2x320000, .i32⟩ : BufTy).Contents (Elt F)) : (⟨S1x320000, .i32⟩ : BufTy).Contents (Elt F) :=
  extractStridedSlice S1x320000 ![0, 0] (x1) slices_S2x320000_S1x320000_0_0
def val_main_v2 (x1 : (⟨S2x320000, .i32⟩ : BufTy).Contents (Elt F)) : (⟨S320000, .i32⟩ : BufTy).Contents (Elt F) :=
  shapeCast _ (val_main_v1 (F := F) x1) shapeCasts_S1x320000_S320000
def val_main_v3 (x1 : (⟨S2x320000, .i32⟩ : BufTy).Contents (Elt F)) : (⟨S330000, .i32⟩ : BufTy).Contents (Elt F) :=
  concatenate S330000 0 [⟨S320000, (val_main_v2 (F := F) x1)⟩, ⟨S10000, (val_main_v0 (F := F))⟩] concatenates_S320000_S10000_S330000_d0

def val_main_v4 (x1 : (⟨S2x320000, .i32⟩ : BufTy).Contents (Elt F)) : (⟨S1x320000, .i32⟩ : BufTy).Contents (Elt F) :=
  extractStridedSlice S1x320000 ![1, 0] (x1) slices_S2x320000_S1x320000_1_0
def val_main_v5 (x1 : (⟨S2x320000, .i32⟩ : BufTy).Contents (Elt F)) : (⟨S320000, .i32⟩ : BufTy).Contents (Elt F) :=
  shapeCast _ (val_main_v4 (F := F) x1) shapeCasts_S1x320000_S320000
def val_main_v6 (x1 : (⟨S2x320000, .i32⟩ : BufTy).Contents (Elt F)) : (⟨S330000, .i32⟩ : BufTy).Contents (Elt F) :=
  concatenate S330000 0 [⟨S320000, (val_main_v5 (F := F) x1)⟩, ⟨S10000, (val_main_v0 (F := F))⟩] concatenates_S320000_S10000_S330000_d0

def val_main_cst : (⟨S_, .f32⟩ : BufTy).Contents (Elt F) :=
  constant S_ .f32 0x00000000#32
def val_main_v7 : (⟨S10000, .f32⟩ : BufTy).Contents (Elt F) :=
  broadcastInDim S10000 ![] bcast_S_S10000 (val_main_cst (F := F))
def val_main_c : (⟨S_, .i32⟩ : BufTy).Contents (Elt F) :=
  constantI S_ 32 0#32
def val_main_v8 : (⟨S330000, .i32⟩ : BufTy).Contents (Elt F) :=
  broadcastInDim S330000 ![] bcast_S_S330000 (val_main_c (F := F))
def val_main_v9 (x1 : (⟨S2x320000, .i32⟩ : BufTy).Contents (Elt F)) : (⟨S330000, .i1⟩ : BufTy).Contents (Elt F) :=
  cmpi .slt (val_main_v6 (F := F) x1) (val_main_v8 (F := F))
def val_main_c_0 : (⟨S_, .i32⟩ : BufTy).Contents (Elt F) :=
  constantI S_ 32 10000#32
def val_main_v10 : (⟨S330000, .i32⟩ : BufTy).Contents (Elt F) :=
  broadcastInDim S330000 ![] bcast_S_S330000 (val_main_c_0 (F := F))
def val_main_v11 (x1 : (⟨S2x320000, .i32⟩ : BufTy).Contents (Elt F)) : (⟨S330000, .i32⟩ : BufTy).Contents (Elt F) :=
  addi (val_main_v6 (F := F) x1) (val_main_v10 (F := F))
def val_main_v12 (x1 : (⟨S2x320000, .i32⟩ : BufTy).Contents (Elt F)) : (⟨S330000, .i32⟩ : BufTy).Contents (Elt F) :=
  select (val_main_v9 (F := F) x1) (val_main_v11 (F := F) x1) (val_main_v6 (F := F) x1)
def val_main_v13 (x1 : (⟨S2x320000, .i32⟩ : BufTy).Contents (Elt F)) : (⟨S330000x1, .i32⟩ : BufTy).Contents (Elt F) :=
  broadcastInDim S330000x1 ![0] bcast_S330000_S330000x1_0 (val_main_v12 (F := F) x1)
def val_main_cst_1 : (⟨S_, .f32⟩ : BufTy).Contents (Elt F) :=
  constant S_ .f32 0x3F800000#32
def val_main_v14 : (⟨S330000, .f32⟩ : BufTy).Contents (Elt F) :=
  broadcastInDim S330000 ![] bcast_S_S330000 (val_main_cst_1 (F := F))
def val_main_v15 (x1 : (⟨S2x320000, .i32⟩ : BufTy).Contents (Elt F)) : (⟨S10000, .f32⟩ : BufTy).Contents (Elt F) :=
  Host.scatterAdd scatter_S10000_S330000x1_S330000_n_0_0_1 (val_main_v7 (F := F)) (val_main_v13 (F := F) x1) (val_main_v14 (F := F))

def val_main_cst_2 : (⟨S_, .f32⟩ : BufTy).Contents (Elt F) :=
  constant S_ .f32 0x00000000#32
def val_main_v16 : (⟨S10000, .f32⟩ : BufTy).Contents (Elt F) :=
  broadcastInDim S10000 ![] bcast_S_S10000 (val_main_cst_2 (F := F))
def val_main_v17 (x1 : (⟨S2x320000, .i32⟩ : BufTy).Contents (Elt F)) : (⟨S10000, .i1⟩ : BufTy).Contents (Elt F) :=
  cmpf (F := F) .ogt (val_main_v15 (F := F) x1) (val_main_v16 (F := F))
def val_main_v18 (x1 : (⟨S2x320000, .i32⟩ : BufTy).Contents (Elt F)) : (⟨S10000, .f32⟩ : BufTy).Contents (Elt F) :=
  Host.sqrt (val_main_v15 (F := F) x1)
def val_main_cst_3 : (⟨S_, .f32⟩ : BufTy).Contents (Elt F) :=
  constant S_ .f32 0x3F800000#32
def val_main_v19 : (⟨S10000, .f32⟩ : BufTy).Contents (Elt F) :=
  broadcastInDim S10000 ![] bcast_S_S10000 (val_main_cst_3 (F := F))
def val_main_v20 (x1 : (⟨S2x320000, .i32⟩ : BufTy).Contents (Elt F)) : (⟨S10000, .f32⟩ : BufTy).Contents (Elt F) :=
  Host.divf (val_main_v19 (F := F)) (val_main_v18 (F := F) x1)
def val_main_cst_4 : (⟨S_, .f32⟩ : BufTy).Contents (Elt F) :=
  constant S_ .f32 0x00000000#32
def val_main_call0_v0 : (⟨S_, .f32⟩ : BufTy).Contents (Elt F) :=
  id (val_main_cst_4 (F := F))
def val_main_call0_v1 : (⟨S10000, .f32⟩ : BufTy).Contents (Elt F) :=
  broadcastInDim S10000 ![] bcast_S_S10000 (val_main_call0_v0 (F := F))
def val_main_v21 (x1 : (⟨S2x320000, .i32⟩ : BufTy).Contents (Elt F)) : (⟨S10000, .f32⟩ : BufTy).Contents (Elt F) :=
  select (val_main_v17 (F := F) x1) (val_main_v20 (F := F) x1) (val_main_call0_v1 (F := F))
def val_main_c_5 : (⟨S_, .i32⟩ : BufTy).Contents (Elt F) :=
  constantI S_ 32 0#32
def val_main_v22 : (⟨S330000, .i32⟩ : BufTy).Contents (Elt F) :=
  broadcastInDim S330000 ![] bcast_S_S330000 (val_main_c_5 (F := F))
def val_main_v23 (x1 : (⟨S2x320000, .i32⟩ : BufTy).Contents (Elt F)) : (⟨S330000, .i1⟩ : BufTy).Contents (Elt F) :=
  cmpi .slt (val_main_v3 (F := F) x1) (val_main_v22 (F := F))
def val_main_c_6 : (⟨S_, .i32⟩ : BufTy).Contents (Elt F) :=
  constantI S_ 32 10000#32
def val_main_v24 : (⟨S330000, .i32⟩ : BufTy).Contents (Elt F) :=
  broadcastInDim S330000 ![] bcast_S_S330000 (val_main_c_6 (F := F))
def val_main_v25 (x1 : (⟨S2x320000, .i32⟩ : BufTy).Contents (Elt F)) : (⟨S330000, .i32⟩ : BufTy).Contents (Elt F) :=
  addi (val_main_v3 (F := F) x1) (val_main_v24 (F := F))
def val_main_v26 (x1 : (⟨S2x320000, .i32⟩ : BufTy).Contents (Elt F)) : (⟨S330000, .i32⟩ : BufTy).Contents (Elt F) :=
  select (val_main_v23 (F := F) x1) (val_main_v25 (F := F) x1) (val_main_v3 (F := F) x1)
def val_main_v27 (x1 : (⟨S2x320000, .i32⟩ : BufTy).Contents (Elt F)) : (⟨S330000x1, .i32⟩ : BufTy).Contents (Elt F) :=
  broadcastInDim S330000x1 ![0] bcast_S330000_S330000x1_0 (val_main_v26 (F := F) x1)
def val_main_v28 (x1 : (⟨S2x320000, .i32⟩ : BufTy).Contents (Elt F)) : (⟨S330000, .f32⟩ : BufTy).Contents (Elt F) :=
  Host.gather gather_S10000_S330000x1_S330000_n_0_n_n_0_1_1 (val_main_v21 (F := F) x1) (val_main_v27 (F := F) x1)

def val_main_c_7 : (⟨S_, .i32⟩ : BufTy).Contents (Elt F) :=
  constantI S_ 32 0#32
def val_main_v29 : (⟨S330000, .i32⟩ : BufTy).Contents (Elt F) :=
  broadcastInDim S330000 ![] bcast_S_S330000 (val_main_c_7 (F := F))
def val_main_v30 (x1 : (⟨S2x320000, .i32⟩ : BufTy).Contents (Elt F)) : (⟨S330000, .i1⟩ : BufTy).Contents (Elt F) :=
  cmpi .slt (val_main_v6 (F := F) x1) (val_main_v29 (F := F))
def val_main_c_8 : (⟨S_, .i32⟩ : BufTy).Contents (Elt F) :=
  constantI S_ 32 10000#32
def val_main_v31 : (⟨S330000, .i32⟩ : BufTy).Contents (Elt F) :=
  broadcastInDim S330000 ![] bcast_S_S330000 (val_main_c_8 (F := F))
def val_main_v32 (x1 : (⟨S2x320000, .i32⟩ : BufTy).Contents (Elt F)) : (⟨S330000, .i32⟩ : BufTy).Contents (Elt F) :=
  addi (val_main_v6 (F := F) x1) (val_main_v31 (F := F))
def val_main_v33 (x1 : (⟨S2x320000, .i32⟩ : BufTy).Contents (Elt F)) : (⟨S330000, .i32⟩ : BufTy).Contents (Elt F) :=
  select (val_main_v30 (F := F) x1) (val_main_v32 (F := F) x1) (val_main_v6 (F := F) x1)
def val_main_v34 (x1 : (⟨S2x320000, .i32⟩ : BufTy).Contents (Elt F)) : (⟨S330000x1, .i32⟩ : BufTy).Contents (Elt F) :=
  broadcastInDim S330000x1 ![0] bcast_S330000_S330000x1_0 (val_main_v33 (F := F) x1)
def val_main_v35 (x1 : (⟨S2x320000, .i32⟩ : BufTy).Contents (Elt F)) : (⟨S330000, .f32⟩ : BufTy).Contents (Elt F) :=
  Host.gather gather_S10000_S330000x1_S330000_n_0_n_n_0_1_1 (val_main_v21 (F := F) x1) (val_main_v34 (F := F) x1)

def val_main_v36 (x1 : (⟨S2x320000, .i32⟩ : BufTy).Contents (Elt F)) : (⟨S330000, .f32⟩ : BufTy).Contents (Elt F) :=
  mulf (val_main_v28 (F := F) x1) (val_main_v35 (F := F) x1)
def val_main_v37 (x0 : (⟨S10000x128, .f32⟩ : BufTy).Contents (Elt F)) (x3 : (⟨S128x128, .f32⟩ : BufTy).Contents (Elt F)) : (⟨S10000x128, .f32⟩ : BufTy).Contents (Elt F) :=
  Host.dotGeneral dot_S10000x128_S128x128_S10000x128_1_0_0_1_n_n none (x0) (x3)
def val_main_c_9 : (⟨S_, .i32⟩ : BufTy).Contents (Elt F) :=
  constantI S_ 32 0#32
def val_main_v38 : (⟨S330000, .i32⟩ : BufTy).Contents (Elt F) :=
  broadcastInDim S330000 ![] bcast_S_S330000 (val_main_c_9 (F := F))
def val_main_v39 (x1 : (⟨S2x320000, .i32⟩ : BufTy).Contents (Elt F)) : (⟨S330000, .i1⟩ : BufTy).Contents (Elt F) :=
  cmpi .slt (val_main_v3 (F := F) x1) (val_main_v38 (F := F))
def val_main_c_10 : (⟨S_, .i32⟩ : BufTy).Contents (Elt F) :=
  constantI S_ 32 10000#32
def val_main_v40 : (⟨S330000, .i32⟩ : BufTy).Contents (Elt F) :=
  broadcastInDim S330000 ![] bcast_S_S330000 (val_main_c_10 (F := F))
def val_main_v41 (x1 : (⟨S2x320000, .i32⟩ : BufTy).Contents (Elt F)) : (⟨S330000, .i32⟩ : BufTy).Contents (Elt F) :=
  addi (val_main_v3 (F := F) x1) (val_main_v40 (F := F))
def val_main_v42 (x1 : (⟨S2x320000, .i32⟩ : BufTy).Contents (Elt F)) : (⟨S330000, .i32⟩ : BufTy).Contents (Elt F) :=
  select (val_main_v39 (F := F) x1) (val_main_v41 (F := F) x1) (val_main_v3 (F := F) x1)
def val_main_v43 (x1 : (⟨S2x320000, .i32⟩ : BufTy).Contents (Elt F)) : (⟨S330000x1, .i32⟩ : BufTy).Contents (Elt F) :=
  broadcastInDim S330000x1 ![0] bcast_S330000_S330000x1_0 (val_main_v42 (F := F) x1)
def val_main_v44 (x0 : (⟨S10000x128, .f32⟩ : BufTy).Contents (Elt F)) (x1 : (⟨S2x320000, .i32⟩ : BufTy).Contents (Elt F)) (x3 : (⟨S128x128, .f32⟩ : BufTy).Contents (Elt F)) : (⟨S330000x128, .f32⟩ : BufTy).Contents (Elt F) :=
  Host.gather gather_S10000x128_S330000x1_S330000x128_1_0_n_n_0_1_1128 (val_main_v37 (F := F) x0 x3) (val_main_v43 (F := F) x1)

def val_main_v45 (x1 : (⟨S2x320000, .i32⟩ : BufTy).Contents (Elt F)) : (⟨S330000x1, .f32⟩ : BufTy).Contents (Elt F) :=
  broadcastInDim S330000x1 ![0] bcast_S330000_S330000x1_0 (val_main_v36 (F := F) x1)
def val_main_v46 (x1 : (⟨S2x320000, .i32⟩ : BufTy).Contents (Elt F)) : (⟨S330000x128, .f32⟩ : BufTy).Contents (Elt F) :=
  broadcastInDim S330000x128 ![0, 1] bcast_S330000x1_S330000x128_0_1 (val_main_v45 (F := F) x1)
def val_main_v47 (x0 : (⟨S10000x128, .f32⟩ : BufTy).Contents (Elt F)) (x1 : (⟨S2x320000, .i32⟩ : BufTy).Contents (Elt F)) (x3 : (⟨S128x128, .f32⟩ : BufTy).Contents (Elt F)) : (⟨S330000x128, .f32⟩ : BufTy).Contents (Elt F) :=
  mulf (val_main_v44 (F := F) x0 x1 x3) (val_main_v46 (F := F) x1)
def val_main_cst_11 : (⟨S_, .f32⟩ : BufTy).Contents (Elt F) :=
  constant S_ .f32 0x00000000#32
def val_main_v48 : (⟨S10000x128, .f32⟩ : BufTy).Contents (Elt F) :=
  broadcastInDim S10000x128 ![] bcast_S_S10000x128 (val_main_cst_11 (F := F))
def val_main_c_12 : (⟨S_, .i32⟩ : BufTy).Contents (Elt F) :=
  constantI S_ 32 0#32
def val_main_v49 : (⟨S330000, .i32⟩ : BufTy).Contents (Elt F) :=
  broadcastInDim S330000 ![] bcast_S_S330000 (val_main_c_12 (F := F))
def val_main_v50 (x1 : (⟨S2x320000, .i32⟩ : BufTy).Contents (Elt F)) : (⟨S330000, .i1⟩ : BufTy).Contents (Elt F) :=
  cmpi .slt (val_main_v6 (F := F) x1) (val_main_v49 (F := F))
def val_main_c_13 : (⟨S_, .i32⟩ : BufTy).Contents (Elt F) :=
  constantI S_ 32 10000#32
def val_main_v51 : (⟨S330000, .i32⟩ : BufTy).Contents (Elt F) :=
  broadcastInDim S330000 ![] bcast_S_S330000 (val_main_c_13 (F := F))
def val_main_v52 (x1 : (⟨S2x320000, .i32⟩ : BufTy).Contents (Elt F)) : (⟨S330000, .i32⟩ : BufTy).Contents (Elt F) :=
  addi (val_main_v6 (F := F) x1) (val_main_v51 (F := F))
def val_main_v53 (x1 : (⟨S2x320000, .i32⟩ : BufTy).Contents (Elt F)) : (⟨S330000, .i32⟩ : BufTy).Contents (Elt F) :=
  select (val_main_v50 (F := F) x1) (val_main_v52 (F := F) x1) (val_main_v6 (F := F) x1)
def val_main_v54 (x1 : (⟨S2x320000, .i32⟩ : BufTy).Contents (Elt F)) : (⟨S330000x1, .i32⟩ : BufTy).Contents (Elt F) :=
  broadcastInDim S330000x1 ![0] bcast_S330000_S330000x1_0 (val_main_v53 (F := F) x1)
def val_main_v55 (x0 : (⟨S10000x128, .f32⟩ : BufTy).Contents (Elt F)) (x1 : (⟨S2x320000, .i32⟩ : BufTy).Contents (Elt F)) (x3 : (⟨S128x128, .f32⟩ : BufTy).Contents (Elt F)) : (⟨S10000x128, .f32⟩ : BufTy).Contents (Elt F) :=
  Host.scatterAdd scatter_S10000x128_S330000x1_S330000x128_1_0_0_1 (val_main_v48 (F := F)) (val_main_v54 (F := F) x1) (val_main_v47 (F := F) x0 x1 x3)

def val_main_v56 (x4 : (⟨S128, .f32⟩ : BufTy).Contents (Elt F)) : (⟨S1x128, .f32⟩ : BufTy).Contents (Elt F) :=
  broadcastInDim S1x128 ![1] bcast_S128_S1x128_1 (x4)
def val_main_v57 (x4 : (⟨S128, .f32⟩ : BufTy).Contents (Elt F)) : (⟨S10000x128, .f32⟩ : BufTy).Contents (Elt F) :=
  broadcastInDim S10000x128 ![0, 1] bcast_S1x128_S10000x128_0_1 (val_main_v56 (F := F) x4)
def val_main_v58 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) : (⟨S10000x128, .f32⟩ : BufTy).Contents (Elt F) :=
  addf (val_main_v55 (F := F) x0 x1 x3) (val_main_v57 (F := F) x4)
def val_main_call1_cst : (⟨S_, .f32⟩ : BufTy).Contents (Elt F) :=
  constant S_ .f32 0x00000000#32
def val_main_call1_v0 : (⟨S10000x128, .f32⟩ : BufTy).Contents (Elt F) :=
  broadcastInDim S10000x128 ![] bcast_S_S10000x128 (val_main_call1_cst (F := F))
def val_main_v59 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) : (⟨S10000x128, .f32⟩ : BufTy).Contents (Elt F) :=
  maximumf (val_main_v58 (F := F) x0 x1 x3 x4) (val_main_call1_v0 (F := F))
def val_main_v60 : (⟨S10000, .i32⟩ : BufTy).Contents (Elt F) :=
  iotaInDim S10000 32 0
def val_main_v61 (x1 : (⟨S2x320000, .i32⟩ : BufTy).Contents (Elt F)) : (⟨S1x320000, .i32⟩ : BufTy).Contents (Elt F) :=
  extractStridedSlice S1x320000 ![0, 0] (x1) slices_S2x320000_S1x320000_0_0
def val_main_v62 (x1 : (⟨S2x320000, .i32⟩ : BufTy).Contents (Elt F)) : (⟨S320000, .i32⟩ : BufTy).Contents (Elt F) :=
  shapeCast _ (val_main_v61 (F := F) x1) shapeCasts_S1x320000_S320000
def val_main_v63 (x1 : (⟨S2x320000, .i32⟩ : BufTy).Contents (Elt F)) : (⟨S330000, .i32⟩ : BufTy).Contents (Elt F) :=
  concatenate S330000 0 [⟨S320000, (val_main_v62 (F := F) x1)⟩, ⟨S10000, (val_main_v60 (F := F))⟩] concatenates_S320000_S10000_S330000_d0

def val_main_v64 (x1 : (⟨S2x320000, .i32⟩ : BufTy).Contents (Elt F)) : (⟨S1x320000, .i32⟩ : BufTy).Contents (Elt F) :=
  extractStridedSlice S1x320000 ![1, 0] (x1) slices_S2x320000_S1x320000_1_0
def val_main_v65 (x1 : (⟨S2x320000, .i32⟩ : BufTy).Contents (Elt F)) : (⟨S320000, .i32⟩ : BufTy).Contents (Elt F) :=
  shapeCast _ (val_main_v64 (F := F) x1) shapeCasts_S1x320000_S320000
def val_main_v66 (x1 : (⟨S2x320000, .i32⟩ : BufTy).Contents (Elt F)) : (⟨S330000, .i32⟩ : BufTy).Contents (Elt F) :=
  concatenate S330000 0 [⟨S320000, (val_main_v65 (F := F) x1)⟩, ⟨S10000, (val_main_v60 (F := F))⟩] concatenates_S320000_S10000_S330000_d0

def val_main_cst_14 : (⟨S_, .f32⟩ : BufTy).Contents (Elt F) :=
  constant S_ .f32 0x00000000#32
def val_main_v67 : (⟨S10000, .f32⟩ : BufTy).Contents (Elt F) :=
  broadcastInDim S10000 ![] bcast_S_S10000 (val_main_cst_14 (F := F))
def val_main_c_15 : (⟨S_, .i32⟩ : BufTy).Contents (Elt F) :=
  constantI S_ 32 0#32
def val_main_v68 : (⟨S330000, .i32⟩ : BufTy).Contents (Elt F) :=
  broadcastInDim S330000 ![] bcast_S_S330000 (val_main_c_15 (F := F))
def val_main_v69 (x1 : (⟨S2x320000, .i32⟩ : BufTy).Contents (Elt F)) : (⟨S330000, .i1⟩ : BufTy).Contents (Elt F) :=
  cmpi .slt (val_main_v66 (F := F) x1) (val_main_v68 (F := F))
def val_main_c_16 : (⟨S_, .i32⟩ : BufTy).Contents (Elt F) :=
  constantI S_ 32 10000#32
def val_main_v70 : (⟨S330000, .i32⟩ : BufTy).Contents (Elt F) :=
  broadcastInDim S330000 ![] bcast_S_S330000 (val_main_c_16 (F := F))
def val_main_v71 (x1 : (⟨S2x320000, .i32⟩ : BufTy).Contents (Elt F)) : (⟨S330000, .i32⟩ : BufTy).Contents (Elt F) :=
  addi (val_main_v66 (F := F) x1) (val_main_v70 (F := F))
def val_main_v72 (x1 : (⟨S2x320000, .i32⟩ : BufTy).Contents (Elt F)) : (⟨S330000, .i32⟩ : BufTy).Contents (Elt F) :=
  select (val_main_v69 (F := F) x1) (val_main_v71 (F := F) x1) (val_main_v66 (F := F) x1)
def val_main_v73 (x1 : (⟨S2x320000, .i32⟩ : BufTy).Contents (Elt F)) : (⟨S330000x1, .i32⟩ : BufTy).Contents (Elt F) :=
  broadcastInDim S330000x1 ![0] bcast_S330000_S330000x1_0 (val_main_v72 (F := F) x1)
def val_main_cst_17 : (⟨S_, .f32⟩ : BufTy).Contents (Elt F) :=
  constant S_ .f32 0x3F800000#32
def val_main_v74 : (⟨S330000, .f32⟩ : BufTy).Contents (Elt F) :=
  broadcastInDim S330000 ![] bcast_S_S330000 (val_main_cst_17 (F := F))
def val_main_v75 (x1 : (⟨S2x320000, .i32⟩ : BufTy).Contents (Elt F)) : (⟨S10000, .f32⟩ : BufTy).Contents (Elt F) :=
  Host.scatterAdd scatter_S10000_S330000x1_S330000_n_0_0_1 (val_main_v67 (F := F)) (val_main_v73 (F := F) x1) (val_main_v74 (F := F))

def val_main_cst_18 : (⟨S_, .f32⟩ : BufTy).Contents (Elt F) :=
  constant S_ .f32 0x00000000#32
def val_main_v76 : (⟨S10000, .f32⟩ : BufTy).Contents (Elt F) :=
  broadcastInDim S10000 ![] bcast_S_S10000 (val_main_cst_18 (F := F))
def val_main_v77 (x1 : (⟨S2x320000, .i32⟩ : BufTy).Contents (Elt F)) : (⟨S10000, .i1⟩ : BufTy).Contents (Elt F) :=
  cmpf (F := F) .ogt (val_main_v75 (F := F) x1) (val_main_v76 (F := F))
def val_main_v78 (x1 : (⟨S2x320000, .i32⟩ : BufTy).Contents (Elt F)) : (⟨S10000, .f32⟩ : BufTy).Contents (Elt F) :=
  Host.sqrt (val_main_v75 (F := F) x1)
def val_main_cst_19 : (⟨S_, .f32⟩ : BufTy).Contents (Elt F) :=
  constant S_ .f32 0x3F800000#32
def val_main_v79 : (⟨S10000, .f32⟩ : BufTy).Contents (Elt F) :=
  broadcastInDim S10000 ![] bcast_S_S10000 (val_main_cst_19 (F := F))
def val_main_v80 (x1 : (⟨S2x320000, .i32⟩ : BufTy).Contents (Elt F)) : (⟨S10000, .f32⟩ : BufTy).Contents (Elt F) :=
  Host.divf (val_main_v79 (F := F)) (val_main_v78 (F := F) x1)
def val_main_cst_20 : (⟨S_, .f32⟩ : BufTy).Contents (Elt F) :=
  constant S_ .f32 0x00000000#32
def val_main_call2_v0 : (⟨S_, .f32⟩ : BufTy).Contents (Elt F) :=
  id (val_main_cst_20 (F := F))
def val_main_call2_v1 : (⟨S10000, .f32⟩ : BufTy).Contents (Elt F) :=
  broadcastInDim S10000 ![] bcast_S_S10000 (val_main_call2_v0 (F := F))
def val_main_v81 (x1 : (⟨S2x320000, .i32⟩ : BufTy).Contents (Elt F)) : (⟨S10000, .f32⟩ : BufTy).Contents (Elt F) :=
  select (val_main_v77 (F := F) x1) (val_main_v80 (F := F) x1) (val_main_call2_v1 (F := F))
def val_main_c_21 : (⟨S_, .i32⟩ : BufTy).Contents (Elt F) :=
  constantI S_ 32 0#32
def val_main_v82 : (⟨S330000, .i32⟩ : BufTy).Contents (Elt F) :=
  broadcastInDim S330000 ![] bcast_S_S330000 (val_main_c_21 (F := F))
def val_main_v83 (x1 : (⟨S2x320000, .i32⟩ : BufTy).Contents (Elt F)) : (⟨S330000, .i1⟩ : BufTy).Contents (Elt F) :=
  cmpi .slt (val_main_v63 (F := F) x1) (val_main_v82 (F := F))
def val_main_c_22 : (⟨S_, .i32⟩ : BufTy).Contents (Elt F) :=
  constantI S_ 32 10000#32
def val_main_v84 : (⟨S330000, .i32⟩ : BufTy).Contents (Elt F) :=
  broadcastInDim S330000 ![] bcast_S_S330000 (val_main_c_22 (F := F))
def val_main_v85 (x1 : (⟨S2x320000, .i32⟩ : BufTy).Contents (Elt F)) : (⟨S330000, .i32⟩ : BufTy).Contents (Elt F) :=
  addi (val_main_v63 (F := F) x1) (val_main_v84 (F := F))
def val_main_v86 (x1 : (⟨S2x320000, .i32⟩ : BufTy).Contents (Elt F)) : (⟨S330000, .i32⟩ : BufTy).Contents (Elt F) :=
  select (val_main_v83 (F := F) x1) (val_main_v85 (F := F) x1) (val_main_v63 (F := F) x1)
def val_main_v87 (x1 : (⟨S2x320000, .i32⟩ : BufTy).Contents (Elt F)) : (⟨S330000x1, .i32⟩ : BufTy).Contents (Elt F) :=
  broadcastInDim S330000x1 ![0] bcast_S330000_S330000x1_0 (val_main_v86 (F := F) x1)
def val_main_v88 (x1 : (⟨S2x320000, .i32⟩ : BufTy).Contents (Elt F)) : (⟨S330000, .f32⟩ : BufTy).Contents (Elt F) :=
  Host.gather gather_S10000_S330000x1_S330000_n_0_n_n_0_1_1 (val_main_v81 (F := F) x1) (val_main_v87 (F := F) x1)

def val_main_c_23 : (⟨S_, .i32⟩ : BufTy).Contents (Elt F) :=
  constantI S_ 32 0#32
def val_main_v89 : (⟨S330000, .i32⟩ : BufTy).Contents (Elt F) :=
  broadcastInDim S330000 ![] bcast_S_S330000 (val_main_c_23 (F := F))
def val_main_v90 (x1 : (⟨S2x320000, .i32⟩ : BufTy).Contents (Elt F)) : (⟨S330000, .i1⟩ : BufTy).Contents (Elt F) :=
  cmpi .slt (val_main_v66 (F := F) x1) (val_main_v89 (F := F))
def val_main_c_24 : (⟨S_, .i32⟩ : BufTy).Contents (Elt F) :=
  constantI S_ 32 10000#32
def val_main_v91 : (⟨S330000, .i32⟩ : BufTy).Contents (Elt F) :=
  broadcastInDim S330000 ![] bcast_S_S330000 (val_main_c_24 (F := F))
def val_main_v92 (x1 : (⟨S2x320000, .i32⟩ : BufTy).Contents (Elt F)) : (⟨S330000, .i32⟩ : BufTy).Contents (Elt F) :=
  addi (val_main_v66 (F := F) x1) (val_main_v91 (F := F))
def val_main_v93 (x1 : (⟨S2x320000, .i32⟩ : BufTy).Contents (Elt F)) : (⟨S330000, .i32⟩ : BufTy).Contents (Elt F) :=
  select (val_main_v90 (F := F) x1) (val_main_v92 (F := F) x1) (val_main_v66 (F := F) x1)
def val_main_v94 (x1 : (⟨S2x320000, .i32⟩ : BufTy).Contents (Elt F)) : (⟨S330000x1, .i32⟩ : BufTy).Contents (Elt F) :=
  broadcastInDim S330000x1 ![0] bcast_S330000_S330000x1_0 (val_main_v93 (F := F) x1)
def val_main_v95 (x1 : (⟨S2x320000, .i32⟩ : BufTy).Contents (Elt F)) : (⟨S330000, .f32⟩ : BufTy).Contents (Elt F) :=
  Host.gather gather_S10000_S330000x1_S330000_n_0_n_n_0_1_1 (val_main_v81 (F := F) x1) (val_main_v94 (F := F) x1)

def val_main_v96 (x1 : (⟨S2x320000, .i32⟩ : BufTy).Contents (Elt F)) : (⟨S330000, .f32⟩ : BufTy).Contents (Elt F) :=
  mulf (val_main_v88 (F := F) x1) (val_main_v95 (F := F) x1)
def val_main_v97 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S10000x128, .f32⟩ : BufTy).Contents (Elt F) :=
  Host.dotGeneral dot_S10000x128_S128x128_S10000x128_1_0_0_1_n_n none (val_main_v59 (F := F) x0 x1 x3 x4) (x5)
def val_main_c_25 : (⟨S_, .i32⟩ : BufTy).Contents (Elt F) :=
  constantI S_ 32 0#32
def val_main_v98 : (⟨S330000, .i32⟩ : BufTy).Contents (Elt F) :=
  broadcastInDim S330000 ![] bcast_S_S330000 (val_main_c_25 (F := F))
def val_main_v99 (x1 : (⟨S2x320000, .i32⟩ : BufTy).Contents (Elt F)) : (⟨S330000, .i1⟩ : BufTy).Contents (Elt F) :=
  cmpi .slt (val_main_v63 (F := F) x1) (val_main_v98 (F := F))
def val_main_c_26 : (⟨S_, .i32⟩ : BufTy).Contents (Elt F) :=
  constantI S_ 32 10000#32
def val_main_v100 : (⟨S330000, .i32⟩ : BufTy).Contents (Elt F) :=
  broadcastInDim S330000 ![] bcast_S_S330000 (val_main_c_26 (F := F))
def val_main_v101 (x1 : (⟨S2x320000, .i32⟩ : BufTy).Contents (Elt F)) : (⟨S330000, .i32⟩ : BufTy).Contents (Elt F) :=
  addi (val_main_v63 (F := F) x1) (val_main_v100 (F := F))
def val_main_v102 (x1 : (⟨S2x320000, .i32⟩ : BufTy).Contents (Elt F)) : (⟨S330000, .i32⟩ : BufTy).Contents (Elt F) :=
  select (val_main_v99 (F := F) x1) (val_main_v101 (F := F) x1) (val_main_v63 (F := F) x1)
def val_main_v103 (x1 : (⟨S2x320000, .i32⟩ : BufTy).Contents (Elt F)) : (⟨S330000x1, .i32⟩ : BufTy).Contents (Elt F) :=
  broadcastInDim S330000x1 ![0] bcast_S330000_S330000x1_0 (val_main_v102 (F := F) x1)
def val_main_v104 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S330000x128, .f32⟩ : BufTy).Contents (Elt F) :=
  Host.gather gather_S10000x128_S330000x1_S330000x128_1_0_n_n_0_1_1128 (val_main_v97 (F := F) x0 x1 x3 x4 x5) (val_main_v103 (F := F) x1)

def val_main_v105 (x1 : (⟨S2x320000, .i32⟩ : BufTy).Contents (Elt F)) : (⟨S330000x1, .f32⟩ : BufTy).Contents (Elt F) :=
  broadcastInDim S330000x1 ![0] bcast_S330000_S330000x1_0 (val_main_v96 (F := F) x1)
def val_main_v106 (x1 : (⟨S2x320000, .i32⟩ : BufTy).Contents (Elt F)) : (⟨S330000x128, .f32⟩ : BufTy).Contents (Elt F) :=
  broadcastInDim S330000x128 ![0, 1] bcast_S330000x1_S330000x128_0_1 (val_main_v105 (F := F) x1)
def val_main_v107 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S330000x128, .f32⟩ : BufTy).Contents (Elt F) :=
  mulf (val_main_v104 (F := F) x0 x1 x3 x4 x5) (val_main_v106 (F := F) x1)
def val_main_cst_27 : (⟨S_, .f32⟩ : BufTy).Contents (Elt F) :=
  constant S_ .f32 0x00000000#32
def val_main_v108 : (⟨S10000x128, .f32⟩ : BufTy).Contents (Elt F) :=
  broadcastInDim S10000x128 ![] bcast_S_S10000x128 (val_main_cst_27 (F := F))
def val_main_c_28 : (⟨S_, .i32⟩ : BufTy).Contents (Elt F) :=
  constantI S_ 32 0#32
def val_main_v109 : (⟨S330000, .i32⟩ : BufTy).Contents (Elt F) :=
  broadcastInDim S330000 ![] bcast_S_S330000 (val_main_c_28 (F := F))
def val_main_v110 (x1 : (⟨S2x320000, .i32⟩ : BufTy).Contents (Elt F)) : (⟨S330000, .i1⟩ : BufTy).Contents (Elt F) :=
  cmpi .slt (val_main_v66 (F := F) x1) (val_main_v109 (F := F))
def val_main_c_29 : (⟨S_, .i32⟩ : BufTy).Contents (Elt F) :=
  constantI S_ 32 10000#32
def val_main_v111 : (⟨S330000, .i32⟩ : BufTy).Contents (Elt F) :=
  broadcastInDim S330000 ![] bcast_S_S330000 (val_main_c_29 (F := F))
def val_main_v112 (x1 : (⟨S2x320000, .i32⟩ : BufTy).Contents (Elt F)) : (⟨S330000, .i32⟩ : BufTy).Contents (Elt F) :=
  addi (val_main_v66 (F := F) x1) (val_main_v111 (F := F))
def val_main_v113 (x1 : (⟨S2x320000, .i32⟩ : BufTy).Contents (Elt F)) : (⟨S330000, .i32⟩ : BufTy).Contents (Elt F) :=
  select (val_main_v110 (F := F) x1) (val_main_v112 (F := F) x1) (val_main_v66 (F := F) x1)
def val_main_v114 (x1 : (⟨S2x320000, .i32⟩ : BufTy).Contents (Elt F)) : (⟨S330000x1, .i32⟩ : BufTy).Contents (Elt F) :=
  broadcastInDim S330000x1 ![0] bcast_S330000_S330000x1_0 (val_main_v113 (F := F) x1)
def val_main_v115 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S10000x128, .f32⟩ : BufTy).Contents (Elt F) :=
  Host.scatterAdd scatter_S10000x128_S330000x1_S330000x128_1_0_0_1 (val_main_v108 (F := F)) (val_main_v114 (F := F) x1) (val_main_v107 (F := F) x0 x1 x3 x4 x5)

def val_main_v116 (x6 : (⟨S128, .f32⟩ : BufTy).Contents (Elt F)) : (⟨S1x128, .f32⟩ : BufTy).Contents (Elt F) :=
  broadcastInDim S1x128 ![1] bcast_S128_S1x128_1 (x6)
def val_main_v117 (x6 : (⟨S128, .f32⟩ : BufTy).Contents (Elt F)) : (⟨S10000x128, .f32⟩ : BufTy).Contents (Elt F) :=
  broadcastInDim S10000x128 ![0, 1] bcast_S1x128_S10000x128_0_1 (val_main_v116 (F := F) x6)
def val_main_v118 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S10000x128, .f32⟩ : BufTy).Contents (Elt F) :=
  addf (val_main_v115 (F := F) x0 x1 x3 x4 x5) (val_main_v117 (F := F) x6)
def val_main_call3_cst : (⟨S_, .f32⟩ : BufTy).Contents (Elt F) :=
  constant S_ .f32 0x00000000#32
def val_main_call3_v0 : (⟨S10000x128, .f32⟩ : BufTy).Contents (Elt F) :=
  broadcastInDim S10000x128 ![] bcast_S_S10000x128 (val_main_call3_cst (F := F))
def val_main_v119 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S10000x128, .f32⟩ : BufTy).Contents (Elt F) :=
  maximumf (val_main_v118 (F := F) x0 x1 x3 x4 x5 x6) (val_main_call3_v0 (F := F))
def val_main_v120 : (⟨S10000, .i32⟩ : BufTy).Contents (Elt F) :=
  iotaInDim S10000 32 0
def val_main_v121 (x1 : (⟨S2x320000, .i32⟩ : BufTy).Contents (Elt F)) : (⟨S1x320000, .i32⟩ : BufTy).Contents (Elt F) :=
  extractStridedSlice S1x320000 ![0, 0] (x1) slices_S2x320000_S1x320000_0_0
def val_main_v122 (x1 : (⟨S2x320000, .i32⟩ : BufTy).Contents (Elt F)) : (⟨S320000, .i32⟩ : BufTy).Contents (Elt F) :=
  shapeCast _ (val_main_v121 (F := F) x1) shapeCasts_S1x320000_S320000
def val_main_v123 (x1 : (⟨S2x320000, .i32⟩ : BufTy).Contents (Elt F)) : (⟨S330000, .i32⟩ : BufTy).Contents (Elt F) :=
  concatenate S330000 0 [⟨S320000, (val_main_v122 (F := F) x1)⟩, ⟨S10000, (val_main_v120 (F := F))⟩] concatenates_S320000_S10000_S330000_d0

def val_main_v124 (x1 : (⟨S2x320000, .i32⟩ : BufTy).Contents (Elt F)) : (⟨S1x320000, .i32⟩ : BufTy).Contents (Elt F) :=
  extractStridedSlice S1x320000 ![1, 0] (x1) slices_S2x320000_S1x320000_1_0
def val_main_v125 (x1 : (⟨S2x320000, .i32⟩ : BufTy).Contents (Elt F)) : (⟨S320000, .i32⟩ : BufTy).Contents (Elt F) :=
  shapeCast _ (val_main_v124 (F := F) x1) shapeCasts_S1x320000_S320000
def val_main_v126 (x1 : (⟨S2x320000, .i32⟩ : BufTy).Contents (Elt F)) : (⟨S330000, .i32⟩ : BufTy).Contents (Elt F) :=
  concatenate S330000 0 [⟨S320000, (val_main_v125 (F := F) x1)⟩, ⟨S10000, (val_main_v120 (F := F))⟩] concatenates_S320000_S10000_S330000_d0

def val_main_cst_30 : (⟨S_, .f32⟩ : BufTy).Contents (Elt F) :=
  constant S_ .f32 0x00000000#32
def val_main_v127 : (⟨S10000, .f32⟩ : BufTy).Contents (Elt F) :=
  broadcastInDim S10000 ![] bcast_S_S10000 (val_main_cst_30 (F := F))
def val_main_c_31 : (⟨S_, .i32⟩ : BufTy).Contents (Elt F) :=
  constantI S_ 32 0#32
def val_main_v128 : (⟨S330000, .i32⟩ : BufTy).Contents (Elt F) :=
  broadcastInDim S330000 ![] bcast_S_S330000 (val_main_c_31 (F := F))
def val_main_v129 (x1 : (⟨S2x320000, .i32⟩ : BufTy).Contents (Elt F)) : (⟨S330000, .i1⟩ : BufTy).Contents (Elt F) :=
  cmpi .slt (val_main_v126 (F := F) x1) (val_main_v128 (F := F))
def val_main_c_32 : (⟨S_, .i32⟩ : BufTy).Contents (Elt F) :=
  constantI S_ 32 10000#32
def val_main_v130 : (⟨S330000, .i32⟩ : BufTy).Contents (Elt F) :=
  broadcastInDim S330000 ![] bcast_S_S330000 (val_main_c_32 (F := F))
def val_main_v131 (x1 : (⟨S2x320000, .i32⟩ : BufTy).Contents (Elt F)) : (⟨S330000, .i32⟩ : BufTy).Contents (Elt F) :=
  addi (val_main_v126 (F := F) x1) (val_main_v130 (F := F))
def val_main_v132 (x1 : (⟨S2x320000, .i32⟩ : BufTy).Contents (Elt F)) : (⟨S330000, .i32⟩ : BufTy).Contents (Elt F) :=
  select (val_main_v129 (F := F) x1) (val_main_v131 (F := F) x1) (val_main_v126 (F := F) x1)
def val_main_v133 (x1 : (⟨S2x320000, .i32⟩ : BufTy).Contents (Elt F)) : (⟨S330000x1, .i32⟩ : BufTy).Contents (Elt F) :=
  broadcastInDim S330000x1 ![0] bcast_S330000_S330000x1_0 (val_main_v132 (F := F) x1)
def val_main_cst_33 : (⟨S_, .f32⟩ : BufTy).Contents (Elt F) :=
  constant S_ .f32 0x3F800000#32
def val_main_v134 : (⟨S330000, .f32⟩ : BufTy).Contents (Elt F) :=
  broadcastInDim S330000 ![] bcast_S_S330000 (val_main_cst_33 (F := F))
def val_main_v135 (x1 : (⟨S2x320000, .i32⟩ : BufTy).Contents (Elt F)) : (⟨S10000, .f32⟩ : BufTy).Contents (Elt F) :=
  Host.scatterAdd scatter_S10000_S330000x1_S330000_n_0_0_1 (val_main_v127 (F := F)) (val_main_v133 (F := F) x1) (val_main_v134 (F := F))

def val_main_cst_34 : (⟨S_, .f32⟩ : BufTy).Contents (Elt F) :=
  constant S_ .f32 0x00000000#32
def val_main_v136 : (⟨S10000, .f32⟩ : BufTy).Contents (Elt F) :=
  broadcastInDim S10000 ![] bcast_S_S10000 (val_main_cst_34 (F := F))
def val_main_v137 (x1 : (⟨S2x320000, .i32⟩ : BufTy).Contents (Elt F)) : (⟨S10000, .i1⟩ : BufTy).Contents (Elt F) :=
  cmpf (F := F) .ogt (val_main_v135 (F := F) x1) (val_main_v136 (F := F))
def val_main_v138 (x1 : (⟨S2x320000, .i32⟩ : BufTy).Contents (Elt F)) : (⟨S10000, .f32⟩ : BufTy).Contents (Elt F) :=
  Host.sqrt (val_main_v135 (F := F) x1)
def val_main_cst_35 : (⟨S_, .f32⟩ : BufTy).Contents (Elt F) :=
  constant S_ .f32 0x3F800000#32
def val_main_v139 : (⟨S10000, .f32⟩ : BufTy).Contents (Elt F) :=
  broadcastInDim S10000 ![] bcast_S_S10000 (val_main_cst_35 (F := F))
def val_main_v140 (x1 : (⟨S2x320000, .i32⟩ : BufTy).Contents (Elt F)) : (⟨S10000, .f32⟩ : BufTy).Contents (Elt F) :=
  Host.divf (val_main_v139 (F := F)) (val_main_v138 (F := F) x1)
def val_main_cst_36 : (⟨S_, .f32⟩ : BufTy).Contents (Elt F) :=
  constant S_ .f32 0x00000000#32
def val_main_call4_v0 : (⟨S_, .f32⟩ : BufTy).Contents (Elt F) :=
  id (val_main_cst_36 (F := F))
def val_main_call4_v1 : (⟨S10000, .f32⟩ : BufTy).Contents (Elt F) :=
  broadcastInDim S10000 ![] bcast_S_S10000 (val_main_call4_v0 (F := F))
def val_main_v141 (x1 : (⟨S2x320000, .i32⟩ : BufTy).Contents (Elt F)) : (⟨S10000, .f32⟩ : BufTy).Contents (Elt F) :=
  select (val_main_v137 (F := F) x1) (val_main_v140 (F := F) x1) (val_main_call4_v1 (F := F))
def val_main_c_37 : (⟨S_, .i32⟩ : BufTy).Contents (Elt F) :=
  constantI S_ 32 0#32
def val_main_v142 : (⟨S330000, .i32⟩ : BufTy).Contents (Elt F) :=
  broadcastInDim S330000 ![] bcast_S_S330000 (val_main_c_37 (F := F))
def val_main_v143 (x1 : (⟨S2x320000, .i32⟩ : BufTy).Contents (Elt F)) : (⟨S330000, .i1⟩ : BufTy).Contents (Elt F) :=
  cmpi .slt (val_main_v123 (F := F) x1) (val_main_v142 (F := F))
def val_main_c_38 : (⟨S_, .i32⟩ : BufTy).Contents (Elt F) :=
  constantI S_ 32 10000#32
def val_main_v144 : (⟨S330000, .i32⟩ : BufTy).Contents (Elt F) :=
  broadcastInDim S330000 ![] bcast_S_S330000 (val_main_c_38 (F := F))
def val_main_v145 (x1 : (⟨S2x320000, .i32⟩ : BufTy).Contents (Elt F)) : (⟨S330000, .i32⟩ : BufTy).Contents (Elt F) :=
  addi (val_main_v123 (F := F) x1) (val_main_v144 (F := F))
def val_main_v146 (x1 : (⟨S2x320000, .i32⟩ : BufTy).Contents (Elt F)) : (⟨S330000, .i32⟩ : BufTy).Contents (Elt F) :=
  select (val_main_v143 (F := F) x1) (val_main_v145 (F := F) x1) (val_main_v123 (F := F) x1)
def val_main_v147 (x1 : (⟨S2x320000, .i32⟩ : BufTy).Contents (Elt F)) : (⟨S330000x1, .i32⟩ : BufTy).Contents (Elt F) :=
  broadcastInDim S330000x1 ![0] bcast_S330000_S330000x1_0 (val_main_v146 (F := F) x1)
def val_main_v148 (x1 : (⟨S2x320000, .i32⟩ : BufTy).Contents (Elt F)) : (⟨S330000, .f32⟩ : BufTy).Contents (Elt F) :=
  Host.gather gather_S10000_S330000x1_S330000_n_0_n_n_0_1_1 (val_main_v141 (F := F) x1) (val_main_v147 (F := F) x1)

def val_main_c_39 : (⟨S_, .i32⟩ : BufTy).Contents (Elt F) :=
  constantI S_ 32 0#32
def val_main_v149 : (⟨S330000, .i32⟩ : BufTy).Contents (Elt F) :=
  broadcastInDim S330000 ![] bcast_S_S330000 (val_main_c_39 (F := F))
def val_main_v150 (x1 : (⟨S2x320000, .i32⟩ : BufTy).Contents (Elt F)) : (⟨S330000, .i1⟩ : BufTy).Contents (Elt F) :=
  cmpi .slt (val_main_v126 (F := F) x1) (val_main_v149 (F := F))
def val_main_c_40 : (⟨S_, .i32⟩ : BufTy).Contents (Elt F) :=
  constantI S_ 32 10000#32
def val_main_v151 : (⟨S330000, .i32⟩ : BufTy).Contents (Elt F) :=
  broadcastInDim S330000 ![] bcast_S_S330000 (val_main_c_40 (F := F))
def val_main_v152 (x1 : (⟨S2x320000, .i32⟩ : BufTy).Contents (Elt F)) : (⟨S330000, .i32⟩ : BufTy).Contents (Elt F) :=
  addi (val_main_v126 (F := F) x1) (val_main_v151 (F := F))
def val_main_v153 (x1 : (⟨S2x320000, .i32⟩ : BufTy).Contents (Elt F)) : (⟨S330000, .i32⟩ : BufTy).Contents (Elt F) :=
  select (val_main_v150 (F := F) x1) (val_main_v152 (F := F) x1) (val_main_v126 (F := F) x1)
def val_main_v154 (x1 : (⟨S2x320000, .i32⟩ : BufTy).Contents (Elt F)) : (⟨S330000x1, .i32⟩ : BufTy).Contents (Elt F) :=
  broadcastInDim S330000x1 ![0] bcast_S330000_S330000x1_0 (val_main_v153 (F := F) x1)
def val_main_v155 (x1 : (⟨S2x320000, .i32⟩ : BufTy).Contents (Elt F)) : (⟨S330000, .f32⟩ : BufTy).Contents (Elt F) :=
  Host.gather gather_S10000_S330000x1_S330000_n_0_n_n_0_1_1 (val_main_v141 (F := F) x1) (val_main_v154 (F := F) x1)

def val_main_v156 (x1 : (⟨S2x320000, .i32⟩ : BufTy).Contents (Elt F)) : (⟨S330000, .f32⟩ : BufTy).Contents (Elt F) :=
  mulf (val_main_v148 (F := F) x1) (val_main_v155 (F := F) x1)
def val_main_v157 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S10000x128, .f32⟩ : BufTy).Contents (Elt F) :=
  Host.dotGeneral dot_S10000x128_S128x128_S10000x128_1_0_0_1_n_n none (val_main_v119 (F := F) x0 x1 x3 x4 x5 x6) (x7)
def val_main_c_41 : (⟨S_, .i32⟩ : BufTy).Contents (Elt F) :=
  constantI S_ 32 0#32
def val_main_v158 : (⟨S330000, .i32⟩ : BufTy).Contents (Elt F) :=
  broadcastInDim S330000 ![] bcast_S_S330000 (val_main_c_41 (F := F))
def val_main_v159 (x1 : (⟨S2x320000, .i32⟩ : BufTy).Contents (Elt F)) : (⟨S330000, .i1⟩ : BufTy).Contents (Elt F) :=
  cmpi .slt (val_main_v123 (F := F) x1) (val_main_v158 (F := F))
def val_main_c_42 : (⟨S_, .i32⟩ : BufTy).Contents (Elt F) :=
  constantI S_ 32 10000#32
def val_main_v160 : (⟨S330000, .i32⟩ : BufTy).Contents (Elt F) :=
  broadcastInDim S330000 ![] bcast_S_S330000 (val_main_c_42 (F := F))
def val_main_v161 (x1 : (⟨S2x320000, .i32⟩ : BufTy).Contents (Elt F)) : (⟨S330000, .i32⟩ : BufTy).Contents (Elt F) :=
  addi (val_main_v123 (F := F) x1) (val_main_v160 (F := F))
def val_main_v162 (x1 : (⟨S2x320000, .i32⟩ : BufTy).Contents (Elt F)) : (⟨S330000, .i32⟩ : BufTy).Contents (Elt F) :=
  select (val_main_v159 (F := F) x1) (val_main_v161 (F := F) x1) (val_main_v123 (F := F) x1)
def val_main_v163 (x1 : (⟨S2x320000, .i32⟩ : BufTy).Contents (Elt F)) : (⟨S330000x1, .i32⟩ : BufTy).Contents (Elt F) :=
  broadcastInDim S330000x1 ![0] bcast_S330000_S330000x1_0 (val_main_v162 (F := F) x1)
def val_main_v164 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S330000x128, .f32⟩ : BufTy).Contents (Elt F) :=
  Host.gather gather_S10000x128_S330000x1_S330000x128_1_0_n_n_0_1_1128 (val_main_v157 (F := F) x0 x1 x3 x4 x5 x6 x7) (val_main_v163 (F := F) x1)

def val_main_v165 (x1 : (⟨S2x320000, .i32⟩ : BufTy).Contents (Elt F)) : (⟨S330000x1, .f32⟩ : BufTy).Contents (Elt F) :=
  broadcastInDim S330000x1 ![0] bcast_S330000_S330000x1_0 (val_main_v156 (F := F) x1)
def val_main_v166 (x1 : (⟨S2x320000, .i32⟩ : BufTy).Contents (Elt F)) : (⟨S330000x128, .f32⟩ : BufTy).Contents (Elt F) :=
  broadcastInDim S330000x128 ![0, 1] bcast_S330000x1_S330000x128_0_1 (val_main_v165 (F := F) x1)
def val_main_v167 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S330000x128, .f32⟩ : BufTy).Contents (Elt F) :=
  mulf (val_main_v164 (F := F) x0 x1 x3 x4 x5 x6 x7) (val_main_v166 (F := F) x1)
def val_main_cst_43 : (⟨S_, .f32⟩ : BufTy).Contents (Elt F) :=
  constant S_ .f32 0x00000000#32
def val_main_v168 : (⟨S10000x128, .f32⟩ : BufTy).Contents (Elt F) :=
  broadcastInDim S10000x128 ![] bcast_S_S10000x128 (val_main_cst_43 (F := F))
def val_main_c_44 : (⟨S_, .i32⟩ : BufTy).Contents (Elt F) :=
  constantI S_ 32 0#32
def val_main_v169 : (⟨S330000, .i32⟩ : BufTy).Contents (Elt F) :=
  broadcastInDim S330000 ![] bcast_S_S330000 (val_main_c_44 (F := F))
def val_main_v170 (x1 : (⟨S2x320000, .i32⟩ : BufTy).Contents (Elt F)) : (⟨S330000, .i1⟩ : BufTy).Contents (Elt F) :=
  cmpi .slt (val_main_v126 (F := F) x1) (val_main_v169 (F := F))
def val_main_c_45 : (⟨S_, .i32⟩ : BufTy).Contents (Elt F) :=
  constantI S_ 32 10000#32
def val_main_v171 : (⟨S330000, .i32⟩ : BufTy).Contents (Elt F) :=
  broadcastInDim S330000 ![] bcast_S_S330000 (val_main_c_45 (F := F))
def val_main_v172 (x1 : (⟨S2x320000, .i32⟩ : BufTy).Contents (Elt F)) : (⟨S330000, .i32⟩ : BufTy).Contents (Elt F) :=
  addi (val_main_v126 (F := F) x1) (val_main_v171 (F := F))
def val_main_v173 (x1 : (⟨S2x320000, .i32⟩ : BufTy).Contents (Elt F)) : (⟨S330000, .i32⟩ : BufTy).Contents (Elt F) :=
  select (val_main_v170 (F := F) x1) (val_main_v172 (F := F) x1) (val_main_v126 (F := F) x1)
def val_main_v174 (x1 : (⟨S2x320000, .i32⟩ : BufTy).Contents (Elt F)) : (⟨S330000x1, .i32⟩ : BufTy).Contents (Elt F) :=
  broadcastInDim S330000x1 ![0] bcast_S330000_S330000x1_0 (val_main_v173 (F := F) x1)
def val_main_v175 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S10000x128, .f32⟩ : BufTy).Contents (Elt F) :=
  Host.scatterAdd scatter_S10000x128_S330000x1_S330000x128_1_0_0_1 (val_main_v168 (F := F)) (val_main_v174 (F := F) x1) (val_main_v167 (F := F) x0 x1 x3 x4 x5 x6 x7)

def val_main_v176 (x8 : (⟨S128, .f32⟩ : BufTy).Contents (Elt F)) : (⟨S1x128, .f32⟩ : BufTy).Contents (Elt F) :=
  broadcastInDim S1x128 ![1] bcast_S128_S1x128_1 (x8)
def val_main_v177 (x8 : (⟨S128, .f32⟩ : BufTy).Contents (Elt F)) : (⟨S10000x128, .f32⟩ : BufTy).Contents (Elt F) :=
  broadcastInDim S10000x128 ![0, 1] bcast_S1x128_S10000x128_0_1 (val_main_v176 (F := F) x8)
def val_main_v178 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S10000x128, .f32⟩ : BufTy).Contents (Elt F) :=
  addf (val_main_v175 (F := F) x0 x1 x3 x4 x5 x6 x7) (val_main_v177 (F := F) x8)
def val_main_call5_cst : (⟨S_, .f32⟩ : BufTy).Contents (Elt F) :=
  constant S_ .f32 0x00000000#32
def val_main_call5_v0 : (⟨S10000x128, .f32⟩ : BufTy).Contents (Elt F) :=
  broadcastInDim S10000x128 ![] bcast_S_S10000x128 (val_main_call5_cst (F := F))
def val_main_v179 (x0 : (⟨S10000x128, .f32⟩ : BufTy).Contents (Elt F)) (x1 : (⟨S2x320000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S10000x128, .f32⟩ : BufTy).Contents (Elt F) :=
  maximumf (val_main_v178 (F := F) x0 x1 x3 x4 x5 x6 x7 x8) (val_main_call5_v0 (F := F))
def val_main_cst_46 : (⟨S_, .f32⟩ : BufTy).Contents (Elt F) :=
  constant S_ .f32 0x00000000#32
def val_main_v180 : (⟨S64x128, .f32⟩ : BufTy).Contents (Elt F) :=
  broadcastInDim S64x128 ![] bcast_S_S64x128 (val_main_cst_46 (F := F))
def val_main_v181 (x2 : (⟨S10000, .i32⟩ : BufTy).Contents (Elt F)) : (⟨S10000x1, .i32⟩ : BufTy).Contents (Elt F) :=
  broadcastInDim S10000x1 ![0] bcast_S10000_S10000x1_0 (x2)
def val_main_v182 (x0 : (⟨S10000x128, .f32⟩ : BufTy).Contents (Elt F)) (x1 : (⟨S2x320000, .i32⟩ : BufTy).Contents (Elt F)) (x2 : (⟨S10000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S64x128, .f32⟩ : BufTy).Contents (Elt F) :=
  Host.scatterAdd scatter_S64x128_S10000x1_S10000x128_1_0_0_1 (val_main_v180 (F := F)) (val_main_v181 (F := F) x2) (val_main_v179 (F := F) x0 x1 x3 x4 x5 x6 x7 x8)

def val_main_cst_47 : (⟨S_, .f32⟩ : BufTy).Contents (Elt F) :=
  constant S_ .f32 0x3F800000#32
def val_main_v183 : (⟨S10000x1, .f32⟩ : BufTy).Contents (Elt F) :=
  broadcastInDim S10000x1 ![] bcast_S_S10000x1 (val_main_cst_47 (F := F))
def val_main_cst_48 : (⟨S_, .f32⟩ : BufTy).Contents (Elt F) :=
  constant S_ .f32 0x00000000#32
def val_main_v184 : (⟨S64x1, .f32⟩ : BufTy).Contents (Elt F) :=
  broadcastInDim S64x1 ![] bcast_S_S64x1 (val_main_cst_48 (F := F))
def val_main_v185 (x2 : (⟨S10000, .i32⟩ : BufTy).Contents (Elt F)) : (⟨S10000x1, .i32⟩ : BufTy).Contents (Elt F) :=
  broadcastInDim S10000x1 ![0] bcast_S10000_S10000x1_0 (x2)
def val_main_v186 (x2 : (⟨S10000, .i32⟩ : BufTy).Contents (Elt F)) : (⟨S64x1, .f32⟩ : BufTy).Contents (Elt F) :=
  Host.scatterAdd scatter_S64x1_S10000x1_S10000x1_1_0_0_1 (val_main_v184 (F := F)) (val_main_v185 (F := F) x2) (val_main_v183 (F := F))

def val_main_cst_49 : (⟨S_, .f32⟩ : BufTy).Contents (Elt F) :=
  constant S_ .f32 0x3F800000#32
def val_main_v187 : (⟨S64x1, .f32⟩ : BufTy).Contents (Elt F) :=
  broadcastInDim S64x1 ![] bcast_S_S64x1 (val_main_cst_49 (F := F))
def val_main_v188 (x2 : (⟨S10000, .i32⟩ : BufTy).Contents (Elt F)) : (⟨S64x1, .f32⟩ : BufTy).Contents (Elt F) :=
  maximumf (val_main_v186 (F := F) x2) (val_main_v187 (F := F))
def val_main_v189 (x2 : (⟨S10000, .i32⟩ : BufTy).Contents (Elt F)) : (⟨S64x128, .f32⟩ : BufTy).Contents (Elt F) :=
  broadcastInDim S64x128 ![0, 1] bcast_S64x1_S64x128_0_1 (val_main_v188 (F := F) x2)
def val_main_v190 (x0 : (⟨S10000x128, .f32⟩ : BufTy).Contents (Elt F)) (x1 : (⟨S2x320000, .i32⟩ : BufTy).Contents (Elt F)) (x2 : (⟨S10000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S64x128, .f32⟩ : BufTy).Contents (Elt F) :=
  Host.divf (val_main_v182 (F := F) x0 x1 x2 x3 x4 x5 x6 x7 x8) (val_main_v189 (F := F) x2)
def val_main_v191 (x0 : (⟨S10000x128, .f32⟩ : BufTy).Contents (Elt F)) (x1 : (⟨S2x320000, .i32⟩ : BufTy).Contents (Elt F)) (x2 : (⟨S10000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x16, .f32⟩ : BufTy).Contents (Elt F)) : (⟨S64x16, .f32⟩ : BufTy).Contents (Elt F) :=
  Host.dotGeneral dot_S64x128_S128x16_S64x16_1_0_0_1_n_n none (val_main_v190 (F := F) x0 x1 x2 x3 x4 x5 x6 x7 x8) (x9)
def val_main_v192 (x10 : (⟨S16, .f32⟩ : BufTy).Contents (Elt F)) : (⟨S1x16, .f32⟩ : BufTy).Contents (Elt F) :=
  broadcastInDim S1x16 ![1] bcast_S16_S1x16_1 (x10)
def val_main_v193 (x10 : (⟨S16, .f32⟩ : BufTy).Contents (Elt F)) : (⟨S64x16, .f32⟩ : BufTy).Contents (Elt F) :=
  broadcastInDim S64x16 ![0, 1] bcast_S1x16_S64x16_0_1 (val_main_v192 (F := F) x10)
def val_main_v194 (x0 : (⟨S10000x128, .f32⟩ : BufTy).Contents (Elt F)) (x1 : (⟨S2x320000, .i32⟩ : BufTy).Contents (Elt F)) (x2 : (⟨S10000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x16, .f32⟩ : BufTy).Contents (Elt F)) (x10 : (⟨S16, .f32⟩ : BufTy).Contents (Elt F)) : (⟨S64x16, .f32⟩ : BufTy).Contents (Elt F) :=
  addf (val_main_v191 (F := F) x0 x1 x2 x3 x4 x5 x6 x7 x8 x9) (val_main_v193 (F := F) x10)
theorem val_main_v194_eq (m : (ℓ : Loc nD τ sig) → Buf (Elt F) ℓ) (c : Dev nD) :
    Cert.ReferenceIdeal.Value.res_main_v194 m c = val_main_v194 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v194; rfl

end Cert.ReferenceIdeal.Read

end
-- ==== Proof.RefFrame.lean ====
import proofs.«213134_g57071525429591_cont_9to1_m_136_24_alg».proof.Defs
import proofs.«213134_g57071525429591_cont_9to1_m_136_24_alg».proof.Proof.Gen.ReferenceIdeal
import proofs.«213134_g57071525429591_cont_9to1_m_136_24_alg».proof.Proof.RefRun
import proofs.«213134_g57071525429591_cont_9to1_m_136_24_alg».proof.Proof.RefRead
import proofs.«213134_g57071525429591_cont_9to1_m_136_24_alg».proof.Proof.Gen.Pre_input_domain

noncomputable section

namespace Cert.Proof.RefFrame

open Idealize.ShloMosaic Idealize.SL.Sem

theorem frame_ri : @Cert.frame_ReferenceIdeal Cert.ReferenceIdeal.Gen.facts Cert.Pre_input_domain.Gen.facts := fun m ρ _ =>
  (θ_run Cert.ReferenceIdeal.defs _ _).mono (fun _ h c => (h c).2) (Cert.ReferenceIdeal.Value.run (F := Ideal) m ρ)

end Cert.Proof.RefFrame

end
-- ==== Proof.GcnSpec.lean ====
import Idealize.ShloMosaic.PureOps.Ideal
import Idealize.ShloMosaic.Lib.ValueIdx

noncomputable section

open scoped BigOperators

namespace Cert.GcnSpec

open Idealize.ShloMosaic Idealize.ShloMosaic.ValueIdx

abbrev NodeMat : Type := (⟨2, ![10000, 128]⟩ : Shape).Idx → EReal

abbrev EdgeArr : Type := (⟨2, ![2, 320000]⟩ : Shape).Idx → BitVec 32

abbrev BatchArr : Type := (⟨1, ![10000]⟩ : Shape).Idx → BitVec 32

abbrev WMat : Type := (⟨2, ![128, 128]⟩ : Shape).Idx → EReal

abbrev BVec : Type := (⟨1, ![128]⟩ : Shape).Idx → EReal

abbrev WOut : Type := (⟨2, ![128, 16]⟩ : Shape).Idx → EReal

abbrev BOut : Type := (⟨1, ![16]⟩ : Shape).Idx → EReal

abbrev PoolMat : Type := (⟨2, ![64, 128]⟩ : Shape).Idx → EReal

abbrev OutMat : Type := (⟨2, ![64, 16]⟩ : Shape).Idx → EReal

def srcW (ei : EdgeArr) (e : Fin 320000) : BitVec 32 := ei (ix2 (0 : Fin 2) e)

def dstW (ei : EdgeArr) (e : Fin 320000) : BitVec 32 := ei (ix2 (1 : Fin 2) e)

def nodeOf (w : BitVec 32) : Fin 10000 := ⟨min w.toNat 9999, by omega⟩

def inEdges (ei : EdgeArr) (i : Fin 10000) : Finset (Fin 320000) :=
  Finset.univ.filter fun e => (dstW ei e).toNat = i.val

def refCnt (ei : EdgeArr) (i : Fin 10000) : ℕ := (inEdges ei i).card

def refDeg (ei : EdgeArr) (i : Fin 10000) : ℝ := (refCnt ei i : ℝ) + 1

def refDis (ei : EdgeArr) (i : Fin 10000) : ℝ := 1 / Real.sqrt (refDeg ei i)

theorem refDeg_pos (ei : EdgeArr) (i : Fin 10000) : 0 < refDeg ei i := by
  unfold refDeg; positivity

def refLin (h : NodeMat) (W : WMat) (n : Fin 10000) (k : Fin 128) : EReal :=
  ∑ c : Fin 128, h (ix2 n c) * W (ix2 c k)

def refMsg (h : NodeMat) (W : WMat) (ei : EdgeArr) (i : Fin 10000) (k : Fin 128) (e : Fin 320000) : EReal :=
  refLin h W (nodeOf (srcW ei e)) k * (((refDis ei (nodeOf (srcW ei e)) : ℝ) : EReal) * ((refDis ei i : ℝ) : EReal))

def refSelf (h : NodeMat) (W : WMat) (ei : EdgeArr) (i : Fin 10000) (k : Fin 128) : EReal :=
  refLin h W i k * (((refDis ei i : ℝ) : EReal) * ((refDis ei i : ℝ) : EReal))

def refAgg (h : NodeMat) (W : WMat) (ei : EdgeArr) (i : Fin 10000) (k : Fin 128) : EReal :=
  (∑ e ∈ inEdges ei i, refMsg h W ei i k e) + refSelf h W ei i k

def refConv (h : NodeMat) (W : WMat) (b : BVec) (ei : EdgeArr) : NodeMat :=
  fun j => refAgg h W ei (j 0) (j 1) + b (ix1 (j 1))

def refRelu (h : NodeMat) : NodeMat := fun j => max (h j) 0

def refLayer (h : NodeMat) (W : WMat) (b : BVec) (ei : EdgeArr) : NodeMat := refRelu (refConv h W b ei)

def graphNodes (batch : BatchArr) (g : Fin 64) : Finset (Fin 10000) :=
  Finset.univ.filter fun n => (batch (ix1 n)).toNat = g.val

def refGraphCnt (batch : BatchArr) (g : Fin 64) : ℕ := (graphNodes batch g).card

def refPoolSum (h : NodeMat) (batch : BatchArr) (g : Fin 64) (k : Fin 128) : EReal :=
  ∑ n ∈ graphNodes batch g, h (ix2 n k)

def refPool (h : NodeMat) (batch : BatchArr) : PoolMat :=
  fun j => Ideal.div (refPoolSum h batch (j 0) (j 1)) ((max (refGraphCnt batch (j 0) : ℝ) 1 : ℝ) : EReal)

def refOut (p : PoolMat) (Wl : WOut) (bl : BOut) : OutMat :=
  fun j => (∑ k : Fin 128, p (ix2 (j 0) k) * Wl (ix2 k (j 1))) + bl (ix1 (j 1))

def refH3 (x : NodeMat) (ei : EdgeArr) (W0 : WMat) (b0 : BVec) (W1 : WMat) (b1 : BVec) (W2 : WMat) (b2 : BVec) : NodeMat :=
  refLayer (refLayer (refLayer x W0 b0 ei) W1 b1 ei) W2 b2 ei

def gcnRef (x : NodeMat) (ei : EdgeArr) (batch : BatchArr) (W0 : WMat) (b0 : BVec) (W1 : WMat) (b1 : BVec)
    (W2 : WMat) (b2 : BVec) (Wl : WOut) (bl : BOut) : OutMat :=
  refOut (refPool (refH3 x ei W0 b0 W1 b1 W2 b2) batch) Wl bl

end Cert.GcnSpec

end
-- ==== Proof.RefValue.lean ====
import proofs.«213134_g57071525429591_cont_9to1_m_136_24_alg».proof.Proof.RefRead
import proofs.«213134_g57071525429591_cont_9to1_m_136_24_alg».proof.Proof.GcnSpec
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some_inj]
    constructor
    · intro e a
      have := congrArg (fun f => ((f a : Fin (s.size a)) : Nat)) e
      simp only at this
      have h2 := h a
      omega
    · intro e
      funext a
      apply Fin.ext
      have := e a
      show (d.start j idx a + (d.window j a : Int)).toNat = (i a).val
      omega
  · next h =>
    constructor
    · intro e; exact absurd e (by simp)
    · intro e
      exact absurd (fun a => by have := e a; have := (i a).isLt; constructor <;> omega) h

abbrev col0 {n : Nat} (p : Fin n) : (⟨2, ![n, 1]⟩ : Shape).Idx := ix2 p (0 : Fin 1)

theorem lands_deg (idx : IVec S330000x1 32) (j : S330000.Idx) (i : S10000.Idx) :
    scatter_S10000_S330000x1_S330000_n_0_0_1.resultIdx? j idx = some i ↔ (idx (col0 (j 0))).toInt = ((i 0).val : Int) := by
  rw [resultIdx?_eq_some_iff]
  have hs : scatter_S10000_S330000x1_S330000_n_0_0_1.start j idx 0 = (idx (col0 (j 0))).toInt := by
    unfold ScatterDims.start
    rw [dif_pos (show (0 : Fin 1) ∈ scatter_S10000_S330000x1_S330000_n_0_0_1.scatterDimsToOperandDims from List.mem_singleton.mpr rfl)]
    congr 2
    funext b
    refine Fin.ext ?_
    match b with
    | ⟨0, _⟩ => rfl
    | ⟨1, _⟩ => rfl
  have hw : scatter_S10000_S330000x1_S330000_n_0_0_1.window j 0 = 0 := by
    unfold ScatterDims.window
    rw [dif_neg (by decide)]
  constructor
  · intro h; have := h 0; rw [hs, hw] at this; simpa using this
  · intro h a
    obtain rfl : a = 0 := Subsingleton.elim _ _
    rw [hs, hw]; simpa using h

abbrev rowScat (N M n : Nat) (wf : ScatterDims.WF ⟨2, ![N, M]⟩ ⟨2, ![n, 1]⟩ ⟨2, ![n, M]⟩ [1] [0] [0] 1) :
    ScatterDims ⟨2, ![N, M]⟩ ⟨2, ![n, 1]⟩ ⟨2, ![n, M]⟩ where
  updateWindowDims := [1]
  insertedWindowDims := [0]
  scatterDimsToOperandDims := [0]
  indexVectorDim := 1
  wf := wf

theorem lands_row {N M n : Nat} (wf : ScatterDims.WF ⟨2, ![N, M]⟩ ⟨2, ![n, 1]⟩ ⟨2, ![n, M]⟩ [1] [0] [0] 1)
    (idx : IVec ⟨2, ![n, 1]⟩ 32) (j : (⟨2, ![n, M]⟩ : Shape).Idx) (i : (⟨2, ![N, M]⟩ : Shape).Idx) :
    (rowScat N M n wf).resultIdx? j idx = some i ↔ (idx (col0 (j 0))).toInt = ((i 0).val : Int) ∧ (j 1).val = (i 1).val := by
  rw [resultIdx?_eq_some_iff]
  have hs0 : (rowScat N M n wf).start j idx 0 = (idx (col0 (j 0))).toInt := by
    unfold ScatterDims.start
    rw [dif_pos (show (0 : Fin 2) ∈ (rowScat N M n wf).scatterDimsToOperandDims from List.mem_singleton.mpr rfl)]
    congr 2
    funext b
    refine Fin.ext ?_
    match b with
    | ⟨0, _⟩ => rfl
    | ⟨1, _⟩ => rfl
  have hw0 : (rowScat N M n wf).window j 0 = 0 := by
    unfold ScatterDims.window
    have hm : (0 : Fin 2) ∉ (rowScat N M n wf).sKept := by show (0 : Fin 2) ∉ ([1] : List (Fin 2)); decide
    rw [dif_neg hm]
  have hs1 : (rowScat N M n wf).start j idx 1 = 0 := by
    unfold ScatterDims.start
    rw [dif_neg (show (1 : Fin 2) ∉ ([0] : List (Fin 2)) by decide)]
  have hw1 : (rowScat N M n wf).window j 1 = (j 1).val := by
    unfold ScatterDims.window
    have hm : (1 : Fin 2) ∈ (rowScat N M n wf).sKept := by show (1 : Fin 2) ∈ ([1] : List (Fin 2)); decide
    rw [dif_pos hm]
    rfl
  constructor
  · intro h
    have h0 := h 0; have h1 := h 1
    rw [hs0, hw0] at h0; rw [hs1, hw1] at h1
    exact ⟨by simpa using h0, by omega⟩
  · intro h a
    match a with
    | ⟨0, _⟩ => show (rowScat N M n wf).start j idx 0 + ((rowScat N M n wf).window j 0 : Int) = ((i 0).val : Int); rw [hs0, hw0]; simpa using h.1
    | ⟨1, _⟩ => show (rowScat N M n wf).start j idx 1 + ((rowScat N M n wf).window j 1 : Int) = ((i 1).val : Int); rw [hs1, hw1]; have := h.2; omega

theorem scatter_conv_eq : scatter_S10000x128_S330000x1_S330000x128_1_0_0_1 = rowScat 10000 128 330000 scatter_S10000x128_S330000x1_S330000x128_1_0_0_1_wf := rfl
theorem scatter_pool_eq : scatter_S64x128_S10000x1_S10000x128_1_0_0_1 = rowScat 64 128 10000 scatter_S64x128_S10000x1_S10000x128_1_0_0_1_wf := rfl
theorem scatter_cnt_eq : scatter_S64x1_S10000x1_S10000x1_1_0_0_1 = rowScat 64 1 10000 scatter_S64x1_S10000x1_S10000x1_1_0_0_1_wf := rfl

theorem gather_vec_apply {α : Type} (x : S10000.Idx → α) (idx : IVec S330000x1 32) (j : S330000.Idx) :
    Host.gather gather_S10000_S330000x1_S330000_n_0_n_n_0_1_1 x idx j
      = x (ix1 ⟨min (idx (col0 (j 0))).toInt.toNat 9999, by omega⟩) := by
  unfold Host.gather
  congr 1
  funext a
  obtain rfl : a = 0 := Subsingleton.elim _ _
  refine Fin.ext ?_
  show gather_S10000_S330000x1_S330000_n_0_n_n_0_1_1.start j idx 0 + gather_S10000_S330000x1_S330000_n_0_n_n_0_1_1.batchCoord j 0
    + gather_S10000_S330000x1_S330000_n_0_n_n_0_1_1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10000_S330000x1_S330000_n_0_n_n_0_1_1.startIndexMap from List.mem_singleton.mpr rfl)]
  have hsi : gather_S10000_S330000x1_S330000_n_0_n_n_0_1_1.siIdx j ⟨List.idxOf (0 : Fin 1) gather_S10000_S330000x1_S330000_n_0_n_n_0_1_1.startIndexMap,
      List.idxOf_lt_length_iff.2 (List.mem_singleton.mpr rfl)⟩ = col0 (j 0) := by
    funext b; refine Fin.ext ?_
    match b with
    | ⟨0, _⟩ => rfl
    | ⟨1, _⟩ => rfl
  rw [hsi]
  rfl

theorem gather_rows_apply {α : Type} (x : S10000x128.Idx → α) (idx : IVec S330000x1 32) (j : S330000x128.Idx) :
    Host.gather gather_S10000x128_S330000x1_S330000x128_1_0_n_n_0_1_1128 x idx j
      = x (ix2 (⟨min (idx (col0 (j 0))).toInt.toNat 9999, by omega⟩ : Fin 10000) (j 1)) := by
  unfold Host.gather
  congr 1
  funext a
  refine Fin.ext ?_
  match a with
  | ⟨0, _⟩ =>
    show gather_S10000x128_S330000x1_S330000x128_1_0_n_n_0_1_1128.start j idx 0 + gather_S10000x128_S330000x1_S330000x128_1_0_n_n_0_1_1128.batchCoord j 0
      + gather_S10000x128_S330000x1_S330000x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S330000x1_S330000x128_1_0_n_n_0_1_1128.startIndexMap from List.mem_singleton.mpr rfl)]
    have hsi : gather_S10000x128_S330000x1_S330000x128_1_0_n_n_0_1_1128.siIdx j ⟨List.idxOf (0 : Fin 2) gather_S10000x128_S330000x1_S330000x128_1_0_n_n_0_1_1128.startIndexMap,
        List.idxOf_lt_length_iff.2 (List.mem_singleton.mpr rfl)⟩ = col0 (j 0) := by
      funext b; refine Fin.ext ?_
      match b with
      | ⟨0, _⟩ => rfl
      | ⟨1, _⟩ => rfl
    rw [hsi]
    rfl
  | ⟨1, _⟩ =>
    show gather_S10000x128_S330000x1_S330000x128_1_0_n_n_0_1_1128.start j idx 1 + gather_S10000x128_S330000x1_S330000x128_1_0_n_n_0_1_1128.batchCoord j 1
      + gather_S10000x128_S330000x1_S330000x128_1_0_n_n_0_1_1128.offCoord j 1 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

theorem cat_apply {α : Type} (a : S320000.Idx → α) (b : S10000.Idx → α) (j : S330000.Idx) :
    concatenate S330000 0 [⟨S320000, a⟩, ⟨S10000, b⟩] concatenates_S320000_S10000_S330000_d0 j
      = if h : (j 0).val < 320000 then a (ix1 ⟨(j 0).val, h⟩) else b (ix1 ⟨(j 0).val - 320000, by have : (j 0).val < 330000 := (j 0).isLt; omega⟩) := by
  split
  · next h =>
    exact concatenate_pair_apply_left (0 : Fin S330000.rank) a b concatenates_S320000_S10000_S330000_d0 j rfl (ix1 ⟨(j 0).val, h⟩)
      (fun b => by obtain rfl : b = 0 := Subsingleton.elim _ _; rfl)
  · next h =>
    exact concatenate_pair_apply_right (0 : Fin S330000.rank) a b concatenates_S320000_S10000_S330000_d0 j rfl rfl
      (ix1 ⟨(j 0).val - 320000, by have : (j 0).val < 330000 := (j 0).isLt; omega⟩)
      (fun b hb => by obtain rfl : b = 0 := Subsingleton.elim _ _; exact absurd rfl hb)
      (by show (j 0).val - 320000 + 320000 = (j 0).val; omega)

def nrm (w : BitVec 32) : BitVec 32 := Scalar.select (IntOp.cmpi .slt w 0#32) (IntOp.addi w 10000#32) w

theorem toInt_of_lt {w : BitVec 32} (h : w.toNat < 10000) : w.toInt = (w.toNat : Int) := by
  rw [BitVec.toInt_eq_toNat_cond]
  split <;> omega

theorem nrm_of_lt {w : BitVec 32} (h : w.toNat < 10000) : nrm w = w := by
  unfold nrm
  have hc : IntOp.cmpi .slt w 0#32 = 0#1 := by
    unfold IntOp.cmpi
    have : w.slt 0#32 = false := by
      rw [BitVec.slt, toInt_of_lt h]
      simp
    simp [this]
  rw [hc]
  exact select_zero _ _

theorem toNat_ofNat_lt {n : Nat} (h : n < 10000) : (BitVec.ofNat 32 n).toNat = n := by
  rw [BitVec.toNat_ofNat]; exact Nat.mod_eq_of_lt (by omega)

def idxEquiv1 {n : Nat} : (⟨1, ![n]⟩ : Shape).Idx ≃ Fin n where
  toFun j := j 0
  invFun e := ix1 e
  left_inv j := (eq_ix1 j).symm
  right_inv _ := rfl

theorem sum_idx1 {M : Type*} [AddCommMonoid M] {n : Nat} (f : (⟨1, ![n]⟩ : Shape).Idx → M) :
    ∑ j, f j = ∑ e : Fin n, f (ix1 e) := by
  rw [← Equiv.sum_comp (idxEquiv1 (n := n)).symm f]
  rfl

theorem sum_ext {M : Type*} [AddCommMonoid M] (g : Fin 330000 → M) :
    ∑ e : Fin 330000, g e
      = (∑ e : Fin 320000, g ⟨e.val, by omega⟩) + ∑ n : Fin 10000, g ⟨320000 + n.val, by omega⟩ := by
  exact Fin.sum_univ_add (a := 320000) (b := 10000) (fun e : Fin (320000 + 10000) => g ⟨e.val, e.isLt⟩)

theorem sum_rows_col {M : Type*} [AddCommMonoid M] {n m : Nat} (k : Fin m) (A : Fin n → Prop) [DecidablePred A]
    (f : (⟨2, ![n, m]⟩ : Shape).Idx → M)
    [∀ j : (⟨2, ![n, m]⟩ : Shape).Idx, Decidable (A (j 0) ∧ (j 1).val = k.val)] :
    (∑ j : (⟨2, ![n, m]⟩ : Shape).Idx, if A (j 0) ∧ (j 1).val = k.val then f j else 0)
      = ∑ a : Fin n, if A a then f (ix2 a k) else 0 := by
  rw [sum_idx2]
  refine Finset.sum_congr rfl fun a _ => ?_
  rw [Finset.sum_eq_single k]
  · by_cases hA : A a
    · rw [if_pos hA]; exact if_pos ⟨hA, rfl⟩
    · rw [if_neg hA]; exact if_neg (fun h => hA h.1)
  · intro b _ hb
    exact if_neg (fun h => hb (Fin.ext h.2))
  · intro h; exact absurd (Finset.mem_univ k) h

theorem scatterAdd_apply {s si u : Shape} (d : ScatterDims s si u) (x : FVec Ideal s .f32) (idx : IVec si 32)
    (upd : FVec Ideal u .f32) (i : s.Idx) :
    Host.scatterAdd d x idx upd i = x i + ∑ j, if d.resultIdx? j idx = some i then upd j else 0 := by
  show x i + ∑ j ∈ Finset.univ.filter (fun j => d.resultIdx? j idx = some i), upd j = _
  rw [Finset.sum_filter]

abbrev I32 (s : Shape) : Type := IVec s 32
abbrev F32 (s : Shape) : Type := FVec Ideal s .f32

def srcCat (ei : I32 S2x320000) : I32 S330000 :=
  concatenate S330000 0 [⟨S320000, shapeCast _ (extractStridedSlice S1x320000 ![0, 0] ei slices_S2x320000_S1x320000_0_0) shapeCasts_S1x320000_S320000⟩,
    ⟨S10000, iotaInDim S10000 32 0⟩] concatenates_S320000_S10000_S330000_d0

def dstCat (ei : I32 S2x320000) : I32 S330000 :=
  concatenate S330000 0 [⟨S320000, shapeCast _ (extractStridedSlice S1x320000 ![1, 0] ei slices_S2x320000_S1x320000_1_0) shapeCasts_S1x320000_S320000⟩,
    ⟨S10000, iotaInDim S10000 32 0⟩] concatenates_S320000_S10000_S330000_d0

def nrmCol (c : I32 S330000) : I32 S330000x1 :=
  broadcastInDim S330000x1 ![0] bcast_S330000_S330000x1_0
    (select (cmpi .slt c (broadcastInDim S330000 ![] bcast_S_S330000 (constantI S_ 32 0#32)))
      (addi c (broadcastInDim S330000 ![] bcast_S_S330000 (constantI S_ 32 10000#32))) c)

def degTerm (dst : I32 S330000) : F32 S10000 :=
  Host.scatterAdd scatter_S10000_S330000x1_S330000_n_0_0_1
    (broadcastInDim S10000 ![] bcast_S_S10000 (constant (F := Ideal) S_ .f32 0x00000000#32)) (nrmCol dst)
    (broadcastInDim S330000 ![] bcast_S_S330000 (constant (F := Ideal) S_ .f32 0x3F800000#32))

def disTerm (dst : I32 S330000) : F32 S10000 :=
  select (cmpf .ogt (degTerm dst) (broadcastInDim S10000 ![] bcast_S_S10000 (constant (F := Ideal) S_ .f32 0x00000000#32)))
    (Host.divf (broadcastInDim S10000 ![] bcast_S_S10000 (constant (F := Ideal) S_ .f32 0x3F800000#32)) (Host.sqrt (degTerm dst)))
    (broadcastInDim S10000 ![] bcast_S_S10000 (id (constant (F := Ideal) S_ .f32 0x00000000#32)))

def extW (ei : I32 S2x320000) (r : Fin 2) (e : Fin 330000) : BitVec 32 :=
  if h : e.val < 320000 then ei (ix2 r ⟨e.val, h⟩) else BitVec.ofNat 32 (e.val - 320000)

theorem srcCat_apply (ei : I32 S2x320000) (e : Fin 330000) : srcCat ei (ix1 e) = extW ei 0 e := by
  unfold srcCat extW
  rw [cat_apply]
  by_cases h : e.val < 320000
  · rw [dif_pos h, dif_pos (show ((ix1 e : S330000.Idx) 0).val < 320000 from h)]
    rw [shapeCast_apply _ shapeCasts_S1x320000_S320000 _ (ix2 (0 : Fin 1) (⟨e.val, h⟩ : Fin 320000))
      (by rewrite [Shape.rowMajor_val_two, Shape.rowMajor_val_one]; show 0 * 320000 + e.val = e.val; omega)]
    exact extractStridedSlice_apply ![0, 0] ei slices_S2x320000_S1x320000_0_0 _ (ix2 (0 : Fin 2) (⟨e.val, h⟩ : Fin 320000))
      (fun a => match a with
        | ⟨0, _⟩ => by show (0 : Nat) = 0 + 0; rfl
        | ⟨1, _⟩ => by show e.val = 0 + e.val; omega)
  · rw [dif_neg h, dif_neg (show ¬ ((ix1 e : S330000.Idx) 0).val < 320000 from h)]
    rfl

theorem dstCat_apply (ei : I32 S2x320000) (e : Fin 330000) : dstCat ei (ix1 e) = extW ei 1 e := by
  unfold dstCat extW
  rw [cat_apply]
  by_cases h : e.val < 320000
  · rw [dif_pos h, dif_pos (show ((ix1 e : S330000.Idx) 0).val < 320000 from h)]
    rw [shapeCast_apply _ shapeCasts_S1x320000_S320000 _ (ix2 (0 : Fin 1) (⟨e.val, h⟩ : Fin 320000))
      (by rewrite [Shape.rowMajor_val_two, Shape.rowMajor_val_one]; show 0 * 320000 + e.val = e.val; omega)]
    exact extractStridedSlice_apply ![1, 0] ei slices_S2x320000_S1x320000_1_0 _ (ix2 (1 : Fin 2) (⟨e.val, h⟩ : Fin 320000))
      (fun a => match a with
        | ⟨0, _⟩ => by show (1 : Nat) = 1 + 0; rfl
        | ⟨1, _⟩ => by show e.val = 0 + e.val; omega)
  · rw [dif_neg h, dif_neg (show ¬ ((ix1 e : S330000.Idx) 0).val < 320000 from h)]
    rfl

theorem nrmCol_apply (c : I32 S330000) (e : Fin 330000) : nrmCol c (col0 e) = nrm (c (ix1 e)) := by
  unfold nrmCol
  rw [broadcastInDim_apply ![0] bcast_S330000_S330000x1_0 _ (col0 e) (ix1 e)
    (fun a => by obtain rfl : a = 0 := Subsingleton.elim _ _; show e.val = if (330000 : Nat) = 1 then 0 else e.val; rw [if_neg (by decide)])]
  rfl

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem ofBits_one_f32 : Ideal.ofBits .f32 0x3F800000#32 = 1 := by
  simp [Ideal.ofBits, Ideal.ieee, -EReal.coe_mul]; norm_num

theorem sum_ones {ι : Type*} [Fintype ι] (p : ι → Prop) [DecidablePred p] :
    (∑ e : ι, if p e then (1 : EReal) else 0) = (((Finset.univ.filter p).card : ℝ) : EReal) := by
  have : ∀ e, (if p e then (1 : EReal) else 0) = (((if p e then 1 else 0 : ℝ)) : EReal) := by
    intro e; split <;> simp
  simp_rw [this]
  rw [← coe_sum, Finset.sum_boole]

theorem extW_edge (ei : I32 S2x320000) (r : Fin 2) (e : Fin 320000) :
    extW ei r ⟨e.val, by omega⟩ = ei (ix2 r e) := by
  unfold extW; rw [dif_pos e.isLt]
theorem extW_loop (ei : I32 S2x320000) (r : Fin 2) (n : Fin 10000) :
    extW ei r ⟨320000 + n.val, by omega⟩ = BitVec.ofNat 32 n.val := by
  unfold extW; rw [dif_neg (by show ¬ (320000 + n.val < 320000); omega)]
  show BitVec.ofNat 32 (320000 + n.val - 320000) = _
  rw [Nat.add_sub_cancel_left]

theorem lands_word {w : BitVec 32} (hw : w.toNat < 10000) (i : Fin 10000) :
    (nrm w).toInt = (i.val : Int) ↔ w.toNat = i.val := by
  rw [nrm_of_lt hw, toInt_of_lt hw]; exact Int.ofNat_inj

theorem node_word {w : BitVec 32} (hw : w.toNat < 10000) :
    (⟨min (nrm w).toInt.toNat 9999, by omega⟩ : Fin 10000) = Cert.GcnSpec.nodeOf w := by
  apply Fin.ext
  show min (nrm w).toInt.toNat 9999 = min w.toNat 9999
  rw [nrm_of_lt hw, toInt_of_lt hw, Int.toNat_natCast]

open Cert.GcnSpec

theorem degTerm_apply (ei : I32 S2x320000) (hei : ∀ j, (ei j).toNat < 10000) (i : Fin 10000) :
    degTerm (dstCat ei) (ix1 i) = ((refDeg ei i : ℝ) : EReal) := by
  unfold degTerm
  rw [scatterAdd_apply, sum_idx1]
  have key : ∀ e : Fin 330000, (scatter_S10000_S330000x1_S330000_n_0_0_1.resultIdx? (ix1 e) (nrmCol (dstCat ei)) = some (ix1 i))
      ↔ (nrm (extW ei 1 e)).toInt = (i.val : Int) := by
    intro e; rw [lands_deg]
    show (nrmCol (dstCat ei) (col0 e)).toInt = (i.val : Int) ↔ _
    rw [nrmCol_apply, dstCat_apply]
  rw [Finset.sum_congr rfl (fun e _ => if_congr (key e) rfl rfl), sum_ext]
  have h1 : ∀ e : Fin 320000, ((nrm (extW ei 1 ⟨e.val, by omega⟩)).toInt = (i.val : Int)) ↔ (dstW ei e).toNat = i.val := by
    intro e; rw [extW_edge]; exact lands_word (hei _) i
  have h2 : ∀ n : Fin 10000, ((nrm (extW ei 1 ⟨320000 + n.val, by omega⟩)).toInt = (i.val : Int)) ↔ n = i := by
    intro n; rw [extW_loop]
    have hn : (BitVec.ofNat 32 n.val).toNat < 10000 := by rw [toNat_ofNat_lt n.isLt]; exact n.isLt
    rw [lands_word hn i, toNat_ofNat_lt n.isLt]; exact Fin.val_inj
  rw [Finset.sum_congr rfl (fun e _ => if_congr (h1 e) rfl rfl), Finset.sum_congr rfl (fun n _ => if_congr (h2 n) rfl rfl)]
  show Ideal.ofBits .f32 0x00000000#32 + ((∑ e : Fin 320000, if (dstW ei e).toNat = i.val then Ideal.ofBits .f32 0x3F800000#32 else 0)
    + ∑ n : Fin 10000, if n = i then Ideal.ofBits .f32 0x3F800000#32 else 0) = _
  rw [Ideal.ofBits_zero_f32, ofBits_one_f32, zero_add, sum_ones, Finset.sum_ite_eq' Finset.univ i (fun _ => (1 : EReal)), if_pos (Finset.mem_univ i)]
  unfold refDeg refCnt inEdges
  rw [EReal.coe_add, EReal.coe_one]

theorem disTerm_apply (ei : I32 S2x320000) (hei : ∀ j, (ei j).toNat < 10000) (i : Fin 10000) :
    disTerm (dstCat ei) (ix1 i) = ((refDis ei i : ℝ) : EReal) := by
  unfold disTerm
  show Scalar.select (FloatOps.cmpf .ogt (degTerm (dstCat ei) (ix1 i)) (Ideal.ofBits .f32 0x00000000#32))
      (FloatOps.hostDivf (Ideal.ofBits .f32 0x3F800000#32) (FloatOps.hostUnary .sqrt (degTerm (dstCat ei) (ix1 i))))
      (Ideal.ofBits .f32 0x00000000#32) = _
  rw [degTerm_apply ei hei i, Ideal.ofBits_zero_f32, ofBits_one_f32]
  have hpos := refDeg_pos ei i
  have hc : FloatOps.cmpf (F := Ideal) (φ := FTy.f32) CmpFPredicate.ogt ((refDeg ei i : ℝ) : EReal) (0 : EReal) = 1#1 := by
    show Ideal.cmp .ogt _ _ = 1#1
    unfold Ideal.cmp
    have : (0 : EReal) < ((refDeg ei i : ℝ) : EReal) := by exact_mod_cast hpos
    simp [this]
  rw [hc, select_one]
  show Ideal.div 1 (Ideal.sqrt ((refDeg ei i : ℝ) : EReal)) = _
  rw [Ideal.sqrt_coe, if_neg (not_lt.mpr hpos.le), Ideal.div_coe (Real.sqrt_ne_zero'.mpr hpos), one_mul]
  rfl

theorem lhs_lin_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_lin_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_lin_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_lin_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lin_apply (h : F32 S10000x128) (W : F32 S128x128) (n : Fin 10000) (k : Fin 128) :
    Host.dotGeneral (F := Ideal) (φ₁ := .f32) (φ₂ := .f32) dot_S10000x128_S128x128_S10000x128_1_0_0_1_n_n none h W (ix2 n k) = refLin h W n k := by
  unfold refLin
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun c _ => ?_
  have hk := ValueIdx.contrEquiv1_symm_val dot_S10000x128_S128x128_S10000x128_1_0_0_1_n_n 128 rfl rfl c
  have el : dot_S10000x128_S128x128_S10000x128_1_0_0_1_n_n.lhsIdx (ix2 n k) ((ValueIdx.contrEquiv1 dot_S10000x128_S128x128_S10000x128_1_0_0_1_n_n 128 rfl rfl).symm c) = ix2 n c := funext fun a => Fin.ext (by
    match a with
    | ⟨0, _⟩ => exact lhs_lin_0 _ _
    | ⟨1, _⟩ => exact (lhs_lin_1 _ _).trans hk)
  have er : dot_S10000x128_S128x128_S10000x128_1_0_0_1_n_n.rhsIdx (ix2 n k) ((ValueIdx.contrEquiv1 dot_S10000x128_S128x128_S10000x128_1_0_0_1_n_n 128 rfl rfl).symm c) = ix2 c k := funext fun a => Fin.ext (by
    match a with
    | ⟨0, _⟩ => exact (rhs_lin_0 _ _).trans hk
    | ⟨1, _⟩ => exact rhs_lin_1 _ _)
  rw [el, er]

def clampNode (w : BitVec 32) : Fin 10000 := ⟨min w.toInt.toNat 9999, by omega⟩

theorem clampNode_nrm {w : BitVec 32} (hw : w.toNat < 10000) : clampNode (nrm w) = nodeOf w := node_word hw
theorem nodeOf_eq {w : BitVec 32} {n : Fin 10000} (h : w.toNat = n.val) : nodeOf w = n := by
  apply Fin.ext; show min w.toNat 9999 = n.val; have := n.isLt; omega
theorem nodeOf_ofNat (n : Fin 10000) : nodeOf (BitVec.ofNat 32 n.val) = n := nodeOf_eq (toNat_ofNat_lt n.isLt)

theorem gather_vec_apply' {α : Type} (x : S10000.Idx → α) (idx : IVec S330000x1 32) (e : Fin 330000) :
    Host.gather gather_S10000_S330000x1_S330000_n_0_n_n_0_1_1 x idx (ix1 e) = x (ix1 (clampNode (idx (col0 e)))) := gather_vec_apply x idx (ix1 e)
theorem gather_rows_apply' {α : Type} (x : S10000x128.Idx → α) (idx : IVec S330000x1 32) (e : Fin 330000) (k : Fin 128) :
    Host.gather gather_S10000x128_S330000x1_S330000x128_1_0_n_n_0_1_1128 x idx (ix2 e k) = x (ix2 (clampNode (idx (col0 e))) k) := gather_rows_apply x idx (ix2 e k)

theorem bcast_edge_apply {α : Type} (v : S330000.Idx → α) (e : Fin 330000) (k : Fin 128) :
    broadcastInDim S330000x128 ![0, 1] bcast_S330000x1_S330000x128_0_1 (broadcastInDim S330000x1 ![0] bcast_S330000_S330000x1_0 v) (ix2 e k)
      = v (ix1 e) := by
  rw [broadcastInDim_apply ![0, 1] bcast_S330000x1_S330000x128_0_1 _ (ix2 e k) (col0 e) (fun a => match a with
      | ⟨0, _⟩ => by show e.val = if (330000 : Nat) = 1 then 0 else e.val; rw [if_neg (by decide)]
      | ⟨1, _⟩ => by show (0 : Nat) = if (1 : Nat) = 1 then 0 else k.val; rw [if_pos rfl]),
    broadcastInDim_apply ![0] bcast_S330000_S330000x1_0 _ (col0 e) (ix1 e)
      (fun a => by obtain rfl : a = 0 := Subsingleton.elim _ _; show e.val = if (330000 : Nat) = 1 then 0 else e.val; rw [if_neg (by decide)])]

theorem bcast_bias_apply {α : Type} (b : S128.Idx → α) (n : Fin 10000) (k : Fin 128) :
    broadcastInDim S10000x128 ![0, 1] bcast_S1x128_S10000x128_0_1 (broadcastInDim S1x128 ![1] bcast_S128_S1x128_1 b) (ix2 n k) = b (ix1 k) := by
  rw [broadcastInDim_apply ![0, 1] bcast_S1x128_S10000x128_0_1 _ (ix2 n k) (ix2 (0 : Fin 1) k) (fun a => match a with
      | ⟨0, _⟩ => by show (0 : Nat) = if (1 : Nat) = 1 then 0 else n.val; rw [if_pos rfl]
      | ⟨1, _⟩ => by show k.val = if (128 : Nat) = 1 then 0 else k.val; rw [if_neg (by decide)]),
    broadcastInDim_apply ![1] bcast_S128_S1x128_1 _ (ix2 (0 : Fin 1) k) (ix1 k)
      (fun a => by obtain rfl : a = 0 := Subsingleton.elim _ _; show k.val = if (128 : Nat) = 1 then 0 else k.val; rw [if_neg (by decide)])]

def msgTerm (h : F32 S10000x128) (W : F32 S128x128) (src dst : I32 S330000) : F32 S330000x128 :=
  mulf (F := Ideal)
    (Host.gather gather_S10000x128_S330000x1_S330000x128_1_0_n_n_0_1_1128 (Host.dotGeneral (F := Ideal) (φ₁ := .f32) (φ₂ := .f32) dot_S10000x128_S128x128_S10000x128_1_0_0_1_n_n none h W) (nrmCol src))
    (broadcastInDim S330000x128 ![0, 1] bcast_S330000x1_S330000x128_0_1
      (broadcastInDim S330000x1 ![0] bcast_S330000_S330000x1_0
        (mulf (F := Ideal) (Host.gather gather_S10000_S330000x1_S330000_n_0_n_n_0_1_1 (disTerm dst) (nrmCol src)) (Host.gather gather_S10000_S330000x1_S330000_n_0_n_n_0_1_1 (disTerm dst) (nrmCol dst)))))

def convTerm (h : F32 S10000x128) (W : F32 S128x128) (b : F32 S128) (src dst : I32 S330000) : F32 S10000x128 :=
  addf (F := Ideal)
    (Host.scatterAdd scatter_S10000x128_S330000x1_S330000x128_1_0_0_1
      (broadcastInDim S10000x128 ![] bcast_S_S10000x128 (constant (F := Ideal) S_ .f32 0x00000000#32)) (nrmCol dst) (msgTerm h W src dst))
    (broadcastInDim S10000x128 ![0, 1] bcast_S1x128_S10000x128_0_1 (broadcastInDim S1x128 ![1] bcast_S128_S1x128_1 b))

def layerTerm (h : F32 S10000x128) (W : F32 S128x128) (b : F32 S128) (src dst : I32 S330000) : F32 S10000x128 :=
  maximumf (F := Ideal) (convTerm h W b src dst) (broadcastInDim S10000x128 ![] bcast_S_S10000x128 (constant (F := Ideal) S_ .f32 0x00000000#32))

theorem msgTerm_apply (h : F32 S10000x128) (W : F32 S128x128) (ei : I32 S2x320000) (hei : ∀ j, (ei j).toNat < 10000)
    (e : Fin 330000) (k : Fin 128) :
    msgTerm h W (srcCat ei) (dstCat ei) (ix2 e k)
      = refLin h W (clampNode (nrm (extW ei 0 e))) k
        * (((refDis ei (clampNode (nrm (extW ei 0 e))) : ℝ) : EReal) * ((refDis ei (clampNode (nrm (extW ei 1 e))) : ℝ) : EReal)) := by
  unfold msgTerm
  rw [mulf_apply, gather_rows_apply', bcast_edge_apply, mulf_apply, gather_vec_apply', gather_vec_apply', nrmCol_apply, nrmCol_apply,
    srcCat_apply, dstCat_apply, lin_apply, disTerm_apply ei hei, disTerm_apply ei hei]

theorem convTerm_apply (h : F32 S10000x128) (W : F32 S128x128) (b : F32 S128) (ei : I32 S2x320000)
    (hei : ∀ j, (ei j).toNat < 10000) (n : Fin 10000) (k : Fin 128) :
    convTerm h W b (srcCat ei) (dstCat ei) (ix2 n k) = refConv h W b ei (ix2 n k) := by
  unfold convTerm
  rw [addf_apply, scatterAdd_apply, bcast_bias_apply]
  have key : ∀ j : S330000x128.Idx, (scatter_S10000x128_S330000x1_S330000x128_1_0_0_1.resultIdx? j (nrmCol (dstCat ei)) = some (ix2 n k))
      ↔ ((nrm (extW ei 1 (j 0))).toInt = (n.val : Int) ∧ (j 1).val = k.val) := by
    intro j
    rw [scatter_conv_eq, lands_row,
      show nrmCol (dstCat ei) (col0 (j 0)) = nrm (extW ei 1 (j 0)) from
        (nrmCol_apply (dstCat ei) (j 0)).trans (congrArg nrm (dstCat_apply ei (j 0)))]
  rw [Finset.sum_congr rfl (fun j _ => if_congr (key j) rfl rfl)]
  rw [sum_rows_col k (fun e : Fin 330000 => (nrm (extW ei 1 e)).toInt = (n.val : Int)) (msgTerm h W (srcCat ei) (dstCat ei)), sum_ext]
  have h1 : ∀ e : Fin 320000,
      (if (nrm (extW ei 1 ⟨e.val, by omega⟩)).toInt = (n.val : Int)
        then msgTerm h W (srcCat ei) (dstCat ei) (ix2 (⟨e.val, by omega⟩ : Fin 330000) k) else 0)
        = if (dstW ei e).toNat = n.val then refMsg h W ei n k e else 0 := by
    intro e
    rw [msgTerm_apply h W ei hei, extW_edge, extW_edge]
    have hs : (ei (ix2 0 e)).toNat < 10000 := hei _
    have hd : (ei (ix2 1 e)).toNat < 10000 := hei _
    rw [clampNode_nrm hs, clampNode_nrm hd]
    by_cases hc : (dstW ei e).toNat = n.val
    · rw [if_pos ((lands_word hd n).mpr hc), if_pos hc, nodeOf_eq (w := ei (ix2 1 e)) hc]
      rfl
    · rw [if_neg (fun hh => hc ((lands_word hd n).mp hh)), if_neg hc]
  have h2 : ∀ m : Fin 10000,
      (if (nrm (extW ei 1 ⟨320000 + m.val, by omega⟩)).toInt = (n.val : Int)
        then msgTerm h W (srcCat ei) (dstCat ei) (ix2 (⟨320000 + m.val, by omega⟩ : Fin 330000) k) else 0)
        = if m = n then refSelf h W ei n k else 0 := by
    intro m
    rw [msgTerm_apply h W ei hei, extW_loop, extW_loop]
    have hm : (BitVec.ofNat 32 m.val).toNat < 10000 := by rw [toNat_ofNat_lt m.isLt]; exact m.isLt
    rw [clampNode_nrm hm, nodeOf_ofNat]
    by_cases hc : m = n
    · subst hc
      rw [if_pos ((lands_word hm m).mpr (toNat_ofNat_lt m.isLt)), if_pos rfl]
      rfl
    · rw [if_neg (fun hh => hc (Fin.ext ((toNat_ofNat_lt m.isLt).symm.trans ((lands_word hm n).mp hh)))), if_neg hc]
  beta_reduce
  rw [Finset.sum_congr rfl (fun e _ => h1 e), Finset.sum_congr rfl (fun m _ => h2 m),
    Finset.sum_ite_eq' Finset.univ n (fun _ => refSelf h W ei n k), if_pos (Finset.mem_univ n), ← Finset.sum_filter]
  show Ideal.ofBits .f32 0x00000000#32 + ((∑ e ∈ inEdges ei n, refMsg h W ei n k e) + refSelf h W ei n k) + b (ix1 k) = _
  rw [Ideal.ofBits_zero_f32, zero_add]
  rfl

theorem layerTerm_eq (h : F32 S10000x128) (W : F32 S128x128) (b : F32 S128) (ei : I32 S2x320000)
    (hei : ∀ j, (ei j).toNat < 10000) :
    layerTerm h W b (srcCat ei) (dstCat ei) = refLayer h W b ei := by
  funext j
  obtain ⟨n, k, rfl⟩ : ∃ (n : Fin 10000) (k : Fin 128), j = ix2 n k := ⟨j 0, j 1, eq_ix2 j⟩
  unfold layerTerm refLayer refRelu
  rw [maximumf_apply, convTerm_apply h W b ei hei n k]
  show max _ (Ideal.ofBits .f32 0x00000000#32) = _
  rw [Ideal.ofBits_zero_f32]

theorem toInt_eq_graph (w : BitVec 32) (g : Fin 64) : w.toInt = (g.val : Int) ↔ w.toNat = g.val := by
  rw [BitVec.toInt_eq_toNat_cond]
  have := w.isLt
  have := g.isLt
  split <;> omega

theorem bcast_batch_apply (batch : I32 S10000) (n : Fin 10000) :
    broadcastInDim S10000x1 ![0] bcast_S10000_S10000x1_0 batch (col0 n) = batch (ix1 n) :=
  broadcastInDim_apply ![0] bcast_S10000_S10000x1_0 batch (col0 n) (ix1 n)
    (fun a => by obtain rfl : a = 0 := Subsingleton.elim _ _; show n.val = if (10000 : Nat) = 1 then 0 else n.val; rw [if_neg (by decide)])

def poolTerm (h : F32 S10000x128) (batch : I32 S10000) : F32 S64x128 :=
  Host.divf (F := Ideal)
    (Host.scatterAdd scatter_S64x128_S10000x1_S10000x128_1_0_0_1
      (broadcastInDim S64x128 ![] bcast_S_S64x128 (constant (F := Ideal) S_ .f32 0x00000000#32))
      (broadcastInDim S10000x1 ![0] bcast_S10000_S10000x1_0 batch) h)
    (broadcastInDim S64x128 ![0, 1] bcast_S64x1_S64x128_0_1
      (maximumf (F := Ideal)
        (Host.scatterAdd scatter_S64x1_S10000x1_S10000x1_1_0_0_1
          (broadcastInDim S64x1 ![] bcast_S_S64x1 (constant (F := Ideal) S_ .f32 0x00000000#32))
          (broadcastInDim S10000x1 ![0] bcast_S10000_S10000x1_0 batch)
          (broadcastInDim S10000x1 ![] bcast_S_S10000x1 (constant (F := Ideal) S_ .f32 0x3F800000#32)))
        (broadcastInDim S64x1 ![] bcast_S_S64x1 (constant (F := Ideal) S_ .f32 0x3F800000#32))))

theorem poolTerm_eq (h : F32 S10000x128) (batch : I32 S10000) : poolTerm h batch = refPool h batch := by
  funext j
  obtain ⟨g, k, rfl⟩ : ∃ (g : Fin 64) (k : Fin 128), j = ix2 g k := ⟨j 0, j 1, eq_ix2 j⟩
  unfold poolTerm refPool
  show Ideal.div (Host.scatterAdd scatter_S64x128_S10000x1_S10000x128_1_0_0_1 _ _ h (ix2 g k)) (broadcastInDim (s := S64x1) S64x128 ![0, 1] bcast_S64x1_S64x128_0_1 _ (ix2 g k)) = _
  rw [broadcastInDim_apply ![0, 1] bcast_S64x1_S64x128_0_1 _ (ix2 g k) (ix2 g (0 : Fin 1)) (fun a => match a with
      | ⟨0, _⟩ => by show g.val = if (64 : Nat) = 1 then 0 else g.val; rw [if_neg (by decide)]
      | ⟨1, _⟩ => by show (0 : Nat) = if (1 : Nat) = 1 then 0 else k.val; rw [if_pos rfl])]
  rw [maximumf_apply, scatterAdd_apply, scatterAdd_apply]

  have keyS : ∀ j : S10000x128.Idx, (scatter_S64x128_S10000x1_S10000x128_1_0_0_1.resultIdx? j (broadcastInDim S10000x1 ![0] bcast_S10000_S10000x1_0 batch) = some (ix2 g k))
      ↔ ((batch (ix1 (j 0))).toNat = g.val ∧ (j 1).val = k.val) := by
    intro j
    rw [scatter_pool_eq, lands_row,
      show broadcastInDim S10000x1 ![0] bcast_S10000_S10000x1_0 batch (col0 (j 0)) = batch (ix1 (j 0)) from bcast_batch_apply batch (j 0)]
    exact and_congr (toInt_eq_graph (batch (ix1 (j 0))) g) Iff.rfl
  have keyN : ∀ j : S10000x1.Idx, (scatter_S64x1_S10000x1_S10000x1_1_0_0_1.resultIdx? j (broadcastInDim S10000x1 ![0] bcast_S10000_S10000x1_0 batch) = some (ix2 g (0 : Fin 1)))
      ↔ ((batch (ix1 (j 0))).toNat = g.val ∧ (j 1).val = (0 : Fin 1).val) := by
    intro j
    rw [scatter_cnt_eq, lands_row,
      show broadcastInDim S10000x1 ![0] bcast_S10000_S10000x1_0 batch (col0 (j 0)) = batch (ix1 (j 0)) from bcast_batch_apply batch (j 0)]
    exact and_congr (toInt_eq_graph (batch (ix1 (j 0))) g) Iff.rfl
  rw [Finset.sum_congr rfl (fun j _ => if_congr (keyS j) rfl rfl), Finset.sum_congr rfl (fun j _ => if_congr (keyN j) rfl rfl),
    sum_rows_col k (fun n : Fin 10000 => (batch (ix1 n)).toNat = g.val) h,
    sum_rows_col (0 : Fin 1) (fun n : Fin 10000 => (batch (ix1 n)).toNat = g.val)
      (broadcastInDim S10000x1 ![] bcast_S_S10000x1 (constant (F := Ideal) S_ .f32 0x3F800000#32))]
  show Ideal.div (Ideal.ofBits .f32 0x00000000#32 + ∑ n : Fin 10000, if (batch (ix1 n)).toNat = g.val then h (ix2 n k) else 0)
      (max (Ideal.ofBits .f32 0x00000000#32 + ∑ n : Fin 10000, if (batch (ix1 n)).toNat = g.val then Ideal.ofBits .f32 0x3F800000#32 else 0)
        (Ideal.ofBits .f32 0x3F800000#32)) = _
  rw [Ideal.ofBits_zero_f32, ofBits_one_f32, zero_add, zero_add, sum_ones, ← Finset.sum_filter, ← EReal.coe_one,
    ← (EReal.coe_strictMono.monotone).map_max]
  rfl

theorem lhs_out_0 (i : S64x16.Idx) (q : dot_S64x128_S128x16_S64x16_1_0_0_1_n_n.contr.Idx) :
    (dot_S64x128_S128x16_S64x16_1_0_0_1_n_n.lhsIdx i q 0).val = (i 0).val := by
  unfold DotDims.lhsIdx
  rw [dif_neg (show ¬(0 : Fin S64x128.rank) ∈ dot_S64x128_S128x16_S64x16_1_0_0_1_n_n.lhsBatch by decide), dif_pos (show (0 : Fin S64x128.rank) ∈ dot_S64x128_S128x16_S64x16_1_0_0_1_n_n.lhsNonContracting by decide)]
  rfl
theorem lhs_out_1 (i : S64x16.Idx) (q : dot_S64x128_S128x16_S64x16_1_0_0_1_n_n.contr.Idx) :
    (dot_S64x128_S128x16_S64x16_1_0_0_1_n_n.lhsIdx i q 1).val = (q ⟨0, by decide⟩).val :=
  dot_S64x128_S128x16_S64x16_1_0_0_1_n_n.lhsIdx_val_of_single rfl i q
theorem rhs_out_0 (i : S64x16.Idx) (q : dot_S64x128_S128x16_S64x16_1_0_0_1_n_n.contr.Idx) :
    (dot_S64x128_S128x16_S64x16_1_0_0_1_n_n.rhsIdx i q 0).val = (q ⟨0, by decide⟩).val :=
  dot_S64x128_S128x16_S64x16_1_0_0_1_n_n.rhsIdx_val_of_single rfl i q
theorem rhs_out_1 (i : S64x16.Idx) (q : dot_S64x128_S128x16_S64x16_1_0_0_1_n_n.contr.Idx) :
    (dot_S64x128_S128x16_S64x16_1_0_0_1_n_n.rhsIdx i q 1).val = (i 1).val := by
  unfold DotDims.rhsIdx
  rw [dif_neg (show ¬(1 : Fin S128x16.rank) ∈ dot_S64x128_S128x16_S64x16_1_0_0_1_n_n.rhsBatch by decide), dif_pos (show (1 : Fin S128x16.rank) ∈ dot_S64x128_S128x16_S64x16_1_0_0_1_n_n.rhsNonContracting by decide)]
  rfl

def outTerm (p : F32 S64x128) (Wl : F32 S128x16) (bl : F32 S16) : F32 S64x16 :=
  addf (F := Ideal) (Host.dotGeneral (F := Ideal) (φ₁ := .f32) (φ₂ := .f32) dot_S64x128_S128x16_S64x16_1_0_0_1_n_n none p Wl)
    (broadcastInDim S64x16 ![0, 1] bcast_S1x16_S64x16_0_1 (broadcastInDim S1x16 ![1] bcast_S16_S1x16_1 bl))

theorem outTerm_eq (p : F32 S64x128) (Wl : F32 S128x16) (bl : F32 S16) : outTerm p Wl bl = refOut p Wl bl := by
  funext j
  obtain ⟨g, c, rfl⟩ : ∃ (g : Fin 64) (c : Fin 16), j = ix2 g c := ⟨j 0, j 1, eq_ix2 j⟩
  unfold outTerm refOut
  rw [addf_apply]
  rw [broadcastInDim_apply ![0, 1] bcast_S1x16_S64x16_0_1 _ (ix2 g c) (ix2 (0 : Fin 1) c) (fun a => match a with
      | ⟨0, _⟩ => by show (0 : Nat) = if (1 : Nat) = 1 then 0 else g.val; rw [if_pos rfl]
      | ⟨1, _⟩ => by show c.val = if (16 : Nat) = 1 then 0 else c.val; rw [if_neg (by decide)]),
    broadcastInDim_apply ![1] bcast_S16_S1x16_1 _ (ix2 (0 : Fin 1) c) (ix1 c)
      (fun a => by obtain rfl : a = 0 := Subsingleton.elim _ _; show c.val = if (16 : Nat) = 1 then 0 else c.val; rw [if_neg (by decide)])]
  congr 1
  simp only [Host.dotGeneral]
  rw [Ideal.dotGeneral_apply, ← Equiv.sum_comp (ValueIdx.contrEquiv1 dot_S64x128_S128x16_S64x16_1_0_0_1_n_n 128 rfl rfl).symm]
  refine Finset.sum_congr rfl fun k _ => ?_
  have hk := ValueIdx.contrEquiv1_symm_val dot_S64x128_S128x16_S64x16_1_0_0_1_n_n 128 rfl rfl k
  have el : dot_S64x128_S128x16_S64x16_1_0_0_1_n_n.lhsIdx (ix2 g c) ((ValueIdx.contrEquiv1 dot_S64x128_S128x16_S64x16_1_0_0_1_n_n 128 rfl rfl).symm k) = ix2 g k := funext fun a => Fin.ext (by
    match a with
    | ⟨0, _⟩ => exact lhs_out_0 _ _
    | ⟨1, _⟩ => exact (lhs_out_1 _ _).trans hk)
  have er : dot_S64x128_S128x16_S64x16_1_0_0_1_n_n.rhsIdx (ix2 g c) ((ValueIdx.contrEquiv1 dot_S64x128_S128x16_S64x16_1_0_0_1_n_n 128 rfl rfl).symm k) = ix2 k c := funext fun a => Fin.ext (by
    match a with
    | ⟨0, _⟩ => exact (rhs_out_0 _ _).trans hk
    | ⟨1, _⟩ => exact rhs_out_1 _ _)
  rw [el, er]

open Cert.ReferenceIdeal.Read

theorem src_eq_1 (x1 : (⟨S2x320000, .i32⟩ : BufTy).Contents (Elt Ideal)) : val_main_v3 (F := Ideal) x1 = srcCat x1 := rfl
theorem dst_eq_1 (x1 : (⟨S2x320000, .i32⟩ : BufTy).Contents (Elt Ideal)) : val_main_v6 (F := Ideal) x1 = dstCat x1 := rfl
theorem src_eq_2 (x1 : (⟨S2x320000, .i32⟩ : BufTy).Contents (Elt Ideal)) : val_main_v63 (F := Ideal) x1 = srcCat x1 := rfl
theorem dst_eq_2 (x1 : (⟨S2x320000, .i32⟩ : BufTy).Contents (Elt Ideal)) : val_main_v66 (F := Ideal) x1 = dstCat x1 := rfl
theorem src_eq_3 (x1 : (⟨S2x320000, .i32⟩ : BufTy).Contents (Elt Ideal)) : val_main_v123 (F := Ideal) x1 = srcCat x1 := rfl
theorem dst_eq_3 (x1 : (⟨S2x320000, .i32⟩ : BufTy).Contents (Elt Ideal)) : val_main_v126 (F := Ideal) x1 = dstCat x1 := rfl

theorem layer1_eq (x0 : (⟨S10000x128, .f32⟩ : BufTy).Contents (Elt Ideal)) (x1 : (⟨S2x320000, .i32⟩ : BufTy).Contents (Elt Ideal)) (x3 : (⟨S128x128, .f32⟩ : BufTy).Contents (Elt Ideal)) (x4 : (⟨S128, .f32⟩ : BufTy).Contents (Elt Ideal)) :
    val_main_v59 (F := Ideal) x0 x1 x3 x4 = layerTerm x0 x3 x4 (srcCat x1) (dstCat x1) := rfl
theorem layer2_eq (x0 : (⟨S10000x128, .f32⟩ : BufTy).Contents (Elt Ideal)) (x1 : (⟨S2x320000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v119 (F := Ideal) x0 x1 x3 x4 x5 x6 = layerTerm (val_main_v59 (F := Ideal) x0 x1 x3 x4) x5 x6 (srcCat x1) (dstCat x1) := rfl
theorem layer3_eq (x0 : (⟨S10000x128, .f32⟩ : BufTy).Contents (Elt Ideal)) (x1 : (⟨S2x320000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v179 (F := Ideal) x0 x1 x3 x4 x5 x6 x7 x8 = layerTerm (val_main_v119 (F := Ideal) x0 x1 x3 x4 x5 x6) x7 x8 (srcCat x1) (dstCat x1) := rfl
theorem pool_eq (x0 : (⟨S10000x128, .f32⟩ : BufTy).Contents (Elt Ideal)) (x1 : (⟨S2x320000, .i32⟩ : BufTy).Contents (Elt Ideal)) (x2 : (⟨S10000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v190 (F := Ideal) x0 x1 x2 x3 x4 x5 x6 x7 x8 = poolTerm (val_main_v179 (F := Ideal) x0 x1 x3 x4 x5 x6 x7 x8) x2 := rfl
theorem out_eq (x0 : (⟨S10000x128, .f32⟩ : BufTy).Contents (Elt Ideal)) (x1 : (⟨S2x320000, .i32⟩ : BufTy).Contents (Elt Ideal)) (x2 : (⟨S10000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x16, .f32⟩ : BufTy).Contents (Elt Ideal)) (x10 : (⟨S16, .f32⟩ : BufTy).Contents (Elt Ideal)) :
    val_main_v194 (F := Ideal) x0 x1 x2 x3 x4 x5 x6 x7 x8 x9 x10 = outTerm (val_main_v190 (F := Ideal) x0 x1 x2 x3 x4 x5 x6 x7 x8) x9 x10 := rfl

theorem ref_eq_gcnRef (x0 : (⟨S10000x128, .f32⟩ : BufTy).Contents (Elt Ideal)) (x1 : (⟨S2x320000, .i32⟩ : BufTy).Contents (Elt Ideal)) (x2 : (⟨S10000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x16, .f32⟩ : BufTy).Contents (Elt Ideal)) (x10 : (⟨S16, .f32⟩ : BufTy).Contents (Elt Ideal))
    (hei : ∀ j, (x1 j).toNat < 10000) :
    val_main_v194 (F := Ideal) x0 x1 x2 x3 x4 x5 x6 x7 x8 x9 x10 = Cert.GcnSpec.gcnRef x0 x1 x2 x3 x4 x5 x6 x7 x8 x9 x10 := by
  rw [out_eq, pool_eq, layer3_eq, layer2_eq, layer1_eq, layerTerm_eq x0 x3 x4 x1 hei,
    layerTerm_eq _ x5 x6 x1 hei, layerTerm_eq _ x7 x8 x1 hei, poolTerm_eq, outTerm_eq]
  rfl

theorem res_eq_gcnRef (m : (ℓ : Loc nD τ sig) → Buf (Elt Ideal) ℓ) (c : Dev nD)
    (hei : ∀ j, (m ((c.tc : Thread nD τ).loc main_arg1) j).toNat < 10000) :
    Cert.ReferenceIdeal.Value.res_main_v194 m c
      = Cert.GcnSpec.gcnRef (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [val_main_v194_eq]
  exact ref_eq_gcnRef _ _ _ _ _ _ _ _ _ _ _ hei

end Cert.ReferenceIdeal.RefValue

end
-- ==== Proof.KernelPay.lean ====
import proofs.«213134_g57071525429591_cont_9to1_m_136_24_alg».proof.Proof.TcVal
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate
import Idealize.ShloMosaic.PureOps.Ideal.Laws

noncomputable section

open scoped BigOperators

namespace Cert.KernelIdeal.KernelPay

open Cert.KernelIdeal Idealize.ShloMosaic Idealize.ShloMosaic.ValueIdx

theorem rsqrt_apply {s : Shape} (a : FVec Ideal s .f32) (i : s.Idx) : rsqrt a i = Ideal.rsqrt (a i) := rfl

theorem scalar_one : Scalar.ofBits (F := Ideal) .f32 0x3F800000#32 = (1 : EReal) := Ideal.ofBits_one_f32

theorem scalar_zero : Scalar.ofBits (F := Ideal) .f32 0x00000000#32 = (0 : EReal) := Ideal.ofBits_zero_f32

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs1_c (i : S1x10000.Idx) (q : dot_S1x32_S32x10000_S1x10000_1_0_0_1_n_n.contr.Idx) :
    (dot_S1x32_S32x10000_S1x10000_1_0_0_1_n_n.lhsIdx i q 1).val = (q ⟨0, by decide⟩).val :=
  dot_S1x32_S32x10000_S1x10000_1_0_0_1_n_n.lhsIdx_val_of_single rfl i q
theorem lhs1_n (i : S1x10000.Idx) (q : dot_S1x32_S32x10000_S1x10000_1_0_0_1_n_n.contr.Idx) :
    (dot_S1x32_S32x10000_S1x10000_1_0_0_1_n_n.lhsIdx i q 0).val = (i 0).val := by
  unfold DotDims.lhsIdx
  rw [dif_neg (show ¬(0 : Fin S1x32.rank) ∈ dot_S1x32_S32x10000_S1x10000_1_0_0_1_n_n.lhsBatch by decide), dif_pos (show (0 : Fin S1x32.rank) ∈ dot_S1x32_S32x10000_S1x10000_1_0_0_1_n_n.lhsNonContracting by decide)]
  rfl
theorem rhs1_c (i : S1x10000.Idx) (q : dot_S1x32_S32x10000_S1x10000_1_0_0_1_n_n.contr.Idx) :
    (dot_S1x32_S32x10000_S1x10000_1_0_0_1_n_n.rhsIdx i q 0).val = (q ⟨0, by decide⟩).val :=
  dot_S1x32_S32x10000_S1x10000_1_0_0_1_n_n.rhsIdx_val_of_single rfl i q
theorem rhs1_n (i : S1x10000.Idx) (q : dot_S1x32_S32x10000_S1x10000_1_0_0_1_n_n.contr.Idx) :
    (dot_S1x32_S32x10000_S1x10000_1_0_0_1_n_n.rhsIdx i q 1).val = (i 1).val := by
  unfold DotDims.rhsIdx
  rw [dif_neg (show ¬(1 : Fin S32x10000.rank) ∈ dot_S1x32_S32x10000_S1x10000_1_0_0_1_n_n.rhsBatch by decide), dif_pos (show (1 : Fin S32x10000.rank) ∈ dot_S1x32_S32x10000_S1x10000_1_0_0_1_n_n.rhsNonContracting by decide)]
  rfl

theorem mm1_apply (lhs : FVec Ideal S1x32 .f32) (rhs : FVec Ideal S32x10000 .f32) (p : Fin 1) (q : Fin 10000) :
    matmul dot_S1x32_S32x10000_S1x10000_1_0_0_1_n_n none lhs rhs (constant (F := Ideal) S1x10000 .f32 0x00000000#32) (ix2 p q)
      = ∑ k : Fin 32, lhs (ix2 p k) * rhs (ix2 k q) := by
  simp only [matmul]
  rw [Ideal.matmul_constant_zero_apply, ← Equiv.sum_comp (contrEquiv1 dot_S1x32_S32x10000_S1x10000_1_0_0_1_n_n 32 rfl rfl).symm]
  refine Finset.sum_congr rfl fun k _ => ?_
  have hk := contrEquiv1_symm_val dot_S1x32_S32x10000_S1x10000_1_0_0_1_n_n 32 rfl rfl k
  have el : dot_S1x32_S32x10000_S1x10000_1_0_0_1_n_n.lhsIdx (ix2 p q) ((contrEquiv1 dot_S1x32_S32x10000_S1x10000_1_0_0_1_n_n 32 rfl rfl).symm k) = ix2 p k := funext fun a => Fin.ext (by
    match a with
    | ⟨0, _⟩ => exact lhs1_n _ _
    | ⟨1, _⟩ => exact (lhs1_c _ _).trans hk)
  have er : dot_S1x32_S32x10000_S1x10000_1_0_0_1_n_n.rhsIdx (ix2 p q) ((contrEquiv1 dot_S1x32_S32x10000_S1x10000_1_0_0_1_n_n 32 rfl rfl).symm k) = ix2 k q := funext fun a => Fin.ext (by
    match a with
    | ⟨0, _⟩ => exact (rhs1_c _ _).trans hk
    | ⟨1, _⟩ => exact rhs1_n _ _)
  rw [el, er]

theorem lhs2_c (i : S128x10000.Idx) (q : dot_S128x128_S10000x128_S128x10000_0_1_1_0_n_n.contr.Idx) :
    (dot_S128x128_S10000x128_S128x10000_0_1_1_0_n_n.lhsIdx i q 0).val = (q ⟨0, by decide⟩).val :=
  dot_S128x128_S10000x128_S128x10000_0_1_1_0_n_n.lhsIdx_val_of_single rfl i q
theorem lhs2_n (i : S128x10000.Idx) (q : dot_S128x128_S10000x128_S128x10000_0_1_1_0_n_n.contr.Idx) :
    (dot_S128x128_S10000x128_S128x10000_0_1_1_0_n_n.lhsIdx i q 1).val = (i 0).val := by
  unfold DotDims.lhsIdx
  rw [dif_neg (show ¬(1 : Fin S128x128.rank) ∈ dot_S128x128_S10000x128_S128x10000_0_1_1_0_n_n.lhsBatch by decide), dif_pos (show (1 : Fin S128x128.rank) ∈ dot_S128x128_S10000x128_S128x10000_0_1_1_0_n_n.lhsNonContracting by decide)]
  rfl
theorem rhs2_c (i : S128x10000.Idx) (q : dot_S128x128_S10000x128_S128x10000_0_1_1_0_n_n.contr.Idx) :
    (dot_S128x128_S10000x128_S128x10000_0_1_1_0_n_n.rhsIdx i q 1).val = (q ⟨0, by decide⟩).val :=
  dot_S128x128_S10000x128_S128x10000_0_1_1_0_n_n.rhsIdx_val_of_single rfl i q
theorem rhs2_n (i : S128x10000.Idx) (q : dot_S128x128_S10000x128_S128x10000_0_1_1_0_n_n.contr.Idx) :
    (dot_S128x128_S10000x128_S128x10000_0_1_1_0_n_n.rhsIdx i q 0).val = (i 1).val := by
  unfold DotDims.rhsIdx
  rw [dif_neg (show ¬(0 : Fin S10000x128.rank) ∈ dot_S128x128_S10000x128_S128x10000_0_1_1_0_n_n.rhsBatch by decide), dif_pos (show (0 : Fin S10000x128.rank) ∈ dot_S128x128_S10000x128_S128x10000_0_1_1_0_n_n.rhsNonContracting by decide)]
  rfl

theorem mm2_apply (lhs : FVec Ideal S128x128 .f32) (rhs : FVec Ideal S10000x128 .f32) (p : Fin 128) (q : Fin 10000) :
    matmul dot_S128x128_S10000x128_S128x10000_0_1_1_0_n_n none lhs rhs (constant (F := Ideal) S128x10000 .f32 0x00000000#32) (ix2 p q)
      = ∑ k : Fin 128, lhs (ix2 k p) * rhs (ix2 q k) := by
  simp only [matmul]
  rw [Ideal.matmul_constant_zero_apply, ← Equiv.sum_comp (contrEquiv1 dot_S128x128_S10000x128_S128x10000_0_1_1_0_n_n 128 rfl rfl).symm]
  refine Finset.sum_congr rfl fun k _ => ?_
  have hk := contrEquiv1_symm_val dot_S128x128_S10000x128_S128x10000_0_1_1_0_n_n 128 rfl rfl k
  have el : dot_S128x128_S10000x128_S128x10000_0_1_1_0_n_n.lhsIdx (ix2 p q) ((contrEquiv1 dot_S128x128_S10000x128_S128x10000_0_1_1_0_n_n 128 rfl rfl).symm k) = ix2 k p := funext fun a => Fin.ext (by
    match a with
    | ⟨0, _⟩ => exact (lhs2_c _ _).trans hk
    | ⟨1, _⟩ => exact lhs2_n _ _)
  have er : dot_S128x128_S10000x128_S128x10000_0_1_1_0_n_n.rhsIdx (ix2 p q) ((contrEquiv1 dot_S128x128_S10000x128_S128x10000_0_1_1_0_n_n 128 rfl rfl).symm k) = ix2 q k := funext fun a => Fin.ext (by
    match a with
    | ⟨0, _⟩ => exact rhs2_n _ _
    | ⟨1, _⟩ => exact (rhs2_c _ _).trans hk)
  rw [el, er]

theorem lhs3_c (i : S128x10000.Idx) (q : dot_S128x128_S128x10000_S128x10000_0_0_1_1_n_n.contr.Idx) :
    (dot_S128x128_S128x10000_S128x10000_0_0_1_1_n_n.lhsIdx i q 0).val = (q ⟨0, by decide⟩).val :=
  dot_S128x128_S128x10000_S128x10000_0_0_1_1_n_n.lhsIdx_val_of_single rfl i q
theorem lhs3_n (i : S128x10000.Idx) (q : dot_S128x128_S128x10000_S128x10000_0_0_1_1_n_n.contr.Idx) :
    (dot_S128x128_S128x10000_S128x10000_0_0_1_1_n_n.lhsIdx i q 1).val = (i 0).val := by
  unfold DotDims.lhsIdx
  rw [dif_neg (show ¬(1 : Fin S128x128.rank) ∈ dot_S128x128_S128x10000_S128x10000_0_0_1_1_n_n.lhsBatch by decide), dif_pos (show (1 : Fin S128x128.rank) ∈ dot_S128x128_S128x10000_S128x10000_0_0_1_1_n_n.lhsNonContracting by decide)]
  rfl
theorem rhs3_c (i : S128x10000.Idx) (q : dot_S128x128_S128x10000_S128x10000_0_0_1_1_n_n.contr.Idx) :
    (dot_S128x128_S128x10000_S128x10000_0_0_1_1_n_n.rhsIdx i q 0).val = (q ⟨0, by decide⟩).val :=
  dot_S128x128_S128x10000_S128x10000_0_0_1_1_n_n.rhsIdx_val_of_single rfl i q
theorem rhs3_n (i : S128x10000.Idx) (q : dot_S128x128_S128x10000_S128x10000_0_0_1_1_n_n.contr.Idx) :
    (dot_S128x128_S128x10000_S128x10000_0_0_1_1_n_n.rhsIdx i q 1).val = (i 1).val := by
  unfold DotDims.rhsIdx
  rw [dif_neg (show ¬(1 : Fin S128x10000.rank) ∈ dot_S128x128_S128x10000_S128x10000_0_0_1_1_n_n.rhsBatch by decide), dif_pos (show (1 : Fin S128x10000.rank) ∈ dot_S128x128_S128x10000_S128x10000_0_0_1_1_n_n.rhsNonContracting by decide)]
  rfl

theorem mm3_apply (lhs : FVec Ideal S128x128 .f32) (rhs : FVec Ideal S128x10000 .f32) (p : Fin 128) (q : Fin 10000) :
    matmul dot_S128x128_S128x10000_S128x10000_0_0_1_1_n_n none lhs rhs (constant (F := Ideal) S128x10000 .f32 0x00000000#32) (ix2 p q)
      = ∑ k : Fin 128, lhs (ix2 k p) * rhs (ix2 k q) := by
  simp only [matmul]
  rw [Ideal.matmul_constant_zero_apply, ← Equiv.sum_comp (contrEquiv1 dot_S128x128_S128x10000_S128x10000_0_0_1_1_n_n 128 rfl rfl).symm]
  refine Finset.sum_congr rfl fun k _ => ?_
  have hk := contrEquiv1_symm_val dot_S128x128_S128x10000_S128x10000_0_0_1_1_n_n 128 rfl rfl k
  have el : dot_S128x128_S128x10000_S128x10000_0_0_1_1_n_n.lhsIdx (ix2 p q) ((contrEquiv1 dot_S128x128_S128x10000_S128x10000_0_0_1_1_n_n 128 rfl rfl).symm k) = ix2 k p := funext fun a => Fin.ext (by
    match a with
    | ⟨0, _⟩ => exact (lhs3_c _ _).trans hk
    | ⟨1, _⟩ => exact lhs3_n _ _)
  have er : dot_S128x128_S128x10000_S128x10000_0_0_1_1_n_n.rhsIdx (ix2 p q) ((contrEquiv1 dot_S128x128_S128x10000_S128x10000_0_0_1_1_n_n 128 rfl rfl).symm k) = ix2 k q := funext fun a => Fin.ext (by
    match a with
    | ⟨0, _⟩ => exact (rhs3_c _ _).trans hk
    | ⟨1, _⟩ => exact rhs3_n _ _)
  rw [el, er]

theorem lhs4_c (i : S128x64.Idx) (q : dot_S128x10000_S10000x64_S128x64_1_0_0_1_n_n.contr.Idx) :
    (dot_S128x10000_S10000x64_S128x64_1_0_0_1_n_n.lhsIdx i q 1).val = (q ⟨0, by decide⟩).val :=
  dot_S128x10000_S10000x64_S128x64_1_0_0_1_n_n.lhsIdx_val_of_single rfl i q
theorem lhs4_n (i : S128x64.Idx) (q : dot_S128x10000_S10000x64_S128x64_1_0_0_1_n_n.contr.Idx) :
    (dot_S128x10000_S10000x64_S128x64_1_0_0_1_n_n.lhsIdx i q 0).val = (i 0).val := by
  unfold DotDims.lhsIdx
  rw [dif_neg (show ¬(0 : Fin S128x10000.rank) ∈ dot_S128x10000_S10000x64_S128x64_1_0_0_1_n_n.lhsBatch by decide), dif_pos (show (0 : Fin S128x10000.rank) ∈ dot_S128x10000_S10000x64_S128x64_1_0_0_1_n_n.lhsNonContracting by decide)]
  rfl
theorem rhs4_c (i : S128x64.Idx) (q : dot_S128x10000_S10000x64_S128x64_1_0_0_1_n_n.contr.Idx) :
    (dot_S128x10000_S10000x64_S128x64_1_0_0_1_n_n.rhsIdx i q 0).val = (q ⟨0, by decide⟩).val :=
  dot_S128x10000_S10000x64_S128x64_1_0_0_1_n_n.rhsIdx_val_of_single rfl i q
theorem rhs4_n (i : S128x64.Idx) (q : dot_S128x10000_S10000x64_S128x64_1_0_0_1_n_n.contr.Idx) :
    (dot_S128x10000_S10000x64_S128x64_1_0_0_1_n_n.rhsIdx i q 1).val = (i 1).val := by
  unfold DotDims.rhsIdx
  rw [dif_neg (show ¬(1 : Fin S10000x64.rank) ∈ dot_S128x10000_S10000x64_S128x64_1_0_0_1_n_n.rhsBatch by decide), dif_pos (show (1 : Fin S10000x64.rank) ∈ dot_S128x10000_S10000x64_S128x64_1_0_0_1_n_n.rhsNonContracting by decide)]
  rfl

theorem mm4_apply (lhs : FVec Ideal S128x10000 .f32) (rhs : FVec Ideal S10000x64 .f32) (p : Fin 128) (q : Fin 64) :
    matmul dot_S128x10000_S10000x64_S128x64_1_0_0_1_n_n none lhs rhs (constant (F := Ideal) S128x64 .f32 0x00000000#32) (ix2 p q)
      = ∑ k : Fin 10000, lhs (ix2 p k) * rhs (ix2 k q) := by
  simp only [matmul]
  rw [Ideal.matmul_constant_zero_apply, ← Equiv.sum_comp (contrEquiv1 dot_S128x10000_S10000x64_S128x64_1_0_0_1_n_n 10000 rfl rfl).symm]
  refine Finset.sum_congr rfl fun k _ => ?_
  have hk := contrEquiv1_symm_val dot_S128x10000_S10000x64_S128x64_1_0_0_1_n_n 10000 rfl rfl k
  have el : dot_S128x10000_S10000x64_S128x64_1_0_0_1_n_n.lhsIdx (ix2 p q) ((contrEquiv1 dot_S128x10000_S10000x64_S128x64_1_0_0_1_n_n 10000 rfl rfl).symm k) = ix2 p k := funext fun a => Fin.ext (by
    match a with
    | ⟨0, _⟩ => exact lhs4_n _ _
    | ⟨1, _⟩ => exact (lhs4_c _ _).trans hk)
  have er : dot_S128x10000_S10000x64_S128x64_1_0_0_1_n_n.rhsIdx (ix2 p q) ((contrEquiv1 dot_S128x10000_S10000x64_S128x64_1_0_0_1_n_n 10000 rfl rfl).symm k) = ix2 k q := funext fun a => Fin.ext (by
    match a with
    | ⟨0, _⟩ => exact (rhs4_c _ _).trans hk
    | ⟨1, _⟩ => exact rhs4_n _ _)
  rw [el, er]

theorem lhs5_c (i : S1x64.Idx) (q : dot_S1x10000_S10000x64_S1x64_1_0_0_1_n_n.contr.Idx) :
    (dot_S1x10000_S10000x64_S1x64_1_0_0_1_n_n.lhsIdx i q 1).val = (q ⟨0, by decide⟩).val :=
  dot_S1x10000_S10000x64_S1x64_1_0_0_1_n_n.lhsIdx_val_of_single rfl i q
theorem lhs5_n (i : S1x64.Idx) (q : dot_S1x10000_S10000x64_S1x64_1_0_0_1_n_n.contr.Idx) :
    (dot_S1x10000_S10000x64_S1x64_1_0_0_1_n_n.lhsIdx i q 0).val = (i 0).val := by
  unfold DotDims.lhsIdx
  rw [dif_neg (show ¬(0 : Fin S1x10000.rank) ∈ dot_S1x10000_S10000x64_S1x64_1_0_0_1_n_n.lhsBatch by decide), dif_pos (show (0 : Fin S1x10000.rank) ∈ dot_S1x10000_S10000x64_S1x64_1_0_0_1_n_n.lhsNonContracting by decide)]
  rfl
theorem rhs5_c (i : S1x64.Idx) (q : dot_S1x10000_S10000x64_S1x64_1_0_0_1_n_n.contr.Idx) :
    (dot_S1x10000_S10000x64_S1x64_1_0_0_1_n_n.rhsIdx i q 0).val = (q ⟨0, by decide⟩).val :=
  dot_S1x10000_S10000x64_S1x64_1_0_0_1_n_n.rhsIdx_val_of_single rfl i q
theorem rhs5_n (i : S1x64.Idx) (q : dot_S1x10000_S10000x64_S1x64_1_0_0_1_n_n.contr.Idx) :
    (dot_S1x10000_S10000x64_S1x64_1_0_0_1_n_n.rhsIdx i q 1).val = (i 1).val := by
  unfold DotDims.rhsIdx
  rw [dif_neg (show ¬(1 : Fin S10000x64.rank) ∈ dot_S1x10000_S10000x64_S1x64_1_0_0_1_n_n.rhsBatch by decide), dif_pos (show (1 : Fin S10000x64.rank) ∈ dot_S1x10000_S10000x64_S1x64_1_0_0_1_n_n.rhsNonContracting by decide)]
  rfl

theorem mm5_apply (lhs : FVec Ideal S1x10000 .f32) (rhs : FVec Ideal S10000x64 .f32) (p : Fin 1) (q : Fin 64) :
    matmul dot_S1x10000_S10000x64_S1x64_1_0_0_1_n_n none lhs rhs (constant (F := Ideal) S1x64 .f32 0x00000000#32) (ix2 p q)
      = ∑ k : Fin 10000, lhs (ix2 p k) * rhs (ix2 k q) := by
  simp only [matmul]
  rw [Ideal.matmul_constant_zero_apply, ← Equiv.sum_comp (contrEquiv1 dot_S1x10000_S10000x64_S1x64_1_0_0_1_n_n 10000 rfl rfl).symm]
  refine Finset.sum_congr rfl fun k _ => ?_
  have hk := contrEquiv1_symm_val dot_S1x10000_S10000x64_S1x64_1_0_0_1_n_n 10000 rfl rfl k
  have el : dot_S1x10000_S10000x64_S1x64_1_0_0_1_n_n.lhsIdx (ix2 p q) ((contrEquiv1 dot_S1x10000_S10000x64_S1x64_1_0_0_1_n_n 10000 rfl rfl).symm k) = ix2 p k := funext fun a => Fin.ext (by
    match a with
    | ⟨0, _⟩ => exact lhs5_n _ _
    | ⟨1, _⟩ => exact (lhs5_c _ _).trans hk)
  have er : dot_S1x10000_S10000x64_S1x64_1_0_0_1_n_n.rhsIdx (ix2 p q) ((contrEquiv1 dot_S1x10000_S10000x64_S1x64_1_0_0_1_n_n 10000 rfl rfl).symm k) = ix2 k q := funext fun a => Fin.ext (by
    match a with
    | ⟨0, _⟩ => exact (rhs5_c _ _).trans hk
    | ⟨1, _⟩ => exact rhs5_n _ _)
  rw [el, er]

theorem lhs6_c (i : S64x16.Idx) (q : dot_S128x64_S128x16_S64x16_0_0_1_1_n_n.contr.Idx) :
    (dot_S128x64_S128x16_S64x16_0_0_1_1_n_n.lhsIdx i q 0).val = (q ⟨0, by decide⟩).val :=
  dot_S128x64_S128x16_S64x16_0_0_1_1_n_n.lhsIdx_val_of_single rfl i q
theorem lhs6_n (i : S64x16.Idx) (q : dot_S128x64_S128x16_S64x16_0_0_1_1_n_n.contr.Idx) :
    (dot_S128x64_S128x16_S64x16_0_0_1_1_n_n.lhsIdx i q 1).val = (i 0).val := by
  unfold DotDims.lhsIdx
  rw [dif_neg (show ¬(1 : Fin S128x64.rank) ∈ dot_S128x64_S128x16_S64x16_0_0_1_1_n_n.lhsBatch by decide), dif_pos (show (1 : Fin S128x64.rank) ∈ dot_S128x64_S128x16_S64x16_0_0_1_1_n_n.lhsNonContracting by decide)]
  rfl
theorem rhs6_c (i : S64x16.Idx) (q : dot_S128x64_S128x16_S64x16_0_0_1_1_n_n.contr.Idx) :
    (dot_S128x64_S128x16_S64x16_0_0_1_1_n_n.rhsIdx i q 0).val = (q ⟨0, by decide⟩).val :=
  dot_S128x64_S128x16_S64x16_0_0_1_1_n_n.rhsIdx_val_of_single rfl i q
theorem rhs6_n (i : S64x16.Idx) (q : dot_S128x64_S128x16_S64x16_0_0_1_1_n_n.contr.Idx) :
    (dot_S128x64_S128x16_S64x16_0_0_1_1_n_n.rhsIdx i q 1).val = (i 1).val := by
  unfold DotDims.rhsIdx
  rw [dif_neg (show ¬(1 : Fin S128x16.rank) ∈ dot_S128x64_S128x16_S64x16_0_0_1_1_n_n.rhsBatch by decide), dif_pos (show (1 : Fin S128x16.rank) ∈ dot_S128x64_S128x16_S64x16_0_0_1_1_n_n.rhsNonContracting by decide)]
  rfl

theorem mm6_apply (lhs : FVec Ideal S128x64 .f32) (rhs : FVec Ideal S128x16 .f32) (p : Fin 64) (q : Fin 16) :
    matmul dot_S128x64_S128x16_S64x16_0_0_1_1_n_n none lhs rhs (constant (F := Ideal) S64x16 .f32 0x00000000#32) (ix2 p q)
      = ∑ k : Fin 128, lhs (ix2 k p) * rhs (ix2 k q) := by
  simp only [matmul]
  rw [Ideal.matmul_constant_zero_apply, ← Equiv.sum_comp (contrEquiv1 dot_S128x64_S128x16_S64x16_0_0_1_1_n_n 128 rfl rfl).symm]
  refine Finset.sum_congr rfl fun k _ => ?_
  have hk := contrEquiv1_symm_val dot_S128x64_S128x16_S64x16_0_0_1_1_n_n 128 rfl rfl k
  have el : dot_S128x64_S128x16_S64x16_0_0_1_1_n_n.lhsIdx (ix2 p q) ((contrEquiv1 dot_S128x64_S128x16_S64x16_0_0_1_1_n_n 128 rfl rfl).symm k) = ix2 k p := funext fun a => Fin.ext (by
    match a with
    | ⟨0, _⟩ => exact (lhs6_c _ _).trans hk
    | ⟨1, _⟩ => exact lhs6_n _ _)
  have er : dot_S128x64_S128x16_S64x16_0_0_1_1_n_n.rhsIdx (ix2 p q) ((contrEquiv1 dot_S128x64_S128x16_S64x16_0_0_1_1_n_n 128 rfl rfl).symm k) = ix2 k q := funext fun a => Fin.ext (by
    match a with
    | ⟨0, _⟩ => exact (rhs6_c _ _).trans hk
    | ⟨1, _⟩ => exact rhs6_n _ _)
  rw [el, er]

def oh (batch2 : IVec S10000x1 32) (n : Fin 10000) (g : Fin 64) : EReal :=
  if batch2 (ix2 n (0 : Fin 1)) = BitVec.ofNat 32 g.val then (1 : EReal) else 0

theorem sitofp_extui_cmpi (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h, h]
    have : IntOp.cmpi .eq b b = 1#1 := StableHlo.Predicate.cmpi_eq_iff.2 rfl
    rw [this]
    norm_num
  · rw [if_neg h]
    have : IntOp.cmpi .eq a b = 0#1 := by
      have hne : IntOp.cmpi .eq a b ≠ 1#1 := fun e => h (StableHlo.Predicate.cmpi_eq_iff.1 e)
      exact eq_zero_of_ne_one hne
    rw [this]
    norm_num

theorem onehot_apply (batch2 : IVec S10000x1 32) (hb : S10000x1.Broadcasts S10000x64) (hi : S10000x64.Iotas .tc 32 [1])
    (hw : 1 < 32) (n : Fin 10000) (g : Fin 64) :
    (sitofp (F := Ideal) .f32 (extui 32 (cmpi .eq (broadcastTo S10000x64 batch2 hb) (iota .tc S10000x64 32 [1] hi)) hw)
      : FVec Ideal S10000x64 .f32) (ix2 n g) = oh batch2 n g := by
  rw [sitofp_apply, extui_apply]
  show FloatOps.sitofp (F := Ideal) .f32 ((IntOp.cmpi .eq (broadcastTo S10000x64 batch2 hb (ix2 n g))
      (iota .tc S10000x64 32 [1] hi (ix2 n g))).setWidth 32) = _
  rw [sitofp_extui_cmpi, broadcastTo_a1_ab_apply]
  have hio : iota .tc S10000x64 32 [1] hi (ix2 n g) = BitVec.ofNat 32 g.val := by
    show BitVec.ofNat 32 (0 * 64 + g.val) = _
    rw [Nat.zero_mul, Nat.zero_add]
  rw [hio]
  rfl

theorem firstDis_apply (x : Vec Ideal S10000x128 .f32) (w : Vec Ideal S128x128 .f32) (degp : Vec Ideal S32x10000 .f32)
    (n : Fin 10000) :
    TcVal.firstDis (F := Ideal) x w degp (ix2 (0 : Fin 1) n)
      = Ideal.rsqrt ((∑ t : Fin 32, (1 : EReal) * degp (ix2 t n)) + 1) := by
  show Gen.k1_pay1 (F := Ideal) degp (ix2 (0 : Fin 1) n) = _
  unfold Gen.k1_pay1
  simp only [rsqrt_apply, addf_apply, broadcast_apply, shapeCast_self, mm1_apply, scalar_one]

theorem firstU_apply (x : Vec Ideal S10000x128 .f32) (w : Vec Ideal S128x128 .f32) (degp : Vec Ideal S32x10000 .f32)
    (k : Fin 128) (n : Fin 10000) :
    TcVal.firstU (F := Ideal) x w degp (ix2 k n)
      = (∑ c : Fin 128, w (ix2 c k) * x (ix2 n c)) * TcVal.firstDis (F := Ideal) x w degp (ix2 (0 : Fin 1) n) := by
  show Gen.k1_pay2 (F := Ideal) degp w x (ix2 k n) = _ * Gen.k1_pay1 (F := Ideal) degp (ix2 (0 : Fin 1) n)
  unfold Gen.k1_pay2
  simp only [mulf_apply, mm2_apply, broadcastTo_1b_ab_apply]

def act (s u : Vec Ideal S128x10000 .f32) (dis : Vec Ideal S1x10000 .f32) (b : Vec Ideal S128x1 .f32)
    (c : Fin 128) (n : Fin 10000) : EReal :=
  max ((s (ix2 c n) + u (ix2 c n)) * dis (ix2 (0 : Fin 1) n) + b (ix2 c (0 : Fin 1))) 0

theorem midU_apply (s u : Vec Ideal S128x10000 .f32) (dis : Vec Ideal S1x10000 .f32) (b : Vec Ideal S128x1 .f32)
    (w : Vec Ideal S128x128 .f32) (k : Fin 128) (n : Fin 10000) :
    TcVal.midU (F := Ideal) s u dis b w (ix2 k n)
      = (∑ c : Fin 128, w (ix2 c k) * act s u dis b c n) * dis (ix2 (0 : Fin 1) n) := by
  show Gen.k3_pay1 (F := Ideal) dis s u b w (ix2 k n) = _
  unfold Gen.k3_pay1
  simp only [mulf_apply, mm3_apply, maximumf_apply, addf_apply, broadcast_apply, broadcastTo_1b_ab_apply,
    broadcastTo_a1_ab_apply, shapeCast_self, scalar_zero, act]

theorem finalOut_apply (s u : Vec Ideal S128x10000 .f32) (dis : Vec Ideal S1x10000 .f32) (b : Vec Ideal S128x1 .f32)
    (batch2 : Vec Ideal S10000x1 .i32) (wl : Vec Ideal S128x16 .f32) (bl : Vec Ideal S1x16 .f32) (g : Fin 64) (c : Fin 16) :
    TcVal.finalOut (F := Ideal) s u dis b batch2 wl bl (ix2 g c)
      = (∑ k : Fin 128,
          Ideal.div (∑ n : Fin 10000, act s u dis b k n * oh batch2 n g)
            (max (∑ n : Fin 10000, (1 : EReal) * oh batch2 n g) 1) * wl (ix2 k c)) + bl (ix2 (0 : Fin 1) c) := by
  show Gen.k7_pay1 (F := Ideal) dis s u b batch2 wl bl (ix2 g c) = _
  unfold Gen.k7_pay1
  have hoh : ∀ n : Fin 10000,
      (sitofp (F := Ideal) .f32 (extui 32 (cmpi .eq (broadcastTo S10000x64 batch2 Gen.broadcasts_S10000x1_S10000x64)
        (iota .tc S10000x64 32 [1] Gen.iota_S10000x64_d1_w32)) Gen.natLt_1_32) : FVec Ideal S10000x64 .f32) (ix2 n g)
        = oh batch2 n g := fun n => onehot_apply batch2 _ _ _ n g
  simp only [addf_apply, mm6_apply, divf_apply, mm4_apply, mm5_apply, maximumf_apply, mulf_apply, broadcast_apply,
    broadcastTo_1b_ab_apply, broadcastTo_a1_ab_apply, shapeCast_self, scalar_zero, scalar_one, hoh, act]

end Cert.KernelIdeal.KernelPay
-- ==== Proof.BridgeAlg.lean ====
import Idealize.ShloMosaic.PureOps.Ideal
import Idealize.ShloMosaic.PureOps.Ideal.Laws
import Idealize.ShloMosaic.PureOps.ShapeOps
import Idealize.ShloMosaic.Lib.ValueIdx
import Idealize.ShloMosaic.Lib.IdealHost
import Mathlib.Algebra.BigOperators.Fin
import Mathlib.Algebra.BigOperators.Ring.Finset
import Mathlib.Data.EReal.Operations
import Mathlib.Data.EReal.Inv

noncomputable section

open scoped BigOperators

namespace BridgeAlg

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_natCast (n : ℕ) : (((n : ℝ)) : EReal) = (n : EReal) := rfl

theorem sum_ite_one {ι : Type*} (s : Finset ι) (p : ι → Prop) [DecidablePred p] :
    (∑ i ∈ s, if p i then (1 : EReal) else 0) = ((s.filter p).card : EReal) :=
  Finset.sum_boole p s

def lanePart {s : Shape} {d : Fin 1 → Nat} (idxs : Fin s.rank → IVec ⟨1, d⟩ 32) (v : Vec Ideal ⟨1, d⟩ .f32)
    (j : s.Idx) (k : Fin (d 0)) : EReal :=
  if (∀ a, (j a).val = (idxs a (Shape.ofLane k)).toNat) then v (Shape.ofLane k) else 0

theorem storeIdx_step {s : Shape} {d : Fin 1 → Nat} (idxs : Fin s.rank → IVec ⟨1, d⟩ 32) (v : Vec Ideal ⟨1, d⟩ .f32)
    (h : ∀ a x, (idxs a x).toNat < s.size a) (l : List (Fin (d 0))) (f : Vec Ideal s .f32) (j : s.Idx) :
    (l.foldl (fun (g : Vec Ideal s .f32) k =>
      let x := Shape.ofLane k
      if (fun _ => 1 : IVec ⟨1, d⟩ 1) x = 1 then
        let i := idxAt idxs h x
        let y := if true then Elt.idxAdd (F := Ideal) .f32 (g i) (v x) else v x
        fun j => if (∀ a, (j a).val = (i a).val) then y else g j
      else g) f) j = f j + (l.map (lanePart idxs v j)).sum := by
  induction l generalizing f with
  | nil => simp
  | cons k l ih =>
    rw [List.foldl_cons, ih, List.map_cons, List.sum_cons, ← add_assoc]
    congr 1
    simp only [lanePart, idxAt]
    by_cases hj : ∀ a, (j a).val = (idxs a (Shape.ofLane k)).toNat
    · have : j = idxAt idxs h (Shape.ofLane k) := funext fun a => Fin.ext (hj a)
      simp [hj, this, idxAt]
    · simp [hj]

theorem storeIdx_add_apply {s : Shape} {d : Fin 1 → Nat} (f : Vec Ideal s .f32) (idxs : Fin s.rank → IVec ⟨1, d⟩ 32)
    (v : Vec Ideal ⟨1, d⟩ .f32) (h : ∀ a x, (idxs a x).toNat < s.size a) (j : s.Idx) :
    storeIdx f idxs v (fun _ => 1) true h j = f j + ∑ k : Fin (d 0), lanePart idxs v j k := by
  rw [Fin.sum_univ_def]
  exact storeIdx_step idxs v h _ f j

theorem foldl_storeIdx_add_apply {s : Shape} {d : Fin 1 → Nat} {ι : Type} (idxs : ι → Fin s.rank → IVec ⟨1, d⟩ 32)
    (v : ι → Vec Ideal ⟨1, d⟩ .f32) (h : ∀ i a x, (idxs i a x).toNat < s.size a) (l : List ι)
    (f : Vec Ideal s .f32) (j : s.Idx) :
    (l.foldl (fun g i => storeIdx g (idxs i) (v i) (fun _ => 1) true (h i)) f) j
      = f j + (l.map fun i => ∑ k : Fin (d 0), lanePart (idxs i) (v i) j k).sum := by
  induction l generalizing f with
  | nil => simp
  | cons i l ih => rw [List.foldl_cons, ih, storeIdx_add_apply, List.map_cons, List.sum_cons, add_assoc]

theorem foldl_finRange_storeIdx_add_apply {s : Shape} {d : Fin 1 → Nat} {n : Nat}
    (idxs : Fin n → Fin s.rank → IVec ⟨1, d⟩ 32) (v : Fin n → Vec Ideal ⟨1, d⟩ .f32)
    (h : ∀ i a x, (idxs i a x).toNat < s.size a) (f : Vec Ideal s .f32) (j : s.Idx) :
    ((List.finRange n).foldl (fun g i => storeIdx g (idxs i) (v i) (fun _ => 1) true (h i)) f) j
      = f j + ∑ i : Fin n, ∑ k : Fin (d 0), lanePart (idxs i) (v i) j k := by
  rw [foldl_storeIdx_add_apply, Fin.sum_univ_def]

theorem sum_lanePart_ones {n : Nat} {d : Fin 1 → Nat} (iv : IVec ⟨1, d⟩ 32) (v : Vec Ideal ⟨1, d⟩ .f32)
    (hv : ∀ x, v x = 1) (j : (⟨1, ![n]⟩ : Shape).Idx) :
    (∑ k : Fin (d 0), lanePart (s := ⟨1, ![n]⟩) ![iv] v j k)
      = ((Finset.univ.filter fun k : Fin (d 0) => (iv (Shape.ofLane k)).toNat = (j 0).val).card : EReal) := by
  rw [← sum_ite_one]
  refine Finset.sum_congr rfl fun k _ => ?_
  unfold lanePart
  rw [hv]
  have : (∀ a : Fin 1, (j a).val = ((![iv] : Fin 1 → IVec ⟨1, d⟩ 32) a (Shape.ofLane k)).toNat)
      ↔ (iv (Shape.ofLane k)).toNat = (j 0).val := by
    constructor
    · intro h; exact (h 0).symm
    · intro h a; rw [Fin.eq_zero a]; exact h.symm
  simp only [this]

def keySum (val : ℕ → EReal) (key : ℕ → ℕ) (j₀ a b : ℕ) : EReal :=
  ∑ k ∈ Finset.Ico a b, if key k = j₀ then val k else 0

theorem keySum_add (val : ℕ → EReal) (key : ℕ → ℕ) (j₀ : ℕ) {a b c : ℕ} (h₁ : a ≤ b) (h₂ : b ≤ c) :
    keySum val key j₀ a b + keySum val key j₀ b c = keySum val key j₀ a c :=
  Finset.sum_Ico_consecutive _ h₁ h₂

@[simp] theorem keySum_self (val : ℕ → EReal) (key : ℕ → ℕ) (j₀ a : ℕ) : keySum val key j₀ a a = 0 := by
  simp [keySum]

theorem keySum_eq_sum_fin (val : ℕ → EReal) (key : ℕ → ℕ) (j₀ base n : ℕ) :
    keySum val key j₀ base (base + n) = ∑ k : Fin n, if key (base + k.val) = j₀ then val (base + k.val) else 0 := by
  rw [keySum, Finset.sum_Ico_eq_sum_range, Nat.add_sub_cancel_left, Finset.sum_range]

theorem keySum_one (key : ℕ → ℕ) (j₀ a b : ℕ) :
    keySum (fun _ => 1) key j₀ a b = (((Finset.Ico a b).filter fun k => key k = j₀).card : EReal) :=
  sum_ite_one _ _

theorem storeIdx_add_keySum {N L : Nat} (f : Vec Ideal ⟨1, ![N]⟩ .f32) (iv : IVec ⟨1, ![L]⟩ 32)
    (v : Vec Ideal ⟨1, ![L]⟩ .f32) (h : ∀ a x, ((![iv] : Fin 1 → IVec ⟨1, ![L]⟩ 32) a x).toNat < (⟨1, ![N]⟩ : Shape).size a)
    (j : (⟨1, ![N]⟩ : Shape).Idx) (val : ℕ → EReal) (key : ℕ → ℕ) (base : ℕ)
    (hkey : ∀ k : Fin L, (iv (Shape.ofLane (d := ![L]) k)).toNat = key (base + k.val))
    (hval : ∀ k : Fin L, v (Shape.ofLane (d := ![L]) k) = val (base + k.val)) :
    storeIdx f ![iv] v (fun _ => 1) true h j = f j + keySum val key (j 0).val base (base + L) := by
  rw [storeIdx_add_apply, keySum_eq_sum_fin]
  congr 1
  refine Finset.sum_congr rfl fun k _ => ?_
  unfold lanePart
  have : (∀ a : Fin 1, (j a).val = ((![iv] : Fin 1 → IVec ⟨1, ![L]⟩ 32) a (Shape.ofLane k)).toNat)
      ↔ key (base + k.val) = (j 0).val := by
    rw [← hkey k]
    constructor
    · intro h; exact (h 0).symm
    · intro h a; rw [Fin.eq_zero a]; exact h.symm
  simp only [this, hval k]

end BridgeAlg
-- ==== Proof.BridgeGcn.lean ====
import proofs.«213134_g57071525429591_cont_9to1_m_136_24_alg».proof.Proof.GcnSpec
import proofs.«213134_g57071525429591_cont_9to1_m_136_24_alg».proof.Proof.BridgeAlg

noncomputable section

open scoped BigOperators

namespace BridgeAlg

open Idealize.ShloMosaic Idealize.ShloMosaic.ValueIdx Cert.GcnSpec

def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx; obtain ⟨b, rfl⟩ := hy; exact ⟨Max.max a b, (coe_max a b).symm⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem isReal_of_abs_lt_top {x : EReal} (h : Max.max x (-x) < ⊤) : IsReal x := by
  induction x with
  | bot => simp at h
  | top => simp at h
  | coe r => exact ⟨r, rfl⟩

theorem sum_range_mul {M : Type*} [AddCommMonoid M] (L : ℕ) (f : ℕ → M) (W : ℕ) :
    ∑ e ∈ Finset.range (W * L), f e = ∑ w ∈ Finset.range W, ∑ k ∈ Finset.range L, f (L * w + k) := by
  induction W with
  | zero => simp
  | succ W ih => rw [Nat.succ_mul, Finset.sum_range_add, ih, Finset.sum_range_succ, Nat.mul_comm W L]

theorem sum_fin_mul {M : Type*} [AddCommMonoid M] (W L : ℕ) (f : ℕ → M) :
    ∑ e : Fin (W * L), f e.val = ∑ w : Fin W, ∑ k : Fin L, f (L * w.val + k.val) := by
  rw [← Finset.sum_range (fun e => f e), sum_range_mul, Finset.sum_range (fun w => ∑ k ∈ Finset.range L, f (L * w + k))]
  exact Finset.sum_congr rfl fun w _ => (Finset.sum_range (fun k => f (L * w.val + k)))

theorem sum_part_counts (ei : EdgeArr) (n : Fin 10000) :
    ∑ w : Fin 32, (Finset.univ.filter fun k : Fin 10000 =>
        (dstW ei ⟨10000 * w.val + k.val, by have := w.isLt; have := k.isLt; omega⟩).toNat = n.val).card
      = refCnt ei n := by
  let f : ℕ → ℕ := fun e => if h : e < 320000 then (if (dstW ei ⟨e, h⟩).toNat = n.val then 1 else 0) else 0
  have h1 : refCnt ei n = ∑ e : Fin (32 * 10000), f e.val := by
    unfold refCnt inEdges
    rw [Finset.card_filter]
    exact Finset.sum_congr rfl fun e _ => by simp only [f, dif_pos e.isLt]
  rw [h1, sum_fin_mul 32 10000 f]
  refine Finset.sum_congr rfl fun w _ => ?_
  rw [Finset.card_filter]
  refine Finset.sum_congr rfl fun k _ => ?_
  have hlt : 10000 * w.val + k.val < 320000 := by have := w.isLt; have := k.isLt; omega
  simp only [f, dif_pos hlt]

theorem deg_bridge (ei : EdgeArr) (degp : Fin 32 → Fin 10000 → EReal) (n : Fin 10000)
    (hdegp : ∀ w : Fin 32, degp w n = (((Finset.univ.filter fun k : Fin 10000 =>
        (dstW ei ⟨10000 * w.val + k.val, by have := w.isLt; have := k.isLt; omega⟩).toNat = n.val).card : ℝ) : EReal)) :
    (∑ w : Fin 32, (1 : EReal) * degp w n) + 1 = ((refDeg ei n : ℝ) : EReal) := by
  simp only [one_mul, hdegp]
  rw [← coe_sum, ← EReal.coe_one, ← EReal.coe_add]
  congr 1
  unfold refDeg
  rw [← sum_part_counts ei n, Nat.cast_sum]

theorem rsqrt_coe_pos {r : ℝ} (hr : 0 < r) : Ideal.rsqrt (r : EReal) = ((1 / Real.sqrt r : ℝ) : EReal) := by
  rw [Ideal.rsqrt_coe, if_neg (not_lt.mpr hr.le), if_neg hr.ne', one_div]

theorem rsqrt_refDeg (ei : EdgeArr) (n : Fin 10000) :
    Ideal.rsqrt ((refDeg ei n : ℝ) : EReal) = ((refDis ei n : ℝ) : EReal) :=
  rsqrt_coe_pos (refDeg_pos ei n)

theorem div_one_sqrt_coe_pos {r : ℝ} (hr : 0 < r) :
    Ideal.div 1 (Ideal.sqrt (r : EReal)) = ((1 / Real.sqrt r : ℝ) : EReal) := by
  rw [Ideal.sqrt_coe, if_neg (not_lt.mpr hr.le), Ideal.div_coe (Real.sqrt_pos.mpr hr).ne', one_mul]

theorem refLin_isReal (h : NodeMat) (W : WMat) (hh : ∀ j, IsReal (h j)) (hW : ∀ j, IsReal (W j)) (n : Fin 10000)
    (k : Fin 128) : IsReal (refLin h W n k) :=
  isReal_sum _ _ fun c _ => (hh _).mul (hW _)

theorem refLayer_isReal (h : NodeMat) (W : WMat) (b : BVec) (ei : EdgeArr) (hh : ∀ j, IsReal (h j))
    (hW : ∀ j, IsReal (W j)) (hb : ∀ j, IsReal (b j)) (j : (⟨2, ![10000, 128]⟩ : Shape).Idx) :
    IsReal (refLayer h W b ei j) := by
  unfold refLayer refRelu refConv refAgg refMsg refSelf
  refine IsReal.max (IsReal.add (IsReal.add (isReal_sum _ _ fun e _ => ?_) ?_) (hb _)) isReal_zero
  · exact (refLin_isReal h W hh hW _ _).mul ((isReal_coe _).mul (isReal_coe _))
  · exact (refLin_isReal h W hh hW _ _).mul ((isReal_coe _).mul (isReal_coe _))

theorem refLayer_apply (h : NodeMat) (W : WMat) (b : BVec) (ei : EdgeArr) (n : Fin 10000) (k : Fin 128) :
    refLayer h W b ei (ix2 n k) = max (refAgg h W ei n k + b (ix1 k)) 0 := rfl

theorem refOut_apply (p : PoolMat) (Wl : WOut) (bl : BOut) (g : Fin 64) (c : Fin 16) :
    refOut p Wl bl (ix2 g c) = (∑ k : Fin 128, p (ix2 g k) * Wl (ix2 k c)) + bl (ix1 c) := rfl

theorem refPool_apply (h : NodeMat) (batch : BatchArr) (g : Fin 64) (k : Fin 128) :
    refPool h batch (ix2 g k)
      = Ideal.div (refPoolSum h batch g k) ((Max.max (refGraphCnt batch g : ℝ) 1 : ℝ) : EReal) := rfl

theorem nodeOf_of_lt (w : BitVec 32) (hw : w.toNat < 10000) : nodeOf w = ⟨w.toNat, hw⟩ :=
  Fin.ext (Nat.min_eq_left (by omega))

theorem lin_comm (h : NodeMat) (W : WMat) (n : Fin 10000) (k : Fin 128) :
    (∑ c : Fin 128, W (ix2 c k) * h (ix2 n c)) = refLin h W n k :=
  Finset.sum_congr rfl fun c _ => mul_comm _ _

theorem layer_bridge (h : NodeMat) (W : WMat) (b : BVec) (ei : EdgeArr)
    (hy : ∀ n k, IsReal (refLin h W n k))
    (u s : Fin 128 → Fin 10000 → EReal)
    (hu : ∀ k n, u k n = refLin h W n k * ((refDis ei n : ℝ) : EReal))
    (hs : ∀ k i, s k i = ∑ e : Fin 320000, if (dstW ei e).toNat = i.val then u k (nodeOf (srcW ei e)) else 0)
    (k : Fin 128) (n : Fin 10000) :
    max ((s k n + u k n) * ((refDis ei n : ℝ) : EReal) + b (ix1 k)) 0 = refLayer h W b ei (ix2 n k) := by
  rw [refLayer_apply]
  refine congrArg (fun t => Max.max (t + b (ix1 k)) 0) ?_
  choose yr hyr using fun m => hy m k
  unfold refAgg refMsg refSelf inEdges
  rw [hs, ← Finset.sum_filter]
  simp only [hu, hyr, ← EReal.coe_mul, ← coe_sum, ← EReal.coe_add]
  refine congrArg (fun r : ℝ => (r : EReal)) ?_
  rw [add_mul, Finset.sum_mul]
  exact congrArg₂ (· + ·) (Finset.sum_congr rfl fun e _ => by ring) (by ring)

theorem sum_mul_onehot (batch : BatchArr) (g : Fin 64) (f : Fin 10000 → EReal) :
    (∑ n : Fin 10000, f n * (if (batch (ix1 n)).toNat = g.val then (1 : EReal) else 0)) = ∑ n ∈ graphNodes batch g, f n := by
  unfold graphNodes
  rw [Finset.sum_filter]
  exact Finset.sum_congr rfl fun n _ => by split <;> simp

theorem sum_onehot (batch : BatchArr) (g : Fin 64) :
    (∑ n : Fin 10000, (1 : EReal) * (if (batch (ix1 n)).toNat = g.val then (1 : EReal) else 0))
      = (((refGraphCnt batch g : ℕ) : ℝ) : EReal) := by
  simp only [one_mul]
  rw [sum_ite_one]
  rfl

theorem word_eq_ofNat_iff (w : BitVec 32) (g : Fin 64) : w = BitVec.ofNat 32 g.val ↔ w.toNat = g.val := by
  constructor
  · intro h; rw [h, BitVec.toNat_ofNat]; have := g.isLt; omega
  · intro h; apply BitVec.eq_of_toNat_eq; rw [h, BitVec.toNat_ofNat]; have := g.isLt; omega

theorem pool_bridge (hm : NodeMat) (batch : BatchArr) (Wl : WOut) (bl : BOut) (hT : Fin 128 → Fin 10000 → EReal)
    (hhT : ∀ k n, hT k n = hm (ix2 n k)) (g : Fin 64) (c : Fin 16) :
    (∑ k : Fin 128,
        Ideal.div (∑ n : Fin 10000, hT k n * (if (batch (ix1 n)).toNat = g.val then (1 : EReal) else 0))
          (max (∑ n : Fin 10000, (1 : EReal) * (if (batch (ix1 n)).toNat = g.val then (1 : EReal) else 0)) 1)
          * Wl (ix2 k c)) + bl (ix1 c)
      = refOut (refPool hm batch) Wl bl (ix2 g c) := by
  rw [refOut_apply]
  refine congrArg (· + bl (ix1 c)) (Finset.sum_congr rfl fun k _ => ?_)
  refine congrArg (· * Wl (ix2 k c)) ?_
  rw [refPool_apply, sum_mul_onehot, sum_onehot, coe_max, EReal.coe_one]
  unfold refPoolSum
  simp only [hhT]

def onehot (batch : BatchArr) (n : Fin 10000) (g : Fin 64) : EReal :=
  if (batch (ix1 n)).toNat = g.val then (1 : EReal) else 0

theorem next_u (hprev : NodeMat) (W : WMat) (dis : Fin 10000 → EReal) (ei : EdgeArr)
    (hdis : ∀ n, dis n = ((refDis ei n : ℝ) : EReal)) (act : Fin 128 → Fin 10000 → EReal)
    (hact : ∀ c n, act c n = hprev (ix2 n c)) (u : Fin 128 → Fin 10000 → EReal)
    (hu : ∀ k n, u k n = (∑ c : Fin 128, W (ix2 c k) * act c n) * dis n) (k : Fin 128) (n : Fin 10000) :
    u k n = refLin hprev W n k * ((refDis ei n : ℝ) : EReal) := by
  rw [hu, hdis, ← lin_comm]
  simp only [hact]

theorem gcn_bridge (x : NodeMat) (ei : EdgeArr) (batch : BatchArr) (W0 : WMat) (b0 : BVec) (W1 : WMat) (b1 : BVec)
    (W2 : WMat) (b2 : BVec) (Wl : WOut) (bl : BOut)
    (hx : ∀ j, IsReal (x j)) (hW0 : ∀ j, IsReal (W0 j)) (hb0 : ∀ j, IsReal (b0 j)) (hW1 : ∀ j, IsReal (W1 j))
    (hb1 : ∀ j, IsReal (b1 j)) (hW2 : ∀ j, IsReal (W2 j))
    (dis : Fin 10000 → EReal) (hdis : ∀ n, dis n = ((refDis ei n : ℝ) : EReal))
    (u0 s0 u1 s1 u2 s2 : Fin 128 → Fin 10000 → EReal)
    (hu0 : ∀ k n, u0 k n = (∑ c : Fin 128, W0 (ix2 c k) * x (ix2 n c)) * dis n)
    (hs0 : ∀ k i, s0 k i = ∑ e : Fin 320000, if (dstW ei e).toNat = i.val then u0 k (nodeOf (srcW ei e)) else 0)
    (hu1 : ∀ k n, u1 k n
      = (∑ c : Fin 128, W1 (ix2 c k) * max ((s0 c n + u0 c n) * dis n + b0 (ix1 c)) 0) * dis n)
    (hs1 : ∀ k i, s1 k i = ∑ e : Fin 320000, if (dstW ei e).toNat = i.val then u1 k (nodeOf (srcW ei e)) else 0)
    (hu2 : ∀ k n, u2 k n
      = (∑ c : Fin 128, W2 (ix2 c k) * max ((s1 c n + u1 c n) * dis n + b1 (ix1 c)) 0) * dis n)
    (hs2 : ∀ k i, s2 k i = ∑ e : Fin 320000, if (dstW ei e).toNat = i.val then u2 k (nodeOf (srcW ei e)) else 0)
    (g : Fin 64) (c : Fin 16) :
    (∑ k : Fin 128,
        Ideal.div (∑ n : Fin 10000, max ((s2 k n + u2 k n) * dis n + b2 (ix1 k)) 0 * onehot batch n g)
          (max (∑ n : Fin 10000, (1 : EReal) * onehot batch n g) 1) * Wl (ix2 k c)) + bl (ix1 c)
      = gcnRef x ei batch W0 b0 W1 b1 W2 b2 Wl bl (ix2 g c) := by
  have h1R : ∀ j, IsReal (refLayer x W0 b0 ei j) := refLayer_isReal x W0 b0 ei hx hW0 hb0
  have h2R : ∀ j, IsReal (refLayer (refLayer x W0 b0 ei) W1 b1 ei j) := refLayer_isReal _ W1 b1 ei h1R hW1 hb1
  have L0 : ∀ k n, max ((s0 k n + u0 k n) * dis n + b0 (ix1 k)) 0 = refLayer x W0 b0 ei (ix2 n k) := fun k n => by
    rw [hdis]
    exact layer_bridge x W0 b0 ei (fun n k => refLin_isReal x W0 hx hW0 n k) u0 s0
      (next_u x W0 dis ei hdis (fun c n => x (ix2 n c)) (fun _ _ => rfl) u0 hu0) hs0 k n
  have L1 : ∀ k n, max ((s1 k n + u1 k n) * dis n + b1 (ix1 k)) 0
      = refLayer (refLayer x W0 b0 ei) W1 b1 ei (ix2 n k) := fun k n => by
    rw [hdis]
    exact layer_bridge _ W1 b1 ei (fun n k => refLin_isReal _ W1 h1R hW1 n k) u1 s1
      (next_u _ W1 dis ei hdis _ L0 u1 hu1) hs1 k n
  have L2 : ∀ k n, max ((s2 k n + u2 k n) * dis n + b2 (ix1 k)) 0
      = refLayer (refLayer (refLayer x W0 b0 ei) W1 b1 ei) W2 b2 ei (ix2 n k) := fun k n => by
    rw [hdis]
    exact layer_bridge _ W2 b2 ei (fun n k => refLin_isReal _ W2 h2R hW2 n k) u2 s2
      (next_u _ W2 dis ei hdis _ L1 u2 hu2) hs2 k n
  exact pool_bridge (refH3 x ei W0 b0 W1 b1 W2 b2) batch Wl bl _ L2 g c

end BridgeAlg
-- ==== Proof.BridgeDeg.lean ====
import proofs.«213134_g57071525429591_cont_9to1_m_136_24_alg».proof.Proof.DegVal
import proofs.«213134_g57071525429591_cont_9to1_m_136_24_alg».proof.Proof.BridgeAlg

noncomputable section

open scoped BigOperators

namespace BridgeAlg

open Idealize.ShloMosaic Idealize.ShloMosaic.ValueIdx Cert.DegVal

def degKey (part : IVec ShN 32) (k : ℕ) : ℕ := (wordAt part k).toNat

theorem degWordAt_lt (part : IVec ShN 32) (hpart : ∀ k, (part k).toNat < 10000) (k : ℕ) : (wordAt part k).toNat < 10000 := by
  unfold wordAt
  split
  · exact hpart _
  · simp

theorem degInRange_vec16 (part : IVec ShN 32) (hpart : ∀ k, (part k).toNat < 10000) (base : ℕ) : InRange (vec16 part base) := by
  intro a x
  rw [Fin.eq_zero a]
  exact degWordAt_lt part hpart _

theorem degOnes_apply (x : ShL.Idx) : (ones (F := Ideal)) x = (1 : EReal) := by
  show Ideal.ofBits .f32 0x3F800000#32 = 1
  exact Ideal.ofBits_one_f32

theorem degZeroRow_apply (j : ShN.Idx) : (zeroRow (F := Ideal)) j = (0 : EReal) := by
  show Ideal.ofBits .f32 0x00000000#32 = 0
  exact Ideal.ofBits_zero_f32

theorem degKey_vec16 (part : IVec ShN 32) (base : ℕ) (k : Fin 16) :
    (vec16 part base (Shape.ofLane (d := ![16]) k)).toNat = degKey part (base + k.val) := rfl

theorem scat_ideal (part : IVec ShN 32) (hpart : ∀ k, (part k).toNat < 10000) (g : Vec Ideal ShN .f32) (base : ℕ)
    (j : ShN.Idx) :
    scat (F := Ideal) g (vec16 part base) j = g j + keySum (fun _ => 1) (degKey part) (j 0).val base (base + 16) := by
  rw [scat_eq g _ (degInRange_vec16 part hpart base)]
  exact storeIdx_add_keySum (N := 10000) (L := 16) g (vec16 part base) (ones (F := Ideal))
    (degInRange_vec16 part hpart base) j (fun _ => 1) (degKey part) base (degKey_vec16 part base) (fun k => degOnes_apply _)

theorem degPairsN_ideal (part : IVec ShN 32) (hpart : ∀ k, (part k).toNat < 10000) (jc : ℕ) (st : Acc Ideal) (j : ShN.Idx)
    (n : ℕ) :
    (pairsN part jc st n).1 j + (pairsN part jc st n).2 j
      = st.1 j + st.2 j + keySum (fun _ => 1) (degKey part) (j 0).val (2000 * jc) (2000 * jc + 32 * n) := by
  induction n with
  | zero => simp
  | succ n ih =>
    have e : 2000 * jc + 32 * (n + 1) = 2000 * jc + 32 * n + 16 + 16 := by omega
    rw [pairsN_succ, e]
    show scat (F := Ideal) (pairsN part jc st n).1 (vec16 part (2000 * jc + 32 * n)) j
        + scat (F := Ideal) (pairsN part jc st n).2 (vec16 part (2000 * jc + 32 * n + 16)) j = _
    rw [scat_ideal part hpart, scat_ideal part hpart, add_add_add_comm, ih, add_assoc,
      keySum_add _ _ _ (Nat.le_add_right _ 16) (Nat.le_add_right _ 16),
      keySum_add _ _ _ (Nat.le_add_right _ _) (by omega)]

theorem degChunksN_ideal (part : IVec ShN 32) (hpart : ∀ k, (part k).toNat < 10000) (j : ShN.Idx) (n : ℕ) :
    (chunksN (F := Ideal) part n).1 j + (chunksN (F := Ideal) part n).2 j
      = keySum (fun _ => 1) (degKey part) (j 0).val 0 (2000 * n) := by
  induction n with
  | zero => simp [degZeroRow_apply]
  | succ n ih =>
    have e : 2000 * (n + 1) = 2000 * n + 1984 + 16 := by omega
    rw [chunksN_succ, e]
    show scat (F := Ideal) (pairsN part n (chunksN part n) 62).1 (vec16 part (2000 * n + 1984)) j
        + (pairsN (F := Ideal) part n (chunksN part n) 62).2 j = _
    rw [scat_ideal part hpart, add_right_comm, degPairsN_ideal part hpart, ih, show (32 : ℕ) * 62 = 1984 from rfl,
      keySum_add _ _ _ (Nat.zero_le _) (Nat.le_add_right _ _)]
    exact keySum_add _ _ _ (Nat.zero_le _) (Nat.le_add_right _ 16)

theorem degRow_keySum (part : IVec ShN 32) (hpart : ∀ k, (part k).toNat < 10000) (j : ShN.Idx) :
    degRow (F := Ideal) part j = keySum (fun _ => 1) (degKey part) (j 0).val 0 10000 := by
  show (chunksN (F := Ideal) part 5).1 j + (chunksN (F := Ideal) part 5).2 j = _
  exact degChunksN_ideal part hpart j 5

theorem degKey_fin (part : IVec ShN 32) (k : Fin 10000) : degKey part (0 + k.val) = (part (ix1 k)).toNat := by
  unfold degKey wordAt
  rw [Nat.zero_add, dif_pos k.isLt]
  congr 2
  funext a
  match a with
  | ⟨0, _⟩ => rfl

theorem degRow_ideal (part : IVec ShN 32) (hpart : ∀ k, (part k).toNat < 10000) (j : ShN.Idx) :
    degRow (F := Ideal) part j
      = (((Finset.univ.filter fun k : Fin 10000 => (part (ix1 k)).toNat = (j 0).val).card : ℝ) : EReal) := by
  refine (degRow_keySum part hpart j).trans ?_
  refine (keySum_eq_sum_fin (fun _ => 1) (degKey part) (j 0).val 0 10000).trans ?_
  refine Eq.trans ?_ (sum_ite_one Finset.univ fun k : Fin 10000 => (part (ix1 k)).toNat = (j 0).val)
  exact Finset.sum_congr rfl fun k _ => by rw [degKey_fin]

end BridgeAlg
-- ==== Proof.BridgeSpmm.lean ====
import proofs.«213134_g57071525429591_cont_9to1_m_136_24_alg».proof.Proof.SpmmVal
import proofs.«213134_g57071525429591_cont_9to1_m_136_24_alg».proof.Proof.BridgeAlg

noncomputable section

open scoped BigOperators

namespace BridgeAlg

open Idealize.ShloMosaic Idealize.ShloMosaic.ValueIdx Cert.SpmmVal

def rowAt (u : Vec Ideal ShN .f32) (n : ℕ) : EReal :=
  if h : n < 10000 then u (Shape.ofLane (d := ![10000]) ⟨n, h⟩) else 0

def spKey (dst : IVec ShE 32) (k : ℕ) : ℕ := (wordAt dst k).toNat

def spVal (u : Vec Ideal ShN .f32) (src : IVec ShE 32) (k : ℕ) : EReal := rowAt u (wordAt src k).toNat

theorem spWordAt_lt (t : IVec ShE 32) (ht : ∀ k, (t k).toNat < 10000) (k : ℕ) : (wordAt t k).toNat < 10000 := by
  unfold wordAt
  split
  · exact ht _
  · simp

theorem spInRange_vec16 (t : IVec ShE 32) (ht : ∀ k, (t k).toNat < 10000) (base : ℕ) : InRange (vec16 t base) := by
  intro a x
  rw [Fin.eq_zero a]
  exact spWordAt_lt t ht _

theorem spZeroRow_apply (j : ShN.Idx) : (zeroRow (F := Ideal)) j = (0 : EReal) := by
  show Ideal.ofBits .f32 0x00000000#32 = 0
  exact Ideal.ofBits_zero_f32

theorem spKey_vec16 (dst : IVec ShE 32) (base : ℕ) (k : Fin 16) :
    (vec16 dst base (Shape.ofLane (d := ![16]) k)).toNat = spKey dst (base + k.val) := rfl

theorem step_ideal (u g : Vec Ideal ShN .f32) (src dst : IVec ShE 32) (hsrc : ∀ k, (src k).toNat < 10000)
    (hdst : ∀ k, (dst k).toNat < 10000) (base : ℕ) (j : ShN.Idx) :
    step (F := Ideal) u g (vec16 src base) (vec16 dst base) j
      = g j + keySum (spVal u src) (spKey dst) (j 0).val base (base + 16) := by
  rw [step_eq u g _ _ (spInRange_vec16 src hsrc base) (spInRange_vec16 dst hdst base)]
  refine storeIdx_add_keySum (N := 10000) (L := 16) g (vec16 dst base) (loadIdx u ![vec16 src base] (spInRange_vec16 src hsrc base))
    (spInRange_vec16 dst hdst base) j (spVal u src) (spKey dst) base (spKey_vec16 dst base) (fun k => ?_)
  show u (idxAt _ _ _) = rowAt u (wordAt src (base + k.val)).toNat
  unfold rowAt
  rw [dif_pos (spWordAt_lt src hsrc _)]
  congr 1
  funext a
  apply Fin.ext
  have ha : a = 0 := Fin.eq_zero a
  subst ha
  rfl

theorem spPairsN_ideal (u : Vec Ideal ShN .f32) (src dst : IVec ShE 32) (hsrc : ∀ k, (src k).toNat < 10000)
    (hdst : ∀ k, (dst k).toNat < 10000) (jc : ℕ) (st : Acc Ideal) (j : ShN.Idx) (n : ℕ) :
    (pairsN u src dst jc st n).1 j + (pairsN u src dst jc st n).2 j
      = st.1 j + st.2 j + keySum (spVal u src) (spKey dst) (j 0).val (1600 * jc) (1600 * jc + 32 * n) := by
  induction n with
  | zero => simp
  | succ n ih =>
    have e : 1600 * jc + 32 * (n + 1) = 1600 * jc + 32 * n + 16 + 16 := by omega
    rw [pairsN_succ, e]
    show step (F := Ideal) u (pairsN u src dst jc st n).1 (vec16 src (1600 * jc + 32 * n)) (vec16 dst (1600 * jc + 32 * n)) j
        + step (F := Ideal) u (pairsN u src dst jc st n).2 (vec16 src (1600 * jc + 32 * n + 16)) (vec16 dst (1600 * jc + 32 * n + 16)) j = _
    rw [step_ideal u _ src dst hsrc hdst, step_ideal u _ src dst hsrc hdst, add_add_add_comm, ih, add_assoc,
      keySum_add _ _ _ (Nat.le_add_right _ 16) (Nat.le_add_right _ 16),
      keySum_add _ _ _ (Nat.le_add_right _ _) (by omega)]

theorem spChunksN_ideal (u : Vec Ideal ShN .f32) (src dst : IVec ShE 32) (hsrc : ∀ k, (src k).toNat < 10000)
    (hdst : ∀ k, (dst k).toNat < 10000) (j : ShN.Idx) (n : ℕ) :
    (chunksN (F := Ideal) u src dst n).1 j + (chunksN (F := Ideal) u src dst n).2 j
      = keySum (spVal u src) (spKey dst) (j 0).val 0 (1600 * n) := by
  induction n with
  | zero => simp [spZeroRow_apply]
  | succ n ih =>
    have e : 1600 * (n + 1) = 1600 * n + 32 * 50 := by omega
    rw [chunksN_succ, e]
    show (pairsN (F := Ideal) u src dst n (chunksN u src dst n) 50).1 j + (pairsN (F := Ideal) u src dst n (chunksN u src dst n) 50).2 j = _
    rw [spPairsN_ideal u src dst hsrc hdst, ih]
    exact keySum_add _ _ _ (Nat.zero_le _) (Nat.le_add_right _ _)

theorem spmmRow_keySum (u : Vec Ideal ShN .f32) (src dst : IVec ShE 32) (hsrc : ∀ k, (src k).toNat < 10000)
    (hdst : ∀ k, (dst k).toNat < 10000) (j : ShN.Idx) :
    spmmRow (F := Ideal) u src dst j = keySum (spVal u src) (spKey dst) (j 0).val 0 320000 := by
  show (chunksN (F := Ideal) u src dst 200).1 j + (chunksN (F := Ideal) u src dst 200).2 j = _
  exact spChunksN_ideal u src dst hsrc hdst j 200

theorem spWordAt_fin (t : IVec ShE 32) (e : Fin 320000) : wordAt t (0 + e.val) = t (ix1 e) := by
  unfold wordAt
  rw [Nat.zero_add, dif_pos e.isLt]
  congr 1
  funext a
  match a with
  | ⟨0, _⟩ => rfl

theorem rowAt_eq (u : Vec Ideal ShN .f32) (n : Fin 10000) : rowAt u n.val = u (ix1 n) := by
  unfold rowAt
  rw [dif_pos n.isLt]
  congr 1
  funext a
  match a with
  | ⟨0, _⟩ => rfl

theorem spmmRow_ideal (u : Vec Ideal ShN .f32) (src dst : IVec ShE 32) (hsrc : ∀ k, (src k).toNat < 10000)
    (hdst : ∀ k, (dst k).toNat < 10000) (j : ShN.Idx) :
    spmmRow (F := Ideal) u src dst j
      = ∑ e : Fin 320000, if (dst (ix1 e)).toNat = (j 0).val then rowAt u (src (ix1 e)).toNat else 0 := by
  refine (spmmRow_keySum u src dst hsrc hdst j).trans ?_
  refine (keySum_eq_sum_fin (spVal u src) (spKey dst) (j 0).val 0 320000).trans ?_
  exact Finset.sum_congr rfl fun e _ => by unfold spKey spVal; rw [spWordAt_fin, spWordAt_fin]

end BridgeAlg
-- ==== Proof.KernelValue.lean ====
import proofs.«213134_g57071525429591_cont_9to1_m_136_24_alg».proof.Proof.Stages
import proofs.«213134_g57071525429591_cont_9to1_m_136_24_alg».proof.Proof.KernelPay
import proofs.«213134_g57071525429591_cont_9to1_m_136_24_alg».proof.Proof.BridgeGcn
import proofs.«213134_g57071525429591_cont_9to1_m_136_24_alg».proof.Proof.BridgeDeg
import proofs.«213134_g57071525429591_cont_9to1_m_136_24_alg».proof.Proof.BridgeSpmm
import proofs.«213134_g57071525429591_cont_9to1_m_136_24_alg».proof.Proof.PreDecode
import proofs.«213134_g57071525429591_cont_9to1_m_136_24_alg».proof.Proof.EdgeWords
import proofs.«213134_g57071525429591_cont_9to1_m_136_24_alg».proof.Proof.Gen.Pre_input_domain
import Idealize.ShloMosaic.Lib.ValueLayout

noncomputable section

open scoped BigOperators

namespace Cert.KernelIdeal.KernelValue

open Cert.KernelIdeal Cert.KernelIdeal.Gen Cert.KernelIdeal.Setup
open Idealize.ShloMosaic Idealize.ShloMosaic.StableHlo Idealize.ShloMosaic.ValueIdx
open Idealize.SL.Sem

variable (m : (ℓ : Loc nD τ sig) → Buf (Elt Ideal) ℓ) (d : Dev nD)

theorem upd_ne {Vv : Valuation τ sig (Elt Ideal)} {a b : Ref sig .tc} (h : b ≠ a) (v : (rf a : DevRef τ sig).ty.Contents (Elt Ideal)) :
    Function.update Vv (rf a) v (rf b) = Vv (rf b) :=
  Function.update_of_ne (devRef_ne_of_ne h) v Vv

theorem W2_ne {b : Ref sig .tc} (h : b ≠ main_v9) : W2 m d (rf b) = W1 m d (rf b) := upd_ne h _
theorem W3_ne {b : Ref sig .tc} (h0 : b ≠ main_v10_0) (h1 : b ≠ main_v10_1) : W3 m d (rf b) = W2 m d (rf b) :=
  (upd_ne h1 _).trans (upd_ne h0 _)
theorem W4_ne {b : Ref sig .tc} (h : b ≠ main_v11) : W4 m d (rf b) = W3 m d (rf b) := reshape_result_ne' _ _ _ _ _ h
theorem W5_ne {b : Ref sig .tc} (h : b ≠ main_v12) : W5 m d (rf b) = W4 m d (rf b) := upd_ne h _
theorem W6_ne {b : Ref sig .tc} (h : b ≠ main_v13) : W6 m d (rf b) = W5 m d (rf b) := reshape_result_ne' _ _ _ _ _ h
theorem W7_ne {b : Ref sig .tc} (h : b ≠ main_v14) : W7 m d (rf b) = W6 m d (rf b) := upd_ne h _
theorem W8_ne {b : Ref sig .tc} (h : b ≠ main_v15) : W8 m d (rf b) = W7 m d (rf b) := reshape_result_ne' _ _ _ _ _ h
theorem W9_ne {b : Ref sig .tc} (h : b ≠ main_v16) : W9 m d (rf b) = W8 m d (rf b) := upd_ne h _
theorem W10_ne {b : Ref sig .tc} (h : b ≠ main_v17) : W10 m d (rf b) = W9 m d (rf b) := reshape_result_ne' _ _ _ _ _ h
theorem W11_ne {b : Ref sig .tc} (h : b ≠ main_v18) : W11 m d (rf b) = W10 m d (rf b) := upd_ne h _
theorem W12_ne {b : Ref sig .tc} (h : b ≠ main_v19) : W12 m d (rf b) = W11 m d (rf b) := reshape_result_ne' _ _ _ _ _ h
theorem W13_ne {b : Ref sig .tc} (h : b ≠ main_v20) : W13 m d (rf b) = W12 m d (rf b) := upd_ne h _
theorem W14_ne {b : Ref sig .tc} (h : b ≠ main_v21) : W14 m d (rf b) = W13 m d (rf b) := reshape_result_ne' _ _ _ _ _ h

theorem W6_frame {b : Ref sig .tc}
    (h : b ≠ main_v9 ∧ b ≠ main_v10_0 ∧ b ≠ main_v10_1 ∧ b ≠ main_v11 ∧ b ≠ main_v12 ∧ b ≠ main_v13) :
    W6 m d (rf b) = W1 m d (rf b) := by
  rw [W6_ne m d h.2.2.2.2.2, W5_ne m d h.2.2.2.2.1, W4_ne m d h.2.2.2.1, W3_ne m d h.2.1 h.2.2.1, W2_ne m d h.1]

theorem W10_frame {b : Ref sig .tc}
    (h : (b ≠ main_v9 ∧ b ≠ main_v10_0 ∧ b ≠ main_v10_1 ∧ b ≠ main_v11 ∧ b ≠ main_v12 ∧ b ≠ main_v13)
      ∧ b ≠ main_v14 ∧ b ≠ main_v15 ∧ b ≠ main_v16 ∧ b ≠ main_v17) :
    W10 m d (rf b) = W1 m d (rf b) := by
  rw [W10_ne m d h.2.2.2.2, W9_ne m d h.2.2.2.1, W8_ne m d h.2.2.1, W7_ne m d h.2.1, W6_frame m d h.1]

theorem W14_frame {b : Ref sig .tc}
    (h : ((b ≠ main_v9 ∧ b ≠ main_v10_0 ∧ b ≠ main_v10_1 ∧ b ≠ main_v11 ∧ b ≠ main_v12 ∧ b ≠ main_v13)
      ∧ b ≠ main_v14 ∧ b ≠ main_v15 ∧ b ≠ main_v16 ∧ b ≠ main_v17)
      ∧ b ≠ main_v18 ∧ b ≠ main_v19 ∧ b ≠ main_v20 ∧ b ≠ main_v21) :
    W14 m d (rf b) = W1 m d (rf b) := by
  rw [W14_ne m d h.2.2.2.2, W13_ne m d h.2.2.2.1, W12_ne m d h.2.2.1, W11_ne m d h.2.1, W10_frame m d h.1]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_ab_flat_apply {α : Type} {a b N : ℕ} (x : (⟨2, ![a, b]⟩ : Shape).Idx → α)
    (h : (⟨2, ![a, b]⟩ : Shape).ShapeCasts ⟨1, ![N]⟩) (p : Fin a) (q : Fin b) (hlt : p.val * b + q.val < N) :
    shapeCast ⟨1, ![N]⟩ x h (ix1 ⟨p.val * b + q.val, hlt⟩) = x (ix2 p q) :=
  shapeCast_apply x h _ _ (by rw [Shape.rowMajor_val_two, Shape.rowMajor_val_one]; rfl)

theorem shapeCast_flat_ab_apply {α : Type} {a b N : ℕ} (x : (⟨1, ![N]⟩ : Shape).Idx → α)
    (h : (⟨1, ![N]⟩ : Shape).ShapeCasts ⟨2, ![a, b]⟩) (p : Fin a) (q : Fin b) (hlt : p.val * b + q.val < N) :
    shapeCast ⟨2, ![a, b]⟩ x h (ix2 p q) = x (ix1 ⟨p.val * b + q.val, hlt⟩) :=
  shapeCast_apply x h _ _ (by rw [Shape.rowMajor_val_two, Shape.rowMajor_val_one]; rfl)

theorem W1_arg0 : W1 m d (rf main_arg0) = m (tcLoc d main_arg0) := by
  show StableHlo.after (ops0 (F := Ideal)) (V0 m d) (Proc.devRef .tc main_arg0) = _
  after_results
  rfl
theorem W1_arg3 : W1 m d (rf main_arg3) = m (tcLoc d main_arg3) := by
  show StableHlo.after (ops0 (F := Ideal)) (V0 m d) (Proc.devRef .tc main_arg3) = _
  after_results
  rfl
theorem W1_arg5 : W1 m d (rf main_arg5) = m (tcLoc d main_arg5) := by
  show StableHlo.after (ops0 (F := Ideal)) (V0 m d) (Proc.devRef .tc main_arg5) = _
  after_results
  rfl
theorem W1_arg7 : W1 m d (rf main_arg7) = m (tcLoc d main_arg7) := by
  show StableHlo.after (ops0 (F := Ideal)) (V0 m d) (Proc.devRef .tc main_arg7) = _
  after_results
  rfl
theorem W1_arg9 : W1 m d (rf main_arg9) = m (tcLoc d main_arg9) := by
  show StableHlo.after (ops0 (F := Ideal)) (V0 m d) (Proc.devRef .tc main_arg9) = _
  after_results
  rfl
theorem W1_v4 : W1 m d (rf main_v4) = shapeCast S10000x1 (m (tcLoc d main_arg2)) shapeCasts_S10000_S10000x1 := by
  show StableHlo.after (ops0 (F := Ideal)) (V0 m d) (Proc.devRef .tc main_v4) = _
  after_results
  rfl
theorem W1_v5 : W1 m d (rf main_v5) = shapeCast S128x1 (m (tcLoc d main_arg4)) shapeCasts_S128_S128x1 := by
  show StableHlo.after (ops0 (F := Ideal)) (V0 m d) (Proc.devRef .tc main_v5) = _
  after_results
  rfl
theorem W1_v6 : W1 m d (rf main_v6) = shapeCast S128x1 (m (tcLoc d main_arg6)) shapeCasts_S128_S128x1 := by
  show StableHlo.after (ops0 (F := Ideal)) (V0 m d) (Proc.devRef .tc main_v6) = _
  after_results
  rfl
theorem W1_v7 : W1 m d (rf main_v7) = shapeCast S128x1 (m (tcLoc d main_arg8)) shapeCasts_S128_S128x1 := by
  show StableHlo.after (ops0 (F := Ideal)) (V0 m d) (Proc.devRef .tc main_v7) = _
  after_results
  rfl
theorem W1_v8 : W1 m d (rf main_v8) = shapeCast S1x16 (m (tcLoc d main_arg10)) shapeCasts_S16_S1x16 := by
  show StableHlo.after (ops0 (F := Ideal)) (V0 m d) (Proc.devRef .tc main_v8) = _
  after_results
  rfl

abbrev xA : Vec Ideal S10000x128 .f32 := m (tcLoc d main_arg0)
abbrev eiA : IVec S2x320000 32 := m (tcLoc d main_arg1)
abbrev batchA : IVec S10000 32 := m (tcLoc d main_arg2)
abbrev W0A : Vec Ideal S128x128 .f32 := m (tcLoc d main_arg3)
abbrev b0A : Vec Ideal S128 .f32 := m (tcLoc d main_arg4)
abbrev W1A : Vec Ideal S128x128 .f32 := m (tcLoc d main_arg5)
abbrev b1A : Vec Ideal S128 .f32 := m (tcLoc d main_arg6)
abbrev W2A : Vec Ideal S128x128 .f32 := m (tcLoc d main_arg7)
abbrev b2A : Vec Ideal S128 .f32 := m (tcLoc d main_arg8)
abbrev WlA : Vec Ideal S128x16 .f32 := m (tcLoc d main_arg9)
abbrev blA : Vec Ideal S16 .f32 := m (tcLoc d main_arg10)

theorem ofLane_eq_ix1 {n : ℕ} (e : Fin n) : Shape.ofLane (d := ![n]) e = ix1 e := by
  funext a
  match a with
  | ⟨0, _⟩ => rfl

theorem srcW_apply (e : Fin 320000) : srcA m d (ix1 e) = Cert.GcnSpec.srcW (eiA m d) e := srcA_ix1 m d e
theorem dstW_apply (e : Fin 320000) : dstA m d (ix1 e) = Cert.GcnSpec.dstW (eiA m d) e := dstA_ix1 m d e

theorem degpA_apply (hei : ∀ j, (eiA m d j).toNat < 10000) (w : Fin 32) (n : Fin 10000) :
    degpA m d (ix2 w n) = (((Finset.univ.filter fun k : Fin 10000 =>
      (Cert.GcnSpec.dstW (eiA m d) ⟨10000 * w.val + k.val, by have := w.isLt; have := k.isLt; omega⟩).toNat = n.val).card : ℝ) : EReal) := by
  have hk : ∀ k : Fin 10000, Cert.DegVal.dstPart (dstA m d) ⟨w.val, w.isLt⟩ (ix1 k)
      = Cert.GcnSpec.dstW (eiA m d) ⟨10000 * w.val + k.val, by have := w.isLt; have := k.isLt; omega⟩ := fun k => by
    have hlt : w.val * 10000 + k.val < 320000 := by have := w.isLt; have := k.isLt; omega
    show dstA m d (Shape.ofLane (d := ![320000]) ⟨w.val * 10000 + k.val, hlt⟩) = _
    refine (congrArg (dstA m d) (ofLane_eq_ix1 (n := 320000) ⟨w.val * 10000 + k.val, hlt⟩)).trans ?_
    refine (dstW_apply m d _).trans ?_
    exact congrArg (Cert.GcnSpec.dstW (eiA m d)) (Fin.ext (by show w.val * 10000 + k.val = 10000 * w.val + k.val; omega))
  have hpart : ∀ k, (Cert.DegVal.dstPart (dstA m d) ⟨w.val, w.isLt⟩ k).toNat < 10000 := fun k => by
    obtain ⟨e, rfl⟩ : ∃ e : Fin 10000, k = ix1 e := ⟨k 0, eq_ix1 (n := 10000) k⟩
    rw [hk e]
    exact hei _
  show Cert.DegVal.degRow (F := Ideal) (Cert.DegVal.dstPart (dstA m d) ⟨w.val, w.isLt⟩)
      (Shape.ofLane (d := ![10000]) ⟨n.val, n.isLt⟩) = _
  rw [BridgeAlg.degRow_ideal _ hpart]
  simp only [hk]
  rfl

theorem disA_apply (hei : ∀ j, (eiA m d j).toNat < 10000) (n : Fin 10000) :
    disA m d (ix2 (0 : Fin 1) n) = ((Cert.GcnSpec.refDis (eiA m d) n : ℝ) : EReal) := by
  show TcVal.firstDis (F := Ideal) (W2 m d (rf main_arg0)) (W2 m d (rf main_arg3)) (degpA m d) (ix2 (0 : Fin 1) n) = _
  rw [KernelPay.firstDis_apply,
    BridgeAlg.deg_bridge (eiA m d) (fun w n => degpA m d (ix2 w n)) n (fun w => degpA_apply m d hei w n),
    BridgeAlg.rsqrt_refDeg]

theorem spmmFlat_apply (u : Vec Ideal S1280000 .f32) (src dst : Vec Ideal S320000 .i32) (k : Fin 128) (i : Fin 10000)
    (hlt : k.val * 10000 + i.val < 1280000) :
    spmmFlat u src dst (ix1 ⟨k.val * 10000 + i.val, hlt⟩) = Cert.SpmmVal.spmmRow (F := Ideal) (flatRow u k.val) src dst (ix1 i) := by
  have key : ∀ (r r' : ℕ) (q q' : Cert.SpmmVal.ShN.Idx), r = r' → q = q' →
      Cert.SpmmVal.spmmRow (F := Ideal) (flatRow u r) src dst q = Cert.SpmmVal.spmmRow (F := Ideal) (flatRow u r') src dst q' := by
    intro r r' q q' h1 h2; rw [h1, h2]
  have hi := i.isLt
  refine key _ _ _ _ (by show (k.val * 10000 + i.val) / 10000 = k.val; omega) ?_
  exact (ofLane_eq_ix1 (n := 10000) _).trans
    (congrArg ix1 (Fin.ext (by show (k.val * 10000 + i.val) % 10000 = i.val; omega)))

theorem rowAt_flatRow (U : Vec Ideal S128x10000 .f32) (hc : S128x10000.ShapeCasts S1280000) (k : Fin 128) (w : BitVec 32)
    (hw : w.toNat < 10000) :
    BridgeAlg.rowAt (flatRow (shapeCast S1280000 U hc) k.val) w.toNat = U (ix2 k (Cert.GcnSpec.nodeOf w)) := by
  have hk := k.isLt
  have hlt : k.val * 10000 + w.toNat < 1280000 := by omega
  unfold BridgeAlg.rowAt
  rw [dif_pos hw]
  show (if h : k.val * 10000 + w.toNat < 1280000 then shapeCast S1280000 U hc (Shape.ofLane (d := ![1280000]) ⟨k.val * 10000 + w.toNat, h⟩)
      else Scalar.ofBits (F := Ideal) .f32 0x00000000#32) = _
  rw [dif_pos hlt, BridgeAlg.nodeOf_of_lt w hw]
  refine (congrArg (shapeCast S1280000 U hc) (ofLane_eq_ix1 (n := 1280000) ⟨k.val * 10000 + w.toNat, hlt⟩)).trans ?_
  exact shapeCast_ab_flat_apply U hc k ⟨w.toNat, hw⟩ hlt

theorem spmm_stage (U : Vec Ideal S128x10000 .f32) (src dst : Vec Ideal S320000 .i32) (ei : Cert.GcnSpec.EdgeArr)
    (hsrc : ∀ e : Fin 320000, src (ix1 e) = Cert.GcnSpec.srcW ei e) (hdst : ∀ e : Fin 320000, dst (ix1 e) = Cert.GcnSpec.dstW ei e)
    (hei : ∀ j, (ei j).toNat < 10000) (hc1 : S128x10000.ShapeCasts S1280000) (hc2 : S1280000.ShapeCasts S128x10000)
    (k : Fin 128) (i : Fin 10000) :
    shapeCast S128x10000 (spmmFlat (shapeCast S1280000 U hc1) src dst) hc2 (ix2 k i)
      = ∑ e : Fin 320000, if (Cert.GcnSpec.dstW ei e).toNat = i.val then U (ix2 k (Cert.GcnSpec.nodeOf (Cert.GcnSpec.srcW ei e))) else 0 := by
  have hk := k.isLt
  have hi := i.isLt
  have hlt : k.val * 10000 + i.val < 1280000 := by omega
  have hsrc' : ∀ q : Cert.SpmmVal.ShE.Idx, (src q).toNat < 10000 := fun q => by
    obtain ⟨e, rfl⟩ : ∃ e : Fin 320000, q = ix1 e := ⟨q 0, eq_ix1 (n := 320000) q⟩
    rw [hsrc e]; exact hei _
  have hdst' : ∀ q : Cert.SpmmVal.ShE.Idx, (dst q).toNat < 10000 := fun q => by
    obtain ⟨e, rfl⟩ : ∃ e : Fin 320000, q = ix1 e := ⟨q 0, eq_ix1 (n := 320000) q⟩
    rw [hdst e]; exact hei _
  rw [shapeCast_flat_ab_apply _ hc2 k i hlt, spmmFlat_apply, BridgeAlg.spmmRow_ideal _ src dst hsrc' hdst']
  refine Finset.sum_congr rfl fun e _ => ?_
  rw [hdst e, hsrc e]
  show (if (Cert.GcnSpec.dstW ei e).toNat = i.val then _ else _) = _
  split
  · exact rowAt_flatRow U hc1 k _ (hei _)
  · rfl

theorem e_arg0 : W2 m d (rf main_arg0) = xA m d := (W2_ne m d (by decide)).trans (W1_arg0 m d)
theorem e_arg3 : W2 m d (rf main_arg3) = W0A m d := (W2_ne m d (by decide)).trans (W1_arg3 m d)

theorem u0f_eq : u0f m d = shapeCast S1280000 (u0A m d) shapeCasts_S128x10000_S1280000 := by
  show (op11 (F := Ideal)).result (W3 m d) (Proc.devRef .tc main_v11) = _
  rw [reshape_result]
  show (fun i => shapeCast S1280000 (W3 m d (rf main_v10_0)) shapeCasts_S128x10000_S1280000 i) = _
  rw [show W3 m d (rf main_v10_0) = u0A m d from (upd_ne (by decide) _).trans (Function.update_self _ _ _)]

theorem u1f_eq : u1f m d = shapeCast S1280000 (u1A m d) shapeCasts_S128x10000_S1280000 := by
  show (op15 (F := Ideal)).result (W7 m d) (Proc.devRef .tc main_v15) = _
  rw [reshape_result]
  show (fun i => shapeCast S1280000 (W7 m d (rf main_v14)) shapeCasts_S128x10000_S1280000 i) = _
  rw [show W7 m d (rf main_v14) = u1A m d from Function.update_self _ _ _]

theorem u2f_eq : u2f m d = shapeCast S1280000 (u2A m d) shapeCasts_S128x10000_S1280000 := by
  show (op19 (F := Ideal)).result (W11 m d) (Proc.devRef .tc main_v19) = _
  rw [reshape_result]
  show (fun i => shapeCast S1280000 (W11 m d (rf main_v18)) shapeCasts_S128x10000_S1280000 i) = _
  rw [show W11 m d (rf main_v18) = u2A m d from Function.update_self _ _ _]

theorem s0_eq : W6 m d (rf main_v13) = shapeCast S128x10000 (s0f m d) shapeCasts_S1280000_S128x10000 := by
  show (op13 (F := Ideal)).result (W5 m d) (Proc.devRef .tc main_v13) = _
  rw [reshape_result]
  show (fun i => shapeCast S128x10000 (W5 m d (rf main_v12)) shapeCasts_S1280000_S128x10000 i) = _
  rw [show W5 m d (rf main_v12) = s0f m d from Function.update_self _ _ _]

theorem s1_eq : W10 m d (rf main_v17) = shapeCast S128x10000 (s1f m d) shapeCasts_S1280000_S128x10000 := by
  show (op17 (F := Ideal)).result (W9 m d) (Proc.devRef .tc main_v17) = _
  rw [reshape_result]
  show (fun i => shapeCast S128x10000 (W9 m d (rf main_v16)) shapeCasts_S1280000_S128x10000 i) = _
  rw [show W9 m d (rf main_v16) = s1f m d from Function.update_self _ _ _]

theorem s2_eq : W14 m d (rf main_v21) = shapeCast S128x10000 (s2f m d) shapeCasts_S1280000_S128x10000 := by
  show (op21 (F := Ideal)).result (W13 m d) (Proc.devRef .tc main_v21) = _
  rw [reshape_result]
  show (fun i => shapeCast S128x10000 (W13 m d (rf main_v20)) shapeCasts_S1280000_S128x10000 i) = _
  rw [show W13 m d (rf main_v20) = s2f m d from Function.update_self _ _ _]

theorem e_v5 : W6 m d (rf main_v5) = shapeCast S128x1 (b0A m d) shapeCasts_S128_S128x1 :=
  (W6_frame m d (by decide)).trans (W1_v5 m d)
theorem e_arg5 : W6 m d (rf main_arg5) = W1A m d := (W6_frame m d (by decide)).trans (W1_arg5 m d)
theorem e_v6 : W10 m d (rf main_v6) = shapeCast S128x1 (b1A m d) shapeCasts_S128_S128x1 :=
  (W10_frame m d (by decide)).trans (W1_v6 m d)
theorem e_arg7 : W10 m d (rf main_arg7) = W2A m d := (W10_frame m d (by decide)).trans (W1_arg7 m d)
theorem e_v7 : W14 m d (rf main_v7) = shapeCast S128x1 (b2A m d) shapeCasts_S128_S128x1 :=
  (W14_frame m d (by decide)).trans (W1_v7 m d)
theorem e_v4 : W14 m d (rf main_v4) = shapeCast S10000x1 (batchA m d) shapeCasts_S10000_S10000x1 :=
  (W14_frame m d (by decide)).trans (W1_v4 m d)
theorem e_arg9 : W14 m d (rf main_arg9) = WlA m d := (W14_frame m d (by decide)).trans (W1_arg9 m d)
theorem e_v8 : W14 m d (rf main_v8) = shapeCast S1x16 (blA m d) shapeCasts_S16_S1x16 :=
  (W14_frame m d (by decide)).trans (W1_v8 m d)

abbrev s0M : Vec Ideal S128x10000 .f32 := W6 m d (rf main_v13)
abbrev s1M : Vec Ideal S128x10000 .f32 := W10 m d (rf main_v17)
abbrev s2M : Vec Ideal S128x10000 .f32 := W14 m d (rf main_v21)

section
variable (hei : ∀ j, (eiA m d j).toNat < 10000)
include hei

theorem s0_apply (k : Fin 128) (i : Fin 10000) :
    s0M m d (ix2 k i) = ∑ e : Fin 320000, if (Cert.GcnSpec.dstW (eiA m d) e).toNat = i.val
      then u0A m d (ix2 k (Cert.GcnSpec.nodeOf (Cert.GcnSpec.srcW (eiA m d) e))) else 0 := by
  show W6 m d (rf main_v13) (ix2 k i) = _
  rw [s0_eq]
  show shapeCast S128x10000 (spmmFlat (u0f m d) (srcA m d) (dstA m d)) shapeCasts_S1280000_S128x10000 (ix2 k i) = _
  rw [u0f_eq]
  exact spmm_stage (u0A m d) (srcA m d) (dstA m d) (eiA m d) (srcW_apply m d) (dstW_apply m d) hei _ _ k i

theorem s1_apply (k : Fin 128) (i : Fin 10000) :
    s1M m d (ix2 k i) = ∑ e : Fin 320000, if (Cert.GcnSpec.dstW (eiA m d) e).toNat = i.val
      then u1A m d (ix2 k (Cert.GcnSpec.nodeOf (Cert.GcnSpec.srcW (eiA m d) e))) else 0 := by
  show W10 m d (rf main_v17) (ix2 k i) = _
  rw [s1_eq]
  show shapeCast S128x10000 (spmmFlat (u1f m d) (srcA m d) (dstA m d)) shapeCasts_S1280000_S128x10000 (ix2 k i) = _
  rw [u1f_eq]
  exact spmm_stage (u1A m d) (srcA m d) (dstA m d) (eiA m d) (srcW_apply m d) (dstW_apply m d) hei _ _ k i

theorem s2_apply (k : Fin 128) (i : Fin 10000) :
    s2M m d (ix2 k i) = ∑ e : Fin 320000, if (Cert.GcnSpec.dstW (eiA m d) e).toNat = i.val
      then u2A m d (ix2 k (Cert.GcnSpec.nodeOf (Cert.GcnSpec.srcW (eiA m d) e))) else 0 := by
  show W14 m d (rf main_v21) (ix2 k i) = _
  rw [s2_eq]
  show shapeCast S128x10000 (spmmFlat (u2f m d) (srcA m d) (dstA m d)) shapeCasts_S1280000_S128x10000 (ix2 k i) = _
  rw [u2f_eq]
  exact spmm_stage (u2A m d) (srcA m d) (dstA m d) (eiA m d) (srcW_apply m d) (dstW_apply m d) hei _ _ k i

end

theorem u0_apply (k : Fin 128) (n : Fin 10000) :
    u0A m d (ix2 k n) = (∑ c : Fin 128, W0A m d (ix2 c k) * xA m d (ix2 n c)) * disA m d (ix2 (0 : Fin 1) n) := by
  show TcVal.firstU (F := Ideal) (W2 m d (rf main_arg0)) (W2 m d (rf main_arg3)) (degpA m d) (ix2 k n)
    = _ * TcVal.firstDis (F := Ideal) (W2 m d (rf main_arg0)) (W2 m d (rf main_arg3)) (degpA m d) (ix2 (0 : Fin 1) n)
  rw [KernelPay.firstU_apply, e_arg0, e_arg3]

theorem u1_apply (k : Fin 128) (n : Fin 10000) :
    u1A m d (ix2 k n) = (∑ c : Fin 128, W1A m d (ix2 c k)
      * max ((s0M m d (ix2 c n) + u0A m d (ix2 c n)) * disA m d (ix2 (0 : Fin 1) n) + b0A m d (ix1 c)) 0)
        * disA m d (ix2 (0 : Fin 1) n) := by
  show TcVal.midU (F := Ideal) (W6 m d (rf main_v13)) (u0A m d) (disA m d) (W6 m d (rf main_v5)) (W6 m d (rf main_arg5)) (ix2 k n) = _
  rw [KernelPay.midU_apply, e_v5, e_arg5]
  simp only [KernelPay.act, shapeCast_a_a1_apply]

theorem u2_apply (k : Fin 128) (n : Fin 10000) :
    u2A m d (ix2 k n) = (∑ c : Fin 128, W2A m d (ix2 c k)
      * max ((s1M m d (ix2 c n) + u1A m d (ix2 c n)) * disA m d (ix2 (0 : Fin 1) n) + b1A m d (ix1 c)) 0)
        * disA m d (ix2 (0 : Fin 1) n) := by
  show TcVal.midU (F := Ideal) (W10 m d (rf main_v17)) (u1A m d) (disA m d) (W10 m d (rf main_v6)) (W10 m d (rf main_arg7)) (ix2 k n) = _
  rw [KernelPay.midU_apply, e_v6, e_arg7]
  simp only [KernelPay.act, shapeCast_a_a1_apply]

theorem out_apply (g : Fin 64) (c : Fin 16) :
    outA m d (ix2 g c) = (∑ k : Fin 128,
        Ideal.div (∑ n : Fin 10000, max ((s2M m d (ix2 k n) + u2A m d (ix2 k n)) * disA m d (ix2 (0 : Fin 1) n)
            + b2A m d (ix1 k)) 0 * BridgeAlg.onehot (batchA m d) n g)
          (max (∑ n : Fin 10000, (1 : EReal) * BridgeAlg.onehot (batchA m d) n g) 1) * WlA m d (ix2 k c)) + blA m d (ix1 c) := by
  show TcVal.finalOut (F := Ideal) (W14 m d (rf main_v21)) (u2A m d) (disA m d) (W14 m d (rf main_v7)) (W14 m d (rf main_v4))
    (W14 m d (rf main_arg9)) (W14 m d (rf main_v8)) (ix2 g c) = _
  rw [KernelPay.finalOut_apply, e_v7, e_v4, e_arg9, e_v8]
  simp only [KernelPay.act, KernelPay.oh, BridgeAlg.onehot, shapeCast_a_a1_apply, shapeCast_a_1a_apply, BridgeAlg.word_eq_ofNat_iff]

theorem outA_eq_of (hei : ∀ j, (eiA m d j).toNat < 10000) (hx : ∀ j, BridgeAlg.IsReal (xA m d j))
    (hW0 : ∀ j, BridgeAlg.IsReal (W0A m d j)) (hb0 : ∀ j, BridgeAlg.IsReal (b0A m d j))
    (hW1 : ∀ j, BridgeAlg.IsReal (W1A m d j)) (hb1 : ∀ j, BridgeAlg.IsReal (b1A m d j))
    (hW2 : ∀ j, BridgeAlg.IsReal (W2A m d j)) :
    outA (F := Ideal) m d = Cert.GcnSpec.gcnRef (xA m d) (eiA m d) (batchA m d) (W0A m d) (b0A m d) (W1A m d) (b1A m d)
      (W2A m d) (b2A m d) (WlA m d) (blA m d) := by
  funext j
  obtain ⟨g, c, rfl⟩ : ∃ (g : Fin 64) (c : Fin 16), j = ix2 g c := ⟨j 0, j 1, eq_ix2 j⟩
  rw [out_apply]
  exact BridgeAlg.gcn_bridge (xA m d) (eiA m d) (batchA m d) (W0A m d) (b0A m d) (W1A m d) (b1A m d) (W2A m d) (b2A m d)
    (WlA m d) (blA m d) hx hW0 hb0 hW1 hb1 hW2 (fun n => disA m d (ix2 (0 : Fin 1) n)) (disA_apply m d hei)
    (fun k n => u0A m d (ix2 k n)) (fun k i => s0M m d (ix2 k i))
    (fun k n => u1A m d (ix2 k n)) (fun k i => s1M m d (ix2 k i))
    (fun k n => u2A m d (ix2 k n)) (fun k i => s2M m d (ix2 k i))
    (u0_apply m d) (s0_apply m d hei) (u1_apply m d) (s1_apply m d hei) (u2_apply m d) (s2_apply m d hei) g c

theorem edge_lt (hpre : Cert.Pre_KernelIdeal m) (c : Dev nD) : ∀ j, (m (tcLoc c main_arg1) j).toNat < 10000 :=
  (Cert.PreDecode.decode _ _ _ _ _ _ _ _ _ _ _ (hpre c)).1

theorem outA_eq (hpre : Cert.Pre_KernelIdeal m) (c : Dev nD) :
    outA (F := Ideal) m c = Cert.GcnSpec.gcnRef (m (tcLoc c main_arg0)) (m (tcLoc c main_arg1)) (m (tcLoc c main_arg2))
      (m (tcLoc c main_arg3)) (m (tcLoc c main_arg4)) (m (tcLoc c main_arg5)) (m (tcLoc c main_arg6)) (m (tcLoc c main_arg7))
      (m (tcLoc c main_arg8)) (m (tcLoc c main_arg9)) (m (tcLoc c main_arg10)) := by
  obtain ⟨h1, _, h0, h3, h4, h5, h6, h7, _, _, _⟩ := Cert.PreDecode.decode _ _ _ _ _ _ _ _ _ _ _ (hpre c)
  exact outA_eq_of m c h1 (fun j => Cert.PreDecode.real_of_absLt _ (h0 j)) (fun j => Cert.PreDecode.real_of_absLt _ (h3 j))
    (fun j => Cert.PreDecode.real_of_absLt _ (h4 j)) (fun j => Cert.PreDecode.real_of_absLt _ (h5 j))
    (fun j => Cert.PreDecode.real_of_absLt _ (h6 j)) (fun j => Cert.PreDecode.real_of_absLt _ (h7 j))

end Cert.KernelIdeal.KernelValue
-- ==== Proof.lean ====
import proofs.«213134_g57071525429591_cont_9to1_m_136_24_alg».proof.Defs
import proofs.«213134_g57071525429591_cont_9to1_m_136_24_alg».proof.Proof.Gen.Kernel
import proofs.«213134_g57071525429591_cont_9to1_m_136_24_alg».proof.Proof.Gen.KernelIdeal
import proofs.«213134_g57071525429591_cont_9to1_m_136_24_alg».proof.Proof.Gen.ReferenceIdeal
import proofs.«213134_g57071525429591_cont_9to1_m_136_24_alg».proof.Proof.Gen.Pre_input_domain
import proofs.«213134_g57071525429591_cont_9to1_m_136_24_alg».proof.Proof.Runs
import proofs.«213134_g57071525429591_cont_9to1_m_136_24_alg».proof.Proof.RefFrame
import proofs.«213134_g57071525429591_cont_9to1_m_136_24_alg».proof.Proof.RefValue
import proofs.«213134_g57071525429591_cont_9to1_m_136_24_alg».proof.Proof.KernelValue

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

-- The ideal reading rewrites no operation here: both programs are one text, generic in the float instance, equal by unfolding.
set_option maxHeartbeats 6400000 in
set_option smartUnfolding false in
theorem run_sameText {F : FTy → Type} [FloatOps F] (st : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (Cert.KernelIdeal.threads (F := F)) st Q) :
    θ_run (Cert.Kernel.defs (F := F)) (Cert.Kernel.threads (F := F)) st Q := h

theorem frame_k : Cert.frame_Kernel := fun m ρ hpre =>
  (θ_run Cert.Kernel.defs _ _).mono (fun _ h c => (h c).2)
    (run_sameText _ _ (Cert.KernelIdeal.Setup.run (F := Bits) m ρ (fun d => (Cert.PreDecode.decode _ _ _ _ _ _ _ _ _ _ _ (hpre d)).1)))

theorem frame_ki : Cert.frame_KernelIdeal := fun m ρ hpre =>
  (θ_run Cert.KernelIdeal.defs _ _).mono (fun _ h c => (h c).2) (Cert.KernelIdeal.Setup.run m ρ (fun d => Cert.KernelIdeal.KernelValue.edge_lt m hpre d))

theorem algebraic : Cert.algebraic_KernelIdeal_ReferenceIdeal := by
  intro m ρ m' ρ' hpre hagree
  refine ⟨fun c => Cert.KernelIdeal.Setup.outA (F := Ideal) m c,
    Cert.KernelIdeal.Setup.run m ρ (fun d => Cert.KernelIdeal.KernelValue.edge_lt m hpre d), ?_⟩
  refine (θ_run Cert.ReferenceIdeal.defs _ _).mono (fun _ h c => ⟨(h c).1.trans ?_, (h c).2⟩)
    (Cert.ReferenceIdeal.Value.run (F := Ideal) m' ρ')
  have hei : ∀ j, (m' ((c.tc : Thread Cert.ReferenceIdeal.nD Cert.ReferenceIdeal.τ).loc Cert.ReferenceIdeal.main_arg1) j).toNat < 10000 := by
    rw [(hagree c).2.1]
    exact Cert.KernelIdeal.KernelValue.edge_lt m hpre c
  show Cert.ReferenceIdeal.Value.res_main_v194 m' c = Cert.KernelIdeal.Setup.outA (F := Ideal) m c
  rw [Cert.ReferenceIdeal.RefValue.res_eq_gcnRef m' c hei, Cert.KernelIdeal.KernelValue.outA_eq m hpre c,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, trivial, algebraic⟩

end Cert.Proof

end
